-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v168)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v168) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S8x8192x8 : Shape := ⟨3, ![8, 8192, 8]⟩
abbrev S64x256 : Shape := ⟨2, ![64, 256]⟩
abbrev S256x256 : Shape := ⟨2, ![256, 256]⟩
abbrev S256x1 : Shape := ⟨2, ![256, 1]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S8x8192x8 : S_.BroadcastsInDim S8x8192x8 (![] : Fin 0 → Fin S8x8192x8.rank)
  reducesTo_S8x8192x8_S_d0_1_2 : S8x8192x8.ReducesTo [0, 1, 2] S_
  bcast_S_S64x256 : S_.BroadcastsInDim S64x256 (![] : Fin 0 → Fin S64x256.rank)
  reducesTo_S64x256_S_d0_1 : S64x256.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_

variable [Facts]

def fn_part2 {F : FTy → Type} [FloatOps F] (main_arg0 : FVec F S262144x2 .f32) (main_v32 : IVec S_ 1) (main_cst_12 : FVec F S_ .f32) : IVec S_ 1 :=
  let main_v33 : FVec F S262144x2 .f32 := broadcastInDim S262144x2 ![] bcast_S_S262144x2 main_cst_12
  let main_v34 : IVec S262144x2 1 := cmpf .olt main_arg0 main_v33
  let main_c_13 : IVec S_ 1 := constantI S_ 1 1#1
  let main_v35 : IVec S_ 1 := (fun x v => Host.reduce IntOp.andi x v reducesTo_S262144x2_S_d0_1 h_S_) main_v34 main_c_13
  let main_v36 : IVec S_ 1 := andi main_v32 main_v35
  main_v36

def fn_part1 {F : FTy → Type} [FloatOps F] (main_arg0 : FVec F S262144x2 .f32) (main_arg4 : FVec F S256x256 .f32) (main_arg5 : FVec F S256x1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_cst_10 : FVec F S_ .f32 := constant S_ .f32 0x00000000#32
  let main_v29 : FVec F S262144x2 .f32 := broadcastInDim S262144x2 ![] bcast_S_S262144x2 main_cst_10
  let main_v30 : IVec S262144x2 1 := cmpf .oge main_arg0 main_v29
  let main_c_11 : IVec S_ 1 := constantI S_ 1 1#1
  let main_v31 : IVec S_ 1 := (fun x v => Host.reduce IntOp.andi x v reducesTo_S262144x2_S_d0_1 h_S_) main_v30 main_c_11
  let main_v32 : IVec S_ 1 := andi main_v28 main_v31
  let main_cst_12 : FVec F S_ .f32 := constant S_ .f32 0x3F800000#32
  fn_part2 (F := F) main_arg0 main_v32 main_cst_12

def fn {F : FTy → Type} [FloatOps F] (main_arg0 : FVec F S262144x2 .f32) (main_arg1 : FVec F S8x8192x8 .f32) (main_arg2 : FVec F S64x256 .f32) (main_arg3 : FVec F S256x256 .f32) (main_arg4 : FVec F S256x256 .f32) (main_arg5 : FVec F S256x1 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S8x8192x8 .f32 := Host.absf main_arg1
  let main_cst_0 : FVec F S_ .f32 := constant S_ .f32 0x7F800000#32
  let main_v5 : FVec F S8x8192x8 .f32 := broadcastInDim S8x8192x8 ![] bcast_S_S8x8192x8 main_cst_0
  let main_v6 : IVec S8x8192x8 1 := cmpf .olt main_v4 main_v5
  let main_c_1 : IVec S_ 1 := constantI S_ 1 1#1
  let main_v7 : IVec S_ 1 := (fun x v => Host.reduce IntOp.andi x v reducesTo_S8x8192x8_S_d0_1_2 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg0 main_arg4 main_arg5 main_v13 main_v16
-- ==== Kernel.lean ====
abbrev S262144x2 : Shape := ⟨2, ![262144, 2]⟩
abbrev S8x8192x8 : Shape := ⟨3, ![8, 8192, 8]⟩
abbrev S64x256 : Shape := ⟨2, ![64, 256]⟩
abbrev S256x256 : Shape := ⟨2, ![256, 256]⟩
abbrev S256x1 : Shape := ⟨2, ![256, 1]⟩
abbrev S17 : Shape := ⟨1, ![17]⟩
abbrev S1x17 : Shape := ⟨2, ![1, 17]⟩
abbrev S17x1 : Shape := ⟨2, ![17, 1]⟩
abbrev S_ : Shape := ⟨0, ![]⟩
abbrev S17x17 : Shape := ⟨2, ![17, 17]⟩
abbrev S1x8192x8 : Shape := ⟨3, ![1, 8192, 8]⟩
abbrev S8192x8 : Shape := ⟨2, ![8192, 8]⟩
abbrev S17x17x1 : Shape := ⟨3, ![17, 17, 1]⟩
abbrev S17x17x8 : Shape := ⟨3, ![17, 17, 8]⟩
abbrev S17x136 : Shape := ⟨2, ![17, 136]⟩
abbrev S22 : Shape := ⟨1, ![22]⟩
abbrev S1x22 : Shape := ⟨2, ![1, 22]⟩
abbrev S22x1 : Shape := ⟨2, ![22, 1]⟩
abbrev S22x22 : Shape := ⟨2, ![22, 22]⟩
abbrev S22x22x1 : Shape := ⟨3, ![22, 22, 1]⟩
abbrev S22x22x8 : Shape := ⟨3, ![22, 22, 8]⟩
abbrev S22x176 : Shape := ⟨2, ![22, 176]⟩
abbrev S27 : Shape := ⟨1, ![27]⟩
abbrev S1x27 : Shape := ⟨2, ![1, 27]⟩
abbrev S27x1 : Shape := ⟨2, ![27, 1]⟩
abbrev S27x27 : Shape := ⟨2, ![27, 27]⟩
abbrev S27x27x1 : Shape := ⟨3, ![27, 27, 1]⟩
abbrev S27x27x8 : Shape := ⟨3, ![27, 27, 8]⟩
abbrev S27x216 : Shape := ⟨2, ![27, 216]⟩
abbrev S34 : Shape := ⟨1, ![34]⟩
abbrev S1x34 : Shape := ⟨2, ![1, 34]⟩
abbrev S34x1 : Shape := ⟨2, ![34, 1]⟩
abbrev S34x34 : Shape := ⟨2, ![34, 34]⟩
abbrev S34x34x1 : Shape := ⟨3, ![34, 34, 1]⟩
abbrev S34x34x8 : Shape := ⟨3, ![34, 34, 8]⟩
abbrev S34x272 : Shape := ⟨2, ![34, 272]⟩
abbrev S42 : Shape := ⟨1, ![42]⟩
abbrev S1x42 : Shape := ⟨2, ![1, 42]⟩
abbrev S42x1 : Shape := ⟨2, ![42, 1]⟩
abbrev S42x42 : Shape := ⟨2, ![42, 42]⟩
abbrev S42x42x1 : Shape := ⟨3, ![42, 42, 1]⟩
abbrev S42x42x8 : Shape := ⟨3, ![42, 42, 8]⟩
abbrev S42x336 : Shape := ⟨2, ![42, 336]⟩
abbrev S52 : Shape := ⟨1, ![52]⟩
abbrev S1x52 : Shape := ⟨2, ![1, 52]⟩
abbrev S52x1 : Shape := ⟨2, ![52, 1]⟩
abbrev S52x52 : Shape := ⟨2, ![52, 52]⟩
abbrev S52x52x1 : Shape := ⟨3, ![52, 52, 1]⟩
abbrev S52x52x8 : Shape := ⟨3, ![52, 52, 8]⟩
abbrev S52x416 : Shape := ⟨2, ![52, 416]⟩
abbrev S66 : Shape := ⟨1, ![66]⟩
abbrev S1x66 : Shape := ⟨2, ![1, 66]⟩
abbrev S66x1 : Shape := ⟨2, ![66, 1]⟩
abbrev S66x66 : Shape := ⟨2, ![66, 66]⟩
abbrev S66x66x1 : Shape := ⟨3, ![66, 66, 1]⟩
abbrev S66x66x8 : Shape := ⟨3, ![66, 66, 8]⟩
abbrev S66x528 : Shape := ⟨2, ![66, 528]⟩
abbrev S82 : Shape := ⟨1, ![82]⟩
abbrev S1x82 : Shape := ⟨2, ![1, 82]⟩
abbrev S82x1 : Shape := ⟨2, ![82, 1]⟩
abbrev S82x82 : Shape := ⟨2, ![82, 82]⟩
abbrev S82x82x1 : Shape := ⟨3, ![82, 82, 1]⟩
abbrev S82x82x8 : Shape := ⟨3, ![82, 82, 8]⟩
abbrev S82x656 : Shape := ⟨2, ![82, 656]⟩
abbrev S262144x1 : Shape := ⟨2, ![262144, 1]⟩
abbrev S2048x2 : Shape := ⟨2, ![2048, 2]⟩
abbrev S2048x1 : Shape := ⟨2, ![2048, 1]⟩
abbrev S2048x17 : Shape := ⟨2, ![2048, 17]⟩
abbrev S2048x136 : Shape := ⟨2, ![2048, 136]⟩
abbrev S2048x17x8 : Shape := ⟨3, ![2048, 17, 8]⟩
abbrev S2048x17x1 : Shape := ⟨3, ![2048, 17, 1]⟩
abbrev S2048x8 : Shape := ⟨2, ![2048, 8]⟩
abbrev S2048x22 : Shape := ⟨2, ![2048, 22]⟩
abbrev S2048x176 : Shape := ⟨2, ![2048, 176]⟩
abbrev S2048x22x8 : Shape := ⟨3, ![2048, 22, 8]⟩
abbrev S2048x22x1 : Shape := ⟨3, ![2048, 22, 1]⟩
abbrev S2048x27 : Shape := ⟨2, ![2048, 27]⟩
abbrev S2048x216 : Shape := ⟨2, ![2048, 216]⟩
abbrev S2048x27x8 : Shape := ⟨3, ![2048, 27, 8]⟩
abbrev S2048x27x1 : Shape := ⟨3, ![2048, 27, 1]⟩
abbrev S2048x34 : Shape := ⟨2, ![2048, 34]⟩
abbrev S2048x272 : Shape := ⟨2, ![2048, 272]⟩
abbrev S2048x34x8 : Shape := ⟨3, ![2048, 34, 8]⟩
abbrev S2048x34x1 : Shape := ⟨3, ![2048, 34, 1]⟩
abbrev S2048x42 : Shape := ⟨2, ![2048, 42]⟩
abbrev S2048x336 : Shape := ⟨2, ![2048, 336]⟩
abbrev S2048x42x8 : Shape := ⟨3, ![2048, 42, 8]⟩
abbrev S2048x42x1 : Shape := ⟨3, ![2048, 42, 1]⟩
abbrev S2048x52 : Shape := ⟨2, ![2048, 52]⟩
abbrev S2048x416 : Shape := ⟨2, ![2048, 416]⟩
abbrev S2048x52x8 : Shape := ⟨3, ![2048, 52, 8]⟩
abbrev S2048x52x1 : Shape := ⟨3, ![2048, 52, 1]⟩
abbrev S2048x66 : Shape := ⟨2, ![2048, 66]⟩
abbrev S2048x528 : Shape := ⟨2, ![2048, 528]⟩
abbrev S2048x66x8 : Shape := ⟨3, ![2048, 66, 8]⟩
abbrev S2048x66x1 : Shape := ⟨3, ![2048, 66, 1]⟩
abbrev S2048x82 : Shape := ⟨2, ![2048, 82]⟩
abbrev S2048x656 : Shape := ⟨2, ![2048, 656]⟩
abbrev S2048x82x8 : Shape := ⟨3, ![2048, 82, 8]⟩
abbrev S2048x82x1 : Shape := ⟨3, ![2048, 82, 1]⟩
abbrev S2048x64 : Shape := ⟨2, ![2048, 64]⟩
abbrev S2048x256 : Shape := ⟨2, ![2048, 256]⟩

abbrev nBuf : Space → Nat
  | .hbm => 367
  | .vmem => 16
  | .smem => 0
  | _ => 0

abbrev hbmTy0_0 (i : Nat) : BufTy := match i % 128 with
  | 0 => ⟨S262144x2, .f32⟩
  | 1 => ⟨S8x8192x8, .f32⟩
  | 2 => ⟨S64x256, .f32⟩
  | 3 => ⟨S256x256, .f32⟩
  | 4 => ⟨S256x256, .f32⟩
  | 5 => ⟨S256x1, .f32⟩
  | 6 => ⟨S17, .i32⟩
  | 7 => ⟨S17, .i32⟩
  | 8 => ⟨S1x17, .i32⟩
  | 9 => ⟨S17x1, .i32⟩
  | 10 => ⟨S_, .i32⟩
  | 11 => ⟨S17x1, .i32⟩
  | 12 => ⟨S17x1, .i32⟩
  | 13 => ⟨S17x17, .i32⟩
  | 14 => ⟨S17x17, .i32⟩
  | 15 => ⟨S17x17, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S17x17, .i32⟩
  | 23 => ⟨S17x17, .i32⟩
  | 24 => ⟨S_, .i32⟩
  | 25 => ⟨S17x17, .i32⟩
  | 26 => ⟨S17x17, .i1⟩
  | 27 => ⟨S_, .i32⟩
  | 28 => ⟨S17x17, .i32⟩
  | 29 => ⟨S17x17, .i1⟩
  | 30 => ⟨S_, .i32⟩
  | 31 => ⟨S_, .i1⟩
  | 32 => ⟨S17x17, .i1⟩
  | 33 => ⟨S17x17, .i1⟩
  | 34 => ⟨S17x17, .i1⟩
  | 35 => ⟨S17x17, .i32⟩
  | 36 => ⟨S17x17, .i32⟩
  | 37 => ⟨S17x17, .i32⟩
  | 38 => ⟨S1x8192x8, .f32⟩
  | 39 => ⟨S8192x8, .f32⟩
  | 40 => ⟨S_, .i32⟩
  | 41 => ⟨S17x17, .i32⟩
  | 42 => ⟨S17x17, .i1⟩
  | 43 => ⟨S_, .i32⟩
  | 44 => ⟨S17x17, .i32⟩
  | 45 => ⟨S17x17, .i32⟩
  | 46 => ⟨S17x17, .i32⟩
  | 47 => ⟨S17x17x1, .i32⟩
  | 48 => ⟨S17x17x8, .f32⟩
  | 49 => ⟨S17x17x8, .f32⟩
  | 50 => ⟨S17x136, .f32⟩
  | 51 => ⟨S22, .i32⟩
  | 52 => ⟨S22, .i32⟩
  | 53 => ⟨S1x22, .i32⟩
  | 54 => ⟨S22x1, .i32⟩
  | 55 => ⟨S_, .i32⟩
  | 56 => ⟨S22x1, .i32⟩
  | 57 => ⟨S22x1, .i32⟩
  | 58 => ⟨S22x22, .i32⟩
  | 59 => ⟨S22x22, .i32⟩
  | 60 => ⟨S22x22, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S22x22, .i32⟩
  | 68 => ⟨S22x22, .i32⟩
  | 69 => ⟨S_, .i32⟩
  | 70 => ⟨S22x22, .i32⟩
  | 71 => ⟨S22x22, .i1⟩
  | 72 => ⟨S_, .i32⟩
  | 73 => ⟨S22x22, .i32⟩
  | 74 => ⟨S22x22, .i1⟩
  | 75 => ⟨S_, .i32⟩
  | 76 => ⟨S_, .i1⟩
  | 77 => ⟨S22x22, .i1⟩
  | 78 => ⟨S22x22, .i1⟩
  | 79 => ⟨S22x22, .i1⟩
  | 80 => ⟨S22x22, .i32⟩
  | 81 => ⟨S22x22, .i32⟩
  | 82 => ⟨S22x22, .i32⟩
  | 83 => ⟨S1x8192x8, .f32⟩
  | 84 => ⟨S8192x8, .f32⟩
  | 85 => ⟨S_, .i32⟩
  | 86 => ⟨S22x22, .i32⟩
  | 87 => ⟨S22x22, .i1⟩
  | 88 => ⟨S_, .i32⟩
  | 89 => ⟨S22x22, .i32⟩
  | 90 => ⟨S22x22, .i32⟩
  | 91 => ⟨S22x22, .i32⟩
  | 92 => ⟨S22x22x1, .i32⟩
  | 93 => ⟨S22x22x8, .f32⟩
  | 94 => ⟨S22x22x8, .f32⟩
  | 95 => ⟨S22x176, .f32⟩
  | 96 => ⟨S27, .i32⟩
  | 97 => ⟨S27, .i32⟩
  | 98 => ⟨S1x27, .i32⟩
  | 99 => ⟨S27x1, .i32⟩
  | 100 => ⟨S_, .i32⟩
  | 101 => ⟨S27x1, .i32⟩
  | 102 => ⟨S27x1, .i32⟩
  | 103 => ⟨S27x27, .i32⟩
  | 104 => ⟨S27x27, .i32⟩
  | 105 => ⟨S27x27, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S27x27, .i32⟩
  | 113 => ⟨S27x27, .i32⟩
  | 114 => ⟨S_, .i32⟩
  | 115 => ⟨S27x27, .i32⟩
  | 116 => ⟨S27x27, .i1⟩
  | 117 => ⟨S_, .i32⟩
  | 118 => ⟨S27x27, .i32⟩
  | 119 => ⟨S27x27, .i1⟩
  | 120 => ⟨S_, .i32⟩
  | 121 => ⟨S_, .i1⟩
  | 122 => ⟨S27x27, .i1⟩
  | 123 => ⟨S27x27, .i1⟩
  | 124 => ⟨S27x27, .i1⟩
  | 125 => ⟨S27x27, .i32⟩
  | 126 => ⟨S27x27, .i32⟩
  | 127 => ⟨S27x27, .i32⟩
  | _ => ⟨S262144x2, .f32⟩

abbrev hbmTy0_1 (i : Nat) : BufTy := match i % 128 with
  | 0 => ⟨S1x8192x8, .f32⟩
  | 1 => ⟨S8192x8, .f32⟩
  | 2 => ⟨S_, .i32⟩
  | 3 => ⟨S27x27, .i32⟩
  | 4 => ⟨S27x27, .i1⟩
  | 5 => ⟨S_, .i32⟩
  | 6 => ⟨S27x27, .i32⟩
  | 7 => ⟨S27x27, .i32⟩
  | 8 => ⟨S27x27, .i32⟩
  | 9 => ⟨S27x27x1, .i32⟩
  | 10 => ⟨S27x27x8, .f32⟩
  | 11 => ⟨S27x27x8, .f32⟩
  | 12 => ⟨S27x216, .f32⟩
  | 13 => ⟨S34, .i32⟩
  | 14 => ⟨S34, .i32⟩
  | 15 => ⟨S1x34, .i32⟩
  | 16 => ⟨S34x1, .i32⟩
  | 17 => ⟨S_, .i32⟩
  | 18 => ⟨S34x1, .i32⟩
  | 19 => ⟨S34x1, .i32⟩
  | 20 => ⟨S34x34, .i32⟩
  | 21 => ⟨S34x34, .i32⟩
  | 22 => ⟨S34x34, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S34x34, .i32⟩
  | 30 => ⟨S34x34, .i32⟩
  | 31 => ⟨S_, .i32⟩
  | 32 => ⟨S34x34, .i32⟩
  | 33 => ⟨S34x34, .i1⟩
  | 34 => ⟨S_, .i32⟩
  | 35 => ⟨S34x34, .i32⟩
  | 36 => ⟨S34x34, .i1⟩
  | 37 => ⟨S_, .i32⟩
  | 38 => ⟨S_, .i1⟩
  | 39 => ⟨S34x34, .i1⟩
  | 40 => ⟨S34x34, .i1⟩
  | 41 => ⟨S34x34, .i1⟩
  | 42 => ⟨S34x34, .i32⟩
  | 43 => ⟨S34x34, .i32⟩
  | 44 => ⟨S34x34, .i32⟩
  | 45 => ⟨S1x8192x8, .f32⟩
  | 46 => ⟨S8192x8, .f32⟩
  | 47 => ⟨S_, .i32⟩
  | 48 => ⟨S34x34, .i32⟩
  | 49 => ⟨S34x34, .i1⟩
  | 50 => ⟨S_, .i32⟩
  | 51 => ⟨S34x34, .i32⟩
  | 52 => ⟨S34x34, .i32⟩
  | 53 => ⟨S34x34, .i32⟩
  | 54 => ⟨S34x34x1, .i32⟩
  | 55 => ⟨S34x34x8, .f32⟩
  | 56 => ⟨S34x34x8, .f32⟩
  | 57 => ⟨S34x272, .f32⟩
  | 58 => ⟨S42, .i32⟩
  | 59 => ⟨S42, .i32⟩
  | 60 => ⟨S1x42, .i32⟩
  | 61 => ⟨S42x1, .i32⟩
  | 62 => ⟨S_, .i32⟩
  | 63 => ⟨S42x1, .i32⟩
  | 64 => ⟨S42x1, .i32⟩
  | 65 => ⟨S42x42, .i32⟩
  | 66 => ⟨S42x42, .i32⟩
  | 67 => ⟨S42x42, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S42x42, .i32⟩
  | 75 => ⟨S42x42, .i32⟩
  | 76 => ⟨S_, .i32⟩
  | 77 => ⟨S42x42, .i32⟩
  | 78 => ⟨S42x42, .i1⟩
  | 79 => ⟨S_, .i32⟩
  | 80 => ⟨S42x42, .i32⟩
  | 81 => ⟨S42x42, .i1⟩
  | 82 => ⟨S_, .i32⟩
  | 83 => ⟨S_, .i1⟩
  | 84 => ⟨S42x42, .i1⟩
  | 85 => ⟨S42x42, .i1⟩
  | 86 => ⟨S42x42, .i1⟩
  | 87 => ⟨S42x42, .i32⟩
  | 88 => ⟨S42x42, .i32⟩
  | 89 => ⟨S42x42, .i32⟩
  | 90 => ⟨S1x8192x8, .f32⟩
  | 91 => ⟨S8192x8, .f32⟩
  | 92 => ⟨S_, .i32⟩
  | 93 => ⟨S42x42, .i32⟩
  | 94 => ⟨S42x42, .i1⟩
  | 95 => ⟨S_, .i32⟩
  | 96 => ⟨S42x42, .i32⟩
  | 97 => ⟨S42x42, .i32⟩
  | 98 => ⟨S42x42, .i32⟩
  | 99 => ⟨S42x42x1, .i32⟩
  | 100 => ⟨S42x42x8, .f32⟩
  | 101 => ⟨S42x42x8, .f32⟩
  | 102 => ⟨S42x336, .f32⟩
  | 103 => ⟨S52, .i32⟩
  | 104 => ⟨S52, .i32⟩
  | 105 => ⟨S1x52, .i32⟩
  | 106 => ⟨S52x1, .i32⟩
  | 107 => ⟨S_, .i32⟩
  | 108 => ⟨S52x1, .i32⟩
  | 109 => ⟨S52x1, .i32⟩
  | 110 => ⟨S52x52, .i32⟩
  | 111 => ⟨S52x52, .i32⟩
  | 112 => ⟨S52x52, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S52x52, .i32⟩
  | 120 => ⟨S52x52, .i32⟩
  | 121 => ⟨S_, .i32⟩
  | 122 => ⟨S52x52, .i32⟩
  | 123 => ⟨S52x52, .i1⟩
  | 124 => ⟨S_, .i32⟩
  | 125 => ⟨S52x52, .i32⟩
  | 126 => ⟨S52x52, .i1⟩
  | 127 => ⟨S_, .i32⟩
  | _ => ⟨S262144x2, .f32⟩

abbrev hbmTy0_2 (i : Nat) : BufTy := match i % 128 with
  | 0 => ⟨S_, .i1⟩
  | 1 => ⟨S52x52, .i1⟩
  | 2 => ⟨S52x52, .i1⟩
  | 3 => ⟨S52x52, .i1⟩
  | 4 => ⟨S52x52, .i32⟩
  | 5 => ⟨S52x52, .i32⟩
  | 6 => ⟨S52x52, .i32⟩
  | 7 => ⟨S1x8192x8, .f32⟩
  | 8 => ⟨S8192x8, .f32⟩
  | 9 => ⟨S_, .i32⟩
  | 10 => ⟨S52x52, .i32⟩
  | 11 => ⟨S52x52, .i1⟩
  | 12 => ⟨S_, .i32⟩
  | 13 => ⟨S52x52, .i32⟩
  | 14 => ⟨S52x52, .i32⟩
  | 15 => ⟨S52x52, .i32⟩
  | 16 => ⟨S52x52x1, .i32⟩
  | 17 => ⟨S52x52x8, .f32⟩
  | 18 => ⟨S52x52x8, .f32⟩
  | 19 => ⟨S52x416, .f32⟩
  | 20 => ⟨S66, .i32⟩
  | 21 => ⟨S66, .i32⟩
  | 22 => ⟨S1x66, .i32⟩
  | 23 => ⟨S66x1, .i32⟩
  | 24 => ⟨S_, .i32⟩
  | 25 => ⟨S66x1, .i32⟩
  | 26 => ⟨S66x1, .i32⟩
  | 27 => ⟨S66x66, .i32⟩
  | 28 => ⟨S66x66, .i32⟩
  | 29 => ⟨S66x66, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S66x66, .i32⟩
  | 37 => ⟨S66x66, .i32⟩
  | 38 => ⟨S_, .i32⟩
  | 39 => ⟨S66x66, .i32⟩
  | 40 => ⟨S66x66, .i1⟩
  | 41 => ⟨S_, .i32⟩
  | 42 => ⟨S66x66, .i32⟩
  | 43 => ⟨S66x66, .i1⟩
  | 44 => ⟨S_, .i32⟩
  | 45 => ⟨S_, .i1⟩
  | 46 => ⟨S66x66, .i1⟩
  | 47 => ⟨S66x66, .i1⟩
  | 48 => ⟨S66x66, .i1⟩
  | 49 => ⟨S66x66, .i32⟩
  | 50 => ⟨S66x66, .i32⟩
  | 51 => ⟨S66x66, .i32⟩
  | 52 => ⟨S1x8192x8, .f32⟩
  | 53 => ⟨S8192x8, .f32⟩
  | 54 => ⟨S_, .i32⟩
  | 55 => ⟨S66x66, .i32⟩
  | 56 => ⟨S66x66, .i1⟩
  | 57 => ⟨S_, .i32⟩
  | 58 => ⟨S66x66, .i32⟩
  | 59 => ⟨S66x66, .i32⟩
  | 60 => ⟨S66x66, .i32⟩
  | 61 => ⟨S66x66x1, .i32⟩
  | 62 => ⟨S66x66x8, .f32⟩
  | 63 => ⟨S66x66x8, .f32⟩
  | 64 => ⟨S66x528, .f32⟩
  | 65 => ⟨S82, .i32⟩
  | 66 => ⟨S82, .i32⟩
  | 67 => ⟨S1x82, .i32⟩
  | 68 => ⟨S82x1, .i32⟩
  | 69 => ⟨S_, .i32⟩
  | 70 => ⟨S82x1, .i32⟩
  | 71 => ⟨S82x1, .i32⟩
  | 72 => ⟨S82x82, .i32⟩
  | 73 => ⟨S82x82, .i32⟩
  | 74 => ⟨S82x82, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S82x82, .i32⟩
  | 82 => ⟨S82x82, .i32⟩
  | 83 => ⟨S_, .i32⟩
  | 84 => ⟨S82x82, .i32⟩
  | 85 => ⟨S82x82, .i1⟩
  | 86 => ⟨S_, .i32⟩
  | 87 => ⟨S82x82, .i32⟩
  | 88 => ⟨S82x82, .i1⟩
  | 89 => ⟨S_, .i32⟩
  | 90 => ⟨S_, .i1⟩
  | 91 => ⟨S82x82, .i1⟩
  | 92 => ⟨S82x82, .i1⟩
  | 93 => ⟨S82x82, .i1⟩
  | 94 => ⟨S82x82, .i32⟩
  | 95 => ⟨S82x82, .i32⟩
  | 96 => ⟨S82x82, .i32⟩
  | 97 => ⟨S1x8192x8, .f32⟩
  | 98 => ⟨S8192x8, .f32⟩
  | 99 => ⟨S_, .i32⟩
  | 100 => ⟨S82x82, .i32⟩
  | 101 => ⟨S82x82, .i1⟩
  | 102 => ⟨S_, .i32⟩
  | 103 => ⟨S82x82, .i32⟩
  | 104 => ⟨S82x82, .i32⟩
  | 105 => ⟨S82x82, .i32⟩
  | 106 => ⟨S82x82x1, .i32⟩
  | 107 => ⟨S82x82x8, .f32⟩
  | 108 => ⟨S82x82x8, .f32⟩
  | 109 => ⟨S82x656, .f32⟩
  | 110 => ⟨S262144x1, .f32⟩
  | _ => ⟨S262144x2, .f32⟩

abbrev hbmTy (i : Nat) : BufTy := match i / 128 with
  | 0 => hbmTy0_0 i
  | 1 => hbmTy0_1 i
  | 2 => hbmTy0_2 i
  | _ => ⟨S262144x2, .f32⟩

abbrev bufTy : (tb : Table) → Fin (tcTables nBuf tb) → BufTy
  | .hbm, ⟨i, _⟩ => hbmTy i
  | .local _ .vmem, ⟨0, _⟩ => ⟨S2048x2, .f32⟩
  | .local _ .vmem, ⟨1, _⟩ => ⟨S2048x2, .f32⟩
  | .local _ .vmem, ⟨2, _⟩ => ⟨S17x136, .f32⟩
  | .local _ .vmem, ⟨3, _⟩ => ⟨S22x176, .f32⟩
  | .local _ .vmem, ⟨4, _⟩ => ⟨S27x216, .f32⟩
  | .local _ .vmem, ⟨5, _⟩ => ⟨S34x272, .f32⟩
  | .local _ .vmem, ⟨6, _⟩ => ⟨S42x336, .f32⟩
  | .local _ .vmem, ⟨7, _⟩ => ⟨S52x416, .f32⟩
  | .local _ .vmem, ⟨8, _⟩ => ⟨S66x528, .f32⟩
  | .local _ .vmem, ⟨9, _⟩ => ⟨S82x656, .f32⟩
  | .local _ .vmem, ⟨10, _⟩ => ⟨S64x256, .f32⟩
  | .local _ .vmem, ⟨11, _⟩ => ⟨S256x256, .f32⟩
  | .local _ .vmem, ⟨12, _⟩ => ⟨S256x256, .f32⟩
  | .local _ .vmem, ⟨13, _⟩ => ⟨S256x1, .f32⟩
  | .local _ .vmem, ⟨14, _⟩ => ⟨S2048x1, .f32⟩
  | .local _ .vmem, ⟨15, _⟩ => ⟨S2048x1, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_c_1 : Ref sig .tc := ⟨.hbm, 40, rfl⟩
abbrev main_v12 : Ref sig .tc := ⟨.hbm, 41, rfl⟩
abbrev main_v13 : Ref sig .tc := ⟨.hbm, 42, rfl⟩
abbrev main_c_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_3 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_4 : Ref sig .tc := ⟨.hbm, 61, rfl⟩
abbrev main_call1_v0 : Ref sig .tc := ⟨.hbm, 62, rfl⟩
abbrev main_call1_c : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_c_1 : Ref sig .tc := ⟨.hbm, 69, rfl⟩
abbrev main_call1_v5 : Ref sig .tc := ⟨.hbm, 70, rfl⟩
abbrev main_call1_v6 : Ref sig .tc := ⟨.hbm, 71, rfl⟩
abbrev main_call1_c_2 : Ref sig .tc := ⟨.hbm, 72, rfl⟩
abbrev main_call1_v7 : Ref sig .tc := ⟨.hbm, 73, rfl⟩
abbrev main_call1_v8 : Ref sig .tc := ⟨.hbm, 74, rfl⟩
abbrev main_call1_c_3 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_c_5 : Ref sig .tc := ⟨.hbm, 85, rfl⟩
abbrev main_v33 : Ref sig .tc := ⟨.hbm, 86, rfl⟩
abbrev main_v34 : Ref sig .tc := ⟨.hbm, 87, rfl⟩
abbrev main_c_6 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_c_7 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_c_8 : Ref sig .tc := ⟨.hbm, 106, rfl⟩
abbrev main_call2_v0 : Ref sig .tc := ⟨.hbm, 107, rfl⟩
abbrev main_call2_c : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_c_1 : Ref sig .tc := ⟨.hbm, 114, rfl⟩
abbrev main_call2_v5 : Ref sig .tc := ⟨.hbm, 115, rfl⟩
abbrev main_call2_v6 : Ref sig .tc := ⟨.hbm, 116, rfl⟩
abbrev main_call2_c_2 : Ref sig .tc := ⟨.hbm, 117, rfl⟩
abbrev main_call2_v7 : Ref sig .tc := ⟨.hbm, 118, rfl⟩
abbrev main_call2_v8 : Ref sig .tc := ⟨.hbm, 119, rfl⟩
abbrev main_call2_c_3 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_call2_v12 : Ref sig .tc := ⟨.hbm, 124, rfl⟩
abbrev main_call2_v13 : Ref sig .tc := ⟨.hbm, 125, rfl⟩
abbrev main_call2_v14 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_c_9 : Ref sig .tc := ⟨.hbm, 130, rfl⟩
abbrev main_v54 : Ref sig .tc := ⟨.hbm, 131, rfl⟩
abbrev main_v55 : Ref sig .tc := ⟨.hbm, 132, rfl⟩
abbrev main_c_10 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_c_11 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_c_12 : Ref sig .tc := ⟨.hbm, 151, rfl⟩
abbrev main_call3_v0 : Ref sig .tc := ⟨.hbm, 152, rfl⟩
abbrev main_call3_c : Ref sig .tc := ⟨.hbm, 153, rfl⟩
abbrev main_call3_v1 : Ref sig .tc := ⟨.hbm, 154, rfl⟩
abbrev main_call3_c_0 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_c_1 : Ref sig .tc := ⟨.hbm, 159, rfl⟩
abbrev main_call3_v5 : Ref sig .tc := ⟨.hbm, 160, rfl⟩
abbrev main_call3_v6 : Ref sig .tc := ⟨.hbm, 161, rfl⟩
abbrev main_call3_c_2 : Ref sig .tc := ⟨.hbm, 162, rfl⟩
abbrev main_call3_v7 : Ref sig .tc := ⟨.hbm, 163, rfl⟩
abbrev main_call3_v8 : Ref sig .tc := ⟨.hbm, 164, rfl⟩
abbrev main_call3_c_3 : Ref sig .tc := ⟨.hbm, 165, rfl⟩
abbrev main_call3_v9 : Ref sig .tc := ⟨.hbm, 166, rfl⟩
abbrev main_call3_v10 : Ref sig .tc := ⟨.hbm, 167, rfl⟩
abbrev main_call3_v11 : Ref sig .tc := ⟨.hbm, 168, rfl⟩
abbrev main_call3_v12 : Ref sig .tc := ⟨.hbm, 169, rfl⟩
abbrev main_call3_v13 : Ref sig .tc := ⟨.hbm, 170, rfl⟩
abbrev main_call3_v14 : Ref sig .tc := ⟨.hbm, 171, rfl⟩
abbrev main_v72 : Ref sig .tc := ⟨.hbm, 172, rfl⟩
abbrev main_v73 : Ref sig .tc := ⟨.hbm, 173, rfl⟩
abbrev main_v74 : Ref sig .tc := ⟨.hbm, 174, rfl⟩
abbrev main_c_13 : Ref sig .tc := ⟨.hbm, 175, rfl⟩
abbrev main_v75 : Ref sig .tc := ⟨.hbm, 176, rfl⟩
abbrev main_v76 : Ref sig .tc := ⟨.hbm, 177, rfl⟩
abbrev main_c_14 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_c_15 : Ref sig .tc := ⟨.hbm, 190, rfl⟩
abbrev main_v88 : Ref sig .tc := ⟨.hbm, 191, rfl⟩
abbrev main_v89 : Ref sig .tc := ⟨.hbm, 192, rfl⟩
abbrev main_v90 : Ref sig .tc := ⟨.hbm, 193, rfl⟩
abbrev main_v91 : Ref sig .tc := ⟨.hbm, 194, rfl⟩
abbrev main_v92 : Ref sig .tc := ⟨.hbm, 195, rfl⟩
abbrev main_c_16 : Ref sig .tc := ⟨.hbm, 196, rfl⟩
abbrev main_call4_v0 : Ref sig .tc := ⟨.hbm, 197, rfl⟩
abbrev main_call4_c : Ref sig .tc := ⟨.hbm, 198, rfl⟩
abbrev main_call4_v1 : Ref sig .tc := ⟨.hbm, 199, rfl⟩
abbrev main_call4_c_0 : Ref sig .tc := ⟨.hbm, 200, rfl⟩
abbrev main_call4_v2 : Ref sig .tc := ⟨.hbm, 201, rfl⟩
abbrev main_call4_v3 : Ref sig .tc := ⟨.hbm, 202, rfl⟩
abbrev main_call4_v4 : Ref sig .tc := ⟨.hbm, 203, rfl⟩
abbrev main_call4_c_1 : Ref sig .tc := ⟨.hbm, 204, rfl⟩
abbrev main_call4_v5 : Ref sig .tc := ⟨.hbm, 205, rfl⟩
abbrev main_call4_v6 : Ref sig .tc := ⟨.hbm, 206, rfl⟩
abbrev main_call4_c_2 : Ref sig .tc := ⟨.hbm, 207, rfl⟩
abbrev main_call4_v7 : Ref sig .tc := ⟨.hbm, 208, rfl⟩
abbrev main_call4_v8 : Ref sig .tc := ⟨.hbm, 209, rfl⟩
abbrev main_call4_c_3 : Ref sig .tc := ⟨.hbm, 210, rfl⟩
abbrev main_call4_v9 : Ref sig .tc := ⟨.hbm, 211, rfl⟩
abbrev main_call4_v10 : Ref sig .tc := ⟨.hbm, 212, rfl⟩
abbrev main_call4_v11 : Ref sig .tc := ⟨.hbm, 213, rfl⟩
abbrev main_call4_v12 : Ref sig .tc := ⟨.hbm, 214, rfl⟩
abbrev main_call4_v13 : Ref sig .tc := ⟨.hbm, 215, rfl⟩
abbrev main_call4_v14 : Ref sig .tc := ⟨.hbm, 216, rfl⟩
abbrev main_v93 : Ref sig .tc := ⟨.hbm, 217, rfl⟩
abbrev main_v94 : Ref sig .tc := ⟨.hbm, 218, rfl⟩
abbrev main_v95 : Ref sig .tc := ⟨.hbm, 219, rfl⟩
abbrev main_c_17 : Ref sig .tc := ⟨.hbm, 220, rfl⟩
abbrev main_v96 : Ref sig .tc := ⟨.hbm, 221, rfl⟩
abbrev main_v97 : Ref sig .tc := ⟨.hbm, 222, rfl⟩
abbrev main_c_18 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_v101 : Ref sig .tc := ⟨.hbm, 227, rfl⟩
abbrev main_v102 : Ref sig .tc := ⟨.hbm, 228, rfl⟩
abbrev main_v103 : Ref sig .tc := ⟨.hbm, 229, rfl⟩
abbrev main_v104 : Ref sig .tc := ⟨.hbm, 230, rfl⟩
abbrev main_v105 : Ref sig .tc := ⟨.hbm, 231, rfl⟩
abbrev main_v106 : Ref sig .tc := ⟨.hbm, 232, rfl⟩
abbrev main_v107 : Ref sig .tc := ⟨.hbm, 233, rfl⟩
abbrev main_v108 : Ref sig .tc := ⟨.hbm, 234, rfl⟩
abbrev main_c_19 : Ref sig .tc := ⟨.hbm, 235, rfl⟩
abbrev main_v109 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_v113 : Ref sig .tc := ⟨.hbm, 240, rfl⟩
abbrev main_c_20 : Ref sig .tc := ⟨.hbm, 241, rfl⟩
abbrev main_call5_v0 : Ref sig .tc := ⟨.hbm, 242, rfl⟩
abbrev main_call5_c : Ref sig .tc := ⟨.hbm, 243, rfl⟩
abbrev main_call5_v1 : Ref sig .tc := ⟨.hbm, 244, rfl⟩
abbrev main_call5_c_0 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_call5_c_1 : Ref sig .tc := ⟨.hbm, 249, rfl⟩
abbrev main_call5_v5 : Ref sig .tc := ⟨.hbm, 250, rfl⟩
abbrev main_call5_v6 : Ref sig .tc := ⟨.hbm, 251, rfl⟩
abbrev main_call5_c_2 : Ref sig .tc := ⟨.hbm, 252, rfl⟩
abbrev main_call5_v7 : Ref sig .tc := ⟨.hbm, 253, rfl⟩
abbrev main_call5_v8 : Ref sig .tc := ⟨.hbm, 254, rfl⟩
abbrev main_call5_c_3 : Ref sig .tc := ⟨.hbm, 255, rfl⟩
abbrev main_call5_v9 : Ref sig .tc := ⟨.hbm, 256, rfl⟩
abbrev main_call5_v10 : Ref sig .tc := ⟨.hbm, 257, rfl⟩
abbrev main_call5_v11 : Ref sig .tc := ⟨.hbm, 258, rfl⟩
abbrev main_call5_v12 : Ref sig .tc := ⟨.hbm, 259, rfl⟩
abbrev main_call5_v13 : Ref sig .tc := ⟨.hbm, 260, rfl⟩
abbrev main_call5_v14 : Ref sig .tc := ⟨.hbm, 261, rfl⟩
abbrev main_v114 : Ref sig .tc := ⟨.hbm, 262, rfl⟩
abbrev main_v115 : Ref sig .tc := ⟨.hbm, 263, rfl⟩
abbrev main_v116 : Ref sig .tc := ⟨.hbm, 264, rfl⟩
abbrev main_c_21 : Ref sig .tc := ⟨.hbm, 265, rfl⟩
abbrev main_v117 : Ref sig .tc := ⟨.hbm, 266, rfl⟩
abbrev main_v118 : Ref sig .tc := ⟨.hbm, 267, rfl⟩
abbrev main_c_22 : Ref sig .tc := ⟨.hbm, 268, rfl⟩
abbrev main_v119 : Ref sig .tc := ⟨.hbm, 269, rfl⟩
abbrev main_v120 : Ref sig .tc := ⟨.hbm, 270, rfl⟩
abbrev main_v121 : Ref sig .tc := ⟨.hbm, 271, rfl⟩
abbrev main_v122 : Ref sig .tc := ⟨.hbm, 272, rfl⟩
abbrev main_v123 : Ref sig .tc := ⟨.hbm, 273, rfl⟩
abbrev main_v124 : Ref sig .tc := ⟨.hbm, 274, rfl⟩
abbrev main_v125 : Ref sig .tc := ⟨.hbm, 275, rfl⟩
abbrev main_v126 : Ref sig .tc := ⟨.hbm, 276, rfl⟩
abbrev main_v127 : Ref sig .tc := ⟨.hbm, 277, rfl⟩
abbrev main_v128 : Ref sig .tc := ⟨.hbm, 278, rfl⟩
abbrev main_v129 : Ref sig .tc := ⟨.hbm, 279, rfl⟩
abbrev main_c_23 : Ref sig .tc := ⟨.hbm, 280, rfl⟩
abbrev main_v130 : Ref sig .tc := ⟨.hbm, 281, rfl⟩
abbrev main_v131 : Ref sig .tc := ⟨.hbm, 282, rfl⟩
abbrev main_v132 : Ref sig .tc := ⟨.hbm, 283, rfl⟩
abbrev main_v133 : Ref sig .tc := ⟨.hbm, 284, rfl⟩
abbrev main_v134 : Ref sig .tc := ⟨.hbm, 285, rfl⟩
abbrev main_c_24 : Ref sig .tc := ⟨.hbm, 286, rfl⟩
abbrev main_call6_v0 : Ref sig .tc := ⟨.hbm, 287, rfl⟩
abbrev main_call6_c : Ref sig .tc := ⟨.hbm, 288, rfl⟩
abbrev main_call6_v1 : Ref sig .tc := ⟨.hbm, 289, rfl⟩
abbrev main_call6_c_0 : Ref sig .tc := ⟨.hbm, 290, rfl⟩
abbrev main_call6_v2 : Ref sig .tc := ⟨.hbm, 291, rfl⟩
abbrev main_call6_v3 : Ref sig .tc := ⟨.hbm, 292, rfl⟩
abbrev main_call6_v4 : Ref sig .tc := ⟨.hbm, 293, rfl⟩
abbrev main_call6_c_1 : Ref sig .tc := ⟨.hbm, 294, rfl⟩
abbrev main_call6_v5 : Ref sig .tc := ⟨.hbm, 295, rfl⟩
abbrev main_call6_v6 : Ref sig .tc := ⟨.hbm, 296, rfl⟩
abbrev main_call6_c_2 : Ref sig .tc := ⟨.hbm, 297, rfl⟩
abbrev main_call6_v7 : Ref sig .tc := ⟨.hbm, 298, rfl⟩
abbrev main_call6_v8 : Ref sig .tc := ⟨.hbm, 299, rfl⟩
abbrev main_call6_c_3 : Ref sig .tc := ⟨.hbm, 300, rfl⟩
abbrev main_call6_v9 : Ref sig .tc := ⟨.hbm, 301, rfl⟩
abbrev main_call6_v10 : Ref sig .tc := ⟨.hbm, 302, rfl⟩
abbrev main_call6_v11 : Ref sig .tc := ⟨.hbm, 303, rfl⟩
abbrev main_call6_v12 : Ref sig .tc := ⟨.hbm, 304, rfl⟩
abbrev main_call6_v13 : Ref sig .tc := ⟨.hbm, 305, rfl⟩
abbrev main_call6_v14 : Ref sig .tc := ⟨.hbm, 306, rfl⟩
abbrev main_v135 : Ref sig .tc := ⟨.hbm, 307, rfl⟩
abbrev main_v136 : Ref sig .tc := ⟨.hbm, 308, rfl⟩
abbrev main_v137 : Ref sig .tc := ⟨.hbm, 309, rfl⟩
abbrev main_c_25 : Ref sig .tc := ⟨.hbm, 310, rfl⟩
abbrev main_v138 : Ref sig .tc := ⟨.hbm, 311, rfl⟩
abbrev main_v139 : Ref sig .tc := ⟨.hbm, 312, rfl⟩
abbrev main_c_26 : Ref sig .tc := ⟨.hbm, 313, rfl⟩
abbrev main_v140 : Ref sig .tc := ⟨.hbm, 314, rfl⟩
abbrev main_v141 : Ref sig .tc := ⟨.hbm, 315, rfl⟩
abbrev main_v142 : Ref sig .tc := ⟨.hbm, 316, rfl⟩
abbrev main_v143 : Ref sig .tc := ⟨.hbm, 317, rfl⟩
abbrev main_v144 : Ref sig .tc := ⟨.hbm, 318, rfl⟩
abbrev main_v145 : Ref sig .tc := ⟨.hbm, 319, rfl⟩
abbrev main_v146 : Ref sig .tc := ⟨.hbm, 320, rfl⟩
abbrev main_v147 : Ref sig .tc := ⟨.hbm, 321, rfl⟩
abbrev main_v148 : Ref sig .tc := ⟨.hbm, 322, rfl⟩
abbrev main_v149 : Ref sig .tc := ⟨.hbm, 323, rfl⟩
abbrev main_v150 : Ref sig .tc := ⟨.hbm, 324, rfl⟩
abbrev main_c_27 : Ref sig .tc := ⟨.hbm, 325, rfl⟩
abbrev main_v151 : Ref sig .tc := ⟨.hbm, 326, rfl⟩
abbrev main_v152 : Ref sig .tc := ⟨.hbm, 327, rfl⟩
abbrev main_v153 : Ref sig .tc := ⟨.hbm, 328, rfl⟩
abbrev main_v154 : Ref sig .tc := ⟨.hbm, 329, rfl⟩
abbrev main_v155 : Ref sig .tc := ⟨.hbm, 330, rfl⟩
abbrev main_c_28 : Ref sig .tc := ⟨.hbm, 331, rfl⟩
abbrev main_call7_v0 : Ref sig .tc := ⟨.hbm, 332, rfl⟩
abbrev main_call7_c : Ref sig .tc := ⟨.hbm, 333, rfl⟩
abbrev main_call7_v1 : Ref sig .tc := ⟨.hbm, 334, rfl⟩
abbrev main_call7_c_0 : Ref sig .tc := ⟨.hbm, 335, rfl⟩
abbrev main_call7_v2 : Ref sig .tc := ⟨.hbm, 336, rfl⟩
abbrev main_call7_v3 : Ref sig .tc := ⟨.hbm, 337, rfl⟩
abbrev main_call7_v4 : Ref sig .tc := ⟨.hbm, 338, rfl⟩
abbrev main_call7_c_1 : Ref sig .tc := ⟨.hbm, 339, rfl⟩
abbrev main_call7_v5 : Ref sig .tc := ⟨.hbm, 340, rfl⟩
abbrev main_call7_v6 : Ref sig .tc := ⟨.hbm, 341, rfl⟩
abbrev main_call7_c_2 : Ref sig .tc := ⟨.hbm, 342, rfl⟩
abbrev main_call7_v7 : Ref sig .tc := ⟨.hbm, 343, rfl⟩
abbrev main_call7_v8 : Ref sig .tc := ⟨.hbm, 344, rfl⟩
abbrev main_call7_c_3 : Ref sig .tc := ⟨.hbm, 345, rfl⟩
abbrev main_call7_v9 : Ref sig .tc := ⟨.hbm, 346, rfl⟩
abbrev main_call7_v10 : Ref sig .tc := ⟨.hbm, 347, rfl⟩
abbrev main_call7_v11 : Ref sig .tc := ⟨.hbm, 348, rfl⟩
abbrev main_call7_v12 : Ref sig .tc := ⟨.hbm, 349, rfl⟩
abbrev main_call7_v13 : Ref sig .tc := ⟨.hbm, 350, rfl⟩
abbrev main_call7_v14 : Ref sig .tc := ⟨.hbm, 351, rfl⟩
abbrev main_v156 : Ref sig .tc := ⟨.hbm, 352, rfl⟩
abbrev main_v157 : Ref sig .tc := ⟨.hbm, 353, rfl⟩
abbrev main_v158 : Ref sig .tc := ⟨.hbm, 354, rfl⟩
abbrev main_c_29 : Ref sig .tc := ⟨.hbm, 355, rfl⟩
abbrev main_v159 : Ref sig .tc := ⟨.hbm, 356, rfl⟩
abbrev main_v160 : Ref sig .tc := ⟨.hbm, 357, rfl⟩
abbrev main_c_30 : Ref sig .tc := ⟨.hbm, 358, rfl⟩
abbrev main_v161 : Ref sig .tc := ⟨.hbm, 359, rfl⟩
abbrev main_v162 : Ref sig .tc := ⟨.hbm, 360, rfl⟩
abbrev main_v163 : Ref sig .tc := ⟨.hbm, 361, rfl⟩
abbrev main_v164 : Ref sig .tc := ⟨.hbm, 362, rfl⟩
abbrev main_v165 : Ref sig .tc := ⟨.hbm, 363, rfl⟩
abbrev main_v166 : Ref sig .tc := ⟨.hbm, 364, rfl⟩
abbrev main_v167 : Ref sig .tc := ⟨.hbm, 365, rfl⟩
abbrev main_v168 : Ref sig .tc := ⟨.hbm, 366, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S17x136 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S22x176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S27x216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S34x272 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S42x336 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S52x416 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S66x528 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S82x656 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S17_S1x17_1 : S17.BroadcastsInDim S1x17 (![1] : Fin 1 → Fin S1x17.rank)
  bcast_S17_S17x1_0 : S17.BroadcastsInDim S17x1 (![0] : Fin 1 → Fin S17x1.rank)
  bcast_S_S17x1 : S_.BroadcastsInDim S17x1 (![] : Fin 0 → Fin S17x1.rank)
  bcast_S1x17_S17x17_0_1 : S1x17.BroadcastsInDim S17x17 (![0, 1] : Fin 2 → Fin S17x17.rank)
  bcast_S17x1_S17x17_0_1 : S17x1.BroadcastsInDim S17x17 (![0, 1] : Fin 2 → Fin S17x17.rank)
  bcast_S_S17x17 : S_.BroadcastsInDim S17x17 (![] : Fin 0 → Fin S17x17.rank)
  slices_S8x8192x8_S1x8192x8_0_0_0 : S8x8192x8.Slices ![0, 0, 0] S1x8192x8
  shapeCasts_S1x8192x8_S8192x8 : S1x8192x8.ShapeCasts S8192x8
  bcast_S17x17_S17x17x1_0_1 : S17x17.BroadcastsInDim S17x17x1 (![0, 1] : Fin 2 → Fin S17x17x1.rank)
  transposes_S17x17x8_S17x17x8_1_0_2 : S17x17x8.Transposes [1, 0, 2] S17x17x8
  shapeCasts_S17x17x8_S17x136 : S17x17x8.ShapeCasts S17x136
  bcast_S22_S1x22_1 : S22.BroadcastsInDim S1x22 (![1] : Fin 1 → Fin S1x22.rank)
  bcast_S22_S22x1_0 : S22.BroadcastsInDim S22x1 (![0] : Fin 1 → Fin S22x1.rank)
  bcast_S_S22x1 : S_.BroadcastsInDim S22x1 (![] : Fin 0 → Fin S22x1.rank)
  bcast_S1x22_S22x22_0_1 : S1x22.BroadcastsInDim S22x22 (![0, 1] : Fin 2 → Fin S22x22.rank)
  bcast_S22x1_S22x22_0_1 : S22x1.BroadcastsInDim S22x22 (![0, 1] : Fin 2 → Fin S22x22.rank)
  bcast_S_S22x22 : S_.BroadcastsInDim S22x22 (![] : Fin 0 → Fin S22x22.rank)
  slices_S8x8192x8_S1x8192x8_1_0_0 : S8x8192x8.Slices ![1, 0, 0] S1x8192x8
  bcast_S22x22_S22x22x1_0_1 : S22x22.BroadcastsInDim S22x22x1 (![0, 1] : Fin 2 → Fin S22x22x1.rank)
  transposes_S22x22x8_S22x22x8_1_0_2 : S22x22x8.Transposes [1, 0, 2] S22x22x8
  shapeCasts_S22x22x8_S22x176 : S22x22x8.ShapeCasts S22x176
  bcast_S27_S1x27_1 : S27.BroadcastsInDim S1x27 (![1] : Fin 1 → Fin S1x27.rank)
  bcast_S27_S27x1_0 : S27.BroadcastsInDim S27x1 (![0] : Fin 1 → Fin S27x1.rank)
  bcast_S_S27x1 : S_.BroadcastsInDim S27x1 (![] : Fin 0 → Fin S27x1.rank)
  bcast_S1x27_S27x27_0_1 : S1x27.BroadcastsInDim S27x27 (![0, 1] : Fin 2 → Fin S27x27.rank)
  bcast_S27x1_S27x27_0_1 : S27x1.BroadcastsInDim S27x27 (![0, 1] : Fin 2 → Fin S27x27.rank)
  bcast_S_S27x27 : S_.BroadcastsInDim S27x27 (![] : Fin 0 → Fin S27x27.rank)
  slices_S8x8192x8_S1x8192x8_2_0_0 : S8x8192x8.Slices ![2, 0, 0] S1x8192x8
  bcast_S27x27_S27x27x1_0_1 : S27x27.BroadcastsInDim S27x27x1 (![0, 1] : Fin 2 → Fin S27x27x1.rank)
  transposes_S27x27x8_S27x27x8_1_0_2 : S27x27x8.Transposes [1, 0, 2] S27x27x8
  shapeCasts_S27x27x8_S27x216 : S27x27x8.ShapeCasts S27x216
  bcast_S34_S1x34_1 : S34.BroadcastsInDim S1x34 (![1] : Fin 1 → Fin S1x34.rank)
  bcast_S34_S34x1_0 : S34.BroadcastsInDim S34x1 (![0] : Fin 1 → Fin S34x1.rank)
  bcast_S_S34x1 : S_.BroadcastsInDim S34x1 (![] : Fin 0 → Fin S34x1.rank)
  bcast_S1x34_S34x34_0_1 : S1x34.BroadcastsInDim S34x34 (![0, 1] : Fin 2 → Fin S34x34.rank)
  bcast_S34x1_S34x34_0_1 : S34x1.BroadcastsInDim S34x34 (![0, 1] : Fin 2 → Fin S34x34.rank)
  bcast_S_S34x34 : S_.BroadcastsInDim S34x34 (![] : Fin 0 → Fin S34x34.rank)
  slices_S8x8192x8_S1x8192x8_3_0_0 : S8x8192x8.Slices ![3, 0, 0] S1x8192x8
  bcast_S34x34_S34x34x1_0_1 : S34x34.BroadcastsInDim S34x34x1 (![0, 1] : Fin 2 → Fin S34x34x1.rank)
  transposes_S34x34x8_S34x34x8_1_0_2 : S34x34x8.Transposes [1, 0, 2] S34x34x8
  shapeCasts_S34x34x8_S34x272 : S34x34x8.ShapeCasts S34x272
  bcast_S42_S1x42_1 : S42.BroadcastsInDim S1x42 (![1] : Fin 1 → Fin S1x42.rank)
  bcast_S42_S42x1_0 : S42.BroadcastsInDim S42x1 (![0] : Fin 1 → Fin S42x1.rank)
  bcast_S_S42x1 : S_.BroadcastsInDim S42x1 (![] : Fin 0 → Fin S42x1.rank)
  bcast_S1x42_S42x42_0_1 : S1x42.BroadcastsInDim S42x42 (![0, 1] : Fin 2 → Fin S42x42.rank)
  bcast_S42x1_S42x42_0_1 : S42x1.BroadcastsInDim S42x42 (![0, 1] : Fin 2 → Fin S42x42.rank)
  bcast_S_S42x42 : S_.BroadcastsInDim S42x42 (![] : Fin 0 → Fin S42x42.rank)
  slices_S8x8192x8_S1x8192x8_4_0_0 : S8x8192x8.Slices ![4, 0, 0] S1x8192x8
  bcast_S42x42_S42x42x1_0_1 : S42x42.BroadcastsInDim S42x42x1 (![0, 1] : Fin 2 → Fin S42x42x1.rank)
  transposes_S42x42x8_S42x42x8_1_0_2 : S42x42x8.Transposes [1, 0, 2] S42x42x8
  shapeCasts_S42x42x8_S42x336 : S42x42x8.ShapeCasts S42x336
  bcast_S52_S1x52_1 : S52.BroadcastsInDim S1x52 (![1] : Fin 1 → Fin S1x52.rank)
  bcast_S52_S52x1_0 : S52.BroadcastsInDim S52x1 (![0] : Fin 1 → Fin S52x1.rank)
  bcast_S_S52x1 : S_.BroadcastsInDim S52x1 (![] : Fin 0 → Fin S52x1.rank)
  bcast_S1x52_S52x52_0_1 : S1x52.BroadcastsInDim S52x52 (![0, 1] : Fin 2 → Fin S52x52.rank)
  bcast_S52x1_S52x52_0_1 : S52x1.BroadcastsInDim S52x52 (![0, 1] : Fin 2 → Fin S52x52.rank)
  bcast_S_S52x52 : S_.BroadcastsInDim S52x52 (![] : Fin 0 → Fin S52x52.rank)
  slices_S8x8192x8_S1x8192x8_5_0_0 : S8x8192x8.Slices ![5, 0, 0] S1x8192x8
  bcast_S52x52_S52x52x1_0_1 : S52x52.BroadcastsInDim S52x52x1 (![0, 1] : Fin 2 → Fin S52x52x1.rank)
  transposes_S52x52x8_S52x52x8_1_0_2 : S52x52x8.Transposes [1, 0, 2] S52x52x8
  shapeCasts_S52x52x8_S52x416 : S52x52x8.ShapeCasts S52x416
  bcast_S66_S1x66_1 : S66.BroadcastsInDim S1x66 (![1] : Fin 1 → Fin S1x66.rank)
  bcast_S66_S66x1_0 : S66.BroadcastsInDim S66x1 (![0] : Fin 1 → Fin S66x1.rank)
  bcast_S_S66x1 : S_.BroadcastsInDim S66x1 (![] : Fin 0 → Fin S66x1.rank)
  bcast_S1x66_S66x66_0_1 : S1x66.BroadcastsInDim S66x66 (![0, 1] : Fin 2 → Fin S66x66.rank)
  bcast_S66x1_S66x66_0_1 : S66x1.BroadcastsInDim S66x66 (![0, 1] : Fin 2 → Fin S66x66.rank)
  bcast_S_S66x66 : S_.BroadcastsInDim S66x66 (![] : Fin 0 → Fin S66x66.rank)
  slices_S8x8192x8_S1x8192x8_6_0_0 : S8x8192x8.Slices ![6, 0, 0] S1x8192x8
  bcast_S66x66_S66x66x1_0_1 : S66x66.BroadcastsInDim S66x66x1 (![0, 1] : Fin 2 → Fin S66x66x1.rank)
  transposes_S66x66x8_S66x66x8_1_0_2 : S66x66x8.Transposes [1, 0, 2] S66x66x8
  shapeCasts_S66x66x8_S66x528 : S66x66x8.ShapeCasts S66x528
  bcast_S82_S1x82_1 : S82.BroadcastsInDim S1x82 (![1] : Fin 1 → Fin S1x82.rank)
  bcast_S82_S82x1_0 : S82.BroadcastsInDim S82x1 (![0] : Fin 1 → Fin S82x1.rank)
  bcast_S_S82x1 : S_.BroadcastsInDim S82x1 (![] : Fin 0 → Fin S82x1.rank)
  bcast_S1x82_S82x82_0_1 : S1x82.BroadcastsInDim S82x82 (![0, 1] : Fin 2 → Fin S82x82.rank)
  bcast_S82x1_S82x82_0_1 : S82x1.BroadcastsInDim S82x82 (![0, 1] : Fin 2 → Fin S82x82.rank)
  bcast_S_S82x82 : S_.BroadcastsInDim S82x82 (![] : Fin 0 → Fin S82x82.rank)
  slices_S8x8192x8_S1x8192x8_7_0_0 : S8x8192x8.Slices ![7, 0, 0] S1x8192x8
  bcast_S82x82_S82x82x1_0_1 : S82x82.BroadcastsInDim S82x82x1 (![0, 1] : Fin 2 → Fin S82x82x1.rank)
  transposes_S82x82x8_S82x82x8_1_0_2 : S82x82x8.Transposes [1, 0, 2] S82x82x8
  shapeCasts_S82x82x8_S82x656 : S82x82x8.ShapeCasts S82x656
  inb_S2048x2_S2048x2_0_0 : ∀ a, (![0, 0] : Fin 2 → Nat) a + S2048x2.size a ≤ S2048x2.size a
  h_S2048x2 : 0 < S2048x2.numel
  slices_S2048x2_o0_0_S2048x1 : S2048x2.Slices ![0, 0] S2048x1
  slices_S2048x2_o0_1_S2048x1 : S2048x2.Slices ![0, 1] S2048x1
  iota_S2048x17_d1_w32 : S2048x17.Iotas .tc 32 [1]
  broadcasts_S2048x1_S2048x17 : S2048x1.Broadcasts S2048x17
  shapeCasts_S2048x1_S2048x1 : S2048x1.ShapeCasts S2048x1
  inb_S17x136_S17x136_0_0 : ∀ a, (![0, 0] : Fin 2 → Nat) a + S17x136.size a ≤ S17x136.size a
  h_S17x136 : 0 < S17x136.numel
  shapeCasts_S17x136_S17x136 : S17x136.ShapeCasts S17x136
  bitsLt_bf16_f32 : FTy.bits .bf16 < FTy.bits .f32
  shapeCasts_S2048x136_S2048x17x8 : S2048x136.ShapeCasts S2048x17x8
  shapeCasts_S2048x17_S2048x17x1 : S2048x17.ShapeCasts S2048x17x1
  broadcasts_S2048x17x1_S2048x17x8 : S2048x17x1.Broadcasts S2048x17x8
  reduces_S2048x17x8_S2048x8 : S2048x17x8.Reduces [1] S2048x8
  iota_S2048x22_d1_w32 : S2048x22.Iotas .tc 32 [1]
  broadcasts_S2048x1_S2048x22 : S2048x1.Broadcasts S2048x22
  inb_S22x176_S22x176_0_0 : ∀ a, (![0, 0] : Fin 2 → Nat) a + S22x176.size a ≤ S22x176.size a
  h_S22x176 : 0 < S22x176.numel
  shapeCasts_S22x176_S22x176 : S22x176.ShapeCasts S22x176
  shapeCasts_S2048x176_S2048x22x8 : S2048x176.ShapeCasts S2048x22x8
  shapeCasts_S2048x22_S2048x22x1 : S2048x22.ShapeCasts S2048x22x1
  broadcasts_S2048x22x1_S2048x22x8 : S2048x22x1.Broadcasts S2048x22x8
  reduces_S2048x22x8_S2048x8 : S2048x22x8.Reduces [1] S2048x8
  iota_S2048x27_d1_w32 : S2048x27.Iotas .tc 32 [1]
  broadcasts_S2048x1_S2048x27 : S2048x1.Broadcasts S2048x27
  inb_S27x216_S27x216_0_0 : ∀ a, (![0, 0] : Fin 2 → Nat) a + S27x216.size a ≤ S27x216.size a
  h_S27x216 : 0 < S27x216.numel
  shapeCasts_S27x216_S27x216 : S27x216.ShapeCasts S27x216
  shapeCasts_S2048x216_S2048x27x8 : S2048x216.ShapeCasts S2048x27x8
  shapeCasts_S2048x27_S2048x27x1 : S2048x27.ShapeCasts S2048x27x1
  broadcasts_S2048x27x1_S2048x27x8 : S2048x27x1.Broadcasts S2048x27x8
  reduces_S2048x27x8_S2048x8 : S2048x27x8.Reduces [1] S2048x8
  iota_S2048x34_d1_w32 : S2048x34.Iotas .tc 32 [1]
  broadcasts_S2048x1_S2048x34 : S2048x1.Broadcasts S2048x34
  inb_S34x272_S34x272_0_0 : ∀ a, (![0, 0] : Fin 2 → Nat) a + S34x272.size a ≤ S34x272.size a
  h_S34x272 : 0 < S34x272.numel
  shapeCasts_S34x272_S34x272 : S34x272.ShapeCasts S34x272
  shapeCasts_S2048x272_S2048x34x8 : S2048x272.ShapeCasts S2048x34x8
  shapeCasts_S2048x34_S2048x34x1 : S2048x34.ShapeCasts S2048x34x1
  broadcasts_S2048x34x1_S2048x34x8 : S2048x34x1.Broadcasts S2048x34x8
  reduces_S2048x34x8_S2048x8 : S2048x34x8.Reduces [1] S2048x8
  iota_S2048x42_d1_w32 : S2048x42.Iotas .tc 32 [1]
  broadcasts_S2048x1_S2048x42 : S2048x1.Broadcasts S2048x42
  inb_S42x336_S42x336_0_0 : ∀ a, (![0, 0] : Fin 2 → Nat) a + S42x336.size a ≤ S42x336.size a
  h_S42x336 : 0 < S42x336.numel
  shapeCasts_S42x336_S42x336 : S42x336.ShapeCasts S42x336
  shapeCasts_S2048x336_S2048x42x8 : S2048x336.ShapeCasts S2048x42x8
  shapeCasts_S2048x42_S2048x42x1 : S2048x42.ShapeCasts S2048x42x1
  broadcasts_S2048x42x1_S2048x42x8 : S2048x42x1.Broadcasts S2048x42x8
  reduces_S2048x42x8_S2048x8 : S2048x42x8.Reduces [1] S2048x8
  iota_S2048x52_d1_w32 : S2048x52.Iotas .tc 32 [1]
  broadcasts_S2048x1_S2048x52 : S2048x1.Broadcasts S2048x52
  inb_S52x416_S52x416_0_0 : ∀ a, (![0, 0] : Fin 2 → Nat) a + S52x416.size a ≤ S52x416.size a
  h_S52x416 : 0 < S52x416.numel
  shapeCasts_S52x416_S52x416 : S52x416.ShapeCasts S52x416
  shapeCasts_S2048x416_S2048x52x8 : S2048x416.ShapeCasts S2048x52x8
  shapeCasts_S2048x52_S2048x52x1 : S2048x52.ShapeCasts S2048x52x1
  broadcasts_S2048x52x1_S2048x52x8 : S2048x52x1.Broadcasts S2048x52x8
  reduces_S2048x52x8_S2048x8 : S2048x52x8.Reduces [1] S2048x8
  iota_S2048x66_d1_w32 : S2048x66.Iotas .tc 32 [1]
  broadcasts_S2048x1_S2048x66 : S2048x1.Broadcasts S2048x66
  inb_S66x528_S66x528_0_0 : ∀ a, (![0, 0] : Fin 2 → Nat) a + S66x528.size a ≤ S66x528.size a
  h_S66x528 : 0 < S66x528.numel
  shapeCasts_S66x528_S66x528 : S66x528.ShapeCasts S66x528
  shapeCasts_S2048x528_S2048x66x8 : S2048x528.ShapeCasts S2048x66x8
  shapeCasts_S2048x66_S2048x66x1 : S2048x66.ShapeCasts S2048x66x1
  broadcasts_S2048x66x1_S2048x66x8 : S2048x66x1.Broadcasts S2048x66x8
  reduces_S2048x66x8_S2048x8 : S2048x66x8.Reduces [1] S2048x8
  iota_S2048x82_d1_w32 : S2048x82.Iotas .tc 32 [1]
  broadcasts_S2048x1_S2048x82 : S2048x1.Broadcasts S2048x82
  inb_S82x656_S82x656_0_0 : ∀ a, (![0, 0] : Fin 2 → Nat) a + S82x656.size a ≤ S82x656.size a
  h_S82x656 : 0 < S82x656.numel
  shapeCasts_S82x656_S82x656 : S82x656.ShapeCasts S82x656
  shapeCasts_S2048x656_S2048x82x8 : S2048x656.ShapeCasts S2048x82x8
  shapeCasts_S2048x82_S2048x82x1 : S2048x82.ShapeCasts S2048x82x1
  broadcasts_S2048x82x1_S2048x82x8 : S2048x82x1.Broadcasts S2048x82x8
  reduces_S2048x82x8_S2048x8 : S2048x82x8.Reduces [1] S2048x8
  concatenates_S2048x8_S2048x8_S2048x8_S2048x8_S2048x8_S2048x8_S2048x8_S2048x8_S2048x64_d1 : Shape.Concatenates [S2048x8, S2048x8, S2048x8, S2048x8, S2048x8, S2048x8, S2048x8, S2048x8] S2048x64 1
  inb_S64x256_S64x256_0_0 : ∀ a, (![0, 0] : Fin 2 → Nat) a + S64x256.size a ≤ S64x256.size a
  h_S64x256 : 0 < S64x256.numel
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S2048x1_S2048x1_0_0 : ∀ a, (![0, 0] : Fin 2 → Nat) a + S2048x1.size a ≤ S2048x1.size a
  h_S2048x1 : 0 < S2048x1.numel
  gather_S8192x8_S17x17x1_S17x17x8_2_0_n_n_0_2_18_wf : GatherDims.WF S8192x8 S17x17x1 S17x17x8 [2] [0] [] [0] [] 2 ![1, 8]
  gather_S8192x8_S22x22x1_S22x22x8_2_0_n_n_0_2_18_wf : GatherDims.WF S8192x8 S22x22x1 S22x22x8 [2] [0] [] [0] [] 2 ![1, 8]
  gather_S8192x8_S27x27x1_S27x27x8_2_0_n_n_0_2_18_wf : GatherDims.WF S8192x8 S27x27x1 S27x27x8 [2] [0] [] [0] [] 2 ![1, 8]
  gather_S8192x8_S34x34x1_S34x34x8_2_0_n_n_0_2_18_wf : GatherDims.WF S8192x8 S34x34x1 S34x34x8 [2] [0] [] [0] [] 2 ![1, 8]
  gather_S8192x8_S42x42x1_S42x42x8_2_0_n_n_0_2_18_wf : GatherDims.WF S8192x8 S42x42x1 S42x42x8 [2] [0] [] [0] [] 2 ![1, 8]
  gather_S8192x8_S52x52x1_S52x52x8_2_0_n_n_0_2_18_wf : GatherDims.WF S8192x8 S52x52x1 S52x52x8 [2] [0] [] [0] [] 2 ![1, 8]
  gather_S8192x8_S66x66x1_S66x66x8_2_0_n_n_0_2_18_wf : GatherDims.WF S8192x8 S66x66x1 S66x66x8 [2] [0] [] [0] [] 2 ![1, 8]
  gather_S8192x8_S82x82x1_S82x82x8_2_0_n_n_0_2_18_wf : GatherDims.WF S8192x8 S82x82x1 S82x82x8 [2] [0] [] [0] [] 2 ![1, 8]
  dot_S2048x17_S17x136_S2048x136_1_0_0_1_n_n_wf : DotDims.WF S2048x17 S17x136 S2048x136 [1] [0] [0] [1] [] []
  dot_S2048x22_S22x176_S2048x176_1_0_0_1_n_n_wf : DotDims.WF S2048x22 S22x176 S2048x176 [1] [0] [0] [1] [] []
  dot_S2048x27_S27x216_S2048x216_1_0_0_1_n_n_wf : DotDims.WF S2048x27 S27x216 S2048x216 [1] [0] [0] [1] [] []
  dot_S2048x34_S34x272_S2048x272_1_0_0_1_n_n_wf : DotDims.WF S2048x34 S34x272 S2048x272 [1] [0] [0] [1] [] []
  dot_S2048x42_S42x336_S2048x336_1_0_0_1_n_n_wf : DotDims.WF S2048x42 S42x336 S2048x336 [1] [0] [0] [1] [] []
  dot_S2048x52_S52x416_S2048x416_1_0_0_1_n_n_wf : DotDims.WF S2048x52 S52x416 S2048x416 [1] [0] [0] [1] [] []
  dot_S2048x66_S66x528_S2048x528_1_0_0_1_n_n_wf : DotDims.WF S2048x66 S66x528 S2048x528 [1] [0] [0] [1] [] []
  dot_S2048x82_S82x656_S2048x656_1_0_0_1_n_n_wf : DotDims.WF S2048x82 S82x656 S2048x656 [1] [0] [0] [1] [] []
  dot_S2048x64_S64x256_S2048x256_1_0_0_1_n_n_wf : DotDims.WF S2048x64 S64x256 S2048x256 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S262144x2.size a
  hwx0_0 : ∀ i : grid0.Coords, EltTy.bits .f32 = 32 ∨ (Rect.block (s := S262144x2) S2048x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S17x136.size a ≤ S17x136.size a
  hwx0_1 : ∀ i : grid0.Coords, EltTy.bits .f32 = 32 ∨ (Rect.block (s := S17x136) S17x136.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S22x176.size a ≤ S22x176.size a
  hwx0_2 : ∀ i : grid0.Coords, EltTy.bits .f32 = 32 ∨ (Rect.block (s := S22x176) S22x176.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S27x216.size a ≤ S27x216.size a
  hwx0_3 : ∀ i : grid0.Coords, EltTy.bits .f32 = 32 ∨ (Rect.block (s := S27x216) S27x216.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S34x272.size a ≤ S34x272.size a
  hwx0_4 : ∀ i : grid0.Coords, EltTy.bits .f32 = 32 ∨ (Rect.block (s := S34x272) S34x272.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S42x336.size a ≤ S42x336.size a
  hwx0_5 : ∀ i : grid0.Coords, EltTy.bits .f32 = 32 ∨ (Rect.block (s := S42x336) S42x336.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S52x416.size a ≤ S52x416.size a
  hwx0_6 : ∀ i : grid0.Coords, EltTy.bits .f32 = 32 ∨ (Rect.block (s := S52x416) S52x416.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S66x528.size a ≤ S66x528.size a
  hwx0_7 : ∀ i : grid0.Coords, EltTy.bits .f32 = 32 ∨ (Rect.block (s := S66x528) S66x528.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S82x656.size a ≤ S82x656.size a
  hwx0_8 : ∀ i : grid0.Coords, EltTy.bits .f32 = 32 ∨ (Rect.block (s := S82x656) S82x656.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x256.size a ≤ S64x256.size a
  hwx0_9 : ∀ i : grid0.Coords, EltTy.bits .f32 = 32 ∨ (Rect.block (s := S64x256) S64x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x1.size a ≤ S256x1.size a
  hwx0_12 : ∀ i : grid0.Coords, EltTy.bits .f32 = 32 ∨ (Rect.block (s := S256x1) S256x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S262144x1.size a
  hwx0_13 : ∀ i : grid0.Coords, EltTy.bits .f32 = 32 ∨ (Rect.block (s := S262144x1) S2048x1.size (cc0_transform_13 i) (hinb0_13 i)).WholeWords (EltTy.packing .f32)

variable [Facts₀]

def gather_S8192x8_S17x17x1_S17x17x8_2_0_n_n_0_2_18 : GatherDims S8192x8 S17x17x1 S17x17x8 where
  offsetDims := [2]
  collapsedSliceDims := [0]
  operandBatchingDims := []
  startIndicesBatchingDims := []
  startIndexMap := [0]
  indexVectorDim := 2
  sliceSizes := ![1, 8]
  wf := gather_S8192x8_S17x17x1_S17x17x8_2_0_n_n_0_2_18_wf
def gather_S8192x8_S22x22x1_S22x22x8_2_0_n_n_0_2_18 : GatherDims S8192x8 S22x22x1 S22x22x8 where
  offsetDims := [2]
  collapsedSliceDims := [0]
  operandBatchingDims := []
  startIndicesBatchingDims := []
  startIndexMap := [0]
  indexVectorDim := 2
  sliceSizes := ![1, 8]
  wf := gather_S8192x8_S22x22x1_S22x22x8_2_0_n_n_0_2_18_wf
def gather_S8192x8_S27x27x1_S27x27x8_2_0_n_n_0_2_18 : GatherDims S8192x8 S27x27x1 S27x27x8 where
  offsetDims := [2]
  collapsedSliceDims := [0]
  operandBatchingDims := []
  startIndicesBatchingDims := []
  startIndexMap := [0]
  indexVectorDim := 2
  sliceSizes := ![1, 8]
  wf := gather_S8192x8_S27x27x1_S27x27x8_2_0_n_n_0_2_18_wf
def gather_S8192x8_S34x34x1_S34x34x8_2_0_n_n_0_2_18 : GatherDims S8192x8 S34x34x1 S34x34x8 where
  offsetDims := [2]
  collapsedSliceDims := [0]
  operandBatchingDims := []
  startIndicesBatchingDims := []
  startIndexMap := [0]
  indexVectorDim := 2
  sliceSizes := ![1, 8]
  wf := gather_S8192x8_S34x34x1_S34x34x8_2_0_n_n_0_2_18_wf
def gather_S8192x8_S42x42x1_S42x42x8_2_0_n_n_0_2_18 : GatherDims S8192x8 S42x42x1 S42x42x8 where
  offsetDims := [2]
  collapsedSliceDims := [0]
  operandBatchingDims := []
  startIndicesBatchingDims := []
  startIndexMap := [0]
  indexVectorDim := 2
  sliceSizes := ![1, 8]
  wf := gather_S8192x8_S42x42x1_S42x42x8_2_0_n_n_0_2_18_wf
def gather_S8192x8_S52x52x1_S52x52x8_2_0_n_n_0_2_18 : GatherDims S8192x8 S52x52x1 S52x52x8 where
  offsetDims := [2]
  collapsedSliceDims := [0]
  operandBatchingDims := []
  startIndicesBatchingDims := []
  startIndexMap := [0]
  indexVectorDim := 2
  sliceSizes := ![1, 8]
  wf := gather_S8192x8_S52x52x1_S52x52x8_2_0_n_n_0_2_18_wf
def gather_S8192x8_S66x66x1_S66x66x8_2_0_n_n_0_2_18 : GatherDims S8192x8 S66x66x1 S66x66x8 where
  offsetDims := [2]
  collapsedSliceDims := [0]
  operandBatchingDims := []
  startIndicesBatchingDims := []
  startIndexMap := [0]
  indexVectorDim := 2
  sliceSizes := ![1, 8]
  wf := gather_S8192x8_S66x66x1_S66x66x8_2_0_n_n_0_2_18_wf
def gather_S8192x8_S82x82x1_S82x82x8_2_0_n_n_0_2_18 : GatherDims S8192x8 S82x82x1 S82x82x8 where
  offsetDims := [2]
  collapsedSliceDims := [0]
  operandBatchingDims := []
  startIndicesBatchingDims := []
  startIndexMap := [0]
  indexVectorDim := 2
  sliceSizes := ![1, 8]
  wf := gather_S8192x8_S82x82x1_S82x82x8_2_0_n_n_0_2_18_wf
def dot_S2048x17_S17x136_S2048x136_1_0_0_1_n_n : DotDims S2048x17 S17x136 S2048x136 where
  lhsContracting := [1]
  rhsContracting := [0]
  lhsNonContracting := [0]
  rhsNonContracting := [1]
  lhsBatch := []
  rhsBatch := []
  wf := dot_S2048x17_S17x136_S2048x136_1_0_0_1_n_n_wf
def dot_S2048x22_S22x176_S2048x176_1_0_0_1_n_n : DotDims S2048x22 S22x176 S2048x176 where
  lhsContracting := [1]
  rhsContracting := [0]
  lhsNonContracting := [0]
  rhsNonContracting := [1]
  lhsBatch := []
  rhsBatch := []
  wf := dot_S2048x22_S22x176_S2048x176_1_0_0_1_n_n_wf
def dot_S2048x27_S27x216_S2048x216_1_0_0_1_n_n : DotDims S2048x27 S27x216 S2048x216 where
  lhsContracting := [1]
  rhsContracting := [0]
  lhsNonContracting := [0]
  rhsNonContracting := [1]
  lhsBatch := []
  rhsBatch := []
  wf := dot_S2048x27_S27x216_S2048x216_1_0_0_1_n_n_wf
def dot_S2048x34_S34x272_S2048x272_1_0_0_1_n_n : DotDims S2048x34 S34x272 S2048x272 where
  lhsContracting := [1]
  rhsContracting := [0]
  lhsNonContracting := [0]
  rhsNonContracting := [1]
  lhsBatch := []
  rhsBatch := []
  wf := dot_S2048x34_S34x272_S2048x272_1_0_0_1_n_n_wf
def dot_S2048x42_S42x336_S2048x336_1_0_0_1_n_n : DotDims S2048x42 S42x336 S2048x336 where
  lhsContracting := [1]
  rhsContracting := [0]
  lhsNonContracting := [0]
  rhsNonContracting := [1]
  lhsBatch := []
  rhsBatch := []
  wf := dot_S2048x42_S42x336_S2048x336_1_0_0_1_n_n_wf
def dot_S2048x52_S52x416_S2048x416_1_0_0_1_n_n : DotDims S2048x52 S52x416 S2048x416 where
  lhsContracting := [1]
  rhsContracting := [0]
  lhsNonContracting := [0]
  rhsNonContracting := [1]
  lhsBatch := []
  rhsBatch := []
  wf := dot_S2048x52_S52x416_S2048x416_1_0_0_1_n_n_wf
def dot_S2048x66_S66x528_S2048x528_1_0_0_1_n_n : DotDims S2048x66 S66x528 S2048x528 where
  lhsContracting := [1]
  rhsContracting := [0]
  lhsNonContracting := [0]
  rhsNonContracting := [1]
  lhsBatch := []
  rhsBatch := []
  wf := dot_S2048x66_S66x528_S2048x528_1_0_0_1_n_n_wf
def dot_S2048x82_S82x656_S2048x656_1_0_0_1_n_n : DotDims S2048x82 S82x656 S2048x656 where
  lhsContracting := [1]
  rhsContracting := [0]
  lhsNonContracting := [0]
  rhsNonContracting := [1]
  lhsBatch := []
  rhsBatch := []
  wf := dot_S2048x82_S82x656_S2048x656_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S17x136.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S22x176.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v62) S27x216.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v83) S34x272.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v104) S42x336.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v125) S52x416.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v146) S66x528.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v167) S82x656.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S64x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg3) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg4) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg5) S256x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v168) S2048x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S262144x2 : Shape := ⟨2, ![262144, 2]⟩
abbrev S8x8192x8 : Shape := ⟨3, ![8, 8192, 8]⟩
abbrev S64x256 : Shape := ⟨2, ![64, 256]⟩
abbrev S256x256 : Shape := ⟨2, ![256, 256]⟩
abbrev S256x1 : Shape := ⟨2, ![256, 1]⟩
abbrev S_ : Shape := ⟨0, ![]⟩
abbrev S262144x8 : Shape := ⟨2, ![262144, 8]⟩
abbrev S262144x1 : Shape := ⟨2, ![262144, 1]⟩
abbrev S262144 : Shape := ⟨1, ![262144]⟩
abbrev S262144x64 : Shape := ⟨2, ![262144, 64]⟩
abbrev S262144x256 : Shape := ⟨2, ![262144, 256]⟩

abbrev nBuf : Space → Nat
  | .hbm => 2100
  | .vmem => 0
  | .smem => 0
  | _ => 0

abbrev hbmTy0_0 (i : Nat) : BufTy := match i % 128 with
  | 0 => ⟨S262144x2, .f32⟩
  | 1 => ⟨S8x8192x8, .f32⟩
  | 2 => ⟨S64x256, .f32⟩
  | 3 => ⟨S256x256, .f32⟩
  | 4 => ⟨S256x256, .f32⟩
  | 5 => ⟨S256x1, .f32⟩
  | 6 => ⟨S_, .f32⟩
  | 7 => ⟨S262144x2, .f32⟩
  | 8 => ⟨S262144x2, .f32⟩
  | 9 => ⟨S_, .f32⟩
  | 10 => ⟨S262144x2, .f32⟩
  | 11 => ⟨S262144x2, .f32⟩
  | 12 => ⟨S262144x2, .f32⟩
  | 13 => ⟨S262144x2, .f32⟩
  | 14 => ⟨S262144x2, .i32⟩
  | 15 => ⟨S262144x2, .f32⟩
  | 16 => ⟨S_, .f32⟩
  | 17 => ⟨S262144x2, .f32⟩
  | 18 => ⟨S262144x2, .f32⟩
  | 19 => ⟨S_, .f32⟩
  | 20 => ⟨S262144x2, .f32⟩
  | 21 => ⟨S262144x2, .f32⟩
  | 22 => ⟨S262144x2, .f32⟩
  | 23 => ⟨S_, .f32⟩
  | 24 => ⟨S262144x8, .f32⟩
  | 25 => ⟨S262144x1, .f32⟩
  | 26 => ⟨S262144, .f32⟩
  | 27 => ⟨S_, .f32⟩
  | 28 => ⟨S262144, .f32⟩
  | 29 => ⟨S262144, .f32⟩
  | 30 => ⟨S262144x1, .f32⟩
  | 31 => ⟨S262144, .f32⟩
  | 32 => ⟨S_, .f32⟩
  | 33 => ⟨S262144, .f32⟩
  | 34 => ⟨S262144, .f32⟩
  | 35 => ⟨S262144x1, .i32⟩
  | 36 => ⟨S262144, .i32⟩
  | 37 => ⟨S_, .i32⟩
  | 38 => ⟨S262144, .i32⟩
  | 39 => ⟨S262144, .i32⟩
  | 40 => ⟨S262144x1, .i32⟩
  | 41 => ⟨S262144, .i32⟩
  | 42 => ⟨S_, .i32⟩
  | 43 => ⟨S262144, .i32⟩
  | 44 => ⟨S262144, .i32⟩
  | 45 => ⟨S_, .i32⟩
  | 46 => ⟨S262144, .i32⟩
  | 47 => ⟨S262144, .i32⟩
  | 48 => ⟨S262144, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S262144, .i32⟩
  | 56 => ⟨S262144, .i32⟩
  | 57 => ⟨S_, .i32⟩
  | 58 => ⟨S262144, .i32⟩
  | 59 => ⟨S262144, .i1⟩
  | 60 => ⟨S_, .i32⟩
  | 61 => ⟨S262144, .i32⟩
  | 62 => ⟨S262144, .i1⟩
  | 63 => ⟨S_, .i32⟩
  | 64 => ⟨S_, .i1⟩
  | 65 => ⟨S262144, .i1⟩
  | 66 => ⟨S262144, .i1⟩
  | 67 => ⟨S262144, .i1⟩
  | 68 => ⟨S262144, .i32⟩
  | 69 => ⟨S262144, .i32⟩
  | 70 => ⟨S262144, .i32⟩
  | 71 => ⟨S262144, .f32⟩
  | 72 => ⟨S262144x1, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S_, .i32⟩
  | 81 => ⟨S262144, .i32⟩
  | 82 => ⟨S262144, .i32⟩
  | 83 => ⟨S262144x1, .i32⟩
  | 84 => ⟨S262144x1, .i32⟩
  | 85 => ⟨S262144x2, .i32⟩
  | 86 => ⟨S262144x8, .f32⟩
  | 87 => ⟨S262144x8, .f32⟩
  | 88 => ⟨S262144x8, .f32⟩
  | 89 => ⟨S262144x8, .f32⟩
  | 90 => ⟨S262144x1, .f32⟩
  | 91 => ⟨S262144, .f32⟩
  | 92 => ⟨S262144x1, .i32⟩
  | 93 => ⟨S262144, .i32⟩
  | 94 => ⟨S_, .i32⟩
  | 95 => ⟨S262144, .i32⟩
  | 96 => ⟨S262144, .i32⟩
  | 97 => ⟨S262144x1, .i32⟩
  | 98 => ⟨S262144, .i32⟩
  | 99 => ⟨S_, .i32⟩
  | 100 => ⟨S262144, .i32⟩
  | 101 => ⟨S262144, .i32⟩
  | 102 => ⟨S_, .i32⟩
  | 103 => ⟨S262144, .i32⟩
  | 104 => ⟨S262144, .i32⟩
  | 105 => ⟨S262144, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S262144, .i32⟩
  | 113 => ⟨S262144, .i32⟩
  | 114 => ⟨S_, .i32⟩
  | 115 => ⟨S262144, .i32⟩
  | 116 => ⟨S262144, .i1⟩
  | 117 => ⟨S_, .i32⟩
  | 118 => ⟨S262144, .i32⟩
  | 119 => ⟨S262144, .i1⟩
  | 120 => ⟨S_, .i32⟩
  | 121 => ⟨S_, .i1⟩
  | 122 => ⟨S262144, .i1⟩
  | 123 => ⟨S262144, .i1⟩
  | 124 => ⟨S262144, .i1⟩
  | 125 => ⟨S262144, .i32⟩
  | 126 => ⟨S262144, .i32⟩
  | 127 => ⟨S262144, .i32⟩
  | _ => ⟨S262144x2, .f32⟩

abbrev hbmTy0_1 (i : Nat) : BufTy := match i % 128 with
  | 0 => ⟨S262144, .f32⟩
  | 1 => ⟨S262144x1, .f32⟩
  | 2 => ⟨S_, .i32⟩
  | 3 => ⟨S262144, .i32⟩
  | 4 => ⟨S262144, .i1⟩
  | 5 => ⟨S_, .i32⟩
  | 6 => ⟨S262144, .i32⟩
  | 7 => ⟨S262144, .i32⟩
  | 8 => ⟨S262144, .i32⟩
  | 9 => ⟨S_, .i32⟩
  | 10 => ⟨S262144, .i32⟩
  | 11 => ⟨S262144, .i32⟩
  | 12 => ⟨S262144x1, .i32⟩
  | 13 => ⟨S262144x1, .i32⟩
  | 14 => ⟨S262144x2, .i32⟩
  | 15 => ⟨S262144x8, .f32⟩
  | 16 => ⟨S262144x8, .f32⟩
  | 17 => ⟨S262144x8, .f32⟩
  | 18 => ⟨S262144x8, .f32⟩
  | 19 => ⟨S262144x1, .f32⟩
  | 20 => ⟨S262144, .f32⟩
  | 21 => ⟨S262144x1, .f32⟩
  | 22 => ⟨S262144, .f32⟩
  | 23 => ⟨S_, .f32⟩
  | 24 => ⟨S262144, .f32⟩
  | 25 => ⟨S262144, .f32⟩
  | 26 => ⟨S262144x1, .i32⟩
  | 27 => ⟨S262144, .i32⟩
  | 28 => ⟨S_, .i32⟩
  | 29 => ⟨S262144, .i32⟩
  | 30 => ⟨S262144, .i32⟩
  | 31 => ⟨S262144x1, .i32⟩
  | 32 => ⟨S262144, .i32⟩
  | 33 => ⟨S_, .i32⟩
  | 34 => ⟨S262144, .i32⟩
  | 35 => ⟨S262144, .i32⟩
  | 36 => ⟨S_, .i32⟩
  | 37 => ⟨S262144, .i32⟩
  | 38 => ⟨S262144, .i32⟩
  | 39 => ⟨S262144, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S262144, .i32⟩
  | 47 => ⟨S262144, .i32⟩
  | 48 => ⟨S_, .i32⟩
  | 49 => ⟨S262144, .i32⟩
  | 50 => ⟨S262144, .i1⟩
  | 51 => ⟨S_, .i32⟩
  | 52 => ⟨S262144, .i32⟩
  | 53 => ⟨S262144, .i1⟩
  | 54 => ⟨S_, .i32⟩
  | 55 => ⟨S_, .i1⟩
  | 56 => ⟨S262144, .i1⟩
  | 57 => ⟨S262144, .i1⟩
  | 58 => ⟨S262144, .i1⟩
  | 59 => ⟨S262144, .i32⟩
  | 60 => ⟨S262144, .i32⟩
  | 61 => ⟨S262144, .i32⟩
  | 62 => ⟨S262144, .f32⟩
  | 63 => ⟨S262144x1, .f32⟩
  | 64 => ⟨S_, .i32⟩
  | 65 => ⟨S262144, .i32⟩
  | 66 => ⟨S262144, .i1⟩
  | 67 => ⟨S_, .i32⟩
  | 68 => ⟨S262144, .i32⟩
  | 69 => ⟨S262144, .i32⟩
  | 70 => ⟨S262144, .i32⟩
  | 71 => ⟨S_, .i32⟩
  | 72 => ⟨S262144, .i32⟩
  | 73 => ⟨S262144, .i32⟩
  | 74 => ⟨S262144x1, .i32⟩
  | 75 => ⟨S262144x1, .i32⟩
  | 76 => ⟨S262144x2, .i32⟩
  | 77 => ⟨S262144x8, .f32⟩
  | 78 => ⟨S262144x8, .f32⟩
  | 79 => ⟨S262144x8, .f32⟩
  | 80 => ⟨S262144x8, .f32⟩
  | 81 => ⟨S262144x1, .f32⟩
  | 82 => ⟨S262144, .f32⟩
  | 83 => ⟨S262144x1, .i32⟩
  | 84 => ⟨S262144, .i32⟩
  | 85 => ⟨S_, .i32⟩
  | 86 => ⟨S262144, .i32⟩
  | 87 => ⟨S262144, .i32⟩
  | 88 => ⟨S262144x1, .i32⟩
  | 89 => ⟨S262144, .i32⟩
  | 90 => ⟨S_, .i32⟩
  | 91 => ⟨S262144, .i32⟩
  | 92 => ⟨S262144, .i32⟩
  | 93 => ⟨S_, .i32⟩
  | 94 => ⟨S262144, .i32⟩
  | 95 => ⟨S262144, .i32⟩
  | 96 => ⟨S262144, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S262144, .i32⟩
  | 104 => ⟨S262144, .i32⟩
  | 105 => ⟨S_, .i32⟩
  | 106 => ⟨S262144, .i32⟩
  | 107 => ⟨S262144, .i1⟩
  | 108 => ⟨S_, .i32⟩
  | 109 => ⟨S262144, .i32⟩
  | 110 => ⟨S262144, .i1⟩
  | 111 => ⟨S_, .i32⟩
  | 112 => ⟨S_, .i1⟩
  | 113 => ⟨S262144, .i1⟩
  | 114 => ⟨S262144, .i1⟩
  | 115 => ⟨S262144, .i1⟩
  | 116 => ⟨S262144, .i32⟩
  | 117 => ⟨S262144, .i32⟩
  | 118 => ⟨S262144, .i32⟩
  | 119 => ⟨S262144, .f32⟩
  | 120 => ⟨S262144x1, .f32⟩
  | 121 => ⟨S_, .i32⟩
  | 122 => ⟨S262144, .i32⟩
  | 123 => ⟨S262144, .i1⟩
  | 124 => ⟨S_, .i32⟩
  | 125 => ⟨S262144, .i32⟩
  | 126 => ⟨S262144, .i32⟩
  | 127 => ⟨S262144, .i32⟩
  | _ => ⟨S262144x2, .f32⟩

abbrev hbmTy0_2 (i : Nat) : BufTy := match i % 128 with
  | 0 => ⟨S_, .i32⟩
  | 1 => ⟨S262144, .i32⟩
  | 2 => ⟨S262144, .i32⟩
  | 3 => ⟨S262144x1, .i32⟩
  | 4 => ⟨S262144x1, .i32⟩
  | 5 => ⟨S262144x2, .i32⟩
  | 6 => ⟨S262144x8, .f32⟩
  | 7 => ⟨S262144x8, .f32⟩
  | 8 => ⟨S262144x8, .f32⟩
  | 9 => ⟨S262144x8, .f32⟩
  | 10 => ⟨S_, .f32⟩
  | 11 => ⟨S262144x2, .f32⟩
  | 12 => ⟨S262144x2, .f32⟩
  | 13 => ⟨S_, .f32⟩
  | 14 => ⟨S262144x2, .f32⟩
  | 15 => ⟨S262144x2, .f32⟩
  | 16 => ⟨S262144x2, .f32⟩
  | 17 => ⟨S262144x2, .f32⟩
  | 18 => ⟨S262144x2, .i32⟩
  | 19 => ⟨S262144x2, .f32⟩
  | 20 => ⟨S_, .f32⟩
  | 21 => ⟨S262144x2, .f32⟩
  | 22 => ⟨S262144x2, .f32⟩
  | 23 => ⟨S_, .f32⟩
  | 24 => ⟨S262144x2, .f32⟩
  | 25 => ⟨S262144x2, .f32⟩
  | 26 => ⟨S262144x2, .f32⟩
  | 27 => ⟨S_, .f32⟩
  | 28 => ⟨S262144x8, .f32⟩
  | 29 => ⟨S262144x1, .f32⟩
  | 30 => ⟨S262144, .f32⟩
  | 31 => ⟨S_, .f32⟩
  | 32 => ⟨S262144, .f32⟩
  | 33 => ⟨S262144, .f32⟩
  | 34 => ⟨S262144x1, .f32⟩
  | 35 => ⟨S262144, .f32⟩
  | 36 => ⟨S_, .f32⟩
  | 37 => ⟨S262144, .f32⟩
  | 38 => ⟨S262144, .f32⟩
  | 39 => ⟨S262144x1, .i32⟩
  | 40 => ⟨S262144, .i32⟩
  | 41 => ⟨S_, .i32⟩
  | 42 => ⟨S262144, .i32⟩
  | 43 => ⟨S262144, .i32⟩
  | 44 => ⟨S262144x1, .i32⟩
  | 45 => ⟨S262144, .i32⟩
  | 46 => ⟨S_, .i32⟩
  | 47 => ⟨S262144, .i32⟩
  | 48 => ⟨S262144, .i32⟩
  | 49 => ⟨S_, .i32⟩
  | 50 => ⟨S262144, .i32⟩
  | 51 => ⟨S262144, .i32⟩
  | 52 => ⟨S262144, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S262144, .i32⟩
  | 60 => ⟨S262144, .i32⟩
  | 61 => ⟨S_, .i32⟩
  | 62 => ⟨S262144, .i32⟩
  | 63 => ⟨S262144, .i1⟩
  | 64 => ⟨S_, .i32⟩
  | 65 => ⟨S262144, .i32⟩
  | 66 => ⟨S262144, .i1⟩
  | 67 => ⟨S_, .i32⟩
  | 68 => ⟨S_, .i1⟩
  | 69 => ⟨S262144, .i1⟩
  | 70 => ⟨S262144, .i1⟩
  | 71 => ⟨S262144, .i1⟩
  | 72 => ⟨S262144, .i32⟩
  | 73 => ⟨S262144, .i32⟩
  | 74 => ⟨S262144, .i32⟩
  | 75 => ⟨S262144, .f32⟩
  | 76 => ⟨S262144x1, .f32⟩
  | 77 => ⟨S_, .i32⟩
  | 78 => ⟨S262144, .i32⟩
  | 79 => ⟨S262144, .i1⟩
  | 80 => ⟨S_, .i32⟩
  | 81 => ⟨S262144, .i32⟩
  | 82 => ⟨S262144, .i32⟩
  | 83 => ⟨S262144, .i32⟩
  | 84 => ⟨S_, .i32⟩
  | 85 => ⟨S262144, .i32⟩
  | 86 => ⟨S262144, .i32⟩
  | 87 => ⟨S262144x1, .i32⟩
  | 88 => ⟨S262144x1, .i32⟩
  | 89 => ⟨S262144x2, .i32⟩
  | 90 => ⟨S262144x8, .f32⟩
  | 91 => ⟨S262144x8, .f32⟩
  | 92 => ⟨S262144x8, .f32⟩
  | 93 => ⟨S262144x8, .f32⟩
  | 94 => ⟨S262144x1, .f32⟩
  | 95 => ⟨S262144, .f32⟩
  | 96 => ⟨S262144x1, .i32⟩
  | 97 => ⟨S262144, .i32⟩
  | 98 => ⟨S_, .i32⟩
  | 99 => ⟨S262144, .i32⟩
  | 100 => ⟨S262144, .i32⟩
  | 101 => ⟨S262144x1, .i32⟩
  | 102 => ⟨S262144, .i32⟩
  | 103 => ⟨S_, .i32⟩
  | 104 => ⟨S262144, .i32⟩
  | 105 => ⟨S262144, .i32⟩
  | 106 => ⟨S_, .i32⟩
  | 107 => ⟨S262144, .i32⟩
  | 108 => ⟨S262144, .i32⟩
  | 109 => ⟨S262144, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S262144, .i32⟩
  | 117 => ⟨S262144, .i32⟩
  | 118 => ⟨S_, .i32⟩
  | 119 => ⟨S262144, .i32⟩
  | 120 => ⟨S262144, .i1⟩
  | 121 => ⟨S_, .i32⟩
  | 122 => ⟨S262144, .i32⟩
  | 123 => ⟨S262144, .i1⟩
  | 124 => ⟨S_, .i32⟩
  | 125 => ⟨S_, .i1⟩
  | 126 => ⟨S262144, .i1⟩
  | 127 => ⟨S262144, .i1⟩
  | _ => ⟨S262144x2, .f32⟩

abbrev hbmTy0_3 (i : Nat) : BufTy := match i % 128 with
  | 0 => ⟨S262144, .i1⟩
  | 1 => ⟨S262144, .i32⟩
  | 2 => ⟨S262144, .i32⟩
  | 3 => ⟨S262144, .i32⟩
  | 4 => ⟨S262144, .f32⟩
  | 5 => ⟨S262144x1, .f32⟩
  | 6 => ⟨S_, .i32⟩
  | 7 => ⟨S262144, .i32⟩
  | 8 => ⟨S262144, .i1⟩
  | 9 => ⟨S_, .i32⟩
  | 10 => ⟨S262144, .i32⟩
  | 11 => ⟨S262144, .i32⟩
  | 12 => ⟨S262144, .i32⟩
  | 13 => ⟨S_, .i32⟩
  | 14 => ⟨S262144, .i32⟩
  | 15 => ⟨S262144, .i32⟩
  | 16 => ⟨S262144x1, .i32⟩
  | 17 => ⟨S262144x1, .i32⟩
  | 18 => ⟨S262144x2, .i32⟩
  | 19 => ⟨S262144x8, .f32⟩
  | 20 => ⟨S262144x8, .f32⟩
  | 21 => ⟨S262144x8, .f32⟩
  | 22 => ⟨S262144x8, .f32⟩
  | 23 => ⟨S262144x1, .f32⟩
  | 24 => ⟨S262144, .f32⟩
  | 25 => ⟨S262144x1, .f32⟩
  | 26 => ⟨S262144, .f32⟩
  | 27 => ⟨S_, .f32⟩
  | 28 => ⟨S262144, .f32⟩
  | 29 => ⟨S262144, .f32⟩
  | 30 => ⟨S262144x1, .i32⟩
  | 31 => ⟨S262144, .i32⟩
  | 32 => ⟨S_, .i32⟩
  | 33 => ⟨S262144, .i32⟩
  | 34 => ⟨S262144, .i32⟩
  | 35 => ⟨S262144x1, .i32⟩
  | 36 => ⟨S262144, .i32⟩
  | 37 => ⟨S_, .i32⟩
  | 38 => ⟨S262144, .i32⟩
  | 39 => ⟨S262144, .i32⟩
  | 40 => ⟨S_, .i32⟩
  | 41 => ⟨S262144, .i32⟩
  | 42 => ⟨S262144, .i32⟩
  | 43 => ⟨S262144, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S262144, .i32⟩
  | 51 => ⟨S262144, .i32⟩
  | 52 => ⟨S_, .i32⟩
  | 53 => ⟨S262144, .i32⟩
  | 54 => ⟨S262144, .i1⟩
  | 55 => ⟨S_, .i32⟩
  | 56 => ⟨S262144, .i32⟩
  | 57 => ⟨S262144, .i1⟩
  | 58 => ⟨S_, .i32⟩
  | 59 => ⟨S_, .i1⟩
  | 60 => ⟨S262144, .i1⟩
  | 61 => ⟨S262144, .i1⟩
  | 62 => ⟨S262144, .i1⟩
  | 63 => ⟨S262144, .i32⟩
  | 64 => ⟨S262144, .i32⟩
  | 65 => ⟨S262144, .i32⟩
  | 66 => ⟨S262144, .f32⟩
  | 67 => ⟨S262144x1, .f32⟩
  | 68 => ⟨S_, .i32⟩
  | 69 => ⟨S262144, .i32⟩
  | 70 => ⟨S262144, .i1⟩
  | 71 => ⟨S_, .i32⟩
  | 72 => ⟨S262144, .i32⟩
  | 73 => ⟨S262144, .i32⟩
  | 74 => ⟨S262144, .i32⟩
  | 75 => ⟨S_, .i32⟩
  | 76 => ⟨S262144, .i32⟩
  | 77 => ⟨S262144, .i32⟩
  | 78 => ⟨S262144x1, .i32⟩
  | 79 => ⟨S262144x1, .i32⟩
  | 80 => ⟨S262144x2, .i32⟩
  | 81 => ⟨S262144x8, .f32⟩
  | 82 => ⟨S262144x8, .f32⟩
  | 83 => ⟨S262144x8, .f32⟩
  | 84 => ⟨S262144x8, .f32⟩
  | 85 => ⟨S262144x1, .f32⟩
  | 86 => ⟨S262144, .f32⟩
  | 87 => ⟨S262144x1, .i32⟩
  | 88 => ⟨S262144, .i32⟩
  | 89 => ⟨S_, .i32⟩
  | 90 => ⟨S262144, .i32⟩
  | 91 => ⟨S262144, .i32⟩
  | 92 => ⟨S262144x1, .i32⟩
  | 93 => ⟨S262144, .i32⟩
  | 94 => ⟨S_, .i32⟩
  | 95 => ⟨S262144, .i32⟩
  | 96 => ⟨S262144, .i32⟩
  | 97 => ⟨S_, .i32⟩
  | 98 => ⟨S262144, .i32⟩
  | 99 => ⟨S262144, .i32⟩
  | 100 => ⟨S262144, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S262144, .i32⟩
  | 108 => ⟨S262144, .i32⟩
  | 109 => ⟨S_, .i32⟩
  | 110 => ⟨S262144, .i32⟩
  | 111 => ⟨S262144, .i1⟩
  | 112 => ⟨S_, .i32⟩
  | 113 => ⟨S262144, .i32⟩
  | 114 => ⟨S262144, .i1⟩
  | 115 => ⟨S_, .i32⟩
  | 116 => ⟨S_, .i1⟩
  | 117 => ⟨S262144, .i1⟩
  | 118 => ⟨S262144, .i1⟩
  | 119 => ⟨S262144, .i1⟩
  | 120 => ⟨S262144, .i32⟩
  | 121 => ⟨S262144, .i32⟩
  | 122 => ⟨S262144, .i32⟩
  | 123 => ⟨S262144, .f32⟩
  | 124 => ⟨S262144x1, .f32⟩
  | 125 => ⟨S_, .i32⟩
  | 126 => ⟨S262144, .i32⟩
  | 127 => ⟨S262144, .i1⟩
  | _ => ⟨S262144x2, .f32⟩

abbrev hbmTy0_4 (i : Nat) : BufTy := match i % 128 with
  | 0 => ⟨S_, .i32⟩
  | 1 => ⟨S262144, .i32⟩
  | 2 => ⟨S262144, .i32⟩
  | 3 => ⟨S262144, .i32⟩
  | 4 => ⟨S_, .i32⟩
  | 5 => ⟨S262144, .i32⟩
  | 6 => ⟨S262144, .i32⟩
  | 7 => ⟨S262144x1, .i32⟩
  | 8 => ⟨S262144x1, .i32⟩
  | 9 => ⟨S262144x2, .i32⟩
  | 10 => ⟨S262144x8, .f32⟩
  | 11 => ⟨S262144x8, .f32⟩
  | 12 => ⟨S262144x8, .f32⟩
  | 13 => ⟨S262144x8, .f32⟩
  | 14 => ⟨S_, .f32⟩
  | 15 => ⟨S262144x2, .f32⟩
  | 16 => ⟨S262144x2, .f32⟩
  | 17 => ⟨S_, .f32⟩
  | 18 => ⟨S262144x2, .f32⟩
  | 19 => ⟨S262144x2, .f32⟩
  | 20 => ⟨S262144x2, .f32⟩
  | 21 => ⟨S262144x2, .f32⟩
  | 22 => ⟨S262144x2, .i32⟩
  | 23 => ⟨S262144x2, .f32⟩
  | 24 => ⟨S_, .f32⟩
  | 25 => ⟨S262144x2, .f32⟩
  | 26 => ⟨S262144x2, .f32⟩
  | 27 => ⟨S_, .f32⟩
  | 28 => ⟨S262144x2, .f32⟩
  | 29 => ⟨S262144x2, .f32⟩
  | 30 => ⟨S262144x2, .f32⟩
  | 31 => ⟨S_, .f32⟩
  | 32 => ⟨S262144x8, .f32⟩
  | 33 => ⟨S262144x1, .f32⟩
  | 34 => ⟨S262144, .f32⟩
  | 35 => ⟨S_, .f32⟩
  | 36 => ⟨S262144, .f32⟩
  | 37 => ⟨S262144, .f32⟩
  | 38 => ⟨S262144x1, .f32⟩
  | 39 => ⟨S262144, .f32⟩
  | 40 => ⟨S_, .f32⟩
  | 41 => ⟨S262144, .f32⟩
  | 42 => ⟨S262144, .f32⟩
  | 43 => ⟨S262144x1, .i32⟩
  | 44 => ⟨S262144, .i32⟩
  | 45 => ⟨S_, .i32⟩
  | 46 => ⟨S262144, .i32⟩
  | 47 => ⟨S262144, .i32⟩
  | 48 => ⟨S262144x1, .i32⟩
  | 49 => ⟨S262144, .i32⟩
  | 50 => ⟨S_, .i32⟩
  | 51 => ⟨S262144, .i32⟩
  | 52 => ⟨S262144, .i32⟩
  | 53 => ⟨S_, .i32⟩
  | 54 => ⟨S262144, .i32⟩
  | 55 => ⟨S262144, .i32⟩
  | 56 => ⟨S262144, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S262144, .i32⟩
  | 64 => ⟨S262144, .i32⟩
  | 65 => ⟨S_, .i32⟩
  | 66 => ⟨S262144, .i32⟩
  | 67 => ⟨S262144, .i1⟩
  | 68 => ⟨S_, .i32⟩
  | 69 => ⟨S262144, .i32⟩
  | 70 => ⟨S262144, .i1⟩
  | 71 => ⟨S_, .i32⟩
  | 72 => ⟨S_, .i1⟩
  | 73 => ⟨S262144, .i1⟩
  | 74 => ⟨S262144, .i1⟩
  | 75 => ⟨S262144, .i1⟩
  | 76 => ⟨S262144, .i32⟩
  | 77 => ⟨S262144, .i32⟩
  | 78 => ⟨S262144, .i32⟩
  | 79 => ⟨S262144, .f32⟩
  | 80 => ⟨S262144x1, .f32⟩
  | 81 => ⟨S_, .i32⟩
  | 82 => ⟨S262144, .i32⟩
  | 83 => ⟨S262144, .i1⟩
  | 84 => ⟨S_, .i32⟩
  | 85 => ⟨S262144, .i32⟩
  | 86 => ⟨S262144, .i32⟩
  | 87 => ⟨S262144, .i32⟩
  | 88 => ⟨S_, .i32⟩
  | 89 => ⟨S262144, .i32⟩
  | 90 => ⟨S262144, .i32⟩
  | 91 => ⟨S262144x1, .i32⟩
  | 92 => ⟨S262144x1, .i32⟩
  | 93 => ⟨S262144x2, .i32⟩
  | 94 => ⟨S262144x8, .f32⟩
  | 95 => ⟨S262144x8, .f32⟩
  | 96 => ⟨S262144x8, .f32⟩
  | 97 => ⟨S262144x8, .f32⟩
  | 98 => ⟨S262144x1, .f32⟩
  | 99 => ⟨S262144, .f32⟩
  | 100 => ⟨S262144x1, .i32⟩
  | 101 => ⟨S262144, .i32⟩
  | 102 => ⟨S_, .i32⟩
  | 103 => ⟨S262144, .i32⟩
  | 104 => ⟨S262144, .i32⟩
  | 105 => ⟨S262144x1, .i32⟩
  | 106 => ⟨S262144, .i32⟩
  | 107 => ⟨S_, .i32⟩
  | 108 => ⟨S262144, .i32⟩
  | 109 => ⟨S262144, .i32⟩
  | 110 => ⟨S_, .i32⟩
  | 111 => ⟨S262144, .i32⟩
  | 112 => ⟨S262144, .i32⟩
  | 113 => ⟨S262144, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S262144, .i32⟩
  | 121 => ⟨S262144, .i32⟩
  | 122 => ⟨S_, .i32⟩
  | 123 => ⟨S262144, .i32⟩
  | 124 => ⟨S262144, .i1⟩
  | 125 => ⟨S_, .i32⟩
  | 126 => ⟨S262144, .i32⟩
  | 127 => ⟨S262144, .i1⟩
  | _ => ⟨S262144x2, .f32⟩

abbrev hbmTy0_5 (i : Nat) : BufTy := match i % 128 with
  | 0 => ⟨S_, .i32⟩
  | 1 => ⟨S_, .i1⟩
  | 2 => ⟨S262144, .i1⟩
  | 3 => ⟨S262144, .i1⟩
  | 4 => ⟨S262144, .i1⟩
  | 5 => ⟨S262144, .i32⟩
  | 6 => ⟨S262144, .i32⟩
  | 7 => ⟨S262144, .i32⟩
  | 8 => ⟨S262144, .f32⟩
  | 9 => ⟨S262144x1, .f32⟩
  | 10 => ⟨S_, .i32⟩
  | 11 => ⟨S262144, .i32⟩
  | 12 => ⟨S262144, .i1⟩
  | 13 => ⟨S_, .i32⟩
  | 14 => ⟨S262144, .i32⟩
  | 15 => ⟨S262144, .i32⟩
  | 16 => ⟨S262144, .i32⟩
  | 17 => ⟨S_, .i32⟩
  | 18 => ⟨S262144, .i32⟩
  | 19 => ⟨S262144, .i32⟩
  | 20 => ⟨S262144x1, .i32⟩
  | 21 => ⟨S262144x1, .i32⟩
  | 22 => ⟨S262144x2, .i32⟩
  | 23 => ⟨S262144x8, .f32⟩
  | 24 => ⟨S262144x8, .f32⟩
  | 25 => ⟨S262144x8, .f32⟩
  | 26 => ⟨S262144x8, .f32⟩
  | 27 => ⟨S262144x1, .f32⟩
  | 28 => ⟨S262144, .f32⟩
  | 29 => ⟨S262144x1, .f32⟩
  | 30 => ⟨S262144, .f32⟩
  | 31 => ⟨S_, .f32⟩
  | 32 => ⟨S262144, .f32⟩
  | 33 => ⟨S262144, .f32⟩
  | 34 => ⟨S262144x1, .i32⟩
  | 35 => ⟨S262144, .i32⟩
  | 36 => ⟨S_, .i32⟩
  | 37 => ⟨S262144, .i32⟩
  | 38 => ⟨S262144, .i32⟩
  | 39 => ⟨S262144x1, .i32⟩
  | 40 => ⟨S262144, .i32⟩
  | 41 => ⟨S_, .i32⟩
  | 42 => ⟨S262144, .i32⟩
  | 43 => ⟨S262144, .i32⟩
  | 44 => ⟨S_, .i32⟩
  | 45 => ⟨S262144, .i32⟩
  | 46 => ⟨S262144, .i32⟩
  | 47 => ⟨S262144, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S262144, .i32⟩
  | 55 => ⟨S262144, .i32⟩
  | 56 => ⟨S_, .i32⟩
  | 57 => ⟨S262144, .i32⟩
  | 58 => ⟨S262144, .i1⟩
  | 59 => ⟨S_, .i32⟩
  | 60 => ⟨S262144, .i32⟩
  | 61 => ⟨S262144, .i1⟩
  | 62 => ⟨S_, .i32⟩
  | 63 => ⟨S_, .i1⟩
  | 64 => ⟨S262144, .i1⟩
  | 65 => ⟨S262144, .i1⟩
  | 66 => ⟨S262144, .i1⟩
  | 67 => ⟨S262144, .i32⟩
  | 68 => ⟨S262144, .i32⟩
  | 69 => ⟨S262144, .i32⟩
  | 70 => ⟨S262144, .f32⟩
  | 71 => ⟨S262144x1, .f32⟩
  | 72 => ⟨S_, .i32⟩
  | 73 => ⟨S262144, .i32⟩
  | 74 => ⟨S262144, .i1⟩
  | 75 => ⟨S_, .i32⟩
  | 76 => ⟨S262144, .i32⟩
  | 77 => ⟨S262144, .i32⟩
  | 78 => ⟨S262144, .i32⟩
  | 79 => ⟨S_, .i32⟩
  | 80 => ⟨S262144, .i32⟩
  | 81 => ⟨S262144, .i32⟩
  | 82 => ⟨S262144x1, .i32⟩
  | 83 => ⟨S262144x1, .i32⟩
  | 84 => ⟨S262144x2, .i32⟩
  | 85 => ⟨S262144x8, .f32⟩
  | 86 => ⟨S262144x8, .f32⟩
  | 87 => ⟨S262144x8, .f32⟩
  | 88 => ⟨S262144x8, .f32⟩
  | 89 => ⟨S262144x1, .f32⟩
  | 90 => ⟨S262144, .f32⟩
  | 91 => ⟨S262144x1, .i32⟩
  | 92 => ⟨S262144, .i32⟩
  | 93 => ⟨S_, .i32⟩
  | 94 => ⟨S262144, .i32⟩
  | 95 => ⟨S262144, .i32⟩
  | 96 => ⟨S262144x1, .i32⟩
  | 97 => ⟨S262144, .i32⟩
  | 98 => ⟨S_, .i32⟩
  | 99 => ⟨S262144, .i32⟩
  | 100 => ⟨S262144, .i32⟩
  | 101 => ⟨S_, .i32⟩
  | 102 => ⟨S262144, .i32⟩
  | 103 => ⟨S262144, .i32⟩
  | 104 => ⟨S262144, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S262144, .i32⟩
  | 112 => ⟨S262144, .i32⟩
  | 113 => ⟨S_, .i32⟩
  | 114 => ⟨S262144, .i32⟩
  | 115 => ⟨S262144, .i1⟩
  | 116 => ⟨S_, .i32⟩
  | 117 => ⟨S262144, .i32⟩
  | 118 => ⟨S262144, .i1⟩
  | 119 => ⟨S_, .i32⟩
  | 120 => ⟨S_, .i1⟩
  | 121 => ⟨S262144, .i1⟩
  | 122 => ⟨S262144, .i1⟩
  | 123 => ⟨S262144, .i1⟩
  | 124 => ⟨S262144, .i32⟩
  | 125 => ⟨S262144, .i32⟩
  | 126 => ⟨S262144, .i32⟩
  | 127 => ⟨S262144, .f32⟩
  | _ => ⟨S262144x2, .f32⟩

abbrev hbmTy0_6 (i : Nat) : BufTy := match i % 128 with
  | 0 => ⟨S262144x1, .f32⟩
  | 1 => ⟨S_, .i32⟩
  | 2 => ⟨S262144, .i32⟩
  | 3 => ⟨S262144, .i1⟩
  | 4 => ⟨S_, .i32⟩
  | 5 => ⟨S262144, .i32⟩
  | 6 => ⟨S262144, .i32⟩
  | 7 => ⟨S262144, .i32⟩
  | 8 => ⟨S_, .i32⟩
  | 9 => ⟨S262144, .i32⟩
  | 10 => ⟨S262144, .i32⟩
  | 11 => ⟨S262144x1, .i32⟩
  | 12 => ⟨S262144x1, .i32⟩
  | 13 => ⟨S262144x2, .i32⟩
  | 14 => ⟨S262144x8, .f32⟩
  | 15 => ⟨S262144x8, .f32⟩
  | 16 => ⟨S262144x8, .f32⟩
  | 17 => ⟨S262144x8, .f32⟩
  | 18 => ⟨S_, .f32⟩
  | 19 => ⟨S262144x2, .f32⟩
  | 20 => ⟨S262144x2, .f32⟩
  | 21 => ⟨S_, .f32⟩
  | 22 => ⟨S262144x2, .f32⟩
  | 23 => ⟨S262144x2, .f32⟩
  | 24 => ⟨S262144x2, .f32⟩
  | 25 => ⟨S262144x2, .f32⟩
  | 26 => ⟨S262144x2, .i32⟩
  | 27 => ⟨S262144x2, .f32⟩
  | 28 => ⟨S_, .f32⟩
  | 29 => ⟨S262144x2, .f32⟩
  | 30 => ⟨S262144x2, .f32⟩
  | 31 => ⟨S_, .f32⟩
  | 32 => ⟨S262144x2, .f32⟩
  | 33 => ⟨S262144x2, .f32⟩
  | 34 => ⟨S262144x2, .f32⟩
  | 35 => ⟨S_, .f32⟩
  | 36 => ⟨S262144x8, .f32⟩
  | 37 => ⟨S262144x1, .f32⟩
  | 38 => ⟨S262144, .f32⟩
  | 39 => ⟨S_, .f32⟩
  | 40 => ⟨S262144, .f32⟩
  | 41 => ⟨S262144, .f32⟩
  | 42 => ⟨S262144x1, .f32⟩
  | 43 => ⟨S262144, .f32⟩
  | 44 => ⟨S_, .f32⟩
  | 45 => ⟨S262144, .f32⟩
  | 46 => ⟨S262144, .f32⟩
  | 47 => ⟨S262144x1, .i32⟩
  | 48 => ⟨S262144, .i32⟩
  | 49 => ⟨S_, .i32⟩
  | 50 => ⟨S262144, .i32⟩
  | 51 => ⟨S262144, .i32⟩
  | 52 => ⟨S262144x1, .i32⟩
  | 53 => ⟨S262144, .i32⟩
  | 54 => ⟨S_, .i32⟩
  | 55 => ⟨S262144, .i32⟩
  | 56 => ⟨S262144, .i32⟩
  | 57 => ⟨S_, .i32⟩
  | 58 => ⟨S262144, .i32⟩
  | 59 => ⟨S262144, .i32⟩
  | 60 => ⟨S262144, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S262144, .i32⟩
  | 68 => ⟨S262144, .i32⟩
  | 69 => ⟨S_, .i32⟩
  | 70 => ⟨S262144, .i32⟩
  | 71 => ⟨S262144, .i1⟩
  | 72 => ⟨S_, .i32⟩
  | 73 => ⟨S262144, .i32⟩
  | 74 => ⟨S262144, .i1⟩
  | 75 => ⟨S_, .i32⟩
  | 76 => ⟨S_, .i1⟩
  | 77 => ⟨S262144, .i1⟩
  | 78 => ⟨S262144, .i1⟩
  | 79 => ⟨S262144, .i1⟩
  | 80 => ⟨S262144, .i32⟩
  | 81 => ⟨S262144, .i32⟩
  | 82 => ⟨S262144, .i32⟩
  | 83 => ⟨S262144, .f32⟩
  | 84 => ⟨S262144x1, .f32⟩
  | 85 => ⟨S_, .i32⟩
  | 86 => ⟨S262144, .i32⟩
  | 87 => ⟨S262144, .i1⟩
  | 88 => ⟨S_, .i32⟩
  | 89 => ⟨S262144, .i32⟩
  | 90 => ⟨S262144, .i32⟩
  | 91 => ⟨S262144, .i32⟩
  | 92 => ⟨S_, .i32⟩
  | 93 => ⟨S262144, .i32⟩
  | 94 => ⟨S262144, .i32⟩
  | 95 => ⟨S262144x1, .i32⟩
  | 96 => ⟨S262144x1, .i32⟩
  | 97 => ⟨S262144x2, .i32⟩
  | 98 => ⟨S262144x8, .f32⟩
  | 99 => ⟨S262144x8, .f32⟩
  | 100 => ⟨S262144x8, .f32⟩
  | 101 => ⟨S262144x8, .f32⟩
  | 102 => ⟨S262144x1, .f32⟩
  | 103 => ⟨S262144, .f32⟩
  | 104 => ⟨S262144x1, .i32⟩
  | 105 => ⟨S262144, .i32⟩
  | 106 => ⟨S_, .i32⟩
  | 107 => ⟨S262144, .i32⟩
  | 108 => ⟨S262144, .i32⟩
  | 109 => ⟨S262144x1, .i32⟩
  | 110 => ⟨S262144, .i32⟩
  | 111 => ⟨S_, .i32⟩
  | 112 => ⟨S262144, .i32⟩
  | 113 => ⟨S262144, .i32⟩
  | 114 => ⟨S_, .i32⟩
  | 115 => ⟨S262144, .i32⟩
  | 116 => ⟨S262144, .i32⟩
  | 117 => ⟨S262144, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S262144, .i32⟩
  | 125 => ⟨S262144, .i32⟩
  | 126 => ⟨S_, .i32⟩
  | 127 => ⟨S262144, .i32⟩
  | _ => ⟨S262144x2, .f32⟩

abbrev hbmTy0_7 (i : Nat) : BufTy := match i % 128 with
  | 0 => ⟨S262144, .i1⟩
  | 1 => ⟨S_, .i32⟩
  | 2 => ⟨S262144, .i32⟩
  | 3 => ⟨S262144, .i1⟩
  | 4 => ⟨S_, .i32⟩
  | 5 => ⟨S_, .i1⟩
  | 6 => ⟨S262144, .i1⟩
  | 7 => ⟨S262144, .i1⟩
  | 8 => ⟨S262144, .i1⟩
  | 9 => ⟨S262144, .i32⟩
  | 10 => ⟨S262144, .i32⟩
  | 11 => ⟨S262144, .i32⟩
  | 12 => ⟨S262144, .f32⟩
  | 13 => ⟨S262144x1, .f32⟩
  | 14 => ⟨S_, .i32⟩
  | 15 => ⟨S262144, .i32⟩
  | 16 => ⟨S262144, .i1⟩
  | 17 => ⟨S_, .i32⟩
  | 18 => ⟨S262144, .i32⟩
  | 19 => ⟨S262144, .i32⟩
  | 20 => ⟨S262144, .i32⟩
  | 21 => ⟨S_, .i32⟩
  | 22 => ⟨S262144, .i32⟩
  | 23 => ⟨S262144, .i32⟩
  | 24 => ⟨S262144x1, .i32⟩
  | 25 => ⟨S262144x1, .i32⟩
  | 26 => ⟨S262144x2, .i32⟩
  | 27 => ⟨S262144x8, .f32⟩
  | 28 => ⟨S262144x8, .f32⟩
  | 29 => ⟨S262144x8, .f32⟩
  | 30 => ⟨S262144x8, .f32⟩
  | 31 => ⟨S262144x1, .f32⟩
  | 32 => ⟨S262144, .f32⟩
  | 33 => ⟨S262144x1, .f32⟩
  | 34 => ⟨S262144, .f32⟩
  | 35 => ⟨S_, .f32⟩
  | 36 => ⟨S262144, .f32⟩
  | 37 => ⟨S262144, .f32⟩
  | 38 => ⟨S262144x1, .i32⟩
  | 39 => ⟨S262144, .i32⟩
  | 40 => ⟨S_, .i32⟩
  | 41 => ⟨S262144, .i32⟩
  | 42 => ⟨S262144, .i32⟩
  | 43 => ⟨S262144x1, .i32⟩
  | 44 => ⟨S262144, .i32⟩
  | 45 => ⟨S_, .i32⟩
  | 46 => ⟨S262144, .i32⟩
  | 47 => ⟨S262144, .i32⟩
  | 48 => ⟨S_, .i32⟩
  | 49 => ⟨S262144, .i32⟩
  | 50 => ⟨S262144, .i32⟩
  | 51 => ⟨S262144, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S262144, .i32⟩
  | 59 => ⟨S262144, .i32⟩
  | 60 => ⟨S_, .i32⟩
  | 61 => ⟨S262144, .i32⟩
  | 62 => ⟨S262144, .i1⟩
  | 63 => ⟨S_, .i32⟩
  | 64 => ⟨S262144, .i32⟩
  | 65 => ⟨S262144, .i1⟩
  | 66 => ⟨S_, .i32⟩
  | 67 => ⟨S_, .i1⟩
  | 68 => ⟨S262144, .i1⟩
  | 69 => ⟨S262144, .i1⟩
  | 70 => ⟨S262144, .i1⟩
  | 71 => ⟨S262144, .i32⟩
  | 72 => ⟨S262144, .i32⟩
  | 73 => ⟨S262144, .i32⟩
  | 74 => ⟨S262144, .f32⟩
  | 75 => ⟨S262144x1, .f32⟩
  | 76 => ⟨S_, .i32⟩
  | 77 => ⟨S262144, .i32⟩
  | 78 => ⟨S262144, .i1⟩
  | 79 => ⟨S_, .i32⟩
  | 80 => ⟨S262144, .i32⟩
  | 81 => ⟨S262144, .i32⟩
  | 82 => ⟨S262144, .i32⟩
  | 83 => ⟨S_, .i32⟩
  | 84 => ⟨S262144, .i32⟩
  | 85 => ⟨S262144, .i32⟩
  | 86 => ⟨S262144x1, .i32⟩
  | 87 => ⟨S262144x1, .i32⟩
  | 88 => ⟨S262144x2, .i32⟩
  | 89 => ⟨S262144x8, .f32⟩
  | 90 => ⟨S262144x8, .f32⟩
  | 91 => ⟨S262144x8, .f32⟩
  | 92 => ⟨S262144x8, .f32⟩
  | 93 => ⟨S262144x1, .f32⟩
  | 94 => ⟨S262144, .f32⟩
  | 95 => ⟨S262144x1, .i32⟩
  | 96 => ⟨S262144, .i32⟩
  | 97 => ⟨S_, .i32⟩
  | 98 => ⟨S262144, .i32⟩
  | 99 => ⟨S262144, .i32⟩
  | 100 => ⟨S262144x1, .i32⟩
  | 101 => ⟨S262144, .i32⟩
  | 102 => ⟨S_, .i32⟩
  | 103 => ⟨S262144, .i32⟩
  | 104 => ⟨S262144, .i32⟩
  | 105 => ⟨S_, .i32⟩
  | 106 => ⟨S262144, .i32⟩
  | 107 => ⟨S262144, .i32⟩
  | 108 => ⟨S262144, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S262144, .i32⟩
  | 116 => ⟨S262144, .i32⟩
  | 117 => ⟨S_, .i32⟩
  | 118 => ⟨S262144, .i32⟩
  | 119 => ⟨S262144, .i1⟩
  | 120 => ⟨S_, .i32⟩
  | 121 => ⟨S262144, .i32⟩
  | 122 => ⟨S262144, .i1⟩
  | 123 => ⟨S_, .i32⟩
  | 124 => ⟨S_, .i1⟩
  | 125 => ⟨S262144, .i1⟩
  | 126 => ⟨S262144, .i1⟩
  | 127 => ⟨S262144, .i1⟩
  | _ => ⟨S262144x2, .f32⟩

abbrev hbmTy0_8 (i : Nat) : BufTy := match i % 128 with
  | 0 => ⟨S262144, .i32⟩
  | 1 => ⟨S262144, .i32⟩
  | 2 => ⟨S262144, .i32⟩
  | 3 => ⟨S262144, .f32⟩
  | 4 => ⟨S262144x1, .f32⟩
  | 5 => ⟨S_, .i32⟩
  | 6 => ⟨S262144, .i32⟩
  | 7 => ⟨S262144, .i1⟩
  | 8 => ⟨S_, .i32⟩
  | 9 => ⟨S262144, .i32⟩
  | 10 => ⟨S262144, .i32⟩
  | 11 => ⟨S262144, .i32⟩
  | 12 => ⟨S_, .i32⟩
  | 13 => ⟨S262144, .i32⟩
  | 14 => ⟨S262144, .i32⟩
  | 15 => ⟨S262144x1, .i32⟩
  | 16 => ⟨S262144x1, .i32⟩
  | 17 => ⟨S262144x2, .i32⟩
  | 18 => ⟨S262144x8, .f32⟩
  | 19 => ⟨S262144x8, .f32⟩
  | 20 => ⟨S262144x8, .f32⟩
  | 21 => ⟨S262144x8, .f32⟩
  | 22 => ⟨S_, .f32⟩
  | 23 => ⟨S262144x2, .f32⟩
  | 24 => ⟨S262144x2, .f32⟩
  | 25 => ⟨S_, .f32⟩
  | 26 => ⟨S262144x2, .f32⟩
  | 27 => ⟨S262144x2, .f32⟩
  | 28 => ⟨S262144x2, .f32⟩
  | 29 => ⟨S262144x2, .f32⟩
  | 30 => ⟨S262144x2, .i32⟩
  | 31 => ⟨S262144x2, .f32⟩
  | 32 => ⟨S_, .f32⟩
  | 33 => ⟨S262144x2, .f32⟩
  | 34 => ⟨S262144x2, .f32⟩
  | 35 => ⟨S_, .f32⟩
  | 36 => ⟨S262144x2, .f32⟩
  | 37 => ⟨S262144x2, .f32⟩
  | 38 => ⟨S262144x2, .f32⟩
  | 39 => ⟨S_, .f32⟩
  | 40 => ⟨S262144x8, .f32⟩
  | 41 => ⟨S262144x1, .f32⟩
  | 42 => ⟨S262144, .f32⟩
  | 43 => ⟨S_, .f32⟩
  | 44 => ⟨S262144, .f32⟩
  | 45 => ⟨S262144, .f32⟩
  | 46 => ⟨S262144x1, .f32⟩
  | 47 => ⟨S262144, .f32⟩
  | 48 => ⟨S_, .f32⟩
  | 49 => ⟨S262144, .f32⟩
  | 50 => ⟨S262144, .f32⟩
  | 51 => ⟨S262144x1, .i32⟩
  | 52 => ⟨S262144, .i32⟩
  | 53 => ⟨S_, .i32⟩
  | 54 => ⟨S262144, .i32⟩
  | 55 => ⟨S262144, .i32⟩
  | 56 => ⟨S262144x1, .i32⟩
  | 57 => ⟨S262144, .i32⟩
  | 58 => ⟨S_, .i32⟩
  | 59 => ⟨S262144, .i32⟩
  | 60 => ⟨S262144, .i32⟩
  | 61 => ⟨S_, .i32⟩
  | 62 => ⟨S262144, .i32⟩
  | 63 => ⟨S262144, .i32⟩
  | 64 => ⟨S262144, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S262144, .i32⟩
  | 72 => ⟨S262144, .i32⟩
  | 73 => ⟨S_, .i32⟩
  | 74 => ⟨S262144, .i32⟩
  | 75 => ⟨S262144, .i1⟩
  | 76 => ⟨S_, .i32⟩
  | 77 => ⟨S262144, .i32⟩
  | 78 => ⟨S262144, .i1⟩
  | 79 => ⟨S_, .i32⟩
  | 80 => ⟨S_, .i1⟩
  | 81 => ⟨S262144, .i1⟩
  | 82 => ⟨S262144, .i1⟩
  | 83 => ⟨S262144, .i1⟩
  | 84 => ⟨S262144, .i32⟩
  | 85 => ⟨S262144, .i32⟩
  | 86 => ⟨S262144, .i32⟩
  | 87 => ⟨S262144, .f32⟩
  | 88 => ⟨S262144x1, .f32⟩
  | 89 => ⟨S_, .i32⟩
  | 90 => ⟨S262144, .i32⟩
  | 91 => ⟨S262144, .i1⟩
  | 92 => ⟨S_, .i32⟩
  | 93 => ⟨S262144, .i32⟩
  | 94 => ⟨S262144, .i32⟩
  | 95 => ⟨S262144, .i32⟩
  | 96 => ⟨S_, .i32⟩
  | 97 => ⟨S262144, .i32⟩
  | 98 => ⟨S262144, .i32⟩
  | 99 => ⟨S262144x1, .i32⟩
  | 100 => ⟨S262144x1, .i32⟩
  | 101 => ⟨S262144x2, .i32⟩
  | 102 => ⟨S262144x8, .f32⟩
  | 103 => ⟨S262144x8, .f32⟩
  | 104 => ⟨S262144x8, .f32⟩
  | 105 => ⟨S262144x8, .f32⟩
  | 106 => ⟨S262144x1, .f32⟩
  | 107 => ⟨S262144, .f32⟩
  | 108 => ⟨S262144x1, .i32⟩
  | 109 => ⟨S262144, .i32⟩
  | 110 => ⟨S_, .i32⟩
  | 111 => ⟨S262144, .i32⟩
  | 112 => ⟨S262144, .i32⟩
  | 113 => ⟨S262144x1, .i32⟩
  | 114 => ⟨S262144, .i32⟩
  | 115 => ⟨S_, .i32⟩
  | 116 => ⟨S262144, .i32⟩
  | 117 => ⟨S262144, .i32⟩
  | 118 => ⟨S_, .i32⟩
  | 119 => ⟨S262144, .i32⟩
  | 120 => ⟨S262144, .i32⟩
  | 121 => ⟨S262144, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S262144x2, .f32⟩

abbrev hbmTy0_9 (i : Nat) : BufTy := match i % 128 with
  | 0 => ⟨S262144, .i32⟩
  | 1 => ⟨S262144, .i32⟩
  | 2 => ⟨S_, .i32⟩
  | 3 => ⟨S262144, .i32⟩
  | 4 => ⟨S262144, .i1⟩
  | 5 => ⟨S_, .i32⟩
  | 6 => ⟨S262144, .i32⟩
  | 7 => ⟨S262144, .i1⟩
  | 8 => ⟨S_, .i32⟩
  | 9 => ⟨S_, .i1⟩
  | 10 => ⟨S262144, .i1⟩
  | 11 => ⟨S262144, .i1⟩
  | 12 => ⟨S262144, .i1⟩
  | 13 => ⟨S262144, .i32⟩
  | 14 => ⟨S262144, .i32⟩
  | 15 => ⟨S262144, .i32⟩
  | 16 => ⟨S262144, .f32⟩
  | 17 => ⟨S262144x1, .f32⟩
  | 18 => ⟨S_, .i32⟩
  | 19 => ⟨S262144, .i32⟩
  | 20 => ⟨S262144, .i1⟩
  | 21 => ⟨S_, .i32⟩
  | 22 => ⟨S262144, .i32⟩
  | 23 => ⟨S262144, .i32⟩
  | 24 => ⟨S262144, .i32⟩
  | 25 => ⟨S_, .i32⟩
  | 26 => ⟨S262144, .i32⟩
  | 27 => ⟨S262144, .i32⟩
  | 28 => ⟨S262144x1, .i32⟩
  | 29 => ⟨S262144x1, .i32⟩
  | 30 => ⟨S262144x2, .i32⟩
  | 31 => ⟨S262144x8, .f32⟩
  | 32 => ⟨S262144x8, .f32⟩
  | 33 => ⟨S262144x8, .f32⟩
  | 34 => ⟨S262144x8, .f32⟩
  | 35 => ⟨S262144x1, .f32⟩
  | 36 => ⟨S262144, .f32⟩
  | 37 => ⟨S262144x1, .f32⟩
  | 38 => ⟨S262144, .f32⟩
  | 39 => ⟨S_, .f32⟩
  | 40 => ⟨S262144, .f32⟩
  | 41 => ⟨S262144, .f32⟩
  | 42 => ⟨S262144x1, .i32⟩
  | 43 => ⟨S262144, .i32⟩
  | 44 => ⟨S_, .i32⟩
  | 45 => ⟨S262144, .i32⟩
  | 46 => ⟨S262144, .i32⟩
  | 47 => ⟨S262144x1, .i32⟩
  | 48 => ⟨S262144, .i32⟩
  | 49 => ⟨S_, .i32⟩
  | 50 => ⟨S262144, .i32⟩
  | 51 => ⟨S262144, .i32⟩
  | 52 => ⟨S_, .i32⟩
  | 53 => ⟨S262144, .i32⟩
  | 54 => ⟨S262144, .i32⟩
  | 55 => ⟨S262144, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S262144, .i32⟩
  | 63 => ⟨S262144, .i32⟩
  | 64 => ⟨S_, .i32⟩
  | 65 => ⟨S262144, .i32⟩
  | 66 => ⟨S262144, .i1⟩
  | 67 => ⟨S_, .i32⟩
  | 68 => ⟨S262144, .i32⟩
  | 69 => ⟨S262144, .i1⟩
  | 70 => ⟨S_, .i32⟩
  | 71 => ⟨S_, .i1⟩
  | 72 => ⟨S262144, .i1⟩
  | 73 => ⟨S262144, .i1⟩
  | 74 => ⟨S262144, .i1⟩
  | 75 => ⟨S262144, .i32⟩
  | 76 => ⟨S262144, .i32⟩
  | 77 => ⟨S262144, .i32⟩
  | 78 => ⟨S262144, .f32⟩
  | 79 => ⟨S262144x1, .f32⟩
  | 80 => ⟨S_, .i32⟩
  | 81 => ⟨S262144, .i32⟩
  | 82 => ⟨S262144, .i1⟩
  | 83 => ⟨S_, .i32⟩
  | 84 => ⟨S262144, .i32⟩
  | 85 => ⟨S262144, .i32⟩
  | 86 => ⟨S262144, .i32⟩
  | 87 => ⟨S_, .i32⟩
  | 88 => ⟨S262144, .i32⟩
  | 89 => ⟨S262144, .i32⟩
  | 90 => ⟨S262144x1, .i32⟩
  | 91 => ⟨S262144x1, .i32⟩
  | 92 => ⟨S262144x2, .i32⟩
  | 93 => ⟨S262144x8, .f32⟩
  | 94 => ⟨S262144x8, .f32⟩
  | 95 => ⟨S262144x8, .f32⟩
  | 96 => ⟨S262144x8, .f32⟩
  | 97 => ⟨S262144x1, .f32⟩
  | 98 => ⟨S262144, .f32⟩
  | 99 => ⟨S262144x1, .i32⟩
  | 100 => ⟨S262144, .i32⟩
  | 101 => ⟨S_, .i32⟩
  | 102 => ⟨S262144, .i32⟩
  | 103 => ⟨S262144, .i32⟩
  | 104 => ⟨S262144x1, .i32⟩
  | 105 => ⟨S262144, .i32⟩
  | 106 => ⟨S_, .i32⟩
  | 107 => ⟨S262144, .i32⟩
  | 108 => ⟨S262144, .i32⟩
  | 109 => ⟨S_, .i32⟩
  | 110 => ⟨S262144, .i32⟩
  | 111 => ⟨S262144, .i32⟩
  | 112 => ⟨S262144, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S262144, .i32⟩
  | 120 => ⟨S262144, .i32⟩
  | 121 => ⟨S_, .i32⟩
  | 122 => ⟨S262144, .i32⟩
  | 123 => ⟨S262144, .i1⟩
  | 124 => ⟨S_, .i32⟩
  | 125 => ⟨S262144, .i32⟩
  | 126 => ⟨S262144, .i1⟩
  | 127 => ⟨S_, .i32⟩
  | _ => ⟨S262144x2, .f32⟩

abbrev hbmTy0_10 (i : Nat) : BufTy := match i % 128 with
  | 0 => ⟨S_, .i1⟩
  | 1 => ⟨S262144, .i1⟩
  | 2 => ⟨S262144, .i1⟩
  | 3 => ⟨S262144, .i1⟩
  | 4 => ⟨S262144, .i32⟩
  | 5 => ⟨S262144, .i32⟩
  | 6 => ⟨S262144, .i32⟩
  | 7 => ⟨S262144, .f32⟩
  | 8 => ⟨S262144x1, .f32⟩
  | 9 => ⟨S_, .i32⟩
  | 10 => ⟨S262144, .i32⟩
  | 11 => ⟨S262144, .i1⟩
  | 12 => ⟨S_, .i32⟩
  | 13 => ⟨S262144, .i32⟩
  | 14 => ⟨S262144, .i32⟩
  | 15 => ⟨S262144, .i32⟩
  | 16 => ⟨S_, .i32⟩
  | 17 => ⟨S262144, .i32⟩
  | 18 => ⟨S262144, .i32⟩
  | 19 => ⟨S262144x1, .i32⟩
  | 20 => ⟨S262144x1, .i32⟩
  | 21 => ⟨S262144x2, .i32⟩
  | 22 => ⟨S262144x8, .f32⟩
  | 23 => ⟨S262144x8, .f32⟩
  | 24 => ⟨S262144x8, .f32⟩
  | 25 => ⟨S262144x8, .f32⟩
  | 26 => ⟨S_, .f32⟩
  | 27 => ⟨S262144x2, .f32⟩
  | 28 => ⟨S262144x2, .f32⟩
  | 29 => ⟨S_, .f32⟩
  | 30 => ⟨S262144x2, .f32⟩
  | 31 => ⟨S262144x2, .f32⟩
  | 32 => ⟨S262144x2, .f32⟩
  | 33 => ⟨S262144x2, .f32⟩
  | 34 => ⟨S262144x2, .i32⟩
  | 35 => ⟨S262144x2, .f32⟩
  | 36 => ⟨S_, .f32⟩
  | 37 => ⟨S262144x2, .f32⟩
  | 38 => ⟨S262144x2, .f32⟩
  | 39 => ⟨S_, .f32⟩
  | 40 => ⟨S262144x2, .f32⟩
  | 41 => ⟨S262144x2, .f32⟩
  | 42 => ⟨S262144x2, .f32⟩
  | 43 => ⟨S_, .f32⟩
  | 44 => ⟨S262144x8, .f32⟩
  | 45 => ⟨S262144x1, .f32⟩
  | 46 => ⟨S262144, .f32⟩
  | 47 => ⟨S_, .f32⟩
  | 48 => ⟨S262144, .f32⟩
  | 49 => ⟨S262144, .f32⟩
  | 50 => ⟨S262144x1, .f32⟩
  | 51 => ⟨S262144, .f32⟩
  | 52 => ⟨S_, .f32⟩
  | 53 => ⟨S262144, .f32⟩
  | 54 => ⟨S262144, .f32⟩
  | 55 => ⟨S262144x1, .i32⟩
  | 56 => ⟨S262144, .i32⟩
  | 57 => ⟨S_, .i32⟩
  | 58 => ⟨S262144, .i32⟩
  | 59 => ⟨S262144, .i32⟩
  | 60 => ⟨S262144x1, .i32⟩
  | 61 => ⟨S262144, .i32⟩
  | 62 => ⟨S_, .i32⟩
  | 63 => ⟨S262144, .i32⟩
  | 64 => ⟨S262144, .i32⟩
  | 65 => ⟨S_, .i32⟩
  | 66 => ⟨S262144, .i32⟩
  | 67 => ⟨S262144, .i32⟩
  | 68 => ⟨S262144, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S262144, .i32⟩
  | 76 => ⟨S262144, .i32⟩
  | 77 => ⟨S_, .i32⟩
  | 78 => ⟨S262144, .i32⟩
  | 79 => ⟨S262144, .i1⟩
  | 80 => ⟨S_, .i32⟩
  | 81 => ⟨S262144, .i32⟩
  | 82 => ⟨S262144, .i1⟩
  | 83 => ⟨S_, .i32⟩
  | 84 => ⟨S_, .i1⟩
  | 85 => ⟨S262144, .i1⟩
  | 86 => ⟨S262144, .i1⟩
  | 87 => ⟨S262144, .i1⟩
  | 88 => ⟨S262144, .i32⟩
  | 89 => ⟨S262144, .i32⟩
  | 90 => ⟨S262144, .i32⟩
  | 91 => ⟨S262144, .f32⟩
  | 92 => ⟨S262144x1, .f32⟩
  | 93 => ⟨S_, .i32⟩
  | 94 => ⟨S262144, .i32⟩
  | 95 => ⟨S262144, .i1⟩
  | 96 => ⟨S_, .i32⟩
  | 97 => ⟨S262144, .i32⟩
  | 98 => ⟨S262144, .i32⟩
  | 99 => ⟨S262144, .i32⟩
  | 100 => ⟨S_, .i32⟩
  | 101 => ⟨S262144, .i32⟩
  | 102 => ⟨S262144, .i32⟩
  | 103 => ⟨S262144x1, .i32⟩
  | 104 => ⟨S262144x1, .i32⟩
  | 105 => ⟨S262144x2, .i32⟩
  | 106 => ⟨S262144x8, .f32⟩
  | 107 => ⟨S262144x8, .f32⟩
  | 108 => ⟨S262144x8, .f32⟩
  | 109 => ⟨S262144x8, .f32⟩
  | 110 => ⟨S262144x1, .f32⟩
  | 111 => ⟨S262144, .f32⟩
  | 112 => ⟨S262144x1, .i32⟩
  | 113 => ⟨S262144, .i32⟩
  | 114 => ⟨S_, .i32⟩
  | 115 => ⟨S262144, .i32⟩
  | 116 => ⟨S262144, .i32⟩
  | 117 => ⟨S262144x1, .i32⟩
  | 118 => ⟨S262144, .i32⟩
  | 119 => ⟨S_, .i32⟩
  | 120 => ⟨S262144, .i32⟩
  | 121 => ⟨S262144, .i32⟩
  | 122 => ⟨S_, .i32⟩
  | 123 => ⟨S262144, .i32⟩
  | 124 => ⟨S262144, .i32⟩
  | 125 => ⟨S262144, .i32⟩
  | 126 => ⟨S_, .i32⟩
  | 127 => ⟨S_, .i32⟩
  | _ => ⟨S262144x2, .f32⟩

abbrev hbmTy0_11 (i : Nat) : BufTy := match i % 128 with
  | 0 => ⟨S_, .i32⟩
  | 1 => ⟨S_, .i1⟩
  | 2 => ⟨S_, .i32⟩
  | 3 => ⟨S_, .i32⟩
  | 4 => ⟨S262144, .i32⟩
  | 5 => ⟨S262144, .i32⟩
  | 6 => ⟨S_, .i32⟩
  | 7 => ⟨S262144, .i32⟩
  | 8 => ⟨S262144, .i1⟩
  | 9 => ⟨S_, .i32⟩
  | 10 => ⟨S262144, .i32⟩
  | 11 => ⟨S262144, .i1⟩
  | 12 => ⟨S_, .i32⟩
  | 13 => ⟨S_, .i1⟩
  | 14 => ⟨S262144, .i1⟩
  | 15 => ⟨S262144, .i1⟩
  | 16 => ⟨S262144, .i1⟩
  | 17 => ⟨S262144, .i32⟩
  | 18 => ⟨S262144, .i32⟩
  | 19 => ⟨S262144, .i32⟩
  | 20 => ⟨S262144, .f32⟩
  | 21 => ⟨S262144x1, .f32⟩
  | 22 => ⟨S_, .i32⟩
  | 23 => ⟨S262144, .i32⟩
  | 24 => ⟨S262144, .i1⟩
  | 25 => ⟨S_, .i32⟩
  | 26 => ⟨S262144, .i32⟩
  | 27 => ⟨S262144, .i32⟩
  | 28 => ⟨S262144, .i32⟩
  | 29 => ⟨S_, .i32⟩
  | 30 => ⟨S262144, .i32⟩
  | 31 => ⟨S262144, .i32⟩
  | 32 => ⟨S262144x1, .i32⟩
  | 33 => ⟨S262144x1, .i32⟩
  | 34 => ⟨S262144x2, .i32⟩
  | 35 => ⟨S262144x8, .f32⟩
  | 36 => ⟨S262144x8, .f32⟩
  | 37 => ⟨S262144x8, .f32⟩
  | 38 => ⟨S262144x8, .f32⟩
  | 39 => ⟨S262144x1, .f32⟩
  | 40 => ⟨S262144, .f32⟩
  | 41 => ⟨S262144x1, .f32⟩
  | 42 => ⟨S262144, .f32⟩
  | 43 => ⟨S_, .f32⟩
  | 44 => ⟨S262144, .f32⟩
  | 45 => ⟨S262144, .f32⟩
  | 46 => ⟨S262144x1, .i32⟩
  | 47 => ⟨S262144, .i32⟩
  | 48 => ⟨S_, .i32⟩
  | 49 => ⟨S262144, .i32⟩
  | 50 => ⟨S262144, .i32⟩
  | 51 => ⟨S262144x1, .i32⟩
  | 52 => ⟨S262144, .i32⟩
  | 53 => ⟨S_, .i32⟩
  | 54 => ⟨S262144, .i32⟩
  | 55 => ⟨S262144, .i32⟩
  | 56 => ⟨S_, .i32⟩
  | 57 => ⟨S262144, .i32⟩
  | 58 => ⟨S262144, .i32⟩
  | 59 => ⟨S262144, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S262144, .i32⟩
  | 67 => ⟨S262144, .i32⟩
  | 68 => ⟨S_, .i32⟩
  | 69 => ⟨S262144, .i32⟩
  | 70 => ⟨S262144, .i1⟩
  | 71 => ⟨S_, .i32⟩
  | 72 => ⟨S262144, .i32⟩
  | 73 => ⟨S262144, .i1⟩
  | 74 => ⟨S_, .i32⟩
  | 75 => ⟨S_, .i1⟩
  | 76 => ⟨S262144, .i1⟩
  | 77 => ⟨S262144, .i1⟩
  | 78 => ⟨S262144, .i1⟩
  | 79 => ⟨S262144, .i32⟩
  | 80 => ⟨S262144, .i32⟩
  | 81 => ⟨S262144, .i32⟩
  | 82 => ⟨S262144, .f32⟩
  | 83 => ⟨S262144x1, .f32⟩
  | 84 => ⟨S_, .i32⟩
  | 85 => ⟨S262144, .i32⟩
  | 86 => ⟨S262144, .i1⟩
  | 87 => ⟨S_, .i32⟩
  | 88 => ⟨S262144, .i32⟩
  | 89 => ⟨S262144, .i32⟩
  | 90 => ⟨S262144, .i32⟩
  | 91 => ⟨S_, .i32⟩
  | 92 => ⟨S262144, .i32⟩
  | 93 => ⟨S262144, .i32⟩
  | 94 => ⟨S262144x1, .i32⟩
  | 95 => ⟨S262144x1, .i32⟩
  | 96 => ⟨S262144x2, .i32⟩
  | 97 => ⟨S262144x8, .f32⟩
  | 98 => ⟨S262144x8, .f32⟩
  | 99 => ⟨S262144x8, .f32⟩
  | 100 => ⟨S262144x8, .f32⟩
  | 101 => ⟨S262144x1, .f32⟩
  | 102 => ⟨S262144, .f32⟩
  | 103 => ⟨S262144x1, .i32⟩
  | 104 => ⟨S262144, .i32⟩
  | 105 => ⟨S_, .i32⟩
  | 106 => ⟨S262144, .i32⟩
  | 107 => ⟨S262144, .i32⟩
  | 108 => ⟨S262144x1, .i32⟩
  | 109 => ⟨S262144, .i32⟩
  | 110 => ⟨S_, .i32⟩
  | 111 => ⟨S262144, .i32⟩
  | 112 => ⟨S262144, .i32⟩
  | 113 => ⟨S_, .i32⟩
  | 114 => ⟨S262144, .i32⟩
  | 115 => ⟨S262144, .i32⟩
  | 116 => ⟨S262144, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S262144, .i32⟩
  | 124 => ⟨S262144, .i32⟩
  | 125 => ⟨S_, .i32⟩
  | 126 => ⟨S262144, .i32⟩
  | 127 => ⟨S262144, .i1⟩
  | _ => ⟨S262144x2, .f32⟩

abbrev hbmTy0_12 (i : Nat) : BufTy := match i % 128 with
  | 0 => ⟨S_, .i32⟩
  | 1 => ⟨S262144, .i32⟩
  | 2 => ⟨S262144, .i1⟩
  | 3 => ⟨S_, .i32⟩
  | 4 => ⟨S_, .i1⟩
  | 5 => ⟨S262144, .i1⟩
  | 6 => ⟨S262144, .i1⟩
  | 7 => ⟨S262144, .i1⟩
  | 8 => ⟨S262144, .i32⟩
  | 9 => ⟨S262144, .i32⟩
  | 10 => ⟨S262144, .i32⟩
  | 11 => ⟨S262144, .f32⟩
  | 12 => ⟨S262144x1, .f32⟩
  | 13 => ⟨S_, .i32⟩
  | 14 => ⟨S262144, .i32⟩
  | 15 => ⟨S262144, .i1⟩
  | 16 => ⟨S_, .i32⟩
  | 17 => ⟨S262144, .i32⟩
  | 18 => ⟨S262144, .i32⟩
  | 19 => ⟨S262144, .i32⟩
  | 20 => ⟨S_, .i32⟩
  | 21 => ⟨S262144, .i32⟩
  | 22 => ⟨S262144, .i32⟩
  | 23 => ⟨S262144x1, .i32⟩
  | 24 => ⟨S262144x1, .i32⟩
  | 25 => ⟨S262144x2, .i32⟩
  | 26 => ⟨S262144x8, .f32⟩
  | 27 => ⟨S262144x8, .f32⟩
  | 28 => ⟨S262144x8, .f32⟩
  | 29 => ⟨S262144x8, .f32⟩
  | 30 => ⟨S_, .f32⟩
  | 31 => ⟨S262144x2, .f32⟩
  | 32 => ⟨S262144x2, .f32⟩
  | 33 => ⟨S_, .f32⟩
  | 34 => ⟨S262144x2, .f32⟩
  | 35 => ⟨S262144x2, .f32⟩
  | 36 => ⟨S262144x2, .f32⟩
  | 37 => ⟨S262144x2, .f32⟩
  | 38 => ⟨S262144x2, .i32⟩
  | 39 => ⟨S262144x2, .f32⟩
  | 40 => ⟨S_, .f32⟩
  | 41 => ⟨S262144x2, .f32⟩
  | 42 => ⟨S262144x2, .f32⟩
  | 43 => ⟨S_, .f32⟩
  | 44 => ⟨S262144x2, .f32⟩
  | 45 => ⟨S262144x2, .f32⟩
  | 46 => ⟨S262144x2, .f32⟩
  | 47 => ⟨S_, .f32⟩
  | 48 => ⟨S262144x8, .f32⟩
  | 49 => ⟨S262144x1, .f32⟩
  | 50 => ⟨S262144, .f32⟩
  | 51 => ⟨S_, .f32⟩
  | 52 => ⟨S262144, .f32⟩
  | 53 => ⟨S262144, .f32⟩
  | 54 => ⟨S262144x1, .f32⟩
  | 55 => ⟨S262144, .f32⟩
  | 56 => ⟨S_, .f32⟩
  | 57 => ⟨S262144, .f32⟩
  | 58 => ⟨S262144, .f32⟩
  | 59 => ⟨S262144x1, .i32⟩
  | 60 => ⟨S262144, .i32⟩
  | 61 => ⟨S_, .i32⟩
  | 62 => ⟨S262144, .i32⟩
  | 63 => ⟨S262144, .i32⟩
  | 64 => ⟨S262144x1, .i32⟩
  | 65 => ⟨S262144, .i32⟩
  | 66 => ⟨S_, .i32⟩
  | 67 => ⟨S262144, .i32⟩
  | 68 => ⟨S262144, .i32⟩
  | 69 => ⟨S_, .i32⟩
  | 70 => ⟨S262144, .i32⟩
  | 71 => ⟨S262144, .i32⟩
  | 72 => ⟨S262144, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S262144, .i32⟩
  | 80 => ⟨S262144, .i32⟩
  | 81 => ⟨S_, .i32⟩
  | 82 => ⟨S262144, .i32⟩
  | 83 => ⟨S262144, .i1⟩
  | 84 => ⟨S_, .i32⟩
  | 85 => ⟨S262144, .i32⟩
  | 86 => ⟨S262144, .i1⟩
  | 87 => ⟨S_, .i32⟩
  | 88 => ⟨S_, .i1⟩
  | 89 => ⟨S262144, .i1⟩
  | 90 => ⟨S262144, .i1⟩
  | 91 => ⟨S262144, .i1⟩
  | 92 => ⟨S262144, .i32⟩
  | 93 => ⟨S262144, .i32⟩
  | 94 => ⟨S262144, .i32⟩
  | 95 => ⟨S262144, .f32⟩
  | 96 => ⟨S262144x1, .f32⟩
  | 97 => ⟨S_, .i32⟩
  | 98 => ⟨S262144, .i32⟩
  | 99 => ⟨S262144, .i1⟩
  | 100 => ⟨S_, .i32⟩
  | 101 => ⟨S262144, .i32⟩
  | 102 => ⟨S262144, .i32⟩
  | 103 => ⟨S262144, .i32⟩
  | 104 => ⟨S_, .i32⟩
  | 105 => ⟨S262144, .i32⟩
  | 106 => ⟨S262144, .i32⟩
  | 107 => ⟨S262144x1, .i32⟩
  | 108 => ⟨S262144x1, .i32⟩
  | 109 => ⟨S262144x2, .i32⟩
  | 110 => ⟨S262144x8, .f32⟩
  | 111 => ⟨S262144x8, .f32⟩
  | 112 => ⟨S262144x8, .f32⟩
  | 113 => ⟨S262144x8, .f32⟩
  | 114 => ⟨S262144x1, .f32⟩
  | 115 => ⟨S262144, .f32⟩
  | 116 => ⟨S262144x1, .i32⟩
  | 117 => ⟨S262144, .i32⟩
  | 118 => ⟨S_, .i32⟩
  | 119 => ⟨S262144, .i32⟩
  | 120 => ⟨S262144, .i32⟩
  | 121 => ⟨S262144x1, .i32⟩
  | 122 => ⟨S262144, .i32⟩
  | 123 => ⟨S_, .i32⟩
  | 124 => ⟨S262144, .i32⟩
  | 125 => ⟨S262144, .i32⟩
  | 126 => ⟨S_, .i32⟩
  | 127 => ⟨S262144, .i32⟩
  | _ => ⟨S262144x2, .f32⟩

abbrev hbmTy0_13 (i : Nat) : BufTy := match i % 128 with
  | 0 => ⟨S262144, .i32⟩
  | 1 => ⟨S262144, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S262144, .i32⟩
  | 9 => ⟨S262144, .i32⟩
  | 10 => ⟨S_, .i32⟩
  | 11 => ⟨S262144, .i32⟩
  | 12 => ⟨S262144, .i1⟩
  | 13 => ⟨S_, .i32⟩
  | 14 => ⟨S262144, .i32⟩
  | 15 => ⟨S262144, .i1⟩
  | 16 => ⟨S_, .i32⟩
  | 17 => ⟨S_, .i1⟩
  | 18 => ⟨S262144, .i1⟩
  | 19 => ⟨S262144, .i1⟩
  | 20 => ⟨S262144, .i1⟩
  | 21 => ⟨S262144, .i32⟩
  | 22 => ⟨S262144, .i32⟩
  | 23 => ⟨S262144, .i32⟩
  | 24 => ⟨S262144, .f32⟩
  | 25 => ⟨S262144x1, .f32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S_, .i32⟩
  | 34 => ⟨S262144, .i32⟩
  | 35 => ⟨S262144, .i32⟩
  | 36 => ⟨S262144x1, .i32⟩
  | 37 => ⟨S262144x1, .i32⟩
  | 38 => ⟨S262144x2, .i32⟩
  | 39 => ⟨S262144x8, .f32⟩
  | 40 => ⟨S262144x8, .f32⟩
  | 41 => ⟨S262144x8, .f32⟩
  | 42 => ⟨S262144x8, .f32⟩
  | 43 => ⟨S262144x1, .f32⟩
  | 44 => ⟨S262144, .f32⟩
  | 45 => ⟨S262144x1, .f32⟩
  | 46 => ⟨S262144, .f32⟩
  | 47 => ⟨S_, .f32⟩
  | 48 => ⟨S262144, .f32⟩
  | 49 => ⟨S262144, .f32⟩
  | 50 => ⟨S262144x1, .i32⟩
  | 51 => ⟨S262144, .i32⟩
  | 52 => ⟨S_, .i32⟩
  | 53 => ⟨S262144, .i32⟩
  | 54 => ⟨S262144, .i32⟩
  | 55 => ⟨S262144x1, .i32⟩
  | 56 => ⟨S262144, .i32⟩
  | 57 => ⟨S_, .i32⟩
  | 58 => ⟨S262144, .i32⟩
  | 59 => ⟨S262144, .i32⟩
  | 60 => ⟨S_, .i32⟩
  | 61 => ⟨S262144, .i32⟩
  | 62 => ⟨S262144, .i32⟩
  | 63 => ⟨S262144, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S262144, .i32⟩
  | 71 => ⟨S262144, .i32⟩
  | 72 => ⟨S_, .i32⟩
  | 73 => ⟨S262144, .i32⟩
  | 74 => ⟨S262144, .i1⟩
  | 75 => ⟨S_, .i32⟩
  | 76 => ⟨S262144, .i32⟩
  | 77 => ⟨S262144, .i1⟩
  | 78 => ⟨S_, .i32⟩
  | 79 => ⟨S_, .i1⟩
  | 80 => ⟨S262144, .i1⟩
  | 81 => ⟨S262144, .i1⟩
  | 82 => ⟨S262144, .i1⟩
  | 83 => ⟨S262144, .i32⟩
  | 84 => ⟨S262144, .i32⟩
  | 85 => ⟨S262144, .i32⟩
  | 86 => ⟨S262144, .f32⟩
  | 87 => ⟨S262144x1, .f32⟩
  | 88 => ⟨S_, .i32⟩
  | 89 => ⟨S262144, .i32⟩
  | 90 => ⟨S262144, .i1⟩
  | 91 => ⟨S_, .i32⟩
  | 92 => ⟨S262144, .i32⟩
  | 93 => ⟨S262144, .i32⟩
  | 94 => ⟨S262144, .i32⟩
  | 95 => ⟨S_, .i32⟩
  | 96 => ⟨S262144, .i32⟩
  | 97 => ⟨S262144, .i32⟩
  | 98 => ⟨S262144x1, .i32⟩
  | 99 => ⟨S262144x1, .i32⟩
  | 100 => ⟨S262144x2, .i32⟩
  | 101 => ⟨S262144x8, .f32⟩
  | 102 => ⟨S262144x8, .f32⟩
  | 103 => ⟨S262144x8, .f32⟩
  | 104 => ⟨S262144x8, .f32⟩
  | 105 => ⟨S262144x1, .f32⟩
  | 106 => ⟨S262144, .f32⟩
  | 107 => ⟨S262144x1, .i32⟩
  | 108 => ⟨S262144, .i32⟩
  | 109 => ⟨S_, .i32⟩
  | 110 => ⟨S262144, .i32⟩
  | 111 => ⟨S262144, .i32⟩
  | 112 => ⟨S262144x1, .i32⟩
  | 113 => ⟨S262144, .i32⟩
  | 114 => ⟨S_, .i32⟩
  | 115 => ⟨S262144, .i32⟩
  | 116 => ⟨S262144, .i32⟩
  | 117 => ⟨S_, .i32⟩
  | 118 => ⟨S262144, .i32⟩
  | 119 => ⟨S262144, .i32⟩
  | 120 => ⟨S262144, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S262144, .i32⟩
  | _ => ⟨S262144x2, .f32⟩

abbrev hbmTy0_14 (i : Nat) : BufTy := match i % 128 with
  | 0 => ⟨S262144, .i32⟩
  | 1 => ⟨S_, .i32⟩
  | 2 => ⟨S262144, .i32⟩
  | 3 => ⟨S262144, .i1⟩
  | 4 => ⟨S_, .i32⟩
  | 5 => ⟨S262144, .i32⟩
  | 6 => ⟨S262144, .i1⟩
  | 7 => ⟨S_, .i32⟩
  | 8 => ⟨S_, .i1⟩
  | 9 => ⟨S262144, .i1⟩
  | 10 => ⟨S262144, .i1⟩
  | 11 => ⟨S262144, .i1⟩
  | 12 => ⟨S262144, .i32⟩
  | 13 => ⟨S262144, .i32⟩
  | 14 => ⟨S262144, .i32⟩
  | 15 => ⟨S262144, .f32⟩
  | 16 => ⟨S262144x1, .f32⟩
  | 17 => ⟨S_, .i32⟩
  | 18 => ⟨S262144, .i32⟩
  | 19 => ⟨S262144, .i1⟩
  | 20 => ⟨S_, .i32⟩
  | 21 => ⟨S262144, .i32⟩
  | 22 => ⟨S262144, .i32⟩
  | 23 => ⟨S262144, .i32⟩
  | 24 => ⟨S_, .i32⟩
  | 25 => ⟨S262144, .i32⟩
  | 26 => ⟨S262144, .i32⟩
  | 27 => ⟨S262144x1, .i32⟩
  | 28 => ⟨S262144x1, .i32⟩
  | 29 => ⟨S262144x2, .i32⟩
  | 30 => ⟨S262144x8, .f32⟩
  | 31 => ⟨S262144x8, .f32⟩
  | 32 => ⟨S262144x8, .f32⟩
  | 33 => ⟨S262144x8, .f32⟩
  | 34 => ⟨S_, .f32⟩
  | 35 => ⟨S262144x2, .f32⟩
  | 36 => ⟨S262144x2, .f32⟩
  | 37 => ⟨S_, .f32⟩
  | 38 => ⟨S262144x2, .f32⟩
  | 39 => ⟨S262144x2, .f32⟩
  | 40 => ⟨S262144x2, .f32⟩
  | 41 => ⟨S262144x2, .f32⟩
  | 42 => ⟨S262144x2, .i32⟩
  | 43 => ⟨S262144x2, .f32⟩
  | 44 => ⟨S_, .f32⟩
  | 45 => ⟨S262144x2, .f32⟩
  | 46 => ⟨S262144x2, .f32⟩
  | 47 => ⟨S_, .f32⟩
  | 48 => ⟨S262144x2, .f32⟩
  | 49 => ⟨S262144x2, .f32⟩
  | 50 => ⟨S262144x2, .f32⟩
  | 51 => ⟨S_, .f32⟩
  | 52 => ⟨S262144x8, .f32⟩
  | 53 => ⟨S262144x1, .f32⟩
  | 54 => ⟨S262144, .f32⟩
  | 55 => ⟨S_, .f32⟩
  | 56 => ⟨S262144, .f32⟩
  | 57 => ⟨S262144, .f32⟩
  | 58 => ⟨S262144x1, .f32⟩
  | 59 => ⟨S262144, .f32⟩
  | 60 => ⟨S_, .f32⟩
  | 61 => ⟨S262144, .f32⟩
  | 62 => ⟨S262144, .f32⟩
  | 63 => ⟨S262144x1, .i32⟩
  | 64 => ⟨S262144, .i32⟩
  | 65 => ⟨S_, .i32⟩
  | 66 => ⟨S262144, .i32⟩
  | 67 => ⟨S262144, .i32⟩
  | 68 => ⟨S262144x1, .i32⟩
  | 69 => ⟨S262144, .i32⟩
  | 70 => ⟨S_, .i32⟩
  | 71 => ⟨S262144, .i32⟩
  | 72 => ⟨S262144, .i32⟩
  | 73 => ⟨S_, .i32⟩
  | 74 => ⟨S262144, .i32⟩
  | 75 => ⟨S262144, .i32⟩
  | 76 => ⟨S262144, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S262144, .i32⟩
  | 84 => ⟨S262144, .i32⟩
  | 85 => ⟨S_, .i32⟩
  | 86 => ⟨S262144, .i32⟩
  | 87 => ⟨S262144, .i1⟩
  | 88 => ⟨S_, .i32⟩
  | 89 => ⟨S262144, .i32⟩
  | 90 => ⟨S262144, .i1⟩
  | 91 => ⟨S_, .i32⟩
  | 92 => ⟨S_, .i1⟩
  | 93 => ⟨S262144, .i1⟩
  | 94 => ⟨S262144, .i1⟩
  | 95 => ⟨S262144, .i1⟩
  | 96 => ⟨S262144, .i32⟩
  | 97 => ⟨S262144, .i32⟩
  | 98 => ⟨S262144, .i32⟩
  | 99 => ⟨S262144, .f32⟩
  | 100 => ⟨S262144x1, .f32⟩
  | 101 => ⟨S_, .i32⟩
  | 102 => ⟨S262144, .i32⟩
  | 103 => ⟨S262144, .i1⟩
  | 104 => ⟨S_, .i32⟩
  | 105 => ⟨S262144, .i32⟩
  | 106 => ⟨S262144, .i32⟩
  | 107 => ⟨S262144, .i32⟩
  | 108 => ⟨S_, .i32⟩
  | 109 => ⟨S262144, .i32⟩
  | 110 => ⟨S262144, .i32⟩
  | 111 => ⟨S262144x1, .i32⟩
  | 112 => ⟨S262144x1, .i32⟩
  | 113 => ⟨S262144x2, .i32⟩
  | 114 => ⟨S262144x8, .f32⟩
  | 115 => ⟨S262144x8, .f32⟩
  | 116 => ⟨S262144x8, .f32⟩
  | 117 => ⟨S262144x8, .f32⟩
  | 118 => ⟨S262144x1, .f32⟩
  | 119 => ⟨S262144, .f32⟩
  | 120 => ⟨S262144x1, .i32⟩
  | 121 => ⟨S262144, .i32⟩
  | 122 => ⟨S_, .i32⟩
  | 123 => ⟨S262144, .i32⟩
  | 124 => ⟨S262144, .i32⟩
  | 125 => ⟨S262144x1, .i32⟩
  | 126 => ⟨S262144, .i32⟩
  | 127 => ⟨S_, .i32⟩
  | _ => ⟨S262144x2, .f32⟩

abbrev hbmTy0_15 (i : Nat) : BufTy := match i % 128 with
  | 0 => ⟨S262144, .i32⟩
  | 1 => ⟨S262144, .i32⟩
  | 2 => ⟨S_, .i32⟩
  | 3 => ⟨S262144, .i32⟩
  | 4 => ⟨S262144, .i32⟩
  | 5 => ⟨S262144, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S262144, .i32⟩
  | 13 => ⟨S262144, .i32⟩
  | 14 => ⟨S_, .i32⟩
  | 15 => ⟨S262144, .i32⟩
  | 16 => ⟨S262144, .i1⟩
  | 17 => ⟨S_, .i32⟩
  | 18 => ⟨S262144, .i32⟩
  | 19 => ⟨S262144, .i1⟩
  | 20 => ⟨S_, .i32⟩
  | 21 => ⟨S_, .i1⟩
  | 22 => ⟨S262144, .i1⟩
  | 23 => ⟨S262144, .i1⟩
  | 24 => ⟨S262144, .i1⟩
  | 25 => ⟨S262144, .i32⟩
  | 26 => ⟨S262144, .i32⟩
  | 27 => ⟨S262144, .i32⟩
  | 28 => ⟨S262144, .f32⟩
  | 29 => ⟨S262144x1, .f32⟩
  | 30 => ⟨S_, .i32⟩
  | 31 => ⟨S262144, .i32⟩
  | 32 => ⟨S262144, .i1⟩
  | 33 => ⟨S_, .i32⟩
  | 34 => ⟨S262144, .i32⟩
  | 35 => ⟨S262144, .i32⟩
  | 36 => ⟨S262144, .i32⟩
  | 37 => ⟨S_, .i32⟩
  | 38 => ⟨S262144, .i32⟩
  | 39 => ⟨S262144, .i32⟩
  | 40 => ⟨S262144x1, .i32⟩
  | 41 => ⟨S262144x1, .i32⟩
  | 42 => ⟨S262144x2, .i32⟩
  | 43 => ⟨S262144x8, .f32⟩
  | 44 => ⟨S262144x8, .f32⟩
  | 45 => ⟨S262144x8, .f32⟩
  | 46 => ⟨S262144x8, .f32⟩
  | 47 => ⟨S262144x1, .f32⟩
  | 48 => ⟨S262144, .f32⟩
  | 49 => ⟨S262144x1, .f32⟩
  | 50 => ⟨S262144, .f32⟩
  | 51 => ⟨S_, .f32⟩
  | 52 => ⟨S262144, .f32⟩
  | 53 => ⟨S262144, .f32⟩
  | 54 => ⟨S262144x1, .i32⟩
  | 55 => ⟨S262144, .i32⟩
  | 56 => ⟨S_, .i32⟩
  | 57 => ⟨S262144, .i32⟩
  | 58 => ⟨S262144, .i32⟩
  | 59 => ⟨S262144x1, .i32⟩
  | 60 => ⟨S262144, .i32⟩
  | 61 => ⟨S_, .i32⟩
  | 62 => ⟨S262144, .i32⟩
  | 63 => ⟨S262144, .i32⟩
  | 64 => ⟨S_, .i32⟩
  | 65 => ⟨S262144, .i32⟩
  | 66 => ⟨S262144, .i32⟩
  | 67 => ⟨S262144, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S262144, .i32⟩
  | 75 => ⟨S262144, .i32⟩
  | 76 => ⟨S_, .i32⟩
  | 77 => ⟨S262144, .i32⟩
  | 78 => ⟨S262144, .i1⟩
  | 79 => ⟨S_, .i32⟩
  | 80 => ⟨S262144, .i32⟩
  | 81 => ⟨S262144, .i1⟩
  | 82 => ⟨S_, .i32⟩
  | 83 => ⟨S_, .i1⟩
  | 84 => ⟨S262144, .i1⟩
  | 85 => ⟨S262144, .i1⟩
  | 86 => ⟨S262144, .i1⟩
  | 87 => ⟨S262144, .i32⟩
  | 88 => ⟨S262144, .i32⟩
  | 89 => ⟨S262144, .i32⟩
  | 90 => ⟨S262144, .f32⟩
  | 91 => ⟨S262144x1, .f32⟩
  | 92 => ⟨S_, .i32⟩
  | 93 => ⟨S262144, .i32⟩
  | 94 => ⟨S262144, .i1⟩
  | 95 => ⟨S_, .i32⟩
  | 96 => ⟨S262144, .i32⟩
  | 97 => ⟨S262144, .i32⟩
  | 98 => ⟨S262144, .i32⟩
  | 99 => ⟨S_, .i32⟩
  | 100 => ⟨S262144, .i32⟩
  | 101 => ⟨S262144, .i32⟩
  | 102 => ⟨S262144x1, .i32⟩
  | 103 => ⟨S262144x1, .i32⟩
  | 104 => ⟨S262144x2, .i32⟩
  | 105 => ⟨S262144x8, .f32⟩
  | 106 => ⟨S262144x8, .f32⟩
  | 107 => ⟨S262144x8, .f32⟩
  | 108 => ⟨S262144x8, .f32⟩
  | 109 => ⟨S262144x1, .f32⟩
  | 110 => ⟨S262144, .f32⟩
  | 111 => ⟨S262144x1, .i32⟩
  | 112 => ⟨S262144, .i32⟩
  | 113 => ⟨S_, .i32⟩
  | 114 => ⟨S262144, .i32⟩
  | 115 => ⟨S262144, .i32⟩
  | 116 => ⟨S262144x1, .i32⟩
  | 117 => ⟨S262144, .i32⟩
  | 118 => ⟨S_, .i32⟩
  | 119 => ⟨S262144, .i32⟩
  | 120 => ⟨S262144, .i32⟩
  | 121 => ⟨S_, .i32⟩
  | 122 => ⟨S262144, .i32⟩
  | 123 => ⟨S262144, .i32⟩
  | 124 => ⟨S262144, .i32⟩
  | 125 => ⟨S_, .i32⟩
  | 126 => ⟨S_, .i32⟩
  | 127 => ⟨S_, .i32⟩
  | _ => ⟨S262144x2, .f32⟩

abbrev hbmTy0_16 (i : Nat) : BufTy := match i % 128 with
  | 0 => ⟨S_, .i1⟩
  | 1 => ⟨S_, .i32⟩
  | 2 => ⟨S_, .i32⟩
  | 3 => ⟨S262144, .i32⟩
  | 4 => ⟨S262144, .i32⟩
  | 5 => ⟨S_, .i32⟩
  | 6 => ⟨S262144, .i32⟩
  | 7 => ⟨S262144, .i1⟩
  | 8 => ⟨S_, .i32⟩
  | 9 => ⟨S262144, .i32⟩
  | 10 => ⟨S262144, .i1⟩
  | 11 => ⟨S_, .i32⟩
  | 12 => ⟨S_, .i1⟩
  | 13 => ⟨S262144, .i1⟩
  | 14 => ⟨S262144, .i1⟩
  | 15 => ⟨S262144, .i1⟩
  | 16 => ⟨S262144, .i32⟩
  | 17 => ⟨S262144, .i32⟩
  | 18 => ⟨S262144, .i32⟩
  | 19 => ⟨S262144, .f32⟩
  | 20 => ⟨S262144x1, .f32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S_, .i32⟩
  | 29 => ⟨S262144, .i32⟩
  | 30 => ⟨S262144, .i32⟩
  | 31 => ⟨S262144x1, .i32⟩
  | 32 => ⟨S262144x1, .i32⟩
  | 33 => ⟨S262144x2, .i32⟩
  | 34 => ⟨S262144x8, .f32⟩
  | 35 => ⟨S262144x8, .f32⟩
  | 36 => ⟨S262144x8, .f32⟩
  | 37 => ⟨S262144x8, .f32⟩
  | 38 => ⟨S262144x64, .f32⟩
  | 39 => ⟨S262144x256, .f32⟩
  | 40 => ⟨S_, .f32⟩
  | 41 => ⟨S262144x256, .f32⟩
  | 42 => ⟨S262144x256, .f32⟩
  | 43 => ⟨S262144x256, .f32⟩
  | 44 => ⟨S_, .f32⟩
  | 45 => ⟨S262144x256, .f32⟩
  | 46 => ⟨S262144x256, .f32⟩
  | 47 => ⟨S262144x256, .f32⟩
  | 48 => ⟨S_, .f32⟩
  | 49 => ⟨S262144x256, .f32⟩
  | 50 => ⟨S262144x256, .f32⟩
  | 51 => ⟨S262144x1, .f32⟩
  | _ => ⟨S262144x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | _ => ⟨S262144x2, .f32⟩

abbrev bufTy : (tb : Table) → Fin (tcTables nBuf tb) → BufTy
  | .hbm, ⟨i, _⟩ => hbmTy i
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_call0_v0 : Ref sig .tc := ⟨.hbm, 50, rfl⟩
abbrev main_call0_c : Ref sig .tc := ⟨.hbm, 51, rfl⟩
abbrev main_call0_v1 : Ref sig .tc := ⟨.hbm, 52, rfl⟩
abbrev main_call0_c_0 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_c_1 : Ref sig .tc := ⟨.hbm, 57, rfl⟩
abbrev main_call0_v5 : Ref sig .tc := ⟨.hbm, 58, rfl⟩
abbrev main_call0_v6 : Ref sig .tc := ⟨.hbm, 59, rfl⟩
abbrev main_call0_c_2 : Ref sig .tc := ⟨.hbm, 60, rfl⟩
abbrev main_call0_v7 : Ref sig .tc := ⟨.hbm, 61, rfl⟩
abbrev main_call0_v8 : Ref sig .tc := ⟨.hbm, 62, rfl⟩
abbrev main_call0_c_3 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_9 : Ref sig .tc := ⟨.hbm, 73, rfl⟩
abbrev main_v36 : Ref sig .tc := ⟨.hbm, 74, rfl⟩
abbrev main_v37 : Ref sig .tc := ⟨.hbm, 75, rfl⟩
abbrev main_c_10 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_c_11 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_c_12 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_c_13 : Ref sig .tc := ⟨.hbm, 99, rfl⟩
abbrev main_v58 : Ref sig .tc := ⟨.hbm, 100, rfl⟩
abbrev main_v59 : Ref sig .tc := ⟨.hbm, 101, rfl⟩
abbrev main_c_14 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_c_15 : Ref sig .tc := ⟨.hbm, 106, rfl⟩
abbrev main_call1_v0 : Ref sig .tc := ⟨.hbm, 107, rfl⟩
abbrev main_call1_c : Ref sig .tc := ⟨.hbm, 108, rfl⟩
abbrev main_call1_v1 : Ref sig .tc := ⟨.hbm, 109, rfl⟩
abbrev main_call1_c_0 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_call1_c_1 : Ref sig .tc := ⟨.hbm, 114, rfl⟩
abbrev main_call1_v5 : Ref sig .tc := ⟨.hbm, 115, rfl⟩
abbrev main_call1_v6 : Ref sig .tc := ⟨.hbm, 116, rfl⟩
abbrev main_call1_c_2 : Ref sig .tc := ⟨.hbm, 117, rfl⟩
abbrev main_call1_v7 : Ref sig .tc := ⟨.hbm, 118, rfl⟩
abbrev main_call1_v8 : Ref sig .tc := ⟨.hbm, 119, rfl⟩
abbrev main_call1_c_3 : Ref sig .tc := ⟨.hbm, 120, rfl⟩
abbrev main_call1_v9 : Ref sig .tc := ⟨.hbm, 121, rfl⟩
abbrev main_call1_v10 : Ref sig .tc := ⟨.hbm, 122, rfl⟩
abbrev main_call1_v11 : Ref sig .tc := ⟨.hbm, 123, rfl⟩
abbrev main_call1_v12 : Ref sig .tc := ⟨.hbm, 124, rfl⟩
abbrev main_call1_v13 : Ref sig .tc := ⟨.hbm, 125, rfl⟩
abbrev main_call1_v14 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_c_16 : Ref sig .tc := ⟨.hbm, 130, rfl⟩
abbrev main_v66 : Ref sig .tc := ⟨.hbm, 131, rfl⟩
abbrev main_v67 : Ref sig .tc := ⟨.hbm, 132, rfl⟩
abbrev main_c_17 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_c_18 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_cst_19 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_c_20 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_v91 : Ref sig .tc := ⟨.hbm, 160, rfl⟩
abbrev main_c_21 : Ref sig .tc := ⟨.hbm, 161, rfl⟩
abbrev main_v92 : Ref sig .tc := ⟨.hbm, 162, rfl⟩
abbrev main_v93 : Ref sig .tc := ⟨.hbm, 163, rfl⟩
abbrev main_c_22 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_c_23 : Ref sig .tc := ⟨.hbm, 168, rfl⟩
abbrev main_call2_v0 : Ref sig .tc := ⟨.hbm, 169, rfl⟩
abbrev main_call2_c : Ref sig .tc := ⟨.hbm, 170, rfl⟩
abbrev main_call2_v1 : Ref sig .tc := ⟨.hbm, 171, rfl⟩
abbrev main_call2_c_0 : Ref sig .tc := ⟨.hbm, 172, rfl⟩
abbrev main_call2_v2 : Ref sig .tc := ⟨.hbm, 173, rfl⟩
abbrev main_call2_v3 : Ref sig .tc := ⟨.hbm, 174, rfl⟩
abbrev main_call2_v4 : Ref sig .tc := ⟨.hbm, 175, rfl⟩
abbrev main_call2_c_1 : Ref sig .tc := ⟨.hbm, 176, rfl⟩
abbrev main_call2_v5 : Ref sig .tc := ⟨.hbm, 177, rfl⟩
abbrev main_call2_v6 : Ref sig .tc := ⟨.hbm, 178, rfl⟩
abbrev main_call2_c_2 : Ref sig .tc := ⟨.hbm, 179, rfl⟩
abbrev main_call2_v7 : Ref sig .tc := ⟨.hbm, 180, rfl⟩
abbrev main_call2_v8 : Ref sig .tc := ⟨.hbm, 181, rfl⟩
abbrev main_call2_c_3 : Ref sig .tc := ⟨.hbm, 182, rfl⟩
abbrev main_call2_v9 : Ref sig .tc := ⟨.hbm, 183, rfl⟩
abbrev main_call2_v10 : Ref sig .tc := ⟨.hbm, 184, rfl⟩
abbrev main_call2_v11 : Ref sig .tc := ⟨.hbm, 185, rfl⟩
abbrev main_call2_v12 : Ref sig .tc := ⟨.hbm, 186, rfl⟩
abbrev main_call2_v13 : Ref sig .tc := ⟨.hbm, 187, rfl⟩
abbrev main_call2_v14 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_c_24 : Ref sig .tc := ⟨.hbm, 192, rfl⟩
abbrev main_v100 : Ref sig .tc := ⟨.hbm, 193, rfl⟩
abbrev main_v101 : Ref sig .tc := ⟨.hbm, 194, rfl⟩
abbrev main_c_25 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_c_26 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_v109 : Ref sig .tc := ⟨.hbm, 204, rfl⟩
abbrev main_v110 : Ref sig .tc := ⟨.hbm, 205, rfl⟩
abbrev main_v111 : Ref sig .tc := ⟨.hbm, 206, rfl⟩
abbrev main_v112 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_c_27 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_c_28 : Ref sig .tc := ⟨.hbm, 218, rfl⟩
abbrev main_v122 : Ref sig .tc := ⟨.hbm, 219, rfl⟩
abbrev main_v123 : Ref sig .tc := ⟨.hbm, 220, rfl⟩
abbrev main_c_29 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_c_30 : Ref sig .tc := ⟨.hbm, 225, rfl⟩
abbrev main_call3_v0 : Ref sig .tc := ⟨.hbm, 226, rfl⟩
abbrev main_call3_c : Ref sig .tc := ⟨.hbm, 227, rfl⟩
abbrev main_call3_v1 : Ref sig .tc := ⟨.hbm, 228, rfl⟩
abbrev main_call3_c_0 : Ref sig .tc := ⟨.hbm, 229, rfl⟩
abbrev main_call3_v2 : Ref sig .tc := ⟨.hbm, 230, rfl⟩
abbrev main_call3_v3 : Ref sig .tc := ⟨.hbm, 231, rfl⟩
abbrev main_call3_v4 : Ref sig .tc := ⟨.hbm, 232, rfl⟩
abbrev main_call3_c_1 : Ref sig .tc := ⟨.hbm, 233, rfl⟩
abbrev main_call3_v5 : Ref sig .tc := ⟨.hbm, 234, rfl⟩
abbrev main_call3_v6 : Ref sig .tc := ⟨.hbm, 235, rfl⟩
abbrev main_call3_c_2 : Ref sig .tc := ⟨.hbm, 236, rfl⟩
abbrev main_call3_v7 : Ref sig .tc := ⟨.hbm, 237, rfl⟩
abbrev main_call3_v8 : Ref sig .tc := ⟨.hbm, 238, rfl⟩
abbrev main_call3_c_3 : Ref sig .tc := ⟨.hbm, 239, rfl⟩
abbrev main_call3_v9 : Ref sig .tc := ⟨.hbm, 240, rfl⟩
abbrev main_call3_v10 : Ref sig .tc := ⟨.hbm, 241, rfl⟩
abbrev main_call3_v11 : Ref sig .tc := ⟨.hbm, 242, rfl⟩
abbrev main_call3_v12 : Ref sig .tc := ⟨.hbm, 243, rfl⟩
abbrev main_call3_v13 : Ref sig .tc := ⟨.hbm, 244, rfl⟩
abbrev main_call3_v14 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_c_31 : Ref sig .tc := ⟨.hbm, 249, rfl⟩
abbrev main_v130 : Ref sig .tc := ⟨.hbm, 250, rfl⟩
abbrev main_v131 : Ref sig .tc := ⟨.hbm, 251, rfl⟩
abbrev main_c_32 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_c_33 : Ref sig .tc := ⟨.hbm, 256, rfl⟩
abbrev main_v135 : Ref sig .tc := ⟨.hbm, 257, rfl⟩
abbrev main_v136 : Ref sig .tc := ⟨.hbm, 258, rfl⟩
abbrev main_v137 : Ref sig .tc := ⟨.hbm, 259, rfl⟩
abbrev main_v138 : Ref sig .tc := ⟨.hbm, 260, rfl⟩
abbrev main_v139 : Ref sig .tc := ⟨.hbm, 261, rfl⟩
abbrev main_v140 : Ref sig .tc := ⟨.hbm, 262, rfl⟩
abbrev main_v141 : Ref sig .tc := ⟨.hbm, 263, rfl⟩
abbrev main_v142 : Ref sig .tc := ⟨.hbm, 264, rfl⟩
abbrev main_v143 : Ref sig .tc := ⟨.hbm, 265, rfl⟩
abbrev main_cst_34 : Ref sig .tc := ⟨.hbm, 266, rfl⟩
abbrev main_v144 : Ref sig .tc := ⟨.hbm, 267, rfl⟩
abbrev main_v145 : Ref sig .tc := ⟨.hbm, 268, rfl⟩
abbrev main_cst_35 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_cst_36 : Ref sig .tc := ⟨.hbm, 276, rfl⟩
abbrev main_v152 : Ref sig .tc := ⟨.hbm, 277, rfl⟩
abbrev main_v153 : Ref sig .tc := ⟨.hbm, 278, rfl⟩
abbrev main_cst_37 : Ref sig .tc := ⟨.hbm, 279, rfl⟩
abbrev main_v154 : Ref sig .tc := ⟨.hbm, 280, rfl⟩
abbrev main_v155 : Ref sig .tc := ⟨.hbm, 281, rfl⟩
abbrev main_v156 : Ref sig .tc := ⟨.hbm, 282, rfl⟩
abbrev main_cst_38 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩
abbrev main_cst_39 : Ref sig .tc := ⟨.hbm, 287, rfl⟩
abbrev main_v160 : Ref sig .tc := ⟨.hbm, 288, rfl⟩
abbrev main_v161 : Ref sig .tc := ⟨.hbm, 289, rfl⟩
abbrev main_v162 : Ref sig .tc := ⟨.hbm, 290, rfl⟩
abbrev main_v163 : Ref sig .tc := ⟨.hbm, 291, rfl⟩
abbrev main_cst_40 : Ref sig .tc := ⟨.hbm, 292, rfl⟩
abbrev main_v164 : Ref sig .tc := ⟨.hbm, 293, rfl⟩
abbrev main_v165 : Ref sig .tc := ⟨.hbm, 294, rfl⟩
abbrev main_v166 : Ref sig .tc := ⟨.hbm, 295, rfl⟩
abbrev main_v167 : Ref sig .tc := ⟨.hbm, 296, rfl⟩
abbrev main_c_41 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_c_42 : Ref sig .tc := ⟨.hbm, 302, rfl⟩
abbrev main_v172 : Ref sig .tc := ⟨.hbm, 303, rfl⟩
abbrev main_v173 : Ref sig .tc := ⟨.hbm, 304, rfl⟩
abbrev main_c_43 : Ref sig .tc := ⟨.hbm, 305, rfl⟩
abbrev main_v174 : Ref sig .tc := ⟨.hbm, 306, rfl⟩
abbrev main_v175 : Ref sig .tc := ⟨.hbm, 307, rfl⟩
abbrev main_v176 : Ref sig .tc := ⟨.hbm, 308, rfl⟩
abbrev main_c_44 : Ref sig .tc := ⟨.hbm, 309, rfl⟩
abbrev main_call4_v0 : Ref sig .tc := ⟨.hbm, 310, rfl⟩
abbrev main_call4_c : Ref sig .tc := ⟨.hbm, 311, rfl⟩
abbrev main_call4_v1 : Ref sig .tc := ⟨.hbm, 312, rfl⟩
abbrev main_call4_c_0 : Ref sig .tc := ⟨.hbm, 313, rfl⟩
abbrev main_call4_v2 : Ref sig .tc := ⟨.hbm, 314, rfl⟩
abbrev main_call4_v3 : Ref sig .tc := ⟨.hbm, 315, rfl⟩
abbrev main_call4_v4 : Ref sig .tc := ⟨.hbm, 316, rfl⟩
abbrev main_call4_c_1 : Ref sig .tc := ⟨.hbm, 317, rfl⟩
abbrev main_call4_v5 : Ref sig .tc := ⟨.hbm, 318, rfl⟩
abbrev main_call4_v6 : Ref sig .tc := ⟨.hbm, 319, rfl⟩
abbrev main_call4_c_2 : Ref sig .tc := ⟨.hbm, 320, rfl⟩
abbrev main_call4_v7 : Ref sig .tc := ⟨.hbm, 321, rfl⟩
abbrev main_call4_v8 : Ref sig .tc := ⟨.hbm, 322, rfl⟩
abbrev main_call4_c_3 : Ref sig .tc := ⟨.hbm, 323, rfl⟩
abbrev main_call4_v9 : Ref sig .tc := ⟨.hbm, 324, rfl⟩
abbrev main_call4_v10 : Ref sig .tc := ⟨.hbm, 325, rfl⟩
abbrev main_call4_v11 : Ref sig .tc := ⟨.hbm, 326, rfl⟩
abbrev main_call4_v12 : Ref sig .tc := ⟨.hbm, 327, rfl⟩
abbrev main_call4_v13 : Ref sig .tc := ⟨.hbm, 328, rfl⟩
abbrev main_call4_v14 : Ref sig .tc := ⟨.hbm, 329, rfl⟩
abbrev main_v177 : Ref sig .tc := ⟨.hbm, 330, rfl⟩
abbrev main_v178 : Ref sig .tc := ⟨.hbm, 331, rfl⟩
abbrev main_v179 : Ref sig .tc := ⟨.hbm, 332, rfl⟩
abbrev main_c_45 : Ref sig .tc := ⟨.hbm, 333, rfl⟩
abbrev main_v180 : Ref sig .tc := ⟨.hbm, 334, rfl⟩
abbrev main_v181 : Ref sig .tc := ⟨.hbm, 335, rfl⟩
abbrev main_c_46 : Ref sig .tc := ⟨.hbm, 336, rfl⟩
abbrev main_v182 : Ref sig .tc := ⟨.hbm, 337, rfl⟩
abbrev main_v183 : Ref sig .tc := ⟨.hbm, 338, rfl⟩
abbrev main_v184 : Ref sig .tc := ⟨.hbm, 339, rfl⟩
abbrev main_c_47 : Ref sig .tc := ⟨.hbm, 340, rfl⟩
abbrev main_v185 : Ref sig .tc := ⟨.hbm, 341, rfl⟩
abbrev main_v186 : Ref sig .tc := ⟨.hbm, 342, rfl⟩
abbrev main_v187 : Ref sig .tc := ⟨.hbm, 343, rfl⟩
abbrev main_v188 : Ref sig .tc := ⟨.hbm, 344, rfl⟩
abbrev main_v189 : Ref sig .tc := ⟨.hbm, 345, rfl⟩
abbrev main_v190 : Ref sig .tc := ⟨.hbm, 346, rfl⟩
abbrev main_v191 : Ref sig .tc := ⟨.hbm, 347, rfl⟩
abbrev main_v192 : Ref sig .tc := ⟨.hbm, 348, rfl⟩
abbrev main_v193 : Ref sig .tc := ⟨.hbm, 349, rfl⟩
abbrev main_v194 : Ref sig .tc := ⟨.hbm, 350, rfl⟩
abbrev main_v195 : Ref sig .tc := ⟨.hbm, 351, rfl⟩
abbrev main_v196 : Ref sig .tc := ⟨.hbm, 352, rfl⟩
abbrev main_v197 : Ref sig .tc := ⟨.hbm, 353, rfl⟩
abbrev main_c_48 : Ref sig .tc := ⟨.hbm, 354, rfl⟩
abbrev main_v198 : Ref sig .tc := ⟨.hbm, 355, rfl⟩
abbrev main_v199 : Ref sig .tc := ⟨.hbm, 356, rfl⟩
abbrev main_v200 : Ref sig .tc := ⟨.hbm, 357, rfl⟩
abbrev main_v201 : Ref sig .tc := ⟨.hbm, 358, rfl⟩
abbrev main_c_49 : Ref sig .tc := ⟨.hbm, 359, rfl⟩
abbrev main_v202 : Ref sig .tc := ⟨.hbm, 360, rfl⟩
abbrev main_v203 : Ref sig .tc := ⟨.hbm, 361, rfl⟩
abbrev main_c_50 : Ref sig .tc := ⟨.hbm, 362, rfl⟩
abbrev main_v204 : Ref sig .tc := ⟨.hbm, 363, rfl⟩
abbrev main_v205 : Ref sig .tc := ⟨.hbm, 364, rfl⟩
abbrev main_v206 : Ref sig .tc := ⟨.hbm, 365, rfl⟩
abbrev main_c_51 : Ref sig .tc := ⟨.hbm, 366, rfl⟩
abbrev main_call5_v0 : Ref sig .tc := ⟨.hbm, 367, rfl⟩
abbrev main_call5_c : Ref sig .tc := ⟨.hbm, 368, rfl⟩
abbrev main_call5_v1 : Ref sig .tc := ⟨.hbm, 369, rfl⟩
abbrev main_call5_c_0 : Ref sig .tc := ⟨.hbm, 370, rfl⟩
abbrev main_call5_v2 : Ref sig .tc := ⟨.hbm, 371, rfl⟩
abbrev main_call5_v3 : Ref sig .tc := ⟨.hbm, 372, rfl⟩
abbrev main_call5_v4 : Ref sig .tc := ⟨.hbm, 373, rfl⟩
abbrev main_call5_c_1 : Ref sig .tc := ⟨.hbm, 374, rfl⟩
abbrev main_call5_v5 : Ref sig .tc := ⟨.hbm, 375, rfl⟩
abbrev main_call5_v6 : Ref sig .tc := ⟨.hbm, 376, rfl⟩
abbrev main_call5_c_2 : Ref sig .tc := ⟨.hbm, 377, rfl⟩
abbrev main_call5_v7 : Ref sig .tc := ⟨.hbm, 378, rfl⟩
abbrev main_call5_v8 : Ref sig .tc := ⟨.hbm, 379, rfl⟩
abbrev main_call5_c_3 : Ref sig .tc := ⟨.hbm, 380, rfl⟩
abbrev main_call5_v9 : Ref sig .tc := ⟨.hbm, 381, rfl⟩
abbrev main_call5_v10 : Ref sig .tc := ⟨.hbm, 382, rfl⟩
abbrev main_call5_v11 : Ref sig .tc := ⟨.hbm, 383, rfl⟩
abbrev main_call5_v12 : Ref sig .tc := ⟨.hbm, 384, rfl⟩
abbrev main_call5_v13 : Ref sig .tc := ⟨.hbm, 385, rfl⟩
abbrev main_call5_v14 : Ref sig .tc := ⟨.hbm, 386, rfl⟩
abbrev main_v207 : Ref sig .tc := ⟨.hbm, 387, rfl⟩
abbrev main_v208 : Ref sig .tc := ⟨.hbm, 388, rfl⟩
abbrev main_v209 : Ref sig .tc := ⟨.hbm, 389, rfl⟩
abbrev main_c_52 : Ref sig .tc := ⟨.hbm, 390, rfl⟩
abbrev main_v210 : Ref sig .tc := ⟨.hbm, 391, rfl⟩
abbrev main_v211 : Ref sig .tc := ⟨.hbm, 392, rfl⟩
abbrev main_c_53 : Ref sig .tc := ⟨.hbm, 393, rfl⟩
abbrev main_v212 : Ref sig .tc := ⟨.hbm, 394, rfl⟩
abbrev main_v213 : Ref sig .tc := ⟨.hbm, 395, rfl⟩
abbrev main_v214 : Ref sig .tc := ⟨.hbm, 396, rfl⟩
abbrev main_c_54 : Ref sig .tc := ⟨.hbm, 397, rfl⟩
abbrev main_v215 : Ref sig .tc := ⟨.hbm, 398, rfl⟩
abbrev main_v216 : Ref sig .tc := ⟨.hbm, 399, rfl⟩
abbrev main_v217 : Ref sig .tc := ⟨.hbm, 400, rfl⟩
abbrev main_v218 : Ref sig .tc := ⟨.hbm, 401, rfl⟩
abbrev main_v219 : Ref sig .tc := ⟨.hbm, 402, rfl⟩
abbrev main_v220 : Ref sig .tc := ⟨.hbm, 403, rfl⟩
abbrev main_v221 : Ref sig .tc := ⟨.hbm, 404, rfl⟩
abbrev main_v222 : Ref sig .tc := ⟨.hbm, 405, rfl⟩
abbrev main_v223 : Ref sig .tc := ⟨.hbm, 406, rfl⟩
abbrev main_v224 : Ref sig .tc := ⟨.hbm, 407, rfl⟩
abbrev main_v225 : Ref sig .tc := ⟨.hbm, 408, rfl⟩
abbrev main_v226 : Ref sig .tc := ⟨.hbm, 409, rfl⟩
abbrev main_v227 : Ref sig .tc := ⟨.hbm, 410, rfl⟩
abbrev main_cst_55 : Ref sig .tc := ⟨.hbm, 411, rfl⟩
abbrev main_v228 : Ref sig .tc := ⟨.hbm, 412, rfl⟩
abbrev main_v229 : Ref sig .tc := ⟨.hbm, 413, rfl⟩
abbrev main_v230 : Ref sig .tc := ⟨.hbm, 414, rfl⟩
abbrev main_v231 : Ref sig .tc := ⟨.hbm, 415, rfl⟩
abbrev main_c_56 : Ref sig .tc := ⟨.hbm, 416, rfl⟩
abbrev main_v232 : Ref sig .tc := ⟨.hbm, 417, rfl⟩
abbrev main_v233 : Ref sig .tc := ⟨.hbm, 418, rfl⟩
abbrev main_v234 : Ref sig .tc := ⟨.hbm, 419, rfl⟩
abbrev main_v235 : Ref sig .tc := ⟨.hbm, 420, rfl⟩
abbrev main_c_57 : Ref sig .tc := ⟨.hbm, 421, rfl⟩
abbrev main_v236 : Ref sig .tc := ⟨.hbm, 422, rfl⟩
abbrev main_v237 : Ref sig .tc := ⟨.hbm, 423, rfl⟩
abbrev main_c_58 : Ref sig .tc := ⟨.hbm, 424, rfl⟩
abbrev main_v238 : Ref sig .tc := ⟨.hbm, 425, rfl⟩
abbrev main_v239 : Ref sig .tc := ⟨.hbm, 426, rfl⟩
abbrev main_v240 : Ref sig .tc := ⟨.hbm, 427, rfl⟩
abbrev main_c_59 : Ref sig .tc := ⟨.hbm, 428, rfl⟩
abbrev main_call6_v0 : Ref sig .tc := ⟨.hbm, 429, rfl⟩
abbrev main_call6_c : Ref sig .tc := ⟨.hbm, 430, rfl⟩
abbrev main_call6_v1 : Ref sig .tc := ⟨.hbm, 431, rfl⟩
abbrev main_call6_c_0 : Ref sig .tc := ⟨.hbm, 432, rfl⟩
abbrev main_call6_v2 : Ref sig .tc := ⟨.hbm, 433, rfl⟩
abbrev main_call6_v3 : Ref sig .tc := ⟨.hbm, 434, rfl⟩
abbrev main_call6_v4 : Ref sig .tc := ⟨.hbm, 435, rfl⟩
abbrev main_call6_c_1 : Ref sig .tc := ⟨.hbm, 436, rfl⟩
abbrev main_call6_v5 : Ref sig .tc := ⟨.hbm, 437, rfl⟩
abbrev main_call6_v6 : Ref sig .tc := ⟨.hbm, 438, rfl⟩
abbrev main_call6_c_2 : Ref sig .tc := ⟨.hbm, 439, rfl⟩
abbrev main_call6_v7 : Ref sig .tc := ⟨.hbm, 440, rfl⟩
abbrev main_call6_v8 : Ref sig .tc := ⟨.hbm, 441, rfl⟩
abbrev main_call6_c_3 : Ref sig .tc := ⟨.hbm, 442, rfl⟩
abbrev main_call6_v9 : Ref sig .tc := ⟨.hbm, 443, rfl⟩
abbrev main_call6_v10 : Ref sig .tc := ⟨.hbm, 444, rfl⟩
abbrev main_call6_v11 : Ref sig .tc := ⟨.hbm, 445, rfl⟩
abbrev main_call6_v12 : Ref sig .tc := ⟨.hbm, 446, rfl⟩
abbrev main_call6_v13 : Ref sig .tc := ⟨.hbm, 447, rfl⟩
abbrev main_call6_v14 : Ref sig .tc := ⟨.hbm, 448, rfl⟩
abbrev main_v241 : Ref sig .tc := ⟨.hbm, 449, rfl⟩
abbrev main_v242 : Ref sig .tc := ⟨.hbm, 450, rfl⟩
abbrev main_v243 : Ref sig .tc := ⟨.hbm, 451, rfl⟩
abbrev main_c_60 : Ref sig .tc := ⟨.hbm, 452, rfl⟩
abbrev main_v244 : Ref sig .tc := ⟨.hbm, 453, rfl⟩
abbrev main_v245 : Ref sig .tc := ⟨.hbm, 454, rfl⟩
abbrev main_c_61 : Ref sig .tc := ⟨.hbm, 455, rfl⟩
abbrev main_v246 : Ref sig .tc := ⟨.hbm, 456, rfl⟩
abbrev main_v247 : Ref sig .tc := ⟨.hbm, 457, rfl⟩
abbrev main_v248 : Ref sig .tc := ⟨.hbm, 458, rfl⟩
abbrev main_c_62 : Ref sig .tc := ⟨.hbm, 459, rfl⟩
abbrev main_v249 : Ref sig .tc := ⟨.hbm, 460, rfl⟩
abbrev main_v250 : Ref sig .tc := ⟨.hbm, 461, rfl⟩
abbrev main_v251 : Ref sig .tc := ⟨.hbm, 462, rfl⟩
abbrev main_v252 : Ref sig .tc := ⟨.hbm, 463, rfl⟩
abbrev main_v253 : Ref sig .tc := ⟨.hbm, 464, rfl⟩
abbrev main_v254 : Ref sig .tc := ⟨.hbm, 465, rfl⟩
abbrev main_v255 : Ref sig .tc := ⟨.hbm, 466, rfl⟩
abbrev main_v256 : Ref sig .tc := ⟨.hbm, 467, rfl⟩
abbrev main_v257 : Ref sig .tc := ⟨.hbm, 468, rfl⟩
abbrev main_v258 : Ref sig .tc := ⟨.hbm, 469, rfl⟩
abbrev main_v259 : Ref sig .tc := ⟨.hbm, 470, rfl⟩
abbrev main_v260 : Ref sig .tc := ⟨.hbm, 471, rfl⟩
abbrev main_v261 : Ref sig .tc := ⟨.hbm, 472, rfl⟩
abbrev main_c_63 : Ref sig .tc := ⟨.hbm, 473, rfl⟩
abbrev main_v262 : Ref sig .tc := ⟨.hbm, 474, rfl⟩
abbrev main_v263 : Ref sig .tc := ⟨.hbm, 475, rfl⟩
abbrev main_v264 : Ref sig .tc := ⟨.hbm, 476, rfl⟩
abbrev main_v265 : Ref sig .tc := ⟨.hbm, 477, rfl⟩
abbrev main_c_64 : Ref sig .tc := ⟨.hbm, 478, rfl⟩
abbrev main_v266 : Ref sig .tc := ⟨.hbm, 479, rfl⟩
abbrev main_v267 : Ref sig .tc := ⟨.hbm, 480, rfl⟩
abbrev main_c_65 : Ref sig .tc := ⟨.hbm, 481, rfl⟩
abbrev main_v268 : Ref sig .tc := ⟨.hbm, 482, rfl⟩
abbrev main_v269 : Ref sig .tc := ⟨.hbm, 483, rfl⟩
abbrev main_v270 : Ref sig .tc := ⟨.hbm, 484, rfl⟩
abbrev main_c_66 : Ref sig .tc := ⟨.hbm, 485, rfl⟩
abbrev main_call7_v0 : Ref sig .tc := ⟨.hbm, 486, rfl⟩
abbrev main_call7_c : Ref sig .tc := ⟨.hbm, 487, rfl⟩
abbrev main_call7_v1 : Ref sig .tc := ⟨.hbm, 488, rfl⟩
abbrev main_call7_c_0 : Ref sig .tc := ⟨.hbm, 489, rfl⟩
abbrev main_call7_v2 : Ref sig .tc := ⟨.hbm, 490, rfl⟩
abbrev main_call7_v3 : Ref sig .tc := ⟨.hbm, 491, rfl⟩
abbrev main_call7_v4 : Ref sig .tc := ⟨.hbm, 492, rfl⟩
abbrev main_call7_c_1 : Ref sig .tc := ⟨.hbm, 493, rfl⟩
abbrev main_call7_v5 : Ref sig .tc := ⟨.hbm, 494, rfl⟩
abbrev main_call7_v6 : Ref sig .tc := ⟨.hbm, 495, rfl⟩
abbrev main_call7_c_2 : Ref sig .tc := ⟨.hbm, 496, rfl⟩
abbrev main_call7_v7 : Ref sig .tc := ⟨.hbm, 497, rfl⟩
abbrev main_call7_v8 : Ref sig .tc := ⟨.hbm, 498, rfl⟩
abbrev main_call7_c_3 : Ref sig .tc := ⟨.hbm, 499, rfl⟩
abbrev main_call7_v9 : Ref sig .tc := ⟨.hbm, 500, rfl⟩
abbrev main_call7_v10 : Ref sig .tc := ⟨.hbm, 501, rfl⟩
abbrev main_call7_v11 : Ref sig .tc := ⟨.hbm, 502, rfl⟩
abbrev main_call7_v12 : Ref sig .tc := ⟨.hbm, 503, rfl⟩
abbrev main_call7_v13 : Ref sig .tc := ⟨.hbm, 504, rfl⟩
abbrev main_call7_v14 : Ref sig .tc := ⟨.hbm, 505, rfl⟩
abbrev main_v271 : Ref sig .tc := ⟨.hbm, 506, rfl⟩
abbrev main_v272 : Ref sig .tc := ⟨.hbm, 507, rfl⟩
abbrev main_v273 : Ref sig .tc := ⟨.hbm, 508, rfl⟩
abbrev main_c_67 : Ref sig .tc := ⟨.hbm, 509, rfl⟩
abbrev main_v274 : Ref sig .tc := ⟨.hbm, 510, rfl⟩
abbrev main_v275 : Ref sig .tc := ⟨.hbm, 511, rfl⟩
abbrev main_c_68 : Ref sig .tc := ⟨.hbm, 512, rfl⟩
abbrev main_v276 : Ref sig .tc := ⟨.hbm, 513, rfl⟩
abbrev main_v277 : Ref sig .tc := ⟨.hbm, 514, rfl⟩
abbrev main_v278 : Ref sig .tc := ⟨.hbm, 515, rfl⟩
abbrev main_c_69 : Ref sig .tc := ⟨.hbm, 516, rfl⟩
abbrev main_v279 : Ref sig .tc := ⟨.hbm, 517, rfl⟩
abbrev main_v280 : Ref sig .tc := ⟨.hbm, 518, rfl⟩
abbrev main_v281 : Ref sig .tc := ⟨.hbm, 519, rfl⟩
abbrev main_v282 : Ref sig .tc := ⟨.hbm, 520, rfl⟩
abbrev main_v283 : Ref sig .tc := ⟨.hbm, 521, rfl⟩
abbrev main_v284 : Ref sig .tc := ⟨.hbm, 522, rfl⟩
abbrev main_v285 : Ref sig .tc := ⟨.hbm, 523, rfl⟩
abbrev main_v286 : Ref sig .tc := ⟨.hbm, 524, rfl⟩
abbrev main_v287 : Ref sig .tc := ⟨.hbm, 525, rfl⟩
abbrev main_cst_70 : Ref sig .tc := ⟨.hbm, 526, rfl⟩
abbrev main_v288 : Ref sig .tc := ⟨.hbm, 527, rfl⟩
abbrev main_v289 : Ref sig .tc := ⟨.hbm, 528, rfl⟩
abbrev main_cst_71 : Ref sig .tc := ⟨.hbm, 529, rfl⟩
abbrev main_v290 : Ref sig .tc := ⟨.hbm, 530, rfl⟩
abbrev main_v291 : Ref sig .tc := ⟨.hbm, 531, rfl⟩
abbrev main_v292 : Ref sig .tc := ⟨.hbm, 532, rfl⟩
abbrev main_v293 : Ref sig .tc := ⟨.hbm, 533, rfl⟩
abbrev main_v294 : Ref sig .tc := ⟨.hbm, 534, rfl⟩
abbrev main_v295 : Ref sig .tc := ⟨.hbm, 535, rfl⟩
abbrev main_cst_72 : Ref sig .tc := ⟨.hbm, 536, rfl⟩
abbrev main_v296 : Ref sig .tc := ⟨.hbm, 537, rfl⟩
abbrev main_v297 : Ref sig .tc := ⟨.hbm, 538, rfl⟩
abbrev main_cst_73 : Ref sig .tc := ⟨.hbm, 539, rfl⟩
abbrev main_v298 : Ref sig .tc := ⟨.hbm, 540, rfl⟩
abbrev main_v299 : Ref sig .tc := ⟨.hbm, 541, rfl⟩
abbrev main_v300 : Ref sig .tc := ⟨.hbm, 542, rfl⟩
abbrev main_cst_74 : Ref sig .tc := ⟨.hbm, 543, rfl⟩
abbrev main_v301 : Ref sig .tc := ⟨.hbm, 544, rfl⟩
abbrev main_v302 : Ref sig .tc := ⟨.hbm, 545, rfl⟩
abbrev main_v303 : Ref sig .tc := ⟨.hbm, 546, rfl⟩
abbrev main_cst_75 : Ref sig .tc := ⟨.hbm, 547, rfl⟩
abbrev main_v304 : Ref sig .tc := ⟨.hbm, 548, rfl⟩
abbrev main_v305 : Ref sig .tc := ⟨.hbm, 549, rfl⟩
abbrev main_v306 : Ref sig .tc := ⟨.hbm, 550, rfl⟩
abbrev main_v307 : Ref sig .tc := ⟨.hbm, 551, rfl⟩
abbrev main_cst_76 : Ref sig .tc := ⟨.hbm, 552, rfl⟩
abbrev main_v308 : Ref sig .tc := ⟨.hbm, 553, rfl⟩
abbrev main_v309 : Ref sig .tc := ⟨.hbm, 554, rfl⟩
abbrev main_v310 : Ref sig .tc := ⟨.hbm, 555, rfl⟩
abbrev main_v311 : Ref sig .tc := ⟨.hbm, 556, rfl⟩
abbrev main_c_77 : Ref sig .tc := ⟨.hbm, 557, rfl⟩
abbrev main_v312 : Ref sig .tc := ⟨.hbm, 558, rfl⟩
abbrev main_v313 : Ref sig .tc := ⟨.hbm, 559, rfl⟩
abbrev main_v314 : Ref sig .tc := ⟨.hbm, 560, rfl⟩
abbrev main_v315 : Ref sig .tc := ⟨.hbm, 561, rfl⟩
abbrev main_c_78 : Ref sig .tc := ⟨.hbm, 562, rfl⟩
abbrev main_v316 : Ref sig .tc := ⟨.hbm, 563, rfl⟩
abbrev main_v317 : Ref sig .tc := ⟨.hbm, 564, rfl⟩
abbrev main_c_79 : Ref sig .tc := ⟨.hbm, 565, rfl⟩
abbrev main_v318 : Ref sig .tc := ⟨.hbm, 566, rfl⟩
abbrev main_v319 : Ref sig .tc := ⟨.hbm, 567, rfl⟩
abbrev main_v320 : Ref sig .tc := ⟨.hbm, 568, rfl⟩
abbrev main_c_80 : Ref sig .tc := ⟨.hbm, 569, rfl⟩
abbrev main_call8_v0 : Ref sig .tc := ⟨.hbm, 570, rfl⟩
abbrev main_call8_c : Ref sig .tc := ⟨.hbm, 571, rfl⟩
abbrev main_call8_v1 : Ref sig .tc := ⟨.hbm, 572, rfl⟩
abbrev main_call8_c_0 : Ref sig .tc := ⟨.hbm, 573, rfl⟩
abbrev main_call8_v2 : Ref sig .tc := ⟨.hbm, 574, rfl⟩
abbrev main_call8_v3 : Ref sig .tc := ⟨.hbm, 575, rfl⟩
abbrev main_call8_v4 : Ref sig .tc := ⟨.hbm, 576, rfl⟩
abbrev main_call8_c_1 : Ref sig .tc := ⟨.hbm, 577, rfl⟩
abbrev main_call8_v5 : Ref sig .tc := ⟨.hbm, 578, rfl⟩
abbrev main_call8_v6 : Ref sig .tc := ⟨.hbm, 579, rfl⟩
abbrev main_call8_c_2 : Ref sig .tc := ⟨.hbm, 580, rfl⟩
abbrev main_call8_v7 : Ref sig .tc := ⟨.hbm, 581, rfl⟩
abbrev main_call8_v8 : Ref sig .tc := ⟨.hbm, 582, rfl⟩
abbrev main_call8_c_3 : Ref sig .tc := ⟨.hbm, 583, rfl⟩
abbrev main_call8_v9 : Ref sig .tc := ⟨.hbm, 584, rfl⟩
abbrev main_call8_v10 : Ref sig .tc := ⟨.hbm, 585, rfl⟩
abbrev main_call8_v11 : Ref sig .tc := ⟨.hbm, 586, rfl⟩
abbrev main_call8_v12 : Ref sig .tc := ⟨.hbm, 587, rfl⟩
abbrev main_call8_v13 : Ref sig .tc := ⟨.hbm, 588, rfl⟩
abbrev main_call8_v14 : Ref sig .tc := ⟨.hbm, 589, rfl⟩
abbrev main_v321 : Ref sig .tc := ⟨.hbm, 590, rfl⟩
abbrev main_v322 : Ref sig .tc := ⟨.hbm, 591, rfl⟩
abbrev main_v323 : Ref sig .tc := ⟨.hbm, 592, rfl⟩
abbrev main_c_81 : Ref sig .tc := ⟨.hbm, 593, rfl⟩
abbrev main_v324 : Ref sig .tc := ⟨.hbm, 594, rfl⟩
abbrev main_v325 : Ref sig .tc := ⟨.hbm, 595, rfl⟩
abbrev main_c_82 : Ref sig .tc := ⟨.hbm, 596, rfl⟩
abbrev main_v326 : Ref sig .tc := ⟨.hbm, 597, rfl⟩
abbrev main_v327 : Ref sig .tc := ⟨.hbm, 598, rfl⟩
abbrev main_v328 : Ref sig .tc := ⟨.hbm, 599, rfl⟩
abbrev main_c_83 : Ref sig .tc := ⟨.hbm, 600, rfl⟩
abbrev main_v329 : Ref sig .tc := ⟨.hbm, 601, rfl⟩
abbrev main_v330 : Ref sig .tc := ⟨.hbm, 602, rfl⟩
abbrev main_v331 : Ref sig .tc := ⟨.hbm, 603, rfl⟩
abbrev main_v332 : Ref sig .tc := ⟨.hbm, 604, rfl⟩
abbrev main_v333 : Ref sig .tc := ⟨.hbm, 605, rfl⟩
abbrev main_v334 : Ref sig .tc := ⟨.hbm, 606, rfl⟩
abbrev main_v335 : Ref sig .tc := ⟨.hbm, 607, rfl⟩
abbrev main_v336 : Ref sig .tc := ⟨.hbm, 608, rfl⟩
abbrev main_v337 : Ref sig .tc := ⟨.hbm, 609, rfl⟩
abbrev main_v338 : Ref sig .tc := ⟨.hbm, 610, rfl⟩
abbrev main_v339 : Ref sig .tc := ⟨.hbm, 611, rfl⟩
abbrev main_v340 : Ref sig .tc := ⟨.hbm, 612, rfl⟩
abbrev main_v341 : Ref sig .tc := ⟨.hbm, 613, rfl⟩
abbrev main_c_84 : Ref sig .tc := ⟨.hbm, 614, rfl⟩
abbrev main_v342 : Ref sig .tc := ⟨.hbm, 615, rfl⟩
abbrev main_v343 : Ref sig .tc := ⟨.hbm, 616, rfl⟩
abbrev main_v344 : Ref sig .tc := ⟨.hbm, 617, rfl⟩
abbrev main_v345 : Ref sig .tc := ⟨.hbm, 618, rfl⟩
abbrev main_c_85 : Ref sig .tc := ⟨.hbm, 619, rfl⟩
abbrev main_v346 : Ref sig .tc := ⟨.hbm, 620, rfl⟩
abbrev main_v347 : Ref sig .tc := ⟨.hbm, 621, rfl⟩
abbrev main_c_86 : Ref sig .tc := ⟨.hbm, 622, rfl⟩
abbrev main_v348 : Ref sig .tc := ⟨.hbm, 623, rfl⟩
abbrev main_v349 : Ref sig .tc := ⟨.hbm, 624, rfl⟩
abbrev main_v350 : Ref sig .tc := ⟨.hbm, 625, rfl⟩
abbrev main_c_87 : Ref sig .tc := ⟨.hbm, 626, rfl⟩
abbrev main_call9_v0 : Ref sig .tc := ⟨.hbm, 627, rfl⟩
abbrev main_call9_c : Ref sig .tc := ⟨.hbm, 628, rfl⟩
abbrev main_call9_v1 : Ref sig .tc := ⟨.hbm, 629, rfl⟩
abbrev main_call9_c_0 : Ref sig .tc := ⟨.hbm, 630, rfl⟩
abbrev main_call9_v2 : Ref sig .tc := ⟨.hbm, 631, rfl⟩
abbrev main_call9_v3 : Ref sig .tc := ⟨.hbm, 632, rfl⟩
abbrev main_call9_v4 : Ref sig .tc := ⟨.hbm, 633, rfl⟩
abbrev main_call9_c_1 : Ref sig .tc := ⟨.hbm, 634, rfl⟩
abbrev main_call9_v5 : Ref sig .tc := ⟨.hbm, 635, rfl⟩
abbrev main_call9_v6 : Ref sig .tc := ⟨.hbm, 636, rfl⟩
abbrev main_call9_c_2 : Ref sig .tc := ⟨.hbm, 637, rfl⟩
abbrev main_call9_v7 : Ref sig .tc := ⟨.hbm, 638, rfl⟩
abbrev main_call9_v8 : Ref sig .tc := ⟨.hbm, 639, rfl⟩
abbrev main_call9_c_3 : Ref sig .tc := ⟨.hbm, 640, rfl⟩
abbrev main_call9_v9 : Ref sig .tc := ⟨.hbm, 641, rfl⟩
abbrev main_call9_v10 : Ref sig .tc := ⟨.hbm, 642, rfl⟩
abbrev main_call9_v11 : Ref sig .tc := ⟨.hbm, 643, rfl⟩
abbrev main_call9_v12 : Ref sig .tc := ⟨.hbm, 644, rfl⟩
abbrev main_call9_v13 : Ref sig .tc := ⟨.hbm, 645, rfl⟩
abbrev main_call9_v14 : Ref sig .tc := ⟨.hbm, 646, rfl⟩
abbrev main_v351 : Ref sig .tc := ⟨.hbm, 647, rfl⟩
abbrev main_v352 : Ref sig .tc := ⟨.hbm, 648, rfl⟩
abbrev main_v353 : Ref sig .tc := ⟨.hbm, 649, rfl⟩
abbrev main_c_88 : Ref sig .tc := ⟨.hbm, 650, rfl⟩
abbrev main_v354 : Ref sig .tc := ⟨.hbm, 651, rfl⟩
abbrev main_v355 : Ref sig .tc := ⟨.hbm, 652, rfl⟩
abbrev main_c_89 : Ref sig .tc := ⟨.hbm, 653, rfl⟩
abbrev main_v356 : Ref sig .tc := ⟨.hbm, 654, rfl⟩
abbrev main_v357 : Ref sig .tc := ⟨.hbm, 655, rfl⟩
abbrev main_v358 : Ref sig .tc := ⟨.hbm, 656, rfl⟩
abbrev main_c_90 : Ref sig .tc := ⟨.hbm, 657, rfl⟩
abbrev main_v359 : Ref sig .tc := ⟨.hbm, 658, rfl⟩
abbrev main_v360 : Ref sig .tc := ⟨.hbm, 659, rfl⟩
abbrev main_v361 : Ref sig .tc := ⟨.hbm, 660, rfl⟩
abbrev main_v362 : Ref sig .tc := ⟨.hbm, 661, rfl⟩
abbrev main_v363 : Ref sig .tc := ⟨.hbm, 662, rfl⟩
abbrev main_v364 : Ref sig .tc := ⟨.hbm, 663, rfl⟩
abbrev main_v365 : Ref sig .tc := ⟨.hbm, 664, rfl⟩
abbrev main_v366 : Ref sig .tc := ⟨.hbm, 665, rfl⟩
abbrev main_v367 : Ref sig .tc := ⟨.hbm, 666, rfl⟩
abbrev main_v368 : Ref sig .tc := ⟨.hbm, 667, rfl⟩
abbrev main_v369 : Ref sig .tc := ⟨.hbm, 668, rfl⟩
abbrev main_v370 : Ref sig .tc := ⟨.hbm, 669, rfl⟩
abbrev main_v371 : Ref sig .tc := ⟨.hbm, 670, rfl⟩
abbrev main_cst_91 : Ref sig .tc := ⟨.hbm, 671, rfl⟩
abbrev main_v372 : Ref sig .tc := ⟨.hbm, 672, rfl⟩
abbrev main_v373 : Ref sig .tc := ⟨.hbm, 673, rfl⟩
abbrev main_v374 : Ref sig .tc := ⟨.hbm, 674, rfl⟩
abbrev main_v375 : Ref sig .tc := ⟨.hbm, 675, rfl⟩
abbrev main_c_92 : Ref sig .tc := ⟨.hbm, 676, rfl⟩
abbrev main_v376 : Ref sig .tc := ⟨.hbm, 677, rfl⟩
abbrev main_v377 : Ref sig .tc := ⟨.hbm, 678, rfl⟩
abbrev main_v378 : Ref sig .tc := ⟨.hbm, 679, rfl⟩
abbrev main_v379 : Ref sig .tc := ⟨.hbm, 680, rfl⟩
abbrev main_c_93 : Ref sig .tc := ⟨.hbm, 681, rfl⟩
abbrev main_v380 : Ref sig .tc := ⟨.hbm, 682, rfl⟩
abbrev main_v381 : Ref sig .tc := ⟨.hbm, 683, rfl⟩
abbrev main_c_94 : Ref sig .tc := ⟨.hbm, 684, rfl⟩
abbrev main_v382 : Ref sig .tc := ⟨.hbm, 685, rfl⟩
abbrev main_v383 : Ref sig .tc := ⟨.hbm, 686, rfl⟩
abbrev main_v384 : Ref sig .tc := ⟨.hbm, 687, rfl⟩
abbrev main_c_95 : Ref sig .tc := ⟨.hbm, 688, rfl⟩
abbrev main_call10_v0 : Ref sig .tc := ⟨.hbm, 689, rfl⟩
abbrev main_call10_c : Ref sig .tc := ⟨.hbm, 690, rfl⟩
abbrev main_call10_v1 : Ref sig .tc := ⟨.hbm, 691, rfl⟩
abbrev main_call10_c_0 : Ref sig .tc := ⟨.hbm, 692, rfl⟩
abbrev main_call10_v2 : Ref sig .tc := ⟨.hbm, 693, rfl⟩
abbrev main_call10_v3 : Ref sig .tc := ⟨.hbm, 694, rfl⟩
abbrev main_call10_v4 : Ref sig .tc := ⟨.hbm, 695, rfl⟩
abbrev main_call10_c_1 : Ref sig .tc := ⟨.hbm, 696, rfl⟩
abbrev main_call10_v5 : Ref sig .tc := ⟨.hbm, 697, rfl⟩
abbrev main_call10_v6 : Ref sig .tc := ⟨.hbm, 698, rfl⟩
abbrev main_call10_c_2 : Ref sig .tc := ⟨.hbm, 699, rfl⟩
abbrev main_call10_v7 : Ref sig .tc := ⟨.hbm, 700, rfl⟩
abbrev main_call10_v8 : Ref sig .tc := ⟨.hbm, 701, rfl⟩
abbrev main_call10_c_3 : Ref sig .tc := ⟨.hbm, 702, rfl⟩
abbrev main_call10_v9 : Ref sig .tc := ⟨.hbm, 703, rfl⟩
abbrev main_call10_v10 : Ref sig .tc := ⟨.hbm, 704, rfl⟩
abbrev main_call10_v11 : Ref sig .tc := ⟨.hbm, 705, rfl⟩
abbrev main_call10_v12 : Ref sig .tc := ⟨.hbm, 706, rfl⟩
abbrev main_call10_v13 : Ref sig .tc := ⟨.hbm, 707, rfl⟩
abbrev main_call10_v14 : Ref sig .tc := ⟨.hbm, 708, rfl⟩
abbrev main_v385 : Ref sig .tc := ⟨.hbm, 709, rfl⟩
abbrev main_v386 : Ref sig .tc := ⟨.hbm, 710, rfl⟩
abbrev main_v387 : Ref sig .tc := ⟨.hbm, 711, rfl⟩
abbrev main_c_96 : Ref sig .tc := ⟨.hbm, 712, rfl⟩
abbrev main_v388 : Ref sig .tc := ⟨.hbm, 713, rfl⟩
abbrev main_v389 : Ref sig .tc := ⟨.hbm, 714, rfl⟩
abbrev main_c_97 : Ref sig .tc := ⟨.hbm, 715, rfl⟩
abbrev main_v390 : Ref sig .tc := ⟨.hbm, 716, rfl⟩
abbrev main_v391 : Ref sig .tc := ⟨.hbm, 717, rfl⟩
abbrev main_v392 : Ref sig .tc := ⟨.hbm, 718, rfl⟩
abbrev main_c_98 : Ref sig .tc := ⟨.hbm, 719, rfl⟩
abbrev main_v393 : Ref sig .tc := ⟨.hbm, 720, rfl⟩
abbrev main_v394 : Ref sig .tc := ⟨.hbm, 721, rfl⟩
abbrev main_v395 : Ref sig .tc := ⟨.hbm, 722, rfl⟩
abbrev main_v396 : Ref sig .tc := ⟨.hbm, 723, rfl⟩
abbrev main_v397 : Ref sig .tc := ⟨.hbm, 724, rfl⟩
abbrev main_v398 : Ref sig .tc := ⟨.hbm, 725, rfl⟩
abbrev main_v399 : Ref sig .tc := ⟨.hbm, 726, rfl⟩
abbrev main_v400 : Ref sig .tc := ⟨.hbm, 727, rfl⟩
abbrev main_v401 : Ref sig .tc := ⟨.hbm, 728, rfl⟩
abbrev main_v402 : Ref sig .tc := ⟨.hbm, 729, rfl⟩
abbrev main_v403 : Ref sig .tc := ⟨.hbm, 730, rfl⟩
abbrev main_v404 : Ref sig .tc := ⟨.hbm, 731, rfl⟩
abbrev main_v405 : Ref sig .tc := ⟨.hbm, 732, rfl⟩
abbrev main_c_99 : Ref sig .tc := ⟨.hbm, 733, rfl⟩
abbrev main_v406 : Ref sig .tc := ⟨.hbm, 734, rfl⟩
abbrev main_v407 : Ref sig .tc := ⟨.hbm, 735, rfl⟩
abbrev main_v408 : Ref sig .tc := ⟨.hbm, 736, rfl⟩
abbrev main_v409 : Ref sig .tc := ⟨.hbm, 737, rfl⟩
abbrev main_c_100 : Ref sig .tc := ⟨.hbm, 738, rfl⟩
abbrev main_v410 : Ref sig .tc := ⟨.hbm, 739, rfl⟩
abbrev main_v411 : Ref sig .tc := ⟨.hbm, 740, rfl⟩
abbrev main_c_101 : Ref sig .tc := ⟨.hbm, 741, rfl⟩
abbrev main_v412 : Ref sig .tc := ⟨.hbm, 742, rfl⟩
abbrev main_v413 : Ref sig .tc := ⟨.hbm, 743, rfl⟩
abbrev main_v414 : Ref sig .tc := ⟨.hbm, 744, rfl⟩
abbrev main_c_102 : Ref sig .tc := ⟨.hbm, 745, rfl⟩
abbrev main_call11_v0 : Ref sig .tc := ⟨.hbm, 746, rfl⟩
abbrev main_call11_c : Ref sig .tc := ⟨.hbm, 747, rfl⟩
abbrev main_call11_v1 : Ref sig .tc := ⟨.hbm, 748, rfl⟩
abbrev main_call11_c_0 : Ref sig .tc := ⟨.hbm, 749, rfl⟩
abbrev main_call11_v2 : Ref sig .tc := ⟨.hbm, 750, rfl⟩
abbrev main_call11_v3 : Ref sig .tc := ⟨.hbm, 751, rfl⟩
abbrev main_call11_v4 : Ref sig .tc := ⟨.hbm, 752, rfl⟩
abbrev main_call11_c_1 : Ref sig .tc := ⟨.hbm, 753, rfl⟩
abbrev main_call11_v5 : Ref sig .tc := ⟨.hbm, 754, rfl⟩
abbrev main_call11_v6 : Ref sig .tc := ⟨.hbm, 755, rfl⟩
abbrev main_call11_c_2 : Ref sig .tc := ⟨.hbm, 756, rfl⟩
abbrev main_call11_v7 : Ref sig .tc := ⟨.hbm, 757, rfl⟩
abbrev main_call11_v8 : Ref sig .tc := ⟨.hbm, 758, rfl⟩
abbrev main_call11_c_3 : Ref sig .tc := ⟨.hbm, 759, rfl⟩
abbrev main_call11_v9 : Ref sig .tc := ⟨.hbm, 760, rfl⟩
abbrev main_call11_v10 : Ref sig .tc := ⟨.hbm, 761, rfl⟩
abbrev main_call11_v11 : Ref sig .tc := ⟨.hbm, 762, rfl⟩
abbrev main_call11_v12 : Ref sig .tc := ⟨.hbm, 763, rfl⟩
abbrev main_call11_v13 : Ref sig .tc := ⟨.hbm, 764, rfl⟩
abbrev main_call11_v14 : Ref sig .tc := ⟨.hbm, 765, rfl⟩
abbrev main_v415 : Ref sig .tc := ⟨.hbm, 766, rfl⟩
abbrev main_v416 : Ref sig .tc := ⟨.hbm, 767, rfl⟩
abbrev main_v417 : Ref sig .tc := ⟨.hbm, 768, rfl⟩
abbrev main_c_103 : Ref sig .tc := ⟨.hbm, 769, rfl⟩
abbrev main_v418 : Ref sig .tc := ⟨.hbm, 770, rfl⟩
abbrev main_v419 : Ref sig .tc := ⟨.hbm, 771, rfl⟩
abbrev main_c_104 : Ref sig .tc := ⟨.hbm, 772, rfl⟩
abbrev main_v420 : Ref sig .tc := ⟨.hbm, 773, rfl⟩
abbrev main_v421 : Ref sig .tc := ⟨.hbm, 774, rfl⟩
abbrev main_v422 : Ref sig .tc := ⟨.hbm, 775, rfl⟩
abbrev main_c_105 : Ref sig .tc := ⟨.hbm, 776, rfl⟩
abbrev main_v423 : Ref sig .tc := ⟨.hbm, 777, rfl⟩
abbrev main_v424 : Ref sig .tc := ⟨.hbm, 778, rfl⟩
abbrev main_v425 : Ref sig .tc := ⟨.hbm, 779, rfl⟩
abbrev main_v426 : Ref sig .tc := ⟨.hbm, 780, rfl⟩
abbrev main_v427 : Ref sig .tc := ⟨.hbm, 781, rfl⟩
abbrev main_v428 : Ref sig .tc := ⟨.hbm, 782, rfl⟩
abbrev main_v429 : Ref sig .tc := ⟨.hbm, 783, rfl⟩
abbrev main_v430 : Ref sig .tc := ⟨.hbm, 784, rfl⟩
abbrev main_v431 : Ref sig .tc := ⟨.hbm, 785, rfl⟩
abbrev main_cst_106 : Ref sig .tc := ⟨.hbm, 786, rfl⟩
abbrev main_v432 : Ref sig .tc := ⟨.hbm, 787, rfl⟩
abbrev main_v433 : Ref sig .tc := ⟨.hbm, 788, rfl⟩
abbrev main_cst_107 : Ref sig .tc := ⟨.hbm, 789, rfl⟩
abbrev main_v434 : Ref sig .tc := ⟨.hbm, 790, rfl⟩
abbrev main_v435 : Ref sig .tc := ⟨.hbm, 791, rfl⟩
abbrev main_v436 : Ref sig .tc := ⟨.hbm, 792, rfl⟩
abbrev main_v437 : Ref sig .tc := ⟨.hbm, 793, rfl⟩
abbrev main_v438 : Ref sig .tc := ⟨.hbm, 794, rfl⟩
abbrev main_v439 : Ref sig .tc := ⟨.hbm, 795, rfl⟩
abbrev main_cst_108 : Ref sig .tc := ⟨.hbm, 796, rfl⟩
abbrev main_v440 : Ref sig .tc := ⟨.hbm, 797, rfl⟩
abbrev main_v441 : Ref sig .tc := ⟨.hbm, 798, rfl⟩
abbrev main_cst_109 : Ref sig .tc := ⟨.hbm, 799, rfl⟩
abbrev main_v442 : Ref sig .tc := ⟨.hbm, 800, rfl⟩
abbrev main_v443 : Ref sig .tc := ⟨.hbm, 801, rfl⟩
abbrev main_v444 : Ref sig .tc := ⟨.hbm, 802, rfl⟩
abbrev main_cst_110 : Ref sig .tc := ⟨.hbm, 803, rfl⟩
abbrev main_v445 : Ref sig .tc := ⟨.hbm, 804, rfl⟩
abbrev main_v446 : Ref sig .tc := ⟨.hbm, 805, rfl⟩
abbrev main_v447 : Ref sig .tc := ⟨.hbm, 806, rfl⟩
abbrev main_cst_111 : Ref sig .tc := ⟨.hbm, 807, rfl⟩
abbrev main_v448 : Ref sig .tc := ⟨.hbm, 808, rfl⟩
abbrev main_v449 : Ref sig .tc := ⟨.hbm, 809, rfl⟩
abbrev main_v450 : Ref sig .tc := ⟨.hbm, 810, rfl⟩
abbrev main_v451 : Ref sig .tc := ⟨.hbm, 811, rfl⟩
abbrev main_cst_112 : Ref sig .tc := ⟨.hbm, 812, rfl⟩
abbrev main_v452 : Ref sig .tc := ⟨.hbm, 813, rfl⟩
abbrev main_v453 : Ref sig .tc := ⟨.hbm, 814, rfl⟩
abbrev main_v454 : Ref sig .tc := ⟨.hbm, 815, rfl⟩
abbrev main_v455 : Ref sig .tc := ⟨.hbm, 816, rfl⟩
abbrev main_c_113 : Ref sig .tc := ⟨.hbm, 817, rfl⟩
abbrev main_v456 : Ref sig .tc := ⟨.hbm, 818, rfl⟩
abbrev main_v457 : Ref sig .tc := ⟨.hbm, 819, rfl⟩
abbrev main_v458 : Ref sig .tc := ⟨.hbm, 820, rfl⟩
abbrev main_v459 : Ref sig .tc := ⟨.hbm, 821, rfl⟩
abbrev main_c_114 : Ref sig .tc := ⟨.hbm, 822, rfl⟩
abbrev main_v460 : Ref sig .tc := ⟨.hbm, 823, rfl⟩
abbrev main_v461 : Ref sig .tc := ⟨.hbm, 824, rfl⟩
abbrev main_c_115 : Ref sig .tc := ⟨.hbm, 825, rfl⟩
abbrev main_v462 : Ref sig .tc := ⟨.hbm, 826, rfl⟩
abbrev main_v463 : Ref sig .tc := ⟨.hbm, 827, rfl⟩
abbrev main_v464 : Ref sig .tc := ⟨.hbm, 828, rfl⟩
abbrev main_c_116 : Ref sig .tc := ⟨.hbm, 829, rfl⟩
abbrev main_call12_v0 : Ref sig .tc := ⟨.hbm, 830, rfl⟩
abbrev main_call12_c : Ref sig .tc := ⟨.hbm, 831, rfl⟩
abbrev main_call12_v1 : Ref sig .tc := ⟨.hbm, 832, rfl⟩
abbrev main_call12_c_0 : Ref sig .tc := ⟨.hbm, 833, rfl⟩
abbrev main_call12_v2 : Ref sig .tc := ⟨.hbm, 834, rfl⟩
abbrev main_call12_v3 : Ref sig .tc := ⟨.hbm, 835, rfl⟩
abbrev main_call12_v4 : Ref sig .tc := ⟨.hbm, 836, rfl⟩
abbrev main_call12_c_1 : Ref sig .tc := ⟨.hbm, 837, rfl⟩
abbrev main_call12_v5 : Ref sig .tc := ⟨.hbm, 838, rfl⟩
abbrev main_call12_v6 : Ref sig .tc := ⟨.hbm, 839, rfl⟩
abbrev main_call12_c_2 : Ref sig .tc := ⟨.hbm, 840, rfl⟩
abbrev main_call12_v7 : Ref sig .tc := ⟨.hbm, 841, rfl⟩
abbrev main_call12_v8 : Ref sig .tc := ⟨.hbm, 842, rfl⟩
abbrev main_call12_c_3 : Ref sig .tc := ⟨.hbm, 843, rfl⟩
abbrev main_call12_v9 : Ref sig .tc := ⟨.hbm, 844, rfl⟩
abbrev main_call12_v10 : Ref sig .tc := ⟨.hbm, 845, rfl⟩
abbrev main_call12_v11 : Ref sig .tc := ⟨.hbm, 846, rfl⟩
abbrev main_call12_v12 : Ref sig .tc := ⟨.hbm, 847, rfl⟩
abbrev main_call12_v13 : Ref sig .tc := ⟨.hbm, 848, rfl⟩
abbrev main_call12_v14 : Ref sig .tc := ⟨.hbm, 849, rfl⟩
abbrev main_v465 : Ref sig .tc := ⟨.hbm, 850, rfl⟩
abbrev main_v466 : Ref sig .tc := ⟨.hbm, 851, rfl⟩
abbrev main_v467 : Ref sig .tc := ⟨.hbm, 852, rfl⟩
abbrev main_c_117 : Ref sig .tc := ⟨.hbm, 853, rfl⟩
abbrev main_v468 : Ref sig .tc := ⟨.hbm, 854, rfl⟩
abbrev main_v469 : Ref sig .tc := ⟨.hbm, 855, rfl⟩
abbrev main_c_118 : Ref sig .tc := ⟨.hbm, 856, rfl⟩
abbrev main_v470 : Ref sig .tc := ⟨.hbm, 857, rfl⟩
abbrev main_v471 : Ref sig .tc := ⟨.hbm, 858, rfl⟩
abbrev main_v472 : Ref sig .tc := ⟨.hbm, 859, rfl⟩
abbrev main_c_119 : Ref sig .tc := ⟨.hbm, 860, rfl⟩
abbrev main_v473 : Ref sig .tc := ⟨.hbm, 861, rfl⟩
abbrev main_v474 : Ref sig .tc := ⟨.hbm, 862, rfl⟩
abbrev main_v475 : Ref sig .tc := ⟨.hbm, 863, rfl⟩
abbrev main_v476 : Ref sig .tc := ⟨.hbm, 864, rfl⟩
abbrev main_v477 : Ref sig .tc := ⟨.hbm, 865, rfl⟩
abbrev main_v478 : Ref sig .tc := ⟨.hbm, 866, rfl⟩
abbrev main_v479 : Ref sig .tc := ⟨.hbm, 867, rfl⟩
abbrev main_v480 : Ref sig .tc := ⟨.hbm, 868, rfl⟩
abbrev main_v481 : Ref sig .tc := ⟨.hbm, 869, rfl⟩
abbrev main_v482 : Ref sig .tc := ⟨.hbm, 870, rfl⟩
abbrev main_v483 : Ref sig .tc := ⟨.hbm, 871, rfl⟩
abbrev main_v484 : Ref sig .tc := ⟨.hbm, 872, rfl⟩
abbrev main_v485 : Ref sig .tc := ⟨.hbm, 873, rfl⟩
abbrev main_c_120 : Ref sig .tc := ⟨.hbm, 874, rfl⟩
abbrev main_v486 : Ref sig .tc := ⟨.hbm, 875, rfl⟩
abbrev main_v487 : Ref sig .tc := ⟨.hbm, 876, rfl⟩
abbrev main_v488 : Ref sig .tc := ⟨.hbm, 877, rfl⟩
abbrev main_v489 : Ref sig .tc := ⟨.hbm, 878, rfl⟩
abbrev main_c_121 : Ref sig .tc := ⟨.hbm, 879, rfl⟩
abbrev main_v490 : Ref sig .tc := ⟨.hbm, 880, rfl⟩
abbrev main_v491 : Ref sig .tc := ⟨.hbm, 881, rfl⟩
abbrev main_c_122 : Ref sig .tc := ⟨.hbm, 882, rfl⟩
abbrev main_v492 : Ref sig .tc := ⟨.hbm, 883, rfl⟩
abbrev main_v493 : Ref sig .tc := ⟨.hbm, 884, rfl⟩
abbrev main_v494 : Ref sig .tc := ⟨.hbm, 885, rfl⟩
abbrev main_c_123 : Ref sig .tc := ⟨.hbm, 886, rfl⟩
abbrev main_call13_v0 : Ref sig .tc := ⟨.hbm, 887, rfl⟩
abbrev main_call13_c : Ref sig .tc := ⟨.hbm, 888, rfl⟩
abbrev main_call13_v1 : Ref sig .tc := ⟨.hbm, 889, rfl⟩
abbrev main_call13_c_0 : Ref sig .tc := ⟨.hbm, 890, rfl⟩
abbrev main_call13_v2 : Ref sig .tc := ⟨.hbm, 891, rfl⟩
abbrev main_call13_v3 : Ref sig .tc := ⟨.hbm, 892, rfl⟩
abbrev main_call13_v4 : Ref sig .tc := ⟨.hbm, 893, rfl⟩
abbrev main_call13_c_1 : Ref sig .tc := ⟨.hbm, 894, rfl⟩
abbrev main_call13_v5 : Ref sig .tc := ⟨.hbm, 895, rfl⟩
abbrev main_call13_v6 : Ref sig .tc := ⟨.hbm, 896, rfl⟩
abbrev main_call13_c_2 : Ref sig .tc := ⟨.hbm, 897, rfl⟩
abbrev main_call13_v7 : Ref sig .tc := ⟨.hbm, 898, rfl⟩
abbrev main_call13_v8 : Ref sig .tc := ⟨.hbm, 899, rfl⟩
abbrev main_call13_c_3 : Ref sig .tc := ⟨.hbm, 900, rfl⟩
abbrev main_call13_v9 : Ref sig .tc := ⟨.hbm, 901, rfl⟩
abbrev main_call13_v10 : Ref sig .tc := ⟨.hbm, 902, rfl⟩
abbrev main_call13_v11 : Ref sig .tc := ⟨.hbm, 903, rfl⟩
abbrev main_call13_v12 : Ref sig .tc := ⟨.hbm, 904, rfl⟩
abbrev main_call13_v13 : Ref sig .tc := ⟨.hbm, 905, rfl⟩
abbrev main_call13_v14 : Ref sig .tc := ⟨.hbm, 906, rfl⟩
abbrev main_v495 : Ref sig .tc := ⟨.hbm, 907, rfl⟩
abbrev main_v496 : Ref sig .tc := ⟨.hbm, 908, rfl⟩
abbrev main_v497 : Ref sig .tc := ⟨.hbm, 909, rfl⟩
abbrev main_c_124 : Ref sig .tc := ⟨.hbm, 910, rfl⟩
abbrev main_v498 : Ref sig .tc := ⟨.hbm, 911, rfl⟩
abbrev main_v499 : Ref sig .tc := ⟨.hbm, 912, rfl⟩
abbrev main_c_125 : Ref sig .tc := ⟨.hbm, 913, rfl⟩
abbrev main_v500 : Ref sig .tc := ⟨.hbm, 914, rfl⟩
abbrev main_v501 : Ref sig .tc := ⟨.hbm, 915, rfl⟩
abbrev main_v502 : Ref sig .tc := ⟨.hbm, 916, rfl⟩
abbrev main_c_126 : Ref sig .tc := ⟨.hbm, 917, rfl⟩
abbrev main_v503 : Ref sig .tc := ⟨.hbm, 918, rfl⟩
abbrev main_v504 : Ref sig .tc := ⟨.hbm, 919, rfl⟩
abbrev main_v505 : Ref sig .tc := ⟨.hbm, 920, rfl⟩
abbrev main_v506 : Ref sig .tc := ⟨.hbm, 921, rfl⟩
abbrev main_v507 : Ref sig .tc := ⟨.hbm, 922, rfl⟩
abbrev main_v508 : Ref sig .tc := ⟨.hbm, 923, rfl⟩
abbrev main_v509 : Ref sig .tc := ⟨.hbm, 924, rfl⟩
abbrev main_v510 : Ref sig .tc := ⟨.hbm, 925, rfl⟩
abbrev main_v511 : Ref sig .tc := ⟨.hbm, 926, rfl⟩
abbrev main_v512 : Ref sig .tc := ⟨.hbm, 927, rfl⟩
abbrev main_v513 : Ref sig .tc := ⟨.hbm, 928, rfl⟩
abbrev main_v514 : Ref sig .tc := ⟨.hbm, 929, rfl⟩
abbrev main_v515 : Ref sig .tc := ⟨.hbm, 930, rfl⟩
abbrev main_cst_127 : Ref sig .tc := ⟨.hbm, 931, rfl⟩
abbrev main_v516 : Ref sig .tc := ⟨.hbm, 932, rfl⟩
abbrev main_v517 : Ref sig .tc := ⟨.hbm, 933, rfl⟩
abbrev main_v518 : Ref sig .tc := ⟨.hbm, 934, rfl⟩
abbrev main_v519 : Ref sig .tc := ⟨.hbm, 935, rfl⟩
abbrev main_c_128 : Ref sig .tc := ⟨.hbm, 936, rfl⟩
abbrev main_v520 : Ref sig .tc := ⟨.hbm, 937, rfl⟩
abbrev main_v521 : Ref sig .tc := ⟨.hbm, 938, rfl⟩
abbrev main_v522 : Ref sig .tc := ⟨.hbm, 939, rfl⟩
abbrev main_v523 : Ref sig .tc := ⟨.hbm, 940, rfl⟩
abbrev main_c_129 : Ref sig .tc := ⟨.hbm, 941, rfl⟩
abbrev main_v524 : Ref sig .tc := ⟨.hbm, 942, rfl⟩
abbrev main_v525 : Ref sig .tc := ⟨.hbm, 943, rfl⟩
abbrev main_c_130 : Ref sig .tc := ⟨.hbm, 944, rfl⟩
abbrev main_v526 : Ref sig .tc := ⟨.hbm, 945, rfl⟩
abbrev main_v527 : Ref sig .tc := ⟨.hbm, 946, rfl⟩
abbrev main_v528 : Ref sig .tc := ⟨.hbm, 947, rfl⟩
abbrev main_c_131 : Ref sig .tc := ⟨.hbm, 948, rfl⟩
abbrev main_call14_v0 : Ref sig .tc := ⟨.hbm, 949, rfl⟩
abbrev main_call14_c : Ref sig .tc := ⟨.hbm, 950, rfl⟩
abbrev main_call14_v1 : Ref sig .tc := ⟨.hbm, 951, rfl⟩
abbrev main_call14_c_0 : Ref sig .tc := ⟨.hbm, 952, rfl⟩
abbrev main_call14_v2 : Ref sig .tc := ⟨.hbm, 953, rfl⟩
abbrev main_call14_v3 : Ref sig .tc := ⟨.hbm, 954, rfl⟩
abbrev main_call14_v4 : Ref sig .tc := ⟨.hbm, 955, rfl⟩
abbrev main_call14_c_1 : Ref sig .tc := ⟨.hbm, 956, rfl⟩
abbrev main_call14_v5 : Ref sig .tc := ⟨.hbm, 957, rfl⟩
abbrev main_call14_v6 : Ref sig .tc := ⟨.hbm, 958, rfl⟩
abbrev main_call14_c_2 : Ref sig .tc := ⟨.hbm, 959, rfl⟩
abbrev main_call14_v7 : Ref sig .tc := ⟨.hbm, 960, rfl⟩
abbrev main_call14_v8 : Ref sig .tc := ⟨.hbm, 961, rfl⟩
abbrev main_call14_c_3 : Ref sig .tc := ⟨.hbm, 962, rfl⟩
abbrev main_call14_v9 : Ref sig .tc := ⟨.hbm, 963, rfl⟩
abbrev main_call14_v10 : Ref sig .tc := ⟨.hbm, 964, rfl⟩
abbrev main_call14_v11 : Ref sig .tc := ⟨.hbm, 965, rfl⟩
abbrev main_call14_v12 : Ref sig .tc := ⟨.hbm, 966, rfl⟩
abbrev main_call14_v13 : Ref sig .tc := ⟨.hbm, 967, rfl⟩
abbrev main_call14_v14 : Ref sig .tc := ⟨.hbm, 968, rfl⟩
abbrev main_v529 : Ref sig .tc := ⟨.hbm, 969, rfl⟩
abbrev main_v530 : Ref sig .tc := ⟨.hbm, 970, rfl⟩
abbrev main_v531 : Ref sig .tc := ⟨.hbm, 971, rfl⟩
abbrev main_c_132 : Ref sig .tc := ⟨.hbm, 972, rfl⟩
abbrev main_v532 : Ref sig .tc := ⟨.hbm, 973, rfl⟩
abbrev main_v533 : Ref sig .tc := ⟨.hbm, 974, rfl⟩
abbrev main_c_133 : Ref sig .tc := ⟨.hbm, 975, rfl⟩
abbrev main_v534 : Ref sig .tc := ⟨.hbm, 976, rfl⟩
abbrev main_v535 : Ref sig .tc := ⟨.hbm, 977, rfl⟩
abbrev main_v536 : Ref sig .tc := ⟨.hbm, 978, rfl⟩
abbrev main_c_134 : Ref sig .tc := ⟨.hbm, 979, rfl⟩
abbrev main_v537 : Ref sig .tc := ⟨.hbm, 980, rfl⟩
abbrev main_v538 : Ref sig .tc := ⟨.hbm, 981, rfl⟩
abbrev main_v539 : Ref sig .tc := ⟨.hbm, 982, rfl⟩
abbrev main_v540 : Ref sig .tc := ⟨.hbm, 983, rfl⟩
abbrev main_v541 : Ref sig .tc := ⟨.hbm, 984, rfl⟩
abbrev main_v542 : Ref sig .tc := ⟨.hbm, 985, rfl⟩
abbrev main_v543 : Ref sig .tc := ⟨.hbm, 986, rfl⟩
abbrev main_v544 : Ref sig .tc := ⟨.hbm, 987, rfl⟩
abbrev main_v545 : Ref sig .tc := ⟨.hbm, 988, rfl⟩
abbrev main_v546 : Ref sig .tc := ⟨.hbm, 989, rfl⟩
abbrev main_v547 : Ref sig .tc := ⟨.hbm, 990, rfl⟩
abbrev main_v548 : Ref sig .tc := ⟨.hbm, 991, rfl⟩
abbrev main_v549 : Ref sig .tc := ⟨.hbm, 992, rfl⟩
abbrev main_c_135 : Ref sig .tc := ⟨.hbm, 993, rfl⟩
abbrev main_v550 : Ref sig .tc := ⟨.hbm, 994, rfl⟩
abbrev main_v551 : Ref sig .tc := ⟨.hbm, 995, rfl⟩
abbrev main_v552 : Ref sig .tc := ⟨.hbm, 996, rfl⟩
abbrev main_v553 : Ref sig .tc := ⟨.hbm, 997, rfl⟩
abbrev main_c_136 : Ref sig .tc := ⟨.hbm, 998, rfl⟩
abbrev main_v554 : Ref sig .tc := ⟨.hbm, 999, rfl⟩
abbrev main_v555 : Ref sig .tc := ⟨.hbm, 1000, rfl⟩
abbrev main_c_137 : Ref sig .tc := ⟨.hbm, 1001, rfl⟩
abbrev main_v556 : Ref sig .tc := ⟨.hbm, 1002, rfl⟩
abbrev main_v557 : Ref sig .tc := ⟨.hbm, 1003, rfl⟩
abbrev main_v558 : Ref sig .tc := ⟨.hbm, 1004, rfl⟩
abbrev main_c_138 : Ref sig .tc := ⟨.hbm, 1005, rfl⟩
abbrev main_call15_v0 : Ref sig .tc := ⟨.hbm, 1006, rfl⟩
abbrev main_call15_c : Ref sig .tc := ⟨.hbm, 1007, rfl⟩
abbrev main_call15_v1 : Ref sig .tc := ⟨.hbm, 1008, rfl⟩
abbrev main_call15_c_0 : Ref sig .tc := ⟨.hbm, 1009, rfl⟩
abbrev main_call15_v2 : Ref sig .tc := ⟨.hbm, 1010, rfl⟩
abbrev main_call15_v3 : Ref sig .tc := ⟨.hbm, 1011, rfl⟩
abbrev main_call15_v4 : Ref sig .tc := ⟨.hbm, 1012, rfl⟩
abbrev main_call15_c_1 : Ref sig .tc := ⟨.hbm, 1013, rfl⟩
abbrev main_call15_v5 : Ref sig .tc := ⟨.hbm, 1014, rfl⟩
abbrev main_call15_v6 : Ref sig .tc := ⟨.hbm, 1015, rfl⟩
abbrev main_call15_c_2 : Ref sig .tc := ⟨.hbm, 1016, rfl⟩
abbrev main_call15_v7 : Ref sig .tc := ⟨.hbm, 1017, rfl⟩
abbrev main_call15_v8 : Ref sig .tc := ⟨.hbm, 1018, rfl⟩
abbrev main_call15_c_3 : Ref sig .tc := ⟨.hbm, 1019, rfl⟩
abbrev main_call15_v9 : Ref sig .tc := ⟨.hbm, 1020, rfl⟩
abbrev main_call15_v10 : Ref sig .tc := ⟨.hbm, 1021, rfl⟩
abbrev main_call15_v11 : Ref sig .tc := ⟨.hbm, 1022, rfl⟩
abbrev main_call15_v12 : Ref sig .tc := ⟨.hbm, 1023, rfl⟩
abbrev main_call15_v13 : Ref sig .tc := ⟨.hbm, 1024, rfl⟩
abbrev main_call15_v14 : Ref sig .tc := ⟨.hbm, 1025, rfl⟩
abbrev main_v559 : Ref sig .tc := ⟨.hbm, 1026, rfl⟩
abbrev main_v560 : Ref sig .tc := ⟨.hbm, 1027, rfl⟩
abbrev main_v561 : Ref sig .tc := ⟨.hbm, 1028, rfl⟩
abbrev main_c_139 : Ref sig .tc := ⟨.hbm, 1029, rfl⟩
abbrev main_v562 : Ref sig .tc := ⟨.hbm, 1030, rfl⟩
abbrev main_v563 : Ref sig .tc := ⟨.hbm, 1031, rfl⟩
abbrev main_c_140 : Ref sig .tc := ⟨.hbm, 1032, rfl⟩
abbrev main_v564 : Ref sig .tc := ⟨.hbm, 1033, rfl⟩
abbrev main_v565 : Ref sig .tc := ⟨.hbm, 1034, rfl⟩
abbrev main_v566 : Ref sig .tc := ⟨.hbm, 1035, rfl⟩
abbrev main_c_141 : Ref sig .tc := ⟨.hbm, 1036, rfl⟩
abbrev main_v567 : Ref sig .tc := ⟨.hbm, 1037, rfl⟩
abbrev main_v568 : Ref sig .tc := ⟨.hbm, 1038, rfl⟩
abbrev main_v569 : Ref sig .tc := ⟨.hbm, 1039, rfl⟩
abbrev main_v570 : Ref sig .tc := ⟨.hbm, 1040, rfl⟩
abbrev main_v571 : Ref sig .tc := ⟨.hbm, 1041, rfl⟩
abbrev main_v572 : Ref sig .tc := ⟨.hbm, 1042, rfl⟩
abbrev main_v573 : Ref sig .tc := ⟨.hbm, 1043, rfl⟩
abbrev main_v574 : Ref sig .tc := ⟨.hbm, 1044, rfl⟩
abbrev main_v575 : Ref sig .tc := ⟨.hbm, 1045, rfl⟩
abbrev main_cst_142 : Ref sig .tc := ⟨.hbm, 1046, rfl⟩
abbrev main_v576 : Ref sig .tc := ⟨.hbm, 1047, rfl⟩
abbrev main_v577 : Ref sig .tc := ⟨.hbm, 1048, rfl⟩
abbrev main_cst_143 : Ref sig .tc := ⟨.hbm, 1049, rfl⟩
abbrev main_v578 : Ref sig .tc := ⟨.hbm, 1050, rfl⟩
abbrev main_v579 : Ref sig .tc := ⟨.hbm, 1051, rfl⟩
abbrev main_v580 : Ref sig .tc := ⟨.hbm, 1052, rfl⟩
abbrev main_v581 : Ref sig .tc := ⟨.hbm, 1053, rfl⟩
abbrev main_v582 : Ref sig .tc := ⟨.hbm, 1054, rfl⟩
abbrev main_v583 : Ref sig .tc := ⟨.hbm, 1055, rfl⟩
abbrev main_cst_144 : Ref sig .tc := ⟨.hbm, 1056, rfl⟩
abbrev main_v584 : Ref sig .tc := ⟨.hbm, 1057, rfl⟩
abbrev main_v585 : Ref sig .tc := ⟨.hbm, 1058, rfl⟩
abbrev main_cst_145 : Ref sig .tc := ⟨.hbm, 1059, rfl⟩
abbrev main_v586 : Ref sig .tc := ⟨.hbm, 1060, rfl⟩
abbrev main_v587 : Ref sig .tc := ⟨.hbm, 1061, rfl⟩
abbrev main_v588 : Ref sig .tc := ⟨.hbm, 1062, rfl⟩
abbrev main_cst_146 : Ref sig .tc := ⟨.hbm, 1063, rfl⟩
abbrev main_v589 : Ref sig .tc := ⟨.hbm, 1064, rfl⟩
abbrev main_v590 : Ref sig .tc := ⟨.hbm, 1065, rfl⟩
abbrev main_v591 : Ref sig .tc := ⟨.hbm, 1066, rfl⟩
abbrev main_cst_147 : Ref sig .tc := ⟨.hbm, 1067, rfl⟩
abbrev main_v592 : Ref sig .tc := ⟨.hbm, 1068, rfl⟩
abbrev main_v593 : Ref sig .tc := ⟨.hbm, 1069, rfl⟩
abbrev main_v594 : Ref sig .tc := ⟨.hbm, 1070, rfl⟩
abbrev main_v595 : Ref sig .tc := ⟨.hbm, 1071, rfl⟩
abbrev main_cst_148 : Ref sig .tc := ⟨.hbm, 1072, rfl⟩
abbrev main_v596 : Ref sig .tc := ⟨.hbm, 1073, rfl⟩
abbrev main_v597 : Ref sig .tc := ⟨.hbm, 1074, rfl⟩
abbrev main_v598 : Ref sig .tc := ⟨.hbm, 1075, rfl⟩
abbrev main_v599 : Ref sig .tc := ⟨.hbm, 1076, rfl⟩
abbrev main_c_149 : Ref sig .tc := ⟨.hbm, 1077, rfl⟩
abbrev main_v600 : Ref sig .tc := ⟨.hbm, 1078, rfl⟩
abbrev main_v601 : Ref sig .tc := ⟨.hbm, 1079, rfl⟩
abbrev main_v602 : Ref sig .tc := ⟨.hbm, 1080, rfl⟩
abbrev main_v603 : Ref sig .tc := ⟨.hbm, 1081, rfl⟩
abbrev main_c_150 : Ref sig .tc := ⟨.hbm, 1082, rfl⟩
abbrev main_v604 : Ref sig .tc := ⟨.hbm, 1083, rfl⟩
abbrev main_v605 : Ref sig .tc := ⟨.hbm, 1084, rfl⟩
abbrev main_c_151 : Ref sig .tc := ⟨.hbm, 1085, rfl⟩
abbrev main_v606 : Ref sig .tc := ⟨.hbm, 1086, rfl⟩
abbrev main_v607 : Ref sig .tc := ⟨.hbm, 1087, rfl⟩
abbrev main_v608 : Ref sig .tc := ⟨.hbm, 1088, rfl⟩
abbrev main_c_152 : Ref sig .tc := ⟨.hbm, 1089, rfl⟩
abbrev main_call16_v0 : Ref sig .tc := ⟨.hbm, 1090, rfl⟩
abbrev main_call16_c : Ref sig .tc := ⟨.hbm, 1091, rfl⟩
abbrev main_call16_v1 : Ref sig .tc := ⟨.hbm, 1092, rfl⟩
abbrev main_call16_c_0 : Ref sig .tc := ⟨.hbm, 1093, rfl⟩
abbrev main_call16_v2 : Ref sig .tc := ⟨.hbm, 1094, rfl⟩
abbrev main_call16_v3 : Ref sig .tc := ⟨.hbm, 1095, rfl⟩
abbrev main_call16_v4 : Ref sig .tc := ⟨.hbm, 1096, rfl⟩
abbrev main_call16_c_1 : Ref sig .tc := ⟨.hbm, 1097, rfl⟩
abbrev main_call16_v5 : Ref sig .tc := ⟨.hbm, 1098, rfl⟩
abbrev main_call16_v6 : Ref sig .tc := ⟨.hbm, 1099, rfl⟩
abbrev main_call16_c_2 : Ref sig .tc := ⟨.hbm, 1100, rfl⟩
abbrev main_call16_v7 : Ref sig .tc := ⟨.hbm, 1101, rfl⟩
abbrev main_call16_v8 : Ref sig .tc := ⟨.hbm, 1102, rfl⟩
abbrev main_call16_c_3 : Ref sig .tc := ⟨.hbm, 1103, rfl⟩
abbrev main_call16_v9 : Ref sig .tc := ⟨.hbm, 1104, rfl⟩
abbrev main_call16_v10 : Ref sig .tc := ⟨.hbm, 1105, rfl⟩
abbrev main_call16_v11 : Ref sig .tc := ⟨.hbm, 1106, rfl⟩
abbrev main_call16_v12 : Ref sig .tc := ⟨.hbm, 1107, rfl⟩
abbrev main_call16_v13 : Ref sig .tc := ⟨.hbm, 1108, rfl⟩
abbrev main_call16_v14 : Ref sig .tc := ⟨.hbm, 1109, rfl⟩
abbrev main_v609 : Ref sig .tc := ⟨.hbm, 1110, rfl⟩
abbrev main_v610 : Ref sig .tc := ⟨.hbm, 1111, rfl⟩
abbrev main_v611 : Ref sig .tc := ⟨.hbm, 1112, rfl⟩
abbrev main_c_153 : Ref sig .tc := ⟨.hbm, 1113, rfl⟩
abbrev main_v612 : Ref sig .tc := ⟨.hbm, 1114, rfl⟩
abbrev main_v613 : Ref sig .tc := ⟨.hbm, 1115, rfl⟩
abbrev main_c_154 : Ref sig .tc := ⟨.hbm, 1116, rfl⟩
abbrev main_v614 : Ref sig .tc := ⟨.hbm, 1117, rfl⟩
abbrev main_v615 : Ref sig .tc := ⟨.hbm, 1118, rfl⟩
abbrev main_v616 : Ref sig .tc := ⟨.hbm, 1119, rfl⟩
abbrev main_c_155 : Ref sig .tc := ⟨.hbm, 1120, rfl⟩
abbrev main_v617 : Ref sig .tc := ⟨.hbm, 1121, rfl⟩
abbrev main_v618 : Ref sig .tc := ⟨.hbm, 1122, rfl⟩
abbrev main_v619 : Ref sig .tc := ⟨.hbm, 1123, rfl⟩
abbrev main_v620 : Ref sig .tc := ⟨.hbm, 1124, rfl⟩
abbrev main_v621 : Ref sig .tc := ⟨.hbm, 1125, rfl⟩
abbrev main_v622 : Ref sig .tc := ⟨.hbm, 1126, rfl⟩
abbrev main_v623 : Ref sig .tc := ⟨.hbm, 1127, rfl⟩
abbrev main_v624 : Ref sig .tc := ⟨.hbm, 1128, rfl⟩
abbrev main_v625 : Ref sig .tc := ⟨.hbm, 1129, rfl⟩
abbrev main_v626 : Ref sig .tc := ⟨.hbm, 1130, rfl⟩
abbrev main_v627 : Ref sig .tc := ⟨.hbm, 1131, rfl⟩
abbrev main_v628 : Ref sig .tc := ⟨.hbm, 1132, rfl⟩
abbrev main_v629 : Ref sig .tc := ⟨.hbm, 1133, rfl⟩
abbrev main_c_156 : Ref sig .tc := ⟨.hbm, 1134, rfl⟩
abbrev main_v630 : Ref sig .tc := ⟨.hbm, 1135, rfl⟩
abbrev main_v631 : Ref sig .tc := ⟨.hbm, 1136, rfl⟩
abbrev main_v632 : Ref sig .tc := ⟨.hbm, 1137, rfl⟩
abbrev main_v633 : Ref sig .tc := ⟨.hbm, 1138, rfl⟩
abbrev main_c_157 : Ref sig .tc := ⟨.hbm, 1139, rfl⟩
abbrev main_v634 : Ref sig .tc := ⟨.hbm, 1140, rfl⟩
abbrev main_v635 : Ref sig .tc := ⟨.hbm, 1141, rfl⟩
abbrev main_c_158 : Ref sig .tc := ⟨.hbm, 1142, rfl⟩
abbrev main_v636 : Ref sig .tc := ⟨.hbm, 1143, rfl⟩
abbrev main_v637 : Ref sig .tc := ⟨.hbm, 1144, rfl⟩
abbrev main_v638 : Ref sig .tc := ⟨.hbm, 1145, rfl⟩
abbrev main_c_159 : Ref sig .tc := ⟨.hbm, 1146, rfl⟩
abbrev main_call17_v0 : Ref sig .tc := ⟨.hbm, 1147, rfl⟩
abbrev main_call17_c : Ref sig .tc := ⟨.hbm, 1148, rfl⟩
abbrev main_call17_v1 : Ref sig .tc := ⟨.hbm, 1149, rfl⟩
abbrev main_call17_c_0 : Ref sig .tc := ⟨.hbm, 1150, rfl⟩
abbrev main_call17_v2 : Ref sig .tc := ⟨.hbm, 1151, rfl⟩
abbrev main_call17_v3 : Ref sig .tc := ⟨.hbm, 1152, rfl⟩
abbrev main_call17_v4 : Ref sig .tc := ⟨.hbm, 1153, rfl⟩
abbrev main_call17_c_1 : Ref sig .tc := ⟨.hbm, 1154, rfl⟩
abbrev main_call17_v5 : Ref sig .tc := ⟨.hbm, 1155, rfl⟩
abbrev main_call17_v6 : Ref sig .tc := ⟨.hbm, 1156, rfl⟩
abbrev main_call17_c_2 : Ref sig .tc := ⟨.hbm, 1157, rfl⟩
abbrev main_call17_v7 : Ref sig .tc := ⟨.hbm, 1158, rfl⟩
abbrev main_call17_v8 : Ref sig .tc := ⟨.hbm, 1159, rfl⟩
abbrev main_call17_c_3 : Ref sig .tc := ⟨.hbm, 1160, rfl⟩
abbrev main_call17_v9 : Ref sig .tc := ⟨.hbm, 1161, rfl⟩
abbrev main_call17_v10 : Ref sig .tc := ⟨.hbm, 1162, rfl⟩
abbrev main_call17_v11 : Ref sig .tc := ⟨.hbm, 1163, rfl⟩
abbrev main_call17_v12 : Ref sig .tc := ⟨.hbm, 1164, rfl⟩
abbrev main_call17_v13 : Ref sig .tc := ⟨.hbm, 1165, rfl⟩
abbrev main_call17_v14 : Ref sig .tc := ⟨.hbm, 1166, rfl⟩
abbrev main_v639 : Ref sig .tc := ⟨.hbm, 1167, rfl⟩
abbrev main_v640 : Ref sig .tc := ⟨.hbm, 1168, rfl⟩
abbrev main_v641 : Ref sig .tc := ⟨.hbm, 1169, rfl⟩
abbrev main_c_160 : Ref sig .tc := ⟨.hbm, 1170, rfl⟩
abbrev main_v642 : Ref sig .tc := ⟨.hbm, 1171, rfl⟩
abbrev main_v643 : Ref sig .tc := ⟨.hbm, 1172, rfl⟩
abbrev main_c_161 : Ref sig .tc := ⟨.hbm, 1173, rfl⟩
abbrev main_v644 : Ref sig .tc := ⟨.hbm, 1174, rfl⟩
abbrev main_v645 : Ref sig .tc := ⟨.hbm, 1175, rfl⟩
abbrev main_v646 : Ref sig .tc := ⟨.hbm, 1176, rfl⟩
abbrev main_c_162 : Ref sig .tc := ⟨.hbm, 1177, rfl⟩
abbrev main_v647 : Ref sig .tc := ⟨.hbm, 1178, rfl⟩
abbrev main_v648 : Ref sig .tc := ⟨.hbm, 1179, rfl⟩
abbrev main_v649 : Ref sig .tc := ⟨.hbm, 1180, rfl⟩
abbrev main_v650 : Ref sig .tc := ⟨.hbm, 1181, rfl⟩
abbrev main_v651 : Ref sig .tc := ⟨.hbm, 1182, rfl⟩
abbrev main_v652 : Ref sig .tc := ⟨.hbm, 1183, rfl⟩
abbrev main_v653 : Ref sig .tc := ⟨.hbm, 1184, rfl⟩
abbrev main_v654 : Ref sig .tc := ⟨.hbm, 1185, rfl⟩
abbrev main_v655 : Ref sig .tc := ⟨.hbm, 1186, rfl⟩
abbrev main_v656 : Ref sig .tc := ⟨.hbm, 1187, rfl⟩
abbrev main_v657 : Ref sig .tc := ⟨.hbm, 1188, rfl⟩
abbrev main_v658 : Ref sig .tc := ⟨.hbm, 1189, rfl⟩
abbrev main_v659 : Ref sig .tc := ⟨.hbm, 1190, rfl⟩
abbrev main_cst_163 : Ref sig .tc := ⟨.hbm, 1191, rfl⟩
abbrev main_v660 : Ref sig .tc := ⟨.hbm, 1192, rfl⟩
abbrev main_v661 : Ref sig .tc := ⟨.hbm, 1193, rfl⟩
abbrev main_v662 : Ref sig .tc := ⟨.hbm, 1194, rfl⟩
abbrev main_v663 : Ref sig .tc := ⟨.hbm, 1195, rfl⟩
abbrev main_c_164 : Ref sig .tc := ⟨.hbm, 1196, rfl⟩
abbrev main_v664 : Ref sig .tc := ⟨.hbm, 1197, rfl⟩
abbrev main_v665 : Ref sig .tc := ⟨.hbm, 1198, rfl⟩
abbrev main_v666 : Ref sig .tc := ⟨.hbm, 1199, rfl⟩
abbrev main_v667 : Ref sig .tc := ⟨.hbm, 1200, rfl⟩
abbrev main_c_165 : Ref sig .tc := ⟨.hbm, 1201, rfl⟩
abbrev main_v668 : Ref sig .tc := ⟨.hbm, 1202, rfl⟩
abbrev main_v669 : Ref sig .tc := ⟨.hbm, 1203, rfl⟩
abbrev main_c_166 : Ref sig .tc := ⟨.hbm, 1204, rfl⟩
abbrev main_v670 : Ref sig .tc := ⟨.hbm, 1205, rfl⟩
abbrev main_v671 : Ref sig .tc := ⟨.hbm, 1206, rfl⟩
abbrev main_v672 : Ref sig .tc := ⟨.hbm, 1207, rfl⟩
abbrev main_c_167 : Ref sig .tc := ⟨.hbm, 1208, rfl⟩
abbrev main_call18_v0 : Ref sig .tc := ⟨.hbm, 1209, rfl⟩
abbrev main_call18_c : Ref sig .tc := ⟨.hbm, 1210, rfl⟩
abbrev main_call18_v1 : Ref sig .tc := ⟨.hbm, 1211, rfl⟩
abbrev main_call18_c_0 : Ref sig .tc := ⟨.hbm, 1212, rfl⟩
abbrev main_call18_v2 : Ref sig .tc := ⟨.hbm, 1213, rfl⟩
abbrev main_call18_v3 : Ref sig .tc := ⟨.hbm, 1214, rfl⟩
abbrev main_call18_v4 : Ref sig .tc := ⟨.hbm, 1215, rfl⟩
abbrev main_call18_c_1 : Ref sig .tc := ⟨.hbm, 1216, rfl⟩
abbrev main_call18_v5 : Ref sig .tc := ⟨.hbm, 1217, rfl⟩
abbrev main_call18_v6 : Ref sig .tc := ⟨.hbm, 1218, rfl⟩
abbrev main_call18_c_2 : Ref sig .tc := ⟨.hbm, 1219, rfl⟩
abbrev main_call18_v7 : Ref sig .tc := ⟨.hbm, 1220, rfl⟩
abbrev main_call18_v8 : Ref sig .tc := ⟨.hbm, 1221, rfl⟩
abbrev main_call18_c_3 : Ref sig .tc := ⟨.hbm, 1222, rfl⟩
abbrev main_call18_v9 : Ref sig .tc := ⟨.hbm, 1223, rfl⟩
abbrev main_call18_v10 : Ref sig .tc := ⟨.hbm, 1224, rfl⟩
abbrev main_call18_v11 : Ref sig .tc := ⟨.hbm, 1225, rfl⟩
abbrev main_call18_v12 : Ref sig .tc := ⟨.hbm, 1226, rfl⟩
abbrev main_call18_v13 : Ref sig .tc := ⟨.hbm, 1227, rfl⟩
abbrev main_call18_v14 : Ref sig .tc := ⟨.hbm, 1228, rfl⟩
abbrev main_v673 : Ref sig .tc := ⟨.hbm, 1229, rfl⟩
abbrev main_v674 : Ref sig .tc := ⟨.hbm, 1230, rfl⟩
abbrev main_v675 : Ref sig .tc := ⟨.hbm, 1231, rfl⟩
abbrev main_c_168 : Ref sig .tc := ⟨.hbm, 1232, rfl⟩
abbrev main_v676 : Ref sig .tc := ⟨.hbm, 1233, rfl⟩
abbrev main_v677 : Ref sig .tc := ⟨.hbm, 1234, rfl⟩
abbrev main_c_169 : Ref sig .tc := ⟨.hbm, 1235, rfl⟩
abbrev main_v678 : Ref sig .tc := ⟨.hbm, 1236, rfl⟩
abbrev main_v679 : Ref sig .tc := ⟨.hbm, 1237, rfl⟩
abbrev main_v680 : Ref sig .tc := ⟨.hbm, 1238, rfl⟩
abbrev main_c_170 : Ref sig .tc := ⟨.hbm, 1239, rfl⟩
abbrev main_v681 : Ref sig .tc := ⟨.hbm, 1240, rfl⟩
abbrev main_v682 : Ref sig .tc := ⟨.hbm, 1241, rfl⟩
abbrev main_v683 : Ref sig .tc := ⟨.hbm, 1242, rfl⟩
abbrev main_v684 : Ref sig .tc := ⟨.hbm, 1243, rfl⟩
abbrev main_v685 : Ref sig .tc := ⟨.hbm, 1244, rfl⟩
abbrev main_v686 : Ref sig .tc := ⟨.hbm, 1245, rfl⟩
abbrev main_v687 : Ref sig .tc := ⟨.hbm, 1246, rfl⟩
abbrev main_v688 : Ref sig .tc := ⟨.hbm, 1247, rfl⟩
abbrev main_v689 : Ref sig .tc := ⟨.hbm, 1248, rfl⟩
abbrev main_v690 : Ref sig .tc := ⟨.hbm, 1249, rfl⟩
abbrev main_v691 : Ref sig .tc := ⟨.hbm, 1250, rfl⟩
abbrev main_v692 : Ref sig .tc := ⟨.hbm, 1251, rfl⟩
abbrev main_v693 : Ref sig .tc := ⟨.hbm, 1252, rfl⟩
abbrev main_c_171 : Ref sig .tc := ⟨.hbm, 1253, rfl⟩
abbrev main_v694 : Ref sig .tc := ⟨.hbm, 1254, rfl⟩
abbrev main_v695 : Ref sig .tc := ⟨.hbm, 1255, rfl⟩
abbrev main_v696 : Ref sig .tc := ⟨.hbm, 1256, rfl⟩
abbrev main_v697 : Ref sig .tc := ⟨.hbm, 1257, rfl⟩
abbrev main_c_172 : Ref sig .tc := ⟨.hbm, 1258, rfl⟩
abbrev main_v698 : Ref sig .tc := ⟨.hbm, 1259, rfl⟩
abbrev main_v699 : Ref sig .tc := ⟨.hbm, 1260, rfl⟩
abbrev main_c_173 : Ref sig .tc := ⟨.hbm, 1261, rfl⟩
abbrev main_v700 : Ref sig .tc := ⟨.hbm, 1262, rfl⟩
abbrev main_v701 : Ref sig .tc := ⟨.hbm, 1263, rfl⟩
abbrev main_v702 : Ref sig .tc := ⟨.hbm, 1264, rfl⟩
abbrev main_c_174 : Ref sig .tc := ⟨.hbm, 1265, rfl⟩
abbrev main_call19_v0 : Ref sig .tc := ⟨.hbm, 1266, rfl⟩
abbrev main_call19_c : Ref sig .tc := ⟨.hbm, 1267, rfl⟩
abbrev main_call19_v1 : Ref sig .tc := ⟨.hbm, 1268, rfl⟩
abbrev main_call19_c_0 : Ref sig .tc := ⟨.hbm, 1269, rfl⟩
abbrev main_call19_v2 : Ref sig .tc := ⟨.hbm, 1270, rfl⟩
abbrev main_call19_v3 : Ref sig .tc := ⟨.hbm, 1271, rfl⟩
abbrev main_call19_v4 : Ref sig .tc := ⟨.hbm, 1272, rfl⟩
abbrev main_call19_c_1 : Ref sig .tc := ⟨.hbm, 1273, rfl⟩
abbrev main_call19_v5 : Ref sig .tc := ⟨.hbm, 1274, rfl⟩
abbrev main_call19_v6 : Ref sig .tc := ⟨.hbm, 1275, rfl⟩
abbrev main_call19_c_2 : Ref sig .tc := ⟨.hbm, 1276, rfl⟩
abbrev main_call19_v7 : Ref sig .tc := ⟨.hbm, 1277, rfl⟩
abbrev main_call19_v8 : Ref sig .tc := ⟨.hbm, 1278, rfl⟩
abbrev main_call19_c_3 : Ref sig .tc := ⟨.hbm, 1279, rfl⟩
abbrev main_call19_v9 : Ref sig .tc := ⟨.hbm, 1280, rfl⟩
abbrev main_call19_v10 : Ref sig .tc := ⟨.hbm, 1281, rfl⟩
abbrev main_call19_v11 : Ref sig .tc := ⟨.hbm, 1282, rfl⟩
abbrev main_call19_v12 : Ref sig .tc := ⟨.hbm, 1283, rfl⟩
abbrev main_call19_v13 : Ref sig .tc := ⟨.hbm, 1284, rfl⟩
abbrev main_call19_v14 : Ref sig .tc := ⟨.hbm, 1285, rfl⟩
abbrev main_v703 : Ref sig .tc := ⟨.hbm, 1286, rfl⟩
abbrev main_v704 : Ref sig .tc := ⟨.hbm, 1287, rfl⟩
abbrev main_v705 : Ref sig .tc := ⟨.hbm, 1288, rfl⟩
abbrev main_c_175 : Ref sig .tc := ⟨.hbm, 1289, rfl⟩
abbrev main_v706 : Ref sig .tc := ⟨.hbm, 1290, rfl⟩
abbrev main_v707 : Ref sig .tc := ⟨.hbm, 1291, rfl⟩
abbrev main_c_176 : Ref sig .tc := ⟨.hbm, 1292, rfl⟩
abbrev main_v708 : Ref sig .tc := ⟨.hbm, 1293, rfl⟩
abbrev main_v709 : Ref sig .tc := ⟨.hbm, 1294, rfl⟩
abbrev main_v710 : Ref sig .tc := ⟨.hbm, 1295, rfl⟩
abbrev main_c_177 : Ref sig .tc := ⟨.hbm, 1296, rfl⟩
abbrev main_v711 : Ref sig .tc := ⟨.hbm, 1297, rfl⟩
abbrev main_v712 : Ref sig .tc := ⟨.hbm, 1298, rfl⟩
abbrev main_v713 : Ref sig .tc := ⟨.hbm, 1299, rfl⟩
abbrev main_v714 : Ref sig .tc := ⟨.hbm, 1300, rfl⟩
abbrev main_v715 : Ref sig .tc := ⟨.hbm, 1301, rfl⟩
abbrev main_v716 : Ref sig .tc := ⟨.hbm, 1302, rfl⟩
abbrev main_v717 : Ref sig .tc := ⟨.hbm, 1303, rfl⟩
abbrev main_v718 : Ref sig .tc := ⟨.hbm, 1304, rfl⟩
abbrev main_v719 : Ref sig .tc := ⟨.hbm, 1305, rfl⟩
abbrev main_cst_178 : Ref sig .tc := ⟨.hbm, 1306, rfl⟩
abbrev main_v720 : Ref sig .tc := ⟨.hbm, 1307, rfl⟩
abbrev main_v721 : Ref sig .tc := ⟨.hbm, 1308, rfl⟩
abbrev main_cst_179 : Ref sig .tc := ⟨.hbm, 1309, rfl⟩
abbrev main_v722 : Ref sig .tc := ⟨.hbm, 1310, rfl⟩
abbrev main_v723 : Ref sig .tc := ⟨.hbm, 1311, rfl⟩
abbrev main_v724 : Ref sig .tc := ⟨.hbm, 1312, rfl⟩
abbrev main_v725 : Ref sig .tc := ⟨.hbm, 1313, rfl⟩
abbrev main_v726 : Ref sig .tc := ⟨.hbm, 1314, rfl⟩
abbrev main_v727 : Ref sig .tc := ⟨.hbm, 1315, rfl⟩
abbrev main_cst_180 : Ref sig .tc := ⟨.hbm, 1316, rfl⟩
abbrev main_v728 : Ref sig .tc := ⟨.hbm, 1317, rfl⟩
abbrev main_v729 : Ref sig .tc := ⟨.hbm, 1318, rfl⟩
abbrev main_cst_181 : Ref sig .tc := ⟨.hbm, 1319, rfl⟩
abbrev main_v730 : Ref sig .tc := ⟨.hbm, 1320, rfl⟩
abbrev main_v731 : Ref sig .tc := ⟨.hbm, 1321, rfl⟩
abbrev main_v732 : Ref sig .tc := ⟨.hbm, 1322, rfl⟩
abbrev main_cst_182 : Ref sig .tc := ⟨.hbm, 1323, rfl⟩
abbrev main_v733 : Ref sig .tc := ⟨.hbm, 1324, rfl⟩
abbrev main_v734 : Ref sig .tc := ⟨.hbm, 1325, rfl⟩
abbrev main_v735 : Ref sig .tc := ⟨.hbm, 1326, rfl⟩
abbrev main_cst_183 : Ref sig .tc := ⟨.hbm, 1327, rfl⟩
abbrev main_v736 : Ref sig .tc := ⟨.hbm, 1328, rfl⟩
abbrev main_v737 : Ref sig .tc := ⟨.hbm, 1329, rfl⟩
abbrev main_v738 : Ref sig .tc := ⟨.hbm, 1330, rfl⟩
abbrev main_v739 : Ref sig .tc := ⟨.hbm, 1331, rfl⟩
abbrev main_cst_184 : Ref sig .tc := ⟨.hbm, 1332, rfl⟩
abbrev main_v740 : Ref sig .tc := ⟨.hbm, 1333, rfl⟩
abbrev main_v741 : Ref sig .tc := ⟨.hbm, 1334, rfl⟩
abbrev main_v742 : Ref sig .tc := ⟨.hbm, 1335, rfl⟩
abbrev main_v743 : Ref sig .tc := ⟨.hbm, 1336, rfl⟩
abbrev main_c_185 : Ref sig .tc := ⟨.hbm, 1337, rfl⟩
abbrev main_v744 : Ref sig .tc := ⟨.hbm, 1338, rfl⟩
abbrev main_v745 : Ref sig .tc := ⟨.hbm, 1339, rfl⟩
abbrev main_v746 : Ref sig .tc := ⟨.hbm, 1340, rfl⟩
abbrev main_v747 : Ref sig .tc := ⟨.hbm, 1341, rfl⟩
abbrev main_c_186 : Ref sig .tc := ⟨.hbm, 1342, rfl⟩
abbrev main_v748 : Ref sig .tc := ⟨.hbm, 1343, rfl⟩
abbrev main_v749 : Ref sig .tc := ⟨.hbm, 1344, rfl⟩
abbrev main_c_187 : Ref sig .tc := ⟨.hbm, 1345, rfl⟩
abbrev main_v750 : Ref sig .tc := ⟨.hbm, 1346, rfl⟩
abbrev main_v751 : Ref sig .tc := ⟨.hbm, 1347, rfl⟩
abbrev main_v752 : Ref sig .tc := ⟨.hbm, 1348, rfl⟩
abbrev main_c_188 : Ref sig .tc := ⟨.hbm, 1349, rfl⟩
abbrev main_call20_v0 : Ref sig .tc := ⟨.hbm, 1350, rfl⟩
abbrev main_call20_c : Ref sig .tc := ⟨.hbm, 1351, rfl⟩
abbrev main_call20_v1 : Ref sig .tc := ⟨.hbm, 1352, rfl⟩
abbrev main_call20_c_0 : Ref sig .tc := ⟨.hbm, 1353, rfl⟩
abbrev main_call20_v2 : Ref sig .tc := ⟨.hbm, 1354, rfl⟩
abbrev main_call20_v3 : Ref sig .tc := ⟨.hbm, 1355, rfl⟩
abbrev main_call20_v4 : Ref sig .tc := ⟨.hbm, 1356, rfl⟩
abbrev main_call20_c_1 : Ref sig .tc := ⟨.hbm, 1357, rfl⟩
abbrev main_call20_v5 : Ref sig .tc := ⟨.hbm, 1358, rfl⟩
abbrev main_call20_v6 : Ref sig .tc := ⟨.hbm, 1359, rfl⟩
abbrev main_call20_c_2 : Ref sig .tc := ⟨.hbm, 1360, rfl⟩
abbrev main_call20_v7 : Ref sig .tc := ⟨.hbm, 1361, rfl⟩
abbrev main_call20_v8 : Ref sig .tc := ⟨.hbm, 1362, rfl⟩
abbrev main_call20_c_3 : Ref sig .tc := ⟨.hbm, 1363, rfl⟩
abbrev main_call20_v9 : Ref sig .tc := ⟨.hbm, 1364, rfl⟩
abbrev main_call20_v10 : Ref sig .tc := ⟨.hbm, 1365, rfl⟩
abbrev main_call20_v11 : Ref sig .tc := ⟨.hbm, 1366, rfl⟩
abbrev main_call20_v12 : Ref sig .tc := ⟨.hbm, 1367, rfl⟩
abbrev main_call20_v13 : Ref sig .tc := ⟨.hbm, 1368, rfl⟩
abbrev main_call20_v14 : Ref sig .tc := ⟨.hbm, 1369, rfl⟩
abbrev main_v753 : Ref sig .tc := ⟨.hbm, 1370, rfl⟩
abbrev main_v754 : Ref sig .tc := ⟨.hbm, 1371, rfl⟩
abbrev main_v755 : Ref sig .tc := ⟨.hbm, 1372, rfl⟩
abbrev main_c_189 : Ref sig .tc := ⟨.hbm, 1373, rfl⟩
abbrev main_v756 : Ref sig .tc := ⟨.hbm, 1374, rfl⟩
abbrev main_v757 : Ref sig .tc := ⟨.hbm, 1375, rfl⟩
abbrev main_c_190 : Ref sig .tc := ⟨.hbm, 1376, rfl⟩
abbrev main_v758 : Ref sig .tc := ⟨.hbm, 1377, rfl⟩
abbrev main_v759 : Ref sig .tc := ⟨.hbm, 1378, rfl⟩
abbrev main_v760 : Ref sig .tc := ⟨.hbm, 1379, rfl⟩
abbrev main_c_191 : Ref sig .tc := ⟨.hbm, 1380, rfl⟩
abbrev main_v761 : Ref sig .tc := ⟨.hbm, 1381, rfl⟩
abbrev main_v762 : Ref sig .tc := ⟨.hbm, 1382, rfl⟩
abbrev main_v763 : Ref sig .tc := ⟨.hbm, 1383, rfl⟩
abbrev main_v764 : Ref sig .tc := ⟨.hbm, 1384, rfl⟩
abbrev main_v765 : Ref sig .tc := ⟨.hbm, 1385, rfl⟩
abbrev main_v766 : Ref sig .tc := ⟨.hbm, 1386, rfl⟩
abbrev main_v767 : Ref sig .tc := ⟨.hbm, 1387, rfl⟩
abbrev main_v768 : Ref sig .tc := ⟨.hbm, 1388, rfl⟩
abbrev main_v769 : Ref sig .tc := ⟨.hbm, 1389, rfl⟩
abbrev main_v770 : Ref sig .tc := ⟨.hbm, 1390, rfl⟩
abbrev main_v771 : Ref sig .tc := ⟨.hbm, 1391, rfl⟩
abbrev main_v772 : Ref sig .tc := ⟨.hbm, 1392, rfl⟩
abbrev main_v773 : Ref sig .tc := ⟨.hbm, 1393, rfl⟩
abbrev main_c_192 : Ref sig .tc := ⟨.hbm, 1394, rfl⟩
abbrev main_v774 : Ref sig .tc := ⟨.hbm, 1395, rfl⟩
abbrev main_v775 : Ref sig .tc := ⟨.hbm, 1396, rfl⟩
abbrev main_v776 : Ref sig .tc := ⟨.hbm, 1397, rfl⟩
abbrev main_v777 : Ref sig .tc := ⟨.hbm, 1398, rfl⟩
abbrev main_c_193 : Ref sig .tc := ⟨.hbm, 1399, rfl⟩
abbrev main_v778 : Ref sig .tc := ⟨.hbm, 1400, rfl⟩
abbrev main_v779 : Ref sig .tc := ⟨.hbm, 1401, rfl⟩
abbrev main_c_194 : Ref sig .tc := ⟨.hbm, 1402, rfl⟩
abbrev main_v780 : Ref sig .tc := ⟨.hbm, 1403, rfl⟩
abbrev main_v781 : Ref sig .tc := ⟨.hbm, 1404, rfl⟩
abbrev main_v782 : Ref sig .tc := ⟨.hbm, 1405, rfl⟩
abbrev main_c_195 : Ref sig .tc := ⟨.hbm, 1406, rfl⟩
abbrev main_call21_v0 : Ref sig .tc := ⟨.hbm, 1407, rfl⟩
abbrev main_call21_c : Ref sig .tc := ⟨.hbm, 1408, rfl⟩
abbrev main_call21_v1 : Ref sig .tc := ⟨.hbm, 1409, rfl⟩
abbrev main_call21_c_0 : Ref sig .tc := ⟨.hbm, 1410, rfl⟩
abbrev main_call21_v2 : Ref sig .tc := ⟨.hbm, 1411, rfl⟩
abbrev main_call21_v3 : Ref sig .tc := ⟨.hbm, 1412, rfl⟩
abbrev main_call21_v4 : Ref sig .tc := ⟨.hbm, 1413, rfl⟩
abbrev main_call21_c_1 : Ref sig .tc := ⟨.hbm, 1414, rfl⟩
abbrev main_call21_v5 : Ref sig .tc := ⟨.hbm, 1415, rfl⟩
abbrev main_call21_v6 : Ref sig .tc := ⟨.hbm, 1416, rfl⟩
abbrev main_call21_c_2 : Ref sig .tc := ⟨.hbm, 1417, rfl⟩
abbrev main_call21_v7 : Ref sig .tc := ⟨.hbm, 1418, rfl⟩
abbrev main_call21_v8 : Ref sig .tc := ⟨.hbm, 1419, rfl⟩
abbrev main_call21_c_3 : Ref sig .tc := ⟨.hbm, 1420, rfl⟩
abbrev main_call21_v9 : Ref sig .tc := ⟨.hbm, 1421, rfl⟩
abbrev main_call21_v10 : Ref sig .tc := ⟨.hbm, 1422, rfl⟩
abbrev main_call21_v11 : Ref sig .tc := ⟨.hbm, 1423, rfl⟩
abbrev main_call21_v12 : Ref sig .tc := ⟨.hbm, 1424, rfl⟩
abbrev main_call21_v13 : Ref sig .tc := ⟨.hbm, 1425, rfl⟩
abbrev main_call21_v14 : Ref sig .tc := ⟨.hbm, 1426, rfl⟩
abbrev main_v783 : Ref sig .tc := ⟨.hbm, 1427, rfl⟩
abbrev main_v784 : Ref sig .tc := ⟨.hbm, 1428, rfl⟩
abbrev main_v785 : Ref sig .tc := ⟨.hbm, 1429, rfl⟩
abbrev main_c_196 : Ref sig .tc := ⟨.hbm, 1430, rfl⟩
abbrev main_v786 : Ref sig .tc := ⟨.hbm, 1431, rfl⟩
abbrev main_v787 : Ref sig .tc := ⟨.hbm, 1432, rfl⟩
abbrev main_c_197 : Ref sig .tc := ⟨.hbm, 1433, rfl⟩
abbrev main_v788 : Ref sig .tc := ⟨.hbm, 1434, rfl⟩
abbrev main_v789 : Ref sig .tc := ⟨.hbm, 1435, rfl⟩
abbrev main_v790 : Ref sig .tc := ⟨.hbm, 1436, rfl⟩
abbrev main_c_198 : Ref sig .tc := ⟨.hbm, 1437, rfl⟩
abbrev main_v791 : Ref sig .tc := ⟨.hbm, 1438, rfl⟩
abbrev main_v792 : Ref sig .tc := ⟨.hbm, 1439, rfl⟩
abbrev main_v793 : Ref sig .tc := ⟨.hbm, 1440, rfl⟩
abbrev main_v794 : Ref sig .tc := ⟨.hbm, 1441, rfl⟩
abbrev main_v795 : Ref sig .tc := ⟨.hbm, 1442, rfl⟩
abbrev main_v796 : Ref sig .tc := ⟨.hbm, 1443, rfl⟩
abbrev main_v797 : Ref sig .tc := ⟨.hbm, 1444, rfl⟩
abbrev main_v798 : Ref sig .tc := ⟨.hbm, 1445, rfl⟩
abbrev main_v799 : Ref sig .tc := ⟨.hbm, 1446, rfl⟩
abbrev main_v800 : Ref sig .tc := ⟨.hbm, 1447, rfl⟩
abbrev main_v801 : Ref sig .tc := ⟨.hbm, 1448, rfl⟩
abbrev main_v802 : Ref sig .tc := ⟨.hbm, 1449, rfl⟩
abbrev main_v803 : Ref sig .tc := ⟨.hbm, 1450, rfl⟩
abbrev main_cst_199 : Ref sig .tc := ⟨.hbm, 1451, rfl⟩
abbrev main_v804 : Ref sig .tc := ⟨.hbm, 1452, rfl⟩
abbrev main_v805 : Ref sig .tc := ⟨.hbm, 1453, rfl⟩
abbrev main_v806 : Ref sig .tc := ⟨.hbm, 1454, rfl⟩
abbrev main_v807 : Ref sig .tc := ⟨.hbm, 1455, rfl⟩
abbrev main_c_200 : Ref sig .tc := ⟨.hbm, 1456, rfl⟩
abbrev main_v808 : Ref sig .tc := ⟨.hbm, 1457, rfl⟩
abbrev main_v809 : Ref sig .tc := ⟨.hbm, 1458, rfl⟩
abbrev main_v810 : Ref sig .tc := ⟨.hbm, 1459, rfl⟩
abbrev main_v811 : Ref sig .tc := ⟨.hbm, 1460, rfl⟩
abbrev main_c_201 : Ref sig .tc := ⟨.hbm, 1461, rfl⟩
abbrev main_v812 : Ref sig .tc := ⟨.hbm, 1462, rfl⟩
abbrev main_v813 : Ref sig .tc := ⟨.hbm, 1463, rfl⟩
abbrev main_c_202 : Ref sig .tc := ⟨.hbm, 1464, rfl⟩
abbrev main_v814 : Ref sig .tc := ⟨.hbm, 1465, rfl⟩
abbrev main_v815 : Ref sig .tc := ⟨.hbm, 1466, rfl⟩
abbrev main_v816 : Ref sig .tc := ⟨.hbm, 1467, rfl⟩
abbrev main_c_203 : Ref sig .tc := ⟨.hbm, 1468, rfl⟩
abbrev main_call22_v0 : Ref sig .tc := ⟨.hbm, 1469, rfl⟩
abbrev main_call22_c : Ref sig .tc := ⟨.hbm, 1470, rfl⟩
abbrev main_call22_v1 : Ref sig .tc := ⟨.hbm, 1471, rfl⟩
abbrev main_call22_c_0 : Ref sig .tc := ⟨.hbm, 1472, rfl⟩
abbrev main_call22_v2 : Ref sig .tc := ⟨.hbm, 1473, rfl⟩
abbrev main_call22_v3 : Ref sig .tc := ⟨.hbm, 1474, rfl⟩
abbrev main_call22_v4 : Ref sig .tc := ⟨.hbm, 1475, rfl⟩
abbrev main_call22_c_1 : Ref sig .tc := ⟨.hbm, 1476, rfl⟩
abbrev main_call22_v5 : Ref sig .tc := ⟨.hbm, 1477, rfl⟩
abbrev main_call22_v6 : Ref sig .tc := ⟨.hbm, 1478, rfl⟩
abbrev main_call22_c_2 : Ref sig .tc := ⟨.hbm, 1479, rfl⟩
abbrev main_call22_v7 : Ref sig .tc := ⟨.hbm, 1480, rfl⟩
abbrev main_call22_v8 : Ref sig .tc := ⟨.hbm, 1481, rfl⟩
abbrev main_call22_c_3 : Ref sig .tc := ⟨.hbm, 1482, rfl⟩
abbrev main_call22_v9 : Ref sig .tc := ⟨.hbm, 1483, rfl⟩
abbrev main_call22_v10 : Ref sig .tc := ⟨.hbm, 1484, rfl⟩
abbrev main_call22_v11 : Ref sig .tc := ⟨.hbm, 1485, rfl⟩
abbrev main_call22_v12 : Ref sig .tc := ⟨.hbm, 1486, rfl⟩
abbrev main_call22_v13 : Ref sig .tc := ⟨.hbm, 1487, rfl⟩
abbrev main_call22_v14 : Ref sig .tc := ⟨.hbm, 1488, rfl⟩
abbrev main_v817 : Ref sig .tc := ⟨.hbm, 1489, rfl⟩
abbrev main_v818 : Ref sig .tc := ⟨.hbm, 1490, rfl⟩
abbrev main_v819 : Ref sig .tc := ⟨.hbm, 1491, rfl⟩
abbrev main_c_204 : Ref sig .tc := ⟨.hbm, 1492, rfl⟩
abbrev main_v820 : Ref sig .tc := ⟨.hbm, 1493, rfl⟩
abbrev main_v821 : Ref sig .tc := ⟨.hbm, 1494, rfl⟩
abbrev main_c_205 : Ref sig .tc := ⟨.hbm, 1495, rfl⟩
abbrev main_v822 : Ref sig .tc := ⟨.hbm, 1496, rfl⟩
abbrev main_v823 : Ref sig .tc := ⟨.hbm, 1497, rfl⟩
abbrev main_v824 : Ref sig .tc := ⟨.hbm, 1498, rfl⟩
abbrev main_c_206 : Ref sig .tc := ⟨.hbm, 1499, rfl⟩
abbrev main_v825 : Ref sig .tc := ⟨.hbm, 1500, rfl⟩
abbrev main_v826 : Ref sig .tc := ⟨.hbm, 1501, rfl⟩
abbrev main_v827 : Ref sig .tc := ⟨.hbm, 1502, rfl⟩
abbrev main_v828 : Ref sig .tc := ⟨.hbm, 1503, rfl⟩
abbrev main_v829 : Ref sig .tc := ⟨.hbm, 1504, rfl⟩
abbrev main_v830 : Ref sig .tc := ⟨.hbm, 1505, rfl⟩
abbrev main_v831 : Ref sig .tc := ⟨.hbm, 1506, rfl⟩
abbrev main_v832 : Ref sig .tc := ⟨.hbm, 1507, rfl⟩
abbrev main_v833 : Ref sig .tc := ⟨.hbm, 1508, rfl⟩
abbrev main_v834 : Ref sig .tc := ⟨.hbm, 1509, rfl⟩
abbrev main_v835 : Ref sig .tc := ⟨.hbm, 1510, rfl⟩
abbrev main_v836 : Ref sig .tc := ⟨.hbm, 1511, rfl⟩
abbrev main_v837 : Ref sig .tc := ⟨.hbm, 1512, rfl⟩
abbrev main_c_207 : Ref sig .tc := ⟨.hbm, 1513, rfl⟩
abbrev main_v838 : Ref sig .tc := ⟨.hbm, 1514, rfl⟩
abbrev main_v839 : Ref sig .tc := ⟨.hbm, 1515, rfl⟩
abbrev main_v840 : Ref sig .tc := ⟨.hbm, 1516, rfl⟩
abbrev main_v841 : Ref sig .tc := ⟨.hbm, 1517, rfl⟩
abbrev main_c_208 : Ref sig .tc := ⟨.hbm, 1518, rfl⟩
abbrev main_v842 : Ref sig .tc := ⟨.hbm, 1519, rfl⟩
abbrev main_v843 : Ref sig .tc := ⟨.hbm, 1520, rfl⟩
abbrev main_c_209 : Ref sig .tc := ⟨.hbm, 1521, rfl⟩
abbrev main_v844 : Ref sig .tc := ⟨.hbm, 1522, rfl⟩
abbrev main_v845 : Ref sig .tc := ⟨.hbm, 1523, rfl⟩
abbrev main_v846 : Ref sig .tc := ⟨.hbm, 1524, rfl⟩
abbrev main_c_210 : Ref sig .tc := ⟨.hbm, 1525, rfl⟩
abbrev main_call23_v0 : Ref sig .tc := ⟨.hbm, 1526, rfl⟩
abbrev main_call23_c : Ref sig .tc := ⟨.hbm, 1527, rfl⟩
abbrev main_call23_v1 : Ref sig .tc := ⟨.hbm, 1528, rfl⟩
abbrev main_call23_c_0 : Ref sig .tc := ⟨.hbm, 1529, rfl⟩
abbrev main_call23_v2 : Ref sig .tc := ⟨.hbm, 1530, rfl⟩
abbrev main_call23_v3 : Ref sig .tc := ⟨.hbm, 1531, rfl⟩
abbrev main_call23_v4 : Ref sig .tc := ⟨.hbm, 1532, rfl⟩
abbrev main_call23_c_1 : Ref sig .tc := ⟨.hbm, 1533, rfl⟩
abbrev main_call23_v5 : Ref sig .tc := ⟨.hbm, 1534, rfl⟩
abbrev main_call23_v6 : Ref sig .tc := ⟨.hbm, 1535, rfl⟩
abbrev main_call23_c_2 : Ref sig .tc := ⟨.hbm, 1536, rfl⟩
abbrev main_call23_v7 : Ref sig .tc := ⟨.hbm, 1537, rfl⟩
abbrev main_call23_v8 : Ref sig .tc := ⟨.hbm, 1538, rfl⟩
abbrev main_call23_c_3 : Ref sig .tc := ⟨.hbm, 1539, rfl⟩
abbrev main_call23_v9 : Ref sig .tc := ⟨.hbm, 1540, rfl⟩
abbrev main_call23_v10 : Ref sig .tc := ⟨.hbm, 1541, rfl⟩
abbrev main_call23_v11 : Ref sig .tc := ⟨.hbm, 1542, rfl⟩
abbrev main_call23_v12 : Ref sig .tc := ⟨.hbm, 1543, rfl⟩
abbrev main_call23_v13 : Ref sig .tc := ⟨.hbm, 1544, rfl⟩
abbrev main_call23_v14 : Ref sig .tc := ⟨.hbm, 1545, rfl⟩
abbrev main_v847 : Ref sig .tc := ⟨.hbm, 1546, rfl⟩
abbrev main_v848 : Ref sig .tc := ⟨.hbm, 1547, rfl⟩
abbrev main_v849 : Ref sig .tc := ⟨.hbm, 1548, rfl⟩
abbrev main_c_211 : Ref sig .tc := ⟨.hbm, 1549, rfl⟩
abbrev main_v850 : Ref sig .tc := ⟨.hbm, 1550, rfl⟩
abbrev main_v851 : Ref sig .tc := ⟨.hbm, 1551, rfl⟩
abbrev main_c_212 : Ref sig .tc := ⟨.hbm, 1552, rfl⟩
abbrev main_v852 : Ref sig .tc := ⟨.hbm, 1553, rfl⟩
abbrev main_v853 : Ref sig .tc := ⟨.hbm, 1554, rfl⟩
abbrev main_v854 : Ref sig .tc := ⟨.hbm, 1555, rfl⟩
abbrev main_c_213 : Ref sig .tc := ⟨.hbm, 1556, rfl⟩
abbrev main_v855 : Ref sig .tc := ⟨.hbm, 1557, rfl⟩
abbrev main_v856 : Ref sig .tc := ⟨.hbm, 1558, rfl⟩
abbrev main_v857 : Ref sig .tc := ⟨.hbm, 1559, rfl⟩
abbrev main_v858 : Ref sig .tc := ⟨.hbm, 1560, rfl⟩
abbrev main_v859 : Ref sig .tc := ⟨.hbm, 1561, rfl⟩
abbrev main_v860 : Ref sig .tc := ⟨.hbm, 1562, rfl⟩
abbrev main_v861 : Ref sig .tc := ⟨.hbm, 1563, rfl⟩
abbrev main_v862 : Ref sig .tc := ⟨.hbm, 1564, rfl⟩
abbrev main_v863 : Ref sig .tc := ⟨.hbm, 1565, rfl⟩
abbrev main_cst_214 : Ref sig .tc := ⟨.hbm, 1566, rfl⟩
abbrev main_v864 : Ref sig .tc := ⟨.hbm, 1567, rfl⟩
abbrev main_v865 : Ref sig .tc := ⟨.hbm, 1568, rfl⟩
abbrev main_cst_215 : Ref sig .tc := ⟨.hbm, 1569, rfl⟩
abbrev main_v866 : Ref sig .tc := ⟨.hbm, 1570, rfl⟩
abbrev main_v867 : Ref sig .tc := ⟨.hbm, 1571, rfl⟩
abbrev main_v868 : Ref sig .tc := ⟨.hbm, 1572, rfl⟩
abbrev main_v869 : Ref sig .tc := ⟨.hbm, 1573, rfl⟩
abbrev main_v870 : Ref sig .tc := ⟨.hbm, 1574, rfl⟩
abbrev main_v871 : Ref sig .tc := ⟨.hbm, 1575, rfl⟩
abbrev main_cst_216 : Ref sig .tc := ⟨.hbm, 1576, rfl⟩
abbrev main_v872 : Ref sig .tc := ⟨.hbm, 1577, rfl⟩
abbrev main_v873 : Ref sig .tc := ⟨.hbm, 1578, rfl⟩
abbrev main_cst_217 : Ref sig .tc := ⟨.hbm, 1579, rfl⟩
abbrev main_v874 : Ref sig .tc := ⟨.hbm, 1580, rfl⟩
abbrev main_v875 : Ref sig .tc := ⟨.hbm, 1581, rfl⟩
abbrev main_v876 : Ref sig .tc := ⟨.hbm, 1582, rfl⟩
abbrev main_cst_218 : Ref sig .tc := ⟨.hbm, 1583, rfl⟩
abbrev main_v877 : Ref sig .tc := ⟨.hbm, 1584, rfl⟩
abbrev main_v878 : Ref sig .tc := ⟨.hbm, 1585, rfl⟩
abbrev main_v879 : Ref sig .tc := ⟨.hbm, 1586, rfl⟩
abbrev main_cst_219 : Ref sig .tc := ⟨.hbm, 1587, rfl⟩
abbrev main_v880 : Ref sig .tc := ⟨.hbm, 1588, rfl⟩
abbrev main_v881 : Ref sig .tc := ⟨.hbm, 1589, rfl⟩
abbrev main_v882 : Ref sig .tc := ⟨.hbm, 1590, rfl⟩
abbrev main_v883 : Ref sig .tc := ⟨.hbm, 1591, rfl⟩
abbrev main_cst_220 : Ref sig .tc := ⟨.hbm, 1592, rfl⟩
abbrev main_v884 : Ref sig .tc := ⟨.hbm, 1593, rfl⟩
abbrev main_v885 : Ref sig .tc := ⟨.hbm, 1594, rfl⟩
abbrev main_v886 : Ref sig .tc := ⟨.hbm, 1595, rfl⟩
abbrev main_v887 : Ref sig .tc := ⟨.hbm, 1596, rfl⟩
abbrev main_c_221 : Ref sig .tc := ⟨.hbm, 1597, rfl⟩
abbrev main_v888 : Ref sig .tc := ⟨.hbm, 1598, rfl⟩
abbrev main_v889 : Ref sig .tc := ⟨.hbm, 1599, rfl⟩
abbrev main_v890 : Ref sig .tc := ⟨.hbm, 1600, rfl⟩
abbrev main_v891 : Ref sig .tc := ⟨.hbm, 1601, rfl⟩
abbrev main_c_222 : Ref sig .tc := ⟨.hbm, 1602, rfl⟩
abbrev main_v892 : Ref sig .tc := ⟨.hbm, 1603, rfl⟩
abbrev main_v893 : Ref sig .tc := ⟨.hbm, 1604, rfl⟩
abbrev main_c_223 : Ref sig .tc := ⟨.hbm, 1605, rfl⟩
abbrev main_v894 : Ref sig .tc := ⟨.hbm, 1606, rfl⟩
abbrev main_v895 : Ref sig .tc := ⟨.hbm, 1607, rfl⟩
abbrev main_v896 : Ref sig .tc := ⟨.hbm, 1608, rfl⟩
abbrev main_c_224 : Ref sig .tc := ⟨.hbm, 1609, rfl⟩
abbrev main_call24_v0 : Ref sig .tc := ⟨.hbm, 1610, rfl⟩
abbrev main_call24_c : Ref sig .tc := ⟨.hbm, 1611, rfl⟩
abbrev main_call24_v1 : Ref sig .tc := ⟨.hbm, 1612, rfl⟩
abbrev main_call24_c_0 : Ref sig .tc := ⟨.hbm, 1613, rfl⟩
abbrev main_call24_v2 : Ref sig .tc := ⟨.hbm, 1614, rfl⟩
abbrev main_call24_v3 : Ref sig .tc := ⟨.hbm, 1615, rfl⟩
abbrev main_call24_v4 : Ref sig .tc := ⟨.hbm, 1616, rfl⟩
abbrev main_call24_c_1 : Ref sig .tc := ⟨.hbm, 1617, rfl⟩
abbrev main_call24_v5 : Ref sig .tc := ⟨.hbm, 1618, rfl⟩
abbrev main_call24_v6 : Ref sig .tc := ⟨.hbm, 1619, rfl⟩
abbrev main_call24_c_2 : Ref sig .tc := ⟨.hbm, 1620, rfl⟩
abbrev main_call24_v7 : Ref sig .tc := ⟨.hbm, 1621, rfl⟩
abbrev main_call24_v8 : Ref sig .tc := ⟨.hbm, 1622, rfl⟩
abbrev main_call24_c_3 : Ref sig .tc := ⟨.hbm, 1623, rfl⟩
abbrev main_call24_v9 : Ref sig .tc := ⟨.hbm, 1624, rfl⟩
abbrev main_call24_v10 : Ref sig .tc := ⟨.hbm, 1625, rfl⟩
abbrev main_call24_v11 : Ref sig .tc := ⟨.hbm, 1626, rfl⟩
abbrev main_call24_v12 : Ref sig .tc := ⟨.hbm, 1627, rfl⟩
abbrev main_call24_v13 : Ref sig .tc := ⟨.hbm, 1628, rfl⟩
abbrev main_call24_v14 : Ref sig .tc := ⟨.hbm, 1629, rfl⟩
abbrev main_v897 : Ref sig .tc := ⟨.hbm, 1630, rfl⟩
abbrev main_v898 : Ref sig .tc := ⟨.hbm, 1631, rfl⟩
abbrev main_v899 : Ref sig .tc := ⟨.hbm, 1632, rfl⟩
abbrev main_c_225 : Ref sig .tc := ⟨.hbm, 1633, rfl⟩
abbrev main_v900 : Ref sig .tc := ⟨.hbm, 1634, rfl⟩
abbrev main_v901 : Ref sig .tc := ⟨.hbm, 1635, rfl⟩
abbrev main_c_226 : Ref sig .tc := ⟨.hbm, 1636, rfl⟩
abbrev main_v902 : Ref sig .tc := ⟨.hbm, 1637, rfl⟩
abbrev main_v903 : Ref sig .tc := ⟨.hbm, 1638, rfl⟩
abbrev main_v904 : Ref sig .tc := ⟨.hbm, 1639, rfl⟩
abbrev main_c_227 : Ref sig .tc := ⟨.hbm, 1640, rfl⟩
abbrev main_v905 : Ref sig .tc := ⟨.hbm, 1641, rfl⟩
abbrev main_v906 : Ref sig .tc := ⟨.hbm, 1642, rfl⟩
abbrev main_v907 : Ref sig .tc := ⟨.hbm, 1643, rfl⟩
abbrev main_v908 : Ref sig .tc := ⟨.hbm, 1644, rfl⟩
abbrev main_v909 : Ref sig .tc := ⟨.hbm, 1645, rfl⟩
abbrev main_v910 : Ref sig .tc := ⟨.hbm, 1646, rfl⟩
abbrev main_v911 : Ref sig .tc := ⟨.hbm, 1647, rfl⟩
abbrev main_v912 : Ref sig .tc := ⟨.hbm, 1648, rfl⟩
abbrev main_v913 : Ref sig .tc := ⟨.hbm, 1649, rfl⟩
abbrev main_v914 : Ref sig .tc := ⟨.hbm, 1650, rfl⟩
abbrev main_v915 : Ref sig .tc := ⟨.hbm, 1651, rfl⟩
abbrev main_v916 : Ref sig .tc := ⟨.hbm, 1652, rfl⟩
abbrev main_v917 : Ref sig .tc := ⟨.hbm, 1653, rfl⟩
abbrev main_c_228 : Ref sig .tc := ⟨.hbm, 1654, rfl⟩
abbrev main_v918 : Ref sig .tc := ⟨.hbm, 1655, rfl⟩
abbrev main_v919 : Ref sig .tc := ⟨.hbm, 1656, rfl⟩
abbrev main_v920 : Ref sig .tc := ⟨.hbm, 1657, rfl⟩
abbrev main_v921 : Ref sig .tc := ⟨.hbm, 1658, rfl⟩
abbrev main_c_229 : Ref sig .tc := ⟨.hbm, 1659, rfl⟩
abbrev main_v922 : Ref sig .tc := ⟨.hbm, 1660, rfl⟩
abbrev main_v923 : Ref sig .tc := ⟨.hbm, 1661, rfl⟩
abbrev main_c_230 : Ref sig .tc := ⟨.hbm, 1662, rfl⟩
abbrev main_v924 : Ref sig .tc := ⟨.hbm, 1663, rfl⟩
abbrev main_v925 : Ref sig .tc := ⟨.hbm, 1664, rfl⟩
abbrev main_v926 : Ref sig .tc := ⟨.hbm, 1665, rfl⟩
abbrev main_c_231 : Ref sig .tc := ⟨.hbm, 1666, rfl⟩
abbrev main_call25_v0 : Ref sig .tc := ⟨.hbm, 1667, rfl⟩
abbrev main_call25_c : Ref sig .tc := ⟨.hbm, 1668, rfl⟩
abbrev main_call25_v1 : Ref sig .tc := ⟨.hbm, 1669, rfl⟩
abbrev main_call25_c_0 : Ref sig .tc := ⟨.hbm, 1670, rfl⟩
abbrev main_call25_v2 : Ref sig .tc := ⟨.hbm, 1671, rfl⟩
abbrev main_call25_v3 : Ref sig .tc := ⟨.hbm, 1672, rfl⟩
abbrev main_call25_v4 : Ref sig .tc := ⟨.hbm, 1673, rfl⟩
abbrev main_call25_c_1 : Ref sig .tc := ⟨.hbm, 1674, rfl⟩
abbrev main_call25_v5 : Ref sig .tc := ⟨.hbm, 1675, rfl⟩
abbrev main_call25_v6 : Ref sig .tc := ⟨.hbm, 1676, rfl⟩
abbrev main_call25_c_2 : Ref sig .tc := ⟨.hbm, 1677, rfl⟩
abbrev main_call25_v7 : Ref sig .tc := ⟨.hbm, 1678, rfl⟩
abbrev main_call25_v8 : Ref sig .tc := ⟨.hbm, 1679, rfl⟩
abbrev main_call25_c_3 : Ref sig .tc := ⟨.hbm, 1680, rfl⟩
abbrev main_call25_v9 : Ref sig .tc := ⟨.hbm, 1681, rfl⟩
abbrev main_call25_v10 : Ref sig .tc := ⟨.hbm, 1682, rfl⟩
abbrev main_call25_v11 : Ref sig .tc := ⟨.hbm, 1683, rfl⟩
abbrev main_call25_v12 : Ref sig .tc := ⟨.hbm, 1684, rfl⟩
abbrev main_call25_v13 : Ref sig .tc := ⟨.hbm, 1685, rfl⟩
abbrev main_call25_v14 : Ref sig .tc := ⟨.hbm, 1686, rfl⟩
abbrev main_v927 : Ref sig .tc := ⟨.hbm, 1687, rfl⟩
abbrev main_v928 : Ref sig .tc := ⟨.hbm, 1688, rfl⟩
abbrev main_v929 : Ref sig .tc := ⟨.hbm, 1689, rfl⟩
abbrev main_c_232 : Ref sig .tc := ⟨.hbm, 1690, rfl⟩
abbrev main_v930 : Ref sig .tc := ⟨.hbm, 1691, rfl⟩
abbrev main_v931 : Ref sig .tc := ⟨.hbm, 1692, rfl⟩
abbrev main_c_233 : Ref sig .tc := ⟨.hbm, 1693, rfl⟩
abbrev main_v932 : Ref sig .tc := ⟨.hbm, 1694, rfl⟩
abbrev main_v933 : Ref sig .tc := ⟨.hbm, 1695, rfl⟩
abbrev main_v934 : Ref sig .tc := ⟨.hbm, 1696, rfl⟩
abbrev main_c_234 : Ref sig .tc := ⟨.hbm, 1697, rfl⟩
abbrev main_v935 : Ref sig .tc := ⟨.hbm, 1698, rfl⟩
abbrev main_v936 : Ref sig .tc := ⟨.hbm, 1699, rfl⟩
abbrev main_v937 : Ref sig .tc := ⟨.hbm, 1700, rfl⟩
abbrev main_v938 : Ref sig .tc := ⟨.hbm, 1701, rfl⟩
abbrev main_v939 : Ref sig .tc := ⟨.hbm, 1702, rfl⟩
abbrev main_v940 : Ref sig .tc := ⟨.hbm, 1703, rfl⟩
abbrev main_v941 : Ref sig .tc := ⟨.hbm, 1704, rfl⟩
abbrev main_v942 : Ref sig .tc := ⟨.hbm, 1705, rfl⟩
abbrev main_v943 : Ref sig .tc := ⟨.hbm, 1706, rfl⟩
abbrev main_v944 : Ref sig .tc := ⟨.hbm, 1707, rfl⟩
abbrev main_v945 : Ref sig .tc := ⟨.hbm, 1708, rfl⟩
abbrev main_v946 : Ref sig .tc := ⟨.hbm, 1709, rfl⟩
abbrev main_v947 : Ref sig .tc := ⟨.hbm, 1710, rfl⟩
abbrev main_cst_235 : Ref sig .tc := ⟨.hbm, 1711, rfl⟩
abbrev main_v948 : Ref sig .tc := ⟨.hbm, 1712, rfl⟩
abbrev main_v949 : Ref sig .tc := ⟨.hbm, 1713, rfl⟩
abbrev main_v950 : Ref sig .tc := ⟨.hbm, 1714, rfl⟩
abbrev main_v951 : Ref sig .tc := ⟨.hbm, 1715, rfl⟩
abbrev main_c_236 : Ref sig .tc := ⟨.hbm, 1716, rfl⟩
abbrev main_v952 : Ref sig .tc := ⟨.hbm, 1717, rfl⟩
abbrev main_v953 : Ref sig .tc := ⟨.hbm, 1718, rfl⟩
abbrev main_v954 : Ref sig .tc := ⟨.hbm, 1719, rfl⟩
abbrev main_v955 : Ref sig .tc := ⟨.hbm, 1720, rfl⟩
abbrev main_c_237 : Ref sig .tc := ⟨.hbm, 1721, rfl⟩
abbrev main_v956 : Ref sig .tc := ⟨.hbm, 1722, rfl⟩
abbrev main_v957 : Ref sig .tc := ⟨.hbm, 1723, rfl⟩
abbrev main_c_238 : Ref sig .tc := ⟨.hbm, 1724, rfl⟩
abbrev main_v958 : Ref sig .tc := ⟨.hbm, 1725, rfl⟩
abbrev main_v959 : Ref sig .tc := ⟨.hbm, 1726, rfl⟩
abbrev main_v960 : Ref sig .tc := ⟨.hbm, 1727, rfl⟩
abbrev main_c_239 : Ref sig .tc := ⟨.hbm, 1728, rfl⟩
abbrev main_call26_v0 : Ref sig .tc := ⟨.hbm, 1729, rfl⟩
abbrev main_call26_c : Ref sig .tc := ⟨.hbm, 1730, rfl⟩
abbrev main_call26_v1 : Ref sig .tc := ⟨.hbm, 1731, rfl⟩
abbrev main_call26_c_0 : Ref sig .tc := ⟨.hbm, 1732, rfl⟩
abbrev main_call26_v2 : Ref sig .tc := ⟨.hbm, 1733, rfl⟩
abbrev main_call26_v3 : Ref sig .tc := ⟨.hbm, 1734, rfl⟩
abbrev main_call26_v4 : Ref sig .tc := ⟨.hbm, 1735, rfl⟩
abbrev main_call26_c_1 : Ref sig .tc := ⟨.hbm, 1736, rfl⟩
abbrev main_call26_v5 : Ref sig .tc := ⟨.hbm, 1737, rfl⟩
abbrev main_call26_v6 : Ref sig .tc := ⟨.hbm, 1738, rfl⟩
abbrev main_call26_c_2 : Ref sig .tc := ⟨.hbm, 1739, rfl⟩
abbrev main_call26_v7 : Ref sig .tc := ⟨.hbm, 1740, rfl⟩
abbrev main_call26_v8 : Ref sig .tc := ⟨.hbm, 1741, rfl⟩
abbrev main_call26_c_3 : Ref sig .tc := ⟨.hbm, 1742, rfl⟩
abbrev main_call26_v9 : Ref sig .tc := ⟨.hbm, 1743, rfl⟩
abbrev main_call26_v10 : Ref sig .tc := ⟨.hbm, 1744, rfl⟩
abbrev main_call26_v11 : Ref sig .tc := ⟨.hbm, 1745, rfl⟩
abbrev main_call26_v12 : Ref sig .tc := ⟨.hbm, 1746, rfl⟩
abbrev main_call26_v13 : Ref sig .tc := ⟨.hbm, 1747, rfl⟩
abbrev main_call26_v14 : Ref sig .tc := ⟨.hbm, 1748, rfl⟩
abbrev main_v961 : Ref sig .tc := ⟨.hbm, 1749, rfl⟩
abbrev main_v962 : Ref sig .tc := ⟨.hbm, 1750, rfl⟩
abbrev main_v963 : Ref sig .tc := ⟨.hbm, 1751, rfl⟩
abbrev main_c_240 : Ref sig .tc := ⟨.hbm, 1752, rfl⟩
abbrev main_v964 : Ref sig .tc := ⟨.hbm, 1753, rfl⟩
abbrev main_v965 : Ref sig .tc := ⟨.hbm, 1754, rfl⟩
abbrev main_c_241 : Ref sig .tc := ⟨.hbm, 1755, rfl⟩
abbrev main_v966 : Ref sig .tc := ⟨.hbm, 1756, rfl⟩
abbrev main_v967 : Ref sig .tc := ⟨.hbm, 1757, rfl⟩
abbrev main_v968 : Ref sig .tc := ⟨.hbm, 1758, rfl⟩
abbrev main_c_242 : Ref sig .tc := ⟨.hbm, 1759, rfl⟩
abbrev main_v969 : Ref sig .tc := ⟨.hbm, 1760, rfl⟩
abbrev main_v970 : Ref sig .tc := ⟨.hbm, 1761, rfl⟩
abbrev main_v971 : Ref sig .tc := ⟨.hbm, 1762, rfl⟩
abbrev main_v972 : Ref sig .tc := ⟨.hbm, 1763, rfl⟩
abbrev main_v973 : Ref sig .tc := ⟨.hbm, 1764, rfl⟩
abbrev main_v974 : Ref sig .tc := ⟨.hbm, 1765, rfl⟩
abbrev main_v975 : Ref sig .tc := ⟨.hbm, 1766, rfl⟩
abbrev main_v976 : Ref sig .tc := ⟨.hbm, 1767, rfl⟩
abbrev main_v977 : Ref sig .tc := ⟨.hbm, 1768, rfl⟩
abbrev main_v978 : Ref sig .tc := ⟨.hbm, 1769, rfl⟩
abbrev main_v979 : Ref sig .tc := ⟨.hbm, 1770, rfl⟩
abbrev main_v980 : Ref sig .tc := ⟨.hbm, 1771, rfl⟩
abbrev main_v981 : Ref sig .tc := ⟨.hbm, 1772, rfl⟩
abbrev main_c_243 : Ref sig .tc := ⟨.hbm, 1773, rfl⟩
abbrev main_v982 : Ref sig .tc := ⟨.hbm, 1774, rfl⟩
abbrev main_v983 : Ref sig .tc := ⟨.hbm, 1775, rfl⟩
abbrev main_v984 : Ref sig .tc := ⟨.hbm, 1776, rfl⟩
abbrev main_v985 : Ref sig .tc := ⟨.hbm, 1777, rfl⟩
abbrev main_c_244 : Ref sig .tc := ⟨.hbm, 1778, rfl⟩
abbrev main_v986 : Ref sig .tc := ⟨.hbm, 1779, rfl⟩
abbrev main_v987 : Ref sig .tc := ⟨.hbm, 1780, rfl⟩
abbrev main_c_245 : Ref sig .tc := ⟨.hbm, 1781, rfl⟩
abbrev main_v988 : Ref sig .tc := ⟨.hbm, 1782, rfl⟩
abbrev main_v989 : Ref sig .tc := ⟨.hbm, 1783, rfl⟩
abbrev main_v990 : Ref sig .tc := ⟨.hbm, 1784, rfl⟩
abbrev main_c_246 : Ref sig .tc := ⟨.hbm, 1785, rfl⟩
abbrev main_call27_v0 : Ref sig .tc := ⟨.hbm, 1786, rfl⟩
abbrev main_call27_c : Ref sig .tc := ⟨.hbm, 1787, rfl⟩
abbrev main_call27_v1 : Ref sig .tc := ⟨.hbm, 1788, rfl⟩
abbrev main_call27_c_0 : Ref sig .tc := ⟨.hbm, 1789, rfl⟩
abbrev main_call27_v2 : Ref sig .tc := ⟨.hbm, 1790, rfl⟩
abbrev main_call27_v3 : Ref sig .tc := ⟨.hbm, 1791, rfl⟩
abbrev main_call27_v4 : Ref sig .tc := ⟨.hbm, 1792, rfl⟩
abbrev main_call27_c_1 : Ref sig .tc := ⟨.hbm, 1793, rfl⟩
abbrev main_call27_v5 : Ref sig .tc := ⟨.hbm, 1794, rfl⟩
abbrev main_call27_v6 : Ref sig .tc := ⟨.hbm, 1795, rfl⟩
abbrev main_call27_c_2 : Ref sig .tc := ⟨.hbm, 1796, rfl⟩
abbrev main_call27_v7 : Ref sig .tc := ⟨.hbm, 1797, rfl⟩
abbrev main_call27_v8 : Ref sig .tc := ⟨.hbm, 1798, rfl⟩
abbrev main_call27_c_3 : Ref sig .tc := ⟨.hbm, 1799, rfl⟩
abbrev main_call27_v9 : Ref sig .tc := ⟨.hbm, 1800, rfl⟩
abbrev main_call27_v10 : Ref sig .tc := ⟨.hbm, 1801, rfl⟩
abbrev main_call27_v11 : Ref sig .tc := ⟨.hbm, 1802, rfl⟩
abbrev main_call27_v12 : Ref sig .tc := ⟨.hbm, 1803, rfl⟩
abbrev main_call27_v13 : Ref sig .tc := ⟨.hbm, 1804, rfl⟩
abbrev main_call27_v14 : Ref sig .tc := ⟨.hbm, 1805, rfl⟩
abbrev main_v991 : Ref sig .tc := ⟨.hbm, 1806, rfl⟩
abbrev main_v992 : Ref sig .tc := ⟨.hbm, 1807, rfl⟩
abbrev main_v993 : Ref sig .tc := ⟨.hbm, 1808, rfl⟩
abbrev main_c_247 : Ref sig .tc := ⟨.hbm, 1809, rfl⟩
abbrev main_v994 : Ref sig .tc := ⟨.hbm, 1810, rfl⟩
abbrev main_v995 : Ref sig .tc := ⟨.hbm, 1811, rfl⟩
abbrev main_c_248 : Ref sig .tc := ⟨.hbm, 1812, rfl⟩
abbrev main_v996 : Ref sig .tc := ⟨.hbm, 1813, rfl⟩
abbrev main_v997 : Ref sig .tc := ⟨.hbm, 1814, rfl⟩
abbrev main_v998 : Ref sig .tc := ⟨.hbm, 1815, rfl⟩
abbrev main_c_249 : Ref sig .tc := ⟨.hbm, 1816, rfl⟩
abbrev main_v999 : Ref sig .tc := ⟨.hbm, 1817, rfl⟩
abbrev main_v1000 : Ref sig .tc := ⟨.hbm, 1818, rfl⟩
abbrev main_v1001 : Ref sig .tc := ⟨.hbm, 1819, rfl⟩
abbrev main_v1002 : Ref sig .tc := ⟨.hbm, 1820, rfl⟩
abbrev main_v1003 : Ref sig .tc := ⟨.hbm, 1821, rfl⟩
abbrev main_v1004 : Ref sig .tc := ⟨.hbm, 1822, rfl⟩
abbrev main_v1005 : Ref sig .tc := ⟨.hbm, 1823, rfl⟩
abbrev main_v1006 : Ref sig .tc := ⟨.hbm, 1824, rfl⟩
abbrev main_v1007 : Ref sig .tc := ⟨.hbm, 1825, rfl⟩
abbrev main_cst_250 : Ref sig .tc := ⟨.hbm, 1826, rfl⟩
abbrev main_v1008 : Ref sig .tc := ⟨.hbm, 1827, rfl⟩
abbrev main_v1009 : Ref sig .tc := ⟨.hbm, 1828, rfl⟩
abbrev main_cst_251 : Ref sig .tc := ⟨.hbm, 1829, rfl⟩
abbrev main_v1010 : Ref sig .tc := ⟨.hbm, 1830, rfl⟩
abbrev main_v1011 : Ref sig .tc := ⟨.hbm, 1831, rfl⟩
abbrev main_v1012 : Ref sig .tc := ⟨.hbm, 1832, rfl⟩
abbrev main_v1013 : Ref sig .tc := ⟨.hbm, 1833, rfl⟩
abbrev main_v1014 : Ref sig .tc := ⟨.hbm, 1834, rfl⟩
abbrev main_v1015 : Ref sig .tc := ⟨.hbm, 1835, rfl⟩
abbrev main_cst_252 : Ref sig .tc := ⟨.hbm, 1836, rfl⟩
abbrev main_v1016 : Ref sig .tc := ⟨.hbm, 1837, rfl⟩
abbrev main_v1017 : Ref sig .tc := ⟨.hbm, 1838, rfl⟩
abbrev main_cst_253 : Ref sig .tc := ⟨.hbm, 1839, rfl⟩
abbrev main_v1018 : Ref sig .tc := ⟨.hbm, 1840, rfl⟩
abbrev main_v1019 : Ref sig .tc := ⟨.hbm, 1841, rfl⟩
abbrev main_v1020 : Ref sig .tc := ⟨.hbm, 1842, rfl⟩
abbrev main_cst_254 : Ref sig .tc := ⟨.hbm, 1843, rfl⟩
abbrev main_v1021 : Ref sig .tc := ⟨.hbm, 1844, rfl⟩
abbrev main_v1022 : Ref sig .tc := ⟨.hbm, 1845, rfl⟩
abbrev main_v1023 : Ref sig .tc := ⟨.hbm, 1846, rfl⟩
abbrev main_cst_255 : Ref sig .tc := ⟨.hbm, 1847, rfl⟩
abbrev main_v1024 : Ref sig .tc := ⟨.hbm, 1848, rfl⟩
abbrev main_v1025 : Ref sig .tc := ⟨.hbm, 1849, rfl⟩
abbrev main_v1026 : Ref sig .tc := ⟨.hbm, 1850, rfl⟩
abbrev main_v1027 : Ref sig .tc := ⟨.hbm, 1851, rfl⟩
abbrev main_cst_256 : Ref sig .tc := ⟨.hbm, 1852, rfl⟩
abbrev main_v1028 : Ref sig .tc := ⟨.hbm, 1853, rfl⟩
abbrev main_v1029 : Ref sig .tc := ⟨.hbm, 1854, rfl⟩
abbrev main_v1030 : Ref sig .tc := ⟨.hbm, 1855, rfl⟩
abbrev main_v1031 : Ref sig .tc := ⟨.hbm, 1856, rfl⟩
abbrev main_c_257 : Ref sig .tc := ⟨.hbm, 1857, rfl⟩
abbrev main_v1032 : Ref sig .tc := ⟨.hbm, 1858, rfl⟩
abbrev main_v1033 : Ref sig .tc := ⟨.hbm, 1859, rfl⟩
abbrev main_v1034 : Ref sig .tc := ⟨.hbm, 1860, rfl⟩
abbrev main_v1035 : Ref sig .tc := ⟨.hbm, 1861, rfl⟩
abbrev main_c_258 : Ref sig .tc := ⟨.hbm, 1862, rfl⟩
abbrev main_v1036 : Ref sig .tc := ⟨.hbm, 1863, rfl⟩
abbrev main_v1037 : Ref sig .tc := ⟨.hbm, 1864, rfl⟩
abbrev main_c_259 : Ref sig .tc := ⟨.hbm, 1865, rfl⟩
abbrev main_v1038 : Ref sig .tc := ⟨.hbm, 1866, rfl⟩
abbrev main_v1039 : Ref sig .tc := ⟨.hbm, 1867, rfl⟩
abbrev main_v1040 : Ref sig .tc := ⟨.hbm, 1868, rfl⟩
abbrev main_c_260 : Ref sig .tc := ⟨.hbm, 1869, rfl⟩
abbrev main_call28_v0 : Ref sig .tc := ⟨.hbm, 1870, rfl⟩
abbrev main_call28_c : Ref sig .tc := ⟨.hbm, 1871, rfl⟩
abbrev main_call28_v1 : Ref sig .tc := ⟨.hbm, 1872, rfl⟩
abbrev main_call28_c_0 : Ref sig .tc := ⟨.hbm, 1873, rfl⟩
abbrev main_call28_v2 : Ref sig .tc := ⟨.hbm, 1874, rfl⟩
abbrev main_call28_v3 : Ref sig .tc := ⟨.hbm, 1875, rfl⟩
abbrev main_call28_v4 : Ref sig .tc := ⟨.hbm, 1876, rfl⟩
abbrev main_call28_c_1 : Ref sig .tc := ⟨.hbm, 1877, rfl⟩
abbrev main_call28_v5 : Ref sig .tc := ⟨.hbm, 1878, rfl⟩
abbrev main_call28_v6 : Ref sig .tc := ⟨.hbm, 1879, rfl⟩
abbrev main_call28_c_2 : Ref sig .tc := ⟨.hbm, 1880, rfl⟩
abbrev main_call28_v7 : Ref sig .tc := ⟨.hbm, 1881, rfl⟩
abbrev main_call28_v8 : Ref sig .tc := ⟨.hbm, 1882, rfl⟩
abbrev main_call28_c_3 : Ref sig .tc := ⟨.hbm, 1883, rfl⟩
abbrev main_call28_v9 : Ref sig .tc := ⟨.hbm, 1884, rfl⟩
abbrev main_call28_v10 : Ref sig .tc := ⟨.hbm, 1885, rfl⟩
abbrev main_call28_v11 : Ref sig .tc := ⟨.hbm, 1886, rfl⟩
abbrev main_call28_v12 : Ref sig .tc := ⟨.hbm, 1887, rfl⟩
abbrev main_call28_v13 : Ref sig .tc := ⟨.hbm, 1888, rfl⟩
abbrev main_call28_v14 : Ref sig .tc := ⟨.hbm, 1889, rfl⟩
abbrev main_v1041 : Ref sig .tc := ⟨.hbm, 1890, rfl⟩
abbrev main_v1042 : Ref sig .tc := ⟨.hbm, 1891, rfl⟩
abbrev main_v1043 : Ref sig .tc := ⟨.hbm, 1892, rfl⟩
abbrev main_c_261 : Ref sig .tc := ⟨.hbm, 1893, rfl⟩
abbrev main_v1044 : Ref sig .tc := ⟨.hbm, 1894, rfl⟩
abbrev main_v1045 : Ref sig .tc := ⟨.hbm, 1895, rfl⟩
abbrev main_c_262 : Ref sig .tc := ⟨.hbm, 1896, rfl⟩
abbrev main_v1046 : Ref sig .tc := ⟨.hbm, 1897, rfl⟩
abbrev main_v1047 : Ref sig .tc := ⟨.hbm, 1898, rfl⟩
abbrev main_v1048 : Ref sig .tc := ⟨.hbm, 1899, rfl⟩
abbrev main_c_263 : Ref sig .tc := ⟨.hbm, 1900, rfl⟩
abbrev main_v1049 : Ref sig .tc := ⟨.hbm, 1901, rfl⟩
abbrev main_v1050 : Ref sig .tc := ⟨.hbm, 1902, rfl⟩
abbrev main_v1051 : Ref sig .tc := ⟨.hbm, 1903, rfl⟩
abbrev main_v1052 : Ref sig .tc := ⟨.hbm, 1904, rfl⟩
abbrev main_v1053 : Ref sig .tc := ⟨.hbm, 1905, rfl⟩
abbrev main_v1054 : Ref sig .tc := ⟨.hbm, 1906, rfl⟩
abbrev main_v1055 : Ref sig .tc := ⟨.hbm, 1907, rfl⟩
abbrev main_v1056 : Ref sig .tc := ⟨.hbm, 1908, rfl⟩
abbrev main_v1057 : Ref sig .tc := ⟨.hbm, 1909, rfl⟩
abbrev main_v1058 : Ref sig .tc := ⟨.hbm, 1910, rfl⟩
abbrev main_v1059 : Ref sig .tc := ⟨.hbm, 1911, rfl⟩
abbrev main_v1060 : Ref sig .tc := ⟨.hbm, 1912, rfl⟩
abbrev main_v1061 : Ref sig .tc := ⟨.hbm, 1913, rfl⟩
abbrev main_c_264 : Ref sig .tc := ⟨.hbm, 1914, rfl⟩
abbrev main_v1062 : Ref sig .tc := ⟨.hbm, 1915, rfl⟩
abbrev main_v1063 : Ref sig .tc := ⟨.hbm, 1916, rfl⟩
abbrev main_v1064 : Ref sig .tc := ⟨.hbm, 1917, rfl⟩
abbrev main_v1065 : Ref sig .tc := ⟨.hbm, 1918, rfl⟩
abbrev main_c_265 : Ref sig .tc := ⟨.hbm, 1919, rfl⟩
abbrev main_v1066 : Ref sig .tc := ⟨.hbm, 1920, rfl⟩
abbrev main_v1067 : Ref sig .tc := ⟨.hbm, 1921, rfl⟩
abbrev main_c_266 : Ref sig .tc := ⟨.hbm, 1922, rfl⟩
abbrev main_v1068 : Ref sig .tc := ⟨.hbm, 1923, rfl⟩
abbrev main_v1069 : Ref sig .tc := ⟨.hbm, 1924, rfl⟩
abbrev main_v1070 : Ref sig .tc := ⟨.hbm, 1925, rfl⟩
abbrev main_c_267 : Ref sig .tc := ⟨.hbm, 1926, rfl⟩
abbrev main_call29_v0 : Ref sig .tc := ⟨.hbm, 1927, rfl⟩
abbrev main_call29_c : Ref sig .tc := ⟨.hbm, 1928, rfl⟩
abbrev main_call29_v1 : Ref sig .tc := ⟨.hbm, 1929, rfl⟩
abbrev main_call29_c_0 : Ref sig .tc := ⟨.hbm, 1930, rfl⟩
abbrev main_call29_v2 : Ref sig .tc := ⟨.hbm, 1931, rfl⟩
abbrev main_call29_v3 : Ref sig .tc := ⟨.hbm, 1932, rfl⟩
abbrev main_call29_v4 : Ref sig .tc := ⟨.hbm, 1933, rfl⟩
abbrev main_call29_c_1 : Ref sig .tc := ⟨.hbm, 1934, rfl⟩
abbrev main_call29_v5 : Ref sig .tc := ⟨.hbm, 1935, rfl⟩
abbrev main_call29_v6 : Ref sig .tc := ⟨.hbm, 1936, rfl⟩
abbrev main_call29_c_2 : Ref sig .tc := ⟨.hbm, 1937, rfl⟩
abbrev main_call29_v7 : Ref sig .tc := ⟨.hbm, 1938, rfl⟩
abbrev main_call29_v8 : Ref sig .tc := ⟨.hbm, 1939, rfl⟩
abbrev main_call29_c_3 : Ref sig .tc := ⟨.hbm, 1940, rfl⟩
abbrev main_call29_v9 : Ref sig .tc := ⟨.hbm, 1941, rfl⟩
abbrev main_call29_v10 : Ref sig .tc := ⟨.hbm, 1942, rfl⟩
abbrev main_call29_v11 : Ref sig .tc := ⟨.hbm, 1943, rfl⟩
abbrev main_call29_v12 : Ref sig .tc := ⟨.hbm, 1944, rfl⟩
abbrev main_call29_v13 : Ref sig .tc := ⟨.hbm, 1945, rfl⟩
abbrev main_call29_v14 : Ref sig .tc := ⟨.hbm, 1946, rfl⟩
abbrev main_v1071 : Ref sig .tc := ⟨.hbm, 1947, rfl⟩
abbrev main_v1072 : Ref sig .tc := ⟨.hbm, 1948, rfl⟩
abbrev main_v1073 : Ref sig .tc := ⟨.hbm, 1949, rfl⟩
abbrev main_c_268 : Ref sig .tc := ⟨.hbm, 1950, rfl⟩
abbrev main_v1074 : Ref sig .tc := ⟨.hbm, 1951, rfl⟩
abbrev main_v1075 : Ref sig .tc := ⟨.hbm, 1952, rfl⟩
abbrev main_c_269 : Ref sig .tc := ⟨.hbm, 1953, rfl⟩
abbrev main_v1076 : Ref sig .tc := ⟨.hbm, 1954, rfl⟩
abbrev main_v1077 : Ref sig .tc := ⟨.hbm, 1955, rfl⟩
abbrev main_v1078 : Ref sig .tc := ⟨.hbm, 1956, rfl⟩
abbrev main_c_270 : Ref sig .tc := ⟨.hbm, 1957, rfl⟩
abbrev main_v1079 : Ref sig .tc := ⟨.hbm, 1958, rfl⟩
abbrev main_v1080 : Ref sig .tc := ⟨.hbm, 1959, rfl⟩
abbrev main_v1081 : Ref sig .tc := ⟨.hbm, 1960, rfl⟩
abbrev main_v1082 : Ref sig .tc := ⟨.hbm, 1961, rfl⟩
abbrev main_v1083 : Ref sig .tc := ⟨.hbm, 1962, rfl⟩
abbrev main_v1084 : Ref sig .tc := ⟨.hbm, 1963, rfl⟩
abbrev main_v1085 : Ref sig .tc := ⟨.hbm, 1964, rfl⟩
abbrev main_v1086 : Ref sig .tc := ⟨.hbm, 1965, rfl⟩
abbrev main_v1087 : Ref sig .tc := ⟨.hbm, 1966, rfl⟩
abbrev main_v1088 : Ref sig .tc := ⟨.hbm, 1967, rfl⟩
abbrev main_v1089 : Ref sig .tc := ⟨.hbm, 1968, rfl⟩
abbrev main_v1090 : Ref sig .tc := ⟨.hbm, 1969, rfl⟩
abbrev main_v1091 : Ref sig .tc := ⟨.hbm, 1970, rfl⟩
abbrev main_cst_271 : Ref sig .tc := ⟨.hbm, 1971, rfl⟩
abbrev main_v1092 : Ref sig .tc := ⟨.hbm, 1972, rfl⟩
abbrev main_v1093 : Ref sig .tc := ⟨.hbm, 1973, rfl⟩
abbrev main_v1094 : Ref sig .tc := ⟨.hbm, 1974, rfl⟩
abbrev main_v1095 : Ref sig .tc := ⟨.hbm, 1975, rfl⟩
abbrev main_c_272 : Ref sig .tc := ⟨.hbm, 1976, rfl⟩
abbrev main_v1096 : Ref sig .tc := ⟨.hbm, 1977, rfl⟩
abbrev main_v1097 : Ref sig .tc := ⟨.hbm, 1978, rfl⟩
abbrev main_v1098 : Ref sig .tc := ⟨.hbm, 1979, rfl⟩
abbrev main_v1099 : Ref sig .tc := ⟨.hbm, 1980, rfl⟩
abbrev main_c_273 : Ref sig .tc := ⟨.hbm, 1981, rfl⟩
abbrev main_v1100 : Ref sig .tc := ⟨.hbm, 1982, rfl⟩
abbrev main_v1101 : Ref sig .tc := ⟨.hbm, 1983, rfl⟩
abbrev main_c_274 : Ref sig .tc := ⟨.hbm, 1984, rfl⟩
abbrev main_v1102 : Ref sig .tc := ⟨.hbm, 1985, rfl⟩
abbrev main_v1103 : Ref sig .tc := ⟨.hbm, 1986, rfl⟩
abbrev main_v1104 : Ref sig .tc := ⟨.hbm, 1987, rfl⟩
abbrev main_c_275 : Ref sig .tc := ⟨.hbm, 1988, rfl⟩
abbrev main_call30_v0 : Ref sig .tc := ⟨.hbm, 1989, rfl⟩
abbrev main_call30_c : Ref sig .tc := ⟨.hbm, 1990, rfl⟩
abbrev main_call30_v1 : Ref sig .tc := ⟨.hbm, 1991, rfl⟩
abbrev main_call30_c_0 : Ref sig .tc := ⟨.hbm, 1992, rfl⟩
abbrev main_call30_v2 : Ref sig .tc := ⟨.hbm, 1993, rfl⟩
abbrev main_call30_v3 : Ref sig .tc := ⟨.hbm, 1994, rfl⟩
abbrev main_call30_v4 : Ref sig .tc := ⟨.hbm, 1995, rfl⟩
abbrev main_call30_c_1 : Ref sig .tc := ⟨.hbm, 1996, rfl⟩
abbrev main_call30_v5 : Ref sig .tc := ⟨.hbm, 1997, rfl⟩
abbrev main_call30_v6 : Ref sig .tc := ⟨.hbm, 1998, rfl⟩
abbrev main_call30_c_2 : Ref sig .tc := ⟨.hbm, 1999, rfl⟩
abbrev main_call30_v7 : Ref sig .tc := ⟨.hbm, 2000, rfl⟩
abbrev main_call30_v8 : Ref sig .tc := ⟨.hbm, 2001, rfl⟩
abbrev main_call30_c_3 : Ref sig .tc := ⟨.hbm, 2002, rfl⟩
abbrev main_call30_v9 : Ref sig .tc := ⟨.hbm, 2003, rfl⟩
abbrev main_call30_v10 : Ref sig .tc := ⟨.hbm, 2004, rfl⟩
abbrev main_call30_v11 : Ref sig .tc := ⟨.hbm, 2005, rfl⟩
abbrev main_call30_v12 : Ref sig .tc := ⟨.hbm, 2006, rfl⟩
abbrev main_call30_v13 : Ref sig .tc := ⟨.hbm, 2007, rfl⟩
abbrev main_call30_v14 : Ref sig .tc := ⟨.hbm, 2008, rfl⟩
abbrev main_v1105 : Ref sig .tc := ⟨.hbm, 2009, rfl⟩
abbrev main_v1106 : Ref sig .tc := ⟨.hbm, 2010, rfl⟩
abbrev main_v1107 : Ref sig .tc := ⟨.hbm, 2011, rfl⟩
abbrev main_c_276 : Ref sig .tc := ⟨.hbm, 2012, rfl⟩
abbrev main_v1108 : Ref sig .tc := ⟨.hbm, 2013, rfl⟩
abbrev main_v1109 : Ref sig .tc := ⟨.hbm, 2014, rfl⟩
abbrev main_c_277 : Ref sig .tc := ⟨.hbm, 2015, rfl⟩
abbrev main_v1110 : Ref sig .tc := ⟨.hbm, 2016, rfl⟩
abbrev main_v1111 : Ref sig .tc := ⟨.hbm, 2017, rfl⟩
abbrev main_v1112 : Ref sig .tc := ⟨.hbm, 2018, rfl⟩
abbrev main_c_278 : Ref sig .tc := ⟨.hbm, 2019, rfl⟩
abbrev main_v1113 : Ref sig .tc := ⟨.hbm, 2020, rfl⟩
abbrev main_v1114 : Ref sig .tc := ⟨.hbm, 2021, rfl⟩
abbrev main_v1115 : Ref sig .tc := ⟨.hbm, 2022, rfl⟩
abbrev main_v1116 : Ref sig .tc := ⟨.hbm, 2023, rfl⟩
abbrev main_v1117 : Ref sig .tc := ⟨.hbm, 2024, rfl⟩
abbrev main_v1118 : Ref sig .tc := ⟨.hbm, 2025, rfl⟩
abbrev main_v1119 : Ref sig .tc := ⟨.hbm, 2026, rfl⟩
abbrev main_v1120 : Ref sig .tc := ⟨.hbm, 2027, rfl⟩
abbrev main_v1121 : Ref sig .tc := ⟨.hbm, 2028, rfl⟩
abbrev main_v1122 : Ref sig .tc := ⟨.hbm, 2029, rfl⟩
abbrev main_v1123 : Ref sig .tc := ⟨.hbm, 2030, rfl⟩
abbrev main_v1124 : Ref sig .tc := ⟨.hbm, 2031, rfl⟩
abbrev main_v1125 : Ref sig .tc := ⟨.hbm, 2032, rfl⟩
abbrev main_c_279 : Ref sig .tc := ⟨.hbm, 2033, rfl⟩
abbrev main_v1126 : Ref sig .tc := ⟨.hbm, 2034, rfl⟩
abbrev main_v1127 : Ref sig .tc := ⟨.hbm, 2035, rfl⟩
abbrev main_v1128 : Ref sig .tc := ⟨.hbm, 2036, rfl⟩
abbrev main_v1129 : Ref sig .tc := ⟨.hbm, 2037, rfl⟩
abbrev main_c_280 : Ref sig .tc := ⟨.hbm, 2038, rfl⟩
abbrev main_v1130 : Ref sig .tc := ⟨.hbm, 2039, rfl⟩
abbrev main_v1131 : Ref sig .tc := ⟨.hbm, 2040, rfl⟩
abbrev main_c_281 : Ref sig .tc := ⟨.hbm, 2041, rfl⟩
abbrev main_v1132 : Ref sig .tc := ⟨.hbm, 2042, rfl⟩
abbrev main_v1133 : Ref sig .tc := ⟨.hbm, 2043, rfl⟩
abbrev main_v1134 : Ref sig .tc := ⟨.hbm, 2044, rfl⟩
abbrev main_c_282 : Ref sig .tc := ⟨.hbm, 2045, rfl⟩
abbrev main_call31_v0 : Ref sig .tc := ⟨.hbm, 2046, rfl⟩
abbrev main_call31_c : Ref sig .tc := ⟨.hbm, 2047, rfl⟩
abbrev main_call31_v1 : Ref sig .tc := ⟨.hbm, 2048, rfl⟩
abbrev main_call31_c_0 : Ref sig .tc := ⟨.hbm, 2049, rfl⟩
abbrev main_call31_v2 : Ref sig .tc := ⟨.hbm, 2050, rfl⟩
abbrev main_call31_v3 : Ref sig .tc := ⟨.hbm, 2051, rfl⟩
abbrev main_call31_v4 : Ref sig .tc := ⟨.hbm, 2052, rfl⟩
abbrev main_call31_c_1 : Ref sig .tc := ⟨.hbm, 2053, rfl⟩
abbrev main_call31_v5 : Ref sig .tc := ⟨.hbm, 2054, rfl⟩
abbrev main_call31_v6 : Ref sig .tc := ⟨.hbm, 2055, rfl⟩
abbrev main_call31_c_2 : Ref sig .tc := ⟨.hbm, 2056, rfl⟩
abbrev main_call31_v7 : Ref sig .tc := ⟨.hbm, 2057, rfl⟩
abbrev main_call31_v8 : Ref sig .tc := ⟨.hbm, 2058, rfl⟩
abbrev main_call31_c_3 : Ref sig .tc := ⟨.hbm, 2059, rfl⟩
abbrev main_call31_v9 : Ref sig .tc := ⟨.hbm, 2060, rfl⟩
abbrev main_call31_v10 : Ref sig .tc := ⟨.hbm, 2061, rfl⟩
abbrev main_call31_v11 : Ref sig .tc := ⟨.hbm, 2062, rfl⟩
abbrev main_call31_v12 : Ref sig .tc := ⟨.hbm, 2063, rfl⟩
abbrev main_call31_v13 : Ref sig .tc := ⟨.hbm, 2064, rfl⟩
abbrev main_call31_v14 : Ref sig .tc := ⟨.hbm, 2065, rfl⟩
abbrev main_v1135 : Ref sig .tc := ⟨.hbm, 2066, rfl⟩
abbrev main_v1136 : Ref sig .tc := ⟨.hbm, 2067, rfl⟩
abbrev main_v1137 : Ref sig .tc := ⟨.hbm, 2068, rfl⟩
abbrev main_c_283 : Ref sig .tc := ⟨.hbm, 2069, rfl⟩
abbrev main_v1138 : Ref sig .tc := ⟨.hbm, 2070, rfl⟩
abbrev main_v1139 : Ref sig .tc := ⟨.hbm, 2071, rfl⟩
abbrev main_c_284 : Ref sig .tc := ⟨.hbm, 2072, rfl⟩
abbrev main_v1140 : Ref sig .tc := ⟨.hbm, 2073, rfl⟩
abbrev main_v1141 : Ref sig .tc := ⟨.hbm, 2074, rfl⟩
abbrev main_v1142 : Ref sig .tc := ⟨.hbm, 2075, rfl⟩
abbrev main_c_285 : Ref sig .tc := ⟨.hbm, 2076, rfl⟩
abbrev main_v1143 : Ref sig .tc := ⟨.hbm, 2077, rfl⟩
abbrev main_v1144 : Ref sig .tc := ⟨.hbm, 2078, rfl⟩
abbrev main_v1145 : Ref sig .tc := ⟨.hbm, 2079, rfl⟩
abbrev main_v1146 : Ref sig .tc := ⟨.hbm, 2080, rfl⟩
abbrev main_v1147 : Ref sig .tc := ⟨.hbm, 2081, rfl⟩
abbrev main_v1148 : Ref sig .tc := ⟨.hbm, 2082, rfl⟩
abbrev main_v1149 : Ref sig .tc := ⟨.hbm, 2083, rfl⟩
abbrev main_v1150 : Ref sig .tc := ⟨.hbm, 2084, rfl⟩
abbrev main_v1151 : Ref sig .tc := ⟨.hbm, 2085, rfl⟩
abbrev main_v1152 : Ref sig .tc := ⟨.hbm, 2086, rfl⟩
abbrev main_v1153 : Ref sig .tc := ⟨.hbm, 2087, rfl⟩
abbrev main_call32_cst : Ref sig .tc := ⟨.hbm, 2088, rfl⟩
abbrev main_call32_v0 : Ref sig .tc := ⟨.hbm, 2089, rfl⟩
abbrev main_v1154 : Ref sig .tc := ⟨.hbm, 2090, rfl⟩
abbrev main_v1155 : Ref sig .tc := ⟨.hbm, 2091, rfl⟩
abbrev main_call33_cst : Ref sig .tc := ⟨.hbm, 2092, rfl⟩
abbrev main_call33_v0 : Ref sig .tc := ⟨.hbm, 2093, rfl⟩
abbrev main_v1156 : Ref sig .tc := ⟨.hbm, 2094, rfl⟩
abbrev main_v1157 : Ref sig .tc := ⟨.hbm, 2095, rfl⟩
abbrev main_call34_cst : Ref sig .tc := ⟨.hbm, 2096, rfl⟩
abbrev main_call34_v0 : Ref sig .tc := ⟨.hbm, 2097, rfl⟩
abbrev main_v1158 : Ref sig .tc := ⟨.hbm, 2098, rfl⟩
abbrev main_v1159 : Ref sig .tc := ⟨.hbm, 2099, rfl⟩

abbrev nD : Nat := 1
abbrev τ : Topo := Topo.v7x

variable {F : FTy → Type} [FloatOps F]

class Facts₀ : Prop where
  bcast_S_S262144x2 : S_.BroadcastsInDim S262144x2 (![] : Fin 0 → Fin S262144x2.rank)
  bcast_S_S262144x8 : S_.BroadcastsInDim S262144x8 (![] : Fin 0 → Fin S262144x8.rank)
  slices_S262144x2_S262144x1_0_0 : S262144x2.Slices ![0, 0] S262144x1
  shapeCasts_S262144x1_S262144 : S262144x1.ShapeCasts S262144
  bcast_S_S262144 : S_.BroadcastsInDim S262144 (![] : Fin 0 → Fin S262144.rank)
  slices_S262144x2_S262144x1_0_1 : S262144x2.Slices ![0, 1] S262144x1
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S262144x1_S262144x8_0_1 : S262144x1.BroadcastsInDim S262144x8 (![0, 1] : Fin 2 → Fin S262144x8.rank)
  concatenates_S262144x8_S262144x8_S262144x8_S262144x8_S262144x8_S262144x8_S262144x8_S262144x8_S262144x64_d1 : Shape.Concatenates [S262144x8, S262144x8, S262144x8, S262144x8, S262144x8, S262144x8, S262144x8, S262144x8] S262144x64 1
  bcast_S_S262144x256 : S_.BroadcastsInDim S262144x256 (![] : Fin 0 → Fin S262144x256.rank)
  gather_S8x8192x8_S262144x2_S262144x8_1_01_n_n_01_1_118_wf : GatherDims.WF S8x8192x8 S262144x2 S262144x8 [1] [0, 1] [] [0, 1] [] 1 ![1, 1, 8]
  dot_S262144x64_S64x256_S262144x256_1_0_0_1_n_n_wf : DotDims.WF S262144x64 S64x256 S262144x256 [1] [0] [0] [1] [] []
  dot_S262144x256_S256x256_S262144x256_1_0_0_1_n_n_wf : DotDims.WF S262144x256 S256x256 S262144x256 [1] [0] [0] [1] [] []
  dot_S262144x256_S256x1_S262144x1_1_0_0_1_n_n_wf : DotDims.WF S262144x256 S256x1 S262144x1 [1] [0] [0] [1] [] []

variable [Facts₀]

def gather_S8x8192x8_S262144x2_S262144x8_1_01_n_n_01_1_118 : GatherDims S8x8192x8 S262144x2 S262144x8 where
  offsetDims := [1]
  collapsedSliceDims := [0, 1]
  operandBatchingDims := []
  startIndicesBatchingDims := []
  startIndexMap := [0, 1]
  indexVectorDim := 1
  sliceSizes := ![1, 1, 8]
  wf := gather_S8x8192x8_S262144x2_S262144x8_1_01_n_n_01_1_118_wf
def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf

class Facts : Prop extends Facts₀ where

variable [Facts]
-- ==== Proof.Spec.lean ====
-- What both programs compute, over the extended reals and 32-bit words: a point's feature on each of eight lattices, as the four-corner sum and as the one-hot double sum, and the dense network on the 64 features.
import Idealize.ShloMosaic.PureOps.Ideal
import Idealize.ShloMosaic.Lib.ValueIdx

noncomputable section

open scoped BigOperators

namespace Cert.Spec

open Idealize.ShloMosaic Idealize.ShloMosaic.ValueIdx

abbrev wZero : EReal := Ideal.ofBits .f32 0x00000000#32
abbrev wHalf : EReal := Ideal.ofBits .f32 0x3F000000#32
abbrev wOne : EReal := Ideal.ofBits .f32 0x3F800000#32
abbrev wTwo : EReal := Ideal.ofBits .f32 0x40000000#32
abbrev wThree : EReal := Ideal.ofBits .f32 0x40400000#32

def pos (s : BitVec 32) (x : EReal) : EReal := x * Ideal.ofBits .f32 s + wHalf

def cellF (s : BitVec 32) (x : EReal) : EReal := Ideal.liftRound Int.floor (pos s x)

def cell (s : BitVec 32) (x : EReal) : BitVec 32 := Ideal.fptosi 32 (cellF s x)

def frac (s : BitVec 32) (x : EReal) : EReal := pos s x - cellF s x

def wgt (s : BitVec 32) (x : EReal) : EReal := (frac s x * frac s x) * (wThree - wTwo * frac s x)

def floorMod (size i : BitVec 32) : BitVec 32 :=
  let d : BitVec 32 := Scalar.select (IntOp.cmpi .eq size 0#32) 1#32 size
  let r : BitVec 32 := IntOp.remsi .host i d
  Scalar.select (IntOp.andi (IntOp.cmpi .ne (IntOp.cmpi .slt r 0#32) (IntOp.cmpi .slt d 0#32)) (IntOp.cmpi .ne r 0#32))
    (IntOp.addi r d) r

def fixNeg (r : BitVec 32) : BitVec 32 := Scalar.select (IntOp.cmpi .slt r 0#32) (IntOp.addi r 8192#32) r

def rowOf (size i : BitVec 32) : BitVec 32 := fixNeg (floorMod size i)

def clampRow (r : BitVec 32) : Fin 8192 := ⟨min r.toInt.toNat 8191, by omega⟩

def tab (T : (⟨3, ![8, 8192, 8]⟩ : Shape).Idx → EReal) (l : Fin 8) (r : BitVec 32) (f : Fin 8) : EReal :=
  T (ix3 l (clampRow r) f)

def nodeOf (res cx cy dx dy : BitVec 32) : BitVec 32 :=
  IntOp.addi (IntOp.addi cx dx) (IntOp.muli (IntOp.addi cy dy) res)

def fourCorners (N : Fin 2 → Fin 2 → EReal) (wx wy : EReal) : EReal :=
  (((wZero + ((wOne - wx) * (wOne - wy)) * N 0 0) + ((wOne - wx) * wy) * N 0 1) + (wx * (wOne - wy)) * N 1 0)
    + (wx * wy) * N 1 1

def featRef (T : (⟨3, ![8, 8192, 8]⟩ : Shape).Idx → EReal) (l : Fin 8) (res size cx cy : BitVec 32) (wx wy : EReal)
    (f : Fin 8) : EReal :=
  fourCorners (fun dx dy => tab T l (rowOf size (nodeOf res cx cy (BitVec.ofNat 32 dx.val) (BitVec.ofNat 32 dy.val))) f) wx wy

def hot (g : BitVec 32) (w : EReal) (a : BitVec 32) : EReal :=
  Scalar.select (IntOp.cmpi .eq a g) (wOne - w) wZero + Scalar.select (IntOp.cmpi .eq a (IntOp.addi g 1#32)) w wZero

def featKerM {R : ℕ} (M : Fin R → Fin R → EReal) (cx cy : BitVec 32) (wx wy : EReal) : EReal :=
  ∑ b : Fin R, hot cy wy (BitVec.ofNat 32 b.val) * ∑ a : Fin R, hot cx wx (BitVec.ofNat 32 a.val) * M a b

def latt (T : (⟨3, ![8, 8192, 8]⟩ : Shape).Idx → EReal) (l : Fin 8) (res size : BitVec 32) (R : ℕ) (f : Fin 8)
    (a b : Fin R) : EReal :=
  tab T l (rowOf size (IntOp.addi (BitVec.ofNat 32 a.val) (IntOp.muli (BitVec.ofNat 32 b.val) res))) f

def lvlRef (T : (⟨3, ![8, 8192, 8]⟩ : Shape).Idx → EReal) (l : Fin 8) (s res size : BitVec 32) (x y : EReal) (f : Fin 8) : EReal :=
  featRef T l res size (cell s x) (cell s y) (wgt s x) (wgt s y) f

def lvlKer (T : (⟨3, ![8, 8192, 8]⟩ : Shape).Idx → EReal) (l : Fin 8) (s res size : BitVec 32) (R : ℕ) (x y : EReal) (f : Fin 8) : EReal :=
  featKerM (R := R) (fun a b => latt T l res size R f a b) (cell s x) (cell s y) (wgt s x) (wgt s y)

def enc8 (e0 e1 e2 e3 e4 e5 e6 e7 : Fin 8 → EReal) (j : Fin 64) : EReal :=
  match j.val / 8 with
  | 0 => e0 ⟨j.val % 8, by omega⟩ | 1 => e1 ⟨j.val % 8, by omega⟩ | 2 => e2 ⟨j.val % 8, by omega⟩ | 3 => e3 ⟨j.val % 8, by omega⟩
  | 4 => e4 ⟨j.val % 8, by omega⟩ | 5 => e5 ⟨j.val % 8, by omega⟩ | 6 => e6 ⟨j.val % 8, by omega⟩ | _ => e7 ⟨j.val % 8, by omega⟩

def encRef (T : (⟨3, ![8, 8192, 8]⟩ : Shape).Idx → EReal) (x y : EReal) : Fin 64 → EReal :=
  enc8 (lvlRef T 0 0x41700000#32 16#32 256#32 x y)
    (lvlRef T 1 0x41994518#32 21#32 448#32 x y)
    (lvlRef T 2 0x41C32FF6#32 26#32 680#32 x y)
    (lvlRef T 3 0x41F80001#32 33#32 1096#32 x y)
    (lvlRef T 4 0x421D4519#32 41#32 1688#32 x y)
    (lvlRef T 5 0x42472FF6#32 51#32 2608#32 x y)
    (lvlRef T 6 0x427C0002#32 65#32 4232#32 x y)
    (lvlRef T 7 0x429F4519#32 81#32 6568#32 x y)

def encKer (T : (⟨3, ![8, 8192, 8]⟩ : Shape).Idx → EReal) (x y : EReal) : Fin 64 → EReal :=
  enc8 (lvlKer T 0 0x41700000#32 16#32 256#32 17 x y)
    (lvlKer T 1 0x41994518#32 21#32 448#32 22 x y)
    (lvlKer T 2 0x41C32FF6#32 26#32 680#32 27 x y)
    (lvlKer T 3 0x41F80001#32 33#32 1096#32 34 x y)
    (lvlKer T 4 0x421D4519#32 41#32 1688#32 42 x y)
    (lvlKer T 5 0x42472FF6#32 51#32 2608#32 52 x y)
    (lvlKer T 6 0x427C0002#32 65#32 4232#32 66 x y)
    (lvlKer T 7 0x429F4519#32 81#32 6568#32 82 x y)

def dense {K N : ℕ} (W : (⟨2, ![K, N]⟩ : Shape).Idx → EReal) (v : Fin K → EReal) (j : Fin N) : EReal :=
  ∑ k : Fin K, v k * W (ix2 k j)

def relu (x : EReal) : EReal := max x wZero

def mlpRow (W0 : (⟨2, ![64, 256]⟩ : Shape).Idx → EReal) (W1 W2 : (⟨2, ![256, 256]⟩ : Shape).Idx → EReal)
    (W3 : (⟨2, ![256, 1]⟩ : Shape).Idx → EReal) (e : Fin 64 → EReal) : EReal :=
  dense W3 (fun k2 => relu (dense W2 (fun k1 => relu (dense W1 (fun k0 => relu (dense W0 e k0)) k1)) k2)) 0

def G (X : (⟨2, ![262144, 2]⟩ : Shape).Idx → EReal) (T : (⟨3, ![8, 8192, 8]⟩ : Shape).Idx → EReal)
    (W0 : (⟨2, ![64, 256]⟩ : Shape).Idx → EReal) (W1 W2 : (⟨2, ![256, 256]⟩ : Shape).Idx → EReal)
    (W3 : (⟨2, ![256, 1]⟩ : Shape).Idx → EReal) : (⟨2, ![262144, 1]⟩ : Shape).Idx → EReal :=
  fun i => mlpRow W0 W1 W2 W3 (encRef T (X (ix2 (i 0) 0)) (X (ix2 (i 0) 1)))

def GK (X : (⟨2, ![262144, 2]⟩ : Shape).Idx → EReal) (T : (⟨3, ![8, 8192, 8]⟩ : Shape).Idx → EReal)
    (W0 : (⟨2, ![64, 256]⟩ : Shape).Idx → EReal) (W1 W2 : (⟨2, ![256, 256]⟩ : Shape).Idx → EReal)
    (W3 : (⟨2, ![256, 1]⟩ : Shape).Idx → EReal) : (⟨2, ![262144, 1]⟩ : Shape).Idx → EReal :=
  fun i => mlpRow W0 W1 W2 W3 (encKer T (X (ix2 (i 0) 0)) (X (ix2 (i 0) 1)))

end Cert.Spec

end
-- ==== Proof.SpecEq.lean ====
import proofs.«132274_j36180804501977_1_alg».proof.Proof.Spec
import Idealize.ShloMosaic.Lib.IdealHost

noncomputable section

namespace Cert.Spec

open Idealize.ShloMosaic Idealize.ShloMosaic.ValueIdx

private theorem wHalf_eq : wHalf = ((1 / 2 : ℝ) : EReal) := by
  simp [Ideal.ofBits, Ideal.ieee, -EReal.coe_mul]; norm_num

private theorem wTwo_eq : wTwo = ((2 : ℝ) : EReal) := by
  simp [Ideal.ofBits, Ideal.ieee, -EReal.coe_mul]; norm_num

private theorem wThree_eq : wThree = ((3 : ℝ) : EReal) := by
  simp [Ideal.ofBits, Ideal.ieee, -EReal.coe_mul]; norm_num

private theorem wZero_eq : wZero = ((0 : ℝ) : EReal) := Ideal.ofBits_zero_f32

private theorem wOne_eq : wOne = ((1 : ℝ) : EReal) := Ideal.ofBits_one_f32

section Coordinate

variable (s : BitVec 32) (sr : ℝ) (hs : Ideal.ofBits .f32 s = (sr : EReal)) (x : ℝ)
include hs

private theorem cellF_coe : cellF s (x : EReal) = ((⌊x * sr + 1 / 2⌋ : ℝ) : EReal) := by
  unfold cellF pos
  rw [hs, wHalf_eq, ← EReal.coe_mul, ← EReal.coe_add, Ideal.liftRound_coe]

/-- The weight of a real coordinate is a real number. -/
theorem wgt_real : ∃ r : ℝ, wgt s (x : EReal) = (r : EReal) := by
  unfold wgt frac
  rw [cellF_coe s sr hs x]
  unfold pos
  rw [hs, wHalf_eq, wThree_eq, wTwo_eq]
  exact ⟨_, by simp only [← EReal.coe_mul, ← EReal.coe_add, ← EReal.coe_sub]; rfl⟩

/-- A coordinate of [0, 1) at a scale of [0, R - 3/2) has its cell p with p + 1 on the lattice of extent R. -/
theorem cell_range (h0 : 0 ≤ sr) (R : ℕ) (hR : sr + 3 / 2 < R) (hR' : R ≤ 4096) (hx0 : 0 ≤ x) (hx1 : x < 1) :
    ∃ p : ℕ, p + 1 < R ∧ cell s (x : EReal) = BitVec.ofNat 32 p := by
  have hxs : x * sr ≤ sr := mul_le_of_le_one_left h0 hx1.le
  obtain ⟨p, hp⟩ := Int.eq_ofNat_of_zero_le (Int.floor_nonneg.mpr (by positivity : (0 : ℝ) ≤ x * sr + 1 / 2))
  have hpR : ((p : ℤ) : ℝ) + 1 < R := by
    have := Int.floor_le (x * sr + 1 / 2)
    rw [hp] at this
    linarith
  have hpR' : p + 1 < R := by exact_mod_cast hpR
  refine ⟨p, hpR', ?_⟩
  unfold cell
  rw [cellF_coe s sr hs x, hp, Ideal.fptosi, Ideal.toIntClamped_coe, if_pos (by exact_mod_cast Nat.zero_le p),
    Int.floor_intCast, min_eq_right (by norm_num; omega), max_eq_right (by norm_num), BitVec.ofInt_natCast]

end Coordinate

private theorem select_cmpi_eq (A G : BitVec 32) (u v : EReal) :
    Scalar.select (IntOp.cmpi .eq A G) u v = if A = G then u else v := by
  show (if BitVec.ofBool (A == G) = 1 then u else v) = _
  by_cases h : A = G
  · rw [if_pos h, beq_iff_eq.mpr h]; rfl
  · rw [if_neg h, beq_eq_false_iff_ne.mpr h]; rfl

private theorem ofNat_inj {a g : ℕ} (ha : a < 4096) (hg : g < 4096) : BitVec.ofNat 32 a = BitVec.ofNat 32 g ↔ a = g := by
  rw [← BitVec.toNat_inj, BitVec.toNat_ofNat, BitVec.toNat_ofNat, Nat.mod_eq_of_lt (by omega), Nat.mod_eq_of_lt (by omega)]

private theorem hot_ofNat (p a : ℕ) (hp : p + 1 < 4096) (ha : a < 4096) (w : EReal) :
    hot (BitVec.ofNat 32 p) w (BitVec.ofNat 32 a) = (if a = p then wOne - w else 0) + (if a = p + 1 then w else 0) := by
  unfold hot IntOp.addi
  rw [← BitVec.ofNat_add, select_cmpi_eq, select_cmpi_eq, wZero_eq, EReal.coe_zero,
    if_congr (ofNat_inj ha (by omega)) rfl rfl, if_congr (ofNat_inj ha hp) rfl rfl]

/-- A one-hot weight row keeps two terms of a sum over the lattice. -/
theorem sum_hot {R : ℕ} (hR : R ≤ 4096) (g : Fin R → EReal) (p : ℕ) (hp : p + 1 < R) (w : EReal) :
    ∑ a : Fin R, hot (BitVec.ofNat 32 p) w (BitVec.ofNat 32 a.val) * g a
      = (wOne - w) * g ⟨p, by omega⟩ + w * g ⟨p + 1, hp⟩ := by
  have H := fun a : Fin R => hot_ofNat p a.val (by omega) (by omega) w
  rw [Fintype.sum_eq_add (⟨p, by omega⟩ : Fin R) ⟨p + 1, hp⟩ (by simp [Fin.ext_iff]) fun c hc => ?_, H, H]
  · rw [if_pos rfl, if_neg p.lt_succ_self.ne, if_neg p.succ_ne_self, if_pos rfl, add_zero, zero_add]
  · rw [H, if_neg fun e => hc.1 (Fin.ext e), if_neg fun e => hc.2 (Fin.ext e), add_zero, zero_mul]

/-- A level's feature the kernel's way equals the reference's, for coordinates of [0, 1) at a scale of [0, R - 3/2). -/
theorem lvlKer_eq_lvlRef (T : (⟨3, ![8, 8192, 8]⟩ : Shape).Idx → EReal) (hT : ∀ i, ∃ r : ℝ, T i = (r : EReal)) (l : Fin 8)
    (s res size : BitVec 32) (R : ℕ) (sr : ℝ) (hs : Ideal.ofBits .f32 s = (sr : EReal))
    (hR : 0 ≤ sr ∧ sr + 3 / 2 < R ∧ R ≤ 4096) (x y : ℝ) (hx0 : 0 ≤ x) (hx1 : x < 1) (hy0 : 0 ≤ y) (hy1 : y < 1) :
    lvlKer T l s res size R (x : EReal) (y : EReal) = lvlRef T l s res size (x : EReal) (y : EReal) := by
  funext f
  obtain ⟨h0, hR, hR'⟩ := hR
  obtain ⟨p, hp, hxp⟩ := cell_range s sr hs x h0 R hR hR' hx0 hx1
  obtain ⟨q, hq, hyq⟩ := cell_range s sr hs y h0 R hR hR' hy0 hy1
  obtain ⟨wx, hwx⟩ := wgt_real s sr hs x
  obtain ⟨wy, hwy⟩ := wgt_real s sr hs y
  choose t ht using fun r => hT (ix3 l (clampRow r) f)
  unfold lvlKer lvlRef featRef featKerM fourCorners latt nodeOf tab IntOp.addi IntOp.muli
  rw [hxp, hyq, hwx, hwy]
  simp only [sum_hot hR' _ p hp, sum_hot hR' _ q hq, ht, wOne_eq, wZero_eq, ← BitVec.ofNat_add, Fin.val_zero, Fin.val_one,
    Nat.add_zero, ← EReal.coe_sub, ← EReal.coe_mul, ← EReal.coe_add]
  congr 1
  ring

/-- For coordinates of [0, 1) and a table of real numbers the kernel's encoding of a point is the reference's. -/
theorem encKer_eq_encRef (T : (⟨3, ![8, 8192, 8]⟩ : Shape).Idx → EReal) (hT : ∀ i, ∃ r : ℝ, T i = (r : EReal)) (x y : ℝ) (hx0 : 0 ≤ x) (hx1 : x < 1) (hy0 : 0 ≤ y) (hy1 : y < 1) :
    encKer T (x : EReal) (y : EReal) = encRef T (x : EReal) (y : EReal) := by
  unfold encKer encRef
  congr 1 <;>
    exact lvlKer_eq_lvlRef T hT _ _ _ _ _ _ (by simp [Ideal.ofBits, Ideal.ieee, -EReal.coe_mul]; rfl) (by norm_num) x y hx0 hx1 hy0 hy1

end Cert.Spec

end
-- ==== Proof.PreFacts.lean ====
-- The precondition read at one element: the coordinates are real numbers of [0, 1) and the table's entries are real numbers.
import proofs.«132274_j36180804501977_1_alg».proof.Pre_finite_inputs
import proofs.«132274_j36180804501977_1_alg».proof.Proof.Gen.Pre_finite_inputs
import Idealize.ShloMosaic.PureOps.Ideal
import Idealize.ShloMosaic.Lib.ValueIdx
import Idealize.ShloMosaic.Lib.ReduceAll
import Idealize.ShloMosaic.Lib.IdealHost

noncomputable section

namespace Cert.PreFacts

open Idealize.ShloMosaic Idealize.ShloMosaic.ValueIdx Cert.Pre_finite_inputs

local instance : Subsingleton S_.Idx := ⟨fun a b => funext fun d => d.elim0⟩

private theorem lt_of_cmp_olt {x y : EReal} (e : Ideal.cmp .olt x y = 1#1) : x < y := by
  by_contra hn
  simp [Ideal.cmp, hn] at e

private theorem le_of_cmp_oge {x y : EReal} (e : Ideal.cmp .oge x y = 1#1) : y ≤ x := by
  by_contra hn
  simp [Ideal.cmp, hn] at e

private theorem real_of_abs_lt_top {x : EReal} (e : max x (-x) < ⊤) : ∃ r : ℝ, x = (r : EReal) := by
  induction x using EReal.rec with
  | bot => simp at e
  | coe r => exact ⟨r, rfl⟩
  | top => simp at e

private theorem ofBits_inf_f32 : Ideal.ofBits .f32 0x7F800000#32 = ⊤ := by simp [Ideal.ofBits, Ideal.ieee]

private theorem finite_elem {s : Shape} {axes : List (Fin s.rank)} (hb : S_.BroadcastsInDim s ![]) (hr : s.ReducesTo axes S_)
    (hu : 0 < S_.numel) (a : FVec Ideal s .f32)
    (e : Host.reduce IntOp.andi (cmpf .olt (Host.absf a) (broadcastInDim s ![] hb (constant S_ .f32 0x7F800000#32)))
      (constantI S_ 1 1#1) hr hu ix0 = 1#1) (i : s.Idx) : ∃ r : ℝ, a i = (r : EReal) := by
  have e1 := Host.reduce_andi_all _ _ hr hu ix0 e i
  have e2 : Ideal.cmp .olt (max (a i) (-(a i))) (Ideal.ofBits .f32 0x7F800000#32) = 1#1 := e1
  rw [ofBits_inf_f32] at e2
  exact real_of_abs_lt_top (lt_of_cmp_olt e2)

private theorem and_split (x y : IVec S_ 1) (e : andi x y ix0 = 1#1) : x ix0 = 1#1 ∧ y ix0 = 1#1 :=
  IntOp.andi_eq_one.1 e

theorem pre_decode [Cert.Pre_finite_inputs.Facts] (a0 : FVec Ideal S262144x2 .f32) (a1 : FVec Ideal S8x8192x8 .f32)
    (a2 : FVec Ideal S64x256 .f32) (a3 a4 : FVec Ideal S256x256 .f32) (a5 : FVec Ideal S256x1 .f32)
    (h : Cert.Pre_finite_inputs.fn (F := Ideal) a0 a1 a2 a3 a4 a5 = (fun _ => 1#1)) :
    (∀ i, ∃ r : ℝ, a0 i = (r : EReal) ∧ 0 ≤ r ∧ r < 1) ∧ (∀ i, ∃ r : ℝ, a1 i = (r : EReal)) := by
  have h0 := congrFun h ValueIdx.ix0
  dsimp only [fn, fn_part1, fn_part2] at h0
  obtain ⟨h0, hlt⟩ := and_split _ _ h0
  obtain ⟨h0, hge⟩ := and_split _ _ h0
  obtain ⟨h0, -⟩ := and_split _ _ h0
  obtain ⟨h0, -⟩ := and_split _ _ h0
  obtain ⟨h0, -⟩ := and_split _ _ h0
  obtain ⟨h0, -⟩ := and_split _ _ h0
  obtain ⟨hf0, hf1⟩ := and_split _ _ h0
  refine ⟨fun i => ?_, fun i => finite_elem _ _ _ a1 hf1 i⟩
  obtain ⟨r, hr⟩ := finite_elem _ _ _ a0 hf0 i
  have g1 := Host.reduce_andi_all _ _ _ _ ix0 hge i
  have g2 : Ideal.cmp .oge (a0 i) (Ideal.ofBits .f32 0x00000000#32) = 1#1 := g1
  have l1 := Host.reduce_andi_all _ _ _ _ ix0 hlt i
  have l2 : Ideal.cmp .olt (a0 i) (Ideal.ofBits .f32 0x3F800000#32) = 1#1 := l1
  rw [Ideal.ofBits_zero_f32, hr] at g2
  rw [Ideal.ofBits_one_f32, hr] at l2
  refine ⟨r, hr, ?_, ?_⟩
  · exact_mod_cast le_of_cmp_oge g2
  · exact_mod_cast lt_of_cmp_olt l2

end Cert.PreFacts

end
-- ==== Proof.KerMat.lean ====
import proofs.«132274_j36180804501977_1_alg».proof.Proof.Gen.KernelIdeal.Frame
import proofs.«132274_j36180804501977_1_alg».proof.Proof.Spec
import Idealize.ShloMosaic.Lib.ValueLayout
import Idealize.ShloMosaic.Lib.StableHlo.Predicate
import Idealize.ShloMosaic.Lib.StableHlo.Run

noncomputable section

namespace Cert.KernelIdeal.KerVal

open Idealize.ShloMosaic Idealize.ShloMosaic.TcCoe Idealize.ShloMosaic.ValueIdx Idealize.SL.Sem
open Cert.KernelIdeal Cert.KernelIdeal.Gen

namespace Lattice

open Idealize.ShloMosaic.StableHlo.Predicate

/-- The R x R lattice, and the same with n words at each node. -/
abbrev SQ (R : ℕ) : Shape := ⟨2, ![R, R]⟩
abbrev CU (R n : ℕ) : Shape := ⟨3, ![R, R, n]⟩

/-- On an axis of extent one the only coordinate is 0. -/
theorem val_unit {n : ℕ} (q : Fin n) : q.val = if n = 1 then 0 else q.val := by
  have := q.isLt; split <;> omega

variable {α : Type} {R : ℕ} (res size : BitVec 32) (l : Fin 8)
  (h1 : (⟨1, ![R]⟩ : Shape).BroadcastsInDim ⟨2, ![1, R]⟩ ![1])
  (h2 : (⟨2, ![1, R]⟩ : Shape).BroadcastsInDim (SQ R) ![0, 1])
  (h3 : (⟨1, ![R]⟩ : Shape).BroadcastsInDim ⟨2, ![R, 1]⟩ ![0])
  (h4 : S_.BroadcastsInDim ⟨2, ![R, 1]⟩ ![])
  (h5 : (⟨2, ![R, 1]⟩ : Shape).BroadcastsInDim (SQ R) ![0, 1])
  (h6 : S_.BroadcastsInDim (SQ R) ![])
  (hB : (SQ R).BroadcastsInDim (CU R 1) ![0, 1])
  (wf : GatherDims.WF S8192x8 (CU R 1) (CU R 8) [2] [0] [] [0] [] 2 ![1, 8])
  (hS : S8x8192x8.Slices ![l.val, 0, 0] S1x8192x8)
  (hC : S1x8192x8.ShapeCasts S8192x8)
  (hT : (CU R 8).Transposes [1, 0, 2] (CU R 8))
  (hL : (CU R 8).ShapeCasts ⟨2, ![R, 8 * R]⟩)

/-- The node numbers: entry (p, q) is q + res p. -/
def node : IVec (SQ R) 32 :=
  addi (broadcastInDim (SQ R) ![0, 1] h2 (broadcastInDim ⟨2, ![1, R]⟩ ![1] h1 (iotaInDim ⟨1, ![R]⟩ 32 0)))
    (broadcastInDim (SQ R) ![0, 1] h5
      (muli (broadcastInDim ⟨2, ![R, 1]⟩ ![0] h3 (iotaInDim ⟨1, ![R]⟩ 32 0))
        (broadcastInDim ⟨2, ![R, 1]⟩ ![] h4 (constantI S_ 32 res))))

theorem node_apply (p q : Fin R) :
    node res h1 h2 h3 h4 h5 (ix2 p q) = IntOp.addi (BitVec.ofNat 32 q.val) (IntOp.muli (BitVec.ofNat 32 p.val) res) :=
  congrArg₂ IntOp.addi (bcast_cols h1 h2 _ p q)
    ((bcast_of_col h5 _ p q).trans (congrArg (IntOp.muli · res) (bcast_col1 h3 _ p)))

/-- A word at every node. -/
def bc (x : S_.Idx → α) : (SQ R).Idx → α := broadcastInDim (SQ R) ![] h6 x

/-- The nodes' table rows: the node number modulo size with the divisor's sign, a negative one counted from the end. -/
def row : IVec (SQ R) 32 :=
  let d := select (cmpi .eq (constantI S_ 32 size) (constantI S_ 32 0#32)) (constantI S_ 32 1#32) (constantI S_ 32 size)
  let r := Host.remsi (node res h1 h2 h3 h4 h5) (bc h6 d)
  let z := bc h6 (constantI S_ 32 0#32)
  let m := select (andi (cmpi .ne (cmpi .slt r z) (bc h6 (cmpi .slt d (constantI S_ 32 0#32)))) (cmpi .ne r z))
    (addi r (bc h6 d)) r
  select (cmpi .slt m z) (addi m (bc h6 (constantI S_ 32 8192#32))) m

theorem row_apply (j : (SQ R).Idx) :
    row res size h1 h2 h3 h4 h5 h6 j = Cert.Spec.rowOf size (node res h1 h2 h3 h4 h5 j) := rfl

variable (R) in
/-- Whole table rows gathered at an [R, R, 1] array of row numbers. -/
abbrev rowDims : GatherDims S8192x8 (CU R 1) (CU R 8) where
  offsetDims := [2]
  collapsedSliceDims := [0]
  operandBatchingDims := []
  startIndicesBatchingDims := []
  startIndexMap := [0]
  indexVectorDim := 2
  sliceSizes := ![1, 8]
  wf := wf

/-- The gather at (p, q, f) is feature f of the row the start index at (p, q) names, read signed and clamped. -/
theorem gather_rows_apply (x : S8192x8.Idx → α) (idx : IVec (CU R 1) 32) (p q : Fin R) (f : Fin 8) :
    Host.gather (rowDims R wf) x idx (ix3 p q f) = x (ix2 (Cert.Spec.clampRow (idx (ix3 p q 0))) f) := by
  have hin : (0 : Fin 2) ∈ [0] := List.mem_singleton.mpr rfl
  have hout : (1 : Fin 2) ∉ [0] := by decide
  have hsi (c) : (rowDims R wf).siIdx (ix3 p q f) c = ix3 p q 0 := funext fun b => Fin.ext (match b with
    | ⟨0, _⟩ => rfl | ⟨1, _⟩ => rfl | ⟨2, _⟩ => Nat.lt_one_iff.mp c.isLt)
  unfold Host.gather
  refine congrArg x (funext fun k => Fin.ext ?_)
  show (rowDims R wf).start _ idx k + (rowDims R wf).batchCoord _ k + (rowDims R wf).offCoord _ k = _
  rw [GatherDims.batchCoord_eq_zero _ _ _ List.not_mem_nil, Nat.add_zero]
  unfold GatherDims.start GatherDims.offCoord
  revert k
  refine Fin.forall_fin_two.mpr ⟨?_, ?_⟩
  · rw [dif_pos hin, dif_neg (fun h => ((GatherDims.mem_sKept _ _).mp h).1 hin), hsi]
    rfl
  · rw [dif_neg hout, dif_pos ((GatherDims.mem_sKept _ _).mpr ⟨hout, List.not_mem_nil⟩), Nat.zero_add]
    rfl

/-- The laid-out lattice read at an index: entry (a, 8 b + f) is feature f of the table row of node a + res b. -/
theorem lat_apply (T : S8x8192x8.Idx → EReal) (a b : Fin R) (f : Fin 8) :
    shapeCast ⟨2, ![R, 8 * R]⟩ (transpose (CU R 8) [1, 0, 2]
        (Host.gather (rowDims R wf) (shapeCast S8192x8 (extractStridedSlice S1x8192x8 ![l.val, 0, 0] T hS) hC)
          (broadcastInDim (CU R 1) ![0, 1] hB (row res size h1 h2 h3 h4 h5 h6))) hT) hL
      (ix2 a ⟨8 * b.val + f.val, by omega⟩)
    = Cert.Spec.latt T l res size R f a b := by
  refine (shapeCast_apply _ _ _ (ix3 a b f) ?_).trans ((transpose_apply _ _ _ _ (ix3 b a f) ?_).trans ?_)
  · rw [Shape.rowMajor_val_three, Shape.rowMajor_val_two]
    show (a.val * R + b.val) * 8 + f.val = a.val * (8 * R) + (8 * b.val + f.val)
    ring
  · exact fun k => match k with | ⟨0, _⟩ => rfl | ⟨1, _⟩ => rfl | ⟨2, _⟩ => rfl
  rw [gather_rows_apply, shapeCast_1ab_ab_apply,
    broadcastInDim_apply _ hB _ (ix3 b a 0) (ix2 b a) (fun k => match k with | ⟨0, _⟩ => val_unit b | ⟨1, _⟩ => val_unit a),
    row_apply, node_apply]
  exact extractStridedSlice_apply _ _ _ _ (ix3 l _ f) (fun k => match k with
    | ⟨0, _⟩ => rfl | ⟨1, _⟩ => (Nat.zero_add _).symm | ⟨2, _⟩ => (Nat.zero_add _).symm)

end Lattice

variable (m : (ℓ : Loc nD τ sig) → Buf (Elt Ideal) ℓ)

/-- What the host operations leave for a level is the lattice over the launch tables, read at an index; one statement a level. -/
theorem mat0_apply (c : Dev nD) (a b : Fin 17) (f : Fin 8) :
    (V m c main_v20 : S17x136.Idx → EReal) (ix2 a ⟨8 * b.val + f.val, by omega⟩)
      = Cert.Spec.latt (m ((c : Thread nD τ).loc main_arg1)) 0 16#32 256#32 17 f a b := by
  simp only [Gen.V, List.flatten_cons, List.flatten_nil, List.append_nil, List.cons_append, List.nil_append]
  after_results_simp
  dsimp only [cast_eq, id_eq]
  exact Lattice.lat_apply 16#32 256#32 0 ..

theorem mat1_apply (c : Dev nD) (a b : Fin 22) (f : Fin 8) :
    (V m c main_v41 : S22x176.Idx → EReal) (ix2 a ⟨8 * b.val + f.val, by omega⟩)
      = Cert.Spec.latt (m ((c : Thread nD τ).loc main_arg1)) 1 21#32 448#32 22 f a b := by
  simp only [Gen.V, List.flatten_cons, List.flatten_nil, List.append_nil, List.cons_append, List.nil_append]
  after_results_simp
  dsimp only [cast_eq, id_eq]
  exact Lattice.lat_apply 21#32 448#32 1 ..

theorem mat2_apply (c : Dev nD) (a b : Fin 27) (f : Fin 8) :
    (V m c main_v62 : S27x216.Idx → EReal) (ix2 a ⟨8 * b.val + f.val, by omega⟩)
      = Cert.Spec.latt (m ((c : Thread nD τ).loc main_arg1)) 2 26#32 680#32 27 f a b := by
  simp only [Gen.V, List.flatten_cons, List.flatten_nil, List.append_nil, List.cons_append, List.nil_append]
  after_results_simp
  dsimp only [cast_eq, id_eq]
  exact Lattice.lat_apply 26#32 680#32 2 ..

theorem mat3_apply (c : Dev nD) (a b : Fin 34) (f : Fin 8) :
    (V m c main_v83 : S34x272.Idx → EReal) (ix2 a ⟨8 * b.val + f.val, by omega⟩)
      = Cert.Spec.latt (m ((c : Thread nD τ).loc main_arg1)) 3 33#32 1096#32 34 f a b := by
  simp only [Gen.V, List.flatten_cons, List.flatten_nil, List.append_nil, List.cons_append, List.nil_append]
  after_results_simp
  dsimp only [cast_eq, id_eq]
  exact Lattice.lat_apply 33#32 1096#32 3 ..

theorem mat4_apply (c : Dev nD) (a b : Fin 42) (f : Fin 8) :
    (V m c main_v104 : S42x336.Idx → EReal) (ix2 a ⟨8 * b.val + f.val, by omega⟩)
      = Cert.Spec.latt (m ((c : Thread nD τ).loc main_arg1)) 4 41#32 1688#32 42 f a b := by
  simp only [Gen.V, List.flatten_cons, List.flatten_nil, List.append_nil, List.cons_append, List.nil_append]
  after_results_simp
  dsimp only [cast_eq, id_eq]
  exact Lattice.lat_apply 41#32 1688#32 4 ..

theorem mat5_apply (c : Dev nD) (a b : Fin 52) (f : Fin 8) :
    (V m c main_v125 : S52x416.Idx → EReal) (ix2 a ⟨8 * b.val + f.val, by omega⟩)
      = Cert.Spec.latt (m ((c : Thread nD τ).loc main_arg1)) 5 51#32 2608#32 52 f a b := by
  simp only [Gen.V, List.flatten_cons, List.flatten_nil, List.append_nil, List.cons_append, List.nil_append]
  after_results_simp
  dsimp only [cast_eq, id_eq]
  exact Lattice.lat_apply 51#32 2608#32 5 ..

theorem mat6_apply (c : Dev nD) (a b : Fin 66) (f : Fin 8) :
    (V m c main_v146 : S66x528.Idx → EReal) (ix2 a ⟨8 * b.val + f.val, by omega⟩)
      = Cert.Spec.latt (m ((c : Thread nD τ).loc main_arg1)) 6 65#32 4232#32 66 f a b := by
  simp only [Gen.V, List.flatten_cons, List.flatten_nil, List.append_nil, List.cons_append, List.nil_append]
  after_results_simp
  dsimp only [cast_eq, id_eq]
  exact Lattice.lat_apply 65#32 4232#32 6 ..

theorem mat7_apply (c : Dev nD) (a b : Fin 82) (f : Fin 8) :
    (V m c main_v167 : S82x656.Idx → EReal) (ix2 a ⟨8 * b.val + f.val, by omega⟩)
      = Cert.Spec.latt (m ((c : Thread nD τ).loc main_arg1)) 7 81#32 6568#32 82 f a b := by
  simp only [Gen.V, List.flatten_cons, List.flatten_nil, List.append_nil, List.cons_append, List.nil_append]
  after_results_simp
  dsimp only [cast_eq, id_eq]
  exact Lattice.lat_apply 81#32 6568#32 7 ..

end Cert.KernelIdeal.KerVal

end
-- ==== Proof.KerAll.lean ====
/- The kernel side: each level of the body is the one-hot double sum over a lattice of any extent, the body is the network on the eight levels, and the result array is the specification's function of the six arguments. -/
import proofs.«132274_j36180804501977_1_alg».proof.Proof.Gen.KernelIdeal.Value
import proofs.«132274_j36180804501977_1_alg».proof.Proof.SpecEq
import proofs.«132274_j36180804501977_1_alg».proof.Proof.PreFacts
import proofs.«132274_j36180804501977_1_alg».proof.Proof.KerMat
import Idealize.ShloMosaic.Lib.ValueLayout
import Idealize.ShloMosaic.Lib.StackMember

noncomputable section

open scoped BigOperators

namespace Cert.KernelIdeal.KerVal

open Idealize.ShloMosaic Idealize.ShloMosaic.TcCoe Idealize.ShloMosaic.ValueIdx Idealize.SL.Sem
open Cert.KernelIdeal Cert.KernelIdeal.Gen

private theorem zero2 : (![0, 0] : Fin 2 → ℕ) = fun _ => 0 := by
  funext a; match a with | ⟨0, _⟩ => rfl | ⟨1, _⟩ => rfl

/-- Column 0 of the coordinate block holds x. -/
private theorem col0 (x0 : Vec Ideal S2048x2 .f32) (n : Fin 2048) :
    k0_pay2 x0 (ix2 n (0 : Fin 1)) = x0 (ix2 n (0 : Fin 2)) :=
  slice2_axis1_apply 0 x0 slices_S2048x2_o0_0_S2048x1 n 0 0 rfl

/-- Column 1 of the coordinate block holds y. -/
private theorem col1 (x0 : Vec Ideal S2048x2 .f32) (n : Fin 2048) :
    k0_pay3 x0 (ix2 n (0 : Fin 1)) = x0 (ix2 n (1 : Fin 2)) :=
  slice2_axis1_apply 1 x0 slices_S2048x2_o0_1_S2048x1 n 0 1 rfl

/-- A column spread over R lattice coordinates reads, at (n, a), its entry n. -/
private theorem bc_col {R : ℕ} {α : Type} (hb : S2048x1.Broadcasts ⟨2, ![2048, R]⟩) (v : S2048x1.Idx → α)
    (n : Fin 2048) (a : Fin R) : broadcastTo ⟨2, ![2048, R]⟩ v hb (ix2 n a) = v (ix2 n (0 : Fin 1)) :=
  broadcastTo_apply v hb (ix2 n a) (ix2 n 0) (fun c => by match c with | ⟨0, _⟩ => rfl | ⟨1, _⟩ => rfl)

/-- The weight row built from a cell column g and a weight column w holds 1 - w at the cell and w one past it. -/
private theorem hot_apply {R : ℕ} {hi : (⟨2, ![2048, R]⟩ : Shape).Iotas .tc 32 [1]}
    {hb : S2048x1.Broadcasts ⟨2, ![2048, R]⟩} {g : IVec S2048x1 32} {w : FVec Ideal S2048x1 .f32}
    (n : Fin 2048) (a : Fin R) :
    addf
        (select (cmpi .eq (iota .tc ⟨2, ![2048, R]⟩ 32 [1] hi) (broadcastTo ⟨2, ![2048, R]⟩ g hb))
          (broadcastTo ⟨2, ![2048, R]⟩
            (shapeCast S2048x1 (subf (broadcast S2048x1 (Scalar.ofBits .f32 0x3F800000#32)) w) shapeCasts_S2048x1_S2048x1) hb)
          (broadcast ⟨2, ![2048, R]⟩ (Scalar.ofBits .f32 0x00000000#32)))
        (select (cmpi .eq (iota .tc ⟨2, ![2048, R]⟩ 32 [1] hi) (broadcastTo ⟨2, ![2048, R]⟩ (addi g (broadcast S2048x1 1#32)) hb))
          (broadcastTo ⟨2, ![2048, R]⟩ (shapeCast S2048x1 w shapeCasts_S2048x1_S2048x1) hb)
          (broadcast ⟨2, ![2048, R]⟩ (Scalar.ofBits .f32 0x00000000#32))) (ix2 n a)
      = Cert.Spec.hot (g (ix2 n 0)) (w (ix2 n 0)) (BitVec.ofNat 32 a.val) := by
  simp only [addf_apply, select_apply, cmpi, shapeCast_self, bc_col]
  rw [iota_single_apply .tc _ 32 1 hi (ix2 n a)]
  rfl

/-- A plain matrix product into the zero accumulator, at (p, q): the sum over the contracted coordinate. -/
private theorem mm_apply {m k c : ℕ} {φ₁ φ₂ : FTy} (L : FVec Ideal ⟨2, ![m, k]⟩ φ₁) (M : FVec Ideal ⟨2, ![k, c]⟩ φ₂)
    (p : Fin m) (q : Fin c) :
    matmul (DotDims.plain m k c) none L M (constant ⟨2, ![m, c]⟩ .f32 0x00000000#32) (ix2 p q)
      = ∑ a : Fin k, L (ix2 p a) * M (ix2 a q) := by
  rw [matmul_zero_eq_dotGeneral]
  exact StackMember.dotGeneral_plain_apply none L M p q

/-- A level's feature f over a lattice block A of extent R, at a point with coordinates px, py. -/
def lvlArr (R : ℕ) (s : BitVec 32) (A : Vec Ideal ⟨2, ![R, R * 8]⟩ .f32) (px py : EReal) (f : Fin 8) : EReal :=
  Cert.Spec.featKerM (R := R) (fun a b => A (ix2 a ⟨8 * b.val + f.val, by omega⟩))
    (Cert.Spec.cell s px) (Cert.Spec.cell s py) (Cert.Spec.wgt s px) (Cert.Spec.wgt s py)

/-- Over a lattice of any extent R: the product L M, viewed [2048, R, 8], weighted by Wy and summed over the middle axis. -/
private theorem feat_apply {R C : ℕ} (hC : C = R * 8)
    {h1 : (⟨2, ![2048, R]⟩ : Shape).ShapeCasts ⟨3, ![2048, R, 1]⟩}
    {h2 : (⟨3, ![2048, R, 1]⟩ : Shape).Broadcasts ⟨3, ![2048, R, 8]⟩}
    {h3 : (⟨2, ![2048, C]⟩ : Shape).ShapeCasts ⟨3, ![2048, R, 8]⟩}
    {h4 : (⟨3, ![2048, R, 8]⟩ : Shape).Reduces [1] S2048x8}
    {Wy : FVec Ideal ⟨2, ![2048, R]⟩ .f32} {L : FVec Ideal ⟨2, ![2048, R]⟩ .bf16} {M : FVec Ideal ⟨2, ![R, C]⟩ .bf16}
    (xm : Vec Ideal ⟨2, ![R, C]⟩ .f32) (n : Fin 2048) (f : Fin 8) {cx cy : BitVec 32} {wx wy : EReal}
    (hW : ∀ b, Wy (ix2 n b) = Cert.Spec.hot cy wy (BitVec.ofNat 32 b.val))
    (hL : ∀ a, L (ix2 n a) = Cert.Spec.hot cx wx (BitVec.ofNat 32 a.val))
    (hM : ∀ j, M j = xm j) :
    multiReduction .add [1] S2048x8
        (mulf (broadcastTo ⟨3, ![2048, R, 8]⟩ (shapeCast ⟨3, ![2048, R, 1]⟩ Wy h1) h2)
          (shapeCast ⟨3, ![2048, R, 8]⟩
            (matmul (DotDims.plain 2048 R C) none L M (constant ⟨2, ![2048, C]⟩ .f32 0x00000000#32)) h3))
        0x00000000#32 h4 (.inl rfl) rfl (ix2 n f)
      = Cert.Spec.featKerM (R := R) (fun a b => xm (ix2 a ⟨8 * b.val + f.val, by omega⟩)) cx cy wx wy := by
  subst hC
  refine (Ideal.multiReduction_add_single _ _ h4 _ _ (ix2 n f)).trans (Finset.sum_congr rfl fun (b : Fin R) _ => ?_)
  have hlift : h4.lift (ix2 n f) b = ix3 n b f := by
    funext c; apply Fin.ext
    match c with
    | ⟨0, _⟩ => rfl
    | ⟨1, _⟩ => rfl
    | ⟨2, _⟩ => rfl
  rw [hlift, mulf_apply]
  refine congrArg₂ (· * ·) ?_ ?_
  · refine (broadcastTo_apply _ h2 (ix3 n b f) (ix3 n b (0 : Fin 1)) fun c => ?_).trans
      ((shapeCast_apply _ h1 (ix3 n b (0 : Fin 1)) (ix2 n b) ?_).trans (hW b))
    · match c with
      | ⟨0, _⟩ => rfl
      | ⟨1, _⟩ =>
        show b.val = if R = 1 then 0 else b.val
        split
        · have := b.isLt; omega
        · rfl
      | ⟨2, _⟩ => rfl
    · rw [Shape.rowMajor_val_two, Shape.rowMajor_val_three]
      show n.val * R + b.val = (n.val * R + b.val) * 1 + 0
      omega
  · refine (shapeCast_apply _ h3 (ix3 n b f) (ix2 n ⟨8 * b.val + f.val, by omega⟩) ?_).trans ((mm_apply L M n _).trans ?_)
    · rw [Shape.rowMajor_val_two, Shape.rowMajor_val_three]
      show n.val * (R * 8) + (8 * b.val + f.val) = (n.val * R + b.val) * 8 + f.val
      rw [← Nat.mul_assoc]
      omega
    · exact Finset.sum_congr rfl fun a _ => by rw [hL a, hM]

/-- Row n of a rectified dense layer depends only on row n of its input. -/
private theorem layer_apply {K N : ℕ} (v : FVec Ideal ⟨2, ![2048, K]⟩ .f32) (W : Vec Ideal ⟨2, ![K, N]⟩ .f32)
    (n : Fin 2048) (u : Fin K → EReal) (hv : ∀ k, v (ix2 n k) = u k) (j : Fin N) :
    maximumf (matmul (DotDims.plain 2048 K N) none (truncf .bf16 v bitsLt_bf16_f32) (truncf .bf16 W bitsLt_bf16_f32)
        (constant ⟨2, ![2048, N]⟩ .f32 0x00000000#32)) (broadcast ⟨2, ![2048, N]⟩ (Scalar.ofBits .f32 0x00000000#32)) (ix2 n j)
      = Cert.Spec.relu (Cert.Spec.dense W u j) := by
  rw [maximumf_apply, mm_apply]
  exact congrArg (fun t => max t _) (Finset.sum_congr rfl fun k _ => congrArg (· * _) (hv k))

/-- Piece k of eight blocks laid side by side holds the entries j with j / 8 = k. -/
private theorem concat8_piece (B0 B1 B2 B3 B4 B5 B6 B7 : FVec Ideal S2048x8 .f32) (n : Fin 2048) (j : Fin 64)
    (k : ℕ) (hk : k < 8) (B : FVec Ideal S2048x8 .f32)
    (hxk : ([⟨S2048x8, B0⟩, ⟨S2048x8, B1⟩, ⟨S2048x8, B2⟩, ⟨S2048x8, B3⟩, ⟨S2048x8, B4⟩, ⟨S2048x8, B5⟩, ⟨S2048x8, B6⟩,
        ⟨S2048x8, B7⟩] : List ((s : Shape) × (s.Idx → Ideal .f32)))[k]'hk = ⟨S2048x8, B⟩)
    (hjk : j.val / 8 = k) :
    concatenate S2048x64 1 [⟨S2048x8, B0⟩, ⟨S2048x8, B1⟩, ⟨S2048x8, B2⟩, ⟨S2048x8, B3⟩, ⟨S2048x8, B4⟩, ⟨S2048x8, B5⟩,
        ⟨S2048x8, B6⟩, ⟨S2048x8, B7⟩]
        concatenates_S2048x8_S2048x8_S2048x8_S2048x8_S2048x8_S2048x8_S2048x8_S2048x8_S2048x64_d1 (ix2 n j)
      = B (ix2 n (⟨j.val % 8, Nat.mod_lt _ (by norm_num)⟩ : Fin 8)) := by
  have hj : j.val < 64 := j.isLt
  refine concatenate_apply_piece (t := S2048x64) (1 : Fin 2) _ _ (ix2 n j) k (by exact hk) S2048x8 B hxk rfl (8 * k)
    (by interval_cases k <;> rfl) (ix2 n (⟨j.val % 8, Nat.mod_lt _ (by norm_num)⟩ : Fin 8)) (fun c hc => ?_) ?_
  · match c with
    | ⟨0, _⟩ => rfl
    | ⟨1, _⟩ => exact absurd rfl hc
  · show 8 * k + j.val % 8 = j.val
    omega

/-- Concatenating eight 8-column blocks is the specification's enc8 of their rows. -/
private theorem concat8_apply (B0 B1 B2 B3 B4 B5 B6 B7 : FVec Ideal S2048x8 .f32) (n : Fin 2048) (j : Fin 64) :
    concatenate S2048x64 1 [⟨S2048x8, B0⟩, ⟨S2048x8, B1⟩, ⟨S2048x8, B2⟩, ⟨S2048x8, B3⟩, ⟨S2048x8, B4⟩, ⟨S2048x8, B5⟩,
        ⟨S2048x8, B6⟩, ⟨S2048x8, B7⟩]
        concatenates_S2048x8_S2048x8_S2048x8_S2048x8_S2048x8_S2048x8_S2048x8_S2048x8_S2048x64_d1 (ix2 n j)
      = Cert.Spec.enc8 (fun f => B0 (ix2 n f)) (fun f => B1 (ix2 n f)) (fun f => B2 (ix2 n f)) (fun f => B3 (ix2 n f))
          (fun f => B4 (ix2 n f)) (fun f => B5 (ix2 n f)) (fun f => B6 (ix2 n f)) (fun f => B7 (ix2 n f)) j := by
  have hj : j.val < 64 := j.isLt
  unfold Cert.Spec.enc8
  obtain ⟨k, hk⟩ : ∃ k, j.val / 8 = k := ⟨_, rfl⟩
  rw [hk]
  have hk8 : k < 8 := by omega
  interval_cases k <;> exact concat8_piece B0 B1 B2 B3 B4 B5 B6 B7 n j _ (by norm_num) _ rfl hk

section
variable (x0 : Vec Ideal S2048x2 .f32) (x1 : Vec Ideal S17x136 .f32) (x2 : Vec Ideal S22x176 .f32)
  (x3 : Vec Ideal S27x216 .f32) (x4 : Vec Ideal S34x272 .f32) (x5 : Vec Ideal S42x336 .f32) (x6 : Vec Ideal S52x416 .f32)
  (x7 : Vec Ideal S66x528 .f32) (x8 : Vec Ideal S82x656 .f32) (x9 : Vec Ideal S64x256 .f32) (x10 x11 : Vec Ideal S256x256 .f32)
  (x12 : Vec Ideal S256x1 .f32)

/-- The network applied to the eight levels' features of a point with coordinates px, py. -/
def pointRow (px py : EReal) : EReal :=
  Cert.Spec.mlpRow x9 x10 x11 x12
    (Cert.Spec.enc8 (lvlArr 17 0x41700000#32 x1 px py) (lvlArr 22 0x41994518#32 x2 px py) (lvlArr 27 0x41C32FF6#32 x3 px py)
      (lvlArr 34 0x41F80001#32 x4 px py) (lvlArr 42 0x421D4519#32 x5 px py) (lvlArr 52 0x42472FF6#32 x6 px py)
      (lvlArr 66 0x427C0002#32 x7 px py) (lvlArr 82 0x429F4519#32 x8 px py))

/-- Row n of the output block is the point function of row n's two coordinates. -/
theorem out_apply (n : Fin 2048) :
    out0_13 (F := Ideal) x0 x1 x2 x3 x4 x5 x6 x7 x8 x9 x10 x11 x12 (ix2 n 0)
      = pointRow x1 x2 x3 x4 x5 x6 x7 x8 x9 x10 x11 x12 (x0 (ix2 n 0)) (x0 (ix2 n 1)) := by
  unfold out0_13 pointRow Cert.Spec.mlpRow
  rw [View.canon_unit_zero zero2]
  simp only [View.ld_unit_zero (S := ⟨2, _⟩) zero2]
  refine (mm_apply _ _ n 0).trans (Finset.sum_congr rfl fun k2 _ => congrArg (· * _) ?_)
  unfold k0_pay95
  refine layer_apply _ x11 n _ (fun k1 => ?_) k2
  refine layer_apply _ x10 n _ (fun k0 => ?_) k1
  refine layer_apply _ x9 n _ (fun j => ?_) k0
  refine (concat8_apply _ _ _ _ _ _ _ _ n j).trans ?_
  refine congrFun (congr (congr (congr (congr (congr (congr (congr (congrArg Cert.Spec.enc8 (funext fun f => ?_))
    (funext fun f => ?_)) (funext fun f => ?_)) (funext fun f => ?_)) (funext fun f => ?_)) (funext fun f => ?_))
    (funext fun f => ?_)) (funext fun f => ?_)) j
  all_goals
    rw [← col0 x0 n, ← col1 x0 n]
    exact feat_apply rfl _ n f (hot_apply n) (hot_apply n) (congrFun (shapeCast_self _ _))

end

open Idealize.ShloMosaic.Pipeline (Dat)

variable (m : (ℓ : Loc nD τ sig) → Buf (Elt Ideal) ℓ)

abbrev arrX (c : Dev nD) : Vec Ideal S262144x2 .f32 := V m c main_arg0
abbrev arr1 (c : Dev nD) : Vec Ideal S17x136 .f32 := V m c main_v20
abbrev arr2 (c : Dev nD) : Vec Ideal S22x176 .f32 := V m c main_v41
abbrev arr3 (c : Dev nD) : Vec Ideal S27x216 .f32 := V m c main_v62
abbrev arr4 (c : Dev nD) : Vec Ideal S34x272 .f32 := V m c main_v83
abbrev arr5 (c : Dev nD) : Vec Ideal S42x336 .f32 := V m c main_v104
abbrev arr6 (c : Dev nD) : Vec Ideal S52x416 .f32 := V m c main_v125
abbrev arr7 (c : Dev nD) : Vec Ideal S66x528 .f32 := V m c main_v146
abbrev arr8 (c : Dev nD) : Vec Ideal S82x656 .f32 := V m c main_v167
abbrev arr9 (c : Dev nD) : Vec Ideal S64x256 .f32 := V m c main_arg2
abbrev arr10 (c : Dev nD) : Vec Ideal S256x256 .f32 := V m c main_arg3
abbrev arr11 (c : Dev nD) : Vec Ideal S256x256 .f32 := V m c main_arg4
abbrev arr12 (c : Dev nD) : Vec Ideal S256x1 .f32 := V m c main_arg5

/-- The point function applied to every row of the coordinate array. -/
def GV (c : Dev nD) : S262144x1.Idx → EReal := fun i =>
  pointRow (arr1 m c) (arr2 m c) (arr3 m c) (arr4 m c) (arr5 m c) (arr6 m c) (arr7 m c) (arr8 m c) (arr9 m c) (arr10 m c)
    (arr11 m c) (arr12 m c) (arrX m c (ix2 (i 0) 0)) (arrX m c (ix2 (i 0) 1))

theorem iblk1 (c : Dev nD) (t : Fin cfg0.N) : (iblk m c 1 t : Vec Ideal S17x136 .f32) = arr1 m c := by
  funext y
  show V m c main_v20 (((cfg0.win 1).blk t).view.emb y) = V m c main_v20 y
  exact congrArg _ (funext fun a => Fin.ext
    (win0_1.rect_emb_val_of_index_zero t a (by match a with | ⟨0, _⟩ => rfl | ⟨1, _⟩ => rfl) y))
theorem iblk2 (c : Dev nD) (t : Fin cfg0.N) : (iblk m c 2 t : Vec Ideal S22x176 .f32) = arr2 m c := by
  funext y
  show V m c main_v41 (((cfg0.win 2).blk t).view.emb y) = V m c main_v41 y
  exact congrArg _ (funext fun a => Fin.ext
    (win0_2.rect_emb_val_of_index_zero t a (by match a with | ⟨0, _⟩ => rfl | ⟨1, _⟩ => rfl) y))
theorem iblk3 (c : Dev nD) (t : Fin cfg0.N) : (iblk m c 3 t : Vec Ideal S27x216 .f32) = arr3 m c := by
  funext y
  show V m c main_v62 (((cfg0.win 3).blk t).view.emb y) = V m c main_v62 y
  exact congrArg _ (funext fun a => Fin.ext
    (win0_3.rect_emb_val_of_index_zero t a (by match a with | ⟨0, _⟩ => rfl | ⟨1, _⟩ => rfl) y))
theorem iblk4 (c : Dev nD) (t : Fin cfg0.N) : (iblk m c 4 t : Vec Ideal S34x272 .f32) = arr4 m c := by
  funext y
  show V m c main_v83 (((cfg0.win 4).blk t).view.emb y) = V m c main_v83 y
  exact congrArg _ (funext fun a => Fin.ext
    (win0_4.rect_emb_val_of_index_zero t a (by match a with | ⟨0, _⟩ => rfl | ⟨1, _⟩ => rfl) y))
theorem iblk5 (c : Dev nD) (t : Fin cfg0.N) : (iblk m c 5 t : Vec Ideal S42x336 .f32) = arr5 m c := by
  funext y
  show V m c main_v104 (((cfg0.win 5).blk t).view.emb y) = V m c main_v104 y
  exact congrArg _ (funext fun a => Fin.ext
    (win0_5.rect_emb_val_of_index_zero t a (by match a with | ⟨0, _⟩ => rfl | ⟨1, _⟩ => rfl) y))
theorem iblk6 (c : Dev nD) (t : Fin cfg0.N) : (iblk m c 6 t : Vec Ideal S52x416 .f32) = arr6 m c := by
  funext y
  show V m c main_v125 (((cfg0.win 6).blk t).view.emb y) = V m c main_v125 y
  exact congrArg _ (funext fun a => Fin.ext
    (win0_6.rect_emb_val_of_index_zero t a (by match a with | ⟨0, _⟩ => rfl | ⟨1, _⟩ => rfl) y))
theorem iblk7 (c : Dev nD) (t : Fin cfg0.N) : (iblk m c 7 t : Vec Ideal S66x528 .f32) = arr7 m c := by
  funext y
  show V m c main_v146 (((cfg0.win 7).blk t).view.emb y) = V m c main_v146 y
  exact congrArg _ (funext fun a => Fin.ext
    (win0_7.rect_emb_val_of_index_zero t a (by match a with | ⟨0, _⟩ => rfl | ⟨1, _⟩ => rfl) y))
theorem iblk8 (c : Dev nD) (t : Fin cfg0.N) : (iblk m c 8 t : Vec Ideal S82x656 .f32) = arr8 m c := by
  funext y
  show V m c main_v167 (((cfg0.win 8).blk t).view.emb y) = V m c main_v167 y
  exact congrArg _ (funext fun a => Fin.ext
    (win0_8.rect_emb_val_of_index_zero t a (by match a with | ⟨0, _⟩ => rfl | ⟨1, _⟩ => rfl) y))
theorem iblk9 (c : Dev nD) (t : Fin cfg0.N) : (iblk m c 9 t : Vec Ideal S64x256 .f32) = arr9 m c := by
  funext y
  show V m c main_arg2 (((cfg0.win 9).blk t).view.emb y) = V m c main_arg2 y
  exact congrArg _ (funext fun a => Fin.ext
    (win0_9.rect_emb_val_of_index_zero t a (by match a with | ⟨0, _⟩ => rfl | ⟨1, _⟩ => rfl) y))
theorem iblk10 (c : Dev nD) (t : Fin cfg0.N) : (iblk m c 10 t : Vec Ideal S256x256 .f32) = arr10 m c := by
  funext y
  show V m c main_arg3 (((cfg0.win 10).blk t).view.emb y) = V m c main_arg3 y
  exact congrArg _ (funext fun a => Fin.ext
    (win0_10.rect_emb_val_of_index_zero t a (by match a with | ⟨0, _⟩ => rfl | ⟨1, _⟩ => rfl) y))
theorem iblk11 (c : Dev nD) (t : Fin cfg0.N) : (iblk m c 11 t : Vec Ideal S256x256 .f32) = arr11 m c := by
  funext y
  show V m c main_arg4 (((cfg0.win 11).blk t).view.emb y) = V m c main_arg4 y
  exact congrArg _ (funext fun a => Fin.ext
    (win0_11.rect_emb_val_of_index_zero t a (by match a with | ⟨0, _⟩ => rfl | ⟨1, _⟩ => rfl) y))
theorem iblk12 (c : Dev nD) (t : Fin cfg0.N) : (iblk m c 12 t : Vec Ideal S256x1 .f32) = arr12 m c := by
  funext y
  show V m c main_arg5 (((cfg0.win 12).blk t).view.emb y) = V m c main_arg5 y
  exact congrArg _ (funext fun a => Fin.ext
    (win0_12.rect_emb_val_of_index_zero t a (by match a with | ⟨0, _⟩ => rfl | ⟨1, _⟩ => rfl) y))

/-- The coordinate block and the output block of a point sit at the same rows of their arrays. -/
theorem iblk0_row (c : Dev nD) (t : Fin cfg0.N) (n : Fin 2048) (k : Fin 2) :
    (iblk m c 0 t : Vec Ideal S2048x2 .f32) (ix2 n k) = arrX m c (ix2 ((((cfg0.win 13).blk t).view.emb (ix2 n 0)) 0) k) := by
  show V m c main_arg0 (((cfg0.win 0).blk t).view.emb (ix2 n k))
    = V m c main_arg0 (ix2 ((((cfg0.win 13).blk t).view.emb (ix2 n 0)) 0) k)
  refine congrArg _ (funext fun a => Fin.ext ?_)
  match a with
  | ⟨0, _⟩ => rfl
  | ⟨1, _⟩ => exact win0_0.rect_emb_val_of_index_zero t 1 rfl (ix2 n k)

/-- Point t's write-back agrees with GV on its block. -/
theorem flushed13_eq (c : Dev nD) (t : Fin cfg0.N) :
    (dats m 0 c).flushed 13 t = ((cfg0.win 13).blk t).view.read (Elt Ideal) (GV m c) := by
  rw [Cert.KernelIdeal.Value.flushed13]
  funext j
  obtain ⟨n, rfl⟩ : ∃ n : Fin 2048, j = ix2 n (0 : Fin 1) := ⟨j 0, funext fun a => match a with
    | ⟨0, _⟩ => rfl
    | ⟨1, _⟩ => Fin.ext (by have h : (j 1).val < 1 := (j 1).isLt; show (j 1).val = 0; omega)⟩
  refine (out_apply _ _ _ _ _ _ _ _ _ _ _ _ _ n).trans ?_
  rw [iblk1 m c t, iblk2 m c t, iblk3 m c t, iblk4 m c t, iblk5 m c t, iblk6 m c t, iblk7 m c t, iblk8 m c t, iblk9 m c t,
    iblk10 m c t, iblk11 m c t, iblk12 m c t, iblk0_row, iblk0_row]
  rfl

theorem idx13 : ∀ t : Fin cfg0.N, win0_13.index t (0 : Fin 2) = t.val ∧ win0_13.index t (1 : Fin 2) = 0 :=
  (by decide +kernel : ∀ t : Fin grid0.N, _)

/-- The 128 output blocks cover the result: row r is in block r / 2048. -/
theorem cover13 (i : S262144x1.Idx) : ∃ t : Fin cfg0.N, (cfg0.win 13).flush t = true ∧ i ∈ ((cfg0.win 13).blk t).view.set := by
  have hi0 : (i 0).val < 262144 := (i 0).isLt
  have hi1 : (i 1).val < 1 := (i 1).isLt
  have ht : (i 0).val / 2048 < cfg0.N := by show (i 0).val / 2048 < 128; omega
  refine ⟨⟨_, ht⟩, flush0_13 _, ?_⟩
  show i ∈ ((View.whole main_v168).slice (win0_13.rect ⟨_, ht⟩)).set
  rw [View.set_slice_whole, Rect.mem_set_unit]
  have e := idx13 ⟨_, ht⟩
  intro a
  match a with
  | ⟨0, _⟩ => show win0_13.index _ (0 : Fin 2) * 2048 ≤ (i 0).val ∧ (i 0).val < win0_13.index _ (0 : Fin 2) * 2048 + 2048; have h := e.1; simp only at h; omega
  | ⟨1, _⟩ => show win0_13.index _ (1 : Fin 2) * 1 ≤ (i 1).val ∧ (i 1).val < win0_13.index _ (1 : Fin 2) * 1 + 1; have h := e.2; omega

/-- After the run the result array is GV. -/
theorem final13 (c : Dev nD) : (dats m 0 c).arrAt 13 cfg0.N = GV m c :=
  (dats m 0 c).arrAt_eq_of_cover 13 (GV m c) (fun t _ => flushed13_eq m c t) (cover13)

/-- A level over a lattice block whose entry (a, 8 b + f) is feature f of the table row of node (a, b). -/
private theorem lvl_eq {R : ℕ} {s res size : BitVec 32} {l : Fin 8} {T : (⟨3, ![8, 8192, 8]⟩ : Shape).Idx → EReal}
    {A : Vec Ideal ⟨2, ![R, R * 8]⟩ .f32} {px py : EReal}
    (h : ∀ a b f, A (ix2 a ⟨8 * b.val + f.val, by omega⟩) = Cert.Spec.latt T l res size R f a b) :
    lvlArr R s A px py = Cert.Spec.lvlKer T l s res size R px py :=
  funext fun f => congrArg (fun M => Cert.Spec.featKerM (R := R) M _ _ _ _) (funext fun a => funext fun b => h a b f)

/-- GV is the specification's GK of the six arguments. -/
theorem GV_eq_GK (c : Dev nD) :
    GV m c = Cert.Spec.GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  unfold GV Cert.Spec.GK pointRow Cert.Spec.encKer
  rw [lvl_eq (mat0_apply m c), lvl_eq (mat1_apply m c), lvl_eq (mat2_apply m c), lvl_eq (mat3_apply m c),
    lvl_eq (mat4_apply m c), lvl_eq (mat5_apply m c), lvl_eq (mat6_apply m c), lvl_eq (mat7_apply m c),
    show arrX m c = _ from V_main_arg0 m c, show arr9 m c = _ from V_main_arg2 m c, show arr10 m c = _ from V_main_arg3 m c,
    show arr11 m c = _ from V_main_arg4 m c, show arr12 m c = _ from V_main_arg5 m c]

/-- With real table entries and coordinates in [0, 1) GK equals G, so GV is G. -/
theorem GV_eq_G [Cert.Pre_finite_inputs.Facts] (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = (fun _ => 1#1)) :
    GV m c = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [GV_eq_GK]
  obtain ⟨hx, hT⟩ := Cert.PreFacts.pre_decode _ _ _ _ _ _ hpre
  funext i
  unfold Cert.Spec.GK Cert.Spec.G
  obtain ⟨rx, ex, hx0, hx1⟩ := hx (ix2 (i 0) 0)
  obtain ⟨ry, ey, hy0, hy1⟩ := hx (ix2 (i 0) 1)
  rw [ex, ey, Cert.Spec.encKer_eq_encRef _ hT rx ry hx0 hx1 hy0 hy1]

end Cert.KernelIdeal.KerVal

end
-- ==== Proof.RefOpsLib.lean ====
-- Three facts about a line of operations laid end to end in pieces, each read off a table with one entry per operation: TensorCore references only, result determined, and the one reference written.
import Idealize.ShloMosaic.Lib.StableHlo.Run
import Mathlib.Data.List.Basic
import Mathlib.Data.List.Forall2

namespace Cert.ReferenceIdeal.RefVal

open Idealize.ShloMosaic Idealize.ShloMosaic.StableHlo

variable {τ : Topo} {sig : RefSig} {Val : EltTy → Type}

abbrev WritesAt (ops : List (HloOp τ sig Val)) (W : List (Ref sig .tc)) : Prop :=
  List.Forall₂ (fun (op : HloOp τ sig Val) (y : Ref sig .tc) => op.writes = {Proc.devRef (τ := τ) .tc y}) ops W

theorem WritesAt.append {ops₁ ops₂ : List (HloOp τ sig Val)} {W₁ W₂ : List (Ref sig .tc)}
    (h₁ : WritesAt ops₁ W₁) (h₂ : WritesAt ops₂ W₂) : WritesAt (ops₁ ++ ops₂) (W₁ ++ W₂) :=
  List.rel_append h₁ h₂

theorem toFinset_map_mono {W W' : List (Ref sig .tc)} (h : ∀ y ∈ W, y ∈ W') :
    (W.map (Proc.devRef (τ := τ) .tc)).toFinset ⊆ (W'.map (Proc.devRef (τ := τ) .tc)).toFinset := by
  intro b hb
  obtain ⟨y, hy, rfl⟩ := List.mem_map.mp (List.mem_toFinset.mp hb)
  exact List.mem_toFinset.mpr (List.mem_map.mpr ⟨y, h y hy, rfl⟩)

theorem WritesAt.forall_sub {ops : List (HloOp τ sig Val)} {W : List (Ref sig .tc)} (h : WritesAt ops W) :
    ops.Forall fun op => op.writes ⊆ (W.map (Proc.devRef (τ := τ) .tc)).toFinset := by
  induction h with
  | nil => exact trivial
  | @cons op y ops W hxy _ ih =>
    rw [List.forall_cons]
    refine ⟨?_, ih.imp fun o ho => ho.trans (toFinset_map_mono fun z hz => List.mem_cons_of_mem _ hz)⟩
    rw [hxy, Finset.singleton_subset_iff]
    exact List.mem_toFinset.mpr (List.mem_map.mpr ⟨y, List.mem_cons_self, rfl⟩)

theorem forall_append' {p : HloOp τ sig Val → Prop} {ops₁ ops₂ : List (HloOp τ sig Val)}
    (h₁ : ops₁.Forall p) (h₂ : ops₂.Forall p) : (ops₁ ++ ops₂).Forall p :=
  List.forall_append.mpr ⟨h₁, h₂⟩

end Cert.ReferenceIdeal.RefVal
-- ==== Proof.RefOps0.lean ====
-- The reference's operations in the printed order, a call's operations written at the call; beside each piece, the reference every operation writes.
import proofs.«132274_j36180804501977_1_alg».proof.ReferenceIdeal
import proofs.«132274_j36180804501977_1_alg».proof.Proof.RefOpsLib
import Idealize.ShloMosaic.Lib.StableHlo.Run

set_option maxRecDepth 8192

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

abbrev piece0 : List (HloOp τ sig (Elt F)) :=
  [ StableHlo.nullary main_cst (constant S_ .f32 0x41700000#32),
    StableHlo.unary main_cst main_v0 (broadcastInDim S262144x2 ![] bcast_S_S262144x2 : Vec F S_ .f32 → Vec F S262144x2 .f32),
    StableHlo.binary main_arg0 main_v0 main_v1 (mulf : Vec F S262144x2 .f32 → Vec F S262144x2 .f32 → Vec F S262144x2 .f32),
    StableHlo.nullary main_cst_0 (constant S_ .f32 0x3F000000#32),
    StableHlo.unary main_cst_0 main_v2 (broadcastInDim S262144x2 ![] bcast_S_S262144x2 : Vec F S_ .f32 → Vec F S262144x2 .f32),
    StableHlo.binary main_v1 main_v2 main_v3 (addf : Vec F S262144x2 .f32 → Vec F S262144x2 .f32 → Vec F S262144x2 .f32),
    StableHlo.unary main_v3 main_v4 (Host.floor : Vec F S262144x2 .f32 → Vec F S262144x2 .f32),
    StableHlo.binary main_v3 main_v4 main_v5 (subf : Vec F S262144x2 .f32 → Vec F S262144x2 .f32 → Vec F S262144x2 .f32),
    StableHlo.unary main_v4 main_v6 (fptosi 32 : Vec F S262144x2 .f32 → Vec F S262144x2 .i32),
    StableHlo.binary main_v5 main_v5 main_v7 (mulf : Vec F S262144x2 .f32 → Vec F S262144x2 .f32 → Vec F S262144x2 .f32),
    StableHlo.nullary main_cst_1 (constant S_ .f32 0x40000000#32),
    StableHlo.unary main_cst_1 main_v8 (broadcastInDim S262144x2 ![] bcast_S_S262144x2 : Vec F S_ .f32 → Vec F S262144x2 .f32),
    StableHlo.binary main_v8 main_v5 main_v9 (mulf : Vec F S262144x2 .f32 → Vec F S262144x2 .f32 → Vec F S262144x2 .f32),
    StableHlo.nullary main_cst_2 (constant S_ .f32 0x40400000#32),
    StableHlo.unary main_cst_2 main_v10 (broadcastInDim S262144x2 ![] bcast_S_S262144x2 : Vec F S_ .f32 → Vec F S262144x2 .f32),
    StableHlo.binary main_v10 main_v9 main_v11 (subf : Vec F S262144x2 .f32 → Vec F S262144x2 .f32 → Vec F S262144x2 .f32),
    StableHlo.binary main_v7 main_v11 main_v12 (mulf : Vec F S262144x2 .f32 → Vec F S262144x2 .f32 → Vec F S262144x2 .f32),
    StableHlo.nullary main_cst_3 (constant S_ .f32 0x00000000#32),
    StableHlo.unary main_cst_3 main_v13 (broadcastInDim S262144x8 ![] bcast_S_S262144x8 : Vec F S_ .f32 → Vec F S262144x8 .f32),
    StableHlo.unary main_v12 main_v14 ((extractStridedSlice S262144x1 ![0, 0] · slices_S262144x2_S262144x1_0_0) : Vec F S262144x2 .f32 → Vec F S262144x1 .f32),
    StableHlo.reshape main_v14 main_v15 rfl shapeCasts_S262144x1_S262144,
    StableHlo.nullary main_cst_4 (constant S_ .f32 0x3F800000#32),
    StableHlo.unary main_cst_4 main_v16 (broadcastInDim S262144 ![] bcast_S_S262144 : Vec F S_ .f32 → Vec F S262144 .f32),
    StableHlo.binary main_v16 main_v15 main_v17 (subf : Vec F S262144 .f32 → Vec F S262144 .f32 → Vec F S262144 .f32),
    StableHlo.unary main_v12 main_v18 ((extractStridedSlice S262144x1 ![0, 1] · slices_S262144x2_S262144x1_0_1) : Vec F S262144x2 .f32 → Vec F S262144x1 .f32),
    StableHlo.reshape main_v18 main_v19 rfl shapeCasts_S262144x1_S262144,
    StableHlo.nullary main_cst_5 (constant S_ .f32 0x3F800000#32),
    StableHlo.unary main_cst_5 main_v20 (broadcastInDim S262144 ![] bcast_S_S262144 : Vec F S_ .f32 → Vec F S262144 .f32),
    StableHlo.binary main_v20 main_v19 main_v21 (subf : Vec F S262144 .f32 → Vec F S262144 .f32 → Vec F S262144 .f32),
    StableHlo.unary main_v6 main_v22 ((extractStridedSlice S262144x1 ![0, 0] · slices_S262144x2_S262144x1_0_0) : Vec F S262144x2 .i32 → Vec F S262144x1 .i32),
    StableHlo.reshape main_v22 main_v23 rfl shapeCasts_S262144x1_S262144,
    StableHlo.nullary main_c (constantI S_ 32 0#32),
    StableHlo.unary main_c main_v24 (broadcastInDim S262144 ![] bcast_S_S262144 : Vec F S_ .i32 → Vec F S262144 .i32),
    StableHlo.binary main_v23 main_v24 main_v25 (addi : Vec F S262144 .i32 → Vec F S262144 .i32 → Vec F S262144 .i32),
    StableHlo.unary main_v6 main_v26 ((extractStridedSlice S262144x1 ![0, 1] · slices_S262144x2_S262144x1_0_1) : Vec F S262144x2 .i32 → Vec F S262144x1 .i32),
    StableHlo.reshape main_v26 main_v27 rfl shapeCasts_S262144x1_S262144,
    StableHlo.nullary main_c_6 (constantI S_ 32 0#32),
    StableHlo.unary main_c_6 main_v28 (broadcastInDim S262144 ![] bcast_S_S262144 : Vec F S_ .i32 → Vec F S262144 .i32),
    StableHlo.binary main_v27 main_v28 main_v29 (addi : Vec F S262144 .i32 → Vec F S262144 .i32 → Vec F S262144 .i32),
    StableHlo.nullary main_c_7 (constantI S_ 32 16#32),
    StableHlo.unary main_c_7 main_v30 (broadcastInDim S262144 ![] bcast_S_S262144 : Vec F S_ .i32 → Vec F S262144 .i32),
    StableHlo.binary main_v29 main_v30 main_v31 (muli : Vec F S262144 .i32 → Vec F S262144 .i32 → Vec F S262144 .i32),
    StableHlo.binary main_v25 main_v31 main_v32 (addi : Vec F S262144 .i32 → Vec F S262144 .i32 → Vec F S262144 .i32),
    StableHlo.nullary main_c_8 (constantI S_ 32 256#32),
    StableHlo.TRef.unary (.of main_c_8 : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S262144 ![] bcast_S_S262144),
    StableHlo.TRef.binary (.of main_v32 : StableHlo.TRef sig ⟨S262144, .i32⟩) main_call0.v3 main_call0.v4 Host.remsi,
    StableHlo.TRef.nullary main_call0.c_1 (constantI S_ 32 0#32),
    StableHlo.TRef.unary main_call0.c_1 main_call0.v5 (broadcastInDim S262144 ![] bcast_S_S262144),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S262144 ![] bcast_S_S262144),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S262144 ![] bcast_S_S262144),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S262144 ![] bcast_S_S262144),
    StableHlo.TRef.binary main_call0.v4 main_call0.v13 main_call0.v14 addi,
    StableHlo.TRef.ternary main_call0.v12 main_call0.v14 main_call0.v4 main_call0.v15 select,
    StableHlo.binary main_v17 main_v21 main_v34 (mulf : Vec F S262144 .f32 → Vec F S262144 .f32 → Vec F S262144 .f32),
    StableHlo.unary main_v34 main_v35 (broadcastInDim S262144x1 ![0] bcast_S262144_S262144x1_0 : Vec F S262144 .f32 → Vec F S262144x1 .f32),
    StableHlo.nullary main_c_9 (constantI S_ 32 0#32),
    StableHlo.unary main_c_9 main_v36 (broadcastInDim S262144 ![] bcast_S_S262144 : Vec F S_ .i32 → Vec F S262144 .i32),
    StableHlo.binary main_v33 main_v36 main_v37 (cmpi .slt : Vec F S262144 .i32 → Vec F S262144 .i32 → Vec F S262144 .i1),
    StableHlo.nullary main_c_10 (constantI S_ 32 8192#32),
    StableHlo.unary main_c_10 main_v38 (broadcastInDim S262144 ![] bcast_S_S262144 : Vec F S_ .i32 → Vec F S262144 .i32),
    StableHlo.binary main_v33 main_v38 main_v39 (addi : Vec F S262144 .i32 → Vec F S262144 .i32 → Vec F S262144 .i32),
    StableHlo.ternary main_v37 main_v39 main_v33 main_v40 (select : Vec F S262144 .i1 → Vec F S262144 .i32 → Vec F S262144 .i32 → Vec F S262144 .i32),
    StableHlo.nullary main_c_11 (constantI S_ 32 0#32),
    StableHlo.unary main_c_11 main_v41 (broadcastInDim S262144 ![] bcast_S_S262144 : Vec F S_ .i32 → Vec F S262144 .i32),
    StableHlo.unary main_v41 main_v42 (id : Vec F S262144 .i32 → Vec F S262144 .i32),
    StableHlo.unary main_v42 main_v43 (broadcastInDim S262144x1 ![0] bcast_S262144_S262144x1_0 : Vec F S262144 .i32 → Vec F S262144x1 .i32),
    StableHlo.unary main_v40 main_v44 (broadcastInDim S262144x1 ![0] bcast_S262144_S262144x1_0 : Vec F S262144 .i32 → Vec F S262144x1 .i32),
    StableHlo.binary main_v43 main_v44 main_v45 ((fun a b => concatenate S262144x2 1 [⟨S262144x1, a⟩, ⟨S262144x1, b⟩] concatenates_S262144x1_S262144x1_S262144x2_d1) : Vec F S262144x1 .i32 → Vec F S262144x1 .i32 → Vec F S262144x2 .i32) ]

abbrev piece0W : List (Ref sig .tc) :=
  [main_cst, main_v0, main_v1, main_cst_0, main_v2, main_v3, main_v4, main_v5, main_v6, main_v7, main_cst_1, main_v8, main_v9, main_cst_2, main_v10, main_v11, main_v12, main_cst_3, main_v13, main_v14, main_v15, main_cst_4, main_v16, main_v17, main_v18, main_v19, main_cst_5, main_v20, main_v21, main_v22, main_v23, main_c, main_v24, main_v25, main_v26, main_v27, main_c_6, main_v28, main_v29, main_c_7, main_v30, main_v31, main_v32, main_c_8, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v33, main_v34, main_v35, main_c_9, main_v36, main_v37, main_c_10, main_v38, main_v39, main_v40, main_c_11, main_v41, main_v42, main_v43, main_v44, main_v45]

theorem piece0_sub : (piece0 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece0_fresh : (piece0 : List (HloOp τ sig (Elt F))).Forall fun op => op.fresh = ∅ := by
  repeat' first | refine ⟨?_, ?_⟩ | exact rfl

theorem piece0_writes : WritesAt (piece0 : List (HloOp τ sig (Elt F))) piece0W := by
  repeat first | exact .nil | refine .cons rfl ?_

abbrev piece1 : List (HloOp τ sig (Elt F)) :=
  [ StableHlo.binary main_arg1 main_v45 main_v46 ((fun x i => Host.gather gather_S8x8192x8_S262144x2_S262144x8_1_01_n_n_01_1_118 x i) : Vec F S8x8192x8 .f32 → Vec F S262144x2 .i32 → Vec F S262144x8 .f32),
    StableHlo.unary main_v35 main_v47 (broadcastInDim S262144x8 ![0, 1] bcast_S262144x1_S262144x8_0_1 : Vec F S262144x1 .f32 → Vec F S262144x8 .f32),
    StableHlo.binary main_v47 main_v46 main_v48 (mulf : Vec F S262144x8 .f32 → Vec F S262144x8 .f32 → Vec F S262144x8 .f32),
    StableHlo.binary main_v13 main_v48 main_v49 (addf : Vec F S262144x8 .f32 → Vec F S262144x8 .f32 → Vec F S262144x8 .f32),
    StableHlo.unary main_v12 main_v50 ((extractStridedSlice S262144x1 ![0, 1] · slices_S262144x2_S262144x1_0_1) : Vec F S262144x2 .f32 → Vec F S262144x1 .f32),
    StableHlo.reshape main_v50 main_v51 rfl shapeCasts_S262144x1_S262144,
    StableHlo.unary main_v6 main_v52 ((extractStridedSlice S262144x1 ![0, 0] · slices_S262144x2_S262144x1_0_0) : Vec F S262144x2 .i32 → Vec F S262144x1 .i32),
    StableHlo.reshape main_v52 main_v53 rfl shapeCasts_S262144x1_S262144,
    StableHlo.nullary main_c_12 (constantI S_ 32 0#32),
    StableHlo.unary main_c_12 main_v54 (broadcastInDim S262144 ![] bcast_S_S262144 : Vec F S_ .i32 → Vec F S262144 .i32),
    StableHlo.binary main_v53 main_v54 main_v55 (addi : Vec F S262144 .i32 → Vec F S262144 .i32 → Vec F S262144 .i32),
    StableHlo.unary main_v6 main_v56 ((extractStridedSlice S262144x1 ![0, 1] · slices_S262144x2_S262144x1_0_1) : Vec F S262144x2 .i32 → Vec F S262144x1 .i32),
    StableHlo.reshape main_v56 main_v57 rfl shapeCasts_S262144x1_S262144,
    StableHlo.nullary main_c_13 (constantI S_ 32 1#32),
    StableHlo.unary main_c_13 main_v58 (broadcastInDim S262144 ![] bcast_S_S262144 : Vec F S_ .i32 → Vec F S262144 .i32),
    StableHlo.binary main_v57 main_v58 main_v59 (addi : Vec F S262144 .i32 → Vec F S262144 .i32 → Vec F S262144 .i32),
    StableHlo.nullary main_c_14 (constantI S_ 32 16#32),
    StableHlo.unary main_c_14 main_v60 (broadcastInDim S262144 ![] bcast_S_S262144 : Vec F S_ .i32 → Vec F S262144 .i32),
    StableHlo.binary main_v59 main_v60 main_v61 (muli : Vec F S262144 .i32 → Vec F S262144 .i32 → Vec F S262144 .i32),
    StableHlo.binary main_v55 main_v61 main_v62 (addi : Vec F S262144 .i32 → Vec F S262144 .i32 → Vec F S262144 .i32),
    StableHlo.nullary main_c_15 (constantI S_ 32 256#32),
    StableHlo.TRef.unary (.of main_c_15 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S262144 ![] bcast_S_S262144),
    StableHlo.TRef.binary (.of main_v62 : StableHlo.TRef sig ⟨S262144, .i32⟩) main_call1.v3 main_call1.v4 Host.remsi,
    StableHlo.TRef.nullary main_call1.c_1 (constantI S_ 32 0#32),
    StableHlo.TRef.unary main_call1.c_1 main_call1.v5 (broadcastInDim S262144 ![] bcast_S_S262144),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S262144 ![] bcast_S_S262144),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S262144 ![] bcast_S_S262144),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S262144 ![] bcast_S_S262144),
    StableHlo.TRef.binary main_call1.v4 main_call1.v13 main_call1.v14 addi,
    StableHlo.TRef.ternary main_call1.v12 main_call1.v14 main_call1.v4 main_call1.v15 select,
    StableHlo.binary main_v17 main_v51 main_v64 (mulf : Vec F S262144 .f32 → Vec F S262144 .f32 → Vec F S262144 .f32),
    StableHlo.unary main_v64 main_v65 (broadcastInDim S262144x1 ![0] bcast_S262144_S262144x1_0 : Vec F S262144 .f32 → Vec F S262144x1 .f32),
    StableHlo.nullary main_c_16 (constantI S_ 32 0#32),
    StableHlo.unary main_c_16 main_v66 (broadcastInDim S262144 ![] bcast_S_S262144 : Vec F S_ .i32 → Vec F S262144 .i32),
    StableHlo.binary main_v63 main_v66 main_v67 (cmpi .slt : Vec F S262144 .i32 → Vec F S262144 .i32 → Vec F S262144 .i1),
    StableHlo.nullary main_c_17 (constantI S_ 32 8192#32),
    StableHlo.unary main_c_17 main_v68 (broadcastInDim S262144 ![] bcast_S_S262144 : Vec F S_ .i32 → Vec F S262144 .i32),
    StableHlo.binary main_v63 main_v68 main_v69 (addi : Vec F S262144 .i32 → Vec F S262144 .i32 → Vec F S262144 .i32),
    StableHlo.ternary main_v67 main_v69 main_v63 main_v70 (select : Vec F S262144 .i1 → Vec F S262144 .i32 → Vec F S262144 .i32 → Vec F S262144 .i32),
    StableHlo.nullary main_c_18 (constantI S_ 32 0#32),
    StableHlo.unary main_c_18 main_v71 (broadcastInDim S262144 ![] bcast_S_S262144 : Vec F S_ .i32 → Vec F S262144 .i32),
    StableHlo.unary main_v71 main_v72 (id : Vec F S262144 .i32 → Vec F S262144 .i32),
    StableHlo.unary main_v72 main_v73 (broadcastInDim S262144x1 ![0] bcast_S262144_S262144x1_0 : Vec F S262144 .i32 → Vec F S262144x1 .i32),
    StableHlo.unary main_v70 main_v74 (broadcastInDim S262144x1 ![0] bcast_S262144_S262144x1_0 : Vec F S262144 .i32 → Vec F S262144x1 .i32),
    StableHlo.binary main_v73 main_v74 main_v75 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v75 main_v76 ((fun x i => Host.gather gather_S8x8192x8_S262144x2_S262144x8_1_01_n_n_01_1_118 x i) : Vec F S8x8192x8 .f32 → Vec F S262144x2 .i32 → Vec F S262144x8 .f32),
    StableHlo.unary main_v65 main_v77 (broadcastInDim S262144x8 ![0, 1] bcast_S262144x1_S262144x8_0_1 : Vec F S262144x1 .f32 → Vec F S262144x8 .f32),
    StableHlo.binary main_v77 main_v76 main_v78 (mulf : Vec F S262144x8 .f32 → Vec F S262144x8 .f32 → Vec F S262144x8 .f32),
    StableHlo.binary main_v49 main_v78 main_v79 (addf : Vec F S262144x8 .f32 → Vec F S262144x8 .f32 → Vec F S262144x8 .f32),
    StableHlo.unary main_v12 main_v80 ((extractStridedSlice S262144x1 ![0, 0] · slices_S262144x2_S262144x1_0_0) : Vec F S262144x2 .f32 → Vec F S262144x1 .f32),
    StableHlo.reshape main_v80 main_v81 rfl shapeCasts_S262144x1_S262144,
    StableHlo.unary main_v12 main_v82 ((extractStridedSlice S262144x1 ![0, 1] · slices_S262144x2_S262144x1_0_1) : Vec F S262144x2 .f32 → Vec F S262144x1 .f32),
    StableHlo.reshape main_v82 main_v83 rfl shapeCasts_S262144x1_S262144,
    StableHlo.nullary main_cst_19 (constant S_ .f32 0x3F800000#32),
    StableHlo.unary main_cst_19 main_v84 (broadcastInDim S262144 ![] bcast_S_S262144 : Vec F S_ .f32 → Vec F S262144 .f32),
    StableHlo.binary main_v84 main_v83 main_v85 (subf : Vec F S262144 .f32 → Vec F S262144 .f32 → Vec F S262144 .f32),
    StableHlo.unary main_v6 main_v86 ((extractStridedSlice S262144x1 ![0, 0] · slices_S262144x2_S262144x1_0_0) : Vec F S262144x2 .i32 → Vec F S262144x1 .i32),
    StableHlo.reshape main_v86 main_v87 rfl shapeCasts_S262144x1_S262144,
    StableHlo.nullary main_c_20 (constantI S_ 32 1#32),
    StableHlo.unary main_c_20 main_v88 (broadcastInDim S262144 ![] bcast_S_S262144 : Vec F S_ .i32 → Vec F S262144 .i32),
    StableHlo.binary main_v87 main_v88 main_v89 (addi : Vec F S262144 .i32 → Vec F S262144 .i32 → Vec F S262144 .i32),
    StableHlo.unary main_v6 main_v90 ((extractStridedSlice S262144x1 ![0, 1] · slices_S262144x2_S262144x1_0_1) : Vec F S262144x2 .i32 → Vec F S262144x1 .i32),
    StableHlo.reshape main_v90 main_v91 rfl shapeCasts_S262144x1_S262144,
    StableHlo.nullary main_c_21 (constantI S_ 32 0#32),
    StableHlo.unary main_c_21 main_v92 (broadcastInDim S262144 ![] bcast_S_S262144 : Vec F S_ .i32 → Vec F S262144 .i32),
    StableHlo.binary main_v91 main_v92 main_v93 (addi : Vec F S262144 .i32 → Vec F S262144 .i32 → Vec F S262144 .i32),
    StableHlo.nullary main_c_22 (constantI S_ 32 16#32),
    StableHlo.unary main_c_22 main_v94 (broadcastInDim S262144 ![] bcast_S_S262144 : Vec F S_ .i32 → Vec F S262144 .i32) ]

abbrev piece1W : List (Ref sig .tc) :=
  [main_v46, main_v47, main_v48, main_v49, main_v50, main_v51, main_v52, main_v53, main_c_12, main_v54, main_v55, main_v56, main_v57, main_c_13, main_v58, main_v59, main_c_14, main_v60, main_v61, main_v62, main_c_15, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v63, main_v64, main_v65, main_c_16, main_v66, main_v67, main_c_17, main_v68, main_v69, main_v70, main_c_18, main_v71, main_v72, main_v73, main_v74, main_v75, main_v76, main_v77, main_v78, main_v79, main_v80, main_v81, main_v82, main_v83, main_cst_19, main_v84, main_v85, main_v86, main_v87, main_c_20, main_v88, main_v89, main_v90, main_v91, main_c_21, main_v92, main_v93, main_c_22, main_v94]

theorem piece1_sub : (piece1 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece1_fresh : (piece1 : List (HloOp τ sig (Elt F))).Forall fun op => op.fresh = ∅ := by
  repeat' first | refine ⟨?_, ?_⟩ | exact rfl

theorem piece1_writes : WritesAt (piece1 : List (HloOp τ sig (Elt F))) piece1W := by
  repeat first | exact .nil | refine .cons rfl ?_

abbrev piece2 : List (HloOp τ sig (Elt F)) :=
  [ StableHlo.binary main_v93 main_v94 main_v95 (muli : Vec F S262144 .i32 → Vec F S262144 .i32 → Vec F S262144 .i32),
    StableHlo.binary main_v89 main_v95 main_v96 (addi : Vec F S262144 .i32 → Vec F S262144 .i32 → Vec F S262144 .i32),
    StableHlo.nullary main_c_23 (constantI S_ 32 256#32),
    StableHlo.TRef.unary (.of main_c_23 : StableHlo.TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S262144 ![] bcast_S_S262144),
    StableHlo.TRef.binary (.of main_v96 : StableHlo.TRef sig ⟨S262144, .i32⟩) main_call2.v3 main_call2.v4 Host.remsi,
    StableHlo.TRef.nullary main_call2.c_1 (constantI S_ 32 0#32),
    StableHlo.TRef.unary main_call2.c_1 main_call2.v5 (broadcastInDim S262144 ![] bcast_S_S262144),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S262144 ![] bcast_S_S262144),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S262144 ![] bcast_S_S262144),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S262144 ![] bcast_S_S262144),
    StableHlo.TRef.binary main_call2.v4 main_call2.v13 main_call2.v14 addi,
    StableHlo.TRef.ternary main_call2.v12 main_call2.v14 main_call2.v4 main_call2.v15 select,
    StableHlo.binary main_v81 main_v85 main_v98 (mulf : Vec F S262144 .f32 → Vec F S262144 .f32 → Vec F S262144 .f32),
    StableHlo.unary main_v98 main_v99 (broadcastInDim S262144x1 ![0] bcast_S262144_S262144x1_0 : Vec F S262144 .f32 → Vec F S262144x1 .f32),
    StableHlo.nullary main_c_24 (constantI S_ 32 0#32),
    StableHlo.unary main_c_24 main_v100 (broadcastInDim S262144 ![] bcast_S_S262144 : Vec F S_ .i32 → Vec F S262144 .i32),
    StableHlo.binary main_v97 main_v100 main_v101 (cmpi .slt : Vec F S262144 .i32 → Vec F S262144 .i32 → Vec F S262144 .i1),
    StableHlo.nullary main_c_25 (constantI S_ 32 8192#32),
    StableHlo.unary main_c_25 main_v102 (broadcastInDim S262144 ![] bcast_S_S262144 : Vec F S_ .i32 → Vec F S262144 .i32),
    StableHlo.binary main_v97 main_v102 main_v103 (addi : Vec F S262144 .i32 → Vec F S262144 .i32 → Vec F S262144 .i32),
    StableHlo.ternary main_v101 main_v103 main_v97 main_v104 (select : Vec F S262144 .i1 → Vec F S262144 .i32 → Vec F S262144 .i32 → Vec F S262144 .i32),
    StableHlo.nullary main_c_26 (constantI S_ 32 0#32),
    StableHlo.unary main_c_26 main_v105 (broadcastInDim S262144 ![] bcast_S_S262144 : Vec F S_ .i32 → Vec F S262144 .i32),
    StableHlo.unary main_v105 main_v106 (id : Vec F S262144 .i32 → Vec F S262144 .i32),
    StableHlo.unary main_v106 main_v107 (broadcastInDim S262144x1 ![0] bcast_S262144_S262144x1_0 : Vec F S262144 .i32 → Vec F S262144x1 .i32),
    StableHlo.unary main_v104 main_v108 (broadcastInDim S262144x1 ![0] bcast_S262144_S262144x1_0 : Vec F S262144 .i32 → Vec F S262144x1 .i32),
    StableHlo.binary main_v107 main_v108 main_v109 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v109 main_v110 ((fun x i => Host.gather gather_S8x8192x8_S262144x2_S262144x8_1_01_n_n_01_1_118 x i) : Vec F S8x8192x8 .f32 → Vec F S262144x2 .i32 → Vec F S262144x8 .f32),
    StableHlo.unary main_v99 main_v111 (broadcastInDim S262144x8 ![0, 1] bcast_S262144x1_S262144x8_0_1 : Vec F S262144x1 .f32 → Vec F S262144x8 .f32),
    StableHlo.binary main_v111 main_v110 main_v112 (mulf : Vec F S262144x8 .f32 → Vec F S262144x8 .f32 → Vec F S262144x8 .f32),
    StableHlo.binary main_v79 main_v112 main_v113 (addf : Vec F S262144x8 .f32 → Vec F S262144x8 .f32 → Vec F S262144x8 .f32),
    StableHlo.unary main_v12 main_v114 ((extractStridedSlice S262144x1 ![0, 1] · slices_S262144x2_S262144x1_0_1) : Vec F S262144x2 .f32 → Vec F S262144x1 .f32),
    StableHlo.reshape main_v114 main_v115 rfl shapeCasts_S262144x1_S262144,
    StableHlo.unary main_v6 main_v116 ((extractStridedSlice S262144x1 ![0, 0] · slices_S262144x2_S262144x1_0_0) : Vec F S262144x2 .i32 → Vec F S262144x1 .i32),
    StableHlo.reshape main_v116 main_v117 rfl shapeCasts_S262144x1_S262144,
    StableHlo.nullary main_c_27 (constantI S_ 32 1#32),
    StableHlo.unary main_c_27 main_v118 (broadcastInDim S262144 ![] bcast_S_S262144 : Vec F S_ .i32 → Vec F S262144 .i32),
    StableHlo.binary main_v117 main_v118 main_v119 (addi : Vec F S262144 .i32 → Vec F S262144 .i32 → Vec F S262144 .i32),
    StableHlo.unary main_v6 main_v120 ((extractStridedSlice S262144x1 ![0, 1] · slices_S262144x2_S262144x1_0_1) : Vec F S262144x2 .i32 → Vec F S262144x1 .i32),
    StableHlo.reshape main_v120 main_v121 rfl shapeCasts_S262144x1_S262144,
    StableHlo.nullary main_c_28 (constantI S_ 32 1#32),
    StableHlo.unary main_c_28 main_v122 (broadcastInDim S262144 ![] bcast_S_S262144 : Vec F S_ .i32 → Vec F S262144 .i32),
    StableHlo.binary main_v121 main_v122 main_v123 (addi : Vec F S262144 .i32 → Vec F S262144 .i32 → Vec F S262144 .i32),
    StableHlo.nullary main_c_29 (constantI S_ 32 16#32),
    StableHlo.unary main_c_29 main_v124 (broadcastInDim S262144 ![] bcast_S_S262144 : Vec F S_ .i32 → Vec F S262144 .i32),
    StableHlo.binary main_v123 main_v124 main_v125 (muli : Vec F S262144 .i32 → Vec F S262144 .i32 → Vec F S262144 .i32),
    StableHlo.binary main_v119 main_v125 main_v126 (addi : Vec F S262144 .i32 → Vec F S262144 .i32 → Vec F S262144 .i32),
    StableHlo.nullary main_c_30 (constantI S_ 32 256#32),
    StableHlo.TRef.unary (.of main_c_30 : StableHlo.TRef sig ⟨S_, .i32⟩) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S262144 ![] bcast_S_S262144),
    StableHlo.TRef.binary (.of main_v126 : StableHlo.TRef sig ⟨S262144, .i32⟩) main_call3.v3 main_call3.v4 Host.remsi,
    StableHlo.TRef.nullary main_call3.c_1 (constantI S_ 32 0#32),
    StableHlo.TRef.unary main_call3.c_1 main_call3.v5 (broadcastInDim S262144 ![] bcast_S_S262144),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S262144 ![] bcast_S_S262144),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S262144 ![] bcast_S_S262144),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S262144 ![] bcast_S_S262144),
    StableHlo.TRef.binary main_call3.v4 main_call3.v13 main_call3.v14 addi,
    StableHlo.TRef.ternary main_call3.v12 main_call3.v14 main_call3.v4 main_call3.v15 select,
    StableHlo.binary main_v81 main_v115 main_v128 (mulf : Vec F S262144 .f32 → Vec F S262144 .f32 → Vec F S262144 .f32),
    StableHlo.unary main_v128 main_v129 (broadcastInDim S262144x1 ![0] bcast_S262144_S262144x1_0 : Vec F S262144 .f32 → Vec F S262144x1 .f32),
    StableHlo.nullary main_c_31 (constantI S_ 32 0#32),
    StableHlo.unary main_c_31 main_v130 (broadcastInDim S262144 ![] bcast_S_S262144 : Vec F S_ .i32 → Vec F S262144 .i32),
    StableHlo.binary main_v127 main_v130 main_v131 (cmpi .slt : Vec F S262144 .i32 → Vec F S262144 .i32 → Vec F S262144 .i1),
    StableHlo.nullary main_c_32 (constantI S_ 32 8192#32),
    StableHlo.unary main_c_32 main_v132 (broadcastInDim S262144 ![] bcast_S_S262144 : Vec F S_ .i32 → Vec F S262144 .i32),
    StableHlo.binary main_v127 main_v132 main_v133 (addi : Vec F S262144 .i32 → Vec F S262144 .i32 → Vec F S262144 .i32),
    StableHlo.ternary main_v131 main_v133 main_v127 main_v134 (select : Vec F S262144 .i1 → Vec F S262144 .i32 → Vec F S262144 .i32 → Vec F S262144 .i32),
    StableHlo.nullary main_c_33 (constantI S_ 32 0#32),
    StableHlo.unary main_c_33 main_v135 (broadcastInDim S262144 ![] bcast_S_S262144 : Vec F S_ .i32 → Vec F S262144 .i32),
    StableHlo.unary main_v135 main_v136 (id : Vec F S262144 .i32 → Vec F S262144 .i32),
    StableHlo.unary main_v136 main_v137 (broadcastInDim S262144x1 ![0] bcast_S262144_S262144x1_0 : Vec F S262144 .i32 → Vec F S262144x1 .i32),
    StableHlo.unary main_v134 main_v138 (broadcastInDim S262144x1 ![0] bcast_S262144_S262144x1_0 : Vec F S262144 .i32 → Vec F S262144x1 .i32),
    StableHlo.binary main_v137 main_v138 main_v139 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v139 main_v140 ((fun x i => Host.gather gather_S8x8192x8_S262144x2_S262144x8_1_01_n_n_01_1_118 x i) : Vec F S8x8192x8 .f32 → Vec F S262144x2 .i32 → Vec F S262144x8 .f32),
    StableHlo.unary main_v129 main_v141 (broadcastInDim S262144x8 ![0, 1] bcast_S262144x1_S262144x8_0_1 : Vec F S262144x1 .f32 → Vec F S262144x8 .f32),
    StableHlo.binary main_v141 main_v140 main_v142 (mulf : Vec F S262144x8 .f32 → Vec F S262144x8 .f32 → Vec F S262144x8 .f32),
    StableHlo.binary main_v113 main_v142 main_v143 (addf : Vec F S262144x8 .f32 → Vec F S262144x8 .f32 → Vec F S262144x8 .f32) ]

abbrev piece2W : List (Ref sig .tc) :=
  [main_v95, main_v96, main_c_23, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v97, main_v98, main_v99, main_c_24, main_v100, main_v101, main_c_25, main_v102, main_v103, main_v104, main_c_26, main_v105, main_v106, main_v107, main_v108, main_v109, main_v110, main_v111, main_v112, main_v113, main_v114, main_v115, main_v116, main_v117, main_c_27, main_v118, main_v119, main_v120, main_v121, main_c_28, main_v122, main_v123, main_c_29, main_v124, main_v125, main_v126, main_c_30, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v127, main_v128, main_v129, main_c_31, main_v130, main_v131, main_c_32, main_v132, main_v133, main_v134, main_c_33, main_v135, main_v136, main_v137, main_v138, main_v139, main_v140, main_v141, main_v142, main_v143]

theorem piece2_sub : (piece2 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece2_fresh : (piece2 : List (HloOp τ sig (Elt F))).Forall fun op => op.fresh = ∅ := by
  repeat' first | refine ⟨?_, ?_⟩ | exact rfl

theorem piece2_writes : WritesAt (piece2 : List (HloOp τ sig (Elt F))) piece2W := by
  repeat first | exact .nil | refine .cons rfl ?_

abbrev lvlOps0 : List (HloOp τ sig (Elt F)) := piece0 ++ piece1 ++ piece2

abbrev lvlWrites0 : List (Ref sig .tc) := piece0W ++ piece1W ++ piece2W

theorem lvlOps0_sub : (lvlOps0 : List (HloOp τ sig (Elt F))).Forall fun op => op.bufs ⊆ tcRefs τ sig :=
  forall_append' (forall_append' (piece0_sub) piece1_sub) piece2_sub

theorem lvlOps0_fresh : (lvlOps0 : List (HloOp τ sig (Elt F))).Forall fun op => op.fresh = ∅ :=
  forall_append' (forall_append' (piece0_fresh) piece1_fresh) piece2_fresh

theorem lvlOps0_writesAt : WritesAt (lvlOps0 : List (HloOp τ sig (Elt F))) lvlWrites0 :=
  ((piece0_writes).append piece1_writes).append piece2_writes

theorem lvlOps0_writes : (lvlOps0 : List (HloOp τ sig (Elt F))).Forall fun op => op.writes ⊆ (lvlWrites0.map (Proc.devRef (τ := τ) .tc)).toFinset :=
  lvlOps0_writesAt.forall_sub

end Cert.ReferenceIdeal.RefVal

end
-- ==== Proof.RefOps1.lean ====
-- The reference's operations in the printed order, a call's operations written at the call; beside each piece, the reference every operation writes.
import proofs.«132274_j36180804501977_1_alg».proof.ReferenceIdeal
import proofs.«132274_j36180804501977_1_alg».proof.Proof.RefOpsLib
import Idealize.ShloMosaic.Lib.StableHlo.Run

set_option maxRecDepth 8192

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

abbrev piece3 : List (HloOp τ sig (Elt F)) :=
  [ StableHlo.nullary main_cst_34 (constant S_ .f32 0x41994518#32),
    StableHlo.unary main_cst_34 main_v144 (broadcastInDim S262144x2 ![] bcast_S_S262144x2 : Vec F S_ .f32 → Vec F S262144x2 .f32),
    StableHlo.binary main_arg0 main_v144 main_v145 (mulf : Vec F S262144x2 .f32 → Vec F S262144x2 .f32 → Vec F S262144x2 .f32),
    StableHlo.nullary main_cst_35 (constant S_ .f32 0x3F000000#32),
    StableHlo.unary main_cst_35 main_v146 (broadcastInDim S262144x2 ![] bcast_S_S262144x2 : Vec F S_ .f32 → Vec F S262144x2 .f32),
    StableHlo.binary main_v145 main_v146 main_v147 (addf : Vec F S262144x2 .f32 → Vec F S262144x2 .f32 → Vec F S262144x2 .f32),
    StableHlo.unary main_v147 main_v148 (Host.floor : Vec F S262144x2 .f32 → Vec F S262144x2 .f32),
    StableHlo.binary main_v147 main_v148 main_v149 (subf : Vec F S262144x2 .f32 → Vec F S262144x2 .f32 → Vec F S262144x2 .f32),
    StableHlo.unary main_v148 main_v150 (fptosi 32 : Vec F S262144x2 .f32 → Vec F S262144x2 .i32),
    StableHlo.binary main_v149 main_v149 main_v151 (mulf : Vec F S262144x2 .f32 → Vec F S262144x2 .f32 → Vec F S262144x2 .f32),
    StableHlo.nullary main_cst_36 (constant S_ .f32 0x40000000#32),
    StableHlo.unary main_cst_36 main_v152 (broadcastInDim S262144x2 ![] bcast_S_S262144x2 : Vec F S_ .f32 → Vec F S262144x2 .f32),
    StableHlo.binary main_v152 main_v149 main_v153 (mulf : Vec F S262144x2 .f32 → Vec F S262144x2 .f32 → Vec F S262144x2 .f32),
    StableHlo.nullary main_cst_37 (constant S_ .f32 0x40400000#32),
    StableHlo.unary main_cst_37 main_v154 (broadcastInDim S262144x2 ![] bcast_S_S262144x2 : Vec F S_ .f32 → Vec F S262144x2 .f32),
    StableHlo.binary main_v154 main_v153 main_v155 (subf : Vec F S262144x2 .f32 → Vec F S262144x2 .f32 → Vec F S262144x2 .f32),
    StableHlo.binary main_v151 main_v155 main_v156 (mulf : Vec F S262144x2 .f32 → Vec F S262144x2 .f32 → Vec F S262144x2 .f32),
    StableHlo.nullary main_cst_38 (constant S_ .f32 0x00000000#32),
    StableHlo.unary main_cst_38 main_v157 (broadcastInDim S262144x8 ![] bcast_S_S262144x8 : Vec F S_ .f32 → Vec F S262144x8 .f32),
    StableHlo.unary main_v156 main_v158 ((extractStridedSlice S262144x1 ![0, 0] · slices_S262144x2_S262144x1_0_0) : Vec F S262144x2 .f32 → Vec F S262144x1 .f32),
    StableHlo.reshape main_v158 main_v159 rfl shapeCasts_S262144x1_S262144,
    StableHlo.nullary main_cst_39 (constant S_ .f32 0x3F800000#32),
    StableHlo.unary main_cst_39 main_v160 (broadcastInDim S262144 ![] bcast_S_S262144 : Vec F S_ .f32 → Vec F S262144 .f32),
    StableHlo.binary main_v160 main_v159 main_v161 (subf : Vec F S262144 .f32 → Vec F S262144 .f32 → Vec F S262144 .f32),
    StableHlo.unary main_v156 main_v162 ((extractStridedSlice S262144x1 ![0, 1] · slices_S262144x2_S262144x1_0_1) : Vec F S262144x2 .f32 → Vec F S262144x1 .f32),
    StableHlo.reshape main_v162 main_v163 rfl shapeCasts_S262144x1_S262144,
    StableHlo.nullary main_cst_40 (constant S_ .f32 0x3F800000#32),
    StableHlo.unary main_cst_40 main_v164 (broadcastInDim S262144 ![] bcast_S_S262144 : Vec F S_ .f32 → Vec F S262144 .f32),
    StableHlo.binary main_v164 main_v163 main_v165 (subf : Vec F S262144 .f32 → Vec F S262144 .f32 → Vec F S262144 .f32),
    StableHlo.unary main_v150 main_v166 ((extractStridedSlice S262144x1 ![0, 0] · slices_S262144x2_S262144x1_0_0) : Vec F S262144x2 .i32 → Vec F S262144x1 .i32),
    StableHlo.reshape main_v166 main_v167 rfl shapeCasts_S262144x1_S262144,
    StableHlo.nullary main_c_41 (constantI S_ 32 0#32),
    StableHlo.unary main_c_41 main_v168 (broadcastInDim S262144 ![] bcast_S_S262144 : Vec F S_ .i32 → Vec F S262144 .i32),
    StableHlo.binary main_v167 main_v168 main_v169 (addi : Vec F S262144 .i32 → Vec F S262144 .i32 → Vec F S262144 .i32),
    StableHlo.unary main_v150 main_v170 ((extractStridedSlice S262144x1 ![0, 1] · slices_S262144x2_S262144x1_0_1) : Vec F S262144x2 .i32 → Vec F S262144x1 .i32),
    StableHlo.reshape main_v170 main_v171 rfl shapeCasts_S262144x1_S262144,
    StableHlo.nullary main_c_42 (constantI S_ 32 0#32),
    StableHlo.unary main_c_42 main_v172 (broadcastInDim S262144 ![] bcast_S_S262144 : Vec F S_ .i32 → Vec F S262144 .i32),
    StableHlo.binary main_v171 main_v172 main_v173 (addi : Vec F S262144 .i32 → Vec F S262144 .i32 → Vec F S262144 .i32),
    StableHlo.nullary main_c_43 (constantI S_ 32 21#32),
    StableHlo.unary main_c_43 main_v174 (broadcastInDim S262144 ![] bcast_S_S262144 : Vec F S_ .i32 → Vec F S262144 .i32),
    StableHlo.binary main_v173 main_v174 main_v175 (muli : Vec F S262144 .i32 → Vec F S262144 .i32 → Vec F S262144 .i32),
    StableHlo.binary main_v169 main_v175 main_v176 (addi : Vec F S262144 .i32 → Vec F S262144 .i32 → Vec F S262144 .i32),
    StableHlo.nullary main_c_44 (constantI S_ 32 448#32),
    StableHlo.TRef.unary (.of main_c_44 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S262144 ![] bcast_S_S262144),
    StableHlo.TRef.binary (.of main_v176 : StableHlo.TRef sig ⟨S262144, .i32⟩) main_call4.v3 main_call4.v4 Host.remsi,
    StableHlo.TRef.nullary main_call4.c_1 (constantI S_ 32 0#32),
    StableHlo.TRef.unary main_call4.c_1 main_call4.v5 (broadcastInDim S262144 ![] bcast_S_S262144),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S262144 ![] bcast_S_S262144),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S262144 ![] bcast_S_S262144),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S262144 ![] bcast_S_S262144),
    StableHlo.TRef.binary main_call4.v4 main_call4.v13 main_call4.v14 addi,
    StableHlo.TRef.ternary main_call4.v12 main_call4.v14 main_call4.v4 main_call4.v15 select,
    StableHlo.binary main_v161 main_v165 main_v178 (mulf : Vec F S262144 .f32 → Vec F S262144 .f32 → Vec F S262144 .f32),
    StableHlo.unary main_v178 main_v179 (broadcastInDim S262144x1 ![0] bcast_S262144_S262144x1_0 : Vec F S262144 .f32 → Vec F S262144x1 .f32),
    StableHlo.nullary main_c_45 (constantI S_ 32 0#32),
    StableHlo.unary main_c_45 main_v180 (broadcastInDim S262144 ![] bcast_S_S262144 : Vec F S_ .i32 → Vec F S262144 .i32),
    StableHlo.binary main_v177 main_v180 main_v181 (cmpi .slt : Vec F S262144 .i32 → Vec F S262144 .i32 → Vec F S262144 .i1),
    StableHlo.nullary main_c_46 (constantI S_ 32 8192#32),
    StableHlo.unary main_c_46 main_v182 (broadcastInDim S262144 ![] bcast_S_S262144 : Vec F S_ .i32 → Vec F S262144 .i32),
    StableHlo.binary main_v177 main_v182 main_v183 (addi : Vec F S262144 .i32 → Vec F S262144 .i32 → Vec F S262144 .i32),
    StableHlo.ternary main_v181 main_v183 main_v177 main_v184 (select : Vec F S262144 .i1 → Vec F S262144 .i32 → Vec F S262144 .i32 → Vec F S262144 .i32),
    StableHlo.nullary main_c_47 (constantI S_ 32 1#32),
    StableHlo.unary main_c_47 main_v185 (broadcastInDim S262144 ![] bcast_S_S262144 : Vec F S_ .i32 → Vec F S262144 .i32),
    StableHlo.unary main_v185 main_v186 (id : Vec F S262144 .i32 → Vec F S262144 .i32),
    StableHlo.unary main_v186 main_v187 (broadcastInDim S262144x1 ![0] bcast_S262144_S262144x1_0 : Vec F S262144 .i32 → Vec F S262144x1 .i32),
    StableHlo.unary main_v184 main_v188 (broadcastInDim S262144x1 ![0] bcast_S262144_S262144x1_0 : Vec F S262144 .i32 → Vec F S262144x1 .i32),
    StableHlo.binary main_v187 main_v188 main_v189 ((fun a b => concatenate S262144x2 1 [⟨S262144x1, a⟩, ⟨S262144x1, b⟩] concatenates_S262144x1_S262144x1_S262144x2_d1) : Vec F S262144x1 .i32 → Vec F S262144x1 .i32 → Vec F S262144x2 .i32) ]

abbrev piece3W : List (Ref sig .tc) :=
  [main_cst_34, main_v144, main_v145, main_cst_35, main_v146, main_v147, main_v148, main_v149, main_v150, main_v151, main_cst_36, main_v152, main_v153, main_cst_37, main_v154, main_v155, main_v156, main_cst_38, main_v157, main_v158, main_v159, main_cst_39, main_v160, main_v161, main_v162, main_v163, main_cst_40, main_v164, main_v165, main_v166, main_v167, main_c_41, main_v168, main_v169, main_v170, main_v171, main_c_42, main_v172, main_v173, main_c_43, main_v174, main_v175, main_v176, main_c_44, main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v177, main_v178, main_v179, main_c_45, main_v180, main_v181, main_c_46, main_v182, main_v183, main_v184, main_c_47, main_v185, main_v186, main_v187, main_v188, main_v189]

theorem piece3_sub : (piece3 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece3_fresh : (piece3 : List (HloOp τ sig (Elt F))).Forall fun op => op.fresh = ∅ := by
  repeat' first | refine ⟨?_, ?_⟩ | exact rfl

theorem piece3_writes : WritesAt (piece3 : List (HloOp τ sig (Elt F))) piece3W := by
  repeat first | exact .nil | refine .cons rfl ?_

abbrev piece4 : List (HloOp τ sig (Elt F)) :=
  [ StableHlo.binary main_arg1 main_v189 main_v190 ((fun x i => Host.gather gather_S8x8192x8_S262144x2_S262144x8_1_01_n_n_01_1_118 x i) : Vec F S8x8192x8 .f32 → Vec F S262144x2 .i32 → Vec F S262144x8 .f32),
    StableHlo.unary main_v179 main_v191 (broadcastInDim S262144x8 ![0, 1] bcast_S262144x1_S262144x8_0_1 : Vec F S262144x1 .f32 → Vec F S262144x8 .f32),
    StableHlo.binary main_v191 main_v190 main_v192 (mulf : Vec F S262144x8 .f32 → Vec F S262144x8 .f32 → Vec F S262144x8 .f32),
    StableHlo.binary main_v157 main_v192 main_v193 (addf : Vec F S262144x8 .f32 → Vec F S262144x8 .f32 → Vec F S262144x8 .f32),
    StableHlo.unary main_v156 main_v194 ((extractStridedSlice S262144x1 ![0, 1] · slices_S262144x2_S262144x1_0_1) : Vec F S262144x2 .f32 → Vec F S262144x1 .f32),
    StableHlo.reshape main_v194 main_v195 rfl shapeCasts_S262144x1_S262144,
    StableHlo.unary main_v150 main_v196 ((extractStridedSlice S262144x1 ![0, 0] · slices_S262144x2_S262144x1_0_0) : Vec F S262144x2 .i32 → Vec F S262144x1 .i32),
    StableHlo.reshape main_v196 main_v197 rfl shapeCasts_S262144x1_S262144,
    StableHlo.nullary main_c_48 (constantI S_ 32 0#32),
    StableHlo.unary main_c_48 main_v198 (broadcastInDim S262144 ![] bcast_S_S262144 : Vec F S_ .i32 → Vec F S262144 .i32),
    StableHlo.binary main_v197 main_v198 main_v199 (addi : Vec F S262144 .i32 → Vec F S262144 .i32 → Vec F S262144 .i32),
    StableHlo.unary main_v150 main_v200 ((extractStridedSlice S262144x1 ![0, 1] · slices_S262144x2_S262144x1_0_1) : Vec F S262144x2 .i32 → Vec F S262144x1 .i32),
    StableHlo.reshape main_v200 main_v201 rfl shapeCasts_S262144x1_S262144,
    StableHlo.nullary main_c_49 (constantI S_ 32 1#32),
    StableHlo.unary main_c_49 main_v202 (broadcastInDim S262144 ![] bcast_S_S262144 : Vec F S_ .i32 → Vec F S262144 .i32),
    StableHlo.binary main_v201 main_v202 main_v203 (addi : Vec F S262144 .i32 → Vec F S262144 .i32 → Vec F S262144 .i32),
    StableHlo.nullary main_c_50 (constantI S_ 32 21#32),
    StableHlo.unary main_c_50 main_v204 (broadcastInDim S262144 ![] bcast_S_S262144 : Vec F S_ .i32 → Vec F S262144 .i32),
    StableHlo.binary main_v203 main_v204 main_v205 (muli : Vec F S262144 .i32 → Vec F S262144 .i32 → Vec F S262144 .i32),
    StableHlo.binary main_v199 main_v205 main_v206 (addi : Vec F S262144 .i32 → Vec F S262144 .i32 → Vec F S262144 .i32),
    StableHlo.nullary main_c_51 (constantI S_ 32 448#32),
    StableHlo.TRef.unary (.of main_c_51 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S262144 ![] bcast_S_S262144),
    StableHlo.TRef.binary (.of main_v206 : StableHlo.TRef sig ⟨S262144, .i32⟩) main_call5.v3 main_call5.v4 Host.remsi,
    StableHlo.TRef.nullary main_call5.c_1 (constantI S_ 32 0#32),
    StableHlo.TRef.unary main_call5.c_1 main_call5.v5 (broadcastInDim S262144 ![] bcast_S_S262144),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S262144 ![] bcast_S_S262144),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S262144 ![] bcast_S_S262144),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S262144 ![] bcast_S_S262144),
    StableHlo.TRef.binary main_call5.v4 main_call5.v13 main_call5.v14 addi,
    StableHlo.TRef.ternary main_call5.v12 main_call5.v14 main_call5.v4 main_call5.v15 select,
    StableHlo.binary main_v161 main_v195 main_v208 (mulf : Vec F S262144 .f32 → Vec F S262144 .f32 → Vec F S262144 .f32),
    StableHlo.unary main_v208 main_v209 (broadcastInDim S262144x1 ![0] bcast_S262144_S262144x1_0 : Vec F S262144 .f32 → Vec F S262144x1 .f32),
    StableHlo.nullary main_c_52 (constantI S_ 32 0#32),
    StableHlo.unary main_c_52 main_v210 (broadcastInDim S262144 ![] bcast_S_S262144 : Vec F S_ .i32 → Vec F S262144 .i32),
    StableHlo.binary main_v207 main_v210 main_v211 (cmpi .slt : Vec F S262144 .i32 → Vec F S262144 .i32 → Vec F S262144 .i1),
    StableHlo.nullary main_c_53 (constantI S_ 32 8192#32),
    StableHlo.unary main_c_53 main_v212 (broadcastInDim S262144 ![] bcast_S_S262144 : Vec F S_ .i32 → Vec F S262144 .i32),
    StableHlo.binary main_v207 main_v212 main_v213 (addi : Vec F S262144 .i32 → Vec F S262144 .i32 → Vec F S262144 .i32),
    StableHlo.ternary main_v211 main_v213 main_v207 main_v214 (select : Vec F S262144 .i1 → Vec F S262144 .i32 → Vec F S262144 .i32 → Vec F S262144 .i32),
    StableHlo.nullary main_c_54 (constantI S_ 32 1#32),
    StableHlo.unary main_c_54 main_v215 (broadcastInDim S262144 ![] bcast_S_S262144 : Vec F S_ .i32 → Vec F S262144 .i32),
    StableHlo.unary main_v215 main_v216 (id : Vec F S262144 .i32 → Vec F S262144 .i32),
    StableHlo.unary main_v216 main_v217 (broadcastInDim S262144x1 ![0] bcast_S262144_S262144x1_0 : Vec F S262144 .i32 → Vec F S262144x1 .i32),
    StableHlo.unary main_v214 main_v218 (broadcastInDim S262144x1 ![0] bcast_S262144_S262144x1_0 : Vec F S262144 .i32 → Vec F S262144x1 .i32),
    StableHlo.binary main_v217 main_v218 main_v219 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v219 main_v220 ((fun x i => Host.gather gather_S8x8192x8_S262144x2_S262144x8_1_01_n_n_01_1_118 x i) : Vec F S8x8192x8 .f32 → Vec F S262144x2 .i32 → Vec F S262144x8 .f32),
    StableHlo.unary main_v209 main_v221 (broadcastInDim S262144x8 ![0, 1] bcast_S262144x1_S262144x8_0_1 : Vec F S262144x1 .f32 → Vec F S262144x8 .f32),
    StableHlo.binary main_v221 main_v220 main_v222 (mulf : Vec F S262144x8 .f32 → Vec F S262144x8 .f32 → Vec F S262144x8 .f32),
    StableHlo.binary main_v193 main_v222 main_v223 (addf : Vec F S262144x8 .f32 → Vec F S262144x8 .f32 → Vec F S262144x8 .f32),
    StableHlo.unary main_v156 main_v224 ((extractStridedSlice S262144x1 ![0, 0] · slices_S262144x2_S262144x1_0_0) : Vec F S262144x2 .f32 → Vec F S262144x1 .f32),
    StableHlo.reshape main_v224 main_v225 rfl shapeCasts_S262144x1_S262144,
    StableHlo.unary main_v156 main_v226 ((extractStridedSlice S262144x1 ![0, 1] · slices_S262144x2_S262144x1_0_1) : Vec F S262144x2 .f32 → Vec F S262144x1 .f32),
    StableHlo.reshape main_v226 main_v227 rfl shapeCasts_S262144x1_S262144,
    StableHlo.nullary main_cst_55 (constant S_ .f32 0x3F800000#32),
    StableHlo.unary main_cst_55 main_v228 (broadcastInDim S262144 ![] bcast_S_S262144 : Vec F S_ .f32 → Vec F S262144 .f32),
    StableHlo.binary main_v228 main_v227 main_v229 (subf : Vec F S262144 .f32 → Vec F S262144 .f32 → Vec F S262144 .f32),
    StableHlo.unary main_v150 main_v230 ((extractStridedSlice S262144x1 ![0, 0] · slices_S262144x2_S262144x1_0_0) : Vec F S262144x2 .i32 → Vec F S262144x1 .i32),
    StableHlo.reshape main_v230 main_v231 rfl shapeCasts_S262144x1_S262144,
    StableHlo.nullary main_c_56 (constantI S_ 32 1#32),
    StableHlo.unary main_c_56 main_v232 (broadcastInDim S262144 ![] bcast_S_S262144 : Vec F S_ .i32 → Vec F S262144 .i32),
    StableHlo.binary main_v231 main_v232 main_v233 (addi : Vec F S262144 .i32 → Vec F S262144 .i32 → Vec F S262144 .i32),
    StableHlo.unary main_v150 main_v234 ((extractStridedSlice S262144x1 ![0, 1] · slices_S262144x2_S262144x1_0_1) : Vec F S262144x2 .i32 → Vec F S262144x1 .i32),
    StableHlo.reshape main_v234 main_v235 rfl shapeCasts_S262144x1_S262144,
    StableHlo.nullary main_c_57 (constantI S_ 32 0#32),
    StableHlo.unary main_c_57 main_v236 (broadcastInDim S262144 ![] bcast_S_S262144 : Vec F S_ .i32 → Vec F S262144 .i32),
    StableHlo.binary main_v235 main_v236 main_v237 (addi : Vec F S262144 .i32 → Vec F S262144 .i32 → Vec F S262144 .i32),
    StableHlo.nullary main_c_58 (constantI S_ 32 21#32),
    StableHlo.unary main_c_58 main_v238 (broadcastInDim S262144 ![] bcast_S_S262144 : Vec F S_ .i32 → Vec F S262144 .i32) ]

abbrev piece4W : List (Ref sig .tc) :=
  [main_v190, main_v191, main_v192, main_v193, main_v194, main_v195, main_v196, main_v197, main_c_48, main_v198, main_v199, main_v200, main_v201, main_c_49, main_v202, main_v203, main_c_50, main_v204, main_v205, main_v206, main_c_51, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v207, main_v208, main_v209, main_c_52, main_v210, main_v211, main_c_53, main_v212, main_v213, main_v214, main_c_54, main_v215, main_v216, main_v217, main_v218, main_v219, main_v220, main_v221, main_v222, main_v223, main_v224, main_v225, main_v226, main_v227, main_cst_55, main_v228, main_v229, main_v230, main_v231, main_c_56, main_v232, main_v233, main_v234, main_v235, main_c_57, main_v236, main_v237, main_c_58, main_v238]

theorem piece4_sub : (piece4 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece4_fresh : (piece4 : List (HloOp τ sig (Elt F))).Forall fun op => op.fresh = ∅ := by
  repeat' first | refine ⟨?_, ?_⟩ | exact rfl

theorem piece4_writes : WritesAt (piece4 : List (HloOp τ sig (Elt F))) piece4W := by
  repeat first | exact .nil | refine .cons rfl ?_

abbrev piece5 : List (HloOp τ sig (Elt F)) :=
  [ StableHlo.binary main_v237 main_v238 main_v239 (muli : Vec F S262144 .i32 → Vec F S262144 .i32 → Vec F S262144 .i32),
    StableHlo.binary main_v233 main_v239 main_v240 (addi : Vec F S262144 .i32 → Vec F S262144 .i32 → Vec F S262144 .i32),
    StableHlo.nullary main_c_59 (constantI S_ 32 448#32),
    StableHlo.TRef.unary (.of main_c_59 : StableHlo.TRef sig ⟨S_, .i32⟩) main_call6.v0 id,
    StableHlo.TRef.nullary main_call6.c (constantI S_ 32 0#32),
    StableHlo.TRef.binary main_call6.v0 main_call6.c main_call6.v1 (cmpi .eq),
    StableHlo.TRef.nullary main_call6.c_0 (constantI S_ 32 1#32),
    StableHlo.TRef.ternary main_call6.v1 main_call6.c_0 main_call6.v0 main_call6.call0.v0 select,
    StableHlo.TRef.unary main_call6.call0.v0 main_call6.v3 (broadcastInDim S262144 ![] bcast_S_S262144),
    StableHlo.TRef.binary (.of main_v240 : StableHlo.TRef sig ⟨S262144, .i32⟩) main_call6.v3 main_call6.v4 Host.remsi,
    StableHlo.TRef.nullary main_call6.c_1 (constantI S_ 32 0#32),
    StableHlo.TRef.unary main_call6.c_1 main_call6.v5 (broadcastInDim S262144 ![] bcast_S_S262144),
    StableHlo.TRef.binary main_call6.v4 main_call6.v5 main_call6.v6 (cmpi .ne),
    StableHlo.TRef.nullary main_call6.c_2 (constantI S_ 32 0#32),
    StableHlo.TRef.unary main_call6.c_2 main_call6.v7 (broadcastInDim S262144 ![] bcast_S_S262144),
    StableHlo.TRef.binary main_call6.v4 main_call6.v7 main_call6.v8 (cmpi .slt),
    StableHlo.TRef.nullary main_call6.c_3 (constantI S_ 32 0#32),
    StableHlo.TRef.binary main_call6.call0.v0 main_call6.c_3 main_call6.v9 (cmpi .slt),
    StableHlo.TRef.unary main_call6.v9 main_call6.v10 (broadcastInDim S262144 ![] bcast_S_S262144),
    StableHlo.TRef.binary main_call6.v8 main_call6.v10 main_call6.v11 (cmpi .ne),
    StableHlo.TRef.binary main_call6.v11 main_call6.v6 main_call6.v12 andi,
    StableHlo.TRef.unary main_call6.call0.v0 main_call6.v13 (broadcastInDim S262144 ![] bcast_S_S262144),
    StableHlo.TRef.binary main_call6.v4 main_call6.v13 main_call6.v14 addi,
    StableHlo.TRef.ternary main_call6.v12 main_call6.v14 main_call6.v4 main_call6.v15 select,
    StableHlo.binary main_v225 main_v229 main_v242 (mulf : Vec F S262144 .f32 → Vec F S262144 .f32 → Vec F S262144 .f32),
    StableHlo.unary main_v242 main_v243 (broadcastInDim S262144x1 ![0] bcast_S262144_S262144x1_0 : Vec F S262144 .f32 → Vec F S262144x1 .f32),
    StableHlo.nullary main_c_60 (constantI S_ 32 0#32),
    StableHlo.unary main_c_60 main_v244 (broadcastInDim S262144 ![] bcast_S_S262144 : Vec F S_ .i32 → Vec F S262144 .i32),
    StableHlo.binary main_v241 main_v244 main_v245 (cmpi .slt : Vec F S262144 .i32 → Vec F S262144 .i32 → Vec F S262144 .i1),
    StableHlo.nullary main_c_61 (constantI S_ 32 8192#32),
    StableHlo.unary main_c_61 main_v246 (broadcastInDim S262144 ![] bcast_S_S262144 : Vec F S_ .i32 → Vec F S262144 .i32),
    StableHlo.binary main_v241 main_v246 main_v247 (addi : Vec F S262144 .i32 → Vec F S262144 .i32 → Vec F S262144 .i32),
    StableHlo.ternary main_v245 main_v247 main_v241 main_v248 (select : Vec F S262144 .i1 → Vec F S262144 .i32 → Vec F S262144 .i32 → Vec F S262144 .i32),
    StableHlo.nullary main_c_62 (constantI S_ 32 1#32),
    StableHlo.unary main_c_62 main_v249 (broadcastInDim S262144 ![] bcast_S_S262144 : Vec F S_ .i32 → Vec F S262144 .i32),
    StableHlo.unary main_v249 main_v250 (id : Vec F S262144 .i32 → Vec F S262144 .i32),
    StableHlo.unary main_v250 main_v251 (broadcastInDim S262144x1 ![0] bcast_S262144_S262144x1_0 : Vec F S262144 .i32 → Vec F S262144x1 .i32),
    StableHlo.unary main_v248 main_v252 (broadcastInDim S262144x1 ![0] bcast_S262144_S262144x1_0 : Vec F S262144 .i32 → Vec F S262144x1 .i32),
    StableHlo.binary main_v251 main_v252 main_v253 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v253 main_v254 ((fun x i => Host.gather gather_S8x8192x8_S262144x2_S262144x8_1_01_n_n_01_1_118 x i) : Vec F S8x8192x8 .f32 → Vec F S262144x2 .i32 → Vec F S262144x8 .f32),
    StableHlo.unary main_v243 main_v255 (broadcastInDim S262144x8 ![0, 1] bcast_S262144x1_S262144x8_0_1 : Vec F S262144x1 .f32 → Vec F S262144x8 .f32),
    StableHlo.binary main_v255 main_v254 main_v256 (mulf : Vec F S262144x8 .f32 → Vec F S262144x8 .f32 → Vec F S262144x8 .f32),
    StableHlo.binary main_v223 main_v256 main_v257 (addf : Vec F S262144x8 .f32 → Vec F S262144x8 .f32 → Vec F S262144x8 .f32),
    StableHlo.unary main_v156 main_v258 ((extractStridedSlice S262144x1 ![0, 1] · slices_S262144x2_S262144x1_0_1) : Vec F S262144x2 .f32 → Vec F S262144x1 .f32),
    StableHlo.reshape main_v258 main_v259 rfl shapeCasts_S262144x1_S262144,
    StableHlo.unary main_v150 main_v260 ((extractStridedSlice S262144x1 ![0, 0] · slices_S262144x2_S262144x1_0_0) : Vec F S262144x2 .i32 → Vec F S262144x1 .i32),
    StableHlo.reshape main_v260 main_v261 rfl shapeCasts_S262144x1_S262144,
    StableHlo.nullary main_c_63 (constantI S_ 32 1#32),
    StableHlo.unary main_c_63 main_v262 (broadcastInDim S262144 ![] bcast_S_S262144 : Vec F S_ .i32 → Vec F S262144 .i32),
    StableHlo.binary main_v261 main_v262 main_v263 (addi : Vec F S262144 .i32 → Vec F S262144 .i32 → Vec F S262144 .i32),
    StableHlo.unary main_v150 main_v264 ((extractStridedSlice S262144x1 ![0, 1] · slices_S262144x2_S262144x1_0_1) : Vec F S262144x2 .i32 → Vec F S262144x1 .i32),
    StableHlo.reshape main_v264 main_v265 rfl shapeCasts_S262144x1_S262144,
    StableHlo.nullary main_c_64 (constantI S_ 32 1#32),
    StableHlo.unary main_c_64 main_v266 (broadcastInDim S262144 ![] bcast_S_S262144 : Vec F S_ .i32 → Vec F S262144 .i32),
    StableHlo.binary main_v265 main_v266 main_v267 (addi : Vec F S262144 .i32 → Vec F S262144 .i32 → Vec F S262144 .i32),
    StableHlo.nullary main_c_65 (constantI S_ 32 21#32),
    StableHlo.unary main_c_65 main_v268 (broadcastInDim S262144 ![] bcast_S_S262144 : Vec F S_ .i32 → Vec F S262144 .i32),
    StableHlo.binary main_v267 main_v268 main_v269 (muli : Vec F S262144 .i32 → Vec F S262144 .i32 → Vec F S262144 .i32),
    StableHlo.binary main_v263 main_v269 main_v270 (addi : Vec F S262144 .i32 → Vec F S262144 .i32 → Vec F S262144 .i32),
    StableHlo.nullary main_c_66 (constantI S_ 32 448#32),
    StableHlo.TRef.unary (.of main_c_66 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S262144 ![] bcast_S_S262144),
    StableHlo.TRef.binary (.of main_v270 : StableHlo.TRef sig ⟨S262144, .i32⟩) main_call7.v3 main_call7.v4 Host.remsi,
    StableHlo.TRef.nullary main_call7.c_1 (constantI S_ 32 0#32),
    StableHlo.TRef.unary main_call7.c_1 main_call7.v5 (broadcastInDim S262144 ![] bcast_S_S262144),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S262144 ![] bcast_S_S262144),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S262144 ![] bcast_S_S262144),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S262144 ![] bcast_S_S262144),
    StableHlo.TRef.binary main_call7.v4 main_call7.v13 main_call7.v14 addi,
    StableHlo.TRef.ternary main_call7.v12 main_call7.v14 main_call7.v4 main_call7.v15 select,
    StableHlo.binary main_v225 main_v259 main_v272 (mulf : Vec F S262144 .f32 → Vec F S262144 .f32 → Vec F S262144 .f32),
    StableHlo.unary main_v272 main_v273 (broadcastInDim S262144x1 ![0] bcast_S262144_S262144x1_0 : Vec F S262144 .f32 → Vec F S262144x1 .f32),
    StableHlo.nullary main_c_67 (constantI S_ 32 0#32),
    StableHlo.unary main_c_67 main_v274 (broadcastInDim S262144 ![] bcast_S_S262144 : Vec F S_ .i32 → Vec F S262144 .i32),
    StableHlo.binary main_v271 main_v274 main_v275 (cmpi .slt : Vec F S262144 .i32 → Vec F S262144 .i32 → Vec F S262144 .i1),
    StableHlo.nullary main_c_68 (constantI S_ 32 8192#32),
    StableHlo.unary main_c_68 main_v276 (broadcastInDim S262144 ![] bcast_S_S262144 : Vec F S_ .i32 → Vec F S262144 .i32),
    StableHlo.binary main_v271 main_v276 main_v277 (addi : Vec F S262144 .i32 → Vec F S262144 .i32 → Vec F S262144 .i32),
    StableHlo.ternary main_v275 main_v277 main_v271 main_v278 (select : Vec F S262144 .i1 → Vec F S262144 .i32 → Vec F S262144 .i32 → Vec F S262144 .i32),
    StableHlo.nullary main_c_69 (constantI S_ 32 1#32),
    StableHlo.unary main_c_69 main_v279 (broadcastInDim S262144 ![] bcast_S_S262144 : Vec F S_ .i32 → Vec F S262144 .i32),
    StableHlo.unary main_v279 main_v280 (id : Vec F S262144 .i32 → Vec F S262144 .i32),
    StableHlo.unary main_v280 main_v281 (broadcastInDim S262144x1 ![0] bcast_S262144_S262144x1_0 : Vec F S262144 .i32 → Vec F S262144x1 .i32),
    StableHlo.unary main_v278 main_v282 (broadcastInDim S262144x1 ![0] bcast_S262144_S262144x1_0 : Vec F S262144 .i32 → Vec F S262144x1 .i32),
    StableHlo.binary main_v281 main_v282 main_v283 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v283 main_v284 ((fun x i => Host.gather gather_S8x8192x8_S262144x2_S262144x8_1_01_n_n_01_1_118 x i) : Vec F S8x8192x8 .f32 → Vec F S262144x2 .i32 → Vec F S262144x8 .f32),
    StableHlo.unary main_v273 main_v285 (broadcastInDim S262144x8 ![0, 1] bcast_S262144x1_S262144x8_0_1 : Vec F S262144x1 .f32 → Vec F S262144x8 .f32),
    StableHlo.binary main_v285 main_v284 main_v286 (mulf : Vec F S262144x8 .f32 → Vec F S262144x8 .f32 → Vec F S262144x8 .f32),
    StableHlo.binary main_v257 main_v286 main_v287 (addf : Vec F S262144x8 .f32 → Vec F S262144x8 .f32 → Vec F S262144x8 .f32) ]

abbrev piece5W : List (Ref sig .tc) :=
  [main_v239, main_v240, main_c_59, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v241, main_v242, main_v243, main_c_60, main_v244, main_v245, main_c_61, main_v246, main_v247, main_v248, main_c_62, main_v249, main_v250, main_v251, main_v252, main_v253, main_v254, main_v255, main_v256, main_v257, main_v258, main_v259, main_v260, main_v261, main_c_63, main_v262, main_v263, main_v264, main_v265, main_c_64, main_v266, main_v267, main_c_65, main_v268, main_v269, main_v270, main_c_66, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v271, main_v272, main_v273, main_c_67, main_v274, main_v275, main_c_68, main_v276, main_v277, main_v278, main_c_69, main_v279, main_v280, main_v281, main_v282, main_v283, main_v284, main_v285, main_v286, main_v287]

theorem piece5_sub : (piece5 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece5_fresh : (piece5 : List (HloOp τ sig (Elt F))).Forall fun op => op.fresh = ∅ := by
  repeat' first | refine ⟨?_, ?_⟩ | exact rfl

theorem piece5_writes : WritesAt (piece5 : List (HloOp τ sig (Elt F))) piece5W := by
  repeat first | exact .nil | refine .cons rfl ?_

abbrev lvlOps1 : List (HloOp τ sig (Elt F)) := piece3 ++ piece4 ++ piece5

abbrev lvlWrites1 : List (Ref sig .tc) := piece3W ++ piece4W ++ piece5W

theorem lvlOps1_sub : (lvlOps1 : List (HloOp τ sig (Elt F))).Forall fun op => op.bufs ⊆ tcRefs τ sig :=
  forall_append' (forall_append' (piece3_sub) piece4_sub) piece5_sub

theorem lvlOps1_fresh : (lvlOps1 : List (HloOp τ sig (Elt F))).Forall fun op => op.fresh = ∅ :=
  forall_append' (forall_append' (piece3_fresh) piece4_fresh) piece5_fresh

theorem lvlOps1_writesAt : WritesAt (lvlOps1 : List (HloOp τ sig (Elt F))) lvlWrites1 :=
  ((piece3_writes).append piece4_writes).append piece5_writes

theorem lvlOps1_writes : (lvlOps1 : List (HloOp τ sig (Elt F))).Forall fun op => op.writes ⊆ (lvlWrites1.map (Proc.devRef (τ := τ) .tc)).toFinset :=
  lvlOps1_writesAt.forall_sub

end Cert.ReferenceIdeal.RefVal

end
-- ==== Proof.RefOps2.lean ====
-- The reference's operations in the printed order, a call's operations written at the call; beside each piece, the reference every operation writes.
import proofs.«132274_j36180804501977_1_alg».proof.ReferenceIdeal
import proofs.«132274_j36180804501977_1_alg».proof.Proof.RefOpsLib
import Idealize.ShloMosaic.Lib.StableHlo.Run

set_option maxRecDepth 8192

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

abbrev piece6 : List (HloOp τ sig (Elt F)) :=
  [ StableHlo.nullary main_cst_70 (constant S_ .f32 0x41C32FF6#32),
    StableHlo.unary main_cst_70 main_v288 (broadcastInDim S262144x2 ![] bcast_S_S262144x2 : Vec F S_ .f32 → Vec F S262144x2 .f32),
    StableHlo.binary main_arg0 main_v288 main_v289 (mulf : Vec F S262144x2 .f32 → Vec F S262144x2 .f32 → Vec F S262144x2 .f32),
    StableHlo.nullary main_cst_71 (constant S_ .f32 0x3F000000#32),
    StableHlo.unary main_cst_71 main_v290 (broadcastInDim S262144x2 ![] bcast_S_S262144x2 : Vec F S_ .f32 → Vec F S262144x2 .f32),
    StableHlo.binary main_v289 main_v290 main_v291 (addf : Vec F S262144x2 .f32 → Vec F S262144x2 .f32 → Vec F S262144x2 .f32),
    StableHlo.unary main_v291 main_v292 (Host.floor : Vec F S262144x2 .f32 → Vec F S262144x2 .f32),
    StableHlo.binary main_v291 main_v292 main_v293 (subf : Vec F S262144x2 .f32 → Vec F S262144x2 .f32 → Vec F S262144x2 .f32),
    StableHlo.unary main_v292 main_v294 (fptosi 32 : Vec F S262144x2 .f32 → Vec F S262144x2 .i32),
    StableHlo.binary main_v293 main_v293 main_v295 (mulf : Vec F S262144x2 .f32 → Vec F S262144x2 .f32 → Vec F S262144x2 .f32),
    StableHlo.nullary main_cst_72 (constant S_ .f32 0x40000000#32),
    StableHlo.unary main_cst_72 main_v296 (broadcastInDim S262144x2 ![] bcast_S_S262144x2 : Vec F S_ .f32 → Vec F S262144x2 .f32),
    StableHlo.binary main_v296 main_v293 main_v297 (mulf : Vec F S262144x2 .f32 → Vec F S262144x2 .f32 → Vec F S262144x2 .f32),
    StableHlo.nullary main_cst_73 (constant S_ .f32 0x40400000#32),
    StableHlo.unary main_cst_73 main_v298 (broadcastInDim S262144x2 ![] bcast_S_S262144x2 : Vec F S_ .f32 → Vec F S262144x2 .f32),
    StableHlo.binary main_v298 main_v297 main_v299 (subf : Vec F S262144x2 .f32 → Vec F S262144x2 .f32 → Vec F S262144x2 .f32),
    StableHlo.binary main_v295 main_v299 main_v300 (mulf : Vec F S262144x2 .f32 → Vec F S262144x2 .f32 → Vec F S262144x2 .f32),
    StableHlo.nullary main_cst_74 (constant S_ .f32 0x00000000#32),
    StableHlo.unary main_cst_74 main_v301 (broadcastInDim S262144x8 ![] bcast_S_S262144x8 : Vec F S_ .f32 → Vec F S262144x8 .f32),
    StableHlo.unary main_v300 main_v302 ((extractStridedSlice S262144x1 ![0, 0] · slices_S262144x2_S262144x1_0_0) : Vec F S262144x2 .f32 → Vec F S262144x1 .f32),
    StableHlo.reshape main_v302 main_v303 rfl shapeCasts_S262144x1_S262144,
    StableHlo.nullary main_cst_75 (constant S_ .f32 0x3F800000#32),
    StableHlo.unary main_cst_75 main_v304 (broadcastInDim S262144 ![] bcast_S_S262144 : Vec F S_ .f32 → Vec F S262144 .f32),
    StableHlo.binary main_v304 main_v303 main_v305 (subf : Vec F S262144 .f32 → Vec F S262144 .f32 → Vec F S262144 .f32),
    StableHlo.unary main_v300 main_v306 ((extractStridedSlice S262144x1 ![0, 1] · slices_S262144x2_S262144x1_0_1) : Vec F S262144x2 .f32 → Vec F S262144x1 .f32),
    StableHlo.reshape main_v306 main_v307 rfl shapeCasts_S262144x1_S262144,
    StableHlo.nullary main_cst_76 (constant S_ .f32 0x3F800000#32),
    StableHlo.unary main_cst_76 main_v308 (broadcastInDim S262144 ![] bcast_S_S262144 : Vec F S_ .f32 → Vec F S262144 .f32),
    StableHlo.binary main_v308 main_v307 main_v309 (subf : Vec F S262144 .f32 → Vec F S262144 .f32 → Vec F S262144 .f32),
    StableHlo.unary main_v294 main_v310 ((extractStridedSlice S262144x1 ![0, 0] · slices_S262144x2_S262144x1_0_0) : Vec F S262144x2 .i32 → Vec F S262144x1 .i32),
    StableHlo.reshape main_v310 main_v311 rfl shapeCasts_S262144x1_S262144,
    StableHlo.nullary main_c_77 (constantI S_ 32 0#32),
    StableHlo.unary main_c_77 main_v312 (broadcastInDim S262144 ![] bcast_S_S262144 : Vec F S_ .i32 → Vec F S262144 .i32),
    StableHlo.binary main_v311 main_v312 main_v313 (addi : Vec F S262144 .i32 → Vec F S262144 .i32 → Vec F S262144 .i32),
    StableHlo.unary main_v294 main_v314 ((extractStridedSlice S262144x1 ![0, 1] · slices_S262144x2_S262144x1_0_1) : Vec F S262144x2 .i32 → Vec F S262144x1 .i32),
    StableHlo.reshape main_v314 main_v315 rfl shapeCasts_S262144x1_S262144,
    StableHlo.nullary main_c_78 (constantI S_ 32 0#32),
    StableHlo.unary main_c_78 main_v316 (broadcastInDim S262144 ![] bcast_S_S262144 : Vec F S_ .i32 → Vec F S262144 .i32),
    StableHlo.binary main_v315 main_v316 main_v317 (addi : Vec F S262144 .i32 → Vec F S262144 .i32 → Vec F S262144 .i32),
    StableHlo.nullary main_c_79 (constantI S_ 32 26#32),
    StableHlo.unary main_c_79 main_v318 (broadcastInDim S262144 ![] bcast_S_S262144 : Vec F S_ .i32 → Vec F S262144 .i32),
    StableHlo.binary main_v317 main_v318 main_v319 (muli : Vec F S262144 .i32 → Vec F S262144 .i32 → Vec F S262144 .i32),
    StableHlo.binary main_v313 main_v319 main_v320 (addi : Vec F S262144 .i32 → Vec F S262144 .i32 → Vec F S262144 .i32),
    StableHlo.nullary main_c_80 (constantI S_ 32 680#32),
    StableHlo.TRef.unary (.of main_c_80 : StableHlo.TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S262144 ![] bcast_S_S262144),
    StableHlo.TRef.binary (.of main_v320 : StableHlo.TRef sig ⟨S262144, .i32⟩) main_call8.v3 main_call8.v4 Host.remsi,
    StableHlo.TRef.nullary main_call8.c_1 (constantI S_ 32 0#32),
    StableHlo.TRef.unary main_call8.c_1 main_call8.v5 (broadcastInDim S262144 ![] bcast_S_S262144),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S262144 ![] bcast_S_S262144),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S262144 ![] bcast_S_S262144),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S262144 ![] bcast_S_S262144),
    StableHlo.TRef.binary main_call8.v4 main_call8.v13 main_call8.v14 addi,
    StableHlo.TRef.ternary main_call8.v12 main_call8.v14 main_call8.v4 main_call8.v15 select,
    StableHlo.binary main_v305 main_v309 main_v322 (mulf : Vec F S262144 .f32 → Vec F S262144 .f32 → Vec F S262144 .f32),
    StableHlo.unary main_v322 main_v323 (broadcastInDim S262144x1 ![0] bcast_S262144_S262144x1_0 : Vec F S262144 .f32 → Vec F S262144x1 .f32),
    StableHlo.nullary main_c_81 (constantI S_ 32 0#32),
    StableHlo.unary main_c_81 main_v324 (broadcastInDim S262144 ![] bcast_S_S262144 : Vec F S_ .i32 → Vec F S262144 .i32),
    StableHlo.binary main_v321 main_v324 main_v325 (cmpi .slt : Vec F S262144 .i32 → Vec F S262144 .i32 → Vec F S262144 .i1),
    StableHlo.nullary main_c_82 (constantI S_ 32 8192#32),
    StableHlo.unary main_c_82 main_v326 (broadcastInDim S262144 ![] bcast_S_S262144 : Vec F S_ .i32 → Vec F S262144 .i32),
    StableHlo.binary main_v321 main_v326 main_v327 (addi : Vec F S262144 .i32 → Vec F S262144 .i32 → Vec F S262144 .i32),
    StableHlo.ternary main_v325 main_v327 main_v321 main_v328 (select : Vec F S262144 .i1 → Vec F S262144 .i32 → Vec F S262144 .i32 → Vec F S262144 .i32),
    StableHlo.nullary main_c_83 (constantI S_ 32 2#32),
    StableHlo.unary main_c_83 main_v329 (broadcastInDim S262144 ![] bcast_S_S262144 : Vec F S_ .i32 → Vec F S262144 .i32),
    StableHlo.unary main_v329 main_v330 (id : Vec F S262144 .i32 → Vec F S262144 .i32),
    StableHlo.unary main_v330 main_v331 (broadcastInDim S262144x1 ![0] bcast_S262144_S262144x1_0 : Vec F S262144 .i32 → Vec F S262144x1 .i32),
    StableHlo.unary main_v328 main_v332 (broadcastInDim S262144x1 ![0] bcast_S262144_S262144x1_0 : Vec F S262144 .i32 → Vec F S262144x1 .i32),
    StableHlo.binary main_v331 main_v332 main_v333 ((fun a b => concatenate S262144x2 1 [⟨S262144x1, a⟩, ⟨S262144x1, b⟩] concatenates_S262144x1_S262144x1_S262144x2_d1) : Vec F S262144x1 .i32 → Vec F S262144x1 .i32 → Vec F S262144x2 .i32) ]

abbrev piece6W : List (Ref sig .tc) :=
  [main_cst_70, main_v288, main_v289, main_cst_71, main_v290, main_v291, main_v292, main_v293, main_v294, main_v295, main_cst_72, main_v296, main_v297, main_cst_73, main_v298, main_v299, main_v300, main_cst_74, main_v301, main_v302, main_v303, main_cst_75, main_v304, main_v305, main_v306, main_v307, main_cst_76, main_v308, main_v309, main_v310, main_v311, main_c_77, main_v312, main_v313, main_v314, main_v315, main_c_78, main_v316, main_v317, main_c_79, main_v318, main_v319, main_v320, main_c_80, main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v321, main_v322, main_v323, main_c_81, main_v324, main_v325, main_c_82, main_v326, main_v327, main_v328, main_c_83, main_v329, main_v330, main_v331, main_v332, main_v333]

theorem piece6_sub : (piece6 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece6_fresh : (piece6 : List (HloOp τ sig (Elt F))).Forall fun op => op.fresh = ∅ := by
  repeat' first | refine ⟨?_, ?_⟩ | exact rfl

theorem piece6_writes : WritesAt (piece6 : List (HloOp τ sig (Elt F))) piece6W := by
  repeat first | exact .nil | refine .cons rfl ?_

abbrev piece7 : List (HloOp τ sig (Elt F)) :=
  [ StableHlo.binary main_arg1 main_v333 main_v334 ((fun x i => Host.gather gather_S8x8192x8_S262144x2_S262144x8_1_01_n_n_01_1_118 x i) : Vec F S8x8192x8 .f32 → Vec F S262144x2 .i32 → Vec F S262144x8 .f32),
    StableHlo.unary main_v323 main_v335 (broadcastInDim S262144x8 ![0, 1] bcast_S262144x1_S262144x8_0_1 : Vec F S262144x1 .f32 → Vec F S262144x8 .f32),
    StableHlo.binary main_v335 main_v334 main_v336 (mulf : Vec F S262144x8 .f32 → Vec F S262144x8 .f32 → Vec F S262144x8 .f32),
    StableHlo.binary main_v301 main_v336 main_v337 (addf : Vec F S262144x8 .f32 → Vec F S262144x8 .f32 → Vec F S262144x8 .f32),
    StableHlo.unary main_v300 main_v338 ((extractStridedSlice S262144x1 ![0, 1] · slices_S262144x2_S262144x1_0_1) : Vec F S262144x2 .f32 → Vec F S262144x1 .f32),
    StableHlo.reshape main_v338 main_v339 rfl shapeCasts_S262144x1_S262144,
    StableHlo.unary main_v294 main_v340 ((extractStridedSlice S262144x1 ![0, 0] · slices_S262144x2_S262144x1_0_0) : Vec F S262144x2 .i32 → Vec F S262144x1 .i32),
    StableHlo.reshape main_v340 main_v341 rfl shapeCasts_S262144x1_S262144,
    StableHlo.nullary main_c_84 (constantI S_ 32 0#32),
    StableHlo.unary main_c_84 main_v342 (broadcastInDim S262144 ![] bcast_S_S262144 : Vec F S_ .i32 → Vec F S262144 .i32),
    StableHlo.binary main_v341 main_v342 main_v343 (addi : Vec F S262144 .i32 → Vec F S262144 .i32 → Vec F S262144 .i32),
    StableHlo.unary main_v294 main_v344 ((extractStridedSlice S262144x1 ![0, 1] · slices_S262144x2_S262144x1_0_1) : Vec F S262144x2 .i32 → Vec F S262144x1 .i32),
    StableHlo.reshape main_v344 main_v345 rfl shapeCasts_S262144x1_S262144,
    StableHlo.nullary main_c_85 (constantI S_ 32 1#32),
    StableHlo.unary main_c_85 main_v346 (broadcastInDim S262144 ![] bcast_S_S262144 : Vec F S_ .i32 → Vec F S262144 .i32),
    StableHlo.binary main_v345 main_v346 main_v347 (addi : Vec F S262144 .i32 → Vec F S262144 .i32 → Vec F S262144 .i32),
    StableHlo.nullary main_c_86 (constantI S_ 32 26#32),
    StableHlo.unary main_c_86 main_v348 (broadcastInDim S262144 ![] bcast_S_S262144 : Vec F S_ .i32 → Vec F S262144 .i32),
    StableHlo.binary main_v347 main_v348 main_v349 (muli : Vec F S262144 .i32 → Vec F S262144 .i32 → Vec F S262144 .i32),
    StableHlo.binary main_v343 main_v349 main_v350 (addi : Vec F S262144 .i32 → Vec F S262144 .i32 → Vec F S262144 .i32),
    StableHlo.nullary main_c_87 (constantI S_ 32 680#32),
    StableHlo.TRef.unary (.of main_c_87 : StableHlo.TRef sig ⟨S_, .i32⟩) main_call9.v0 id,
    StableHlo.TRef.nullary main_call9.c (constantI S_ 32 0#32),
    StableHlo.TRef.binary main_call9.v0 main_call9.c main_call9.v1 (cmpi .eq),
    StableHlo.TRef.nullary main_call9.c_0 (constantI S_ 32 1#32),
    StableHlo.TRef.ternary main_call9.v1 main_call9.c_0 main_call9.v0 main_call9.call0.v0 select,
    StableHlo.TRef.unary main_call9.call0.v0 main_call9.v3 (broadcastInDim S262144 ![] bcast_S_S262144),
    StableHlo.TRef.binary (.of main_v350 : StableHlo.TRef sig ⟨S262144, .i32⟩) main_call9.v3 main_call9.v4 Host.remsi,
    StableHlo.TRef.nullary main_call9.c_1 (constantI S_ 32 0#32),
    StableHlo.TRef.unary main_call9.c_1 main_call9.v5 (broadcastInDim S262144 ![] bcast_S_S262144),
    StableHlo.TRef.binary main_call9.v4 main_call9.v5 main_call9.v6 (cmpi .ne),
    StableHlo.TRef.nullary main_call9.c_2 (constantI S_ 32 0#32),
    StableHlo.TRef.unary main_call9.c_2 main_call9.v7 (broadcastInDim S262144 ![] bcast_S_S262144),
    StableHlo.TRef.binary main_call9.v4 main_call9.v7 main_call9.v8 (cmpi .slt),
    StableHlo.TRef.nullary main_call9.c_3 (constantI S_ 32 0#32),
    StableHlo.TRef.binary main_call9.call0.v0 main_call9.c_3 main_call9.v9 (cmpi .slt),
    StableHlo.TRef.unary main_call9.v9 main_call9.v10 (broadcastInDim S262144 ![] bcast_S_S262144),
    StableHlo.TRef.binary main_call9.v8 main_call9.v10 main_call9.v11 (cmpi .ne),
    StableHlo.TRef.binary main_call9.v11 main_call9.v6 main_call9.v12 andi,
    StableHlo.TRef.unary main_call9.call0.v0 main_call9.v13 (broadcastInDim S262144 ![] bcast_S_S262144),
    StableHlo.TRef.binary main_call9.v4 main_call9.v13 main_call9.v14 addi,
    StableHlo.TRef.ternary main_call9.v12 main_call9.v14 main_call9.v4 main_call9.v15 select,
    StableHlo.binary main_v305 main_v339 main_v352 (mulf : Vec F S262144 .f32 → Vec F S262144 .f32 → Vec F S262144 .f32),
    StableHlo.unary main_v352 main_v353 (broadcastInDim S262144x1 ![0] bcast_S262144_S262144x1_0 : Vec F S262144 .f32 → Vec F S262144x1 .f32),
    StableHlo.nullary main_c_88 (constantI S_ 32 0#32),
    StableHlo.unary main_c_88 main_v354 (broadcastInDim S262144 ![] bcast_S_S262144 : Vec F S_ .i32 → Vec F S262144 .i32),
    StableHlo.binary main_v351 main_v354 main_v355 (cmpi .slt : Vec F S262144 .i32 → Vec F S262144 .i32 → Vec F S262144 .i1),
    StableHlo.nullary main_c_89 (constantI S_ 32 8192#32),
    StableHlo.unary main_c_89 main_v356 (broadcastInDim S262144 ![] bcast_S_S262144 : Vec F S_ .i32 → Vec F S262144 .i32),
    StableHlo.binary main_v351 main_v356 main_v357 (addi : Vec F S262144 .i32 → Vec F S262144 .i32 → Vec F S262144 .i32),
    StableHlo.ternary main_v355 main_v357 main_v351 main_v358 (select : Vec F S262144 .i1 → Vec F S262144 .i32 → Vec F S262144 .i32 → Vec F S262144 .i32),
    StableHlo.nullary main_c_90 (constantI S_ 32 2#32),
    StableHlo.unary main_c_90 main_v359 (broadcastInDim S262144 ![] bcast_S_S262144 : Vec F S_ .i32 → Vec F S262144 .i32),
    StableHlo.unary main_v359 main_v360 (id : Vec F S262144 .i32 → Vec F S262144 .i32),
    StableHlo.unary main_v360 main_v361 (broadcastInDim S262144x1 ![0] bcast_S262144_S262144x1_0 : Vec F S262144 .i32 → Vec F S262144x1 .i32),
    StableHlo.unary main_v358 main_v362 (broadcastInDim S262144x1 ![0] bcast_S262144_S262144x1_0 : Vec F S262144 .i32 → Vec F S262144x1 .i32),
    StableHlo.binary main_v361 main_v362 main_v363 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v363 main_v364 ((fun x i => Host.gather gather_S8x8192x8_S262144x2_S262144x8_1_01_n_n_01_1_118 x i) : Vec F S8x8192x8 .f32 → Vec F S262144x2 .i32 → Vec F S262144x8 .f32),
    StableHlo.unary main_v353 main_v365 (broadcastInDim S262144x8 ![0, 1] bcast_S262144x1_S262144x8_0_1 : Vec F S262144x1 .f32 → Vec F S262144x8 .f32),
    StableHlo.binary main_v365 main_v364 main_v366 (mulf : Vec F S262144x8 .f32 → Vec F S262144x8 .f32 → Vec F S262144x8 .f32),
    StableHlo.binary main_v337 main_v366 main_v367 (addf : Vec F S262144x8 .f32 → Vec F S262144x8 .f32 → Vec F S262144x8 .f32),
    StableHlo.unary main_v300 main_v368 ((extractStridedSlice S262144x1 ![0, 0] · slices_S262144x2_S262144x1_0_0) : Vec F S262144x2 .f32 → Vec F S262144x1 .f32),
    StableHlo.reshape main_v368 main_v369 rfl shapeCasts_S262144x1_S262144,
    StableHlo.unary main_v300 main_v370 ((extractStridedSlice S262144x1 ![0, 1] · slices_S262144x2_S262144x1_0_1) : Vec F S262144x2 .f32 → Vec F S262144x1 .f32),
    StableHlo.reshape main_v370 main_v371 rfl shapeCasts_S262144x1_S262144,
    StableHlo.nullary main_cst_91 (constant S_ .f32 0x3F800000#32),
    StableHlo.unary main_cst_91 main_v372 (broadcastInDim S262144 ![] bcast_S_S262144 : Vec F S_ .f32 → Vec F S262144 .f32),
    StableHlo.binary main_v372 main_v371 main_v373 (subf : Vec F S262144 .f32 → Vec F S262144 .f32 → Vec F S262144 .f32),
    StableHlo.unary main_v294 main_v374 ((extractStridedSlice S262144x1 ![0, 0] · slices_S262144x2_S262144x1_0_0) : Vec F S262144x2 .i32 → Vec F S262144x1 .i32),
    StableHlo.reshape main_v374 main_v375 rfl shapeCasts_S262144x1_S262144,
    StableHlo.nullary main_c_92 (constantI S_ 32 1#32),
    StableHlo.unary main_c_92 main_v376 (broadcastInDim S262144 ![] bcast_S_S262144 : Vec F S_ .i32 → Vec F S262144 .i32),
    StableHlo.binary main_v375 main_v376 main_v377 (addi : Vec F S262144 .i32 → Vec F S262144 .i32 → Vec F S262144 .i32),
    StableHlo.unary main_v294 main_v378 ((extractStridedSlice S262144x1 ![0, 1] · slices_S262144x2_S262144x1_0_1) : Vec F S262144x2 .i32 → Vec F S262144x1 .i32),
    StableHlo.reshape main_v378 main_v379 rfl shapeCasts_S262144x1_S262144,
    StableHlo.nullary main_c_93 (constantI S_ 32 0#32),
    StableHlo.unary main_c_93 main_v380 (broadcastInDim S262144 ![] bcast_S_S262144 : Vec F S_ .i32 → Vec F S262144 .i32),
    StableHlo.binary main_v379 main_v380 main_v381 (addi : Vec F S262144 .i32 → Vec F S262144 .i32 → Vec F S262144 .i32),
    StableHlo.nullary main_c_94 (constantI S_ 32 26#32),
    StableHlo.unary main_c_94 main_v382 (broadcastInDim S262144 ![] bcast_S_S262144 : Vec F S_ .i32 → Vec F S262144 .i32) ]

abbrev piece7W : List (Ref sig .tc) :=
  [main_v334, main_v335, main_v336, main_v337, main_v338, main_v339, main_v340, main_v341, main_c_84, main_v342, main_v343, main_v344, main_v345, main_c_85, main_v346, main_v347, main_c_86, main_v348, main_v349, main_v350, main_c_87, main_call9_v0, main_call9_c, main_call9_v1, main_call9_c_0, main_call9_v2, main_call9_v3, main_call9_v4, main_call9_c_1, main_call9_v5, main_call9_v6, main_call9_c_2, main_call9_v7, main_call9_v8, main_call9_c_3, main_call9_v9, main_call9_v10, main_call9_v11, main_call9_v12, main_call9_v13, main_call9_v14, main_v351, main_v352, main_v353, main_c_88, main_v354, main_v355, main_c_89, main_v356, main_v357, main_v358, main_c_90, main_v359, main_v360, main_v361, main_v362, main_v363, main_v364, main_v365, main_v366, main_v367, main_v368, main_v369, main_v370, main_v371, main_cst_91, main_v372, main_v373, main_v374, main_v375, main_c_92, main_v376, main_v377, main_v378, main_v379, main_c_93, main_v380, main_v381, main_c_94, main_v382]

theorem piece7_sub : (piece7 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece7_fresh : (piece7 : List (HloOp τ sig (Elt F))).Forall fun op => op.fresh = ∅ := by
  repeat' first | refine ⟨?_, ?_⟩ | exact rfl

theorem piece7_writes : WritesAt (piece7 : List (HloOp τ sig (Elt F))) piece7W := by
  repeat first | exact .nil | refine .cons rfl ?_

abbrev piece8 : List (HloOp τ sig (Elt F)) :=
  [ StableHlo.binary main_v381 main_v382 main_v383 (muli : Vec F S262144 .i32 → Vec F S262144 .i32 → Vec F S262144 .i32),
    StableHlo.binary main_v377 main_v383 main_v384 (addi : Vec F S262144 .i32 → Vec F S262144 .i32 → Vec F S262144 .i32),
    StableHlo.nullary main_c_95 (constantI S_ 32 680#32),
    StableHlo.TRef.unary (.of main_c_95 : StableHlo.TRef sig ⟨S_, .i32⟩) main_call10.v0 id,
    StableHlo.TRef.nullary main_call10.c (constantI S_ 32 0#32),
    StableHlo.TRef.binary main_call10.v0 main_call10.c main_call10.v1 (cmpi .eq),
    StableHlo.TRef.nullary main_call10.c_0 (constantI S_ 32 1#32),
    StableHlo.TRef.ternary main_call10.v1 main_call10.c_0 main_call10.v0 main_call10.call0.v0 select,
    StableHlo.TRef.unary main_call10.call0.v0 main_call10.v3 (broadcastInDim S262144 ![] bcast_S_S262144),
    StableHlo.TRef.binary (.of main_v384 : StableHlo.TRef sig ⟨S262144, .i32⟩) main_call10.v3 main_call10.v4 Host.remsi,
    StableHlo.TRef.nullary main_call10.c_1 (constantI S_ 32 0#32),
    StableHlo.TRef.unary main_call10.c_1 main_call10.v5 (broadcastInDim S262144 ![] bcast_S_S262144),
    StableHlo.TRef.binary main_call10.v4 main_call10.v5 main_call10.v6 (cmpi .ne),
    StableHlo.TRef.nullary main_call10.c_2 (constantI S_ 32 0#32),
    StableHlo.TRef.unary main_call10.c_2 main_call10.v7 (broadcastInDim S262144 ![] bcast_S_S262144),
    StableHlo.TRef.binary main_call10.v4 main_call10.v7 main_call10.v8 (cmpi .slt),
    StableHlo.TRef.nullary main_call10.c_3 (constantI S_ 32 0#32),
    StableHlo.TRef.binary main_call10.call0.v0 main_call10.c_3 main_call10.v9 (cmpi .slt),
    StableHlo.TRef.unary main_call10.v9 main_call10.v10 (broadcastInDim S262144 ![] bcast_S_S262144),
    StableHlo.TRef.binary main_call10.v8 main_call10.v10 main_call10.v11 (cmpi .ne),
    StableHlo.TRef.binary main_call10.v11 main_call10.v6 main_call10.v12 andi,
    StableHlo.TRef.unary main_call10.call0.v0 main_call10.v13 (broadcastInDim S262144 ![] bcast_S_S262144),
    StableHlo.TRef.binary main_call10.v4 main_call10.v13 main_call10.v14 addi,
    StableHlo.TRef.ternary main_call10.v12 main_call10.v14 main_call10.v4 main_call10.v15 select,
    StableHlo.binary main_v369 main_v373 main_v386 (mulf : Vec F S262144 .f32 → Vec F S262144 .f32 → Vec F S262144 .f32),
    StableHlo.unary main_v386 main_v387 (broadcastInDim S262144x1 ![0] bcast_S262144_S262144x1_0 : Vec F S262144 .f32 → Vec F S262144x1 .f32),
    StableHlo.nullary main_c_96 (constantI S_ 32 0#32),
    StableHlo.unary main_c_96 main_v388 (broadcastInDim S262144 ![] bcast_S_S262144 : Vec F S_ .i32 → Vec F S262144 .i32),
    StableHlo.binary main_v385 main_v388 main_v389 (cmpi .slt : Vec F S262144 .i32 → Vec F S262144 .i32 → Vec F S262144 .i1),
    StableHlo.nullary main_c_97 (constantI S_ 32 8192#32),
    StableHlo.unary main_c_97 main_v390 (broadcastInDim S262144 ![] bcast_S_S262144 : Vec F S_ .i32 → Vec F S262144 .i32),
    StableHlo.binary main_v385 main_v390 main_v391 (addi : Vec F S262144 .i32 → Vec F S262144 .i32 → Vec F S262144 .i32),
    StableHlo.ternary main_v389 main_v391 main_v385 main_v392 (select : Vec F S262144 .i1 → Vec F S262144 .i32 → Vec F S262144 .i32 → Vec F S262144 .i32),
    StableHlo.nullary main_c_98 (constantI S_ 32 2#32),
    StableHlo.unary main_c_98 main_v393 (broadcastInDim S262144 ![] bcast_S_S262144 : Vec F S_ .i32 → Vec F S262144 .i32),
    StableHlo.unary main_v393 main_v394 (id : Vec F S262144 .i32 → Vec F S262144 .i32),
    StableHlo.unary main_v394 main_v395 (broadcastInDim S262144x1 ![0] bcast_S262144_S262144x1_0 : Vec F S262144 .i32 → Vec F S262144x1 .i32),
    StableHlo.unary main_v392 main_v396 (broadcastInDim S262144x1 ![0] bcast_S262144_S262144x1_0 : Vec F S262144 .i32 → Vec F S262144x1 .i32),
    StableHlo.binary main_v395 main_v396 main_v397 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v397 main_v398 ((fun x i => Host.gather gather_S8x8192x8_S262144x2_S262144x8_1_01_n_n_01_1_118 x i) : Vec F S8x8192x8 .f32 → Vec F S262144x2 .i32 → Vec F S262144x8 .f32),
    StableHlo.unary main_v387 main_v399 (broadcastInDim S262144x8 ![0, 1] bcast_S262144x1_S262144x8_0_1 : Vec F S262144x1 .f32 → Vec F S262144x8 .f32),
    StableHlo.binary main_v399 main_v398 main_v400 (mulf : Vec F S262144x8 .f32 → Vec F S262144x8 .f32 → Vec F S262144x8 .f32),
    StableHlo.binary main_v367 main_v400 main_v401 (addf : Vec F S262144x8 .f32 → Vec F S262144x8 .f32 → Vec F S262144x8 .f32),
    StableHlo.unary main_v300 main_v402 ((extractStridedSlice S262144x1 ![0, 1] · slices_S262144x2_S262144x1_0_1) : Vec F S262144x2 .f32 → Vec F S262144x1 .f32),
    StableHlo.reshape main_v402 main_v403 rfl shapeCasts_S262144x1_S262144,
    StableHlo.unary main_v294 main_v404 ((extractStridedSlice S262144x1 ![0, 0] · slices_S262144x2_S262144x1_0_0) : Vec F S262144x2 .i32 → Vec F S262144x1 .i32),
    StableHlo.reshape main_v404 main_v405 rfl shapeCasts_S262144x1_S262144,
    StableHlo.nullary main_c_99 (constantI S_ 32 1#32),
    StableHlo.unary main_c_99 main_v406 (broadcastInDim S262144 ![] bcast_S_S262144 : Vec F S_ .i32 → Vec F S262144 .i32),
    StableHlo.binary main_v405 main_v406 main_v407 (addi : Vec F S262144 .i32 → Vec F S262144 .i32 → Vec F S262144 .i32),
    StableHlo.unary main_v294 main_v408 ((extractStridedSlice S262144x1 ![0, 1] · slices_S262144x2_S262144x1_0_1) : Vec F S262144x2 .i32 → Vec F S262144x1 .i32),
    StableHlo.reshape main_v408 main_v409 rfl shapeCasts_S262144x1_S262144,
    StableHlo.nullary main_c_100 (constantI S_ 32 1#32),
    StableHlo.unary main_c_100 main_v410 (broadcastInDim S262144 ![] bcast_S_S262144 : Vec F S_ .i32 → Vec F S262144 .i32),
    StableHlo.binary main_v409 main_v410 main_v411 (addi : Vec F S262144 .i32 → Vec F S262144 .i32 → Vec F S262144 .i32),
    StableHlo.nullary main_c_101 (constantI S_ 32 26#32),
    StableHlo.unary main_c_101 main_v412 (broadcastInDim S262144 ![] bcast_S_S262144 : Vec F S_ .i32 → Vec F S262144 .i32),
    StableHlo.binary main_v411 main_v412 main_v413 (muli : Vec F S262144 .i32 → Vec F S262144 .i32 → Vec F S262144 .i32),
    StableHlo.binary main_v407 main_v413 main_v414 (addi : Vec F S262144 .i32 → Vec F S262144 .i32 → Vec F S262144 .i32),
    StableHlo.nullary main_c_102 (constantI S_ 32 680#32),
    StableHlo.TRef.unary (.of main_c_102 : StableHlo.TRef sig ⟨S_, .i32⟩) main_call11.v0 id,
    StableHlo.TRef.nullary main_call11.c (constantI S_ 32 0#32),
    StableHlo.TRef.binary main_call11.v0 main_call11.c main_call11.v1 (cmpi .eq),
    StableHlo.TRef.nullary main_call11.c_0 (constantI S_ 32 1#32),
    StableHlo.TRef.ternary main_call11.v1 main_call11.c_0 main_call11.v0 main_call11.call0.v0 select,
    StableHlo.TRef.unary main_call11.call0.v0 main_call11.v3 (broadcastInDim S262144 ![] bcast_S_S262144),
    StableHlo.TRef.binary (.of main_v414 : StableHlo.TRef sig ⟨S262144, .i32⟩) main_call11.v3 main_call11.v4 Host.remsi,
    StableHlo.TRef.nullary main_call11.c_1 (constantI S_ 32 0#32),
    StableHlo.TRef.unary main_call11.c_1 main_call11.v5 (broadcastInDim S262144 ![] bcast_S_S262144),
    StableHlo.TRef.binary main_call11.v4 main_call11.v5 main_call11.v6 (cmpi .ne),
    StableHlo.TRef.nullary main_call11.c_2 (constantI S_ 32 0#32),
    StableHlo.TRef.unary main_call11.c_2 main_call11.v7 (broadcastInDim S262144 ![] bcast_S_S262144),
    StableHlo.TRef.binary main_call11.v4 main_call11.v7 main_call11.v8 (cmpi .slt),
    StableHlo.TRef.nullary main_call11.c_3 (constantI S_ 32 0#32),
    StableHlo.TRef.binary main_call11.call0.v0 main_call11.c_3 main_call11.v9 (cmpi .slt),
    StableHlo.TRef.unary main_call11.v9 main_call11.v10 (broadcastInDim S262144 ![] bcast_S_S262144),
    StableHlo.TRef.binary main_call11.v8 main_call11.v10 main_call11.v11 (cmpi .ne),
    StableHlo.TRef.binary main_call11.v11 main_call11.v6 main_call11.v12 andi,
    StableHlo.TRef.unary main_call11.call0.v0 main_call11.v13 (broadcastInDim S262144 ![] bcast_S_S262144),
    StableHlo.TRef.binary main_call11.v4 main_call11.v13 main_call11.v14 addi,
    StableHlo.TRef.ternary main_call11.v12 main_call11.v14 main_call11.v4 main_call11.v15 select,
    StableHlo.binary main_v369 main_v403 main_v416 (mulf : Vec F S262144 .f32 → Vec F S262144 .f32 → Vec F S262144 .f32),
    StableHlo.unary main_v416 main_v417 (broadcastInDim S262144x1 ![0] bcast_S262144_S262144x1_0 : Vec F S262144 .f32 → Vec F S262144x1 .f32),
    StableHlo.nullary main_c_103 (constantI S_ 32 0#32),
    StableHlo.unary main_c_103 main_v418 (broadcastInDim S262144 ![] bcast_S_S262144 : Vec F S_ .i32 → Vec F S262144 .i32),
    StableHlo.binary main_v415 main_v418 main_v419 (cmpi .slt : Vec F S262144 .i32 → Vec F S262144 .i32 → Vec F S262144 .i1),
    StableHlo.nullary main_c_104 (constantI S_ 32 8192#32),
    StableHlo.unary main_c_104 main_v420 (broadcastInDim S262144 ![] bcast_S_S262144 : Vec F S_ .i32 → Vec F S262144 .i32),
    StableHlo.binary main_v415 main_v420 main_v421 (addi : Vec F S262144 .i32 → Vec F S262144 .i32 → Vec F S262144 .i32),
    StableHlo.ternary main_v419 main_v421 main_v415 main_v422 (select : Vec F S262144 .i1 → Vec F S262144 .i32 → Vec F S262144 .i32 → Vec F S262144 .i32),
    StableHlo.nullary main_c_105 (constantI S_ 32 2#32),
    StableHlo.unary main_c_105 main_v423 (broadcastInDim S262144 ![] bcast_S_S262144 : Vec F S_ .i32 → Vec F S262144 .i32),
    StableHlo.unary main_v423 main_v424 (id : Vec F S262144 .i32 → Vec F S262144 .i32),
    StableHlo.unary main_v424 main_v425 (broadcastInDim S262144x1 ![0] bcast_S262144_S262144x1_0 : Vec F S262144 .i32 → Vec F S262144x1 .i32),
    StableHlo.unary main_v422 main_v426 (broadcastInDim S262144x1 ![0] bcast_S262144_S262144x1_0 : Vec F S262144 .i32 → Vec F S262144x1 .i32),
    StableHlo.binary main_v425 main_v426 main_v427 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v427 main_v428 ((fun x i => Host.gather gather_S8x8192x8_S262144x2_S262144x8_1_01_n_n_01_1_118 x i) : Vec F S8x8192x8 .f32 → Vec F S262144x2 .i32 → Vec F S262144x8 .f32),
    StableHlo.unary main_v417 main_v429 (broadcastInDim S262144x8 ![0, 1] bcast_S262144x1_S262144x8_0_1 : Vec F S262144x1 .f32 → Vec F S262144x8 .f32),
    StableHlo.binary main_v429 main_v428 main_v430 (mulf : Vec F S262144x8 .f32 → Vec F S262144x8 .f32 → Vec F S262144x8 .f32),
    StableHlo.binary main_v401 main_v430 main_v431 (addf : Vec F S262144x8 .f32 → Vec F S262144x8 .f32 → Vec F S262144x8 .f32) ]

abbrev piece8W : List (Ref sig .tc) :=
  [main_v383, main_v384, main_c_95, main_call10_v0, main_call10_c, main_call10_v1, main_call10_c_0, main_call10_v2, main_call10_v3, main_call10_v4, main_call10_c_1, main_call10_v5, main_call10_v6, main_call10_c_2, main_call10_v7, main_call10_v8, main_call10_c_3, main_call10_v9, main_call10_v10, main_call10_v11, main_call10_v12, main_call10_v13, main_call10_v14, main_v385, main_v386, main_v387, main_c_96, main_v388, main_v389, main_c_97, main_v390, main_v391, main_v392, main_c_98, main_v393, main_v394, main_v395, main_v396, main_v397, main_v398, main_v399, main_v400, main_v401, main_v402, main_v403, main_v404, main_v405, main_c_99, main_v406, main_v407, main_v408, main_v409, main_c_100, main_v410, main_v411, main_c_101, main_v412, main_v413, main_v414, main_c_102, main_call11_v0, main_call11_c, main_call11_v1, main_call11_c_0, main_call11_v2, main_call11_v3, main_call11_v4, main_call11_c_1, main_call11_v5, main_call11_v6, main_call11_c_2, main_call11_v7, main_call11_v8, main_call11_c_3, main_call11_v9, main_call11_v10, main_call11_v11, main_call11_v12, main_call11_v13, main_call11_v14, main_v415, main_v416, main_v417, main_c_103, main_v418, main_v419, main_c_104, main_v420, main_v421, main_v422, main_c_105, main_v423, main_v424, main_v425, main_v426, main_v427, main_v428, main_v429, main_v430, main_v431]

theorem piece8_sub : (piece8 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece8_fresh : (piece8 : List (HloOp τ sig (Elt F))).Forall fun op => op.fresh = ∅ := by
  repeat' first | refine ⟨?_, ?_⟩ | exact rfl

theorem piece8_writes : WritesAt (piece8 : List (HloOp τ sig (Elt F))) piece8W := by
  repeat first | exact .nil | refine .cons rfl ?_

abbrev lvlOps2 : List (HloOp τ sig (Elt F)) := piece6 ++ piece7 ++ piece8

abbrev lvlWrites2 : List (Ref sig .tc) := piece6W ++ piece7W ++ piece8W

theorem lvlOps2_sub : (lvlOps2 : List (HloOp τ sig (Elt F))).Forall fun op => op.bufs ⊆ tcRefs τ sig :=
  forall_append' (forall_append' (piece6_sub) piece7_sub) piece8_sub

theorem lvlOps2_fresh : (lvlOps2 : List (HloOp τ sig (Elt F))).Forall fun op => op.fresh = ∅ :=
  forall_append' (forall_append' (piece6_fresh) piece7_fresh) piece8_fresh

theorem lvlOps2_writesAt : WritesAt (lvlOps2 : List (HloOp τ sig (Elt F))) lvlWrites2 :=
  ((piece6_writes).append piece7_writes).append piece8_writes

theorem lvlOps2_writes : (lvlOps2 : List (HloOp τ sig (Elt F))).Forall fun op => op.writes ⊆ (lvlWrites2.map (Proc.devRef (τ := τ) .tc)).toFinset :=
  lvlOps2_writesAt.forall_sub

end Cert.ReferenceIdeal.RefVal

end
-- ==== Proof.RefOps3.lean ====
-- The reference's operations in the printed order, a call's operations written at the call; beside each piece, the reference every operation writes.
import proofs.«132274_j36180804501977_1_alg».proof.ReferenceIdeal
import proofs.«132274_j36180804501977_1_alg».proof.Proof.RefOpsLib
import Idealize.ShloMosaic.Lib.StableHlo.Run

set_option maxRecDepth 8192

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

abbrev piece9 : List (HloOp τ sig (Elt F)) :=
  [ StableHlo.nullary main_cst_106 (constant S_ .f32 0x41F80001#32),
    StableHlo.unary main_cst_106 main_v432 (broadcastInDim S262144x2 ![] bcast_S_S262144x2 : Vec F S_ .f32 → Vec F S262144x2 .f32),
    StableHlo.binary main_arg0 main_v432 main_v433 (mulf : Vec F S262144x2 .f32 → Vec F S262144x2 .f32 → Vec F S262144x2 .f32),
    StableHlo.nullary main_cst_107 (constant S_ .f32 0x3F000000#32),
    StableHlo.unary main_cst_107 main_v434 (broadcastInDim S262144x2 ![] bcast_S_S262144x2 : Vec F S_ .f32 → Vec F S262144x2 .f32),
    StableHlo.binary main_v433 main_v434 main_v435 (addf : Vec F S262144x2 .f32 → Vec F S262144x2 .f32 → Vec F S262144x2 .f32),
    StableHlo.unary main_v435 main_v436 (Host.floor : Vec F S262144x2 .f32 → Vec F S262144x2 .f32),
    StableHlo.binary main_v435 main_v436 main_v437 (subf : Vec F S262144x2 .f32 → Vec F S262144x2 .f32 → Vec F S262144x2 .f32),
    StableHlo.unary main_v436 main_v438 (fptosi 32 : Vec F S262144x2 .f32 → Vec F S262144x2 .i32),
    StableHlo.binary main_v437 main_v437 main_v439 (mulf : Vec F S262144x2 .f32 → Vec F S262144x2 .f32 → Vec F S262144x2 .f32),
    StableHlo.nullary main_cst_108 (constant S_ .f32 0x40000000#32),
    StableHlo.unary main_cst_108 main_v440 (broadcastInDim S262144x2 ![] bcast_S_S262144x2 : Vec F S_ .f32 → Vec F S262144x2 .f32),
    StableHlo.binary main_v440 main_v437 main_v441 (mulf : Vec F S262144x2 .f32 → Vec F S262144x2 .f32 → Vec F S262144x2 .f32),
    StableHlo.nullary main_cst_109 (constant S_ .f32 0x40400000#32),
    StableHlo.unary main_cst_109 main_v442 (broadcastInDim S262144x2 ![] bcast_S_S262144x2 : Vec F S_ .f32 → Vec F S262144x2 .f32),
    StableHlo.binary main_v442 main_v441 main_v443 (subf : Vec F S262144x2 .f32 → Vec F S262144x2 .f32 → Vec F S262144x2 .f32),
    StableHlo.binary main_v439 main_v443 main_v444 (mulf : Vec F S262144x2 .f32 → Vec F S262144x2 .f32 → Vec F S262144x2 .f32),
    StableHlo.nullary main_cst_110 (constant S_ .f32 0x00000000#32),
    StableHlo.unary main_cst_110 main_v445 (broadcastInDim S262144x8 ![] bcast_S_S262144x8 : Vec F S_ .f32 → Vec F S262144x8 .f32),
    StableHlo.unary main_v444 main_v446 ((extractStridedSlice S262144x1 ![0, 0] · slices_S262144x2_S262144x1_0_0) : Vec F S262144x2 .f32 → Vec F S262144x1 .f32),
    StableHlo.reshape main_v446 main_v447 rfl shapeCasts_S262144x1_S262144,
    StableHlo.nullary main_cst_111 (constant S_ .f32 0x3F800000#32),
    StableHlo.unary main_cst_111 main_v448 (broadcastInDim S262144 ![] bcast_S_S262144 : Vec F S_ .f32 → Vec F S262144 .f32),
    StableHlo.binary main_v448 main_v447 main_v449 (subf : Vec F S262144 .f32 → Vec F S262144 .f32 → Vec F S262144 .f32),
    StableHlo.unary main_v444 main_v450 ((extractStridedSlice S262144x1 ![0, 1] · slices_S262144x2_S262144x1_0_1) : Vec F S262144x2 .f32 → Vec F S262144x1 .f32),
    StableHlo.reshape main_v450 main_v451 rfl shapeCasts_S262144x1_S262144,
    StableHlo.nullary main_cst_112 (constant S_ .f32 0x3F800000#32),
    StableHlo.unary main_cst_112 main_v452 (broadcastInDim S262144 ![] bcast_S_S262144 : Vec F S_ .f32 → Vec F S262144 .f32),
    StableHlo.binary main_v452 main_v451 main_v453 (subf : Vec F S262144 .f32 → Vec F S262144 .f32 → Vec F S262144 .f32),
    StableHlo.unary main_v438 main_v454 ((extractStridedSlice S262144x1 ![0, 0] · slices_S262144x2_S262144x1_0_0) : Vec F S262144x2 .i32 → Vec F S262144x1 .i32),
    StableHlo.reshape main_v454 main_v455 rfl shapeCasts_S262144x1_S262144,
    StableHlo.nullary main_c_113 (constantI S_ 32 0#32),
    StableHlo.unary main_c_113 main_v456 (broadcastInDim S262144 ![] bcast_S_S262144 : Vec F S_ .i32 → Vec F S262144 .i32),
    StableHlo.binary main_v455 main_v456 main_v457 (addi : Vec F S262144 .i32 → Vec F S262144 .i32 → Vec F S262144 .i32),
    StableHlo.unary main_v438 main_v458 ((extractStridedSlice S262144x1 ![0, 1] · slices_S262144x2_S262144x1_0_1) : Vec F S262144x2 .i32 → Vec F S262144x1 .i32),
    StableHlo.reshape main_v458 main_v459 rfl shapeCasts_S262144x1_S262144,
    StableHlo.nullary main_c_114 (constantI S_ 32 0#32),
    StableHlo.unary main_c_114 main_v460 (broadcastInDim S262144 ![] bcast_S_S262144 : Vec F S_ .i32 → Vec F S262144 .i32),
    StableHlo.binary main_v459 main_v460 main_v461 (addi : Vec F S262144 .i32 → Vec F S262144 .i32 → Vec F S262144 .i32),
    StableHlo.nullary main_c_115 (constantI S_ 32 33#32),
    StableHlo.unary main_c_115 main_v462 (broadcastInDim S262144 ![] bcast_S_S262144 : Vec F S_ .i32 → Vec F S262144 .i32),
    StableHlo.binary main_v461 main_v462 main_v463 (muli : Vec F S262144 .i32 → Vec F S262144 .i32 → Vec F S262144 .i32),
    StableHlo.binary main_v457 main_v463 main_v464 (addi : Vec F S262144 .i32 → Vec F S262144 .i32 → Vec F S262144 .i32),
    StableHlo.nullary main_c_116 (constantI S_ 32 1096#32),
    StableHlo.TRef.unary (.of main_c_116 : StableHlo.TRef sig ⟨S_, .i32⟩) main_call12.v0 id,
    StableHlo.TRef.nullary main_call12.c (constantI S_ 32 0#32),
    StableHlo.TRef.binary main_call12.v0 main_call12.c main_call12.v1 (cmpi .eq),
    StableHlo.TRef.nullary main_call12.c_0 (constantI S_ 32 1#32),
    StableHlo.TRef.ternary main_call12.v1 main_call12.c_0 main_call12.v0 main_call12.call0.v0 select,
    StableHlo.TRef.unary main_call12.call0.v0 main_call12.v3 (broadcastInDim S262144 ![] bcast_S_S262144),
    StableHlo.TRef.binary (.of main_v464 : StableHlo.TRef sig ⟨S262144, .i32⟩) main_call12.v3 main_call12.v4 Host.remsi,
    StableHlo.TRef.nullary main_call12.c_1 (constantI S_ 32 0#32),
    StableHlo.TRef.unary main_call12.c_1 main_call12.v5 (broadcastInDim S262144 ![] bcast_S_S262144),
    StableHlo.TRef.binary main_call12.v4 main_call12.v5 main_call12.v6 (cmpi .ne),
    StableHlo.TRef.nullary main_call12.c_2 (constantI S_ 32 0#32),
    StableHlo.TRef.unary main_call12.c_2 main_call12.v7 (broadcastInDim S262144 ![] bcast_S_S262144),
    StableHlo.TRef.binary main_call12.v4 main_call12.v7 main_call12.v8 (cmpi .slt),
    StableHlo.TRef.nullary main_call12.c_3 (constantI S_ 32 0#32),
    StableHlo.TRef.binary main_call12.call0.v0 main_call12.c_3 main_call12.v9 (cmpi .slt),
    StableHlo.TRef.unary main_call12.v9 main_call12.v10 (broadcastInDim S262144 ![] bcast_S_S262144),
    StableHlo.TRef.binary main_call12.v8 main_call12.v10 main_call12.v11 (cmpi .ne),
    StableHlo.TRef.binary main_call12.v11 main_call12.v6 main_call12.v12 andi,
    StableHlo.TRef.unary main_call12.call0.v0 main_call12.v13 (broadcastInDim S262144 ![] bcast_S_S262144),
    StableHlo.TRef.binary main_call12.v4 main_call12.v13 main_call12.v14 addi,
    StableHlo.TRef.ternary main_call12.v12 main_call12.v14 main_call12.v4 main_call12.v15 select,
    StableHlo.binary main_v449 main_v453 main_v466 (mulf : Vec F S262144 .f32 → Vec F S262144 .f32 → Vec F S262144 .f32),
    StableHlo.unary main_v466 main_v467 (broadcastInDim S262144x1 ![0] bcast_S262144_S262144x1_0 : Vec F S262144 .f32 → Vec F S262144x1 .f32),
    StableHlo.nullary main_c_117 (constantI S_ 32 0#32),
    StableHlo.unary main_c_117 main_v468 (broadcastInDim S262144 ![] bcast_S_S262144 : Vec F S_ .i32 → Vec F S262144 .i32),
    StableHlo.binary main_v465 main_v468 main_v469 (cmpi .slt : Vec F S262144 .i32 → Vec F S262144 .i32 → Vec F S262144 .i1),
    StableHlo.nullary main_c_118 (constantI S_ 32 8192#32),
    StableHlo.unary main_c_118 main_v470 (broadcastInDim S262144 ![] bcast_S_S262144 : Vec F S_ .i32 → Vec F S262144 .i32),
    StableHlo.binary main_v465 main_v470 main_v471 (addi : Vec F S262144 .i32 → Vec F S262144 .i32 → Vec F S262144 .i32),
    StableHlo.ternary main_v469 main_v471 main_v465 main_v472 (select : Vec F S262144 .i1 → Vec F S262144 .i32 → Vec F S262144 .i32 → Vec F S262144 .i32),
    StableHlo.nullary main_c_119 (constantI S_ 32 3#32),
    StableHlo.unary main_c_119 main_v473 (broadcastInDim S262144 ![] bcast_S_S262144 : Vec F S_ .i32 → Vec F S262144 .i32),
    StableHlo.unary main_v473 main_v474 (id : Vec F S262144 .i32 → Vec F S262144 .i32),
    StableHlo.unary main_v474 main_v475 (broadcastInDim S262144x1 ![0] bcast_S262144_S262144x1_0 : Vec F S262144 .i32 → Vec F S262144x1 .i32),
    StableHlo.unary main_v472 main_v476 (broadcastInDim S262144x1 ![0] bcast_S262144_S262144x1_0 : Vec F S262144 .i32 → Vec F S262144x1 .i32),
    StableHlo.binary main_v475 main_v476 main_v477 ((fun a b => concatenate S262144x2 1 [⟨S262144x1, a⟩, ⟨S262144x1, b⟩] concatenates_S262144x1_S262144x1_S262144x2_d1) : Vec F S262144x1 .i32 → Vec F S262144x1 .i32 → Vec F S262144x2 .i32) ]

abbrev piece9W : List (Ref sig .tc) :=
  [main_cst_106, main_v432, main_v433, main_cst_107, main_v434, main_v435, main_v436, main_v437, main_v438, main_v439, main_cst_108, main_v440, main_v441, main_cst_109, main_v442, main_v443, main_v444, main_cst_110, main_v445, main_v446, main_v447, main_cst_111, main_v448, main_v449, main_v450, main_v451, main_cst_112, main_v452, main_v453, main_v454, main_v455, main_c_113, main_v456, main_v457, main_v458, main_v459, main_c_114, main_v460, main_v461, main_c_115, main_v462, main_v463, main_v464, main_c_116, main_call12_v0, main_call12_c, main_call12_v1, main_call12_c_0, main_call12_v2, main_call12_v3, main_call12_v4, main_call12_c_1, main_call12_v5, main_call12_v6, main_call12_c_2, main_call12_v7, main_call12_v8, main_call12_c_3, main_call12_v9, main_call12_v10, main_call12_v11, main_call12_v12, main_call12_v13, main_call12_v14, main_v465, main_v466, main_v467, main_c_117, main_v468, main_v469, main_c_118, main_v470, main_v471, main_v472, main_c_119, main_v473, main_v474, main_v475, main_v476, main_v477]

theorem piece9_sub : (piece9 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece9_fresh : (piece9 : List (HloOp τ sig (Elt F))).Forall fun op => op.fresh = ∅ := by
  repeat' first | refine ⟨?_, ?_⟩ | exact rfl

theorem piece9_writes : WritesAt (piece9 : List (HloOp τ sig (Elt F))) piece9W := by
  repeat first | exact .nil | refine .cons rfl ?_

abbrev piece10 : List (HloOp τ sig (Elt F)) :=
  [ StableHlo.binary main_arg1 main_v477 main_v478 ((fun x i => Host.gather gather_S8x8192x8_S262144x2_S262144x8_1_01_n_n_01_1_118 x i) : Vec F S8x8192x8 .f32 → Vec F S262144x2 .i32 → Vec F S262144x8 .f32),
    StableHlo.unary main_v467 main_v479 (broadcastInDim S262144x8 ![0, 1] bcast_S262144x1_S262144x8_0_1 : Vec F S262144x1 .f32 → Vec F S262144x8 .f32),
    StableHlo.binary main_v479 main_v478 main_v480 (mulf : Vec F S262144x8 .f32 → Vec F S262144x8 .f32 → Vec F S262144x8 .f32),
    StableHlo.binary main_v445 main_v480 main_v481 (addf : Vec F S262144x8 .f32 → Vec F S262144x8 .f32 → Vec F S262144x8 .f32),
    StableHlo.unary main_v444 main_v482 ((extractStridedSlice S262144x1 ![0, 1] · slices_S262144x2_S262144x1_0_1) : Vec F S262144x2 .f32 → Vec F S262144x1 .f32),
    StableHlo.reshape main_v482 main_v483 rfl shapeCasts_S262144x1_S262144,
    StableHlo.unary main_v438 main_v484 ((extractStridedSlice S262144x1 ![0, 0] · slices_S262144x2_S262144x1_0_0) : Vec F S262144x2 .i32 → Vec F S262144x1 .i32),
    StableHlo.reshape main_v484 main_v485 rfl shapeCasts_S262144x1_S262144,
    StableHlo.nullary main_c_120 (constantI S_ 32 0#32),
    StableHlo.unary main_c_120 main_v486 (broadcastInDim S262144 ![] bcast_S_S262144 : Vec F S_ .i32 → Vec F S262144 .i32),
    StableHlo.binary main_v485 main_v486 main_v487 (addi : Vec F S262144 .i32 → Vec F S262144 .i32 → Vec F S262144 .i32),
    StableHlo.unary main_v438 main_v488 ((extractStridedSlice S262144x1 ![0, 1] · slices_S262144x2_S262144x1_0_1) : Vec F S262144x2 .i32 → Vec F S262144x1 .i32),
    StableHlo.reshape main_v488 main_v489 rfl shapeCasts_S262144x1_S262144,
    StableHlo.nullary main_c_121 (constantI S_ 32 1#32),
    StableHlo.unary main_c_121 main_v490 (broadcastInDim S262144 ![] bcast_S_S262144 : Vec F S_ .i32 → Vec F S262144 .i32),
    StableHlo.binary main_v489 main_v490 main_v491 (addi : Vec F S262144 .i32 → Vec F S262144 .i32 → Vec F S262144 .i32),
    StableHlo.nullary main_c_122 (constantI S_ 32 33#32),
    StableHlo.unary main_c_122 main_v492 (broadcastInDim S262144 ![] bcast_S_S262144 : Vec F S_ .i32 → Vec F S262144 .i32),
    StableHlo.binary main_v491 main_v492 main_v493 (muli : Vec F S262144 .i32 → Vec F S262144 .i32 → Vec F S262144 .i32),
    StableHlo.binary main_v487 main_v493 main_v494 (addi : Vec F S262144 .i32 → Vec F S262144 .i32 → Vec F S262144 .i32),
    StableHlo.nullary main_c_123 (constantI S_ 32 1096#32),
    StableHlo.TRef.unary (.of main_c_123 : StableHlo.TRef sig ⟨S_, .i32⟩) main_call13.v0 id,
    StableHlo.TRef.nullary main_call13.c (constantI S_ 32 0#32),
    StableHlo.TRef.binary main_call13.v0 main_call13.c main_call13.v1 (cmpi .eq),
    StableHlo.TRef.nullary main_call13.c_0 (constantI S_ 32 1#32),
    StableHlo.TRef.ternary main_call13.v1 main_call13.c_0 main_call13.v0 main_call13.call0.v0 select,
    StableHlo.TRef.unary main_call13.call0.v0 main_call13.v3 (broadcastInDim S262144 ![] bcast_S_S262144),
    StableHlo.TRef.binary (.of main_v494 : StableHlo.TRef sig ⟨S262144, .i32⟩) main_call13.v3 main_call13.v4 Host.remsi,
    StableHlo.TRef.nullary main_call13.c_1 (constantI S_ 32 0#32),
    StableHlo.TRef.unary main_call13.c_1 main_call13.v5 (broadcastInDim S262144 ![] bcast_S_S262144),
    StableHlo.TRef.binary main_call13.v4 main_call13.v5 main_call13.v6 (cmpi .ne),
    StableHlo.TRef.nullary main_call13.c_2 (constantI S_ 32 0#32),
    StableHlo.TRef.unary main_call13.c_2 main_call13.v7 (broadcastInDim S262144 ![] bcast_S_S262144),
    StableHlo.TRef.binary main_call13.v4 main_call13.v7 main_call13.v8 (cmpi .slt),
    StableHlo.TRef.nullary main_call13.c_3 (constantI S_ 32 0#32),
    StableHlo.TRef.binary main_call13.call0.v0 main_call13.c_3 main_call13.v9 (cmpi .slt),
    StableHlo.TRef.unary main_call13.v9 main_call13.v10 (broadcastInDim S262144 ![] bcast_S_S262144),
    StableHlo.TRef.binary main_call13.v8 main_call13.v10 main_call13.v11 (cmpi .ne),
    StableHlo.TRef.binary main_call13.v11 main_call13.v6 main_call13.v12 andi,
    StableHlo.TRef.unary main_call13.call0.v0 main_call13.v13 (broadcastInDim S262144 ![] bcast_S_S262144),
    StableHlo.TRef.binary main_call13.v4 main_call13.v13 main_call13.v14 addi,
    StableHlo.TRef.ternary main_call13.v12 main_call13.v14 main_call13.v4 main_call13.v15 select,
    StableHlo.binary main_v449 main_v483 main_v496 (mulf : Vec F S262144 .f32 → Vec F S262144 .f32 → Vec F S262144 .f32),
    StableHlo.unary main_v496 main_v497 (broadcastInDim S262144x1 ![0] bcast_S262144_S262144x1_0 : Vec F S262144 .f32 → Vec F S262144x1 .f32),
    StableHlo.nullary main_c_124 (constantI S_ 32 0#32),
    StableHlo.unary main_c_124 main_v498 (broadcastInDim S262144 ![] bcast_S_S262144 : Vec F S_ .i32 → Vec F S262144 .i32),
    StableHlo.binary main_v495 main_v498 main_v499 (cmpi .slt : Vec F S262144 .i32 → Vec F S262144 .i32 → Vec F S262144 .i1),
    StableHlo.nullary main_c_125 (constantI S_ 32 8192#32),
    StableHlo.unary main_c_125 main_v500 (broadcastInDim S262144 ![] bcast_S_S262144 : Vec F S_ .i32 → Vec F S262144 .i32),
    StableHlo.binary main_v495 main_v500 main_v501 (addi : Vec F S262144 .i32 → Vec F S262144 .i32 → Vec F S262144 .i32),
    StableHlo.ternary main_v499 main_v501 main_v495 main_v502 (select : Vec F S262144 .i1 → Vec F S262144 .i32 → Vec F S262144 .i32 → Vec F S262144 .i32),
    StableHlo.nullary main_c_126 (constantI S_ 32 3#32),
    StableHlo.unary main_c_126 main_v503 (broadcastInDim S262144 ![] bcast_S_S262144 : Vec F S_ .i32 → Vec F S262144 .i32),
    StableHlo.unary main_v503 main_v504 (id : Vec F S262144 .i32 → Vec F S262144 .i32),
    StableHlo.unary main_v504 main_v505 (broadcastInDim S262144x1 ![0] bcast_S262144_S262144x1_0 : Vec F S262144 .i32 → Vec F S262144x1 .i32),
    StableHlo.unary main_v502 main_v506 (broadcastInDim S262144x1 ![0] bcast_S262144_S262144x1_0 : Vec F S262144 .i32 → Vec F S262144x1 .i32),
    StableHlo.binary main_v505 main_v506 main_v507 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v507 main_v508 ((fun x i => Host.gather gather_S8x8192x8_S262144x2_S262144x8_1_01_n_n_01_1_118 x i) : Vec F S8x8192x8 .f32 → Vec F S262144x2 .i32 → Vec F S262144x8 .f32),
    StableHlo.unary main_v497 main_v509 (broadcastInDim S262144x8 ![0, 1] bcast_S262144x1_S262144x8_0_1 : Vec F S262144x1 .f32 → Vec F S262144x8 .f32),
    StableHlo.binary main_v509 main_v508 main_v510 (mulf : Vec F S262144x8 .f32 → Vec F S262144x8 .f32 → Vec F S262144x8 .f32),
    StableHlo.binary main_v481 main_v510 main_v511 (addf : Vec F S262144x8 .f32 → Vec F S262144x8 .f32 → Vec F S262144x8 .f32),
    StableHlo.unary main_v444 main_v512 ((extractStridedSlice S262144x1 ![0, 0] · slices_S262144x2_S262144x1_0_0) : Vec F S262144x2 .f32 → Vec F S262144x1 .f32),
    StableHlo.reshape main_v512 main_v513 rfl shapeCasts_S262144x1_S262144,
    StableHlo.unary main_v444 main_v514 ((extractStridedSlice S262144x1 ![0, 1] · slices_S262144x2_S262144x1_0_1) : Vec F S262144x2 .f32 → Vec F S262144x1 .f32),
    StableHlo.reshape main_v514 main_v515 rfl shapeCasts_S262144x1_S262144,
    StableHlo.nullary main_cst_127 (constant S_ .f32 0x3F800000#32),
    StableHlo.unary main_cst_127 main_v516 (broadcastInDim S262144 ![] bcast_S_S262144 : Vec F S_ .f32 → Vec F S262144 .f32),
    StableHlo.binary main_v516 main_v515 main_v517 (subf : Vec F S262144 .f32 → Vec F S262144 .f32 → Vec F S262144 .f32),
    StableHlo.unary main_v438 main_v518 ((extractStridedSlice S262144x1 ![0, 0] · slices_S262144x2_S262144x1_0_0) : Vec F S262144x2 .i32 → Vec F S262144x1 .i32),
    StableHlo.reshape main_v518 main_v519 rfl shapeCasts_S262144x1_S262144,
    StableHlo.nullary main_c_128 (constantI S_ 32 1#32),
    StableHlo.unary main_c_128 main_v520 (broadcastInDim S262144 ![] bcast_S_S262144 : Vec F S_ .i32 → Vec F S262144 .i32),
    StableHlo.binary main_v519 main_v520 main_v521 (addi : Vec F S262144 .i32 → Vec F S262144 .i32 → Vec F S262144 .i32),
    StableHlo.unary main_v438 main_v522 ((extractStridedSlice S262144x1 ![0, 1] · slices_S262144x2_S262144x1_0_1) : Vec F S262144x2 .i32 → Vec F S262144x1 .i32),
    StableHlo.reshape main_v522 main_v523 rfl shapeCasts_S262144x1_S262144,
    StableHlo.nullary main_c_129 (constantI S_ 32 0#32),
    StableHlo.unary main_c_129 main_v524 (broadcastInDim S262144 ![] bcast_S_S262144 : Vec F S_ .i32 → Vec F S262144 .i32),
    StableHlo.binary main_v523 main_v524 main_v525 (addi : Vec F S262144 .i32 → Vec F S262144 .i32 → Vec F S262144 .i32),
    StableHlo.nullary main_c_130 (constantI S_ 32 33#32),
    StableHlo.unary main_c_130 main_v526 (broadcastInDim S262144 ![] bcast_S_S262144 : Vec F S_ .i32 → Vec F S262144 .i32) ]

abbrev piece10W : List (Ref sig .tc) :=
  [main_v478, main_v479, main_v480, main_v481, main_v482, main_v483, main_v484, main_v485, main_c_120, main_v486, main_v487, main_v488, main_v489, main_c_121, main_v490, main_v491, main_c_122, main_v492, main_v493, main_v494, main_c_123, main_call13_v0, main_call13_c, main_call13_v1, main_call13_c_0, main_call13_v2, main_call13_v3, main_call13_v4, main_call13_c_1, main_call13_v5, main_call13_v6, main_call13_c_2, main_call13_v7, main_call13_v8, main_call13_c_3, main_call13_v9, main_call13_v10, main_call13_v11, main_call13_v12, main_call13_v13, main_call13_v14, main_v495, main_v496, main_v497, main_c_124, main_v498, main_v499, main_c_125, main_v500, main_v501, main_v502, main_c_126, main_v503, main_v504, main_v505, main_v506, main_v507, main_v508, main_v509, main_v510, main_v511, main_v512, main_v513, main_v514, main_v515, main_cst_127, main_v516, main_v517, main_v518, main_v519, main_c_128, main_v520, main_v521, main_v522, main_v523, main_c_129, main_v524, main_v525, main_c_130, main_v526]

theorem piece10_sub : (piece10 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece10_fresh : (piece10 : List (HloOp τ sig (Elt F))).Forall fun op => op.fresh = ∅ := by
  repeat' first | refine ⟨?_, ?_⟩ | exact rfl

theorem piece10_writes : WritesAt (piece10 : List (HloOp τ sig (Elt F))) piece10W := by
  repeat first | exact .nil | refine .cons rfl ?_

abbrev piece11 : List (HloOp τ sig (Elt F)) :=
  [ StableHlo.binary main_v525 main_v526 main_v527 (muli : Vec F S262144 .i32 → Vec F S262144 .i32 → Vec F S262144 .i32),
    StableHlo.binary main_v521 main_v527 main_v528 (addi : Vec F S262144 .i32 → Vec F S262144 .i32 → Vec F S262144 .i32),
    StableHlo.nullary main_c_131 (constantI S_ 32 1096#32),
    StableHlo.TRef.unary (.of main_c_131 : StableHlo.TRef sig ⟨S_, .i32⟩) main_call14.v0 id,
    StableHlo.TRef.nullary main_call14.c (constantI S_ 32 0#32),
    StableHlo.TRef.binary main_call14.v0 main_call14.c main_call14.v1 (cmpi .eq),
    StableHlo.TRef.nullary main_call14.c_0 (constantI S_ 32 1#32),
    StableHlo.TRef.ternary main_call14.v1 main_call14.c_0 main_call14.v0 main_call14.call0.v0 select,
    StableHlo.TRef.unary main_call14.call0.v0 main_call14.v3 (broadcastInDim S262144 ![] bcast_S_S262144),
    StableHlo.TRef.binary (.of main_v528 : StableHlo.TRef sig ⟨S262144, .i32⟩) main_call14.v3 main_call14.v4 Host.remsi,
    StableHlo.TRef.nullary main_call14.c_1 (constantI S_ 32 0#32),
    StableHlo.TRef.unary main_call14.c_1 main_call14.v5 (broadcastInDim S262144 ![] bcast_S_S262144),
    StableHlo.TRef.binary main_call14.v4 main_call14.v5 main_call14.v6 (cmpi .ne),
    StableHlo.TRef.nullary main_call14.c_2 (constantI S_ 32 0#32),
    StableHlo.TRef.unary main_call14.c_2 main_call14.v7 (broadcastInDim S262144 ![] bcast_S_S262144),
    StableHlo.TRef.binary main_call14.v4 main_call14.v7 main_call14.v8 (cmpi .slt),
    StableHlo.TRef.nullary main_call14.c_3 (constantI S_ 32 0#32),
    StableHlo.TRef.binary main_call14.call0.v0 main_call14.c_3 main_call14.v9 (cmpi .slt),
    StableHlo.TRef.unary main_call14.v9 main_call14.v10 (broadcastInDim S262144 ![] bcast_S_S262144),
    StableHlo.TRef.binary main_call14.v8 main_call14.v10 main_call14.v11 (cmpi .ne),
    StableHlo.TRef.binary main_call14.v11 main_call14.v6 main_call14.v12 andi,
    StableHlo.TRef.unary main_call14.call0.v0 main_call14.v13 (broadcastInDim S262144 ![] bcast_S_S262144),
    StableHlo.TRef.binary main_call14.v4 main_call14.v13 main_call14.v14 addi,
    StableHlo.TRef.ternary main_call14.v12 main_call14.v14 main_call14.v4 main_call14.v15 select,
    StableHlo.binary main_v513 main_v517 main_v530 (mulf : Vec F S262144 .f32 → Vec F S262144 .f32 → Vec F S262144 .f32),
    StableHlo.unary main_v530 main_v531 (broadcastInDim S262144x1 ![0] bcast_S262144_S262144x1_0 : Vec F S262144 .f32 → Vec F S262144x1 .f32),
    StableHlo.nullary main_c_132 (constantI S_ 32 0#32),
    StableHlo.unary main_c_132 main_v532 (broadcastInDim S262144 ![] bcast_S_S262144 : Vec F S_ .i32 → Vec F S262144 .i32),
    StableHlo.binary main_v529 main_v532 main_v533 (cmpi .slt : Vec F S262144 .i32 → Vec F S262144 .i32 → Vec F S262144 .i1),
    StableHlo.nullary main_c_133 (constantI S_ 32 8192#32),
    StableHlo.unary main_c_133 main_v534 (broadcastInDim S262144 ![] bcast_S_S262144 : Vec F S_ .i32 → Vec F S262144 .i32),
    StableHlo.binary main_v529 main_v534 main_v535 (addi : Vec F S262144 .i32 → Vec F S262144 .i32 → Vec F S262144 .i32),
    StableHlo.ternary main_v533 main_v535 main_v529 main_v536 (select : Vec F S262144 .i1 → Vec F S262144 .i32 → Vec F S262144 .i32 → Vec F S262144 .i32),
    StableHlo.nullary main_c_134 (constantI S_ 32 3#32),
    StableHlo.unary main_c_134 main_v537 (broadcastInDim S262144 ![] bcast_S_S262144 : Vec F S_ .i32 → Vec F S262144 .i32),
    StableHlo.unary main_v537 main_v538 (id : Vec F S262144 .i32 → Vec F S262144 .i32),
    StableHlo.unary main_v538 main_v539 (broadcastInDim S262144x1 ![0] bcast_S262144_S262144x1_0 : Vec F S262144 .i32 → Vec F S262144x1 .i32),
    StableHlo.unary main_v536 main_v540 (broadcastInDim S262144x1 ![0] bcast_S262144_S262144x1_0 : Vec F S262144 .i32 → Vec F S262144x1 .i32),
    StableHlo.binary main_v539 main_v540 main_v541 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v541 main_v542 ((fun x i => Host.gather gather_S8x8192x8_S262144x2_S262144x8_1_01_n_n_01_1_118 x i) : Vec F S8x8192x8 .f32 → Vec F S262144x2 .i32 → Vec F S262144x8 .f32),
    StableHlo.unary main_v531 main_v543 (broadcastInDim S262144x8 ![0, 1] bcast_S262144x1_S262144x8_0_1 : Vec F S262144x1 .f32 → Vec F S262144x8 .f32),
    StableHlo.binary main_v543 main_v542 main_v544 (mulf : Vec F S262144x8 .f32 → Vec F S262144x8 .f32 → Vec F S262144x8 .f32),
    StableHlo.binary main_v511 main_v544 main_v545 (addf : Vec F S262144x8 .f32 → Vec F S262144x8 .f32 → Vec F S262144x8 .f32),
    StableHlo.unary main_v444 main_v546 ((extractStridedSlice S262144x1 ![0, 1] · slices_S262144x2_S262144x1_0_1) : Vec F S262144x2 .f32 → Vec F S262144x1 .f32),
    StableHlo.reshape main_v546 main_v547 rfl shapeCasts_S262144x1_S262144,
    StableHlo.unary main_v438 main_v548 ((extractStridedSlice S262144x1 ![0, 0] · slices_S262144x2_S262144x1_0_0) : Vec F S262144x2 .i32 → Vec F S262144x1 .i32),
    StableHlo.reshape main_v548 main_v549 rfl shapeCasts_S262144x1_S262144,
    StableHlo.nullary main_c_135 (constantI S_ 32 1#32),
    StableHlo.unary main_c_135 main_v550 (broadcastInDim S262144 ![] bcast_S_S262144 : Vec F S_ .i32 → Vec F S262144 .i32),
    StableHlo.binary main_v549 main_v550 main_v551 (addi : Vec F S262144 .i32 → Vec F S262144 .i32 → Vec F S262144 .i32),
    StableHlo.unary main_v438 main_v552 ((extractStridedSlice S262144x1 ![0, 1] · slices_S262144x2_S262144x1_0_1) : Vec F S262144x2 .i32 → Vec F S262144x1 .i32),
    StableHlo.reshape main_v552 main_v553 rfl shapeCasts_S262144x1_S262144,
    StableHlo.nullary main_c_136 (constantI S_ 32 1#32),
    StableHlo.unary main_c_136 main_v554 (broadcastInDim S262144 ![] bcast_S_S262144 : Vec F S_ .i32 → Vec F S262144 .i32),
    StableHlo.binary main_v553 main_v554 main_v555 (addi : Vec F S262144 .i32 → Vec F S262144 .i32 → Vec F S262144 .i32),
    StableHlo.nullary main_c_137 (constantI S_ 32 33#32),
    StableHlo.unary main_c_137 main_v556 (broadcastInDim S262144 ![] bcast_S_S262144 : Vec F S_ .i32 → Vec F S262144 .i32),
    StableHlo.binary main_v555 main_v556 main_v557 (muli : Vec F S262144 .i32 → Vec F S262144 .i32 → Vec F S262144 .i32),
    StableHlo.binary main_v551 main_v557 main_v558 (addi : Vec F S262144 .i32 → Vec F S262144 .i32 → Vec F S262144 .i32),
    StableHlo.nullary main_c_138 (constantI S_ 32 1096#32),
    StableHlo.TRef.unary (.of main_c_138 : StableHlo.TRef sig ⟨S_, .i32⟩) main_call15.v0 id,
    StableHlo.TRef.nullary main_call15.c (constantI S_ 32 0#32),
    StableHlo.TRef.binary main_call15.v0 main_call15.c main_call15.v1 (cmpi .eq),
    StableHlo.TRef.nullary main_call15.c_0 (constantI S_ 32 1#32),
    StableHlo.TRef.ternary main_call15.v1 main_call15.c_0 main_call15.v0 main_call15.call0.v0 select,
    StableHlo.TRef.unary main_call15.call0.v0 main_call15.v3 (broadcastInDim S262144 ![] bcast_S_S262144),
    StableHlo.TRef.binary (.of main_v558 : StableHlo.TRef sig ⟨S262144, .i32⟩) main_call15.v3 main_call15.v4 Host.remsi,
    StableHlo.TRef.nullary main_call15.c_1 (constantI S_ 32 0#32),
    StableHlo.TRef.unary main_call15.c_1 main_call15.v5 (broadcastInDim S262144 ![] bcast_S_S262144),
    StableHlo.TRef.binary main_call15.v4 main_call15.v5 main_call15.v6 (cmpi .ne),
    StableHlo.TRef.nullary main_call15.c_2 (constantI S_ 32 0#32),
    StableHlo.TRef.unary main_call15.c_2 main_call15.v7 (broadcastInDim S262144 ![] bcast_S_S262144),
    StableHlo.TRef.binary main_call15.v4 main_call15.v7 main_call15.v8 (cmpi .slt),
    StableHlo.TRef.nullary main_call15.c_3 (constantI S_ 32 0#32),
    StableHlo.TRef.binary main_call15.call0.v0 main_call15.c_3 main_call15.v9 (cmpi .slt),
    StableHlo.TRef.unary main_call15.v9 main_call15.v10 (broadcastInDim S262144 ![] bcast_S_S262144),
    StableHlo.TRef.binary main_call15.v8 main_call15.v10 main_call15.v11 (cmpi .ne),
    StableHlo.TRef.binary main_call15.v11 main_call15.v6 main_call15.v12 andi,
    StableHlo.TRef.unary main_call15.call0.v0 main_call15.v13 (broadcastInDim S262144 ![] bcast_S_S262144),
    StableHlo.TRef.binary main_call15.v4 main_call15.v13 main_call15.v14 addi,
    StableHlo.TRef.ternary main_call15.v12 main_call15.v14 main_call15.v4 main_call15.v15 select,
    StableHlo.binary main_v513 main_v547 main_v560 (mulf : Vec F S262144 .f32 → Vec F S262144 .f32 → Vec F S262144 .f32),
    StableHlo.unary main_v560 main_v561 (broadcastInDim S262144x1 ![0] bcast_S262144_S262144x1_0 : Vec F S262144 .f32 → Vec F S262144x1 .f32),
    StableHlo.nullary main_c_139 (constantI S_ 32 0#32),
    StableHlo.unary main_c_139 main_v562 (broadcastInDim S262144 ![] bcast_S_S262144 : Vec F S_ .i32 → Vec F S262144 .i32),
    StableHlo.binary main_v559 main_v562 main_v563 (cmpi .slt : Vec F S262144 .i32 → Vec F S262144 .i32 → Vec F S262144 .i1),
    StableHlo.nullary main_c_140 (constantI S_ 32 8192#32),
    StableHlo.unary main_c_140 main_v564 (broadcastInDim S262144 ![] bcast_S_S262144 : Vec F S_ .i32 → Vec F S262144 .i32),
    StableHlo.binary main_v559 main_v564 main_v565 (addi : Vec F S262144 .i32 → Vec F S262144 .i32 → Vec F S262144 .i32),
    StableHlo.ternary main_v563 main_v565 main_v559 main_v566 (select : Vec F S262144 .i1 → Vec F S262144 .i32 → Vec F S262144 .i32 → Vec F S262144 .i32),
    StableHlo.nullary main_c_141 (constantI S_ 32 3#32),
    StableHlo.unary main_c_141 main_v567 (broadcastInDim S262144 ![] bcast_S_S262144 : Vec F S_ .i32 → Vec F S262144 .i32),
    StableHlo.unary main_v567 main_v568 (id : Vec F S262144 .i32 → Vec F S262144 .i32),
    StableHlo.unary main_v568 main_v569 (broadcastInDim S262144x1 ![0] bcast_S262144_S262144x1_0 : Vec F S262144 .i32 → Vec F S262144x1 .i32),
    StableHlo.unary main_v566 main_v570 (broadcastInDim S262144x1 ![0] bcast_S262144_S262144x1_0 : Vec F S262144 .i32 → Vec F S262144x1 .i32),
    StableHlo.binary main_v569 main_v570 main_v571 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v571 main_v572 ((fun x i => Host.gather gather_S8x8192x8_S262144x2_S262144x8_1_01_n_n_01_1_118 x i) : Vec F S8x8192x8 .f32 → Vec F S262144x2 .i32 → Vec F S262144x8 .f32),
    StableHlo.unary main_v561 main_v573 (broadcastInDim S262144x8 ![0, 1] bcast_S262144x1_S262144x8_0_1 : Vec F S262144x1 .f32 → Vec F S262144x8 .f32),
    StableHlo.binary main_v573 main_v572 main_v574 (mulf : Vec F S262144x8 .f32 → Vec F S262144x8 .f32 → Vec F S262144x8 .f32),
    StableHlo.binary main_v545 main_v574 main_v575 (addf : Vec F S262144x8 .f32 → Vec F S262144x8 .f32 → Vec F S262144x8 .f32) ]

abbrev piece11W : List (Ref sig .tc) :=
  [main_v527, main_v528, main_c_131, main_call14_v0, main_call14_c, main_call14_v1, main_call14_c_0, main_call14_v2, main_call14_v3, main_call14_v4, main_call14_c_1, main_call14_v5, main_call14_v6, main_call14_c_2, main_call14_v7, main_call14_v8, main_call14_c_3, main_call14_v9, main_call14_v10, main_call14_v11, main_call14_v12, main_call14_v13, main_call14_v14, main_v529, main_v530, main_v531, main_c_132, main_v532, main_v533, main_c_133, main_v534, main_v535, main_v536, main_c_134, main_v537, main_v538, main_v539, main_v540, main_v541, main_v542, main_v543, main_v544, main_v545, main_v546, main_v547, main_v548, main_v549, main_c_135, main_v550, main_v551, main_v552, main_v553, main_c_136, main_v554, main_v555, main_c_137, main_v556, main_v557, main_v558, main_c_138, main_call15_v0, main_call15_c, main_call15_v1, main_call15_c_0, main_call15_v2, main_call15_v3, main_call15_v4, main_call15_c_1, main_call15_v5, main_call15_v6, main_call15_c_2, main_call15_v7, main_call15_v8, main_call15_c_3, main_call15_v9, main_call15_v10, main_call15_v11, main_call15_v12, main_call15_v13, main_call15_v14, main_v559, main_v560, main_v561, main_c_139, main_v562, main_v563, main_c_140, main_v564, main_v565, main_v566, main_c_141, main_v567, main_v568, main_v569, main_v570, main_v571, main_v572, main_v573, main_v574, main_v575]

theorem piece11_sub : (piece11 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece11_fresh : (piece11 : List (HloOp τ sig (Elt F))).Forall fun op => op.fresh = ∅ := by
  repeat' first | refine ⟨?_, ?_⟩ | exact rfl

theorem piece11_writes : WritesAt (piece11 : List (HloOp τ sig (Elt F))) piece11W := by
  repeat first | exact .nil | refine .cons rfl ?_

abbrev lvlOps3 : List (HloOp τ sig (Elt F)) := piece9 ++ piece10 ++ piece11

abbrev lvlWrites3 : List (Ref sig .tc) := piece9W ++ piece10W ++ piece11W

theorem lvlOps3_sub : (lvlOps3 : List (HloOp τ sig (Elt F))).Forall fun op => op.bufs ⊆ tcRefs τ sig :=
  forall_append' (forall_append' (piece9_sub) piece10_sub) piece11_sub

theorem lvlOps3_fresh : (lvlOps3 : List (HloOp τ sig (Elt F))).Forall fun op => op.fresh = ∅ :=
  forall_append' (forall_append' (piece9_fresh) piece10_fresh) piece11_fresh

theorem lvlOps3_writesAt : WritesAt (lvlOps3 : List (HloOp τ sig (Elt F))) lvlWrites3 :=
  ((piece9_writes).append piece10_writes).append piece11_writes

theorem lvlOps3_writes : (lvlOps3 : List (HloOp τ sig (Elt F))).Forall fun op => op.writes ⊆ (lvlWrites3.map (Proc.devRef (τ := τ) .tc)).toFinset :=
  lvlOps3_writesAt.forall_sub

end Cert.ReferenceIdeal.RefVal

end
-- ==== Proof.RefOps4.lean ====
-- The reference's operations in the printed order, a call's operations written at the call; beside each piece, the reference every operation writes.
import proofs.«132274_j36180804501977_1_alg».proof.ReferenceIdeal
import proofs.«132274_j36180804501977_1_alg».proof.Proof.RefOpsLib
import Idealize.ShloMosaic.Lib.StableHlo.Run

set_option maxRecDepth 8192

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

abbrev piece12 : List (HloOp τ sig (Elt F)) :=
  [ StableHlo.nullary main_cst_142 (constant S_ .f32 0x421D4519#32),
    StableHlo.unary main_cst_142 main_v576 (broadcastInDim S262144x2 ![] bcast_S_S262144x2 : Vec F S_ .f32 → Vec F S262144x2 .f32),
    StableHlo.binary main_arg0 main_v576 main_v577 (mulf : Vec F S262144x2 .f32 → Vec F S262144x2 .f32 → Vec F S262144x2 .f32),
    StableHlo.nullary main_cst_143 (constant S_ .f32 0x3F000000#32),
    StableHlo.unary main_cst_143 main_v578 (broadcastInDim S262144x2 ![] bcast_S_S262144x2 : Vec F S_ .f32 → Vec F S262144x2 .f32),
    StableHlo.binary main_v577 main_v578 main_v579 (addf : Vec F S262144x2 .f32 → Vec F S262144x2 .f32 → Vec F S262144x2 .f32),
    StableHlo.unary main_v579 main_v580 (Host.floor : Vec F S262144x2 .f32 → Vec F S262144x2 .f32),
    StableHlo.binary main_v579 main_v580 main_v581 (subf : Vec F S262144x2 .f32 → Vec F S262144x2 .f32 → Vec F S262144x2 .f32),
    StableHlo.unary main_v580 main_v582 (fptosi 32 : Vec F S262144x2 .f32 → Vec F S262144x2 .i32),
    StableHlo.binary main_v581 main_v581 main_v583 (mulf : Vec F S262144x2 .f32 → Vec F S262144x2 .f32 → Vec F S262144x2 .f32),
    StableHlo.nullary main_cst_144 (constant S_ .f32 0x40000000#32),
    StableHlo.unary main_cst_144 main_v584 (broadcastInDim S262144x2 ![] bcast_S_S262144x2 : Vec F S_ .f32 → Vec F S262144x2 .f32),
    StableHlo.binary main_v584 main_v581 main_v585 (mulf : Vec F S262144x2 .f32 → Vec F S262144x2 .f32 → Vec F S262144x2 .f32),
    StableHlo.nullary main_cst_145 (constant S_ .f32 0x40400000#32),
    StableHlo.unary main_cst_145 main_v586 (broadcastInDim S262144x2 ![] bcast_S_S262144x2 : Vec F S_ .f32 → Vec F S262144x2 .f32),
    StableHlo.binary main_v586 main_v585 main_v587 (subf : Vec F S262144x2 .f32 → Vec F S262144x2 .f32 → Vec F S262144x2 .f32),
    StableHlo.binary main_v583 main_v587 main_v588 (mulf : Vec F S262144x2 .f32 → Vec F S262144x2 .f32 → Vec F S262144x2 .f32),
    StableHlo.nullary main_cst_146 (constant S_ .f32 0x00000000#32),
    StableHlo.unary main_cst_146 main_v589 (broadcastInDim S262144x8 ![] bcast_S_S262144x8 : Vec F S_ .f32 → Vec F S262144x8 .f32),
    StableHlo.unary main_v588 main_v590 ((extractStridedSlice S262144x1 ![0, 0] · slices_S262144x2_S262144x1_0_0) : Vec F S262144x2 .f32 → Vec F S262144x1 .f32),
    StableHlo.reshape main_v590 main_v591 rfl shapeCasts_S262144x1_S262144,
    StableHlo.nullary main_cst_147 (constant S_ .f32 0x3F800000#32),
    StableHlo.unary main_cst_147 main_v592 (broadcastInDim S262144 ![] bcast_S_S262144 : Vec F S_ .f32 → Vec F S262144 .f32),
    StableHlo.binary main_v592 main_v591 main_v593 (subf : Vec F S262144 .f32 → Vec F S262144 .f32 → Vec F S262144 .f32),
    StableHlo.unary main_v588 main_v594 ((extractStridedSlice S262144x1 ![0, 1] · slices_S262144x2_S262144x1_0_1) : Vec F S262144x2 .f32 → Vec F S262144x1 .f32),
    StableHlo.reshape main_v594 main_v595 rfl shapeCasts_S262144x1_S262144,
    StableHlo.nullary main_cst_148 (constant S_ .f32 0x3F800000#32),
    StableHlo.unary main_cst_148 main_v596 (broadcastInDim S262144 ![] bcast_S_S262144 : Vec F S_ .f32 → Vec F S262144 .f32),
    StableHlo.binary main_v596 main_v595 main_v597 (subf : Vec F S262144 .f32 → Vec F S262144 .f32 → Vec F S262144 .f32),
    StableHlo.unary main_v582 main_v598 ((extractStridedSlice S262144x1 ![0, 0] · slices_S262144x2_S262144x1_0_0) : Vec F S262144x2 .i32 → Vec F S262144x1 .i32),
    StableHlo.reshape main_v598 main_v599 rfl shapeCasts_S262144x1_S262144,
    StableHlo.nullary main_c_149 (constantI S_ 32 0#32),
    StableHlo.unary main_c_149 main_v600 (broadcastInDim S262144 ![] bcast_S_S262144 : Vec F S_ .i32 → Vec F S262144 .i32),
    StableHlo.binary main_v599 main_v600 main_v601 (addi : Vec F S262144 .i32 → Vec F S262144 .i32 → Vec F S262144 .i32),
    StableHlo.unary main_v582 main_v602 ((extractStridedSlice S262144x1 ![0, 1] · slices_S262144x2_S262144x1_0_1) : Vec F S262144x2 .i32 → Vec F S262144x1 .i32),
    StableHlo.reshape main_v602 main_v603 rfl shapeCasts_S262144x1_S262144,
    StableHlo.nullary main_c_150 (constantI S_ 32 0#32),
    StableHlo.unary main_c_150 main_v604 (broadcastInDim S262144 ![] bcast_S_S262144 : Vec F S_ .i32 → Vec F S262144 .i32),
    StableHlo.binary main_v603 main_v604 main_v605 (addi : Vec F S262144 .i32 → Vec F S262144 .i32 → Vec F S262144 .i32),
    StableHlo.nullary main_c_151 (constantI S_ 32 41#32),
    StableHlo.unary main_c_151 main_v606 (broadcastInDim S262144 ![] bcast_S_S262144 : Vec F S_ .i32 → Vec F S262144 .i32),
    StableHlo.binary main_v605 main_v606 main_v607 (muli : Vec F S262144 .i32 → Vec F S262144 .i32 → Vec F S262144 .i32),
    StableHlo.binary main_v601 main_v607 main_v608 (addi : Vec F S262144 .i32 → Vec F S262144 .i32 → Vec F S262144 .i32),
    StableHlo.nullary main_c_152 (constantI S_ 32 1688#32),
    StableHlo.TRef.unary (.of main_c_152 : StableHlo.TRef sig ⟨S_, .i32⟩) main_call16.v0 id,
    StableHlo.TRef.nullary main_call16.c (constantI S_ 32 0#32),
    StableHlo.TRef.binary main_call16.v0 main_call16.c main_call16.v1 (cmpi .eq),
    StableHlo.TRef.nullary main_call16.c_0 (constantI S_ 32 1#32),
    StableHlo.TRef.ternary main_call16.v1 main_call16.c_0 main_call16.v0 main_call16.call0.v0 select,
    StableHlo.TRef.unary main_call16.call0.v0 main_call16.v3 (broadcastInDim S262144 ![] bcast_S_S262144),
    StableHlo.TRef.binary (.of main_v608 : StableHlo.TRef sig ⟨S262144, .i32⟩) main_call16.v3 main_call16.v4 Host.remsi,
    StableHlo.TRef.nullary main_call16.c_1 (constantI S_ 32 0#32),
    StableHlo.TRef.unary main_call16.c_1 main_call16.v5 (broadcastInDim S262144 ![] bcast_S_S262144),
    StableHlo.TRef.binary main_call16.v4 main_call16.v5 main_call16.v6 (cmpi .ne),
    StableHlo.TRef.nullary main_call16.c_2 (constantI S_ 32 0#32),
    StableHlo.TRef.unary main_call16.c_2 main_call16.v7 (broadcastInDim S262144 ![] bcast_S_S262144),
    StableHlo.TRef.binary main_call16.v4 main_call16.v7 main_call16.v8 (cmpi .slt),
    StableHlo.TRef.nullary main_call16.c_3 (constantI S_ 32 0#32),
    StableHlo.TRef.binary main_call16.call0.v0 main_call16.c_3 main_call16.v9 (cmpi .slt),
    StableHlo.TRef.unary main_call16.v9 main_call16.v10 (broadcastInDim S262144 ![] bcast_S_S262144),
    StableHlo.TRef.binary main_call16.v8 main_call16.v10 main_call16.v11 (cmpi .ne),
    StableHlo.TRef.binary main_call16.v11 main_call16.v6 main_call16.v12 andi,
    StableHlo.TRef.unary main_call16.call0.v0 main_call16.v13 (broadcastInDim S262144 ![] bcast_S_S262144),
    StableHlo.TRef.binary main_call16.v4 main_call16.v13 main_call16.v14 addi,
    StableHlo.TRef.ternary main_call16.v12 main_call16.v14 main_call16.v4 main_call16.v15 select,
    StableHlo.binary main_v593 main_v597 main_v610 (mulf : Vec F S262144 .f32 → Vec F S262144 .f32 → Vec F S262144 .f32),
    StableHlo.unary main_v610 main_v611 (broadcastInDim S262144x1 ![0] bcast_S262144_S262144x1_0 : Vec F S262144 .f32 → Vec F S262144x1 .f32),
    StableHlo.nullary main_c_153 (constantI S_ 32 0#32),
    StableHlo.unary main_c_153 main_v612 (broadcastInDim S262144 ![] bcast_S_S262144 : Vec F S_ .i32 → Vec F S262144 .i32),
    StableHlo.binary main_v609 main_v612 main_v613 (cmpi .slt : Vec F S262144 .i32 → Vec F S262144 .i32 → Vec F S262144 .i1),
    StableHlo.nullary main_c_154 (constantI S_ 32 8192#32),
    StableHlo.unary main_c_154 main_v614 (broadcastInDim S262144 ![] bcast_S_S262144 : Vec F S_ .i32 → Vec F S262144 .i32),
    StableHlo.binary main_v609 main_v614 main_v615 (addi : Vec F S262144 .i32 → Vec F S262144 .i32 → Vec F S262144 .i32),
    StableHlo.ternary main_v613 main_v615 main_v609 main_v616 (select : Vec F S262144 .i1 → Vec F S262144 .i32 → Vec F S262144 .i32 → Vec F S262144 .i32),
    StableHlo.nullary main_c_155 (constantI S_ 32 4#32),
    StableHlo.unary main_c_155 main_v617 (broadcastInDim S262144 ![] bcast_S_S262144 : Vec F S_ .i32 → Vec F S262144 .i32),
    StableHlo.unary main_v617 main_v618 (id : Vec F S262144 .i32 → Vec F S262144 .i32),
    StableHlo.unary main_v618 main_v619 (broadcastInDim S262144x1 ![0] bcast_S262144_S262144x1_0 : Vec F S262144 .i32 → Vec F S262144x1 .i32),
    StableHlo.unary main_v616 main_v620 (broadcastInDim S262144x1 ![0] bcast_S262144_S262144x1_0 : Vec F S262144 .i32 → Vec F S262144x1 .i32),
    StableHlo.binary main_v619 main_v620 main_v621 ((fun a b => concatenate S262144x2 1 [⟨S262144x1, a⟩, ⟨S262144x1, b⟩] concatenates_S262144x1_S262144x1_S262144x2_d1) : Vec F S262144x1 .i32 → Vec F S262144x1 .i32 → Vec F S262144x2 .i32) ]

abbrev piece12W : List (Ref sig .tc) :=
  [main_cst_142, main_v576, main_v577, main_cst_143, main_v578, main_v579, main_v580, main_v581, main_v582, main_v583, main_cst_144, main_v584, main_v585, main_cst_145, main_v586, main_v587, main_v588, main_cst_146, main_v589, main_v590, main_v591, main_cst_147, main_v592, main_v593, main_v594, main_v595, main_cst_148, main_v596, main_v597, main_v598, main_v599, main_c_149, main_v600, main_v601, main_v602, main_v603, main_c_150, main_v604, main_v605, main_c_151, main_v606, main_v607, main_v608, main_c_152, main_call16_v0, main_call16_c, main_call16_v1, main_call16_c_0, main_call16_v2, main_call16_v3, main_call16_v4, main_call16_c_1, main_call16_v5, main_call16_v6, main_call16_c_2, main_call16_v7, main_call16_v8, main_call16_c_3, main_call16_v9, main_call16_v10, main_call16_v11, main_call16_v12, main_call16_v13, main_call16_v14, main_v609, main_v610, main_v611, main_c_153, main_v612, main_v613, main_c_154, main_v614, main_v615, main_v616, main_c_155, main_v617, main_v618, main_v619, main_v620, main_v621]

theorem piece12_sub : (piece12 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece12_fresh : (piece12 : List (HloOp τ sig (Elt F))).Forall fun op => op.fresh = ∅ := by
  repeat' first | refine ⟨?_, ?_⟩ | exact rfl

theorem piece12_writes : WritesAt (piece12 : List (HloOp τ sig (Elt F))) piece12W := by
  repeat first | exact .nil | refine .cons rfl ?_

abbrev piece13 : List (HloOp τ sig (Elt F)) :=
  [ StableHlo.binary main_arg1 main_v621 main_v622 ((fun x i => Host.gather gather_S8x8192x8_S262144x2_S262144x8_1_01_n_n_01_1_118 x i) : Vec F S8x8192x8 .f32 → Vec F S262144x2 .i32 → Vec F S262144x8 .f32),
    StableHlo.unary main_v611 main_v623 (broadcastInDim S262144x8 ![0, 1] bcast_S262144x1_S262144x8_0_1 : Vec F S262144x1 .f32 → Vec F S262144x8 .f32),
    StableHlo.binary main_v623 main_v622 main_v624 (mulf : Vec F S262144x8 .f32 → Vec F S262144x8 .f32 → Vec F S262144x8 .f32),
    StableHlo.binary main_v589 main_v624 main_v625 (addf : Vec F S262144x8 .f32 → Vec F S262144x8 .f32 → Vec F S262144x8 .f32),
    StableHlo.unary main_v588 main_v626 ((extractStridedSlice S262144x1 ![0, 1] · slices_S262144x2_S262144x1_0_1) : Vec F S262144x2 .f32 → Vec F S262144x1 .f32),
    StableHlo.reshape main_v626 main_v627 rfl shapeCasts_S262144x1_S262144,
    StableHlo.unary main_v582 main_v628 ((extractStridedSlice S262144x1 ![0, 0] · slices_S262144x2_S262144x1_0_0) : Vec F S262144x2 .i32 → Vec F S262144x1 .i32),
    StableHlo.reshape main_v628 main_v629 rfl shapeCasts_S262144x1_S262144,
    StableHlo.nullary main_c_156 (constantI S_ 32 0#32),
    StableHlo.unary main_c_156 main_v630 (broadcastInDim S262144 ![] bcast_S_S262144 : Vec F S_ .i32 → Vec F S262144 .i32),
    StableHlo.binary main_v629 main_v630 main_v631 (addi : Vec F S262144 .i32 → Vec F S262144 .i32 → Vec F S262144 .i32),
    StableHlo.unary main_v582 main_v632 ((extractStridedSlice S262144x1 ![0, 1] · slices_S262144x2_S262144x1_0_1) : Vec F S262144x2 .i32 → Vec F S262144x1 .i32),
    StableHlo.reshape main_v632 main_v633 rfl shapeCasts_S262144x1_S262144,
    StableHlo.nullary main_c_157 (constantI S_ 32 1#32),
    StableHlo.unary main_c_157 main_v634 (broadcastInDim S262144 ![] bcast_S_S262144 : Vec F S_ .i32 → Vec F S262144 .i32),
    StableHlo.binary main_v633 main_v634 main_v635 (addi : Vec F S262144 .i32 → Vec F S262144 .i32 → Vec F S262144 .i32),
    StableHlo.nullary main_c_158 (constantI S_ 32 41#32),
    StableHlo.unary main_c_158 main_v636 (broadcastInDim S262144 ![] bcast_S_S262144 : Vec F S_ .i32 → Vec F S262144 .i32),
    StableHlo.binary main_v635 main_v636 main_v637 (muli : Vec F S262144 .i32 → Vec F S262144 .i32 → Vec F S262144 .i32),
    StableHlo.binary main_v631 main_v637 main_v638 (addi : Vec F S262144 .i32 → Vec F S262144 .i32 → Vec F S262144 .i32),
    StableHlo.nullary main_c_159 (constantI S_ 32 1688#32),
    StableHlo.TRef.unary (.of main_c_159 : StableHlo.TRef sig ⟨S_, .i32⟩) main_call17.v0 id,
    StableHlo.TRef.nullary main_call17.c (constantI S_ 32 0#32),
    StableHlo.TRef.binary main_call17.v0 main_call17.c main_call17.v1 (cmpi .eq),
    StableHlo.TRef.nullary main_call17.c_0 (constantI S_ 32 1#32),
    StableHlo.TRef.ternary main_call17.v1 main_call17.c_0 main_call17.v0 main_call17.call0.v0 select,
    StableHlo.TRef.unary main_call17.call0.v0 main_call17.v3 (broadcastInDim S262144 ![] bcast_S_S262144),
    StableHlo.TRef.binary (.of main_v638 : StableHlo.TRef sig ⟨S262144, .i32⟩) main_call17.v3 main_call17.v4 Host.remsi,
    StableHlo.TRef.nullary main_call17.c_1 (constantI S_ 32 0#32),
    StableHlo.TRef.unary main_call17.c_1 main_call17.v5 (broadcastInDim S262144 ![] bcast_S_S262144),
    StableHlo.TRef.binary main_call17.v4 main_call17.v5 main_call17.v6 (cmpi .ne),
    StableHlo.TRef.nullary main_call17.c_2 (constantI S_ 32 0#32),
    StableHlo.TRef.unary main_call17.c_2 main_call17.v7 (broadcastInDim S262144 ![] bcast_S_S262144),
    StableHlo.TRef.binary main_call17.v4 main_call17.v7 main_call17.v8 (cmpi .slt),
    StableHlo.TRef.nullary main_call17.c_3 (constantI S_ 32 0#32),
    StableHlo.TRef.binary main_call17.call0.v0 main_call17.c_3 main_call17.v9 (cmpi .slt),
    StableHlo.TRef.unary main_call17.v9 main_call17.v10 (broadcastInDim S262144 ![] bcast_S_S262144),
    StableHlo.TRef.binary main_call17.v8 main_call17.v10 main_call17.v11 (cmpi .ne),
    StableHlo.TRef.binary main_call17.v11 main_call17.v6 main_call17.v12 andi,
    StableHlo.TRef.unary main_call17.call0.v0 main_call17.v13 (broadcastInDim S262144 ![] bcast_S_S262144),
    StableHlo.TRef.binary main_call17.v4 main_call17.v13 main_call17.v14 addi,
    StableHlo.TRef.ternary main_call17.v12 main_call17.v14 main_call17.v4 main_call17.v15 select,
    StableHlo.binary main_v593 main_v627 main_v640 (mulf : Vec F S262144 .f32 → Vec F S262144 .f32 → Vec F S262144 .f32),
    StableHlo.unary main_v640 main_v641 (broadcastInDim S262144x1 ![0] bcast_S262144_S262144x1_0 : Vec F S262144 .f32 → Vec F S262144x1 .f32),
    StableHlo.nullary main_c_160 (constantI S_ 32 0#32),
    StableHlo.unary main_c_160 main_v642 (broadcastInDim S262144 ![] bcast_S_S262144 : Vec F S_ .i32 → Vec F S262144 .i32),
    StableHlo.binary main_v639 main_v642 main_v643 (cmpi .slt : Vec F S262144 .i32 → Vec F S262144 .i32 → Vec F S262144 .i1),
    StableHlo.nullary main_c_161 (constantI S_ 32 8192#32),
    StableHlo.unary main_c_161 main_v644 (broadcastInDim S262144 ![] bcast_S_S262144 : Vec F S_ .i32 → Vec F S262144 .i32),
    StableHlo.binary main_v639 main_v644 main_v645 (addi : Vec F S262144 .i32 → Vec F S262144 .i32 → Vec F S262144 .i32),
    StableHlo.ternary main_v643 main_v645 main_v639 main_v646 (select : Vec F S262144 .i1 → Vec F S262144 .i32 → Vec F S262144 .i32 → Vec F S262144 .i32),
    StableHlo.nullary main_c_162 (constantI S_ 32 4#32),
    StableHlo.unary main_c_162 main_v647 (broadcastInDim S262144 ![] bcast_S_S262144 : Vec F S_ .i32 → Vec F S262144 .i32),
    StableHlo.unary main_v647 main_v648 (id : Vec F S262144 .i32 → Vec F S262144 .i32),
    StableHlo.unary main_v648 main_v649 (broadcastInDim S262144x1 ![0] bcast_S262144_S262144x1_0 : Vec F S262144 .i32 → Vec F S262144x1 .i32),
    StableHlo.unary main_v646 main_v650 (broadcastInDim S262144x1 ![0] bcast_S262144_S262144x1_0 : Vec F S262144 .i32 → Vec F S262144x1 .i32),
    StableHlo.binary main_v649 main_v650 main_v651 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v651 main_v652 ((fun x i => Host.gather gather_S8x8192x8_S262144x2_S262144x8_1_01_n_n_01_1_118 x i) : Vec F S8x8192x8 .f32 → Vec F S262144x2 .i32 → Vec F S262144x8 .f32),
    StableHlo.unary main_v641 main_v653 (broadcastInDim S262144x8 ![0, 1] bcast_S262144x1_S262144x8_0_1 : Vec F S262144x1 .f32 → Vec F S262144x8 .f32),
    StableHlo.binary main_v653 main_v652 main_v654 (mulf : Vec F S262144x8 .f32 → Vec F S262144x8 .f32 → Vec F S262144x8 .f32),
    StableHlo.binary main_v625 main_v654 main_v655 (addf : Vec F S262144x8 .f32 → Vec F S262144x8 .f32 → Vec F S262144x8 .f32),
    StableHlo.unary main_v588 main_v656 ((extractStridedSlice S262144x1 ![0, 0] · slices_S262144x2_S262144x1_0_0) : Vec F S262144x2 .f32 → Vec F S262144x1 .f32),
    StableHlo.reshape main_v656 main_v657 rfl shapeCasts_S262144x1_S262144,
    StableHlo.unary main_v588 main_v658 ((extractStridedSlice S262144x1 ![0, 1] · slices_S262144x2_S262144x1_0_1) : Vec F S262144x2 .f32 → Vec F S262144x1 .f32),
    StableHlo.reshape main_v658 main_v659 rfl shapeCasts_S262144x1_S262144,
    StableHlo.nullary main_cst_163 (constant S_ .f32 0x3F800000#32),
    StableHlo.unary main_cst_163 main_v660 (broadcastInDim S262144 ![] bcast_S_S262144 : Vec F S_ .f32 → Vec F S262144 .f32),
    StableHlo.binary main_v660 main_v659 main_v661 (subf : Vec F S262144 .f32 → Vec F S262144 .f32 → Vec F S262144 .f32),
    StableHlo.unary main_v582 main_v662 ((extractStridedSlice S262144x1 ![0, 0] · slices_S262144x2_S262144x1_0_0) : Vec F S262144x2 .i32 → Vec F S262144x1 .i32),
    StableHlo.reshape main_v662 main_v663 rfl shapeCasts_S262144x1_S262144,
    StableHlo.nullary main_c_164 (constantI S_ 32 1#32),
    StableHlo.unary main_c_164 main_v664 (broadcastInDim S262144 ![] bcast_S_S262144 : Vec F S_ .i32 → Vec F S262144 .i32),
    StableHlo.binary main_v663 main_v664 main_v665 (addi : Vec F S262144 .i32 → Vec F S262144 .i32 → Vec F S262144 .i32),
    StableHlo.unary main_v582 main_v666 ((extractStridedSlice S262144x1 ![0, 1] · slices_S262144x2_S262144x1_0_1) : Vec F S262144x2 .i32 → Vec F S262144x1 .i32),
    StableHlo.reshape main_v666 main_v667 rfl shapeCasts_S262144x1_S262144,
    StableHlo.nullary main_c_165 (constantI S_ 32 0#32),
    StableHlo.unary main_c_165 main_v668 (broadcastInDim S262144 ![] bcast_S_S262144 : Vec F S_ .i32 → Vec F S262144 .i32),
    StableHlo.binary main_v667 main_v668 main_v669 (addi : Vec F S262144 .i32 → Vec F S262144 .i32 → Vec F S262144 .i32),
    StableHlo.nullary main_c_166 (constantI S_ 32 41#32),
    StableHlo.unary main_c_166 main_v670 (broadcastInDim S262144 ![] bcast_S_S262144 : Vec F S_ .i32 → Vec F S262144 .i32) ]

abbrev piece13W : List (Ref sig .tc) :=
  [main_v622, main_v623, main_v624, main_v625, main_v626, main_v627, main_v628, main_v629, main_c_156, main_v630, main_v631, main_v632, main_v633, main_c_157, main_v634, main_v635, main_c_158, main_v636, main_v637, main_v638, main_c_159, main_call17_v0, main_call17_c, main_call17_v1, main_call17_c_0, main_call17_v2, main_call17_v3, main_call17_v4, main_call17_c_1, main_call17_v5, main_call17_v6, main_call17_c_2, main_call17_v7, main_call17_v8, main_call17_c_3, main_call17_v9, main_call17_v10, main_call17_v11, main_call17_v12, main_call17_v13, main_call17_v14, main_v639, main_v640, main_v641, main_c_160, main_v642, main_v643, main_c_161, main_v644, main_v645, main_v646, main_c_162, main_v647, main_v648, main_v649, main_v650, main_v651, main_v652, main_v653, main_v654, main_v655, main_v656, main_v657, main_v658, main_v659, main_cst_163, main_v660, main_v661, main_v662, main_v663, main_c_164, main_v664, main_v665, main_v666, main_v667, main_c_165, main_v668, main_v669, main_c_166, main_v670]

theorem piece13_sub : (piece13 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece13_fresh : (piece13 : List (HloOp τ sig (Elt F))).Forall fun op => op.fresh = ∅ := by
  repeat' first | refine ⟨?_, ?_⟩ | exact rfl

theorem piece13_writes : WritesAt (piece13 : List (HloOp τ sig (Elt F))) piece13W := by
  repeat first | exact .nil | refine .cons rfl ?_

abbrev piece14 : List (HloOp τ sig (Elt F)) :=
  [ StableHlo.binary main_v669 main_v670 main_v671 (muli : Vec F S262144 .i32 → Vec F S262144 .i32 → Vec F S262144 .i32),
    StableHlo.binary main_v665 main_v671 main_v672 (addi : Vec F S262144 .i32 → Vec F S262144 .i32 → Vec F S262144 .i32),
    StableHlo.nullary main_c_167 (constantI S_ 32 1688#32),
    StableHlo.TRef.unary (.of main_c_167 : StableHlo.TRef sig ⟨S_, .i32⟩) main_call18.v0 id,
    StableHlo.TRef.nullary main_call18.c (constantI S_ 32 0#32),
    StableHlo.TRef.binary main_call18.v0 main_call18.c main_call18.v1 (cmpi .eq),
    StableHlo.TRef.nullary main_call18.c_0 (constantI S_ 32 1#32),
    StableHlo.TRef.ternary main_call18.v1 main_call18.c_0 main_call18.v0 main_call18.call0.v0 select,
    StableHlo.TRef.unary main_call18.call0.v0 main_call18.v3 (broadcastInDim S262144 ![] bcast_S_S262144),
    StableHlo.TRef.binary (.of main_v672 : StableHlo.TRef sig ⟨S262144, .i32⟩) main_call18.v3 main_call18.v4 Host.remsi,
    StableHlo.TRef.nullary main_call18.c_1 (constantI S_ 32 0#32),
    StableHlo.TRef.unary main_call18.c_1 main_call18.v5 (broadcastInDim S262144 ![] bcast_S_S262144),
    StableHlo.TRef.binary main_call18.v4 main_call18.v5 main_call18.v6 (cmpi .ne),
    StableHlo.TRef.nullary main_call18.c_2 (constantI S_ 32 0#32),
    StableHlo.TRef.unary main_call18.c_2 main_call18.v7 (broadcastInDim S262144 ![] bcast_S_S262144),
    StableHlo.TRef.binary main_call18.v4 main_call18.v7 main_call18.v8 (cmpi .slt),
    StableHlo.TRef.nullary main_call18.c_3 (constantI S_ 32 0#32),
    StableHlo.TRef.binary main_call18.call0.v0 main_call18.c_3 main_call18.v9 (cmpi .slt),
    StableHlo.TRef.unary main_call18.v9 main_call18.v10 (broadcastInDim S262144 ![] bcast_S_S262144),
    StableHlo.TRef.binary main_call18.v8 main_call18.v10 main_call18.v11 (cmpi .ne),
    StableHlo.TRef.binary main_call18.v11 main_call18.v6 main_call18.v12 andi,
    StableHlo.TRef.unary main_call18.call0.v0 main_call18.v13 (broadcastInDim S262144 ![] bcast_S_S262144),
    StableHlo.TRef.binary main_call18.v4 main_call18.v13 main_call18.v14 addi,
    StableHlo.TRef.ternary main_call18.v12 main_call18.v14 main_call18.v4 main_call18.v15 select,
    StableHlo.binary main_v657 main_v661 main_v674 (mulf : Vec F S262144 .f32 → Vec F S262144 .f32 → Vec F S262144 .f32),
    StableHlo.unary main_v674 main_v675 (broadcastInDim S262144x1 ![0] bcast_S262144_S262144x1_0 : Vec F S262144 .f32 → Vec F S262144x1 .f32),
    StableHlo.nullary main_c_168 (constantI S_ 32 0#32),
    StableHlo.unary main_c_168 main_v676 (broadcastInDim S262144 ![] bcast_S_S262144 : Vec F S_ .i32 → Vec F S262144 .i32),
    StableHlo.binary main_v673 main_v676 main_v677 (cmpi .slt : Vec F S262144 .i32 → Vec F S262144 .i32 → Vec F S262144 .i1),
    StableHlo.nullary main_c_169 (constantI S_ 32 8192#32),
    StableHlo.unary main_c_169 main_v678 (broadcastInDim S262144 ![] bcast_S_S262144 : Vec F S_ .i32 → Vec F S262144 .i32),
    StableHlo.binary main_v673 main_v678 main_v679 (addi : Vec F S262144 .i32 → Vec F S262144 .i32 → Vec F S262144 .i32),
    StableHlo.ternary main_v677 main_v679 main_v673 main_v680 (select : Vec F S262144 .i1 → Vec F S262144 .i32 → Vec F S262144 .i32 → Vec F S262144 .i32),
    StableHlo.nullary main_c_170 (constantI S_ 32 4#32),
    StableHlo.unary main_c_170 main_v681 (broadcastInDim S262144 ![] bcast_S_S262144 : Vec F S_ .i32 → Vec F S262144 .i32),
    StableHlo.unary main_v681 main_v682 (id : Vec F S262144 .i32 → Vec F S262144 .i32),
    StableHlo.unary main_v682 main_v683 (broadcastInDim S262144x1 ![0] bcast_S262144_S262144x1_0 : Vec F S262144 .i32 → Vec F S262144x1 .i32),
    StableHlo.unary main_v680 main_v684 (broadcastInDim S262144x1 ![0] bcast_S262144_S262144x1_0 : Vec F S262144 .i32 → Vec F S262144x1 .i32),
    StableHlo.binary main_v683 main_v684 main_v685 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v685 main_v686 ((fun x i => Host.gather gather_S8x8192x8_S262144x2_S262144x8_1_01_n_n_01_1_118 x i) : Vec F S8x8192x8 .f32 → Vec F S262144x2 .i32 → Vec F S262144x8 .f32),
    StableHlo.unary main_v675 main_v687 (broadcastInDim S262144x8 ![0, 1] bcast_S262144x1_S262144x8_0_1 : Vec F S262144x1 .f32 → Vec F S262144x8 .f32),
    StableHlo.binary main_v687 main_v686 main_v688 (mulf : Vec F S262144x8 .f32 → Vec F S262144x8 .f32 → Vec F S262144x8 .f32),
    StableHlo.binary main_v655 main_v688 main_v689 (addf : Vec F S262144x8 .f32 → Vec F S262144x8 .f32 → Vec F S262144x8 .f32),
    StableHlo.unary main_v588 main_v690 ((extractStridedSlice S262144x1 ![0, 1] · slices_S262144x2_S262144x1_0_1) : Vec F S262144x2 .f32 → Vec F S262144x1 .f32),
    StableHlo.reshape main_v690 main_v691 rfl shapeCasts_S262144x1_S262144,
    StableHlo.unary main_v582 main_v692 ((extractStridedSlice S262144x1 ![0, 0] · slices_S262144x2_S262144x1_0_0) : Vec F S262144x2 .i32 → Vec F S262144x1 .i32),
    StableHlo.reshape main_v692 main_v693 rfl shapeCasts_S262144x1_S262144,
    StableHlo.nullary main_c_171 (constantI S_ 32 1#32),
    StableHlo.unary main_c_171 main_v694 (broadcastInDim S262144 ![] bcast_S_S262144 : Vec F S_ .i32 → Vec F S262144 .i32),
    StableHlo.binary main_v693 main_v694 main_v695 (addi : Vec F S262144 .i32 → Vec F S262144 .i32 → Vec F S262144 .i32),
    StableHlo.unary main_v582 main_v696 ((extractStridedSlice S262144x1 ![0, 1] · slices_S262144x2_S262144x1_0_1) : Vec F S262144x2 .i32 → Vec F S262144x1 .i32),
    StableHlo.reshape main_v696 main_v697 rfl shapeCasts_S262144x1_S262144,
    StableHlo.nullary main_c_172 (constantI S_ 32 1#32),
    StableHlo.unary main_c_172 main_v698 (broadcastInDim S262144 ![] bcast_S_S262144 : Vec F S_ .i32 → Vec F S262144 .i32),
    StableHlo.binary main_v697 main_v698 main_v699 (addi : Vec F S262144 .i32 → Vec F S262144 .i32 → Vec F S262144 .i32),
    StableHlo.nullary main_c_173 (constantI S_ 32 41#32),
    StableHlo.unary main_c_173 main_v700 (broadcastInDim S262144 ![] bcast_S_S262144 : Vec F S_ .i32 → Vec F S262144 .i32),
    StableHlo.binary main_v699 main_v700 main_v701 (muli : Vec F S262144 .i32 → Vec F S262144 .i32 → Vec F S262144 .i32),
    StableHlo.binary main_v695 main_v701 main_v702 (addi : Vec F S262144 .i32 → Vec F S262144 .i32 → Vec F S262144 .i32),
    StableHlo.nullary main_c_174 (constantI S_ 32 1688#32),
    StableHlo.TRef.unary (.of main_c_174 : StableHlo.TRef sig ⟨S_, .i32⟩) main_call19.v0 id,
    StableHlo.TRef.nullary main_call19.c (constantI S_ 32 0#32),
    StableHlo.TRef.binary main_call19.v0 main_call19.c main_call19.v1 (cmpi .eq),
    StableHlo.TRef.nullary main_call19.c_0 (constantI S_ 32 1#32),
    StableHlo.TRef.ternary main_call19.v1 main_call19.c_0 main_call19.v0 main_call19.call0.v0 select,
    StableHlo.TRef.unary main_call19.call0.v0 main_call19.v3 (broadcastInDim S262144 ![] bcast_S_S262144),
    StableHlo.TRef.binary (.of main_v702 : StableHlo.TRef sig ⟨S262144, .i32⟩) main_call19.v3 main_call19.v4 Host.remsi,
    StableHlo.TRef.nullary main_call19.c_1 (constantI S_ 32 0#32),
    StableHlo.TRef.unary main_call19.c_1 main_call19.v5 (broadcastInDim S262144 ![] bcast_S_S262144),
    StableHlo.TRef.binary main_call19.v4 main_call19.v5 main_call19.v6 (cmpi .ne),
    StableHlo.TRef.nullary main_call19.c_2 (constantI S_ 32 0#32),
    StableHlo.TRef.unary main_call19.c_2 main_call19.v7 (broadcastInDim S262144 ![] bcast_S_S262144),
    StableHlo.TRef.binary main_call19.v4 main_call19.v7 main_call19.v8 (cmpi .slt),
    StableHlo.TRef.nullary main_call19.c_3 (constantI S_ 32 0#32),
    StableHlo.TRef.binary main_call19.call0.v0 main_call19.c_3 main_call19.v9 (cmpi .slt),
    StableHlo.TRef.unary main_call19.v9 main_call19.v10 (broadcastInDim S262144 ![] bcast_S_S262144),
    StableHlo.TRef.binary main_call19.v8 main_call19.v10 main_call19.v11 (cmpi .ne),
    StableHlo.TRef.binary main_call19.v11 main_call19.v6 main_call19.v12 andi,
    StableHlo.TRef.unary main_call19.call0.v0 main_call19.v13 (broadcastInDim S262144 ![] bcast_S_S262144),
    StableHlo.TRef.binary main_call19.v4 main_call19.v13 main_call19.v14 addi,
    StableHlo.TRef.ternary main_call19.v12 main_call19.v14 main_call19.v4 main_call19.v15 select,
    StableHlo.binary main_v657 main_v691 main_v704 (mulf : Vec F S262144 .f32 → Vec F S262144 .f32 → Vec F S262144 .f32),
    StableHlo.unary main_v704 main_v705 (broadcastInDim S262144x1 ![0] bcast_S262144_S262144x1_0 : Vec F S262144 .f32 → Vec F S262144x1 .f32),
    StableHlo.nullary main_c_175 (constantI S_ 32 0#32),
    StableHlo.unary main_c_175 main_v706 (broadcastInDim S262144 ![] bcast_S_S262144 : Vec F S_ .i32 → Vec F S262144 .i32),
    StableHlo.binary main_v703 main_v706 main_v707 (cmpi .slt : Vec F S262144 .i32 → Vec F S262144 .i32 → Vec F S262144 .i1),
    StableHlo.nullary main_c_176 (constantI S_ 32 8192#32),
    StableHlo.unary main_c_176 main_v708 (broadcastInDim S262144 ![] bcast_S_S262144 : Vec F S_ .i32 → Vec F S262144 .i32),
    StableHlo.binary main_v703 main_v708 main_v709 (addi : Vec F S262144 .i32 → Vec F S262144 .i32 → Vec F S262144 .i32),
    StableHlo.ternary main_v707 main_v709 main_v703 main_v710 (select : Vec F S262144 .i1 → Vec F S262144 .i32 → Vec F S262144 .i32 → Vec F S262144 .i32),
    StableHlo.nullary main_c_177 (constantI S_ 32 4#32),
    StableHlo.unary main_c_177 main_v711 (broadcastInDim S262144 ![] bcast_S_S262144 : Vec F S_ .i32 → Vec F S262144 .i32),
    StableHlo.unary main_v711 main_v712 (id : Vec F S262144 .i32 → Vec F S262144 .i32),
    StableHlo.unary main_v712 main_v713 (broadcastInDim S262144x1 ![0] bcast_S262144_S262144x1_0 : Vec F S262144 .i32 → Vec F S262144x1 .i32),
    StableHlo.unary main_v710 main_v714 (broadcastInDim S262144x1 ![0] bcast_S262144_S262144x1_0 : Vec F S262144 .i32 → Vec F S262144x1 .i32),
    StableHlo.binary main_v713 main_v714 main_v715 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v715 main_v716 ((fun x i => Host.gather gather_S8x8192x8_S262144x2_S262144x8_1_01_n_n_01_1_118 x i) : Vec F S8x8192x8 .f32 → Vec F S262144x2 .i32 → Vec F S262144x8 .f32),
    StableHlo.unary main_v705 main_v717 (broadcastInDim S262144x8 ![0, 1] bcast_S262144x1_S262144x8_0_1 : Vec F S262144x1 .f32 → Vec F S262144x8 .f32),
    StableHlo.binary main_v717 main_v716 main_v718 (mulf : Vec F S262144x8 .f32 → Vec F S262144x8 .f32 → Vec F S262144x8 .f32),
    StableHlo.binary main_v689 main_v718 main_v719 (addf : Vec F S262144x8 .f32 → Vec F S262144x8 .f32 → Vec F S262144x8 .f32) ]

abbrev piece14W : List (Ref sig .tc) :=
  [main_v671, main_v672, main_c_167, main_call18_v0, main_call18_c, main_call18_v1, main_call18_c_0, main_call18_v2, main_call18_v3, main_call18_v4, main_call18_c_1, main_call18_v5, main_call18_v6, main_call18_c_2, main_call18_v7, main_call18_v8, main_call18_c_3, main_call18_v9, main_call18_v10, main_call18_v11, main_call18_v12, main_call18_v13, main_call18_v14, main_v673, main_v674, main_v675, main_c_168, main_v676, main_v677, main_c_169, main_v678, main_v679, main_v680, main_c_170, main_v681, main_v682, main_v683, main_v684, main_v685, main_v686, main_v687, main_v688, main_v689, main_v690, main_v691, main_v692, main_v693, main_c_171, main_v694, main_v695, main_v696, main_v697, main_c_172, main_v698, main_v699, main_c_173, main_v700, main_v701, main_v702, main_c_174, main_call19_v0, main_call19_c, main_call19_v1, main_call19_c_0, main_call19_v2, main_call19_v3, main_call19_v4, main_call19_c_1, main_call19_v5, main_call19_v6, main_call19_c_2, main_call19_v7, main_call19_v8, main_call19_c_3, main_call19_v9, main_call19_v10, main_call19_v11, main_call19_v12, main_call19_v13, main_call19_v14, main_v703, main_v704, main_v705, main_c_175, main_v706, main_v707, main_c_176, main_v708, main_v709, main_v710, main_c_177, main_v711, main_v712, main_v713, main_v714, main_v715, main_v716, main_v717, main_v718, main_v719]

theorem piece14_sub : (piece14 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece14_fresh : (piece14 : List (HloOp τ sig (Elt F))).Forall fun op => op.fresh = ∅ := by
  repeat' first | refine ⟨?_, ?_⟩ | exact rfl

theorem piece14_writes : WritesAt (piece14 : List (HloOp τ sig (Elt F))) piece14W := by
  repeat first | exact .nil | refine .cons rfl ?_

abbrev lvlOps4 : List (HloOp τ sig (Elt F)) := piece12 ++ piece13 ++ piece14

abbrev lvlWrites4 : List (Ref sig .tc) := piece12W ++ piece13W ++ piece14W

theorem lvlOps4_sub : (lvlOps4 : List (HloOp τ sig (Elt F))).Forall fun op => op.bufs ⊆ tcRefs τ sig :=
  forall_append' (forall_append' (piece12_sub) piece13_sub) piece14_sub

theorem lvlOps4_fresh : (lvlOps4 : List (HloOp τ sig (Elt F))).Forall fun op => op.fresh = ∅ :=
  forall_append' (forall_append' (piece12_fresh) piece13_fresh) piece14_fresh

theorem lvlOps4_writesAt : WritesAt (lvlOps4 : List (HloOp τ sig (Elt F))) lvlWrites4 :=
  ((piece12_writes).append piece13_writes).append piece14_writes

theorem lvlOps4_writes : (lvlOps4 : List (HloOp τ sig (Elt F))).Forall fun op => op.writes ⊆ (lvlWrites4.map (Proc.devRef (τ := τ) .tc)).toFinset :=
  lvlOps4_writesAt.forall_sub

end Cert.ReferenceIdeal.RefVal

end
-- ==== Proof.RefOps5.lean ====
-- The reference's operations in the printed order, a call's operations written at the call; beside each piece, the reference every operation writes.
import proofs.«132274_j36180804501977_1_alg».proof.ReferenceIdeal
import proofs.«132274_j36180804501977_1_alg».proof.Proof.RefOpsLib
import Idealize.ShloMosaic.Lib.StableHlo.Run

set_option maxRecDepth 8192

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

abbrev piece15 : List (HloOp τ sig (Elt F)) :=
  [ StableHlo.nullary main_cst_178 (constant S_ .f32 0x42472FF6#32),
    StableHlo.unary main_cst_178 main_v720 (broadcastInDim S262144x2 ![] bcast_S_S262144x2 : Vec F S_ .f32 → Vec F S262144x2 .f32),
    StableHlo.binary main_arg0 main_v720 main_v721 (mulf : Vec F S262144x2 .f32 → Vec F S262144x2 .f32 → Vec F S262144x2 .f32),
    StableHlo.nullary main_cst_179 (constant S_ .f32 0x3F000000#32),
    StableHlo.unary main_cst_179 main_v722 (broadcastInDim S262144x2 ![] bcast_S_S262144x2 : Vec F S_ .f32 → Vec F S262144x2 .f32),
    StableHlo.binary main_v721 main_v722 main_v723 (addf : Vec F S262144x2 .f32 → Vec F S262144x2 .f32 → Vec F S262144x2 .f32),
    StableHlo.unary main_v723 main_v724 (Host.floor : Vec F S262144x2 .f32 → Vec F S262144x2 .f32),
    StableHlo.binary main_v723 main_v724 main_v725 (subf : Vec F S262144x2 .f32 → Vec F S262144x2 .f32 → Vec F S262144x2 .f32),
    StableHlo.unary main_v724 main_v726 (fptosi 32 : Vec F S262144x2 .f32 → Vec F S262144x2 .i32),
    StableHlo.binary main_v725 main_v725 main_v727 (mulf : Vec F S262144x2 .f32 → Vec F S262144x2 .f32 → Vec F S262144x2 .f32),
    StableHlo.nullary main_cst_180 (constant S_ .f32 0x40000000#32),
    StableHlo.unary main_cst_180 main_v728 (broadcastInDim S262144x2 ![] bcast_S_S262144x2 : Vec F S_ .f32 → Vec F S262144x2 .f32),
    StableHlo.binary main_v728 main_v725 main_v729 (mulf : Vec F S262144x2 .f32 → Vec F S262144x2 .f32 → Vec F S262144x2 .f32),
    StableHlo.nullary main_cst_181 (constant S_ .f32 0x40400000#32),
    StableHlo.unary main_cst_181 main_v730 (broadcastInDim S262144x2 ![] bcast_S_S262144x2 : Vec F S_ .f32 → Vec F S262144x2 .f32),
    StableHlo.binary main_v730 main_v729 main_v731 (subf : Vec F S262144x2 .f32 → Vec F S262144x2 .f32 → Vec F S262144x2 .f32),
    StableHlo.binary main_v727 main_v731 main_v732 (mulf : Vec F S262144x2 .f32 → Vec F S262144x2 .f32 → Vec F S262144x2 .f32),
    StableHlo.nullary main_cst_182 (constant S_ .f32 0x00000000#32),
    StableHlo.unary main_cst_182 main_v733 (broadcastInDim S262144x8 ![] bcast_S_S262144x8 : Vec F S_ .f32 → Vec F S262144x8 .f32),
    StableHlo.unary main_v732 main_v734 ((extractStridedSlice S262144x1 ![0, 0] · slices_S262144x2_S262144x1_0_0) : Vec F S262144x2 .f32 → Vec F S262144x1 .f32),
    StableHlo.reshape main_v734 main_v735 rfl shapeCasts_S262144x1_S262144,
    StableHlo.nullary main_cst_183 (constant S_ .f32 0x3F800000#32),
    StableHlo.unary main_cst_183 main_v736 (broadcastInDim S262144 ![] bcast_S_S262144 : Vec F S_ .f32 → Vec F S262144 .f32),
    StableHlo.binary main_v736 main_v735 main_v737 (subf : Vec F S262144 .f32 → Vec F S262144 .f32 → Vec F S262144 .f32),
    StableHlo.unary main_v732 main_v738 ((extractStridedSlice S262144x1 ![0, 1] · slices_S262144x2_S262144x1_0_1) : Vec F S262144x2 .f32 → Vec F S262144x1 .f32),
    StableHlo.reshape main_v738 main_v739 rfl shapeCasts_S262144x1_S262144,
    StableHlo.nullary main_cst_184 (constant S_ .f32 0x3F800000#32),
    StableHlo.unary main_cst_184 main_v740 (broadcastInDim S262144 ![] bcast_S_S262144 : Vec F S_ .f32 → Vec F S262144 .f32),
    StableHlo.binary main_v740 main_v739 main_v741 (subf : Vec F S262144 .f32 → Vec F S262144 .f32 → Vec F S262144 .f32),
    StableHlo.unary main_v726 main_v742 ((extractStridedSlice S262144x1 ![0, 0] · slices_S262144x2_S262144x1_0_0) : Vec F S262144x2 .i32 → Vec F S262144x1 .i32),
    StableHlo.reshape main_v742 main_v743 rfl shapeCasts_S262144x1_S262144,
    StableHlo.nullary main_c_185 (constantI S_ 32 0#32),
    StableHlo.unary main_c_185 main_v744 (broadcastInDim S262144 ![] bcast_S_S262144 : Vec F S_ .i32 → Vec F S262144 .i32),
    StableHlo.binary main_v743 main_v744 main_v745 (addi : Vec F S262144 .i32 → Vec F S262144 .i32 → Vec F S262144 .i32),
    StableHlo.unary main_v726 main_v746 ((extractStridedSlice S262144x1 ![0, 1] · slices_S262144x2_S262144x1_0_1) : Vec F S262144x2 .i32 → Vec F S262144x1 .i32),
    StableHlo.reshape main_v746 main_v747 rfl shapeCasts_S262144x1_S262144,
    StableHlo.nullary main_c_186 (constantI S_ 32 0#32),
    StableHlo.unary main_c_186 main_v748 (broadcastInDim S262144 ![] bcast_S_S262144 : Vec F S_ .i32 → Vec F S262144 .i32),
    StableHlo.binary main_v747 main_v748 main_v749 (addi : Vec F S262144 .i32 → Vec F S262144 .i32 → Vec F S262144 .i32),
    StableHlo.nullary main_c_187 (constantI S_ 32 51#32),
    StableHlo.unary main_c_187 main_v750 (broadcastInDim S262144 ![] bcast_S_S262144 : Vec F S_ .i32 → Vec F S262144 .i32),
    StableHlo.binary main_v749 main_v750 main_v751 (muli : Vec F S262144 .i32 → Vec F S262144 .i32 → Vec F S262144 .i32),
    StableHlo.binary main_v745 main_v751 main_v752 (addi : Vec F S262144 .i32 → Vec F S262144 .i32 → Vec F S262144 .i32),
    StableHlo.nullary main_c_188 (constantI S_ 32 2608#32),
    StableHlo.TRef.unary (.of main_c_188 : StableHlo.TRef sig ⟨S_, .i32⟩) main_call20.v0 id,
    StableHlo.TRef.nullary main_call20.c (constantI S_ 32 0#32),
    StableHlo.TRef.binary main_call20.v0 main_call20.c main_call20.v1 (cmpi .eq),
    StableHlo.TRef.nullary main_call20.c_0 (constantI S_ 32 1#32),
    StableHlo.TRef.ternary main_call20.v1 main_call20.c_0 main_call20.v0 main_call20.call0.v0 select,
    StableHlo.TRef.unary main_call20.call0.v0 main_call20.v3 (broadcastInDim S262144 ![] bcast_S_S262144),
    StableHlo.TRef.binary (.of main_v752 : StableHlo.TRef sig ⟨S262144, .i32⟩) main_call20.v3 main_call20.v4 Host.remsi,
    StableHlo.TRef.nullary main_call20.c_1 (constantI S_ 32 0#32),
    StableHlo.TRef.unary main_call20.c_1 main_call20.v5 (broadcastInDim S262144 ![] bcast_S_S262144),
    StableHlo.TRef.binary main_call20.v4 main_call20.v5 main_call20.v6 (cmpi .ne),
    StableHlo.TRef.nullary main_call20.c_2 (constantI S_ 32 0#32),
    StableHlo.TRef.unary main_call20.c_2 main_call20.v7 (broadcastInDim S262144 ![] bcast_S_S262144),
    StableHlo.TRef.binary main_call20.v4 main_call20.v7 main_call20.v8 (cmpi .slt),
    StableHlo.TRef.nullary main_call20.c_3 (constantI S_ 32 0#32),
    StableHlo.TRef.binary main_call20.call0.v0 main_call20.c_3 main_call20.v9 (cmpi .slt),
    StableHlo.TRef.unary main_call20.v9 main_call20.v10 (broadcastInDim S262144 ![] bcast_S_S262144),
    StableHlo.TRef.binary main_call20.v8 main_call20.v10 main_call20.v11 (cmpi .ne),
    StableHlo.TRef.binary main_call20.v11 main_call20.v6 main_call20.v12 andi,
    StableHlo.TRef.unary main_call20.call0.v0 main_call20.v13 (broadcastInDim S262144 ![] bcast_S_S262144),
    StableHlo.TRef.binary main_call20.v4 main_call20.v13 main_call20.v14 addi,
    StableHlo.TRef.ternary main_call20.v12 main_call20.v14 main_call20.v4 main_call20.v15 select,
    StableHlo.binary main_v737 main_v741 main_v754 (mulf : Vec F S262144 .f32 → Vec F S262144 .f32 → Vec F S262144 .f32),
    StableHlo.unary main_v754 main_v755 (broadcastInDim S262144x1 ![0] bcast_S262144_S262144x1_0 : Vec F S262144 .f32 → Vec F S262144x1 .f32),
    StableHlo.nullary main_c_189 (constantI S_ 32 0#32),
    StableHlo.unary main_c_189 main_v756 (broadcastInDim S262144 ![] bcast_S_S262144 : Vec F S_ .i32 → Vec F S262144 .i32),
    StableHlo.binary main_v753 main_v756 main_v757 (cmpi .slt : Vec F S262144 .i32 → Vec F S262144 .i32 → Vec F S262144 .i1),
    StableHlo.nullary main_c_190 (constantI S_ 32 8192#32),
    StableHlo.unary main_c_190 main_v758 (broadcastInDim S262144 ![] bcast_S_S262144 : Vec F S_ .i32 → Vec F S262144 .i32),
    StableHlo.binary main_v753 main_v758 main_v759 (addi : Vec F S262144 .i32 → Vec F S262144 .i32 → Vec F S262144 .i32),
    StableHlo.ternary main_v757 main_v759 main_v753 main_v760 (select : Vec F S262144 .i1 → Vec F S262144 .i32 → Vec F S262144 .i32 → Vec F S262144 .i32),
    StableHlo.nullary main_c_191 (constantI S_ 32 5#32),
    StableHlo.unary main_c_191 main_v761 (broadcastInDim S262144 ![] bcast_S_S262144 : Vec F S_ .i32 → Vec F S262144 .i32),
    StableHlo.unary main_v761 main_v762 (id : Vec F S262144 .i32 → Vec F S262144 .i32),
    StableHlo.unary main_v762 main_v763 (broadcastInDim S262144x1 ![0] bcast_S262144_S262144x1_0 : Vec F S262144 .i32 → Vec F S262144x1 .i32),
    StableHlo.unary main_v760 main_v764 (broadcastInDim S262144x1 ![0] bcast_S262144_S262144x1_0 : Vec F S262144 .i32 → Vec F S262144x1 .i32),
    StableHlo.binary main_v763 main_v764 main_v765 ((fun a b => concatenate S262144x2 1 [⟨S262144x1, a⟩, ⟨S262144x1, b⟩] concatenates_S262144x1_S262144x1_S262144x2_d1) : Vec F S262144x1 .i32 → Vec F S262144x1 .i32 → Vec F S262144x2 .i32) ]

abbrev piece15W : List (Ref sig .tc) :=
  [main_cst_178, main_v720, main_v721, main_cst_179, main_v722, main_v723, main_v724, main_v725, main_v726, main_v727, main_cst_180, main_v728, main_v729, main_cst_181, main_v730, main_v731, main_v732, main_cst_182, main_v733, main_v734, main_v735, main_cst_183, main_v736, main_v737, main_v738, main_v739, main_cst_184, main_v740, main_v741, main_v742, main_v743, main_c_185, main_v744, main_v745, main_v746, main_v747, main_c_186, main_v748, main_v749, main_c_187, main_v750, main_v751, main_v752, main_c_188, main_call20_v0, main_call20_c, main_call20_v1, main_call20_c_0, main_call20_v2, main_call20_v3, main_call20_v4, main_call20_c_1, main_call20_v5, main_call20_v6, main_call20_c_2, main_call20_v7, main_call20_v8, main_call20_c_3, main_call20_v9, main_call20_v10, main_call20_v11, main_call20_v12, main_call20_v13, main_call20_v14, main_v753, main_v754, main_v755, main_c_189, main_v756, main_v757, main_c_190, main_v758, main_v759, main_v760, main_c_191, main_v761, main_v762, main_v763, main_v764, main_v765]

theorem piece15_sub : (piece15 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece15_fresh : (piece15 : List (HloOp τ sig (Elt F))).Forall fun op => op.fresh = ∅ := by
  repeat' first | refine ⟨?_, ?_⟩ | exact rfl

theorem piece15_writes : WritesAt (piece15 : List (HloOp τ sig (Elt F))) piece15W := by
  repeat first | exact .nil | refine .cons rfl ?_

abbrev piece16 : List (HloOp τ sig (Elt F)) :=
  [ StableHlo.binary main_arg1 main_v765 main_v766 ((fun x i => Host.gather gather_S8x8192x8_S262144x2_S262144x8_1_01_n_n_01_1_118 x i) : Vec F S8x8192x8 .f32 → Vec F S262144x2 .i32 → Vec F S262144x8 .f32),
    StableHlo.unary main_v755 main_v767 (broadcastInDim S262144x8 ![0, 1] bcast_S262144x1_S262144x8_0_1 : Vec F S262144x1 .f32 → Vec F S262144x8 .f32),
    StableHlo.binary main_v767 main_v766 main_v768 (mulf : Vec F S262144x8 .f32 → Vec F S262144x8 .f32 → Vec F S262144x8 .f32),
    StableHlo.binary main_v733 main_v768 main_v769 (addf : Vec F S262144x8 .f32 → Vec F S262144x8 .f32 → Vec F S262144x8 .f32),
    StableHlo.unary main_v732 main_v770 ((extractStridedSlice S262144x1 ![0, 1] · slices_S262144x2_S262144x1_0_1) : Vec F S262144x2 .f32 → Vec F S262144x1 .f32),
    StableHlo.reshape main_v770 main_v771 rfl shapeCasts_S262144x1_S262144,
    StableHlo.unary main_v726 main_v772 ((extractStridedSlice S262144x1 ![0, 0] · slices_S262144x2_S262144x1_0_0) : Vec F S262144x2 .i32 → Vec F S262144x1 .i32),
    StableHlo.reshape main_v772 main_v773 rfl shapeCasts_S262144x1_S262144,
    StableHlo.nullary main_c_192 (constantI S_ 32 0#32),
    StableHlo.unary main_c_192 main_v774 (broadcastInDim S262144 ![] bcast_S_S262144 : Vec F S_ .i32 → Vec F S262144 .i32),
    StableHlo.binary main_v773 main_v774 main_v775 (addi : Vec F S262144 .i32 → Vec F S262144 .i32 → Vec F S262144 .i32),
    StableHlo.unary main_v726 main_v776 ((extractStridedSlice S262144x1 ![0, 1] · slices_S262144x2_S262144x1_0_1) : Vec F S262144x2 .i32 → Vec F S262144x1 .i32),
    StableHlo.reshape main_v776 main_v777 rfl shapeCasts_S262144x1_S262144,
    StableHlo.nullary main_c_193 (constantI S_ 32 1#32),
    StableHlo.unary main_c_193 main_v778 (broadcastInDim S262144 ![] bcast_S_S262144 : Vec F S_ .i32 → Vec F S262144 .i32),
    StableHlo.binary main_v777 main_v778 main_v779 (addi : Vec F S262144 .i32 → Vec F S262144 .i32 → Vec F S262144 .i32),
    StableHlo.nullary main_c_194 (constantI S_ 32 51#32),
    StableHlo.unary main_c_194 main_v780 (broadcastInDim S262144 ![] bcast_S_S262144 : Vec F S_ .i32 → Vec F S262144 .i32),
    StableHlo.binary main_v779 main_v780 main_v781 (muli : Vec F S262144 .i32 → Vec F S262144 .i32 → Vec F S262144 .i32),
    StableHlo.binary main_v775 main_v781 main_v782 (addi : Vec F S262144 .i32 → Vec F S262144 .i32 → Vec F S262144 .i32),
    StableHlo.nullary main_c_195 (constantI S_ 32 2608#32),
    StableHlo.TRef.unary (.of main_c_195 : StableHlo.TRef sig ⟨S_, .i32⟩) main_call21.v0 id,
    StableHlo.TRef.nullary main_call21.c (constantI S_ 32 0#32),
    StableHlo.TRef.binary main_call21.v0 main_call21.c main_call21.v1 (cmpi .eq),
    StableHlo.TRef.nullary main_call21.c_0 (constantI S_ 32 1#32),
    StableHlo.TRef.ternary main_call21.v1 main_call21.c_0 main_call21.v0 main_call21.call0.v0 select,
    StableHlo.TRef.unary main_call21.call0.v0 main_call21.v3 (broadcastInDim S262144 ![] bcast_S_S262144),
    StableHlo.TRef.binary (.of main_v782 : StableHlo.TRef sig ⟨S262144, .i32⟩) main_call21.v3 main_call21.v4 Host.remsi,
    StableHlo.TRef.nullary main_call21.c_1 (constantI S_ 32 0#32),
    StableHlo.TRef.unary main_call21.c_1 main_call21.v5 (broadcastInDim S262144 ![] bcast_S_S262144),
    StableHlo.TRef.binary main_call21.v4 main_call21.v5 main_call21.v6 (cmpi .ne),
    StableHlo.TRef.nullary main_call21.c_2 (constantI S_ 32 0#32),
    StableHlo.TRef.unary main_call21.c_2 main_call21.v7 (broadcastInDim S262144 ![] bcast_S_S262144),
    StableHlo.TRef.binary main_call21.v4 main_call21.v7 main_call21.v8 (cmpi .slt),
    StableHlo.TRef.nullary main_call21.c_3 (constantI S_ 32 0#32),
    StableHlo.TRef.binary main_call21.call0.v0 main_call21.c_3 main_call21.v9 (cmpi .slt),
    StableHlo.TRef.unary main_call21.v9 main_call21.v10 (broadcastInDim S262144 ![] bcast_S_S262144),
    StableHlo.TRef.binary main_call21.v8 main_call21.v10 main_call21.v11 (cmpi .ne),
    StableHlo.TRef.binary main_call21.v11 main_call21.v6 main_call21.v12 andi,
    StableHlo.TRef.unary main_call21.call0.v0 main_call21.v13 (broadcastInDim S262144 ![] bcast_S_S262144),
    StableHlo.TRef.binary main_call21.v4 main_call21.v13 main_call21.v14 addi,
    StableHlo.TRef.ternary main_call21.v12 main_call21.v14 main_call21.v4 main_call21.v15 select,
    StableHlo.binary main_v737 main_v771 main_v784 (mulf : Vec F S262144 .f32 → Vec F S262144 .f32 → Vec F S262144 .f32),
    StableHlo.unary main_v784 main_v785 (broadcastInDim S262144x1 ![0] bcast_S262144_S262144x1_0 : Vec F S262144 .f32 → Vec F S262144x1 .f32),
    StableHlo.nullary main_c_196 (constantI S_ 32 0#32),
    StableHlo.unary main_c_196 main_v786 (broadcastInDim S262144 ![] bcast_S_S262144 : Vec F S_ .i32 → Vec F S262144 .i32),
    StableHlo.binary main_v783 main_v786 main_v787 (cmpi .slt : Vec F S262144 .i32 → Vec F S262144 .i32 → Vec F S262144 .i1),
    StableHlo.nullary main_c_197 (constantI S_ 32 8192#32),
    StableHlo.unary main_c_197 main_v788 (broadcastInDim S262144 ![] bcast_S_S262144 : Vec F S_ .i32 → Vec F S262144 .i32),
    StableHlo.binary main_v783 main_v788 main_v789 (addi : Vec F S262144 .i32 → Vec F S262144 .i32 → Vec F S262144 .i32),
    StableHlo.ternary main_v787 main_v789 main_v783 main_v790 (select : Vec F S262144 .i1 → Vec F S262144 .i32 → Vec F S262144 .i32 → Vec F S262144 .i32),
    StableHlo.nullary main_c_198 (constantI S_ 32 5#32),
    StableHlo.unary main_c_198 main_v791 (broadcastInDim S262144 ![] bcast_S_S262144 : Vec F S_ .i32 → Vec F S262144 .i32),
    StableHlo.unary main_v791 main_v792 (id : Vec F S262144 .i32 → Vec F S262144 .i32),
    StableHlo.unary main_v792 main_v793 (broadcastInDim S262144x1 ![0] bcast_S262144_S262144x1_0 : Vec F S262144 .i32 → Vec F S262144x1 .i32),
    StableHlo.unary main_v790 main_v794 (broadcastInDim S262144x1 ![0] bcast_S262144_S262144x1_0 : Vec F S262144 .i32 → Vec F S262144x1 .i32),
    StableHlo.binary main_v793 main_v794 main_v795 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v795 main_v796 ((fun x i => Host.gather gather_S8x8192x8_S262144x2_S262144x8_1_01_n_n_01_1_118 x i) : Vec F S8x8192x8 .f32 → Vec F S262144x2 .i32 → Vec F S262144x8 .f32),
    StableHlo.unary main_v785 main_v797 (broadcastInDim S262144x8 ![0, 1] bcast_S262144x1_S262144x8_0_1 : Vec F S262144x1 .f32 → Vec F S262144x8 .f32),
    StableHlo.binary main_v797 main_v796 main_v798 (mulf : Vec F S262144x8 .f32 → Vec F S262144x8 .f32 → Vec F S262144x8 .f32),
    StableHlo.binary main_v769 main_v798 main_v799 (addf : Vec F S262144x8 .f32 → Vec F S262144x8 .f32 → Vec F S262144x8 .f32),
    StableHlo.unary main_v732 main_v800 ((extractStridedSlice S262144x1 ![0, 0] · slices_S262144x2_S262144x1_0_0) : Vec F S262144x2 .f32 → Vec F S262144x1 .f32),
    StableHlo.reshape main_v800 main_v801 rfl shapeCasts_S262144x1_S262144,
    StableHlo.unary main_v732 main_v802 ((extractStridedSlice S262144x1 ![0, 1] · slices_S262144x2_S262144x1_0_1) : Vec F S262144x2 .f32 → Vec F S262144x1 .f32),
    StableHlo.reshape main_v802 main_v803 rfl shapeCasts_S262144x1_S262144,
    StableHlo.nullary main_cst_199 (constant S_ .f32 0x3F800000#32),
    StableHlo.unary main_cst_199 main_v804 (broadcastInDim S262144 ![] bcast_S_S262144 : Vec F S_ .f32 → Vec F S262144 .f32),
    StableHlo.binary main_v804 main_v803 main_v805 (subf : Vec F S262144 .f32 → Vec F S262144 .f32 → Vec F S262144 .f32),
    StableHlo.unary main_v726 main_v806 ((extractStridedSlice S262144x1 ![0, 0] · slices_S262144x2_S262144x1_0_0) : Vec F S262144x2 .i32 → Vec F S262144x1 .i32),
    StableHlo.reshape main_v806 main_v807 rfl shapeCasts_S262144x1_S262144,
    StableHlo.nullary main_c_200 (constantI S_ 32 1#32),
    StableHlo.unary main_c_200 main_v808 (broadcastInDim S262144 ![] bcast_S_S262144 : Vec F S_ .i32 → Vec F S262144 .i32),
    StableHlo.binary main_v807 main_v808 main_v809 (addi : Vec F S262144 .i32 → Vec F S262144 .i32 → Vec F S262144 .i32),
    StableHlo.unary main_v726 main_v810 ((extractStridedSlice S262144x1 ![0, 1] · slices_S262144x2_S262144x1_0_1) : Vec F S262144x2 .i32 → Vec F S262144x1 .i32),
    StableHlo.reshape main_v810 main_v811 rfl shapeCasts_S262144x1_S262144,
    StableHlo.nullary main_c_201 (constantI S_ 32 0#32),
    StableHlo.unary main_c_201 main_v812 (broadcastInDim S262144 ![] bcast_S_S262144 : Vec F S_ .i32 → Vec F S262144 .i32),
    StableHlo.binary main_v811 main_v812 main_v813 (addi : Vec F S262144 .i32 → Vec F S262144 .i32 → Vec F S262144 .i32),
    StableHlo.nullary main_c_202 (constantI S_ 32 51#32),
    StableHlo.unary main_c_202 main_v814 (broadcastInDim S262144 ![] bcast_S_S262144 : Vec F S_ .i32 → Vec F S262144 .i32) ]

abbrev piece16W : List (Ref sig .tc) :=
  [main_v766, main_v767, main_v768, main_v769, main_v770, main_v771, main_v772, main_v773, main_c_192, main_v774, main_v775, main_v776, main_v777, main_c_193, main_v778, main_v779, main_c_194, main_v780, main_v781, main_v782, main_c_195, main_call21_v0, main_call21_c, main_call21_v1, main_call21_c_0, main_call21_v2, main_call21_v3, main_call21_v4, main_call21_c_1, main_call21_v5, main_call21_v6, main_call21_c_2, main_call21_v7, main_call21_v8, main_call21_c_3, main_call21_v9, main_call21_v10, main_call21_v11, main_call21_v12, main_call21_v13, main_call21_v14, main_v783, main_v784, main_v785, main_c_196, main_v786, main_v787, main_c_197, main_v788, main_v789, main_v790, main_c_198, main_v791, main_v792, main_v793, main_v794, main_v795, main_v796, main_v797, main_v798, main_v799, main_v800, main_v801, main_v802, main_v803, main_cst_199, main_v804, main_v805, main_v806, main_v807, main_c_200, main_v808, main_v809, main_v810, main_v811, main_c_201, main_v812, main_v813, main_c_202, main_v814]

theorem piece16_sub : (piece16 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece16_fresh : (piece16 : List (HloOp τ sig (Elt F))).Forall fun op => op.fresh = ∅ := by
  repeat' first | refine ⟨?_, ?_⟩ | exact rfl

theorem piece16_writes : WritesAt (piece16 : List (HloOp τ sig (Elt F))) piece16W := by
  repeat first | exact .nil | refine .cons rfl ?_

abbrev piece17 : List (HloOp τ sig (Elt F)) :=
  [ StableHlo.binary main_v813 main_v814 main_v815 (muli : Vec F S262144 .i32 → Vec F S262144 .i32 → Vec F S262144 .i32),
    StableHlo.binary main_v809 main_v815 main_v816 (addi : Vec F S262144 .i32 → Vec F S262144 .i32 → Vec F S262144 .i32),
    StableHlo.nullary main_c_203 (constantI S_ 32 2608#32),
    StableHlo.TRef.unary (.of main_c_203 : StableHlo.TRef sig ⟨S_, .i32⟩) main_call22.v0 id,
    StableHlo.TRef.nullary main_call22.c (constantI S_ 32 0#32),
    StableHlo.TRef.binary main_call22.v0 main_call22.c main_call22.v1 (cmpi .eq),
    StableHlo.TRef.nullary main_call22.c_0 (constantI S_ 32 1#32),
    StableHlo.TRef.ternary main_call22.v1 main_call22.c_0 main_call22.v0 main_call22.call0.v0 select,
    StableHlo.TRef.unary main_call22.call0.v0 main_call22.v3 (broadcastInDim S262144 ![] bcast_S_S262144),
    StableHlo.TRef.binary (.of main_v816 : StableHlo.TRef sig ⟨S262144, .i32⟩) main_call22.v3 main_call22.v4 Host.remsi,
    StableHlo.TRef.nullary main_call22.c_1 (constantI S_ 32 0#32),
    StableHlo.TRef.unary main_call22.c_1 main_call22.v5 (broadcastInDim S262144 ![] bcast_S_S262144),
    StableHlo.TRef.binary main_call22.v4 main_call22.v5 main_call22.v6 (cmpi .ne),
    StableHlo.TRef.nullary main_call22.c_2 (constantI S_ 32 0#32),
    StableHlo.TRef.unary main_call22.c_2 main_call22.v7 (broadcastInDim S262144 ![] bcast_S_S262144),
    StableHlo.TRef.binary main_call22.v4 main_call22.v7 main_call22.v8 (cmpi .slt),
    StableHlo.TRef.nullary main_call22.c_3 (constantI S_ 32 0#32),
    StableHlo.TRef.binary main_call22.call0.v0 main_call22.c_3 main_call22.v9 (cmpi .slt),
    StableHlo.TRef.unary main_call22.v9 main_call22.v10 (broadcastInDim S262144 ![] bcast_S_S262144),
    StableHlo.TRef.binary main_call22.v8 main_call22.v10 main_call22.v11 (cmpi .ne),
    StableHlo.TRef.binary main_call22.v11 main_call22.v6 main_call22.v12 andi,
    StableHlo.TRef.unary main_call22.call0.v0 main_call22.v13 (broadcastInDim S262144 ![] bcast_S_S262144),
    StableHlo.TRef.binary main_call22.v4 main_call22.v13 main_call22.v14 addi,
    StableHlo.TRef.ternary main_call22.v12 main_call22.v14 main_call22.v4 main_call22.v15 select,
    StableHlo.binary main_v801 main_v805 main_v818 (mulf : Vec F S262144 .f32 → Vec F S262144 .f32 → Vec F S262144 .f32),
    StableHlo.unary main_v818 main_v819 (broadcastInDim S262144x1 ![0] bcast_S262144_S262144x1_0 : Vec F S262144 .f32 → Vec F S262144x1 .f32),
    StableHlo.nullary main_c_204 (constantI S_ 32 0#32),
    StableHlo.unary main_c_204 main_v820 (broadcastInDim S262144 ![] bcast_S_S262144 : Vec F S_ .i32 → Vec F S262144 .i32),
    StableHlo.binary main_v817 main_v820 main_v821 (cmpi .slt : Vec F S262144 .i32 → Vec F S262144 .i32 → Vec F S262144 .i1),
    StableHlo.nullary main_c_205 (constantI S_ 32 8192#32),
    StableHlo.unary main_c_205 main_v822 (broadcastInDim S262144 ![] bcast_S_S262144 : Vec F S_ .i32 → Vec F S262144 .i32),
    StableHlo.binary main_v817 main_v822 main_v823 (addi : Vec F S262144 .i32 → Vec F S262144 .i32 → Vec F S262144 .i32),
    StableHlo.ternary main_v821 main_v823 main_v817 main_v824 (select : Vec F S262144 .i1 → Vec F S262144 .i32 → Vec F S262144 .i32 → Vec F S262144 .i32),
    StableHlo.nullary main_c_206 (constantI S_ 32 5#32),
    StableHlo.unary main_c_206 main_v825 (broadcastInDim S262144 ![] bcast_S_S262144 : Vec F S_ .i32 → Vec F S262144 .i32),
    StableHlo.unary main_v825 main_v826 (id : Vec F S262144 .i32 → Vec F S262144 .i32),
    StableHlo.unary main_v826 main_v827 (broadcastInDim S262144x1 ![0] bcast_S262144_S262144x1_0 : Vec F S262144 .i32 → Vec F S262144x1 .i32),
    StableHlo.unary main_v824 main_v828 (broadcastInDim S262144x1 ![0] bcast_S262144_S262144x1_0 : Vec F S262144 .i32 → Vec F S262144x1 .i32),
    StableHlo.binary main_v827 main_v828 main_v829 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v829 main_v830 ((fun x i => Host.gather gather_S8x8192x8_S262144x2_S262144x8_1_01_n_n_01_1_118 x i) : Vec F S8x8192x8 .f32 → Vec F S262144x2 .i32 → Vec F S262144x8 .f32),
    StableHlo.unary main_v819 main_v831 (broadcastInDim S262144x8 ![0, 1] bcast_S262144x1_S262144x8_0_1 : Vec F S262144x1 .f32 → Vec F S262144x8 .f32),
    StableHlo.binary main_v831 main_v830 main_v832 (mulf : Vec F S262144x8 .f32 → Vec F S262144x8 .f32 → Vec F S262144x8 .f32),
    StableHlo.binary main_v799 main_v832 main_v833 (addf : Vec F S262144x8 .f32 → Vec F S262144x8 .f32 → Vec F S262144x8 .f32),
    StableHlo.unary main_v732 main_v834 ((extractStridedSlice S262144x1 ![0, 1] · slices_S262144x2_S262144x1_0_1) : Vec F S262144x2 .f32 → Vec F S262144x1 .f32),
    StableHlo.reshape main_v834 main_v835 rfl shapeCasts_S262144x1_S262144,
    StableHlo.unary main_v726 main_v836 ((extractStridedSlice S262144x1 ![0, 0] · slices_S262144x2_S262144x1_0_0) : Vec F S262144x2 .i32 → Vec F S262144x1 .i32),
    StableHlo.reshape main_v836 main_v837 rfl shapeCasts_S262144x1_S262144,
    StableHlo.nullary main_c_207 (constantI S_ 32 1#32),
    StableHlo.unary main_c_207 main_v838 (broadcastInDim S262144 ![] bcast_S_S262144 : Vec F S_ .i32 → Vec F S262144 .i32),
    StableHlo.binary main_v837 main_v838 main_v839 (addi : Vec F S262144 .i32 → Vec F S262144 .i32 → Vec F S262144 .i32),
    StableHlo.unary main_v726 main_v840 ((extractStridedSlice S262144x1 ![0, 1] · slices_S262144x2_S262144x1_0_1) : Vec F S262144x2 .i32 → Vec F S262144x1 .i32),
    StableHlo.reshape main_v840 main_v841 rfl shapeCasts_S262144x1_S262144,
    StableHlo.nullary main_c_208 (constantI S_ 32 1#32),
    StableHlo.unary main_c_208 main_v842 (broadcastInDim S262144 ![] bcast_S_S262144 : Vec F S_ .i32 → Vec F S262144 .i32),
    StableHlo.binary main_v841 main_v842 main_v843 (addi : Vec F S262144 .i32 → Vec F S262144 .i32 → Vec F S262144 .i32),
    StableHlo.nullary main_c_209 (constantI S_ 32 51#32),
    StableHlo.unary main_c_209 main_v844 (broadcastInDim S262144 ![] bcast_S_S262144 : Vec F S_ .i32 → Vec F S262144 .i32),
    StableHlo.binary main_v843 main_v844 main_v845 (muli : Vec F S262144 .i32 → Vec F S262144 .i32 → Vec F S262144 .i32),
    StableHlo.binary main_v839 main_v845 main_v846 (addi : Vec F S262144 .i32 → Vec F S262144 .i32 → Vec F S262144 .i32),
    StableHlo.nullary main_c_210 (constantI S_ 32 2608#32),
    StableHlo.TRef.unary (.of main_c_210 : StableHlo.TRef sig ⟨S_, .i32⟩) main_call23.v0 id,
    StableHlo.TRef.nullary main_call23.c (constantI S_ 32 0#32),
    StableHlo.TRef.binary main_call23.v0 main_call23.c main_call23.v1 (cmpi .eq),
    StableHlo.TRef.nullary main_call23.c_0 (constantI S_ 32 1#32),
    StableHlo.TRef.ternary main_call23.v1 main_call23.c_0 main_call23.v0 main_call23.call0.v0 select,
    StableHlo.TRef.unary main_call23.call0.v0 main_call23.v3 (broadcastInDim S262144 ![] bcast_S_S262144),
    StableHlo.TRef.binary (.of main_v846 : StableHlo.TRef sig ⟨S262144, .i32⟩) main_call23.v3 main_call23.v4 Host.remsi,
    StableHlo.TRef.nullary main_call23.c_1 (constantI S_ 32 0#32),
    StableHlo.TRef.unary main_call23.c_1 main_call23.v5 (broadcastInDim S262144 ![] bcast_S_S262144),
    StableHlo.TRef.binary main_call23.v4 main_call23.v5 main_call23.v6 (cmpi .ne),
    StableHlo.TRef.nullary main_call23.c_2 (constantI S_ 32 0#32),
    StableHlo.TRef.unary main_call23.c_2 main_call23.v7 (broadcastInDim S262144 ![] bcast_S_S262144),
    StableHlo.TRef.binary main_call23.v4 main_call23.v7 main_call23.v8 (cmpi .slt),
    StableHlo.TRef.nullary main_call23.c_3 (constantI S_ 32 0#32),
    StableHlo.TRef.binary main_call23.call0.v0 main_call23.c_3 main_call23.v9 (cmpi .slt),
    StableHlo.TRef.unary main_call23.v9 main_call23.v10 (broadcastInDim S262144 ![] bcast_S_S262144),
    StableHlo.TRef.binary main_call23.v8 main_call23.v10 main_call23.v11 (cmpi .ne),
    StableHlo.TRef.binary main_call23.v11 main_call23.v6 main_call23.v12 andi,
    StableHlo.TRef.unary main_call23.call0.v0 main_call23.v13 (broadcastInDim S262144 ![] bcast_S_S262144),
    StableHlo.TRef.binary main_call23.v4 main_call23.v13 main_call23.v14 addi,
    StableHlo.TRef.ternary main_call23.v12 main_call23.v14 main_call23.v4 main_call23.v15 select,
    StableHlo.binary main_v801 main_v835 main_v848 (mulf : Vec F S262144 .f32 → Vec F S262144 .f32 → Vec F S262144 .f32),
    StableHlo.unary main_v848 main_v849 (broadcastInDim S262144x1 ![0] bcast_S262144_S262144x1_0 : Vec F S262144 .f32 → Vec F S262144x1 .f32),
    StableHlo.nullary main_c_211 (constantI S_ 32 0#32),
    StableHlo.unary main_c_211 main_v850 (broadcastInDim S262144 ![] bcast_S_S262144 : Vec F S_ .i32 → Vec F S262144 .i32),
    StableHlo.binary main_v847 main_v850 main_v851 (cmpi .slt : Vec F S262144 .i32 → Vec F S262144 .i32 → Vec F S262144 .i1),
    StableHlo.nullary main_c_212 (constantI S_ 32 8192#32),
    StableHlo.unary main_c_212 main_v852 (broadcastInDim S262144 ![] bcast_S_S262144 : Vec F S_ .i32 → Vec F S262144 .i32),
    StableHlo.binary main_v847 main_v852 main_v853 (addi : Vec F S262144 .i32 → Vec F S262144 .i32 → Vec F S262144 .i32),
    StableHlo.ternary main_v851 main_v853 main_v847 main_v854 (select : Vec F S262144 .i1 → Vec F S262144 .i32 → Vec F S262144 .i32 → Vec F S262144 .i32),
    StableHlo.nullary main_c_213 (constantI S_ 32 5#32),
    StableHlo.unary main_c_213 main_v855 (broadcastInDim S262144 ![] bcast_S_S262144 : Vec F S_ .i32 → Vec F S262144 .i32),
    StableHlo.unary main_v855 main_v856 (id : Vec F S262144 .i32 → Vec F S262144 .i32),
    StableHlo.unary main_v856 main_v857 (broadcastInDim S262144x1 ![0] bcast_S262144_S262144x1_0 : Vec F S262144 .i32 → Vec F S262144x1 .i32),
    StableHlo.unary main_v854 main_v858 (broadcastInDim S262144x1 ![0] bcast_S262144_S262144x1_0 : Vec F S262144 .i32 → Vec F S262144x1 .i32),
    StableHlo.binary main_v857 main_v858 main_v859 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v859 main_v860 ((fun x i => Host.gather gather_S8x8192x8_S262144x2_S262144x8_1_01_n_n_01_1_118 x i) : Vec F S8x8192x8 .f32 → Vec F S262144x2 .i32 → Vec F S262144x8 .f32),
    StableHlo.unary main_v849 main_v861 (broadcastInDim S262144x8 ![0, 1] bcast_S262144x1_S262144x8_0_1 : Vec F S262144x1 .f32 → Vec F S262144x8 .f32),
    StableHlo.binary main_v861 main_v860 main_v862 (mulf : Vec F S262144x8 .f32 → Vec F S262144x8 .f32 → Vec F S262144x8 .f32),
    StableHlo.binary main_v833 main_v862 main_v863 (addf : Vec F S262144x8 .f32 → Vec F S262144x8 .f32 → Vec F S262144x8 .f32) ]

abbrev piece17W : List (Ref sig .tc) :=
  [main_v815, main_v816, main_c_203, main_call22_v0, main_call22_c, main_call22_v1, main_call22_c_0, main_call22_v2, main_call22_v3, main_call22_v4, main_call22_c_1, main_call22_v5, main_call22_v6, main_call22_c_2, main_call22_v7, main_call22_v8, main_call22_c_3, main_call22_v9, main_call22_v10, main_call22_v11, main_call22_v12, main_call22_v13, main_call22_v14, main_v817, main_v818, main_v819, main_c_204, main_v820, main_v821, main_c_205, main_v822, main_v823, main_v824, main_c_206, main_v825, main_v826, main_v827, main_v828, main_v829, main_v830, main_v831, main_v832, main_v833, main_v834, main_v835, main_v836, main_v837, main_c_207, main_v838, main_v839, main_v840, main_v841, main_c_208, main_v842, main_v843, main_c_209, main_v844, main_v845, main_v846, main_c_210, main_call23_v0, main_call23_c, main_call23_v1, main_call23_c_0, main_call23_v2, main_call23_v3, main_call23_v4, main_call23_c_1, main_call23_v5, main_call23_v6, main_call23_c_2, main_call23_v7, main_call23_v8, main_call23_c_3, main_call23_v9, main_call23_v10, main_call23_v11, main_call23_v12, main_call23_v13, main_call23_v14, main_v847, main_v848, main_v849, main_c_211, main_v850, main_v851, main_c_212, main_v852, main_v853, main_v854, main_c_213, main_v855, main_v856, main_v857, main_v858, main_v859, main_v860, main_v861, main_v862, main_v863]

theorem piece17_sub : (piece17 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece17_fresh : (piece17 : List (HloOp τ sig (Elt F))).Forall fun op => op.fresh = ∅ := by
  repeat' first | refine ⟨?_, ?_⟩ | exact rfl

theorem piece17_writes : WritesAt (piece17 : List (HloOp τ sig (Elt F))) piece17W := by
  repeat first | exact .nil | refine .cons rfl ?_

abbrev lvlOps5 : List (HloOp τ sig (Elt F)) := piece15 ++ piece16 ++ piece17

abbrev lvlWrites5 : List (Ref sig .tc) := piece15W ++ piece16W ++ piece17W

theorem lvlOps5_sub : (lvlOps5 : List (HloOp τ sig (Elt F))).Forall fun op => op.bufs ⊆ tcRefs τ sig :=
  forall_append' (forall_append' (piece15_sub) piece16_sub) piece17_sub

theorem lvlOps5_fresh : (lvlOps5 : List (HloOp τ sig (Elt F))).Forall fun op => op.fresh = ∅ :=
  forall_append' (forall_append' (piece15_fresh) piece16_fresh) piece17_fresh

theorem lvlOps5_writesAt : WritesAt (lvlOps5 : List (HloOp τ sig (Elt F))) lvlWrites5 :=
  ((piece15_writes).append piece16_writes).append piece17_writes

theorem lvlOps5_writes : (lvlOps5 : List (HloOp τ sig (Elt F))).Forall fun op => op.writes ⊆ (lvlWrites5.map (Proc.devRef (τ := τ) .tc)).toFinset :=
  lvlOps5_writesAt.forall_sub

end Cert.ReferenceIdeal.RefVal

end
-- ==== Proof.RefOps6.lean ====
-- The reference's operations in the printed order, a call's operations written at the call; beside each piece, the reference every operation writes.
import proofs.«132274_j36180804501977_1_alg».proof.ReferenceIdeal
import proofs.«132274_j36180804501977_1_alg».proof.Proof.RefOpsLib
import Idealize.ShloMosaic.Lib.StableHlo.Run

set_option maxRecDepth 8192

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

abbrev piece18 : List (HloOp τ sig (Elt F)) :=
  [ StableHlo.nullary main_cst_214 (constant S_ .f32 0x427C0002#32),
    StableHlo.unary main_cst_214 main_v864 (broadcastInDim S262144x2 ![] bcast_S_S262144x2 : Vec F S_ .f32 → Vec F S262144x2 .f32),
    StableHlo.binary main_arg0 main_v864 main_v865 (mulf : Vec F S262144x2 .f32 → Vec F S262144x2 .f32 → Vec F S262144x2 .f32),
    StableHlo.nullary main_cst_215 (constant S_ .f32 0x3F000000#32),
    StableHlo.unary main_cst_215 main_v866 (broadcastInDim S262144x2 ![] bcast_S_S262144x2 : Vec F S_ .f32 → Vec F S262144x2 .f32),
    StableHlo.binary main_v865 main_v866 main_v867 (addf : Vec F S262144x2 .f32 → Vec F S262144x2 .f32 → Vec F S262144x2 .f32),
    StableHlo.unary main_v867 main_v868 (Host.floor : Vec F S262144x2 .f32 → Vec F S262144x2 .f32),
    StableHlo.binary main_v867 main_v868 main_v869 (subf : Vec F S262144x2 .f32 → Vec F S262144x2 .f32 → Vec F S262144x2 .f32),
    StableHlo.unary main_v868 main_v870 (fptosi 32 : Vec F S262144x2 .f32 → Vec F S262144x2 .i32),
    StableHlo.binary main_v869 main_v869 main_v871 (mulf : Vec F S262144x2 .f32 → Vec F S262144x2 .f32 → Vec F S262144x2 .f32),
    StableHlo.nullary main_cst_216 (constant S_ .f32 0x40000000#32),
    StableHlo.unary main_cst_216 main_v872 (broadcastInDim S262144x2 ![] bcast_S_S262144x2 : Vec F S_ .f32 → Vec F S262144x2 .f32),
    StableHlo.binary main_v872 main_v869 main_v873 (mulf : Vec F S262144x2 .f32 → Vec F S262144x2 .f32 → Vec F S262144x2 .f32),
    StableHlo.nullary main_cst_217 (constant S_ .f32 0x40400000#32),
    StableHlo.unary main_cst_217 main_v874 (broadcastInDim S262144x2 ![] bcast_S_S262144x2 : Vec F S_ .f32 → Vec F S262144x2 .f32),
    StableHlo.binary main_v874 main_v873 main_v875 (subf : Vec F S262144x2 .f32 → Vec F S262144x2 .f32 → Vec F S262144x2 .f32),
    StableHlo.binary main_v871 main_v875 main_v876 (mulf : Vec F S262144x2 .f32 → Vec F S262144x2 .f32 → Vec F S262144x2 .f32),
    StableHlo.nullary main_cst_218 (constant S_ .f32 0x00000000#32),
    StableHlo.unary main_cst_218 main_v877 (broadcastInDim S262144x8 ![] bcast_S_S262144x8 : Vec F S_ .f32 → Vec F S262144x8 .f32),
    StableHlo.unary main_v876 main_v878 ((extractStridedSlice S262144x1 ![0, 0] · slices_S262144x2_S262144x1_0_0) : Vec F S262144x2 .f32 → Vec F S262144x1 .f32),
    StableHlo.reshape main_v878 main_v879 rfl shapeCasts_S262144x1_S262144,
    StableHlo.nullary main_cst_219 (constant S_ .f32 0x3F800000#32),
    StableHlo.unary main_cst_219 main_v880 (broadcastInDim S262144 ![] bcast_S_S262144 : Vec F S_ .f32 → Vec F S262144 .f32),
    StableHlo.binary main_v880 main_v879 main_v881 (subf : Vec F S262144 .f32 → Vec F S262144 .f32 → Vec F S262144 .f32),
    StableHlo.unary main_v876 main_v882 ((extractStridedSlice S262144x1 ![0, 1] · slices_S262144x2_S262144x1_0_1) : Vec F S262144x2 .f32 → Vec F S262144x1 .f32),
    StableHlo.reshape main_v882 main_v883 rfl shapeCasts_S262144x1_S262144,
    StableHlo.nullary main_cst_220 (constant S_ .f32 0x3F800000#32),
    StableHlo.unary main_cst_220 main_v884 (broadcastInDim S262144 ![] bcast_S_S262144 : Vec F S_ .f32 → Vec F S262144 .f32),
    StableHlo.binary main_v884 main_v883 main_v885 (subf : Vec F S262144 .f32 → Vec F S262144 .f32 → Vec F S262144 .f32),
    StableHlo.unary main_v870 main_v886 ((extractStridedSlice S262144x1 ![0, 0] · slices_S262144x2_S262144x1_0_0) : Vec F S262144x2 .i32 → Vec F S262144x1 .i32),
    StableHlo.reshape main_v886 main_v887 rfl shapeCasts_S262144x1_S262144,
    StableHlo.nullary main_c_221 (constantI S_ 32 0#32),
    StableHlo.unary main_c_221 main_v888 (broadcastInDim S262144 ![] bcast_S_S262144 : Vec F S_ .i32 → Vec F S262144 .i32),
    StableHlo.binary main_v887 main_v888 main_v889 (addi : Vec F S262144 .i32 → Vec F S262144 .i32 → Vec F S262144 .i32),
    StableHlo.unary main_v870 main_v890 ((extractStridedSlice S262144x1 ![0, 1] · slices_S262144x2_S262144x1_0_1) : Vec F S262144x2 .i32 → Vec F S262144x1 .i32),
    StableHlo.reshape main_v890 main_v891 rfl shapeCasts_S262144x1_S262144,
    StableHlo.nullary main_c_222 (constantI S_ 32 0#32),
    StableHlo.unary main_c_222 main_v892 (broadcastInDim S262144 ![] bcast_S_S262144 : Vec F S_ .i32 → Vec F S262144 .i32),
    StableHlo.binary main_v891 main_v892 main_v893 (addi : Vec F S262144 .i32 → Vec F S262144 .i32 → Vec F S262144 .i32),
    StableHlo.nullary main_c_223 (constantI S_ 32 65#32),
    StableHlo.unary main_c_223 main_v894 (broadcastInDim S262144 ![] bcast_S_S262144 : Vec F S_ .i32 → Vec F S262144 .i32),
    StableHlo.binary main_v893 main_v894 main_v895 (muli : Vec F S262144 .i32 → Vec F S262144 .i32 → Vec F S262144 .i32),
    StableHlo.binary main_v889 main_v895 main_v896 (addi : Vec F S262144 .i32 → Vec F S262144 .i32 → Vec F S262144 .i32),
    StableHlo.nullary main_c_224 (constantI S_ 32 4232#32),
    StableHlo.TRef.unary (.of main_c_224 : StableHlo.TRef sig ⟨S_, .i32⟩) main_call24.v0 id,
    StableHlo.TRef.nullary main_call24.c (constantI S_ 32 0#32),
    StableHlo.TRef.binary main_call24.v0 main_call24.c main_call24.v1 (cmpi .eq),
    StableHlo.TRef.nullary main_call24.c_0 (constantI S_ 32 1#32),
    StableHlo.TRef.ternary main_call24.v1 main_call24.c_0 main_call24.v0 main_call24.call0.v0 select,
    StableHlo.TRef.unary main_call24.call0.v0 main_call24.v3 (broadcastInDim S262144 ![] bcast_S_S262144),
    StableHlo.TRef.binary (.of main_v896 : StableHlo.TRef sig ⟨S262144, .i32⟩) main_call24.v3 main_call24.v4 Host.remsi,
    StableHlo.TRef.nullary main_call24.c_1 (constantI S_ 32 0#32),
    StableHlo.TRef.unary main_call24.c_1 main_call24.v5 (broadcastInDim S262144 ![] bcast_S_S262144),
    StableHlo.TRef.binary main_call24.v4 main_call24.v5 main_call24.v6 (cmpi .ne),
    StableHlo.TRef.nullary main_call24.c_2 (constantI S_ 32 0#32),
    StableHlo.TRef.unary main_call24.c_2 main_call24.v7 (broadcastInDim S262144 ![] bcast_S_S262144),
    StableHlo.TRef.binary main_call24.v4 main_call24.v7 main_call24.v8 (cmpi .slt),
    StableHlo.TRef.nullary main_call24.c_3 (constantI S_ 32 0#32),
    StableHlo.TRef.binary main_call24.call0.v0 main_call24.c_3 main_call24.v9 (cmpi .slt),
    StableHlo.TRef.unary main_call24.v9 main_call24.v10 (broadcastInDim S262144 ![] bcast_S_S262144),
    StableHlo.TRef.binary main_call24.v8 main_call24.v10 main_call24.v11 (cmpi .ne),
    StableHlo.TRef.binary main_call24.v11 main_call24.v6 main_call24.v12 andi,
    StableHlo.TRef.unary main_call24.call0.v0 main_call24.v13 (broadcastInDim S262144 ![] bcast_S_S262144),
    StableHlo.TRef.binary main_call24.v4 main_call24.v13 main_call24.v14 addi,
    StableHlo.TRef.ternary main_call24.v12 main_call24.v14 main_call24.v4 main_call24.v15 select,
    StableHlo.binary main_v881 main_v885 main_v898 (mulf : Vec F S262144 .f32 → Vec F S262144 .f32 → Vec F S262144 .f32),
    StableHlo.unary main_v898 main_v899 (broadcastInDim S262144x1 ![0] bcast_S262144_S262144x1_0 : Vec F S262144 .f32 → Vec F S262144x1 .f32),
    StableHlo.nullary main_c_225 (constantI S_ 32 0#32),
    StableHlo.unary main_c_225 main_v900 (broadcastInDim S262144 ![] bcast_S_S262144 : Vec F S_ .i32 → Vec F S262144 .i32),
    StableHlo.binary main_v897 main_v900 main_v901 (cmpi .slt : Vec F S262144 .i32 → Vec F S262144 .i32 → Vec F S262144 .i1),
    StableHlo.nullary main_c_226 (constantI S_ 32 8192#32),
    StableHlo.unary main_c_226 main_v902 (broadcastInDim S262144 ![] bcast_S_S262144 : Vec F S_ .i32 → Vec F S262144 .i32),
    StableHlo.binary main_v897 main_v902 main_v903 (addi : Vec F S262144 .i32 → Vec F S262144 .i32 → Vec F S262144 .i32),
    StableHlo.ternary main_v901 main_v903 main_v897 main_v904 (select : Vec F S262144 .i1 → Vec F S262144 .i32 → Vec F S262144 .i32 → Vec F S262144 .i32),
    StableHlo.nullary main_c_227 (constantI S_ 32 6#32),
    StableHlo.unary main_c_227 main_v905 (broadcastInDim S262144 ![] bcast_S_S262144 : Vec F S_ .i32 → Vec F S262144 .i32),
    StableHlo.unary main_v905 main_v906 (id : Vec F S262144 .i32 → Vec F S262144 .i32),
    StableHlo.unary main_v906 main_v907 (broadcastInDim S262144x1 ![0] bcast_S262144_S262144x1_0 : Vec F S262144 .i32 → Vec F S262144x1 .i32),
    StableHlo.unary main_v904 main_v908 (broadcastInDim S262144x1 ![0] bcast_S262144_S262144x1_0 : Vec F S262144 .i32 → Vec F S262144x1 .i32),
    StableHlo.binary main_v907 main_v908 main_v909 ((fun a b => concatenate S262144x2 1 [⟨S262144x1, a⟩, ⟨S262144x1, b⟩] concatenates_S262144x1_S262144x1_S262144x2_d1) : Vec F S262144x1 .i32 → Vec F S262144x1 .i32 → Vec F S262144x2 .i32) ]

abbrev piece18W : List (Ref sig .tc) :=
  [main_cst_214, main_v864, main_v865, main_cst_215, main_v866, main_v867, main_v868, main_v869, main_v870, main_v871, main_cst_216, main_v872, main_v873, main_cst_217, main_v874, main_v875, main_v876, main_cst_218, main_v877, main_v878, main_v879, main_cst_219, main_v880, main_v881, main_v882, main_v883, main_cst_220, main_v884, main_v885, main_v886, main_v887, main_c_221, main_v888, main_v889, main_v890, main_v891, main_c_222, main_v892, main_v893, main_c_223, main_v894, main_v895, main_v896, main_c_224, main_call24_v0, main_call24_c, main_call24_v1, main_call24_c_0, main_call24_v2, main_call24_v3, main_call24_v4, main_call24_c_1, main_call24_v5, main_call24_v6, main_call24_c_2, main_call24_v7, main_call24_v8, main_call24_c_3, main_call24_v9, main_call24_v10, main_call24_v11, main_call24_v12, main_call24_v13, main_call24_v14, main_v897, main_v898, main_v899, main_c_225, main_v900, main_v901, main_c_226, main_v902, main_v903, main_v904, main_c_227, main_v905, main_v906, main_v907, main_v908, main_v909]

theorem piece18_sub : (piece18 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece18_fresh : (piece18 : List (HloOp τ sig (Elt F))).Forall fun op => op.fresh = ∅ := by
  repeat' first | refine ⟨?_, ?_⟩ | exact rfl

theorem piece18_writes : WritesAt (piece18 : List (HloOp τ sig (Elt F))) piece18W := by
  repeat first | exact .nil | refine .cons rfl ?_

abbrev piece19 : List (HloOp τ sig (Elt F)) :=
  [ StableHlo.binary main_arg1 main_v909 main_v910 ((fun x i => Host.gather gather_S8x8192x8_S262144x2_S262144x8_1_01_n_n_01_1_118 x i) : Vec F S8x8192x8 .f32 → Vec F S262144x2 .i32 → Vec F S262144x8 .f32),
    StableHlo.unary main_v899 main_v911 (broadcastInDim S262144x8 ![0, 1] bcast_S262144x1_S262144x8_0_1 : Vec F S262144x1 .f32 → Vec F S262144x8 .f32),
    StableHlo.binary main_v911 main_v910 main_v912 (mulf : Vec F S262144x8 .f32 → Vec F S262144x8 .f32 → Vec F S262144x8 .f32),
    StableHlo.binary main_v877 main_v912 main_v913 (addf : Vec F S262144x8 .f32 → Vec F S262144x8 .f32 → Vec F S262144x8 .f32),
    StableHlo.unary main_v876 main_v914 ((extractStridedSlice S262144x1 ![0, 1] · slices_S262144x2_S262144x1_0_1) : Vec F S262144x2 .f32 → Vec F S262144x1 .f32),
    StableHlo.reshape main_v914 main_v915 rfl shapeCasts_S262144x1_S262144,
    StableHlo.unary main_v870 main_v916 ((extractStridedSlice S262144x1 ![0, 0] · slices_S262144x2_S262144x1_0_0) : Vec F S262144x2 .i32 → Vec F S262144x1 .i32),
    StableHlo.reshape main_v916 main_v917 rfl shapeCasts_S262144x1_S262144,
    StableHlo.nullary main_c_228 (constantI S_ 32 0#32),
    StableHlo.unary main_c_228 main_v918 (broadcastInDim S262144 ![] bcast_S_S262144 : Vec F S_ .i32 → Vec F S262144 .i32),
    StableHlo.binary main_v917 main_v918 main_v919 (addi : Vec F S262144 .i32 → Vec F S262144 .i32 → Vec F S262144 .i32),
    StableHlo.unary main_v870 main_v920 ((extractStridedSlice S262144x1 ![0, 1] · slices_S262144x2_S262144x1_0_1) : Vec F S262144x2 .i32 → Vec F S262144x1 .i32),
    StableHlo.reshape main_v920 main_v921 rfl shapeCasts_S262144x1_S262144,
    StableHlo.nullary main_c_229 (constantI S_ 32 1#32),
    StableHlo.unary main_c_229 main_v922 (broadcastInDim S262144 ![] bcast_S_S262144 : Vec F S_ .i32 → Vec F S262144 .i32),
    StableHlo.binary main_v921 main_v922 main_v923 (addi : Vec F S262144 .i32 → Vec F S262144 .i32 → Vec F S262144 .i32),
    StableHlo.nullary main_c_230 (constantI S_ 32 65#32),
    StableHlo.unary main_c_230 main_v924 (broadcastInDim S262144 ![] bcast_S_S262144 : Vec F S_ .i32 → Vec F S262144 .i32),
    StableHlo.binary main_v923 main_v924 main_v925 (muli : Vec F S262144 .i32 → Vec F S262144 .i32 → Vec F S262144 .i32),
    StableHlo.binary main_v919 main_v925 main_v926 (addi : Vec F S262144 .i32 → Vec F S262144 .i32 → Vec F S262144 .i32),
    StableHlo.nullary main_c_231 (constantI S_ 32 4232#32),
    StableHlo.TRef.unary (.of main_c_231 : StableHlo.TRef sig ⟨S_, .i32⟩) main_call25.v0 id,
    StableHlo.TRef.nullary main_call25.c (constantI S_ 32 0#32),
    StableHlo.TRef.binary main_call25.v0 main_call25.c main_call25.v1 (cmpi .eq),
    StableHlo.TRef.nullary main_call25.c_0 (constantI S_ 32 1#32),
    StableHlo.TRef.ternary main_call25.v1 main_call25.c_0 main_call25.v0 main_call25.call0.v0 select,
    StableHlo.TRef.unary main_call25.call0.v0 main_call25.v3 (broadcastInDim S262144 ![] bcast_S_S262144),
    StableHlo.TRef.binary (.of main_v926 : StableHlo.TRef sig ⟨S262144, .i32⟩) main_call25.v3 main_call25.v4 Host.remsi,
    StableHlo.TRef.nullary main_call25.c_1 (constantI S_ 32 0#32),
    StableHlo.TRef.unary main_call25.c_1 main_call25.v5 (broadcastInDim S262144 ![] bcast_S_S262144),
    StableHlo.TRef.binary main_call25.v4 main_call25.v5 main_call25.v6 (cmpi .ne),
    StableHlo.TRef.nullary main_call25.c_2 (constantI S_ 32 0#32),
    StableHlo.TRef.unary main_call25.c_2 main_call25.v7 (broadcastInDim S262144 ![] bcast_S_S262144),
    StableHlo.TRef.binary main_call25.v4 main_call25.v7 main_call25.v8 (cmpi .slt),
    StableHlo.TRef.nullary main_call25.c_3 (constantI S_ 32 0#32),
    StableHlo.TRef.binary main_call25.call0.v0 main_call25.c_3 main_call25.v9 (cmpi .slt),
    StableHlo.TRef.unary main_call25.v9 main_call25.v10 (broadcastInDim S262144 ![] bcast_S_S262144),
    StableHlo.TRef.binary main_call25.v8 main_call25.v10 main_call25.v11 (cmpi .ne),
    StableHlo.TRef.binary main_call25.v11 main_call25.v6 main_call25.v12 andi,
    StableHlo.TRef.unary main_call25.call0.v0 main_call25.v13 (broadcastInDim S262144 ![] bcast_S_S262144),
    StableHlo.TRef.binary main_call25.v4 main_call25.v13 main_call25.v14 addi,
    StableHlo.TRef.ternary main_call25.v12 main_call25.v14 main_call25.v4 main_call25.v15 select,
    StableHlo.binary main_v881 main_v915 main_v928 (mulf : Vec F S262144 .f32 → Vec F S262144 .f32 → Vec F S262144 .f32),
    StableHlo.unary main_v928 main_v929 (broadcastInDim S262144x1 ![0] bcast_S262144_S262144x1_0 : Vec F S262144 .f32 → Vec F S262144x1 .f32),
    StableHlo.nullary main_c_232 (constantI S_ 32 0#32),
    StableHlo.unary main_c_232 main_v930 (broadcastInDim S262144 ![] bcast_S_S262144 : Vec F S_ .i32 → Vec F S262144 .i32),
    StableHlo.binary main_v927 main_v930 main_v931 (cmpi .slt : Vec F S262144 .i32 → Vec F S262144 .i32 → Vec F S262144 .i1),
    StableHlo.nullary main_c_233 (constantI S_ 32 8192#32),
    StableHlo.unary main_c_233 main_v932 (broadcastInDim S262144 ![] bcast_S_S262144 : Vec F S_ .i32 → Vec F S262144 .i32),
    StableHlo.binary main_v927 main_v932 main_v933 (addi : Vec F S262144 .i32 → Vec F S262144 .i32 → Vec F S262144 .i32),
    StableHlo.ternary main_v931 main_v933 main_v927 main_v934 (select : Vec F S262144 .i1 → Vec F S262144 .i32 → Vec F S262144 .i32 → Vec F S262144 .i32),
    StableHlo.nullary main_c_234 (constantI S_ 32 6#32),
    StableHlo.unary main_c_234 main_v935 (broadcastInDim S262144 ![] bcast_S_S262144 : Vec F S_ .i32 → Vec F S262144 .i32),
    StableHlo.unary main_v935 main_v936 (id : Vec F S262144 .i32 → Vec F S262144 .i32),
    StableHlo.unary main_v936 main_v937 (broadcastInDim S262144x1 ![0] bcast_S262144_S262144x1_0 : Vec F S262144 .i32 → Vec F S262144x1 .i32),
    StableHlo.unary main_v934 main_v938 (broadcastInDim S262144x1 ![0] bcast_S262144_S262144x1_0 : Vec F S262144 .i32 → Vec F S262144x1 .i32),
    StableHlo.binary main_v937 main_v938 main_v939 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v939 main_v940 ((fun x i => Host.gather gather_S8x8192x8_S262144x2_S262144x8_1_01_n_n_01_1_118 x i) : Vec F S8x8192x8 .f32 → Vec F S262144x2 .i32 → Vec F S262144x8 .f32),
    StableHlo.unary main_v929 main_v941 (broadcastInDim S262144x8 ![0, 1] bcast_S262144x1_S262144x8_0_1 : Vec F S262144x1 .f32 → Vec F S262144x8 .f32),
    StableHlo.binary main_v941 main_v940 main_v942 (mulf : Vec F S262144x8 .f32 → Vec F S262144x8 .f32 → Vec F S262144x8 .f32),
    StableHlo.binary main_v913 main_v942 main_v943 (addf : Vec F S262144x8 .f32 → Vec F S262144x8 .f32 → Vec F S262144x8 .f32),
    StableHlo.unary main_v876 main_v944 ((extractStridedSlice S262144x1 ![0, 0] · slices_S262144x2_S262144x1_0_0) : Vec F S262144x2 .f32 → Vec F S262144x1 .f32),
    StableHlo.reshape main_v944 main_v945 rfl shapeCasts_S262144x1_S262144,
    StableHlo.unary main_v876 main_v946 ((extractStridedSlice S262144x1 ![0, 1] · slices_S262144x2_S262144x1_0_1) : Vec F S262144x2 .f32 → Vec F S262144x1 .f32),
    StableHlo.reshape main_v946 main_v947 rfl shapeCasts_S262144x1_S262144,
    StableHlo.nullary main_cst_235 (constant S_ .f32 0x3F800000#32),
    StableHlo.unary main_cst_235 main_v948 (broadcastInDim S262144 ![] bcast_S_S262144 : Vec F S_ .f32 → Vec F S262144 .f32),
    StableHlo.binary main_v948 main_v947 main_v949 (subf : Vec F S262144 .f32 → Vec F S262144 .f32 → Vec F S262144 .f32),
    StableHlo.unary main_v870 main_v950 ((extractStridedSlice S262144x1 ![0, 0] · slices_S262144x2_S262144x1_0_0) : Vec F S262144x2 .i32 → Vec F S262144x1 .i32),
    StableHlo.reshape main_v950 main_v951 rfl shapeCasts_S262144x1_S262144,
    StableHlo.nullary main_c_236 (constantI S_ 32 1#32),
    StableHlo.unary main_c_236 main_v952 (broadcastInDim S262144 ![] bcast_S_S262144 : Vec F S_ .i32 → Vec F S262144 .i32),
    StableHlo.binary main_v951 main_v952 main_v953 (addi : Vec F S262144 .i32 → Vec F S262144 .i32 → Vec F S262144 .i32),
    StableHlo.unary main_v870 main_v954 ((extractStridedSlice S262144x1 ![0, 1] · slices_S262144x2_S262144x1_0_1) : Vec F S262144x2 .i32 → Vec F S262144x1 .i32),
    StableHlo.reshape main_v954 main_v955 rfl shapeCasts_S262144x1_S262144,
    StableHlo.nullary main_c_237 (constantI S_ 32 0#32),
    StableHlo.unary main_c_237 main_v956 (broadcastInDim S262144 ![] bcast_S_S262144 : Vec F S_ .i32 → Vec F S262144 .i32),
    StableHlo.binary main_v955 main_v956 main_v957 (addi : Vec F S262144 .i32 → Vec F S262144 .i32 → Vec F S262144 .i32),
    StableHlo.nullary main_c_238 (constantI S_ 32 65#32),
    StableHlo.unary main_c_238 main_v958 (broadcastInDim S262144 ![] bcast_S_S262144 : Vec F S_ .i32 → Vec F S262144 .i32) ]

abbrev piece19W : List (Ref sig .tc) :=
  [main_v910, main_v911, main_v912, main_v913, main_v914, main_v915, main_v916, main_v917, main_c_228, main_v918, main_v919, main_v920, main_v921, main_c_229, main_v922, main_v923, main_c_230, main_v924, main_v925, main_v926, main_c_231, main_call25_v0, main_call25_c, main_call25_v1, main_call25_c_0, main_call25_v2, main_call25_v3, main_call25_v4, main_call25_c_1, main_call25_v5, main_call25_v6, main_call25_c_2, main_call25_v7, main_call25_v8, main_call25_c_3, main_call25_v9, main_call25_v10, main_call25_v11, main_call25_v12, main_call25_v13, main_call25_v14, main_v927, main_v928, main_v929, main_c_232, main_v930, main_v931, main_c_233, main_v932, main_v933, main_v934, main_c_234, main_v935, main_v936, main_v937, main_v938, main_v939, main_v940, main_v941, main_v942, main_v943, main_v944, main_v945, main_v946, main_v947, main_cst_235, main_v948, main_v949, main_v950, main_v951, main_c_236, main_v952, main_v953, main_v954, main_v955, main_c_237, main_v956, main_v957, main_c_238, main_v958]

theorem piece19_sub : (piece19 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece19_fresh : (piece19 : List (HloOp τ sig (Elt F))).Forall fun op => op.fresh = ∅ := by
  repeat' first | refine ⟨?_, ?_⟩ | exact rfl

theorem piece19_writes : WritesAt (piece19 : List (HloOp τ sig (Elt F))) piece19W := by
  repeat first | exact .nil | refine .cons rfl ?_

abbrev piece20 : List (HloOp τ sig (Elt F)) :=
  [ StableHlo.binary main_v957 main_v958 main_v959 (muli : Vec F S262144 .i32 → Vec F S262144 .i32 → Vec F S262144 .i32),
    StableHlo.binary main_v953 main_v959 main_v960 (addi : Vec F S262144 .i32 → Vec F S262144 .i32 → Vec F S262144 .i32),
    StableHlo.nullary main_c_239 (constantI S_ 32 4232#32),
    StableHlo.TRef.unary (.of main_c_239 : StableHlo.TRef sig ⟨S_, .i32⟩) main_call26.v0 id,
    StableHlo.TRef.nullary main_call26.c (constantI S_ 32 0#32),
    StableHlo.TRef.binary main_call26.v0 main_call26.c main_call26.v1 (cmpi .eq),
    StableHlo.TRef.nullary main_call26.c_0 (constantI S_ 32 1#32),
    StableHlo.TRef.ternary main_call26.v1 main_call26.c_0 main_call26.v0 main_call26.call0.v0 select,
    StableHlo.TRef.unary main_call26.call0.v0 main_call26.v3 (broadcastInDim S262144 ![] bcast_S_S262144),
    StableHlo.TRef.binary (.of main_v960 : StableHlo.TRef sig ⟨S262144, .i32⟩) main_call26.v3 main_call26.v4 Host.remsi,
    StableHlo.TRef.nullary main_call26.c_1 (constantI S_ 32 0#32),
    StableHlo.TRef.unary main_call26.c_1 main_call26.v5 (broadcastInDim S262144 ![] bcast_S_S262144),
    StableHlo.TRef.binary main_call26.v4 main_call26.v5 main_call26.v6 (cmpi .ne),
    StableHlo.TRef.nullary main_call26.c_2 (constantI S_ 32 0#32),
    StableHlo.TRef.unary main_call26.c_2 main_call26.v7 (broadcastInDim S262144 ![] bcast_S_S262144),
    StableHlo.TRef.binary main_call26.v4 main_call26.v7 main_call26.v8 (cmpi .slt),
    StableHlo.TRef.nullary main_call26.c_3 (constantI S_ 32 0#32),
    StableHlo.TRef.binary main_call26.call0.v0 main_call26.c_3 main_call26.v9 (cmpi .slt),
    StableHlo.TRef.unary main_call26.v9 main_call26.v10 (broadcastInDim S262144 ![] bcast_S_S262144),
    StableHlo.TRef.binary main_call26.v8 main_call26.v10 main_call26.v11 (cmpi .ne),
    StableHlo.TRef.binary main_call26.v11 main_call26.v6 main_call26.v12 andi,
    StableHlo.TRef.unary main_call26.call0.v0 main_call26.v13 (broadcastInDim S262144 ![] bcast_S_S262144),
    StableHlo.TRef.binary main_call26.v4 main_call26.v13 main_call26.v14 addi,
    StableHlo.TRef.ternary main_call26.v12 main_call26.v14 main_call26.v4 main_call26.v15 select,
    StableHlo.binary main_v945 main_v949 main_v962 (mulf : Vec F S262144 .f32 → Vec F S262144 .f32 → Vec F S262144 .f32),
    StableHlo.unary main_v962 main_v963 (broadcastInDim S262144x1 ![0] bcast_S262144_S262144x1_0 : Vec F S262144 .f32 → Vec F S262144x1 .f32),
    StableHlo.nullary main_c_240 (constantI S_ 32 0#32),
    StableHlo.unary main_c_240 main_v964 (broadcastInDim S262144 ![] bcast_S_S262144 : Vec F S_ .i32 → Vec F S262144 .i32),
    StableHlo.binary main_v961 main_v964 main_v965 (cmpi .slt : Vec F S262144 .i32 → Vec F S262144 .i32 → Vec F S262144 .i1),
    StableHlo.nullary main_c_241 (constantI S_ 32 8192#32),
    StableHlo.unary main_c_241 main_v966 (broadcastInDim S262144 ![] bcast_S_S262144 : Vec F S_ .i32 → Vec F S262144 .i32),
    StableHlo.binary main_v961 main_v966 main_v967 (addi : Vec F S262144 .i32 → Vec F S262144 .i32 → Vec F S262144 .i32),
    StableHlo.ternary main_v965 main_v967 main_v961 main_v968 (select : Vec F S262144 .i1 → Vec F S262144 .i32 → Vec F S262144 .i32 → Vec F S262144 .i32),
    StableHlo.nullary main_c_242 (constantI S_ 32 6#32),
    StableHlo.unary main_c_242 main_v969 (broadcastInDim S262144 ![] bcast_S_S262144 : Vec F S_ .i32 → Vec F S262144 .i32),
    StableHlo.unary main_v969 main_v970 (id : Vec F S262144 .i32 → Vec F S262144 .i32),
    StableHlo.unary main_v970 main_v971 (broadcastInDim S262144x1 ![0] bcast_S262144_S262144x1_0 : Vec F S262144 .i32 → Vec F S262144x1 .i32),
    StableHlo.unary main_v968 main_v972 (broadcastInDim S262144x1 ![0] bcast_S262144_S262144x1_0 : Vec F S262144 .i32 → Vec F S262144x1 .i32),
    StableHlo.binary main_v971 main_v972 main_v973 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v973 main_v974 ((fun x i => Host.gather gather_S8x8192x8_S262144x2_S262144x8_1_01_n_n_01_1_118 x i) : Vec F S8x8192x8 .f32 → Vec F S262144x2 .i32 → Vec F S262144x8 .f32),
    StableHlo.unary main_v963 main_v975 (broadcastInDim S262144x8 ![0, 1] bcast_S262144x1_S262144x8_0_1 : Vec F S262144x1 .f32 → Vec F S262144x8 .f32),
    StableHlo.binary main_v975 main_v974 main_v976 (mulf : Vec F S262144x8 .f32 → Vec F S262144x8 .f32 → Vec F S262144x8 .f32),
    StableHlo.binary main_v943 main_v976 main_v977 (addf : Vec F S262144x8 .f32 → Vec F S262144x8 .f32 → Vec F S262144x8 .f32),
    StableHlo.unary main_v876 main_v978 ((extractStridedSlice S262144x1 ![0, 1] · slices_S262144x2_S262144x1_0_1) : Vec F S262144x2 .f32 → Vec F S262144x1 .f32),
    StableHlo.reshape main_v978 main_v979 rfl shapeCasts_S262144x1_S262144,
    StableHlo.unary main_v870 main_v980 ((extractStridedSlice S262144x1 ![0, 0] · slices_S262144x2_S262144x1_0_0) : Vec F S262144x2 .i32 → Vec F S262144x1 .i32),
    StableHlo.reshape main_v980 main_v981 rfl shapeCasts_S262144x1_S262144,
    StableHlo.nullary main_c_243 (constantI S_ 32 1#32),
    StableHlo.unary main_c_243 main_v982 (broadcastInDim S262144 ![] bcast_S_S262144 : Vec F S_ .i32 → Vec F S262144 .i32),
    StableHlo.binary main_v981 main_v982 main_v983 (addi : Vec F S262144 .i32 → Vec F S262144 .i32 → Vec F S262144 .i32),
    StableHlo.unary main_v870 main_v984 ((extractStridedSlice S262144x1 ![0, 1] · slices_S262144x2_S262144x1_0_1) : Vec F S262144x2 .i32 → Vec F S262144x1 .i32),
    StableHlo.reshape main_v984 main_v985 rfl shapeCasts_S262144x1_S262144,
    StableHlo.nullary main_c_244 (constantI S_ 32 1#32),
    StableHlo.unary main_c_244 main_v986 (broadcastInDim S262144 ![] bcast_S_S262144 : Vec F S_ .i32 → Vec F S262144 .i32),
    StableHlo.binary main_v985 main_v986 main_v987 (addi : Vec F S262144 .i32 → Vec F S262144 .i32 → Vec F S262144 .i32),
    StableHlo.nullary main_c_245 (constantI S_ 32 65#32),
    StableHlo.unary main_c_245 main_v988 (broadcastInDim S262144 ![] bcast_S_S262144 : Vec F S_ .i32 → Vec F S262144 .i32),
    StableHlo.binary main_v987 main_v988 main_v989 (muli : Vec F S262144 .i32 → Vec F S262144 .i32 → Vec F S262144 .i32),
    StableHlo.binary main_v983 main_v989 main_v990 (addi : Vec F S262144 .i32 → Vec F S262144 .i32 → Vec F S262144 .i32),
    StableHlo.nullary main_c_246 (constantI S_ 32 4232#32),
    StableHlo.TRef.unary (.of main_c_246 : StableHlo.TRef sig ⟨S_, .i32⟩) main_call27.v0 id,
    StableHlo.TRef.nullary main_call27.c (constantI S_ 32 0#32),
    StableHlo.TRef.binary main_call27.v0 main_call27.c main_call27.v1 (cmpi .eq),
    StableHlo.TRef.nullary main_call27.c_0 (constantI S_ 32 1#32),
    StableHlo.TRef.ternary main_call27.v1 main_call27.c_0 main_call27.v0 main_call27.call0.v0 select,
    StableHlo.TRef.unary main_call27.call0.v0 main_call27.v3 (broadcastInDim S262144 ![] bcast_S_S262144),
    StableHlo.TRef.binary (.of main_v990 : StableHlo.TRef sig ⟨S262144, .i32⟩) main_call27.v3 main_call27.v4 Host.remsi,
    StableHlo.TRef.nullary main_call27.c_1 (constantI S_ 32 0#32),
    StableHlo.TRef.unary main_call27.c_1 main_call27.v5 (broadcastInDim S262144 ![] bcast_S_S262144),
    StableHlo.TRef.binary main_call27.v4 main_call27.v5 main_call27.v6 (cmpi .ne),
    StableHlo.TRef.nullary main_call27.c_2 (constantI S_ 32 0#32),
    StableHlo.TRef.unary main_call27.c_2 main_call27.v7 (broadcastInDim S262144 ![] bcast_S_S262144),
    StableHlo.TRef.binary main_call27.v4 main_call27.v7 main_call27.v8 (cmpi .slt),
    StableHlo.TRef.nullary main_call27.c_3 (constantI S_ 32 0#32),
    StableHlo.TRef.binary main_call27.call0.v0 main_call27.c_3 main_call27.v9 (cmpi .slt),
    StableHlo.TRef.unary main_call27.v9 main_call27.v10 (broadcastInDim S262144 ![] bcast_S_S262144),
    StableHlo.TRef.binary main_call27.v8 main_call27.v10 main_call27.v11 (cmpi .ne),
    StableHlo.TRef.binary main_call27.v11 main_call27.v6 main_call27.v12 andi,
    StableHlo.TRef.unary main_call27.call0.v0 main_call27.v13 (broadcastInDim S262144 ![] bcast_S_S262144),
    StableHlo.TRef.binary main_call27.v4 main_call27.v13 main_call27.v14 addi,
    StableHlo.TRef.ternary main_call27.v12 main_call27.v14 main_call27.v4 main_call27.v15 select,
    StableHlo.binary main_v945 main_v979 main_v992 (mulf : Vec F S262144 .f32 → Vec F S262144 .f32 → Vec F S262144 .f32),
    StableHlo.unary main_v992 main_v993 (broadcastInDim S262144x1 ![0] bcast_S262144_S262144x1_0 : Vec F S262144 .f32 → Vec F S262144x1 .f32),
    StableHlo.nullary main_c_247 (constantI S_ 32 0#32),
    StableHlo.unary main_c_247 main_v994 (broadcastInDim S262144 ![] bcast_S_S262144 : Vec F S_ .i32 → Vec F S262144 .i32),
    StableHlo.binary main_v991 main_v994 main_v995 (cmpi .slt : Vec F S262144 .i32 → Vec F S262144 .i32 → Vec F S262144 .i1),
    StableHlo.nullary main_c_248 (constantI S_ 32 8192#32),
    StableHlo.unary main_c_248 main_v996 (broadcastInDim S262144 ![] bcast_S_S262144 : Vec F S_ .i32 → Vec F S262144 .i32),
    StableHlo.binary main_v991 main_v996 main_v997 (addi : Vec F S262144 .i32 → Vec F S262144 .i32 → Vec F S262144 .i32),
    StableHlo.ternary main_v995 main_v997 main_v991 main_v998 (select : Vec F S262144 .i1 → Vec F S262144 .i32 → Vec F S262144 .i32 → Vec F S262144 .i32),
    StableHlo.nullary main_c_249 (constantI S_ 32 6#32),
    StableHlo.unary main_c_249 main_v999 (broadcastInDim S262144 ![] bcast_S_S262144 : Vec F S_ .i32 → Vec F S262144 .i32),
    StableHlo.unary main_v999 main_v1000 (id : Vec F S262144 .i32 → Vec F S262144 .i32),
    StableHlo.unary main_v1000 main_v1001 (broadcastInDim S262144x1 ![0] bcast_S262144_S262144x1_0 : Vec F S262144 .i32 → Vec F S262144x1 .i32),
    StableHlo.unary main_v998 main_v1002 (broadcastInDim S262144x1 ![0] bcast_S262144_S262144x1_0 : Vec F S262144 .i32 → Vec F S262144x1 .i32),
    StableHlo.binary main_v1001 main_v1002 main_v1003 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v1003 main_v1004 ((fun x i => Host.gather gather_S8x8192x8_S262144x2_S262144x8_1_01_n_n_01_1_118 x i) : Vec F S8x8192x8 .f32 → Vec F S262144x2 .i32 → Vec F S262144x8 .f32),
    StableHlo.unary main_v993 main_v1005 (broadcastInDim S262144x8 ![0, 1] bcast_S262144x1_S262144x8_0_1 : Vec F S262144x1 .f32 → Vec F S262144x8 .f32),
    StableHlo.binary main_v1005 main_v1004 main_v1006 (mulf : Vec F S262144x8 .f32 → Vec F S262144x8 .f32 → Vec F S262144x8 .f32),
    StableHlo.binary main_v977 main_v1006 main_v1007 (addf : Vec F S262144x8 .f32 → Vec F S262144x8 .f32 → Vec F S262144x8 .f32) ]

abbrev piece20W : List (Ref sig .tc) :=
  [main_v959, main_v960, main_c_239, main_call26_v0, main_call26_c, main_call26_v1, main_call26_c_0, main_call26_v2, main_call26_v3, main_call26_v4, main_call26_c_1, main_call26_v5, main_call26_v6, main_call26_c_2, main_call26_v7, main_call26_v8, main_call26_c_3, main_call26_v9, main_call26_v10, main_call26_v11, main_call26_v12, main_call26_v13, main_call26_v14, main_v961, main_v962, main_v963, main_c_240, main_v964, main_v965, main_c_241, main_v966, main_v967, main_v968, main_c_242, main_v969, main_v970, main_v971, main_v972, main_v973, main_v974, main_v975, main_v976, main_v977, main_v978, main_v979, main_v980, main_v981, main_c_243, main_v982, main_v983, main_v984, main_v985, main_c_244, main_v986, main_v987, main_c_245, main_v988, main_v989, main_v990, main_c_246, main_call27_v0, main_call27_c, main_call27_v1, main_call27_c_0, main_call27_v2, main_call27_v3, main_call27_v4, main_call27_c_1, main_call27_v5, main_call27_v6, main_call27_c_2, main_call27_v7, main_call27_v8, main_call27_c_3, main_call27_v9, main_call27_v10, main_call27_v11, main_call27_v12, main_call27_v13, main_call27_v14, main_v991, main_v992, main_v993, main_c_247, main_v994, main_v995, main_c_248, main_v996, main_v997, main_v998, main_c_249, main_v999, main_v1000, main_v1001, main_v1002, main_v1003, main_v1004, main_v1005, main_v1006, main_v1007]

theorem piece20_sub : (piece20 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece20_fresh : (piece20 : List (HloOp τ sig (Elt F))).Forall fun op => op.fresh = ∅ := by
  repeat' first | refine ⟨?_, ?_⟩ | exact rfl

theorem piece20_writes : WritesAt (piece20 : List (HloOp τ sig (Elt F))) piece20W := by
  repeat first | exact .nil | refine .cons rfl ?_

abbrev lvlOps6 : List (HloOp τ sig (Elt F)) := piece18 ++ piece19 ++ piece20

abbrev lvlWrites6 : List (Ref sig .tc) := piece18W ++ piece19W ++ piece20W

theorem lvlOps6_sub : (lvlOps6 : List (HloOp τ sig (Elt F))).Forall fun op => op.bufs ⊆ tcRefs τ sig :=
  forall_append' (forall_append' (piece18_sub) piece19_sub) piece20_sub

theorem lvlOps6_fresh : (lvlOps6 : List (HloOp τ sig (Elt F))).Forall fun op => op.fresh = ∅ :=
  forall_append' (forall_append' (piece18_fresh) piece19_fresh) piece20_fresh

theorem lvlOps6_writesAt : WritesAt (lvlOps6 : List (HloOp τ sig (Elt F))) lvlWrites6 :=
  ((piece18_writes).append piece19_writes).append piece20_writes

theorem lvlOps6_writes : (lvlOps6 : List (HloOp τ sig (Elt F))).Forall fun op => op.writes ⊆ (lvlWrites6.map (Proc.devRef (τ := τ) .tc)).toFinset :=
  lvlOps6_writesAt.forall_sub

end Cert.ReferenceIdeal.RefVal

end
-- ==== Proof.RefOps7.lean ====
-- The reference's operations in the printed order, a call's operations written at the call; beside each piece, the reference every operation writes.
import proofs.«132274_j36180804501977_1_alg».proof.ReferenceIdeal
import proofs.«132274_j36180804501977_1_alg».proof.Proof.RefOpsLib
import Idealize.ShloMosaic.Lib.StableHlo.Run

set_option maxRecDepth 8192

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

abbrev piece21 : List (HloOp τ sig (Elt F)) :=
  [ StableHlo.nullary main_cst_250 (constant S_ .f32 0x429F4519#32),
    StableHlo.unary main_cst_250 main_v1008 (broadcastInDim S262144x2 ![] bcast_S_S262144x2 : Vec F S_ .f32 → Vec F S262144x2 .f32),
    StableHlo.binary main_arg0 main_v1008 main_v1009 (mulf : Vec F S262144x2 .f32 → Vec F S262144x2 .f32 → Vec F S262144x2 .f32),
    StableHlo.nullary main_cst_251 (constant S_ .f32 0x3F000000#32),
    StableHlo.unary main_cst_251 main_v1010 (broadcastInDim S262144x2 ![] bcast_S_S262144x2 : Vec F S_ .f32 → Vec F S262144x2 .f32),
    StableHlo.binary main_v1009 main_v1010 main_v1011 (addf : Vec F S262144x2 .f32 → Vec F S262144x2 .f32 → Vec F S262144x2 .f32),
    StableHlo.unary main_v1011 main_v1012 (Host.floor : Vec F S262144x2 .f32 → Vec F S262144x2 .f32),
    StableHlo.binary main_v1011 main_v1012 main_v1013 (subf : Vec F S262144x2 .f32 → Vec F S262144x2 .f32 → Vec F S262144x2 .f32),
    StableHlo.unary main_v1012 main_v1014 (fptosi 32 : Vec F S262144x2 .f32 → Vec F S262144x2 .i32),
    StableHlo.binary main_v1013 main_v1013 main_v1015 (mulf : Vec F S262144x2 .f32 → Vec F S262144x2 .f32 → Vec F S262144x2 .f32),
    StableHlo.nullary main_cst_252 (constant S_ .f32 0x40000000#32),
    StableHlo.unary main_cst_252 main_v1016 (broadcastInDim S262144x2 ![] bcast_S_S262144x2 : Vec F S_ .f32 → Vec F S262144x2 .f32),
    StableHlo.binary main_v1016 main_v1013 main_v1017 (mulf : Vec F S262144x2 .f32 → Vec F S262144x2 .f32 → Vec F S262144x2 .f32),
    StableHlo.nullary main_cst_253 (constant S_ .f32 0x40400000#32),
    StableHlo.unary main_cst_253 main_v1018 (broadcastInDim S262144x2 ![] bcast_S_S262144x2 : Vec F S_ .f32 → Vec F S262144x2 .f32),
    StableHlo.binary main_v1018 main_v1017 main_v1019 (subf : Vec F S262144x2 .f32 → Vec F S262144x2 .f32 → Vec F S262144x2 .f32),
    StableHlo.binary main_v1015 main_v1019 main_v1020 (mulf : Vec F S262144x2 .f32 → Vec F S262144x2 .f32 → Vec F S262144x2 .f32),
    StableHlo.nullary main_cst_254 (constant S_ .f32 0x00000000#32),
    StableHlo.unary main_cst_254 main_v1021 (broadcastInDim S262144x8 ![] bcast_S_S262144x8 : Vec F S_ .f32 → Vec F S262144x8 .f32),
    StableHlo.unary main_v1020 main_v1022 ((extractStridedSlice S262144x1 ![0, 0] · slices_S262144x2_S262144x1_0_0) : Vec F S262144x2 .f32 → Vec F S262144x1 .f32),
    StableHlo.reshape main_v1022 main_v1023 rfl shapeCasts_S262144x1_S262144,
    StableHlo.nullary main_cst_255 (constant S_ .f32 0x3F800000#32),
    StableHlo.unary main_cst_255 main_v1024 (broadcastInDim S262144 ![] bcast_S_S262144 : Vec F S_ .f32 → Vec F S262144 .f32),
    StableHlo.binary main_v1024 main_v1023 main_v1025 (subf : Vec F S262144 .f32 → Vec F S262144 .f32 → Vec F S262144 .f32),
    StableHlo.unary main_v1020 main_v1026 ((extractStridedSlice S262144x1 ![0, 1] · slices_S262144x2_S262144x1_0_1) : Vec F S262144x2 .f32 → Vec F S262144x1 .f32),
    StableHlo.reshape main_v1026 main_v1027 rfl shapeCasts_S262144x1_S262144,
    StableHlo.nullary main_cst_256 (constant S_ .f32 0x3F800000#32),
    StableHlo.unary main_cst_256 main_v1028 (broadcastInDim S262144 ![] bcast_S_S262144 : Vec F S_ .f32 → Vec F S262144 .f32),
    StableHlo.binary main_v1028 main_v1027 main_v1029 (subf : Vec F S262144 .f32 → Vec F S262144 .f32 → Vec F S262144 .f32),
    StableHlo.unary main_v1014 main_v1030 ((extractStridedSlice S262144x1 ![0, 0] · slices_S262144x2_S262144x1_0_0) : Vec F S262144x2 .i32 → Vec F S262144x1 .i32),
    StableHlo.reshape main_v1030 main_v1031 rfl shapeCasts_S262144x1_S262144,
    StableHlo.nullary main_c_257 (constantI S_ 32 0#32),
    StableHlo.unary main_c_257 main_v1032 (broadcastInDim S262144 ![] bcast_S_S262144 : Vec F S_ .i32 → Vec F S262144 .i32),
    StableHlo.binary main_v1031 main_v1032 main_v1033 (addi : Vec F S262144 .i32 → Vec F S262144 .i32 → Vec F S262144 .i32),
    StableHlo.unary main_v1014 main_v1034 ((extractStridedSlice S262144x1 ![0, 1] · slices_S262144x2_S262144x1_0_1) : Vec F S262144x2 .i32 → Vec F S262144x1 .i32),
    StableHlo.reshape main_v1034 main_v1035 rfl shapeCasts_S262144x1_S262144,
    StableHlo.nullary main_c_258 (constantI S_ 32 0#32),
    StableHlo.unary main_c_258 main_v1036 (broadcastInDim S262144 ![] bcast_S_S262144 : Vec F S_ .i32 → Vec F S262144 .i32),
    StableHlo.binary main_v1035 main_v1036 main_v1037 (addi : Vec F S262144 .i32 → Vec F S262144 .i32 → Vec F S262144 .i32),
    StableHlo.nullary main_c_259 (constantI S_ 32 81#32),
    StableHlo.unary main_c_259 main_v1038 (broadcastInDim S262144 ![] bcast_S_S262144 : Vec F S_ .i32 → Vec F S262144 .i32),
    StableHlo.binary main_v1037 main_v1038 main_v1039 (muli : Vec F S262144 .i32 → Vec F S262144 .i32 → Vec F S262144 .i32),
    StableHlo.binary main_v1033 main_v1039 main_v1040 (addi : Vec F S262144 .i32 → Vec F S262144 .i32 → Vec F S262144 .i32),
    StableHlo.nullary main_c_260 (constantI S_ 32 6568#32),
    StableHlo.TRef.unary (.of main_c_260 : StableHlo.TRef sig ⟨S_, .i32⟩) main_call28.v0 id,
    StableHlo.TRef.nullary main_call28.c (constantI S_ 32 0#32),
    StableHlo.TRef.binary main_call28.v0 main_call28.c main_call28.v1 (cmpi .eq),
    StableHlo.TRef.nullary main_call28.c_0 (constantI S_ 32 1#32),
    StableHlo.TRef.ternary main_call28.v1 main_call28.c_0 main_call28.v0 main_call28.call0.v0 select,
    StableHlo.TRef.unary main_call28.call0.v0 main_call28.v3 (broadcastInDim S262144 ![] bcast_S_S262144),
    StableHlo.TRef.binary (.of main_v1040 : StableHlo.TRef sig ⟨S262144, .i32⟩) main_call28.v3 main_call28.v4 Host.remsi,
    StableHlo.TRef.nullary main_call28.c_1 (constantI S_ 32 0#32),
    StableHlo.TRef.unary main_call28.c_1 main_call28.v5 (broadcastInDim S262144 ![] bcast_S_S262144),
    StableHlo.TRef.binary main_call28.v4 main_call28.v5 main_call28.v6 (cmpi .ne),
    StableHlo.TRef.nullary main_call28.c_2 (constantI S_ 32 0#32),
    StableHlo.TRef.unary main_call28.c_2 main_call28.v7 (broadcastInDim S262144 ![] bcast_S_S262144),
    StableHlo.TRef.binary main_call28.v4 main_call28.v7 main_call28.v8 (cmpi .slt),
    StableHlo.TRef.nullary main_call28.c_3 (constantI S_ 32 0#32),
    StableHlo.TRef.binary main_call28.call0.v0 main_call28.c_3 main_call28.v9 (cmpi .slt),
    StableHlo.TRef.unary main_call28.v9 main_call28.v10 (broadcastInDim S262144 ![] bcast_S_S262144),
    StableHlo.TRef.binary main_call28.v8 main_call28.v10 main_call28.v11 (cmpi .ne),
    StableHlo.TRef.binary main_call28.v11 main_call28.v6 main_call28.v12 andi,
    StableHlo.TRef.unary main_call28.call0.v0 main_call28.v13 (broadcastInDim S262144 ![] bcast_S_S262144),
    StableHlo.TRef.binary main_call28.v4 main_call28.v13 main_call28.v14 addi,
    StableHlo.TRef.ternary main_call28.v12 main_call28.v14 main_call28.v4 main_call28.v15 select,
    StableHlo.binary main_v1025 main_v1029 main_v1042 (mulf : Vec F S262144 .f32 → Vec F S262144 .f32 → Vec F S262144 .f32),
    StableHlo.unary main_v1042 main_v1043 (broadcastInDim S262144x1 ![0] bcast_S262144_S262144x1_0 : Vec F S262144 .f32 → Vec F S262144x1 .f32),
    StableHlo.nullary main_c_261 (constantI S_ 32 0#32),
    StableHlo.unary main_c_261 main_v1044 (broadcastInDim S262144 ![] bcast_S_S262144 : Vec F S_ .i32 → Vec F S262144 .i32),
    StableHlo.binary main_v1041 main_v1044 main_v1045 (cmpi .slt : Vec F S262144 .i32 → Vec F S262144 .i32 → Vec F S262144 .i1),
    StableHlo.nullary main_c_262 (constantI S_ 32 8192#32),
    StableHlo.unary main_c_262 main_v1046 (broadcastInDim S262144 ![] bcast_S_S262144 : Vec F S_ .i32 → Vec F S262144 .i32),
    StableHlo.binary main_v1041 main_v1046 main_v1047 (addi : Vec F S262144 .i32 → Vec F S262144 .i32 → Vec F S262144 .i32),
    StableHlo.ternary main_v1045 main_v1047 main_v1041 main_v1048 (select : Vec F S262144 .i1 → Vec F S262144 .i32 → Vec F S262144 .i32 → Vec F S262144 .i32),
    StableHlo.nullary main_c_263 (constantI S_ 32 7#32),
    StableHlo.unary main_c_263 main_v1049 (broadcastInDim S262144 ![] bcast_S_S262144 : Vec F S_ .i32 → Vec F S262144 .i32),
    StableHlo.unary main_v1049 main_v1050 (id : Vec F S262144 .i32 → Vec F S262144 .i32),
    StableHlo.unary main_v1050 main_v1051 (broadcastInDim S262144x1 ![0] bcast_S262144_S262144x1_0 : Vec F S262144 .i32 → Vec F S262144x1 .i32),
    StableHlo.unary main_v1048 main_v1052 (broadcastInDim S262144x1 ![0] bcast_S262144_S262144x1_0 : Vec F S262144 .i32 → Vec F S262144x1 .i32),
    StableHlo.binary main_v1051 main_v1052 main_v1053 ((fun a b => concatenate S262144x2 1 [⟨S262144x1, a⟩, ⟨S262144x1, b⟩] concatenates_S262144x1_S262144x1_S262144x2_d1) : Vec F S262144x1 .i32 → Vec F S262144x1 .i32 → Vec F S262144x2 .i32) ]

abbrev piece21W : List (Ref sig .tc) :=
  [main_cst_250, main_v1008, main_v1009, main_cst_251, main_v1010, main_v1011, main_v1012, main_v1013, main_v1014, main_v1015, main_cst_252, main_v1016, main_v1017, main_cst_253, main_v1018, main_v1019, main_v1020, main_cst_254, main_v1021, main_v1022, main_v1023, main_cst_255, main_v1024, main_v1025, main_v1026, main_v1027, main_cst_256, main_v1028, main_v1029, main_v1030, main_v1031, main_c_257, main_v1032, main_v1033, main_v1034, main_v1035, main_c_258, main_v1036, main_v1037, main_c_259, main_v1038, main_v1039, main_v1040, main_c_260, main_call28_v0, main_call28_c, main_call28_v1, main_call28_c_0, main_call28_v2, main_call28_v3, main_call28_v4, main_call28_c_1, main_call28_v5, main_call28_v6, main_call28_c_2, main_call28_v7, main_call28_v8, main_call28_c_3, main_call28_v9, main_call28_v10, main_call28_v11, main_call28_v12, main_call28_v13, main_call28_v14, main_v1041, main_v1042, main_v1043, main_c_261, main_v1044, main_v1045, main_c_262, main_v1046, main_v1047, main_v1048, main_c_263, main_v1049, main_v1050, main_v1051, main_v1052, main_v1053]

theorem piece21_sub : (piece21 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece21_fresh : (piece21 : List (HloOp τ sig (Elt F))).Forall fun op => op.fresh = ∅ := by
  repeat' first | refine ⟨?_, ?_⟩ | exact rfl

theorem piece21_writes : WritesAt (piece21 : List (HloOp τ sig (Elt F))) piece21W := by
  repeat first | exact .nil | refine .cons rfl ?_

abbrev piece22 : List (HloOp τ sig (Elt F)) :=
  [ StableHlo.binary main_arg1 main_v1053 main_v1054 ((fun x i => Host.gather gather_S8x8192x8_S262144x2_S262144x8_1_01_n_n_01_1_118 x i) : Vec F S8x8192x8 .f32 → Vec F S262144x2 .i32 → Vec F S262144x8 .f32),
    StableHlo.unary main_v1043 main_v1055 (broadcastInDim S262144x8 ![0, 1] bcast_S262144x1_S262144x8_0_1 : Vec F S262144x1 .f32 → Vec F S262144x8 .f32),
    StableHlo.binary main_v1055 main_v1054 main_v1056 (mulf : Vec F S262144x8 .f32 → Vec F S262144x8 .f32 → Vec F S262144x8 .f32),
    StableHlo.binary main_v1021 main_v1056 main_v1057 (addf : Vec F S262144x8 .f32 → Vec F S262144x8 .f32 → Vec F S262144x8 .f32),
    StableHlo.unary main_v1020 main_v1058 ((extractStridedSlice S262144x1 ![0, 1] · slices_S262144x2_S262144x1_0_1) : Vec F S262144x2 .f32 → Vec F S262144x1 .f32),
    StableHlo.reshape main_v1058 main_v1059 rfl shapeCasts_S262144x1_S262144,
    StableHlo.unary main_v1014 main_v1060 ((extractStridedSlice S262144x1 ![0, 0] · slices_S262144x2_S262144x1_0_0) : Vec F S262144x2 .i32 → Vec F S262144x1 .i32),
    StableHlo.reshape main_v1060 main_v1061 rfl shapeCasts_S262144x1_S262144,
    StableHlo.nullary main_c_264 (constantI S_ 32 0#32),
    StableHlo.unary main_c_264 main_v1062 (broadcastInDim S262144 ![] bcast_S_S262144 : Vec F S_ .i32 → Vec F S262144 .i32),
    StableHlo.binary main_v1061 main_v1062 main_v1063 (addi : Vec F S262144 .i32 → Vec F S262144 .i32 → Vec F S262144 .i32),
    StableHlo.unary main_v1014 main_v1064 ((extractStridedSlice S262144x1 ![0, 1] · slices_S262144x2_S262144x1_0_1) : Vec F S262144x2 .i32 → Vec F S262144x1 .i32),
    StableHlo.reshape main_v1064 main_v1065 rfl shapeCasts_S262144x1_S262144,
    StableHlo.nullary main_c_265 (constantI S_ 32 1#32),
    StableHlo.unary main_c_265 main_v1066 (broadcastInDim S262144 ![] bcast_S_S262144 : Vec F S_ .i32 → Vec F S262144 .i32),
    StableHlo.binary main_v1065 main_v1066 main_v1067 (addi : Vec F S262144 .i32 → Vec F S262144 .i32 → Vec F S262144 .i32),
    StableHlo.nullary main_c_266 (constantI S_ 32 81#32),
    StableHlo.unary main_c_266 main_v1068 (broadcastInDim S262144 ![] bcast_S_S262144 : Vec F S_ .i32 → Vec F S262144 .i32),
    StableHlo.binary main_v1067 main_v1068 main_v1069 (muli : Vec F S262144 .i32 → Vec F S262144 .i32 → Vec F S262144 .i32),
    StableHlo.binary main_v1063 main_v1069 main_v1070 (addi : Vec F S262144 .i32 → Vec F S262144 .i32 → Vec F S262144 .i32),
    StableHlo.nullary main_c_267 (constantI S_ 32 6568#32),
    StableHlo.TRef.unary (.of main_c_267 : StableHlo.TRef sig ⟨S_, .i32⟩) main_call29.v0 id,
    StableHlo.TRef.nullary main_call29.c (constantI S_ 32 0#32),
    StableHlo.TRef.binary main_call29.v0 main_call29.c main_call29.v1 (cmpi .eq),
    StableHlo.TRef.nullary main_call29.c_0 (constantI S_ 32 1#32),
    StableHlo.TRef.ternary main_call29.v1 main_call29.c_0 main_call29.v0 main_call29.call0.v0 select,
    StableHlo.TRef.unary main_call29.call0.v0 main_call29.v3 (broadcastInDim S262144 ![] bcast_S_S262144),
    StableHlo.TRef.binary (.of main_v1070 : StableHlo.TRef sig ⟨S262144, .i32⟩) main_call29.v3 main_call29.v4 Host.remsi,
    StableHlo.TRef.nullary main_call29.c_1 (constantI S_ 32 0#32),
    StableHlo.TRef.unary main_call29.c_1 main_call29.v5 (broadcastInDim S262144 ![] bcast_S_S262144),
    StableHlo.TRef.binary main_call29.v4 main_call29.v5 main_call29.v6 (cmpi .ne),
    StableHlo.TRef.nullary main_call29.c_2 (constantI S_ 32 0#32),
    StableHlo.TRef.unary main_call29.c_2 main_call29.v7 (broadcastInDim S262144 ![] bcast_S_S262144),
    StableHlo.TRef.binary main_call29.v4 main_call29.v7 main_call29.v8 (cmpi .slt),
    StableHlo.TRef.nullary main_call29.c_3 (constantI S_ 32 0#32),
    StableHlo.TRef.binary main_call29.call0.v0 main_call29.c_3 main_call29.v9 (cmpi .slt),
    StableHlo.TRef.unary main_call29.v9 main_call29.v10 (broadcastInDim S262144 ![] bcast_S_S262144),
    StableHlo.TRef.binary main_call29.v8 main_call29.v10 main_call29.v11 (cmpi .ne),
    StableHlo.TRef.binary main_call29.v11 main_call29.v6 main_call29.v12 andi,
    StableHlo.TRef.unary main_call29.call0.v0 main_call29.v13 (broadcastInDim S262144 ![] bcast_S_S262144),
    StableHlo.TRef.binary main_call29.v4 main_call29.v13 main_call29.v14 addi,
    StableHlo.TRef.ternary main_call29.v12 main_call29.v14 main_call29.v4 main_call29.v15 select,
    StableHlo.binary main_v1025 main_v1059 main_v1072 (mulf : Vec F S262144 .f32 → Vec F S262144 .f32 → Vec F S262144 .f32),
    StableHlo.unary main_v1072 main_v1073 (broadcastInDim S262144x1 ![0] bcast_S262144_S262144x1_0 : Vec F S262144 .f32 → Vec F S262144x1 .f32),
    StableHlo.nullary main_c_268 (constantI S_ 32 0#32),
    StableHlo.unary main_c_268 main_v1074 (broadcastInDim S262144 ![] bcast_S_S262144 : Vec F S_ .i32 → Vec F S262144 .i32),
    StableHlo.binary main_v1071 main_v1074 main_v1075 (cmpi .slt : Vec F S262144 .i32 → Vec F S262144 .i32 → Vec F S262144 .i1),
    StableHlo.nullary main_c_269 (constantI S_ 32 8192#32),
    StableHlo.unary main_c_269 main_v1076 (broadcastInDim S262144 ![] bcast_S_S262144 : Vec F S_ .i32 → Vec F S262144 .i32),
    StableHlo.binary main_v1071 main_v1076 main_v1077 (addi : Vec F S262144 .i32 → Vec F S262144 .i32 → Vec F S262144 .i32),
    StableHlo.ternary main_v1075 main_v1077 main_v1071 main_v1078 (select : Vec F S262144 .i1 → Vec F S262144 .i32 → Vec F S262144 .i32 → Vec F S262144 .i32),
    StableHlo.nullary main_c_270 (constantI S_ 32 7#32),
    StableHlo.unary main_c_270 main_v1079 (broadcastInDim S262144 ![] bcast_S_S262144 : Vec F S_ .i32 → Vec F S262144 .i32),
    StableHlo.unary main_v1079 main_v1080 (id : Vec F S262144 .i32 → Vec F S262144 .i32),
    StableHlo.unary main_v1080 main_v1081 (broadcastInDim S262144x1 ![0] bcast_S262144_S262144x1_0 : Vec F S262144 .i32 → Vec F S262144x1 .i32),
    StableHlo.unary main_v1078 main_v1082 (broadcastInDim S262144x1 ![0] bcast_S262144_S262144x1_0 : Vec F S262144 .i32 → Vec F S262144x1 .i32),
    StableHlo.binary main_v1081 main_v1082 main_v1083 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v1083 main_v1084 ((fun x i => Host.gather gather_S8x8192x8_S262144x2_S262144x8_1_01_n_n_01_1_118 x i) : Vec F S8x8192x8 .f32 → Vec F S262144x2 .i32 → Vec F S262144x8 .f32),
    StableHlo.unary main_v1073 main_v1085 (broadcastInDim S262144x8 ![0, 1] bcast_S262144x1_S262144x8_0_1 : Vec F S262144x1 .f32 → Vec F S262144x8 .f32),
    StableHlo.binary main_v1085 main_v1084 main_v1086 (mulf : Vec F S262144x8 .f32 → Vec F S262144x8 .f32 → Vec F S262144x8 .f32),
    StableHlo.binary main_v1057 main_v1086 main_v1087 (addf : Vec F S262144x8 .f32 → Vec F S262144x8 .f32 → Vec F S262144x8 .f32),
    StableHlo.unary main_v1020 main_v1088 ((extractStridedSlice S262144x1 ![0, 0] · slices_S262144x2_S262144x1_0_0) : Vec F S262144x2 .f32 → Vec F S262144x1 .f32),
    StableHlo.reshape main_v1088 main_v1089 rfl shapeCasts_S262144x1_S262144,
    StableHlo.unary main_v1020 main_v1090 ((extractStridedSlice S262144x1 ![0, 1] · slices_S262144x2_S262144x1_0_1) : Vec F S262144x2 .f32 → Vec F S262144x1 .f32),
    StableHlo.reshape main_v1090 main_v1091 rfl shapeCasts_S262144x1_S262144,
    StableHlo.nullary main_cst_271 (constant S_ .f32 0x3F800000#32),
    StableHlo.unary main_cst_271 main_v1092 (broadcastInDim S262144 ![] bcast_S_S262144 : Vec F S_ .f32 → Vec F S262144 .f32),
    StableHlo.binary main_v1092 main_v1091 main_v1093 (subf : Vec F S262144 .f32 → Vec F S262144 .f32 → Vec F S262144 .f32),
    StableHlo.unary main_v1014 main_v1094 ((extractStridedSlice S262144x1 ![0, 0] · slices_S262144x2_S262144x1_0_0) : Vec F S262144x2 .i32 → Vec F S262144x1 .i32),
    StableHlo.reshape main_v1094 main_v1095 rfl shapeCasts_S262144x1_S262144,
    StableHlo.nullary main_c_272 (constantI S_ 32 1#32),
    StableHlo.unary main_c_272 main_v1096 (broadcastInDim S262144 ![] bcast_S_S262144 : Vec F S_ .i32 → Vec F S262144 .i32),
    StableHlo.binary main_v1095 main_v1096 main_v1097 (addi : Vec F S262144 .i32 → Vec F S262144 .i32 → Vec F S262144 .i32),
    StableHlo.unary main_v1014 main_v1098 ((extractStridedSlice S262144x1 ![0, 1] · slices_S262144x2_S262144x1_0_1) : Vec F S262144x2 .i32 → Vec F S262144x1 .i32),
    StableHlo.reshape main_v1098 main_v1099 rfl shapeCasts_S262144x1_S262144,
    StableHlo.nullary main_c_273 (constantI S_ 32 0#32),
    StableHlo.unary main_c_273 main_v1100 (broadcastInDim S262144 ![] bcast_S_S262144 : Vec F S_ .i32 → Vec F S262144 .i32),
    StableHlo.binary main_v1099 main_v1100 main_v1101 (addi : Vec F S262144 .i32 → Vec F S262144 .i32 → Vec F S262144 .i32),
    StableHlo.nullary main_c_274 (constantI S_ 32 81#32),
    StableHlo.unary main_c_274 main_v1102 (broadcastInDim S262144 ![] bcast_S_S262144 : Vec F S_ .i32 → Vec F S262144 .i32) ]

abbrev piece22W : List (Ref sig .tc) :=
  [main_v1054, main_v1055, main_v1056, main_v1057, main_v1058, main_v1059, main_v1060, main_v1061, main_c_264, main_v1062, main_v1063, main_v1064, main_v1065, main_c_265, main_v1066, main_v1067, main_c_266, main_v1068, main_v1069, main_v1070, main_c_267, main_call29_v0, main_call29_c, main_call29_v1, main_call29_c_0, main_call29_v2, main_call29_v3, main_call29_v4, main_call29_c_1, main_call29_v5, main_call29_v6, main_call29_c_2, main_call29_v7, main_call29_v8, main_call29_c_3, main_call29_v9, main_call29_v10, main_call29_v11, main_call29_v12, main_call29_v13, main_call29_v14, main_v1071, main_v1072, main_v1073, main_c_268, main_v1074, main_v1075, main_c_269, main_v1076, main_v1077, main_v1078, main_c_270, main_v1079, main_v1080, main_v1081, main_v1082, main_v1083, main_v1084, main_v1085, main_v1086, main_v1087, main_v1088, main_v1089, main_v1090, main_v1091, main_cst_271, main_v1092, main_v1093, main_v1094, main_v1095, main_c_272, main_v1096, main_v1097, main_v1098, main_v1099, main_c_273, main_v1100, main_v1101, main_c_274, main_v1102]

theorem piece22_sub : (piece22 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece22_fresh : (piece22 : List (HloOp τ sig (Elt F))).Forall fun op => op.fresh = ∅ := by
  repeat' first | refine ⟨?_, ?_⟩ | exact rfl

theorem piece22_writes : WritesAt (piece22 : List (HloOp τ sig (Elt F))) piece22W := by
  repeat first | exact .nil | refine .cons rfl ?_

abbrev piece23 : List (HloOp τ sig (Elt F)) :=
  [ StableHlo.binary main_v1101 main_v1102 main_v1103 (muli : Vec F S262144 .i32 → Vec F S262144 .i32 → Vec F S262144 .i32),
    StableHlo.binary main_v1097 main_v1103 main_v1104 (addi : Vec F S262144 .i32 → Vec F S262144 .i32 → Vec F S262144 .i32),
    StableHlo.nullary main_c_275 (constantI S_ 32 6568#32),
    StableHlo.TRef.unary (.of main_c_275 : StableHlo.TRef sig ⟨S_, .i32⟩) main_call30.v0 id,
    StableHlo.TRef.nullary main_call30.c (constantI S_ 32 0#32),
    StableHlo.TRef.binary main_call30.v0 main_call30.c main_call30.v1 (cmpi .eq),
    StableHlo.TRef.nullary main_call30.c_0 (constantI S_ 32 1#32),
    StableHlo.TRef.ternary main_call30.v1 main_call30.c_0 main_call30.v0 main_call30.call0.v0 select,
    StableHlo.TRef.unary main_call30.call0.v0 main_call30.v3 (broadcastInDim S262144 ![] bcast_S_S262144),
    StableHlo.TRef.binary (.of main_v1104 : StableHlo.TRef sig ⟨S262144, .i32⟩) main_call30.v3 main_call30.v4 Host.remsi,
    StableHlo.TRef.nullary main_call30.c_1 (constantI S_ 32 0#32),
    StableHlo.TRef.unary main_call30.c_1 main_call30.v5 (broadcastInDim S262144 ![] bcast_S_S262144),
    StableHlo.TRef.binary main_call30.v4 main_call30.v5 main_call30.v6 (cmpi .ne),
    StableHlo.TRef.nullary main_call30.c_2 (constantI S_ 32 0#32),
    StableHlo.TRef.unary main_call30.c_2 main_call30.v7 (broadcastInDim S262144 ![] bcast_S_S262144),
    StableHlo.TRef.binary main_call30.v4 main_call30.v7 main_call30.v8 (cmpi .slt),
    StableHlo.TRef.nullary main_call30.c_3 (constantI S_ 32 0#32),
    StableHlo.TRef.binary main_call30.call0.v0 main_call30.c_3 main_call30.v9 (cmpi .slt),
    StableHlo.TRef.unary main_call30.v9 main_call30.v10 (broadcastInDim S262144 ![] bcast_S_S262144),
    StableHlo.TRef.binary main_call30.v8 main_call30.v10 main_call30.v11 (cmpi .ne),
    StableHlo.TRef.binary main_call30.v11 main_call30.v6 main_call30.v12 andi,
    StableHlo.TRef.unary main_call30.call0.v0 main_call30.v13 (broadcastInDim S262144 ![] bcast_S_S262144),
    StableHlo.TRef.binary main_call30.v4 main_call30.v13 main_call30.v14 addi,
    StableHlo.TRef.ternary main_call30.v12 main_call30.v14 main_call30.v4 main_call30.v15 select,
    StableHlo.binary main_v1089 main_v1093 main_v1106 (mulf : Vec F S262144 .f32 → Vec F S262144 .f32 → Vec F S262144 .f32),
    StableHlo.unary main_v1106 main_v1107 (broadcastInDim S262144x1 ![0] bcast_S262144_S262144x1_0 : Vec F S262144 .f32 → Vec F S262144x1 .f32),
    StableHlo.nullary main_c_276 (constantI S_ 32 0#32),
    StableHlo.unary main_c_276 main_v1108 (broadcastInDim S262144 ![] bcast_S_S262144 : Vec F S_ .i32 → Vec F S262144 .i32),
    StableHlo.binary main_v1105 main_v1108 main_v1109 (cmpi .slt : Vec F S262144 .i32 → Vec F S262144 .i32 → Vec F S262144 .i1),
    StableHlo.nullary main_c_277 (constantI S_ 32 8192#32),
    StableHlo.unary main_c_277 main_v1110 (broadcastInDim S262144 ![] bcast_S_S262144 : Vec F S_ .i32 → Vec F S262144 .i32),
    StableHlo.binary main_v1105 main_v1110 main_v1111 (addi : Vec F S262144 .i32 → Vec F S262144 .i32 → Vec F S262144 .i32),
    StableHlo.ternary main_v1109 main_v1111 main_v1105 main_v1112 (select : Vec F S262144 .i1 → Vec F S262144 .i32 → Vec F S262144 .i32 → Vec F S262144 .i32),
    StableHlo.nullary main_c_278 (constantI S_ 32 7#32),
    StableHlo.unary main_c_278 main_v1113 (broadcastInDim S262144 ![] bcast_S_S262144 : Vec F S_ .i32 → Vec F S262144 .i32),
    StableHlo.unary main_v1113 main_v1114 (id : Vec F S262144 .i32 → Vec F S262144 .i32),
    StableHlo.unary main_v1114 main_v1115 (broadcastInDim S262144x1 ![0] bcast_S262144_S262144x1_0 : Vec F S262144 .i32 → Vec F S262144x1 .i32),
    StableHlo.unary main_v1112 main_v1116 (broadcastInDim S262144x1 ![0] bcast_S262144_S262144x1_0 : Vec F S262144 .i32 → Vec F S262144x1 .i32),
    StableHlo.binary main_v1115 main_v1116 main_v1117 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v1117 main_v1118 ((fun x i => Host.gather gather_S8x8192x8_S262144x2_S262144x8_1_01_n_n_01_1_118 x i) : Vec F S8x8192x8 .f32 → Vec F S262144x2 .i32 → Vec F S262144x8 .f32),
    StableHlo.unary main_v1107 main_v1119 (broadcastInDim S262144x8 ![0, 1] bcast_S262144x1_S262144x8_0_1 : Vec F S262144x1 .f32 → Vec F S262144x8 .f32),
    StableHlo.binary main_v1119 main_v1118 main_v1120 (mulf : Vec F S262144x8 .f32 → Vec F S262144x8 .f32 → Vec F S262144x8 .f32),
    StableHlo.binary main_v1087 main_v1120 main_v1121 (addf : Vec F S262144x8 .f32 → Vec F S262144x8 .f32 → Vec F S262144x8 .f32),
    StableHlo.unary main_v1020 main_v1122 ((extractStridedSlice S262144x1 ![0, 1] · slices_S262144x2_S262144x1_0_1) : Vec F S262144x2 .f32 → Vec F S262144x1 .f32),
    StableHlo.reshape main_v1122 main_v1123 rfl shapeCasts_S262144x1_S262144,
    StableHlo.unary main_v1014 main_v1124 ((extractStridedSlice S262144x1 ![0, 0] · slices_S262144x2_S262144x1_0_0) : Vec F S262144x2 .i32 → Vec F S262144x1 .i32),
    StableHlo.reshape main_v1124 main_v1125 rfl shapeCasts_S262144x1_S262144,
    StableHlo.nullary main_c_279 (constantI S_ 32 1#32),
    StableHlo.unary main_c_279 main_v1126 (broadcastInDim S262144 ![] bcast_S_S262144 : Vec F S_ .i32 → Vec F S262144 .i32),
    StableHlo.binary main_v1125 main_v1126 main_v1127 (addi : Vec F S262144 .i32 → Vec F S262144 .i32 → Vec F S262144 .i32),
    StableHlo.unary main_v1014 main_v1128 ((extractStridedSlice S262144x1 ![0, 1] · slices_S262144x2_S262144x1_0_1) : Vec F S262144x2 .i32 → Vec F S262144x1 .i32),
    StableHlo.reshape main_v1128 main_v1129 rfl shapeCasts_S262144x1_S262144,
    StableHlo.nullary main_c_280 (constantI S_ 32 1#32),
    StableHlo.unary main_c_280 main_v1130 (broadcastInDim S262144 ![] bcast_S_S262144 : Vec F S_ .i32 → Vec F S262144 .i32),
    StableHlo.binary main_v1129 main_v1130 main_v1131 (addi : Vec F S262144 .i32 → Vec F S262144 .i32 → Vec F S262144 .i32),
    StableHlo.nullary main_c_281 (constantI S_ 32 81#32),
    StableHlo.unary main_c_281 main_v1132 (broadcastInDim S262144 ![] bcast_S_S262144 : Vec F S_ .i32 → Vec F S262144 .i32),
    StableHlo.binary main_v1131 main_v1132 main_v1133 (muli : Vec F S262144 .i32 → Vec F S262144 .i32 → Vec F S262144 .i32),
    StableHlo.binary main_v1127 main_v1133 main_v1134 (addi : Vec F S262144 .i32 → Vec F S262144 .i32 → Vec F S262144 .i32),
    StableHlo.nullary main_c_282 (constantI S_ 32 6568#32),
    StableHlo.TRef.unary (.of main_c_282 : StableHlo.TRef sig ⟨S_, .i32⟩) main_call31.v0 id,
    StableHlo.TRef.nullary main_call31.c (constantI S_ 32 0#32),
    StableHlo.TRef.binary main_call31.v0 main_call31.c main_call31.v1 (cmpi .eq),
    StableHlo.TRef.nullary main_call31.c_0 (constantI S_ 32 1#32),
    StableHlo.TRef.ternary main_call31.v1 main_call31.c_0 main_call31.v0 main_call31.call0.v0 select,
    StableHlo.TRef.unary main_call31.call0.v0 main_call31.v3 (broadcastInDim S262144 ![] bcast_S_S262144),
    StableHlo.TRef.binary (.of main_v1134 : StableHlo.TRef sig ⟨S262144, .i32⟩) main_call31.v3 main_call31.v4 Host.remsi,
    StableHlo.TRef.nullary main_call31.c_1 (constantI S_ 32 0#32),
    StableHlo.TRef.unary main_call31.c_1 main_call31.v5 (broadcastInDim S262144 ![] bcast_S_S262144),
    StableHlo.TRef.binary main_call31.v4 main_call31.v5 main_call31.v6 (cmpi .ne),
    StableHlo.TRef.nullary main_call31.c_2 (constantI S_ 32 0#32),
    StableHlo.TRef.unary main_call31.c_2 main_call31.v7 (broadcastInDim S262144 ![] bcast_S_S262144),
    StableHlo.TRef.binary main_call31.v4 main_call31.v7 main_call31.v8 (cmpi .slt),
    StableHlo.TRef.nullary main_call31.c_3 (constantI S_ 32 0#32),
    StableHlo.TRef.binary main_call31.call0.v0 main_call31.c_3 main_call31.v9 (cmpi .slt),
    StableHlo.TRef.unary main_call31.v9 main_call31.v10 (broadcastInDim S262144 ![] bcast_S_S262144),
    StableHlo.TRef.binary main_call31.v8 main_call31.v10 main_call31.v11 (cmpi .ne),
    StableHlo.TRef.binary main_call31.v11 main_call31.v6 main_call31.v12 andi,
    StableHlo.TRef.unary main_call31.call0.v0 main_call31.v13 (broadcastInDim S262144 ![] bcast_S_S262144),
    StableHlo.TRef.binary main_call31.v4 main_call31.v13 main_call31.v14 addi,
    StableHlo.TRef.ternary main_call31.v12 main_call31.v14 main_call31.v4 main_call31.v15 select,
    StableHlo.binary main_v1089 main_v1123 main_v1136 (mulf : Vec F S262144 .f32 → Vec F S262144 .f32 → Vec F S262144 .f32),
    StableHlo.unary main_v1136 main_v1137 (broadcastInDim S262144x1 ![0] bcast_S262144_S262144x1_0 : Vec F S262144 .f32 → Vec F S262144x1 .f32),
    StableHlo.nullary main_c_283 (constantI S_ 32 0#32),
    StableHlo.unary main_c_283 main_v1138 (broadcastInDim S262144 ![] bcast_S_S262144 : Vec F S_ .i32 → Vec F S262144 .i32),
    StableHlo.binary main_v1135 main_v1138 main_v1139 (cmpi .slt : Vec F S262144 .i32 → Vec F S262144 .i32 → Vec F S262144 .i1),
    StableHlo.nullary main_c_284 (constantI S_ 32 8192#32),
    StableHlo.unary main_c_284 main_v1140 (broadcastInDim S262144 ![] bcast_S_S262144 : Vec F S_ .i32 → Vec F S262144 .i32),
    StableHlo.binary main_v1135 main_v1140 main_v1141 (addi : Vec F S262144 .i32 → Vec F S262144 .i32 → Vec F S262144 .i32),
    StableHlo.ternary main_v1139 main_v1141 main_v1135 main_v1142 (select : Vec F S262144 .i1 → Vec F S262144 .i32 → Vec F S262144 .i32 → Vec F S262144 .i32),
    StableHlo.nullary main_c_285 (constantI S_ 32 7#32),
    StableHlo.unary main_c_285 main_v1143 (broadcastInDim S262144 ![] bcast_S_S262144 : Vec F S_ .i32 → Vec F S262144 .i32),
    StableHlo.unary main_v1143 main_v1144 (id : Vec F S262144 .i32 → Vec F S262144 .i32),
    StableHlo.unary main_v1144 main_v1145 (broadcastInDim S262144x1 ![0] bcast_S262144_S262144x1_0 : Vec F S262144 .i32 → Vec F S262144x1 .i32),
    StableHlo.unary main_v1142 main_v1146 (broadcastInDim S262144x1 ![0] bcast_S262144_S262144x1_0 : Vec F S262144 .i32 → Vec F S262144x1 .i32),
    StableHlo.binary main_v1145 main_v1146 main_v1147 ((fun a b => concatenate S262144x2 1 [⟨S262144x1, a⟩, ⟨S262144x1, b⟩] concatenates_S262144x1_S262144x1_S262144x2_d1) : Vec F S262144x1 .i32 → Vec F S262144x1 .i32 → Vec F S262144x2 .i32),
    StableHlo.binary main_arg1 main_v1147 main_v1148 ((fun x i => Host.gather gather_S8x8192x8_S262144x2_S262144x8_1_01_n_n_01_1_118 x i) : Vec F S8x8192x8 .f32 → Vec F S262144x2 .i32 → Vec F S262144x8 .f32),
    StableHlo.unary main_v1137 main_v1149 (broadcastInDim S262144x8 ![0, 1] bcast_S262144x1_S262144x8_0_1 : Vec F S262144x1 .f32 → Vec F S262144x8 .f32),
    StableHlo.binary main_v1149 main_v1148 main_v1150 (mulf : Vec F S262144x8 .f32 → Vec F S262144x8 .f32 → Vec F S262144x8 .f32),
    StableHlo.binary main_v1121 main_v1150 main_v1151 (addf : Vec F S262144x8 .f32 → Vec F S262144x8 .f32 → Vec F S262144x8 .f32) ]

abbrev piece23W : List (Ref sig .tc) :=
  [main_v1103, main_v1104, main_c_275, main_call30_v0, main_call30_c, main_call30_v1, main_call30_c_0, main_call30_v2, main_call30_v3, main_call30_v4, main_call30_c_1, main_call30_v5, main_call30_v6, main_call30_c_2, main_call30_v7, main_call30_v8, main_call30_c_3, main_call30_v9, main_call30_v10, main_call30_v11, main_call30_v12, main_call30_v13, main_call30_v14, main_v1105, main_v1106, main_v1107, main_c_276, main_v1108, main_v1109, main_c_277, main_v1110, main_v1111, main_v1112, main_c_278, main_v1113, main_v1114, main_v1115, main_v1116, main_v1117, main_v1118, main_v1119, main_v1120, main_v1121, main_v1122, main_v1123, main_v1124, main_v1125, main_c_279, main_v1126, main_v1127, main_v1128, main_v1129, main_c_280, main_v1130, main_v1131, main_c_281, main_v1132, main_v1133, main_v1134, main_c_282, main_call31_v0, main_call31_c, main_call31_v1, main_call31_c_0, main_call31_v2, main_call31_v3, main_call31_v4, main_call31_c_1, main_call31_v5, main_call31_v6, main_call31_c_2, main_call31_v7, main_call31_v8, main_call31_c_3, main_call31_v9, main_call31_v10, main_call31_v11, main_call31_v12, main_call31_v13, main_call31_v14, main_v1135, main_v1136, main_v1137, main_c_283, main_v1138, main_v1139, main_c_284, main_v1140, main_v1141, main_v1142, main_c_285, main_v1143, main_v1144, main_v1145, main_v1146, main_v1147, main_v1148, main_v1149, main_v1150, main_v1151]

theorem piece23_sub : (piece23 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece23_fresh : (piece23 : List (HloOp τ sig (Elt F))).Forall fun op => op.fresh = ∅ := by
  repeat' first | refine ⟨?_, ?_⟩ | exact rfl

theorem piece23_writes : WritesAt (piece23 : List (HloOp τ sig (Elt F))) piece23W := by
  repeat first | exact .nil | refine .cons rfl ?_

abbrev lvlOps7 : List (HloOp τ sig (Elt F)) := piece21 ++ piece22 ++ piece23

abbrev lvlWrites7 : List (Ref sig .tc) := piece21W ++ piece22W ++ piece23W

theorem lvlOps7_sub : (lvlOps7 : List (HloOp τ sig (Elt F))).Forall fun op => op.bufs ⊆ tcRefs τ sig :=
  forall_append' (forall_append' (piece21_sub) piece22_sub) piece23_sub

theorem lvlOps7_fresh : (lvlOps7 : List (HloOp τ sig (Elt F))).Forall fun op => op.fresh = ∅ :=
  forall_append' (forall_append' (piece21_fresh) piece22_fresh) piece23_fresh

theorem lvlOps7_writesAt : WritesAt (lvlOps7 : List (HloOp τ sig (Elt F))) lvlWrites7 :=
  ((piece21_writes).append piece22_writes).append piece23_writes

theorem lvlOps7_writes : (lvlOps7 : List (HloOp τ sig (Elt F))).Forall fun op => op.writes ⊆ (lvlWrites7.map (Proc.devRef (τ := τ) .tc)).toFinset :=
  lvlOps7_writesAt.forall_sub

end Cert.ReferenceIdeal.RefVal

end
-- ==== Proof.RefOpsT.lean ====
-- The reference's operations in the printed order, a call's operations written at the call; beside each piece, the reference every operation writes.
import proofs.«132274_j36180804501977_1_alg».proof.ReferenceIdeal
import proofs.«132274_j36180804501977_1_alg».proof.Proof.RefOpsLib
import Idealize.ShloMosaic.Lib.StableHlo.Run

set_option maxRecDepth 8192

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

abbrev piece24 : List (HloOp τ sig (Elt F)) :=
  [ StableHlo.nary ![main_v143, main_v287, main_v431, main_v575, main_v719, main_v863, main_v1007, main_v1151] main_v1152 (fun u => concatenate S262144x64 1 [⟨S262144x8, u 0⟩, ⟨S262144x8, u 1⟩, ⟨S262144x8, u 2⟩, ⟨S262144x8, u 3⟩, ⟨S262144x8, u 4⟩, ⟨S262144x8, u 5⟩, ⟨S262144x8, u 6⟩, ⟨S262144x8, u 7⟩] concatenates_S262144x8_S262144x8_S262144x8_S262144x8_S262144x8_S262144x8_S262144x8_S262144x8_S262144x64_d1),
    StableHlo.binary main_v1152 main_arg2 main_v1153 ((fun l r => Host.dotGeneral dot_S262144x64_S64x256_S262144x256_1_0_0_1_n_n none l r) : Vec F S262144x64 .f32 → Vec F S64x256 .f32 → Vec F S262144x256 .f32),
    StableHlo.TRef.nullary main_call32.cst (constant S_ .f32 0x00000000#32),
    StableHlo.TRef.unary main_call32.cst main_call32.v0 (broadcastInDim S262144x256 ![] bcast_S_S262144x256),
    StableHlo.TRef.binary (.of main_v1153 : StableHlo.TRef sig ⟨S262144x256, .f32⟩) main_call32.v0 main_call32.v1 maximumf,
    StableHlo.binary main_v1154 main_arg3 main_v1155 ((fun l r => Host.dotGeneral dot_S262144x256_S256x256_S262144x256_1_0_0_1_n_n none l r) : Vec F S262144x256 .f32 → Vec F S256x256 .f32 → Vec F S262144x256 .f32),
    StableHlo.TRef.nullary main_call33.cst (constant S_ .f32 0x00000000#32),
    StableHlo.TRef.unary main_call33.cst main_call33.v0 (broadcastInDim S262144x256 ![] bcast_S_S262144x256),
    StableHlo.TRef.binary (.of main_v1155 : StableHlo.TRef sig ⟨S262144x256, .f32⟩) main_call33.v0 main_call33.v1 maximumf,
    StableHlo.binary main_v1156 main_arg4 main_v1157 ((fun l r => Host.dotGeneral dot_S262144x256_S256x256_S262144x256_1_0_0_1_n_n none l r) : Vec F S262144x256 .f32 → Vec F S256x256 .f32 → Vec F S262144x256 .f32),
    StableHlo.TRef.nullary main_call34.cst (constant S_ .f32 0x00000000#32),
    StableHlo.TRef.unary main_call34.cst main_call34.v0 (broadcastInDim S262144x256 ![] bcast_S_S262144x256),
    StableHlo.TRef.binary (.of main_v1157 : StableHlo.TRef sig ⟨S262144x256, .f32⟩) main_call34.v0 main_call34.v1 maximumf,
    StableHlo.binary main_v1158 main_arg5 main_v1159 ((fun l r => Host.dotGeneral dot_S262144x256_S256x1_S262144x1_1_0_0_1_n_n none l r) : Vec F S262144x256 .f32 → Vec F S256x1 .f32 → Vec F S262144x1 .f32) ]

abbrev piece24W : List (Ref sig .tc) :=
  [main_v1152, main_v1153, main_call32_cst, main_call32_v0, main_v1154, main_v1155, main_call33_cst, main_call33_v0, main_v1156, main_v1157, main_call34_cst, main_call34_v0, main_v1158, main_v1159]

theorem piece24_sub : (piece24 : List (HloOp τ sig (Elt F))).Forall fun op => op.bufs ⊆ tcRefs τ sig := by
  repeat' first | refine ⟨?_, ?_⟩ | simp only [List.Forall, nullary_bufs_sub, unary_bufs_sub, binary_bufs_sub, ternary_bufs_sub, reshape_bufs_sub, nary_bufs_sub]

theorem piece24_fresh : (piece24 : List (HloOp τ sig (Elt F))).Forall fun op => op.fresh = ∅ := by
  repeat' first | refine ⟨?_, ?_⟩ | exact rfl

theorem piece24_writes : WritesAt (piece24 : List (HloOp τ sig (Elt F))) piece24W := by
  repeat first | exact .nil | refine .cons rfl ?_

abbrev tailOps : List (HloOp τ sig (Elt F)) := piece24

abbrev tailWrites : List (Ref sig .tc) := piece24W

theorem tailOps_sub : (tailOps : List (HloOp τ sig (Elt F))).Forall fun op => op.bufs ⊆ tcRefs τ sig :=
  piece24_sub

theorem tailOps_fresh : (tailOps : List (HloOp τ sig (Elt F))).Forall fun op => op.fresh = ∅ :=
  piece24_fresh

theorem tailOps_writesAt : WritesAt (tailOps : List (HloOp τ sig (Elt F))) tailWrites :=
  piece24_writes

theorem tailOps_writes : (tailOps : List (HloOp τ sig (Elt F))).Forall fun op => op.writes ⊆ (tailWrites.map (Proc.devRef (τ := τ) .tc)).toFinset :=
  tailOps_writesAt.forall_sub

end Cert.ReferenceIdeal.RefVal

end
-- ==== Proof.RefRun.lean ====
-- The reference program is the line of its operations: each printed window is the line of its piece, the windows run in order; its run leaves every buffer at the fold of that line over the launch contents.
import proofs.«132274_j36180804501977_1_alg».proof.ReferenceIdeal
import proofs.«132274_j36180804501977_1_alg».proof.Proof.RefOps0
import proofs.«132274_j36180804501977_1_alg».proof.Proof.RefOps1
import proofs.«132274_j36180804501977_1_alg».proof.Proof.RefOps2
import proofs.«132274_j36180804501977_1_alg».proof.Proof.RefOps3
import proofs.«132274_j36180804501977_1_alg».proof.Proof.RefOps4
import proofs.«132274_j36180804501977_1_alg».proof.Proof.RefOps5
import proofs.«132274_j36180804501977_1_alg».proof.Proof.RefOps6
import proofs.«132274_j36180804501977_1_alg».proof.Proof.RefOps7
import proofs.«132274_j36180804501977_1_alg».proof.Proof.RefOpsT
import Idealize.ShloMosaic.Lib.StableHlo.Run

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

set_option maxRecDepth 8192 in
set_option maxHeartbeats 4000000 in
theorem part0_eq (c : Dev nD) : main_part0 (F := F) c = seq piece0 := by
  simp only [main_part0, fn_remainder.body, fn_where.body, fn_relu.body, seq, bind_assoc, pure_bind]
  rfl

set_option maxRecDepth 8192 in
set_option maxHeartbeats 4000000 in
theorem part1_eq (c : Dev nD) : main_part1 (F := F) c = seq piece1 := by
  simp only [main_part1, fn_remainder.body, fn_where.body, fn_relu.body, seq, bind_assoc, pure_bind]
  rfl

set_option maxRecDepth 8192 in
set_option maxHeartbeats 4000000 in
theorem part2_eq (c : Dev nD) : main_part2 (F := F) c = seq piece2 := by
  simp only [main_part2, fn_remainder.body, fn_where.body, fn_relu.body, seq, bind_assoc, pure_bind]
  rfl

set_option maxRecDepth 8192 in
set_option maxHeartbeats 4000000 in
theorem part3_eq (c : Dev nD) : main_part3 (F := F) c = seq piece3 := by
  simp only [main_part3, fn_remainder.body, fn_where.body, fn_relu.body, seq, bind_assoc, pure_bind]
  rfl

set_option maxRecDepth 8192 in
set_option maxHeartbeats 4000000 in
theorem part4_eq (c : Dev nD) : main_part4 (F := F) c = seq piece4 := by
  simp only [main_part4, fn_remainder.body, fn_where.body, fn_relu.body, seq, bind_assoc, pure_bind]
  rfl

set_option maxRecDepth 8192 in
set_option maxHeartbeats 4000000 in
theorem part5_eq (c : Dev nD) : main_part5 (F := F) c = seq piece5 := by
  simp only [main_part5, fn_remainder.body, fn_where.body, fn_relu.body, seq, bind_assoc, pure_bind]
  rfl

set_option maxRecDepth 8192 in
set_option maxHeartbeats 4000000 in
theorem part6_eq (c : Dev nD) : main_part6 (F := F) c = seq piece6 := by
  simp only [main_part6, fn_remainder.body, fn_where.body, fn_relu.body, seq, bind_assoc, pure_bind]
  rfl

set_option maxRecDepth 8192 in
set_option maxHeartbeats 4000000 in
theorem part7_eq (c : Dev nD) : main_part7 (F := F) c = seq piece7 := by
  simp only [main_part7, fn_remainder.body, fn_where.body, fn_relu.body, seq, bind_assoc, pure_bind]
  rfl

set_option maxRecDepth 8192 in
set_option maxHeartbeats 4000000 in
theorem part8_eq (c : Dev nD) : main_part8 (F := F) c = seq piece8 := by
  simp only [main_part8, fn_remainder.body, fn_where.body, fn_relu.body, seq, bind_assoc, pure_bind]
  rfl

set_option maxRecDepth 8192 in
set_option maxHeartbeats 4000000 in
theorem part9_eq (c : Dev nD) : main_part9 (F := F) c = seq piece9 := by
  simp only [main_part9, fn_remainder.body, fn_where.body, fn_relu.body, seq, bind_assoc, pure_bind]
  rfl

set_option maxRecDepth 8192 in
set_option maxHeartbeats 4000000 in
theorem part10_eq (c : Dev nD) : main_part10 (F := F) c = seq piece10 := by
  simp only [main_part10, fn_remainder.body, fn_where.body, fn_relu.body, seq, bind_assoc, pure_bind]
  rfl

set_option maxRecDepth 8192 in
set_option maxHeartbeats 4000000 in
theorem part11_eq (c : Dev nD) : main_part11 (F := F) c = seq piece11 := by
  simp only [main_part11, fn_remainder.body, fn_where.body, fn_relu.body, seq, bind_assoc, pure_bind]
  rfl

set_option maxRecDepth 8192 in
set_option maxHeartbeats 4000000 in
theorem part12_eq (c : Dev nD) : main_part12 (F := F) c = seq piece12 := by
  simp only [main_part12, fn_remainder.body, fn_where.body, fn_relu.body, seq, bind_assoc, pure_bind]
  rfl

set_option maxRecDepth 8192 in
set_option maxHeartbeats 4000000 in
theorem part13_eq (c : Dev nD) : main_part13 (F := F) c = seq piece13 := by
  simp only [main_part13, fn_remainder.body, fn_where.body, fn_relu.body, seq, bind_assoc, pure_bind]
  rfl

set_option maxRecDepth 8192 in
set_option maxHeartbeats 4000000 in
theorem part14_eq (c : Dev nD) : main_part14 (F := F) c = seq piece14 := by
  simp only [main_part14, fn_remainder.body, fn_where.body, fn_relu.body, seq, bind_assoc, pure_bind]
  rfl

set_option maxRecDepth 8192 in
set_option maxHeartbeats 4000000 in
theorem part15_eq (c : Dev nD) : main_part15 (F := F) c = seq piece15 := by
  simp only [main_part15, fn_remainder.body, fn_where.body, fn_relu.body, seq, bind_assoc, pure_bind]
  rfl

set_option maxRecDepth 8192 in
set_option maxHeartbeats 4000000 in
theorem part16_eq (c : Dev nD) : main_part16 (F := F) c = seq piece16 := by
  simp only [main_part16, fn_remainder.body, fn_where.body, fn_relu.body, seq, bind_assoc, pure_bind]
  rfl

set_option maxRecDepth 8192 in
set_option maxHeartbeats 4000000 in
theorem part17_eq (c : Dev nD) : main_part17 (F := F) c = seq piece17 := by
  simp only [main_part17, fn_remainder.body, fn_where.body, fn_relu.body, seq, bind_assoc, pure_bind]
  rfl

set_option maxRecDepth 8192 in
set_option maxHeartbeats 4000000 in
theorem part18_eq (c : Dev nD) : main_part18 (F := F) c = seq piece18 := by
  simp only [main_part18, fn_remainder.body, fn_where.body, fn_relu.body, seq, bind_assoc, pure_bind]
  rfl

set_option maxRecDepth 8192 in
set_option maxHeartbeats 4000000 in
theorem part19_eq (c : Dev nD) : main_part19 (F := F) c = seq piece19 := by
  simp only [main_part19, fn_remainder.body, fn_where.body, fn_relu.body, seq, bind_assoc, pure_bind]
  rfl

set_option maxRecDepth 8192 in
set_option maxHeartbeats 4000000 in
theorem part20_eq (c : Dev nD) : main_part20 (F := F) c = seq piece20 := by
  simp only [main_part20, fn_remainder.body, fn_where.body, fn_relu.body, seq, bind_assoc, pure_bind]
  rfl

set_option maxRecDepth 8192 in
set_option maxHeartbeats 4000000 in
theorem part21_eq (c : Dev nD) : main_part21 (F := F) c = seq piece21 := by
  simp only [main_part21, fn_remainder.body, fn_where.body, fn_relu.body, seq, bind_assoc, pure_bind]
  rfl

set_option maxRecDepth 8192 in
set_option maxHeartbeats 4000000 in
theorem part22_eq (c : Dev nD) : main_part22 (F := F) c = seq piece22 := by
  simp only [main_part22, fn_remainder.body, fn_where.body, fn_relu.body, seq, bind_assoc, pure_bind]
  rfl

set_option maxRecDepth 8192 in
set_option maxHeartbeats 4000000 in
theorem part23_eq (c : Dev nD) : main_part23 (F := F) c = seq piece23 := by
  simp only [main_part23, fn_remainder.body, fn_where.body, fn_relu.body, seq, bind_assoc, pure_bind]
  rfl

set_option maxRecDepth 8192 in
set_option maxHeartbeats 4000000 in
theorem part24_eq (c : Dev nD) : main_part24 (F := F) c = seq piece24 := by
  simp only [main_part24, fn_remainder.body, fn_where.body, fn_relu.body, seq, bind_assoc, pure_bind]

abbrev ops : List (HloOp τ sig (Elt F)) := lvlOps0 ++ lvlOps1 ++ lvlOps2 ++ lvlOps3 ++ lvlOps4 ++ lvlOps5 ++ lvlOps6 ++ lvlOps7 ++ tailOps

set_option maxRecDepth 8192 in
theorem main_eq (c : Dev nD) : main (F := F) c = seq ops := by
  simp only [main, part0_eq, part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append' (forall_append' (forall_append' (forall_append' (forall_append' (forall_append' (forall_append' (forall_append' (lvlOps0_sub) lvlOps1_sub) lvlOps2_sub) lvlOps3_sub) lvlOps4_sub) lvlOps5_sub) lvlOps6_sub) lvlOps7_sub) tailOps_sub

theorem ops_fresh : ∀ op ∈ (ops : List (HloOp τ sig (Elt F))), op.fresh = ∅ :=
  List.forall_iff_forall_mem.mp (forall_append' (forall_append' (forall_append' (forall_append' (forall_append' (forall_append' (forall_append' (forall_append' (lvlOps0_fresh) lvlOps1_fresh) lvlOps2_fresh) lvlOps3_fresh) lvlOps4_fresh) lvlOps5_fresh) lvlOps6_fresh) lvlOps7_fresh) tailOps_fresh)

theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefVal

end
-- ==== Proof.RefFn.lean ====
-- The reference's values as functions of its arguments' contents, one let per operation: the level function, with the level's four constants as arguments, and the tail function.
import proofs.«132274_j36180804501977_1_alg».proof.ReferenceIdeal

noncomputable section

namespace Cert.ReferenceIdeal.RefVal

open Idealize.ShloMosaic
open Cert.ReferenceIdeal Cert.ReferenceIdeal.Facts₀ Cert.ReferenceIdeal.Facts

def levelR_part10 {F : FTy → Type} [FloatOps F] [Cert.ReferenceIdeal.Facts] (lw : BitVec 32) (T : FVec F S8x8192x8 .f32) (v81 : FVec F S262144 .f32) (v113 : FVec F S262144x8 .f32) (v115 : FVec F S262144 .f32) (call3_v4 : IVec S262144 32) (call3_v12 : IVec S262144 1) (call3_v14 : IVec S262144 32) : FVec F S262144x8 .f32 :=
  let v127 : IVec S262144 32 := select call3_v12 call3_v14 call3_v4
  let v128 : FVec F S262144 .f32 := mulf v81 v115
  let v129 : FVec F S262144x1 .f32 := broadcastInDim S262144x1 ![0] bcast_S262144_S262144x1_0 v128
  let c_31 : IVec S_ 32 := constantI S_ 32 0#32
  let v130 : IVec S262144 32 := broadcastInDim S262144 ![] bcast_S_S262144 c_31
  let v131 : IVec S262144 1 := cmpi .slt v127 v130
  let c_32 : IVec S_ 32 := constantI S_ 32 8192#32
  let v132 : IVec S262144 32 := broadcastInDim S262144 ![] bcast_S_S262144 c_32
  let v133 : IVec S262144 32 := addi v127 v132
  let v134 : IVec S262144 32 := select v131 v133 v127
  let c_33 : IVec S_ 32 := constantI S_ 32 lw
  let v135 : IVec S262144 32 := broadcastInDim S262144 ![] bcast_S_S262144 c_33
  let v136 : IVec S262144 32 := id v135
  let v137 : IVec S262144x1 32 := broadcastInDim S262144x1 ![0] bcast_S262144_S262144x1_0 v136
  let v138 : IVec S262144x1 32 := broadcastInDim S262144x1 ![0] bcast_S262144_S262144x1_0 v134
  let v139 : IVec S262144x2 32 := (fun a b => concatenate S262144x2 1 [⟨S262144x1, a⟩, ⟨S262144x1, b⟩] concatenates_S262144x1_S262144x1_S262144x2_d1) v137 v138
  let v140 : FVec F S262144x8 .f32 := (fun x i => Host.gather gather_S8x8192x8_S262144x2_S262144x8_1_01_n_n_01_1_118 x i) T v139
  let v141 : FVec F S262144x8 .f32 := broadcastInDim S262144x8 ![0, 1] bcast_S262144x1_S262144x8_0_1 v129
  let v142 : FVec F S262144x8 .f32 := mulf v141 v140
  let v143 : FVec F S262144x8 .f32 := addf v113 v142
  v143

def levelR_part9 {F : FTy → Type} [FloatOps F] [Cert.ReferenceIdeal.Facts] (lw : BitVec 32) (sizew : BitVec 32) (T : FVec F S8x8192x8 .f32) (v81 : FVec F S262144 .f32) (v113 : FVec F S262144x8 .f32) (v115 : FVec F S262144 .f32) (v119 : IVec S262144 32) (v123 : IVec S262144 32) (c_29 : IVec S_ 32) : FVec F S262144x8 .f32 :=
  let v124 : IVec S262144 32 := broadcastInDim S262144 ![] bcast_S_S262144 c_29
  let v125 : IVec S262144 32 := muli v123 v124
  let v126 : IVec S262144 32 := addi v119 v125
  let c_30 : IVec S_ 32 := constantI S_ 32 sizew
  let call3_v0 : IVec S_ 32 := id c_30
  let call3_c : IVec S_ 32 := constantI S_ 32 0#32
  let call3_v1 : IVec S_ 1 := cmpi .eq call3_v0 call3_c
  let call3_c_0 : IVec S_ 32 := constantI S_ 32 1#32
  let call3_v2 : IVec S_ 32 := select call3_v1 call3_c_0 call3_v0
  let call3_v3 : IVec S262144 32 := broadcastInDim S262144 ![] bcast_S_S262144 call3_v2
  let call3_v4 : IVec S262144 32 := Host.remsi v126 call3_v3
  let call3_c_1 : IVec S_ 32 := constantI S_ 32 0#32
  let call3_v5 : IVec S262144 32 := broadcastInDim S262144 ![] bcast_S_S262144 call3_c_1
  let call3_v6 : IVec S262144 1 := cmpi .ne call3_v4 call3_v5
  let call3_c_2 : IVec S_ 32 := constantI S_ 32 0#32
  let call3_v7 : IVec S262144 32 := broadcastInDim S262144 ![] bcast_S_S262144 call3_c_2
  let call3_v8 : IVec S262144 1 := cmpi .slt call3_v4 call3_v7
  let call3_c_3 : IVec S_ 32 := constantI S_ 32 0#32
  let call3_v9 : IVec S_ 1 := cmpi .slt call3_v2 call3_c_3
  let call3_v10 : IVec S262144 1 := broadcastInDim S262144 ![] bcast_S_S262144 call3_v9
  let call3_v11 : IVec S262144 1 := cmpi .ne call3_v8 call3_v10
  let call3_v12 : IVec S262144 1 := andi call3_v11 call3_v6
  let call3_v13 : IVec S262144 32 := broadcastInDim S262144 ![] bcast_S_S262144 call3_v2
  let call3_v14 : IVec S262144 32 := addi call3_v4 call3_v13
  levelR_part10 (F := F) lw T v81 v113 v115 call3_v4 call3_v12 call3_v14

def levelR_part8 {F : FTy → Type} [FloatOps F] [Cert.ReferenceIdeal.Facts] (lw : BitVec 32) (resw : BitVec 32) (sizew : BitVec 32) (T : FVec F S8x8192x8 .f32) (v6 : IVec S262144x2 32) (v12 : FVec F S262144x2 .f32) (v79 : FVec F S262144x8 .f32) (v81 : FVec F S262144 .f32) (v97 : IVec S262144 32) (v99 : FVec F S262144x1 .f32) (v101 : IVec S262144 1) (v103 : IVec S262144 32) : FVec F S262144x8 .f32 :=
  let v104 : IVec S262144 32 := select v101 v103 v97
  let c_26 : IVec S_ 32 := constantI S_ 32 lw
  let v105 : IVec S262144 32 := broadcastInDim S262144 ![] bcast_S_S262144 c_26
  let v106 : IVec S262144 32 := id v105
  let v107 : IVec S262144x1 32 := broadcastInDim S262144x1 ![0] bcast_S262144_S262144x1_0 v106
  let v108 : IVec S262144x1 32 := broadcastInDim S262144x1 ![0] bcast_S262144_S262144x1_0 v104
  let v109 : IVec S262144x2 32 := (fun a b => concatenate S262144x2 1 [⟨S262144x1, a⟩, ⟨S262144x1, b⟩] concatenates_S262144x1_S262144x1_S262144x2_d1) v107 v108
  let v110 : FVec F S262144x8 .f32 := (fun x i => Host.gather gather_S8x8192x8_S262144x2_S262144x8_1_01_n_n_01_1_118 x i) T v109
  let v111 : FVec F S262144x8 .f32 := broadcastInDim S262144x8 ![0, 1] bcast_S262144x1_S262144x8_0_1 v99
  let v112 : FVec F S262144x8 .f32 := mulf v111 v110
  let v113 : FVec F S262144x8 .f32 := addf v79 v112
  let v114 : FVec F S262144x1 .f32 := (extractStridedSlice S262144x1 ![0, 1] · slices_S262144x2_S262144x1_0_1) v12
  let v115 : FVec F S262144 .f32 := shapeCast S262144 v114 shapeCasts_S262144x1_S262144
  let v116 : IVec S262144x1 32 := (extractStridedSlice S262144x1 ![0, 0] · slices_S262144x2_S262144x1_0_0) v6
  let v117 : IVec S262144 32 := shapeCast S262144 v116 shapeCasts_S262144x1_S262144
  let c_27 : IVec S_ 32 := constantI S_ 32 1#32
  let v118 : IVec S262144 32 := broadcastInDim S262144 ![] bcast_S_S262144 c_27
  let v119 : IVec S262144 32 := addi v117 v118
  let v120 : IVec S262144x1 32 := (extractStridedSlice S262144x1 ![0, 1] · slices_S262144x2_S262144x1_0_1) v6
  let v121 : IVec S262144 32 := shapeCast S262144 v120 shapeCasts_S262144x1_S262144
  let c_28 : IVec S_ 32 := constantI S_ 32 1#32
  let v122 : IVec S262144 32 := broadcastInDim S262144 ![] bcast_S_S262144 c_28
  let v123 : IVec S262144 32 := addi v121 v122
  let c_29 : IVec S_ 32 := constantI S_ 32 resw
  levelR_part9 (F := F) lw sizew T v81 v113 v115 v119 v123 c_29

def levelR_part7 {F : FTy → Type} [FloatOps F] [Cert.ReferenceIdeal.Facts] (lw : BitVec 32) (resw : BitVec 32) (sizew : BitVec 32) (T : FVec F S8x8192x8 .f32) (v6 : IVec S262144x2 32) (v12 : FVec F S262144x2 .f32) (v79 : FVec F S262144x8 .f32) (v81 : FVec F S262144 .f32) (v85 : FVec F S262144 .f32) (v96 : IVec S262144 32) (call2_v2 : IVec S_ 32) : FVec F S262144x8 .f32 :=
  let call2_v3 : IVec S262144 32 := broadcastInDim S262144 ![] bcast_S_S262144 call2_v2
  let call2_v4 : IVec S262144 32 := Host.remsi v96 call2_v3
  let call2_c_1 : IVec S_ 32 := constantI S_ 32 0#32
  let call2_v5 : IVec S262144 32 := broadcastInDim S262144 ![] bcast_S_S262144 call2_c_1
  let call2_v6 : IVec S262144 1 := cmpi .ne call2_v4 call2_v5
  let call2_c_2 : IVec S_ 32 := constantI S_ 32 0#32
  let call2_v7 : IVec S262144 32 := broadcastInDim S262144 ![] bcast_S_S262144 call2_c_2
  let call2_v8 : IVec S262144 1 := cmpi .slt call2_v4 call2_v7
  let call2_c_3 : IVec S_ 32 := constantI S_ 32 0#32
  let call2_v9 : IVec S_ 1 := cmpi .slt call2_v2 call2_c_3
  let call2_v10 : IVec S262144 1 := broadcastInDim S262144 ![] bcast_S_S262144 call2_v9
  let call2_v11 : IVec S262144 1 := cmpi .ne call2_v8 call2_v10
  let call2_v12 : IVec S262144 1 := andi call2_v11 call2_v6
  let call2_v13 : IVec S262144 32 := broadcastInDim S262144 ![] bcast_S_S262144 call2_v2
  let call2_v14 : IVec S262144 32 := addi call2_v4 call2_v13
  let v97 : IVec S262144 32 := select call2_v12 call2_v14 call2_v4
  let v98 : FVec F S262144 .f32 := mulf v81 v85
  let v99 : FVec F S262144x1 .f32 := broadcastInDim S262144x1 ![0] bcast_S262144_S262144x1_0 v98
  let c_24 : IVec S_ 32 := constantI S_ 32 0#32
  let v100 : IVec S262144 32 := broadcastInDim S262144 ![] bcast_S_S262144 c_24
  let v101 : IVec S262144 1 := cmpi .slt v97 v100
  let c_25 : IVec S_ 32 := constantI S_ 32 8192#32
  let v102 : IVec S262144 32 := broadcastInDim S262144 ![] bcast_S_S262144 c_25
  let v103 : IVec S262144 32 := addi v97 v102
  levelR_part8 (F := F) lw resw sizew T v6 v12 v79 v81 v97 v99 v101 v103

def levelR_part6 {F : FTy → Type} [FloatOps F] [Cert.ReferenceIdeal.Facts] (lw : BitVec 32) (resw : BitVec 32) (sizew : BitVec 32) (T : FVec F S8x8192x8 .f32) (v6 : IVec S262144x2 32) (v12 : FVec F S262144x2 .f32) (v79 : FVec F S262144x8 .f32) (v81 : FVec F S262144 .f32) (v82 : FVec F S262144x1 .f32) : FVec F S262144x8 .f32 :=
  let v83 : FVec F S262144 .f32 := shapeCast S262144 v82 shapeCasts_S262144x1_S262144
  let cst_19 : FVec F S_ .f32 := constant S_ .f32 0x3F800000#32
  let v84 : FVec F S262144 .f32 := broadcastInDim S262144 ![] bcast_S_S262144 cst_19
  let v85 : FVec F S262144 .f32 := subf v84 v83
  let v86 : IVec S262144x1 32 := (extractStridedSlice S262144x1 ![0, 0] · slices_S262144x2_S262144x1_0_0) v6
  let v87 : IVec S262144 32 := shapeCast S262144 v86 shapeCasts_S262144x1_S262144
  let c_20 : IVec S_ 32 := constantI S_ 32 1#32
  let v88 : IVec S262144 32 := broadcastInDim S262144 ![] bcast_S_S262144 c_20
  let v89 : IVec S262144 32 := addi v87 v88
  let v90 : IVec S262144x1 32 := (extractStridedSlice S262144x1 ![0, 1] · slices_S262144x2_S262144x1_0_1) v6
  let v91 : IVec S262144 32 := shapeCast S262144 v90 shapeCasts_S262144x1_S262144
  let c_21 : IVec S_ 32 := constantI S_ 32 0#32
  let v92 : IVec S262144 32 := broadcastInDim S262144 ![] bcast_S_S262144 c_21
  let v93 : IVec S262144 32 := addi v91 v92
  let c_22 : IVec S_ 32 := constantI S_ 32 resw
  let v94 : IVec S262144 32 := broadcastInDim S262144 ![] bcast_S_S262144 c_22
  let v95 : IVec S262144 32 := muli v93 v94
  let v96 : IVec S262144 32 := addi v89 v95
  let c_23 : IVec S_ 32 := constantI S_ 32 sizew
  let call2_v0 : IVec S_ 32 := id c_23
  let call2_c : IVec S_ 32 := constantI S_ 32 0#32
  let call2_v1 : IVec S_ 1 := cmpi .eq call2_v0 call2_c
  let call2_c_0 : IVec S_ 32 := constantI S_ 32 1#32
  let call2_v2 : IVec S_ 32 := select call2_v1 call2_c_0 call2_v0
  levelR_part7 (F := F) lw resw sizew T v6 v12 v79 v81 v85 v96 call2_v2

def levelR_part5 {F : FTy → Type} [FloatOps F] [Cert.ReferenceIdeal.Facts] (lw : BitVec 32) (resw : BitVec 32) (sizew : BitVec 32) (T : FVec F S8x8192x8 .f32) (v6 : IVec S262144x2 32) (v12 : FVec F S262144x2 .f32) (v17 : FVec F S262144 .f32) (v49 : FVec F S262144x8 .f32) (v51 : FVec F S262144 .f32) (call1_v4 : IVec S262144 32) (call1_v12 : IVec S262144 1) (call1_v13 : IVec S262144 32) : FVec F S262144x8 .f32 :=
  let call1_v14 : IVec S262144 32 := addi call1_v4 call1_v13
  let v63 : IVec S262144 32 := select call1_v12 call1_v14 call1_v4
  let v64 : FVec F S262144 .f32 := mulf v17 v51
  let v65 : FVec F S262144x1 .f32 := broadcastInDim S262144x1 ![0] bcast_S262144_S262144x1_0 v64
  let c_16 : IVec S_ 32 := constantI S_ 32 0#32
  let v66 : IVec S262144 32 := broadcastInDim S262144 ![] bcast_S_S262144 c_16
  let v67 : IVec S262144 1 := cmpi .slt v63 v66
  let c_17 : IVec S_ 32 := constantI S_ 32 8192#32
  let v68 : IVec S262144 32 := broadcastInDim S262144 ![] bcast_S_S262144 c_17
  let v69 : IVec S262144 32 := addi v63 v68
  let v70 : IVec S262144 32 := select v67 v69 v63
  let c_18 : IVec S_ 32 := constantI S_ 32 lw
  let v71 : IVec S262144 32 := broadcastInDim S262144 ![] bcast_S_S262144 c_18
  let v72 : IVec S262144 32 := id v71
  let v73 : IVec S262144x1 32 := broadcastInDim S262144x1 ![0] bcast_S262144_S262144x1_0 v72
  let v74 : IVec S262144x1 32 := broadcastInDim S262144x1 ![0] bcast_S262144_S262144x1_0 v70
  let v75 : IVec S262144x2 32 := (fun a b => concatenate S262144x2 1 [⟨S262144x1, a⟩, ⟨S262144x1, b⟩] concatenates_S262144x1_S262144x1_S262144x2_d1) v73 v74
  let v76 : FVec F S262144x8 .f32 := (fun x i => Host.gather gather_S8x8192x8_S262144x2_S262144x8_1_01_n_n_01_1_118 x i) T v75
  let v77 : FVec F S262144x8 .f32 := broadcastInDim S262144x8 ![0, 1] bcast_S262144x1_S262144x8_0_1 v65
  let v78 : FVec F S262144x8 .f32 := mulf v77 v76
  let v79 : FVec F S262144x8 .f32 := addf v49 v78
  let v80 : FVec F S262144x1 .f32 := (extractStridedSlice S262144x1 ![0, 0] · slices_S262144x2_S262144x1_0_0) v12
  let v81 : FVec F S262144 .f32 := shapeCast S262144 v80 shapeCasts_S262144x1_S262144
  let v82 : FVec F S262144x1 .f32 := (extractStridedSlice S262144x1 ![0, 1] · slices_S262144x2_S262144x1_0_1) v12
  levelR_part6 (F := F) lw resw sizew T v6 v12 v79 v81 v82

def levelR_part4 {F : FTy → Type} [FloatOps F] [Cert.ReferenceIdeal.Facts] (lw : BitVec 32) (resw : BitVec 32) (sizew : BitVec 32) (T : FVec F S8x8192x8 .f32) (v6 : IVec S262144x2 32) (v12 : FVec F S262144x2 .f32) (v17 : FVec F S262144 .f32) (v49 : FVec F S262144x8 .f32) (v51 : FVec F S262144 .f32) (v55 : IVec S262144 32) (v59 : IVec S262144 32) : FVec F S262144x8 .f32 :=
  let c_14 : IVec S_ 32 := constantI S_ 32 resw
  let v60 : IVec S262144 32 := broadcastInDim S262144 ![] bcast_S_S262144 c_14
  let v61 : IVec S262144 32 := muli v59 v60
  let v62 : IVec S262144 32 := addi v55 v61
  let c_15 : IVec S_ 32 := constantI S_ 32 sizew
  let call1_v0 : IVec S_ 32 := id c_15
  let call1_c : IVec S_ 32 := constantI S_ 32 0#32
  let call1_v1 : IVec S_ 1 := cmpi .eq call1_v0 call1_c
  let call1_c_0 : IVec S_ 32 := constantI S_ 32 1#32
  let call1_v2 : IVec S_ 32 := select call1_v1 call1_c_0 call1_v0
  let call1_v3 : IVec S262144 32 := broadcastInDim S262144 ![] bcast_S_S262144 call1_v2
  let call1_v4 : IVec S262144 32 := Host.remsi v62 call1_v3
  let call1_c_1 : IVec S_ 32 := constantI S_ 32 0#32
  let call1_v5 : IVec S262144 32 := broadcastInDim S262144 ![] bcast_S_S262144 call1_c_1
  let call1_v6 : IVec S262144 1 := cmpi .ne call1_v4 call1_v5
  let call1_c_2 : IVec S_ 32 := constantI S_ 32 0#32
  let call1_v7 : IVec S262144 32 := broadcastInDim S262144 ![] bcast_S_S262144 call1_c_2
  let call1_v8 : IVec S262144 1 := cmpi .slt call1_v4 call1_v7
  let call1_c_3 : IVec S_ 32 := constantI S_ 32 0#32
  let call1_v9 : IVec S_ 1 := cmpi .slt call1_v2 call1_c_3
  let call1_v10 : IVec S262144 1 := broadcastInDim S262144 ![] bcast_S_S262144 call1_v9
  let call1_v11 : IVec S262144 1 := cmpi .ne call1_v8 call1_v10
  let call1_v12 : IVec S262144 1 := andi call1_v11 call1_v6
  let call1_v13 : IVec S262144 32 := broadcastInDim S262144 ![] bcast_S_S262144 call1_v2
  levelR_part5 (F := F) lw resw sizew T v6 v12 v17 v49 v51 call1_v4 call1_v12 call1_v13

def levelR_part3 {F : FTy → Type} [FloatOps F] [Cert.ReferenceIdeal.Facts] (lw : BitVec 32) (resw : BitVec 32) (sizew : BitVec 32) (T : FVec F S8x8192x8 .f32) (v6 : IVec S262144x2 32) (v12 : FVec F S262144x2 .f32) (v13 : FVec F S262144x8 .f32) (v17 : FVec F S262144 .f32) (v33 : IVec S262144 32) (v35 : FVec F S262144x1 .f32) (v37 : IVec S262144 1) (v38 : IVec S262144 32) : FVec F S262144x8 .f32 :=
  let v39 : IVec S262144 32 := addi v33 v38
  let v40 : IVec S262144 32 := select v37 v39 v33
  let c_11 : IVec S_ 32 := constantI S_ 32 lw
  let v41 : IVec S262144 32 := broadcastInDim S262144 ![] bcast_S_S262144 c_11
  let v42 : IVec S262144 32 := id v41
  let v43 : IVec S262144x1 32 := broadcastInDim S262144x1 ![0] bcast_S262144_S262144x1_0 v42
  let v44 : IVec S262144x1 32 := broadcastInDim S262144x1 ![0] bcast_S262144_S262144x1_0 v40
  let v45 : IVec S262144x2 32 := (fun a b => concatenate S262144x2 1 [⟨S262144x1, a⟩, ⟨S262144x1, b⟩] concatenates_S262144x1_S262144x1_S262144x2_d1) v43 v44
  let v46 : FVec F S262144x8 .f32 := (fun x i => Host.gather gather_S8x8192x8_S262144x2_S262144x8_1_01_n_n_01_1_118 x i) T v45
  let v47 : FVec F S262144x8 .f32 := broadcastInDim S262144x8 ![0, 1] bcast_S262144x1_S262144x8_0_1 v35
  let v48 : FVec F S262144x8 .f32 := mulf v47 v46
  let v49 : FVec F S262144x8 .f32 := addf v13 v48
  let v50 : FVec F S262144x1 .f32 := (extractStridedSlice S262144x1 ![0, 1] · slices_S262144x2_S262144x1_0_1) v12
  let v51 : FVec F S262144 .f32 := shapeCast S262144 v50 shapeCasts_S262144x1_S262144
  let v52 : IVec S262144x1 32 := (extractStridedSlice S262144x1 ![0, 0] · slices_S262144x2_S262144x1_0_0) v6
  let v53 : IVec S262144 32 := shapeCast S262144 v52 shapeCasts_S262144x1_S262144
  let c_12 : IVec S_ 32 := constantI S_ 32 0#32
  let v54 : IVec S262144 32 := broadcastInDim S262144 ![] bcast_S_S262144 c_12
  let v55 : IVec S262144 32 := addi v53 v54
  let v56 : IVec S262144x1 32 := (extractStridedSlice S262144x1 ![0, 1] · slices_S262144x2_S262144x1_0_1) v6
  let v57 : IVec S262144 32 := shapeCast S262144 v56 shapeCasts_S262144x1_S262144
  let c_13 : IVec S_ 32 := constantI S_ 32 1#32
  let v58 : IVec S262144 32 := broadcastInDim S262144 ![] bcast_S_S262144 c_13
  let v59 : IVec S262144 32 := addi v57 v58
  levelR_part4 (F := F) lw resw sizew T v6 v12 v17 v49 v51 v55 v59

def levelR_part2 {F : FTy → Type} [FloatOps F] [Cert.ReferenceIdeal.Facts] (lw : BitVec 32) (resw : BitVec 32) (sizew : BitVec 32) (T : FVec F S8x8192x8 .f32) (v6 : IVec S262144x2 32) (v12 : FVec F S262144x2 .f32) (v13 : FVec F S262144x8 .f32) (v17 : FVec F S262144 .f32) (v21 : FVec F S262144 .f32) (v32 : IVec S262144 32) (call0_v0 : IVec S_ 32) (call0_v1 : IVec S_ 1) (call0_c_0 : IVec S_ 32) : FVec F S262144x8 .f32 :=
  let call0_v2 : IVec S_ 32 := select call0_v1 call0_c_0 call0_v0
  let call0_v3 : IVec S262144 32 := broadcastInDim S262144 ![] bcast_S_S262144 call0_v2
  let call0_v4 : IVec S262144 32 := Host.remsi v32 call0_v3
  let call0_c_1 : IVec S_ 32 := constantI S_ 32 0#32
  let call0_v5 : IVec S262144 32 := broadcastInDim S262144 ![] bcast_S_S262144 call0_c_1
  let call0_v6 : IVec S262144 1 := cmpi .ne call0_v4 call0_v5
  let call0_c_2 : IVec S_ 32 := constantI S_ 32 0#32
  let call0_v7 : IVec S262144 32 := broadcastInDim S262144 ![] bcast_S_S262144 call0_c_2
  let call0_v8 : IVec S262144 1 := cmpi .slt call0_v4 call0_v7
  let call0_c_3 : IVec S_ 32 := constantI S_ 32 0#32
  let call0_v9 : IVec S_ 1 := cmpi .slt call0_v2 call0_c_3
  let call0_v10 : IVec S262144 1 := broadcastInDim S262144 ![] bcast_S_S262144 call0_v9
  let call0_v11 : IVec S262144 1 := cmpi .ne call0_v8 call0_v10
  let call0_v12 : IVec S262144 1 := andi call0_v11 call0_v6
  let call0_v13 : IVec S262144 32 := broadcastInDim S262144 ![] bcast_S_S262144 call0_v2
  let call0_v14 : IVec S262144 32 := addi call0_v4 call0_v13
  let v33 : IVec S262144 32 := select call0_v12 call0_v14 call0_v4
  let v34 : FVec F S262144 .f32 := mulf v17 v21
  let v35 : FVec F S262144x1 .f32 := broadcastInDim S262144x1 ![0] bcast_S262144_S262144x1_0 v34
  let c_9 : IVec S_ 32 := constantI S_ 32 0#32
  let v36 : IVec S262144 32 := broadcastInDim S262144 ![] bcast_S_S262144 c_9
  let v37 : IVec S262144 1 := cmpi .slt v33 v36
  let c_10 : IVec S_ 32 := constantI S_ 32 8192#32
  let v38 : IVec S262144 32 := broadcastInDim S262144 ![] bcast_S_S262144 c_10
  levelR_part3 (F := F) lw resw sizew T v6 v12 v13 v17 v33 v35 v37 v38

def levelR_part1 {F : FTy → Type} [FloatOps F] [Cert.ReferenceIdeal.Facts] (lw : BitVec 32) (resw : BitVec 32) (sizew : BitVec 32) (T : FVec F S8x8192x8 .f32) (v6 : IVec S262144x2 32) (v12 : FVec F S262144x2 .f32) (v13 : FVec F S262144x8 .f32) (v17 : FVec F S262144 .f32) : FVec F S262144x8 .f32 :=
  let v18 : FVec F S262144x1 .f32 := (extractStridedSlice S262144x1 ![0, 1] · slices_S262144x2_S262144x1_0_1) v12
  let v19 : FVec F S262144 .f32 := shapeCast S262144 v18 shapeCasts_S262144x1_S262144
  let cst_5 : FVec F S_ .f32 := constant S_ .f32 0x3F800000#32
  let v20 : FVec F S262144 .f32 := broadcastInDim S262144 ![] bcast_S_S262144 cst_5
  let v21 : FVec F S262144 .f32 := subf v20 v19
  let v22 : IVec S262144x1 32 := (extractStridedSlice S262144x1 ![0, 0] · slices_S262144x2_S262144x1_0_0) v6
  let v23 : IVec S262144 32 := shapeCast S262144 v22 shapeCasts_S262144x1_S262144
  let c : IVec S_ 32 := constantI S_ 32 0#32
  let v24 : IVec S262144 32 := broadcastInDim S262144 ![] bcast_S_S262144 c
  let v25 : IVec S262144 32 := addi v23 v24
  let v26 : IVec S262144x1 32 := (extractStridedSlice S262144x1 ![0, 1] · slices_S262144x2_S262144x1_0_1) v6
  let v27 : IVec S262144 32 := shapeCast S262144 v26 shapeCasts_S262144x1_S262144
  let c_6 : IVec S_ 32 := constantI S_ 32 0#32
  let v28 : IVec S262144 32 := broadcastInDim S262144 ![] bcast_S_S262144 c_6
  let v29 : IVec S262144 32 := addi v27 v28
  let c_7 : IVec S_ 32 := constantI S_ 32 resw
  let v30 : IVec S262144 32 := broadcastInDim S262144 ![] bcast_S_S262144 c_7
  let v31 : IVec S262144 32 := muli v29 v30
  let v32 : IVec S262144 32 := addi v25 v31
  let c_8 : IVec S_ 32 := constantI S_ 32 sizew
  let call0_v0 : IVec S_ 32 := id c_8
  let call0_c : IVec S_ 32 := constantI S_ 32 0#32
  let call0_v1 : IVec S_ 1 := cmpi .eq call0_v0 call0_c
  let call0_c_0 : IVec S_ 32 := constantI S_ 32 1#32
  levelR_part2 (F := F) lw resw sizew T v6 v12 v13 v17 v21 v32 call0_v0 call0_v1 call0_c_0

def levelR {F : FTy → Type} [FloatOps F] [Cert.ReferenceIdeal.Facts] (sw lw resw sizew : BitVec 32) (x : FVec F S262144x2 .f32) (T : FVec F S8x8192x8 .f32) : FVec F S262144x8 .f32 :=
  let cst : FVec F S_ .f32 := constant S_ .f32 sw
  let v0 : FVec F S262144x2 .f32 := broadcastInDim S262144x2 ![] bcast_S_S262144x2 cst
  let v1 : FVec F S262144x2 .f32 := mulf x v0
  let cst_0 : FVec F S_ .f32 := constant S_ .f32 0x3F000000#32
  let v2 : FVec F S262144x2 .f32 := broadcastInDim S262144x2 ![] bcast_S_S262144x2 cst_0
  let v3 : FVec F S262144x2 .f32 := addf v1 v2
  let v4 : FVec F S262144x2 .f32 := Host.floor v3
  let v5 : FVec F S262144x2 .f32 := subf v3 v4
  let v6 : IVec S262144x2 32 := fptosi 32 v4
  let v7 : FVec F S262144x2 .f32 := mulf v5 v5
  let cst_1 : FVec F S_ .f32 := constant S_ .f32 0x40000000#32
  let v8 : FVec F S262144x2 .f32 := broadcastInDim S262144x2 ![] bcast_S_S262144x2 cst_1
  let v9 : FVec F S262144x2 .f32 := mulf v8 v5
  let cst_2 : FVec F S_ .f32 := constant S_ .f32 0x40400000#32
  let v10 : FVec F S262144x2 .f32 := broadcastInDim S262144x2 ![] bcast_S_S262144x2 cst_2
  let v11 : FVec F S262144x2 .f32 := subf v10 v9
  let v12 : FVec F S262144x2 .f32 := mulf v7 v11
  let cst_3 : FVec F S_ .f32 := constant S_ .f32 0x00000000#32
  let v13 : FVec F S262144x8 .f32 := broadcastInDim S262144x8 ![] bcast_S_S262144x8 cst_3
  let v14 : FVec F S262144x1 .f32 := (extractStridedSlice S262144x1 ![0, 0] · slices_S262144x2_S262144x1_0_0) v12
  let v15 : FVec F S262144 .f32 := shapeCast S262144 v14 shapeCasts_S262144x1_S262144
  let cst_4 : FVec F S_ .f32 := constant S_ .f32 0x3F800000#32
  let v16 : FVec F S262144 .f32 := broadcastInDim S262144 ![] bcast_S_S262144 cst_4
  let v17 : FVec F S262144 .f32 := subf v16 v15
  levelR_part1 (F := F) lw resw sizew T v6 v12 v13 v17

def tailR {F : FTy → Type} [FloatOps F] [Cert.ReferenceIdeal.Facts] (e0 e1 e2 e3 e4 e5 e6 e7 : FVec F S262144x8 .f32) (W0 : FVec F S64x256 .f32) (W1 W2 : FVec F S256x256 .f32) (W3 : FVec F S256x1 .f32) : FVec F S262144x1 .f32 :=
  let v1152 : FVec F S262144x64 .f32 := concatenate S262144x64 1 [⟨S262144x8, e0⟩, ⟨S262144x8, e1⟩, ⟨S262144x8, e2⟩, ⟨S262144x8, e3⟩, ⟨S262144x8, e4⟩, ⟨S262144x8, e5⟩, ⟨S262144x8, e6⟩, ⟨S262144x8, e7⟩] concatenates_S262144x8_S262144x8_S262144x8_S262144x8_S262144x8_S262144x8_S262144x8_S262144x8_S262144x64_d1
  let v1153 : FVec F S262144x256 .f32 := (fun l r => Host.dotGeneral dot_S262144x64_S64x256_S262144x256_1_0_0_1_n_n none l r) v1152 W0
  let call32_cst : FVec F S_ .f32 := constant S_ .f32 0x00000000#32
  let call32_v0 : FVec F S262144x256 .f32 := broadcastInDim S262144x256 ![] bcast_S_S262144x256 call32_cst
  let v1154 : FVec F S262144x256 .f32 := maximumf v1153 call32_v0
  let v1155 : FVec F S262144x256 .f32 := (fun l r => Host.dotGeneral dot_S262144x256_S256x256_S262144x256_1_0_0_1_n_n none l r) v1154 W1
  let call33_cst : FVec F S_ .f32 := constant S_ .f32 0x00000000#32
  let call33_v0 : FVec F S262144x256 .f32 := broadcastInDim S262144x256 ![] bcast_S_S262144x256 call33_cst
  let v1156 : FVec F S262144x256 .f32 := maximumf v1155 call33_v0
  let v1157 : FVec F S262144x256 .f32 := (fun l r => Host.dotGeneral dot_S262144x256_S256x256_S262144x256_1_0_0_1_n_n none l r) v1156 W2
  let call34_cst : FVec F S_ .f32 := constant S_ .f32 0x00000000#32
  let call34_v0 : FVec F S262144x256 .f32 := broadcastInDim S262144x256 ![] bcast_S_S262144x256 call34_cst
  let v1158 : FVec F S262144x256 .f32 := maximumf v1157 call34_v0
  let v1159 : FVec F S262144x1 .f32 := (fun l r => Host.dotGeneral dot_S262144x256_S256x1_S262144x1_1_0_0_1_n_n none l r) v1158 W3
  v1159

end Cert.ReferenceIdeal.RefVal

end
-- ==== Proof.RefLib.lean ====
-- The contents after two stretches of operations in a row: run the first, then the second from where the first ended.
import Idealize.ShloMosaic.Lib.StableHlo.Run

noncomputable section

namespace Cert.RefLib

open Idealize.ShloMosaic Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.RefLib

end
-- ==== Proof.RefChunk0.lean ====
-- Level 0 of the reference run on its own: its operations leave the level function of the two arguments in the level's feature buffer.
import proofs.«132274_j36180804501977_1_alg».proof.Proof.RefFn
import proofs.«132274_j36180804501977_1_alg».proof.Proof.RefOps0
import proofs.«132274_j36180804501977_1_alg».proof.Proof.RefLib

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.remsi concatenate in
set_option maxRecDepth 65536 in
set_option maxHeartbeats 4000000 in
theorem level0_after (V : Valuation τ sig (Elt F)) :
    after lvlOps0 V (Proc.devRef .tc main_v143)
      = levelR 0x41700000#32 0#32 16#32 256#32 (V (Proc.devRef .tc main_arg0)) (V (Proc.devRef .tc main_arg1)) := by
  rw [Cert.RefLib.after_append, Cert.RefLib.after_append]
  unfold levelR levelR_part1 levelR_part2 levelR_part3 levelR_part4 levelR_part5 levelR_part6 levelR_part7 levelR_part8
    levelR_part9 levelR_part10
  after_results_simp
  rfl

end Cert.ReferenceIdeal.RefVal

end
-- ==== Proof.RefChunk1.lean ====
-- Level 1 of the reference run on its own: its operations leave the level function of the two arguments in the level's feature buffer.
import proofs.«132274_j36180804501977_1_alg».proof.Proof.RefFn
import proofs.«132274_j36180804501977_1_alg».proof.Proof.RefOps1
import proofs.«132274_j36180804501977_1_alg».proof.Proof.RefLib

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.remsi concatenate in
set_option maxRecDepth 65536 in
set_option maxHeartbeats 4000000 in
theorem level1_after (V : Valuation τ sig (Elt F)) :
    after lvlOps1 V (Proc.devRef .tc main_v287)
      = levelR 0x41994518#32 1#32 21#32 448#32 (V (Proc.devRef .tc main_arg0)) (V (Proc.devRef .tc main_arg1)) := by
  rw [Cert.RefLib.after_append, Cert.RefLib.after_append]
  unfold levelR levelR_part1 levelR_part2 levelR_part3 levelR_part4 levelR_part5 levelR_part6 levelR_part7 levelR_part8
    levelR_part9 levelR_part10
  after_results_simp
  rfl

end Cert.ReferenceIdeal.RefVal

end
-- ==== Proof.RefChunk2.lean ====
-- Level 2 of the reference run on its own: its operations leave the level function of the two arguments in the level's feature buffer.
import proofs.«132274_j36180804501977_1_alg».proof.Proof.RefFn
import proofs.«132274_j36180804501977_1_alg».proof.Proof.RefOps2
import proofs.«132274_j36180804501977_1_alg».proof.Proof.RefLib

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.remsi concatenate in
set_option maxRecDepth 65536 in
set_option maxHeartbeats 4000000 in
theorem level2_after (V : Valuation τ sig (Elt F)) :
    after lvlOps2 V (Proc.devRef .tc main_v431)
      = levelR 0x41C32FF6#32 2#32 26#32 680#32 (V (Proc.devRef .tc main_arg0)) (V (Proc.devRef .tc main_arg1)) := by
  rw [Cert.RefLib.after_append, Cert.RefLib.after_append]
  unfold levelR levelR_part1 levelR_part2 levelR_part3 levelR_part4 levelR_part5 levelR_part6 levelR_part7 levelR_part8
    levelR_part9 levelR_part10
  after_results_simp
  rfl

end Cert.ReferenceIdeal.RefVal

end
-- ==== Proof.RefChunk3.lean ====
-- Level 3 of the reference run on its own: its operations leave the level function of the two arguments in the level's feature buffer.
import proofs.«132274_j36180804501977_1_alg».proof.Proof.RefFn
import proofs.«132274_j36180804501977_1_alg».proof.Proof.RefOps3
import proofs.«132274_j36180804501977_1_alg».proof.Proof.RefLib

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.remsi concatenate in
set_option maxRecDepth 65536 in
set_option maxHeartbeats 4000000 in
theorem level3_after (V : Valuation τ sig (Elt F)) :
    after lvlOps3 V (Proc.devRef .tc main_v575)
      = levelR 0x41F80001#32 3#32 33#32 1096#32 (V (Proc.devRef .tc main_arg0)) (V (Proc.devRef .tc main_arg1)) := by
  rw [Cert.RefLib.after_append, Cert.RefLib.after_append]
  unfold levelR levelR_part1 levelR_part2 levelR_part3 levelR_part4 levelR_part5 levelR_part6 levelR_part7 levelR_part8
    levelR_part9 levelR_part10
  after_results_simp
  rfl

end Cert.ReferenceIdeal.RefVal

end
-- ==== Proof.RefChunk4.lean ====
-- Level 4 of the reference run on its own: its operations leave the level function of the two arguments in the level's feature buffer.
import proofs.«132274_j36180804501977_1_alg».proof.Proof.RefFn
import proofs.«132274_j36180804501977_1_alg».proof.Proof.RefOps4
import proofs.«132274_j36180804501977_1_alg».proof.Proof.RefLib

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.remsi concatenate in
set_option maxRecDepth 65536 in
set_option maxHeartbeats 4000000 in
theorem level4_after (V : Valuation τ sig (Elt F)) :
    after lvlOps4 V (Proc.devRef .tc main_v719)
      = levelR 0x421D4519#32 4#32 41#32 1688#32 (V (Proc.devRef .tc main_arg0)) (V (Proc.devRef .tc main_arg1)) := by
  rw [Cert.RefLib.after_append, Cert.RefLib.after_append]
  unfold levelR levelR_part1 levelR_part2 levelR_part3 levelR_part4 levelR_part5 levelR_part6 levelR_part7 levelR_part8
    levelR_part9 levelR_part10
  after_results_simp
  rfl

end Cert.ReferenceIdeal.RefVal

end
-- ==== Proof.RefChunk5.lean ====
-- Level 5 of the reference run on its own: its operations leave the level function of the two arguments in the level's feature buffer.
import proofs.«132274_j36180804501977_1_alg».proof.Proof.RefFn
import proofs.«132274_j36180804501977_1_alg».proof.Proof.RefOps5
import proofs.«132274_j36180804501977_1_alg».proof.Proof.RefLib

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.remsi concatenate in
set_option maxRecDepth 65536 in
set_option maxHeartbeats 4000000 in
theorem level5_after (V : Valuation τ sig (Elt F)) :
    after lvlOps5 V (Proc.devRef .tc main_v863)
      = levelR 0x42472FF6#32 5#32 51#32 2608#32 (V (Proc.devRef .tc main_arg0)) (V (Proc.devRef .tc main_arg1)) := by
  rw [Cert.RefLib.after_append, Cert.RefLib.after_append]
  unfold levelR levelR_part1 levelR_part2 levelR_part3 levelR_part4 levelR_part5 levelR_part6 levelR_part7 levelR_part8
    levelR_part9 levelR_part10
  after_results_simp
  rfl

end Cert.ReferenceIdeal.RefVal

end
-- ==== Proof.RefChunk6.lean ====
-- Level 6 of the reference run on its own: its operations leave the level function of the two arguments in the level's feature buffer.
import proofs.«132274_j36180804501977_1_alg».proof.Proof.RefFn
import proofs.«132274_j36180804501977_1_alg».proof.Proof.RefOps6
import proofs.«132274_j36180804501977_1_alg».proof.Proof.RefLib

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.remsi concatenate in
set_option maxRecDepth 65536 in
set_option maxHeartbeats 4000000 in
theorem level6_after (V : Valuation τ sig (Elt F)) :
    after lvlOps6 V (Proc.devRef .tc main_v1007)
      = levelR 0x427C0002#32 6#32 65#32 4232#32 (V (Proc.devRef .tc main_arg0)) (V (Proc.devRef .tc main_arg1)) := by
  rw [Cert.RefLib.after_append, Cert.RefLib.after_append]
  unfold levelR levelR_part1 levelR_part2 levelR_part3 levelR_part4 levelR_part5 levelR_part6 levelR_part7 levelR_part8
    levelR_part9 levelR_part10
  after_results_simp
  rfl

end Cert.ReferenceIdeal.RefVal

end
-- ==== Proof.RefChunk7.lean ====
-- Level 7 of the reference run on its own: its operations leave the level function of the two arguments in the level's feature buffer.
import proofs.«132274_j36180804501977_1_alg».proof.Proof.RefFn
import proofs.«132274_j36180804501977_1_alg».proof.Proof.RefOps7
import proofs.«132274_j36180804501977_1_alg».proof.Proof.RefLib

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] Host.gather Host.remsi concatenate in
set_option maxRecDepth 65536 in
set_option maxHeartbeats 4000000 in
theorem level7_after (V : Valuation τ sig (Elt F)) :
    after lvlOps7 V (Proc.devRef .tc main_v1151)
      = levelR 0x429F4519#32 7#32 81#32 6568#32 (V (Proc.devRef .tc main_arg0)) (V (Proc.devRef .tc main_arg1)) := by
  rw [Cert.RefLib.after_append, Cert.RefLib.after_append]
  unfold levelR levelR_part1 levelR_part2 levelR_part3 levelR_part4 levelR_part5 levelR_part6 levelR_part7 levelR_part8
    levelR_part9 levelR_part10
  after_results_simp
  rfl

end Cert.ReferenceIdeal.RefVal

end
-- ==== Proof.RefChunkTail.lean ====
-- The operations after the eight levels, run on their own: they leave the tail function of the eight feature buffers and the four weight arguments in the result buffer.
import proofs.«132274_j36180804501977_1_alg».proof.Proof.RefFn
import proofs.«132274_j36180804501977_1_alg».proof.Proof.RefOpsT
import proofs.«132274_j36180804501977_1_alg».proof.Proof.RefLib

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

attribute [local irreducible] concatenate in
set_option maxRecDepth 65536 in
set_option maxHeartbeats 1000000 in
theorem tail_after (V : Valuation τ sig (Elt F)) :
    after tailOps V (Proc.devRef .tc main_v1159)
      = tailR (V (Proc.devRef .tc main_v143)) (V (Proc.devRef .tc main_v287)) (V (Proc.devRef .tc main_v431)) (V (Proc.devRef .tc main_v575)) (V (Proc.devRef .tc main_v719)) (V (Proc.devRef .tc main_v863)) (V (Proc.devRef .tc main_v1007)) (V (Proc.devRef .tc main_v1151))
          (V (Proc.devRef .tc main_arg2)) (V (Proc.devRef .tc main_arg3)) (V (Proc.devRef .tc main_arg4)) (V (Proc.devRef .tc main_arg5)) := by
  unfold tailR
  after_results_simp
  rfl

end Cert.ReferenceIdeal.RefVal

end
-- ==== Proof.RefValue2.lean ====
/- The whole reference line read at its result and at its arguments: a reference that a stretch does not write passes through it, and each level's result is fed by the first two arguments as launched. -/
import proofs.«132274_j36180804501977_1_alg».proof.Proof.RefRun
import proofs.«132274_j36180804501977_1_alg».proof.Proof.RefChunk0
import proofs.«132274_j36180804501977_1_alg».proof.Proof.RefChunk1
import proofs.«132274_j36180804501977_1_alg».proof.Proof.RefChunk2
import proofs.«132274_j36180804501977_1_alg».proof.Proof.RefChunk3
import proofs.«132274_j36180804501977_1_alg».proof.Proof.RefChunk4
import proofs.«132274_j36180804501977_1_alg».proof.Proof.RefChunk5
import proofs.«132274_j36180804501977_1_alg».proof.Proof.RefChunk6
import proofs.«132274_j36180804501977_1_alg».proof.Proof.RefChunk7
import proofs.«132274_j36180804501977_1_alg».proof.Proof.RefChunkTail
import proofs.«132274_j36180804501977_1_alg».proof.Proof.RefLib

set_option maxRecDepth 65536
set_option Elab.async false

noncomputable section

namespace Cert.ReferenceIdeal.RefVal

open Cert.ReferenceIdeal Cert.ReferenceIdeal.Facts₀ Cert.ReferenceIdeal.Facts Idealize.ShloMosaic Idealize.ShloMosaic.TcCoe Idealize.SL.Sem Idealize.ShloMosaic.StableHlo

variable {F : FTy → Type} [FloatOps F] [Cert.ReferenceIdeal.Facts]

/-- What holds of a reference after a line still holds after a further stretch that does not write it. -/
theorem keep {P l : List (HloOp τ sig (Elt F))} {W : List (Ref sig .tc)} {r : Ref sig .tc} {g : Valuation τ sig (Elt F) → _}
    (hP : ∀ V, after P V (Proc.devRef .tc r) = g V)
    (hl : l.Forall fun op => op.writes ⊆ (W.map (Proc.devRef (τ := τ) .tc)).toFinset) (hr : r ∉ W)
    (V : Valuation τ sig (Elt F)) : after (P ++ l) V (Proc.devRef .tc r) = g V := by
  rw [Cert.RefLib.after_append]
  exact (after_of_writes_sub l _ hl hr).trans (hP V)

/-- A stretch computing f of the first two arguments, run after a line that leaves those two alone. -/
theorem fed {P l : List (HloOp τ sig (Elt F))} {b : DevRef τ sig} {f : _ → _ → _}
    (h0 : ∀ V, after P V (Proc.devRef .tc main_arg0) = V (Proc.devRef .tc main_arg0))
    (h1 : ∀ V, after P V (Proc.devRef .tc main_arg1) = V (Proc.devRef .tc main_arg1))
    (hl : ∀ V, after l V b = f (V (Proc.devRef .tc main_arg0)) (V (Proc.devRef .tc main_arg1)))
    (V : Valuation τ sig (Elt F)) :
    after (P ++ l) V b = f (V (Proc.devRef .tc main_arg0)) (V (Proc.devRef .tc main_arg1)) := by
  rw [Cert.RefLib.after_append, hl, h0, h1]

abbrev argRefs : List (Ref sig .tc) := [main_arg0, main_arg1, main_arg2, main_arg3, main_arg4, main_arg5]

/-- A line keeps the six arguments: each holds after it what it held before. -/
def Kept (l : List (HloOp τ sig (Elt F))) : Prop :=
  ∀ r ∈ argRefs, ∀ V, after l V (Proc.devRef .tc r) = V (Proc.devRef .tc r)

/-- The six arguments pass through a further stretch that writes none of them. -/
theorem keepArgs {P l : List (HloOp τ sig (Elt F))} {W : List (Ref sig .tc)} (hP : Kept P)
    (hl : l.Forall fun op => op.writes ⊆ (W.map (Proc.devRef (τ := τ) .tc)).toFinset) (hr : ∀ r ∈ argRefs, r ∉ W) :
    Kept (P ++ l) :=
  fun r h => keep (hP r h) hl (hr r h)

theorem args1 : Kept (lvlOps0 : List (HloOp τ sig (Elt F))) :=
  fun r h V => after_of_writes_sub lvlOps0 V lvlOps0_writes ((by decide +kernel : ∀ r ∈ argRefs, r ∉ lvlWrites0) r h)
theorem args2 : Kept (F := F) (lvlOps0 ++ lvlOps1) :=
  keepArgs args1 lvlOps1_writes (by decide +kernel)
theorem args3 : Kept (F := F) (lvlOps0 ++ lvlOps1 ++ lvlOps2) :=
  keepArgs args2 lvlOps2_writes (by decide +kernel)
theorem args4 : Kept (F := F) (lvlOps0 ++ lvlOps1 ++ lvlOps2 ++ lvlOps3) :=
  keepArgs args3 lvlOps3_writes (by decide +kernel)
theorem args5 : Kept (F := F) (lvlOps0 ++ lvlOps1 ++ lvlOps2 ++ lvlOps3 ++ lvlOps4) :=
  keepArgs args4 lvlOps4_writes (by decide +kernel)
theorem args6 : Kept (F := F) (lvlOps0 ++ lvlOps1 ++ lvlOps2 ++ lvlOps3 ++ lvlOps4 ++ lvlOps5) :=
  keepArgs args5 lvlOps5_writes (by decide +kernel)
theorem args7 : Kept (F := F) (lvlOps0 ++ lvlOps1 ++ lvlOps2 ++ lvlOps3 ++ lvlOps4 ++ lvlOps5 ++ lvlOps6) :=
  keepArgs args6 lvlOps6_writes (by decide +kernel)
theorem args8 : Kept (F := F) (lvlOps0 ++ lvlOps1 ++ lvlOps2 ++ lvlOps3 ++ lvlOps4 ++ lvlOps5 ++ lvlOps6 ++ lvlOps7) :=
  keepArgs args7 lvlOps7_writes (by decide +kernel)

theorem result_after (V : Valuation τ sig (Elt F)) :
    after ops V (Proc.devRef .tc main_v1159)
      = tailR (levelR 0x41700000#32 0#32 16#32 256#32 (V (Proc.devRef .tc main_arg0)) (V (Proc.devRef .tc main_arg1)))
          (levelR 0x41994518#32 1#32 21#32 448#32 (V (Proc.devRef .tc main_arg0)) (V (Proc.devRef .tc main_arg1)))
          (levelR 0x41C32FF6#32 2#32 26#32 680#32 (V (Proc.devRef .tc main_arg0)) (V (Proc.devRef .tc main_arg1)))
          (levelR 0x41F80001#32 3#32 33#32 1096#32 (V (Proc.devRef .tc main_arg0)) (V (Proc.devRef .tc main_arg1)))
          (levelR 0x421D4519#32 4#32 41#32 1688#32 (V (Proc.devRef .tc main_arg0)) (V (Proc.devRef .tc main_arg1)))
          (levelR 0x42472FF6#32 5#32 51#32 2608#32 (V (Proc.devRef .tc main_arg0)) (V (Proc.devRef .tc main_arg1)))
          (levelR 0x427C0002#32 6#32 65#32 4232#32 (V (Proc.devRef .tc main_arg0)) (V (Proc.devRef .tc main_arg1)))
          (levelR 0x429F4519#32 7#32 81#32 6568#32 (V (Proc.devRef .tc main_arg0)) (V (Proc.devRef .tc main_arg1)))
          (V (Proc.devRef .tc main_arg2)) (V (Proc.devRef .tc main_arg3)) (V (Proc.devRef .tc main_arg4)) (V (Proc.devRef .tc main_arg5)) := by
  rw [Cert.RefLib.after_append,
    tail_after,
    keep (keep (keep (keep (keep (keep (keep level0_after lvlOps1_writes (by decide +kernel)) lvlOps2_writes (by decide +kernel)) lvlOps3_writes (by decide +kernel)) lvlOps4_writes (by decide +kernel)) lvlOps5_writes (by decide +kernel)) lvlOps6_writes (by decide +kernel)) lvlOps7_writes (by decide +kernel) V,
    keep (keep (keep (keep (keep (keep (fed (args1 main_arg0 (by decide)) (args1 main_arg1 (by decide)) level1_after) lvlOps2_writes (by decide +kernel)) lvlOps3_writes (by decide +kernel)) lvlOps4_writes (by decide +kernel)) lvlOps5_writes (by decide +kernel)) lvlOps6_writes (by decide +kernel)) lvlOps7_writes (by decide +kernel) V,
    keep (keep (keep (keep (keep (fed (args2 main_arg0 (by decide)) (args2 main_arg1 (by decide)) level2_after) lvlOps3_writes (by decide +kernel)) lvlOps4_writes (by decide +kernel)) lvlOps5_writes (by decide +kernel)) lvlOps6_writes (by decide +kernel)) lvlOps7_writes (by decide +kernel) V,
    keep (keep (keep (keep (fed (args3 main_arg0 (by decide)) (args3 main_arg1 (by decide)) level3_after) lvlOps4_writes (by decide +kernel)) lvlOps5_writes (by decide +kernel)) lvlOps6_writes (by decide +kernel)) lvlOps7_writes (by decide +kernel) V,
    keep (keep (keep (fed (args4 main_arg0 (by decide)) (args4 main_arg1 (by decide)) level4_after) lvlOps5_writes (by decide +kernel)) lvlOps6_writes (by decide +kernel)) lvlOps7_writes (by decide +kernel) V,
    keep (keep (fed (args5 main_arg0 (by decide)) (args5 main_arg1 (by decide)) level5_after) lvlOps6_writes (by decide +kernel)) lvlOps7_writes (by decide +kernel) V,
    keep (fed (args6 main_arg0 (by decide)) (args6 main_arg1 (by decide)) level6_after) lvlOps7_writes (by decide +kernel) V,
    fed (args7 main_arg0 (by decide)) (args7 main_arg1 (by decide)) level7_after V,
    args8 main_arg2 (by decide) V,
    args8 main_arg3 (by decide) V,
    args8 main_arg4 (by decide) V,
    args8 main_arg5 (by decide) V]

theorem args9 : Kept (F := F) ops :=
  keepArgs args8 tailOps_writes (by decide +kernel)

theorem arg0_after (V : Valuation τ sig (Elt F)) : after ops V (Proc.devRef .tc main_arg0) = V (Proc.devRef .tc main_arg0) := by
  exact args9 main_arg0 (by decide) V

theorem arg1_after (V : Valuation τ sig (Elt F)) : after ops V (Proc.devRef .tc main_arg1) = V (Proc.devRef .tc main_arg1) := by
  exact args9 main_arg1 (by decide) V

theorem arg2_after (V : Valuation τ sig (Elt F)) : after ops V (Proc.devRef .tc main_arg2) = V (Proc.devRef .tc main_arg2) := by
  exact args9 main_arg2 (by decide) V

theorem arg3_after (V : Valuation τ sig (Elt F)) : after ops V (Proc.devRef .tc main_arg3) = V (Proc.devRef .tc main_arg3) := by
  exact args9 main_arg3 (by decide) V

theorem arg4_after (V : Valuation τ sig (Elt F)) : after ops V (Proc.devRef .tc main_arg4) = V (Proc.devRef .tc main_arg4) := by
  exact args9 main_arg4 (by decide) V

theorem arg5_after (V : Valuation τ sig (Elt F)) : after ops V (Proc.devRef .tc main_arg5) = V (Proc.devRef .tc main_arg5) := by
  exact args9 main_arg5 (by decide) V

end Cert.ReferenceIdeal.RefVal

end
-- ==== Proof.RefRead.lean ====
/- The reference's level and tail read at one point: every operation of a level is the scalar operation at the point, the level is the specification's four-corner accumulation and the tail its network. -/
import proofs.«132274_j36180804501977_1_alg».proof.Proof.RefFn
import proofs.«132274_j36180804501977_1_alg».proof.Proof.Spec
import Idealize.ShloMosaic.Lib.Pipeline.Value
import Idealize.ShloMosaic.Lib.IdealHost
import Idealize.ShloMosaic.Lib.ValueLayout
import Idealize.ShloMosaic.Lib.StackMember

noncomputable section

open scoped BigOperators

namespace Cert.ReferenceIdeal.RefVal

open Idealize.ShloMosaic Idealize.ShloMosaic.ValueIdx
open Cert.ReferenceIdeal Cert.ReferenceIdeal.Facts₀ Cert.ReferenceIdeal.Facts

variable [Cert.ReferenceIdeal.Facts]

section
variable {α : Type}

/-- Column k of a [262144, 2] array as a vector, at n: the array at (n, k). -/
theorem col_apply (o : ℕ) (h : S262144x2.Slices ![0, o] S262144x1) (c : S262144x2.Idx → α) (n : Fin 262144) (k : Fin 2)
    (hk : k.val = o) :
    shapeCast S262144 (extractStridedSlice S262144x1 ![0, o] c h) shapeCasts_S262144x1_S262144 (ix1 n) = c (ix2 n k) :=
  (shapeCast_apply _ shapeCasts_S262144x1_S262144 (ix1 n) (ix2 n 0) (by
    rw [Shape.rowMajor_val_two, Shape.rowMajor_val_one]
    show n.val * 1 + 0 = n.val
    omega)).trans (slice2_axis1_apply o c h n 0 k hk)

/-- A vector stood up as a one-wide column reads the vector at the row. -/
theorem asCol_apply (v : S262144.Idx → α) (n : Fin 262144) (q : Fin 1) :
    broadcastInDim S262144x1 ![0] bcast_S262144_S262144x1_0 v (ix2 n q) = v (ix1 n) :=
  broadcastInDim_apply _ _ v (ix2 n q) (ix1 n) (fun a => match a with | ⟨0, _⟩ => rfl)

/-- A one-wide column spread over eight features reads the column at the row. -/
theorem spread8_apply (v : S262144x1.Idx → α) (n : Fin 262144) (f : Fin 8) :
    broadcastInDim S262144x8 ![0, 1] bcast_S262144x1_S262144x8_0_1 v (ix2 n f) = v (ix2 n 0) :=
  broadcastInDim_apply _ _ v (ix2 n f) (ix2 n 0) (fun a => match a with | ⟨0, _⟩ => rfl | ⟨1, _⟩ => rfl)

end

/-- The remainder with the divisor's sign, on a vector of node numbers and the size word. -/
def remV (i : IVec S262144 32) (size : IVec S_ 32) : IVec S262144 32 :=
  let d : IVec S_ 32 := select (cmpi .eq (id size) (constantI S_ 32 0#32)) (constantI S_ 32 1#32) (id size)
  let r : IVec S262144 32 := Host.remsi i (broadcastInDim S262144 ![] bcast_S_S262144 d)
  select
    (andi
      (cmpi .ne (cmpi .slt r (broadcastInDim S262144 ![] bcast_S_S262144 (constantI S_ 32 0#32)))
        (broadcastInDim S262144 ![] bcast_S_S262144 (cmpi .slt d (constantI S_ 32 0#32))))
      (cmpi .ne r (broadcastInDim S262144 ![] bcast_S_S262144 (constantI S_ 32 0#32))))
    (addi r (broadcastInDim S262144 ![] bcast_S_S262144 d)) r

theorem remV_apply (i : IVec S262144 32) (size : IVec S_ 32) (n : Fin 262144) :
    remV i size (ix1 n) = Cert.Spec.floorMod (size ix0) (i (ix1 n)) := by
  unfold remV Cert.Spec.floorMod
  simp only [select, cmpi, andi, addi, Host.remsi, id]
  rw [broadcastInDim_scalar_apply, broadcastInDim_scalar_apply, broadcastInDim_scalar_apply]
  rfl

/-- The negative-row fix on a vector of rows: 8192 added where the row is negative. -/
def fixV (r : IVec S262144 32) : IVec S262144 32 :=
  select (cmpi .slt r (broadcastInDim S262144 ![] bcast_S_S262144 (constantI S_ 32 0#32)))
    (addi r (broadcastInDim S262144 ![] bcast_S_S262144 (constantI S_ 32 8192#32))) r

theorem fixV_apply (r : IVec S262144 32) (n : Fin 262144) : fixV r (ix1 n) = Cert.Spec.fixNeg (r (ix1 n)) := by
  unfold fixV Cert.Spec.fixNeg
  simp only [select, cmpi, addi]
  rw [broadcastInDim_scalar_apply, broadcastInDim_scalar_apply]
  rfl

section
variable {α : Type}

/-- Two one-wide columns side by side read the first at column 0. -/
theorem pair_apply_zero (a b : S262144x1.Idx → α) (n : Fin 262144) :
    concatenate S262144x2 1 [⟨S262144x1, a⟩, ⟨S262144x1, b⟩] concatenates_S262144x1_S262144x1_S262144x2_d1 (ix2 n 0)
      = a (ix2 n 0) :=
  concatenate_pair_apply_left (t := S262144x2) 1 a b concatenates_S262144x1_S262144x1_S262144x2_d1
    (ix2 n (0 : Fin 2)) rfl (ix2 n (0 : Fin 1)) (fun c => match c with | ⟨0, _⟩ => rfl | ⟨1, _⟩ => rfl)

/-- Two one-wide columns side by side read the second at column 1. -/
theorem pair_apply_one (a b : S262144x1.Idx → α) (n : Fin 262144) :
    concatenate S262144x2 1 [⟨S262144x1, a⟩, ⟨S262144x1, b⟩] concatenates_S262144x1_S262144x1_S262144x2_d1 (ix2 n 1)
      = b (ix2 n 0) :=
  concatenate_pair_apply_right (t := S262144x2) 1 a b concatenates_S262144x1_S262144x1_S262144x2_d1
    (ix2 n (1 : Fin 2)) rfl rfl (ix2 n (0 : Fin 1))
    (fun c hc => match c with | ⟨0, _⟩ => rfl | ⟨1, _⟩ => absurd rfl hc) rfl

local notation "GD" => gather_S8x8192x8_S262144x2_S262144x8_1_01_n_n_01_1_118

/-- The gather at (n, f): the table at the index pair n, each component read signed and clamped into its axis, and feature f. -/
theorem gather_apply (T : S8x8192x8.Idx → α) (idx : IVec S262144x2 32) (n : Fin 262144) (f : Fin 8) :
    Host.gather GD T idx (ix2 n f)
      = T (ix3 ⟨min (idx (ix2 n 0)).toInt.toNat 7, by omega⟩ ⟨min (idx (ix2 n 1)).toInt.toNat 8191, by omega⟩ f) := by
  unfold Host.gather
  refine congrArg T (funext fun a => Fin.ext ?_)
  show GatherDims.start GD (ix2 n f) idx a + GatherDims.batchCoord GD (ix2 n f) a + GatherDims.offCoord GD (ix2 n f) a = _
  rw [GatherDims.batchCoord_eq_zero _ _ _ List.not_mem_nil, Nat.add_zero]
  have key : ∀ (a : Fin 3) (q : Fin 2) (hmem : a ∈ GatherDims.startIndexMap GD),
      GatherDims.siIdx GD (ix2 n f) ⟨List.idxOf a (GatherDims.startIndexMap GD), List.idxOf_lt_length_iff.2 hmem⟩ = ix2 n q →
      GatherDims.start GD (ix2 n f) idx a + GatherDims.offCoord GD (ix2 n f) a
        = min (idx (ix2 n q)).toInt.toNat (S8x8192x8.size a - GatherDims.sliceSizes GD a) := fun a q hmem hsi => by
    rw [GatherDims.offCoord_eq_zero _ _ _ (fun h => ((GatherDims.mem_sKept _ _).mp h).1 hmem), Nat.add_zero]
    unfold GatherDims.start
    rw [dif_pos hmem, hsi]
  match a with
  | ⟨0, _⟩ =>
    exact key 0 0 (show (0 : Fin 3) ∈ [(0 : Fin 3), 1] by decide)
      (funext fun b => Fin.ext (match b with | ⟨0, _⟩ => rfl | ⟨1, _⟩ => rfl))
  | ⟨1, _⟩ =>
    exact key 1 1 (show (1 : Fin 3) ∈ [(0 : Fin 3), 1] by decide)
      (funext fun b => Fin.ext (match b with | ⟨0, _⟩ => rfl | ⟨1, _⟩ => rfl))
  | ⟨2, h2⟩ =>
    have hnm : (⟨2, h2⟩ : Fin S8x8192x8.rank) ∉ GatherDims.startIndexMap GD :=
      show (2 : Fin 3) ∉ [(0 : Fin 3), 1] by decide
    have hk : (⟨2, h2⟩ : Fin S8x8192x8.rank) ∈ GatherDims.sKept GD :=
      (GatherDims.mem_sKept _ _).2 ⟨hnm, List.not_mem_nil⟩
    unfold GatherDims.start GatherDims.offCoord
    rw [dif_neg hnm, dif_pos hk, Nat.zero_add]
    rfl

end

/-- The lookup at (n, f) through the level column and the row column: feature f of the clamped row of level l's table. -/
theorem lookup_apply (T : FVec Ideal S8x8192x8 .f32) (lv row : IVec S262144 32) (l : Fin 8) (n : Fin 262144) (f : Fin 8)
    (hl : min (lv (ix1 n)).toInt.toNat 7 = l.val) :
    Host.gather gather_S8x8192x8_S262144x2_S262144x8_1_01_n_n_01_1_118 T
        (concatenate S262144x2 1
          [⟨S262144x1, broadcastInDim S262144x1 ![0] bcast_S262144_S262144x1_0 lv⟩,
            ⟨S262144x1, broadcastInDim S262144x1 ![0] bcast_S262144_S262144x1_0 row⟩]
          concatenates_S262144x1_S262144x1_S262144x2_d1) (ix2 n f)
      = Cert.Spec.tab T l (row (ix1 n)) f := by
  refine (gather_apply T _ n f).trans (congrArg T (funext fun a => Fin.ext ?_))
  match a with
  | ⟨0, _⟩ =>
    show min (_ : BitVec 32).toInt.toNat 7 = l.val
    rw [pair_apply_zero, asCol_apply]
    exact hl
  | ⟨1, _⟩ =>
    show min (_ : BitVec 32).toInt.toNat 8191 = min (row (ix1 n)).toInt.toNat 8191
    rw [pair_apply_one, asCol_apply]
  | ⟨2, _⟩ => rfl

/-- Rectification at an entry: the maximum with the zero word spread over the array. -/
theorem relu_apply (x : FVec Ideal S262144x256 .f32) (i : S262144x256.Idx) :
    maximumf x (broadcastInDim S262144x256 ![] bcast_S_S262144x256 (constant (F := Ideal) S_ .f32 0x00000000#32)) i
      = Cert.Spec.relu (x i) := by
  rw [maximumf_apply, broadcastInDim_scalar_apply]
  rfl

/-- Piece k of eight blocks laid side by side holds the entries j with j / 8 = k. -/
private theorem concat8_piece (B0 B1 B2 B3 B4 B5 B6 B7 : FVec Ideal S262144x8 .f32) (n : Fin 262144) (j : Fin 64)
    (k : ℕ) (hk : k < 8) (B : FVec Ideal S262144x8 .f32)
    (hxk : ([⟨S262144x8, B0⟩, ⟨S262144x8, B1⟩, ⟨S262144x8, B2⟩, ⟨S262144x8, B3⟩, ⟨S262144x8, B4⟩, ⟨S262144x8, B5⟩,
        ⟨S262144x8, B6⟩, ⟨S262144x8, B7⟩] : List ((s : Shape) × (s.Idx → Ideal .f32)))[k]'hk = ⟨S262144x8, B⟩)
    (hjk : j.val / 8 = k) :
    concatenate S262144x64 1 [⟨S262144x8, B0⟩, ⟨S262144x8, B1⟩, ⟨S262144x8, B2⟩, ⟨S262144x8, B3⟩, ⟨S262144x8, B4⟩,
        ⟨S262144x8, B5⟩, ⟨S262144x8, B6⟩, ⟨S262144x8, B7⟩]
        concatenates_S262144x8_S262144x8_S262144x8_S262144x8_S262144x8_S262144x8_S262144x8_S262144x8_S262144x64_d1 (ix2 n j)
      = B (ix2 n (⟨j.val % 8, Nat.mod_lt _ (by norm_num)⟩ : Fin 8)) := by
  have hj : j.val < 64 := j.isLt
  refine concatenate_apply_piece (t := S262144x64) (1 : Fin 2) _ _ (ix2 n j) k (by exact hk) S262144x8 B hxk rfl (8 * k)
    (by interval_cases k <;> rfl) (ix2 n (⟨j.val % 8, Nat.mod_lt _ (by norm_num)⟩ : Fin 8)) (fun c hc => ?_) ?_
  · match c with
    | ⟨0, _⟩ => rfl
    | ⟨1, _⟩ => exact absurd rfl hc
  · show 8 * k + j.val % 8 = j.val
    omega

/-- Concatenating eight 8-column blocks is the specification's enc8 of their rows. -/
theorem enc8_apply (e0 e1 e2 e3 e4 e5 e6 e7 : FVec Ideal S262144x8 .f32) (n : Fin 262144) (j : Fin 64) :
    concatenate S262144x64 1
        [⟨S262144x8, e0⟩, ⟨S262144x8, e1⟩, ⟨S262144x8, e2⟩, ⟨S262144x8, e3⟩, ⟨S262144x8, e4⟩, ⟨S262144x8, e5⟩,
          ⟨S262144x8, e6⟩, ⟨S262144x8, e7⟩]
        concatenates_S262144x8_S262144x8_S262144x8_S262144x8_S262144x8_S262144x8_S262144x8_S262144x8_S262144x64_d1 (ix2 n j)
      = Cert.Spec.enc8 (fun f => e0 (ix2 n f)) (fun f => e1 (ix2 n f)) (fun f => e2 (ix2 n f)) (fun f => e3 (ix2 n f))
          (fun f => e4 (ix2 n f)) (fun f => e5 (ix2 n f)) (fun f => e6 (ix2 n f)) (fun f => e7 (ix2 n f)) j := by
  have hj : j.val < 64 := j.isLt
  unfold Cert.Spec.enc8
  obtain ⟨k, hk⟩ : ∃ k, j.val / 8 = k := ⟨_, rfl⟩
  rw [hk]
  have hk8 : k < 8 := by omega
  interval_cases k <;> exact concat8_piece e0 e1 e2 e3 e4 e5 e6 e7 n j _ (by norm_num) _ rfl hk

/-- The lattice positions, cells, fractional parts and smoothstep weights of both coordinates at the scale word sw. -/
def posV (sw : BitVec 32) (x : FVec Ideal S262144x2 .f32) : FVec Ideal S262144x2 .f32 :=
  addf (mulf x (broadcastInDim S262144x2 ![] bcast_S_S262144x2 (constant (F := Ideal) S_ .f32 sw)))
    (broadcastInDim S262144x2 ![] bcast_S_S262144x2 (constant (F := Ideal) S_ .f32 0x3F000000#32))

def cellV (sw : BitVec 32) (x : FVec Ideal S262144x2 .f32) : IVec S262144x2 32 :=
  fptosi 32 (Host.floor (posV sw x))

def fracV (sw : BitVec 32) (x : FVec Ideal S262144x2 .f32) : FVec Ideal S262144x2 .f32 :=
  subf (posV sw x) (Host.floor (posV sw x))

def wgtV (sw : BitVec 32) (x : FVec Ideal S262144x2 .f32) : FVec Ideal S262144x2 .f32 :=
  mulf (mulf (fracV sw x) (fracV sw x))
    (subf (broadcastInDim S262144x2 ![] bcast_S_S262144x2 (constant (F := Ideal) S_ .f32 0x40400000#32))
      (mulf (broadcastInDim S262144x2 ![] bcast_S_S262144x2 (constant (F := Ideal) S_ .f32 0x40000000#32)) (fracV sw x)))

theorem posV_apply (sw : BitVec 32) (x : FVec Ideal S262144x2 .f32) (i : S262144x2.Idx) :
    posV sw x i = Cert.Spec.pos sw (x i) := by
  simp only [posV, addf_apply, mulf_apply, broadcastInDim_scalar_apply]
  rfl

theorem cellV_apply (sw : BitVec 32) (x : FVec Ideal S262144x2 .f32) (i : S262144x2.Idx) :
    cellV sw x i = Cert.Spec.cell sw (x i) :=
  congrArg (fun p => Ideal.fptosi 32 (Ideal.liftRound Int.floor p)) (posV_apply sw x i)

theorem fracV_apply (sw : BitVec 32) (x : FVec Ideal S262144x2 .f32) (i : S262144x2.Idx) :
    fracV sw x i = Cert.Spec.frac sw (x i) :=
  congrArg (fun p => p - Ideal.liftRound Int.floor p) (posV_apply sw x i)

theorem wgtV_apply (sw : BitVec 32) (x : FVec Ideal S262144x2 .f32) (i : S262144x2.Idx) :
    wgtV sw x i = Cert.Spec.wgt sw (x i) := by
  simp only [wgtV, mulf_apply, subf_apply, broadcastInDim_scalar_apply, fracV_apply]
  rfl

section
variable {α : Type}

/-- The two columns of a [262144, 2] array as vectors. -/
def colA (c : S262144x2.Idx → α) : S262144.Idx → α :=
  shapeCast S262144 (extractStridedSlice S262144x1 ![0, 0] c slices_S262144x2_S262144x1_0_0) shapeCasts_S262144x1_S262144

def colB (c : S262144x2.Idx → α) : S262144.Idx → α :=
  shapeCast S262144 (extractStridedSlice S262144x1 ![0, 1] c slices_S262144x2_S262144x1_0_1) shapeCasts_S262144x1_S262144

theorem colA_apply (c : S262144x2.Idx → α) (n : Fin 262144) : colA c (ix1 n) = c (ix2 n 0) := col_apply 0 _ c n 0 rfl

theorem colB_apply (c : S262144x2.Idx → α) (n : Fin 262144) : colB c (ix1 n) = c (ix2 n 1) := col_apply 1 _ c n 1 rfl

end

/-- One less a vector of weights. -/
def oneSub (w : FVec Ideal S262144 .f32) : FVec Ideal S262144 .f32 :=
  subf (broadcastInDim S262144 ![] bcast_S_S262144 (constant (F := Ideal) S_ .f32 0x3F800000#32)) w

theorem oneSub_apply (w : FVec Ideal S262144 .f32) (n : Fin 262144) :
    oneSub w (ix1 n) = Cert.Spec.wOne - w (ix1 n) := by
  simp only [oneSub, subf_apply, broadcastInDim_scalar_apply]
  rfl

/-- The number of the lattice node (cell_x + dx, cell_y + dy) on a lattice resw nodes wide, per point. -/
def nodeV (resw : BitVec 32) (c : IVec S262144x2 32) (dx dy : BitVec 32) : IVec S262144 32 :=
  addi (addi (colA c) (broadcastInDim S262144 ![] bcast_S_S262144 (constantI S_ 32 dx)))
    (muli (addi (colB c) (broadcastInDim S262144 ![] bcast_S_S262144 (constantI S_ 32 dy)))
      (broadcastInDim S262144 ![] bcast_S_S262144 (constantI S_ 32 resw)))

/-- The table row of that node, per point. -/
def rowV (resw sizew : BitVec 32) (c : IVec S262144x2 32) (dx dy : BitVec 32) : IVec S262144 32 :=
  fixV (remV (nodeV resw c dx dy) (constantI S_ 32 sizew))

theorem rowV_apply (resw sizew : BitVec 32) (c : IVec S262144x2 32) (dx dy : BitVec 32) (n : Fin 262144) :
    rowV resw sizew c dx dy (ix1 n)
      = Cert.Spec.rowOf sizew (Cert.Spec.nodeOf resw (c (ix2 n 0)) (c (ix2 n 1)) dx dy) := by
  unfold rowV Cert.Spec.rowOf
  rw [fixV_apply, remV_apply]
  simp only [nodeV, Cert.Spec.nodeOf, addi, muli, colA_apply, colB_apply, broadcastInDim_scalar_apply]
  rfl

/-- A corner's contribution: the looked-up rows of level word lw, each times the product of its point's two weights. -/
def cornerV (lw : BitVec 32) (T : FVec Ideal S8x8192x8 .f32) (wa wb : FVec Ideal S262144 .f32) (row : IVec S262144 32) :
    FVec Ideal S262144x8 .f32 :=
  mulf
    (broadcastInDim S262144x8 ![0, 1] bcast_S262144x1_S262144x8_0_1
      (broadcastInDim S262144x1 ![0] bcast_S262144_S262144x1_0 (mulf wa wb)))
    (Host.gather gather_S8x8192x8_S262144x2_S262144x8_1_01_n_n_01_1_118 T
      (concatenate S262144x2 1
        [⟨S262144x1, broadcastInDim S262144x1 ![0] bcast_S262144_S262144x1_0
            (id (broadcastInDim S262144 ![] bcast_S_S262144 (constantI S_ 32 lw)))⟩,
          ⟨S262144x1, broadcastInDim S262144x1 ![0] bcast_S262144_S262144x1_0 row⟩]
        concatenates_S262144x1_S262144x1_S262144x2_d1))

theorem cornerV_apply (lw : BitVec 32) (l : Fin 8) (hl : min lw.toInt.toNat 7 = l.val) (T : FVec Ideal S8x8192x8 .f32)
    (wa wb : FVec Ideal S262144 .f32) (row : IVec S262144 32) (n : Fin 262144) (f : Fin 8) :
    cornerV lw T wa wb row (ix2 n f) = (wa (ix1 n) * wb (ix1 n)) * Cert.Spec.tab T l (row (ix1 n)) f := by
  unfold cornerV
  rw [mulf_apply, spread8_apply, asCol_apply, mulf_apply]
  refine congrArg (fun t => (wa (ix1 n) * wb (ix1 n)) * t) (lookup_apply T _ row l n f ?_)
  exact (congrArg (fun w : BitVec 32 => min w.toInt.toNat 7)
    (broadcastInDim_scalar_apply bcast_S_S262144 (constantI S_ 32 lw) (ix1 n))).trans hl

/-- The level regrouped: the zero accumulator plus the four corners in the order (0,0), (0,1), (1,0), (1,1). -/
def levelG (sw lw resw sizew : BitVec 32) (x : FVec Ideal S262144x2 .f32) (T : FVec Ideal S8x8192x8 .f32) :
    FVec Ideal S262144x8 .f32 :=
  addf
    (addf
      (addf
        (addf (broadcastInDim S262144x8 ![] bcast_S_S262144x8 (constant (F := Ideal) S_ .f32 0x00000000#32))
          (cornerV lw T (oneSub (colA (wgtV sw x))) (oneSub (colB (wgtV sw x))) (rowV resw sizew (cellV sw x) 0#32 0#32)))
        (cornerV lw T (oneSub (colA (wgtV sw x))) (colB (wgtV sw x)) (rowV resw sizew (cellV sw x) 0#32 1#32)))
      (cornerV lw T (colA (wgtV sw x)) (oneSub (colB (wgtV sw x))) (rowV resw sizew (cellV sw x) 1#32 0#32)))
    (cornerV lw T (colA (wgtV sw x)) (colB (wgtV sw x)) (rowV resw sizew (cellV sw x) 1#32 1#32))

/-- The level's chain of operations is the regrouping: the same operations on the same operands. -/
theorem levelR_eq_levelG (sw lw resw sizew : BitVec 32) (x : FVec Ideal S262144x2 .f32) (T : FVec Ideal S8x8192x8 .f32) :
    levelR (F := Ideal) sw lw resw sizew x T = levelG sw lw resw sizew x T := by
  unfold levelR levelR_part1 levelR_part2 levelR_part3 levelR_part4 levelR_part5 levelR_part6 levelR_part7 levelR_part8
    levelR_part9 levelR_part10
  rfl

/-- The level at (n, f) is the four-corner accumulation of the specification at the point's two coordinates. -/
theorem levelR_apply (sw lw resw sizew : BitVec 32) (l : Fin 8) (hl : min lw.toInt.toNat 7 = l.val)
    (x : FVec Ideal S262144x2 .f32) (T : FVec Ideal S8x8192x8 .f32) (n : Fin 262144) (f : Fin 8) :
    levelR (F := Ideal) sw lw resw sizew x T (ix2 n f)
      = Cert.Spec.lvlRef T l sw resw sizew (x (ix2 n 0)) (x (ix2 n 1)) f := by
  rw [levelR_eq_levelG]
  unfold levelG
  rw [addf_apply, addf_apply, addf_apply, addf_apply, broadcastInDim_scalar_apply,
    cornerV_apply lw l hl, cornerV_apply lw l hl, cornerV_apply lw l hl, cornerV_apply lw l hl,
    rowV_apply, rowV_apply, rowV_apply, rowV_apply, oneSub_apply, oneSub_apply, colA_apply, colB_apply,
    wgtV_apply, wgtV_apply, cellV_apply, cellV_apply]
  rfl

/-- The tail at (n, 0) is the network on the eight levels' features at n. -/
theorem tailR_apply (e0 e1 e2 e3 e4 e5 e6 e7 : FVec Ideal S262144x8 .f32) (W0 : FVec Ideal S64x256 .f32)
    (W1 W2 : FVec Ideal S256x256 .f32) (W3 : FVec Ideal S256x1 .f32) (n : Fin 262144) :
    tailR (F := Ideal) e0 e1 e2 e3 e4 e5 e6 e7 W0 W1 W2 W3 (ix2 n 0)
      = Cert.Spec.mlpRow W0 W1 W2 W3
          (Cert.Spec.enc8 (fun f => e0 (ix2 n f)) (fun f => e1 (ix2 n f)) (fun f => e2 (ix2 n f)) (fun f => e3 (ix2 n f))
            (fun f => e4 (ix2 n f)) (fun f => e5 (ix2 n f)) (fun f => e6 (ix2 n f)) (fun f => e7 (ix2 n f))) := by
  unfold tailR Cert.Spec.mlpRow
  refine (StackMember.dotGeneral_plain_apply none _ W3 n 0).trans
    (congrArg (fun v => Cert.Spec.dense W3 v 0) (funext fun k2 => ?_))
  refine (relu_apply _ (ix2 n k2)).trans (congrArg Cert.Spec.relu ?_)
  refine (StackMember.dotGeneral_plain_apply none _ W2 n k2).trans
    (congrArg (fun v => Cert.Spec.dense W2 v k2) (funext fun k1 => ?_))
  refine (relu_apply _ (ix2 n k1)).trans (congrArg Cert.Spec.relu ?_)
  refine (StackMember.dotGeneral_plain_apply none _ W1 n k1).trans
    (congrArg (fun v => Cert.Spec.dense W1 v k1) (funext fun k0 => ?_))
  refine (relu_apply _ (ix2 n k0)).trans (congrArg Cert.Spec.relu ?_)
  exact (StackMember.dotGeneral_plain_apply none _ W0 n k0).trans
    (congrArg (fun v => Cert.Spec.dense W0 v k0) (funext fun j => enc8_apply e0 e1 e2 e3 e4 e5 e6 e7 n j))

end Cert.ReferenceIdeal.RefVal

end
-- ==== Proof.RefG2.lean ====
/- The reference's result is the specification's function of its arguments. -/
import proofs.«132274_j36180804501977_1_alg».proof.Proof.RefRun
import proofs.«132274_j36180804501977_1_alg».proof.Proof.RefValue2
import proofs.«132274_j36180804501977_1_alg».proof.Proof.RefRead
import proofs.«132274_j36180804501977_1_alg».proof.Proof.Spec

noncomputable section

namespace Cert.ReferenceIdeal.RefVal

open Idealize.ShloMosaic Idealize.ShloMosaic.TcCoe Idealize.ShloMosaic.ValueIdx Idealize.ShloMosaic.StableHlo Idealize.SL.Sem
open Cert.ReferenceIdeal

variable [Cert.ReferenceIdeal.Facts]

/-- The program's result buffer, from any contents, holds the specification's function of the six arguments' contents. -/
theorem ref_value (V : Valuation τ sig (Elt Ideal)) :
    after (ops (F := Ideal)) V (Proc.devRef .tc main_v1159)
      = Cert.Spec.G (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [result_after]
  funext i
  obtain ⟨n, rfl⟩ : ∃ n : Fin 262144, i = ix2 n (0 : Fin 1) :=
    ⟨i 0, funext fun a => match a with
      | ⟨0, _⟩ => rfl
      | ⟨1, _⟩ => Fin.ext (by have h : (i 1).val < 1 := (i 1).isLt; show (i 1).val = 0; omega)⟩
  rw [tailR_apply]
  exact congrArg (Cert.Spec.mlpRow _ _ _ _) (congr (congr (congr (congr (congr (congr (congr (congrArg Cert.Spec.enc8 (funext fun f => levelR_apply _ _ _ _ 0 (by decide) _ _ n f))
    (funext fun f => levelR_apply _ _ _ _ 1 (by decide) _ _ n f))
    (funext fun f => levelR_apply _ _ _ _ 2 (by decide) _ _ n f))
    (funext fun f => levelR_apply _ _ _ _ 3 (by decide) _ _ n f))
    (funext fun f => levelR_apply _ _ _ _ 4 (by decide) _ _ n f))
    (funext fun f => levelR_apply _ _ _ _ 5 (by decide) _ _ n f))
    (funext fun f => levelR_apply _ _ _ _ 6 (by decide) _ _ n f))
    (funext fun f => levelR_apply _ _ _ _ 7 (by decide) _ _ n f))

/-- Every run of the reference ends with the specification's function of the launch arguments in the result, the arguments kept. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1159) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c main_v1159).trans (ref_value (launchContents m c)),
      (h c main_arg0).trans (arg0_after (launchContents m c)),
      (h c main_arg1).trans (arg1_after (launchContents m c)),
      (h c main_arg2).trans (arg2_after (launchContents m c)),
      (h c main_arg3).trans (arg3_after (launchContents m c)),
      (h c main_arg4).trans (arg4_after (launchContents m c)),
      (h c main_arg5).trans (arg5_after (launchContents m c))⟩)
    (run_after m ρ)

end Cert.ReferenceIdeal.RefVal

end
-- ==== Proof.lean ====
-- A multiresolution lattice encoding followed by a small dense network: the tiled kernel and the array program agree, point by point over the extended reals, for coordinates in [0, 1).
import proofs.«132274_j36180804501977_1_alg».proof.Defs
import proofs.«132274_j36180804501977_1_alg».proof.Proof.Gen.Kernel
import proofs.«132274_j36180804501977_1_alg».proof.Proof.Gen.Kernel.Frame
import proofs.«132274_j36180804501977_1_alg».proof.Proof.Gen.KernelIdeal
import proofs.«132274_j36180804501977_1_alg».proof.Proof.Gen.KernelIdeal.Frame
import proofs.«132274_j36180804501977_1_alg».proof.Proof.Gen.KernelIdeal.Value
import proofs.«132274_j36180804501977_1_alg».proof.Proof.Gen.ReferenceIdeal
import proofs.«132274_j36180804501977_1_alg».proof.Proof.Gen.Pre_finite_inputs
import proofs.«132274_j36180804501977_1_alg».proof.Proof.KerAll
import proofs.«132274_j36180804501977_1_alg».proof.Proof.RefG2
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefVal.run_G m ρ)

theorem preserves : Cert.preserves_Kernel_KernelIdeal := trivial

theorem algebraic : Cert.algebraic_KernelIdeal_ReferenceIdeal := by
  intro m g m' g' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans ((Cert.KernelIdeal.KerVal.final13 m c).trans (Cert.KernelIdeal.KerVal.GV_eq_G m c (hpre c))), (h c).2⟩)
      (Cert.KernelIdeal.Value.run_blocks m g)
  · refine (θ_run Cert.ReferenceIdeal.defs _ _).mono (fun r h c => ⟨(h c).1.trans ?_, (h c).2⟩) (Cert.ReferenceIdeal.RefVal.run_G m' g')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
